-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v547)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v547) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v552) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x16x64x64 : Shape := ⟨5, ![8, 64, 16, 64, 64]⟩
abbrev S1x2048x1x2 : Shape := ⟨4, ![1, 2048, 1, 2]⟩
abbrev S1x192x1x2048 : Shape := ⟨4, ![1, 192, 1, 2048]⟩
abbrev S2048 : Shape := ⟨1, ![2048]⟩
abbrev S_ : Shape := ⟨0, ![]⟩

class Facts : Prop where
  bcast_S_S8x64x16x64x64 : S_.BroadcastsInDim S8x64x16x64x64 (![] : Fin 0 → Fin S8x64x16x64x64.rank)
  reducesTo_S8x64x16x64x64_S_d0_1_2_3_4 : S8x64x16x64x64.ReducesTo [0, 1, 2, 3, 4] S_
  h_S_ : 0 < S_.numel
  bcast_S_S1x2048x1x2 : S_.BroadcastsInDim S1x2048x1x2 (![] : Fin 0 → Fin S1x2048x1x2.rank)
  reducesTo_S1x2048x1x2_S_d0_1_2_3 : S1x2048x1x2.ReducesTo [0, 1, 2, 3] S_
  bcast_S_S1x192x1x2048 : S_.BroadcastsInDim S1x192x1x2048 (![] : Fin 0 → Fin S1x192x1x2048.rank)
  reducesTo_S1x192x1x2048_S_d0_1_2_3 : S1x192x1x2048.ReducesTo [0, 1, 2, 3] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S8x64x16x64x64 .f32) (main_arg1 : FVec F S1x2048x1x2 .f32) (main_arg2 : FVec F S1x192x1x2048 .f32) (main_arg3 : FVec F S2048 .f32) : IVec S_ 1 :=
  let main_v0 : FVec F S8x64x16x64x64 .f32 := Host.absf main_arg0
  let main_cst : FVec F S_ .f32 := constant S_ .f32 0x7F800000#32
  let main_v1 : FVec F S8x64x16x64x64 .f32 := broadcastInDim S8x64x16x64x64 ![] bcast_S_S8x64x16x64x64 main_cst
  let main_v2 : IVec S8x64x16x64x64 1 := cmpf .olt main_v0 main_v1
  let main_c : IVec S_ 1 := constantI S_ 1 1#1
  let main_v3 : IVec S_ 1 := (fun x v => Host.reduce IntOp.andi x v reducesTo_S8x64x16x64x64_S_d0_1_2_3_4 h_S_) main_v2 main_c
  let main_v4 : FVec F S1x2048x1x2 .f32 := Host.absf main_arg1
  let main_cst_0 : FVec F S_ .f32 := constant S_ .f32 0x7F800000#32
  let main_v5 : FVec F S1x2048x1x2 .f32 := broadcastInDim S1x2048x1x2 ![] bcast_S_S1x2048x1x2 main_cst_0
  let main_v6 : IVec S1x2048x1x2 1 := cmpf .olt main_v4 main_v5
  let main_c_1 : IVec S_ 1 := constantI S_ 1 1#1
  let main_v7 : IVec S_ 1 := (fun x v => Host.reduce IntOp.andi x v reducesTo_S1x2048x1x2_S_d0_1_2_3 h_S_) main_v6 main_c_1
  let main_v8 : IVec S_ 1 := andi main_v3 main_v7
  let main_v9 : FVec F S1x192x1x2048 .f32 := Host.absf main_arg2
  let main_cst_2 : FVec F S_ .f32 := constant S_ .f32 0x7F800000#32
  let main_v10 : FVec F S1x192x1x2048 .f32 := broadcastInDim S1x192x1x2048 ![] bcast_S_S1x192x1x2048 main_cst_2
  let main_v11 : IVec S1x192x1x2048 1 := cmpf .olt main_v9 main_v10
  let main_c_3 : IVec S_ 1 := constantI S_ 1 1#1
  let main_v12 : IVec S_ 1 := (fun x v => Host.reduce IntOp.andi x v reducesTo_S1x192x1x2048_S_d0_1_2_3 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S8x64x16x64x64 : Shape := ⟨5, ![8, 64, 16, 64, 64]⟩
abbrev S1x2048x1x2 : Shape := ⟨4, ![1, 2048, 1, 2]⟩
abbrev S1x192x1x2048 : Shape := ⟨4, ![1, 192, 1, 2048]⟩
abbrev S2048 : Shape := ⟨1, ![2048]⟩
abbrev S2048x2 : Shape := ⟨2, ![2048, 2]⟩
abbrev S_ : Shape := ⟨0, ![]⟩
abbrev S2048x1 : Shape := ⟨2, ![2048, 1]⟩
abbrev S4096x2048 : Shape := ⟨2, ![4096, 2048]⟩
abbrev S1024x2048 : Shape := ⟨2, ![1024, 2048]⟩
abbrev S256x2048 : Shape := ⟨2, ![256, 2048]⟩
abbrev S3x64x2048 : Shape := ⟨3, ![3, 64, 2048]⟩
abbrev S1x2048 : Shape := ⟨2, ![1, 2048]⟩
abbrev S8x16x2048 : Shape := ⟨3, ![8, 16, 2048]⟩
abbrev S1x32x8x64x64 : Shape := ⟨5, ![1, 32, 8, 64, 64]⟩
abbrev S3x32x2048 : Shape := ⟨3, ![3, 32, 2048]⟩
abbrev S1x8x2048 : Shape := ⟨3, ![1, 8, 2048]⟩
abbrev S8x2048 : Shape := ⟨2, ![8, 2048]⟩
abbrev S32x8x64x64 : Shape := ⟨4, ![32, 8, 64, 64]⟩
abbrev S256x4096 : Shape := ⟨2, ![256, 4096]⟩
abbrev S32x8x32x2x64 : Shape := ⟨5, ![32, 8, 32, 2, 64]⟩
abbrev S32x8x32x64 : Shape := ⟨4, ![32, 8, 32, 64]⟩
abbrev S32x8x64x32 : Shape := ⟨4, ![32, 8, 64, 32]⟩
abbrev S32x8x32x2x32 : Shape := ⟨5, ![32, 8, 32, 2, 32]⟩
abbrev S32x8x32x32 : Shape := ⟨4, ![32, 8, 32, 32]⟩
abbrev S256x1024 : Shape := ⟨2, ![256, 1024]⟩
abbrev S32x8x16x2x32 : Shape := ⟨5, ![32, 8, 16, 2, 32]⟩
abbrev S32x8x16x32 : Shape := ⟨4, ![32, 8, 16, 32]⟩
abbrev S32x8x32x16 : Shape := ⟨4, ![32, 8, 32, 16]⟩
abbrev S32x8x16x2x16 : Shape := ⟨5, ![32, 8, 16, 2, 16]⟩
abbrev S32x8x16x16 : Shape := ⟨4, ![32, 8, 16, 16]⟩
abbrev S256x256 : Shape := ⟨2, ![256, 256]⟩
abbrev S32x8x2048 : Shape := ⟨3, ![32, 8, 2048]⟩
abbrev S1x32x2048 : Shape := ⟨3, ![1, 32, 2048]⟩
abbrev S32x2048 : Shape := ⟨2, ![32, 2048]⟩
abbrev S32x1x2048 : Shape := ⟨3, ![32, 1, 2048]⟩

abbrev nBuf : Space → Nat
  | .hbm => 934
  | .vmem => 11
  | .smem => 0
  | _ => 0

abbrev hbmTy0_0 (i : Nat) : BufTy := match i % 128 with
  | 0 => ⟨S8x64x16x64x64, .f32⟩
  | 1 => ⟨S1x2048x1x2, .f32⟩
  | 2 => ⟨S1x192x1x2048, .f32⟩
  | 3 => ⟨S2048, .f32⟩
  | 4 => ⟨S2048x2, .f32⟩
  | 5 => ⟨S_, .f32⟩
  | 6 => ⟨S_, .f32⟩
  | 7 => ⟨S_, .f32⟩
  | 8 => ⟨S2048x2, .f32⟩
  | 9 => ⟨S2048x2, .f32⟩
  | 10 => ⟨S_, .f32⟩
  | 11 => ⟨S2048x2, .f32⟩
  | 12 => ⟨S2048x2, .f32⟩
  | 13 => ⟨S2048x1, .f32⟩
  | 14 => ⟨S2048, .f32⟩
  | 15 => ⟨S2048x1, .f32⟩
  | 16 => ⟨S2048, .f32⟩
  | 17 => ⟨S_, .f32⟩
  | 18 => ⟨S2048, .f32⟩
  | 19 => ⟨S2048, .f32⟩
  | 20 => ⟨S_, .f32⟩
  | 21 => ⟨S2048, .f32⟩
  | 22 => ⟨S2048, .f32⟩
  | 23 => ⟨S_, .f32⟩
  | 24 => ⟨S2048, .f32⟩
  | 25 => ⟨S2048, .f32⟩
  | 26 => ⟨S_, .f32⟩
  | 27 => ⟨S2048, .f32⟩
  | 28 => ⟨S2048, .f32⟩
  | 29 => ⟨S_, .f32⟩
  | 30 => ⟨S2048, .f32⟩
  | 31 => ⟨S2048, .f32⟩
  | 32 => ⟨S_, .f32⟩
  | 33 => ⟨S2048, .f32⟩
  | 34 => ⟨S2048, .f32⟩
  | 35 => ⟨S_, .f32⟩
  | 36 => ⟨S2048, .f32⟩
  | 37 => ⟨S2048, .f32⟩
  | 38 => ⟨S_, .f32⟩
  | 39 => ⟨S2048, .f32⟩
  | 40 => ⟨S2048, .f32⟩
  | 41 => ⟨S2048, .f32⟩
  | 42 => ⟨S2048, .f32⟩
  | 43 => ⟨S2048, .f32⟩
  | 44 => ⟨S2048, .f32⟩
  | 45 => ⟨S2048, .i32⟩
  | 46 => ⟨S2048, .i32⟩
  | 47 => ⟨S2048, .i32⟩
  | 48 => ⟨S_, .f32⟩
  | 49 => ⟨S4096x2048, .f32⟩
  | 50 => ⟨S_, .f32⟩
  | 51 => ⟨S2048, .f32⟩
  | 52 => ⟨S2048, .f32⟩
  | 53 => ⟨S_, .f32⟩
  | 54 => ⟨S2048, .f32⟩
  | 55 => ⟨S2048, .f32⟩
  | 56 => ⟨S2048, .f32⟩
  | 57 => ⟨S_, .f32⟩
  | 58 => ⟨S2048, .f32⟩
  | 59 => ⟨S2048, .f32⟩
  | 60 => ⟨S2048, .f32⟩
  | 61 => ⟨S_, .f32⟩
  | 62 => ⟨S2048, .f32⟩
  | 63 => ⟨S2048, .f32⟩
  | 64 => ⟨S2048, .f32⟩
  | 65 => ⟨S2048, .f32⟩
  | 66 => ⟨S_, .i32⟩
  | 67 => ⟨S2048, .i32⟩
  | 68 => ⟨S2048, .i32⟩
  | 69 => ⟨S_, .i32⟩
  | 70 => ⟨S2048, .i32⟩
  | 71 => ⟨S2048, .i32⟩
  | 72 => ⟨S_, .i32⟩
  | 73 => ⟨S2048, .i32⟩
  | 74 => ⟨S2048, .i1⟩
  | 75 => ⟨S_, .i32⟩
  | 76 => ⟨S2048, .i32⟩
  | 77 => ⟨S2048, .i1⟩
  | 78 => ⟨S2048, .i1⟩
  | 79 => ⟨S_, .i32⟩
  | 80 => ⟨S2048, .i32⟩
  | 81 => ⟨S2048, .i1⟩
  | 82 => ⟨S2048, .i1⟩
  | 83 => ⟨S_, .i32⟩
  | 84 => ⟨S2048, .i32⟩
  | 85 => ⟨S2048, .i1⟩
  | 86 => ⟨S2048, .i1⟩
  | 87 => ⟨S_, .i32⟩
  | 88 => ⟨S_, .i32⟩
  | 89 => ⟨S_, .i32⟩
  | 90 => ⟨S2048, .i32⟩
  | 91 => ⟨S2048, .i32⟩
  | 92 => ⟨S_, .i32⟩
  | 93 => ⟨S2048, .i32⟩
  | 94 => ⟨S2048, .i32⟩
  | 95 => ⟨S_, .i32⟩
  | 96 => ⟨S_, .i32⟩
  | 97 => ⟨S_, .i32⟩
  | 98 => ⟨S2048, .i32⟩
  | 99 => ⟨S2048, .i32⟩
  | 100 => ⟨S_, .i32⟩
  | 101 => ⟨S2048, .i32⟩
  | 102 => ⟨S2048, .i32⟩
  | 103 => ⟨S_, .i32⟩
  | 104 => ⟨S2048, .i32⟩
  | 105 => ⟨S2048, .i32⟩
  | 106 => ⟨S2048, .i32⟩
  | 107 => ⟨S_, .f32⟩
  | 108 => ⟨S_, .f32⟩
  | 109 => ⟨S2048, .f32⟩
  | 110 => ⟨S2048, .f32⟩
  | 111 => ⟨S_, .i32⟩
  | 112 => ⟨S2048, .i32⟩
  | 113 => ⟨S2048, .i1⟩
  | 114 => ⟨S_, .i32⟩
  | 115 => ⟨S2048, .i32⟩
  | 116 => ⟨S2048, .i32⟩
  | 117 => ⟨S2048, .i32⟩
  | 118 => ⟨S_, .i32⟩
  | 119 => ⟨S2048, .i32⟩
  | 120 => ⟨S2048, .i1⟩
  | 121 => ⟨S_, .i32⟩
  | 122 => ⟨S2048, .i32⟩
  | 123 => ⟨S2048, .i32⟩
  | 124 => ⟨S2048, .i32⟩
  | 125 => ⟨S2048x1, .i32⟩
  | 126 => ⟨S2048x1, .i32⟩
  | 127 => ⟨S2048x2, .i32⟩
  | _ => ⟨S8x64x16x64x64, .f32⟩

abbrev hbmTy0_1 (i : Nat) : BufTy := match i % 128 with
  | 0 => ⟨S4096x2048, .f32⟩
  | 1 => ⟨S_, .i32⟩
  | 2 => ⟨S2048, .i32⟩
  | 3 => ⟨S2048, .i32⟩
  | 4 => ⟨S_, .i32⟩
  | 5 => ⟨S2048, .i32⟩
  | 6 => ⟨S2048, .i32⟩
  | 7 => ⟨S_, .i32⟩
  | 8 => ⟨S2048, .i32⟩
  | 9 => ⟨S2048, .i1⟩
  | 10 => ⟨S_, .i32⟩
  | 11 => ⟨S2048, .i32⟩
  | 12 => ⟨S2048, .i1⟩
  | 13 => ⟨S2048, .i1⟩
  | 14 => ⟨S_, .i32⟩
  | 15 => ⟨S2048, .i32⟩
  | 16 => ⟨S2048, .i1⟩
  | 17 => ⟨S2048, .i1⟩
  | 18 => ⟨S_, .i32⟩
  | 19 => ⟨S2048, .i32⟩
  | 20 => ⟨S2048, .i1⟩
  | 21 => ⟨S2048, .i1⟩
  | 22 => ⟨S_, .i32⟩
  | 23 => ⟨S_, .i32⟩
  | 24 => ⟨S_, .i32⟩
  | 25 => ⟨S2048, .i32⟩
  | 26 => ⟨S2048, .i32⟩
  | 27 => ⟨S_, .i32⟩
  | 28 => ⟨S2048, .i32⟩
  | 29 => ⟨S2048, .i32⟩
  | 30 => ⟨S_, .i32⟩
  | 31 => ⟨S_, .i32⟩
  | 32 => ⟨S_, .i32⟩
  | 33 => ⟨S2048, .i32⟩
  | 34 => ⟨S2048, .i32⟩
  | 35 => ⟨S_, .i32⟩
  | 36 => ⟨S2048, .i32⟩
  | 37 => ⟨S2048, .i32⟩
  | 38 => ⟨S_, .i32⟩
  | 39 => ⟨S2048, .i32⟩
  | 40 => ⟨S2048, .i32⟩
  | 41 => ⟨S2048, .i32⟩
  | 42 => ⟨S_, .f32⟩
  | 43 => ⟨S_, .f32⟩
  | 44 => ⟨S2048, .f32⟩
  | 45 => ⟨S2048, .f32⟩
  | 46 => ⟨S_, .i32⟩
  | 47 => ⟨S2048, .i32⟩
  | 48 => ⟨S2048, .i1⟩
  | 49 => ⟨S_, .i32⟩
  | 50 => ⟨S2048, .i32⟩
  | 51 => ⟨S2048, .i32⟩
  | 52 => ⟨S2048, .i32⟩
  | 53 => ⟨S_, .i32⟩
  | 54 => ⟨S2048, .i32⟩
  | 55 => ⟨S2048, .i1⟩
  | 56 => ⟨S_, .i32⟩
  | 57 => ⟨S2048, .i32⟩
  | 58 => ⟨S2048, .i32⟩
  | 59 => ⟨S2048, .i32⟩
  | 60 => ⟨S2048x1, .i32⟩
  | 61 => ⟨S2048x1, .i32⟩
  | 62 => ⟨S2048x2, .i32⟩
  | 63 => ⟨S4096x2048, .f32⟩
  | 64 => ⟨S_, .i32⟩
  | 65 => ⟨S2048, .i32⟩
  | 66 => ⟨S2048, .i32⟩
  | 67 => ⟨S_, .i32⟩
  | 68 => ⟨S2048, .i32⟩
  | 69 => ⟨S2048, .i32⟩
  | 70 => ⟨S_, .i32⟩
  | 71 => ⟨S2048, .i32⟩
  | 72 => ⟨S2048, .i1⟩
  | 73 => ⟨S_, .i32⟩
  | 74 => ⟨S2048, .i32⟩
  | 75 => ⟨S2048, .i1⟩
  | 76 => ⟨S2048, .i1⟩
  | 77 => ⟨S_, .i32⟩
  | 78 => ⟨S2048, .i32⟩
  | 79 => ⟨S2048, .i1⟩
  | 80 => ⟨S2048, .i1⟩
  | 81 => ⟨S_, .i32⟩
  | 82 => ⟨S2048, .i32⟩
  | 83 => ⟨S2048, .i1⟩
  | 84 => ⟨S2048, .i1⟩
  | 85 => ⟨S_, .i32⟩
  | 86 => ⟨S_, .i32⟩
  | 87 => ⟨S_, .i32⟩
  | 88 => ⟨S2048, .i32⟩
  | 89 => ⟨S2048, .i32⟩
  | 90 => ⟨S_, .i32⟩
  | 91 => ⟨S2048, .i32⟩
  | 92 => ⟨S2048, .i32⟩
  | 93 => ⟨S_, .i32⟩
  | 94 => ⟨S_, .i32⟩
  | 95 => ⟨S_, .i32⟩
  | 96 => ⟨S2048, .i32⟩
  | 97 => ⟨S2048, .i32⟩
  | 98 => ⟨S_, .i32⟩
  | 99 => ⟨S2048, .i32⟩
  | 100 => ⟨S2048, .i32⟩
  | 101 => ⟨S_, .i32⟩
  | 102 => ⟨S2048, .i32⟩
  | 103 => ⟨S2048, .i32⟩
  | 104 => ⟨S2048, .i32⟩
  | 105 => ⟨S_, .f32⟩
  | 106 => ⟨S_, .f32⟩
  | 107 => ⟨S2048, .f32⟩
  | 108 => ⟨S2048, .f32⟩
  | 109 => ⟨S_, .i32⟩
  | 110 => ⟨S2048, .i32⟩
  | 111 => ⟨S2048, .i1⟩
  | 112 => ⟨S_, .i32⟩
  | 113 => ⟨S2048, .i32⟩
  | 114 => ⟨S2048, .i32⟩
  | 115 => ⟨S2048, .i32⟩
  | 116 => ⟨S_, .i32⟩
  | 117 => ⟨S2048, .i32⟩
  | 118 => ⟨S2048, .i1⟩
  | 119 => ⟨S_, .i32⟩
  | 120 => ⟨S2048, .i32⟩
  | 121 => ⟨S2048, .i32⟩
  | 122 => ⟨S2048, .i32⟩
  | 123 => ⟨S2048x1, .i32⟩
  | 124 => ⟨S2048x1, .i32⟩
  | 125 => ⟨S2048x2, .i32⟩
  | 126 => ⟨S4096x2048, .f32⟩
  | 127 => ⟨S_, .i32⟩
  | _ => ⟨S8x64x16x64x64, .f32⟩

abbrev hbmTy0_2 (i : Nat) : BufTy := match i % 128 with
  | 0 => ⟨S2048, .i32⟩
  | 1 => ⟨S2048, .i32⟩
  | 2 => ⟨S_, .i32⟩
  | 3 => ⟨S2048, .i32⟩
  | 4 => ⟨S2048, .i32⟩
  | 5 => ⟨S_, .i32⟩
  | 6 => ⟨S2048, .i32⟩
  | 7 => ⟨S2048, .i1⟩
  | 8 => ⟨S_, .i32⟩
  | 9 => ⟨S2048, .i32⟩
  | 10 => ⟨S2048, .i1⟩
  | 11 => ⟨S2048, .i1⟩
  | 12 => ⟨S_, .i32⟩
  | 13 => ⟨S2048, .i32⟩
  | 14 => ⟨S2048, .i1⟩
  | 15 => ⟨S2048, .i1⟩
  | 16 => ⟨S_, .i32⟩
  | 17 => ⟨S2048, .i32⟩
  | 18 => ⟨S2048, .i1⟩
  | 19 => ⟨S2048, .i1⟩
  | 20 => ⟨S_, .i32⟩
  | 21 => ⟨S_, .i32⟩
  | 22 => ⟨S_, .i32⟩
  | 23 => ⟨S2048, .i32⟩
  | 24 => ⟨S2048, .i32⟩
  | 25 => ⟨S_, .i32⟩
  | 26 => ⟨S2048, .i32⟩
  | 27 => ⟨S2048, .i32⟩
  | 28 => ⟨S_, .i32⟩
  | 29 => ⟨S_, .i32⟩
  | 30 => ⟨S_, .i32⟩
  | 31 => ⟨S2048, .i32⟩
  | 32 => ⟨S2048, .i32⟩
  | 33 => ⟨S_, .i32⟩
  | 34 => ⟨S2048, .i32⟩
  | 35 => ⟨S2048, .i32⟩
  | 36 => ⟨S_, .i32⟩
  | 37 => ⟨S2048, .i32⟩
  | 38 => ⟨S2048, .i32⟩
  | 39 => ⟨S2048, .i32⟩
  | 40 => ⟨S_, .f32⟩
  | 41 => ⟨S_, .f32⟩
  | 42 => ⟨S2048, .f32⟩
  | 43 => ⟨S2048, .f32⟩
  | 44 => ⟨S_, .i32⟩
  | 45 => ⟨S2048, .i32⟩
  | 46 => ⟨S2048, .i1⟩
  | 47 => ⟨S_, .i32⟩
  | 48 => ⟨S2048, .i32⟩
  | 49 => ⟨S2048, .i32⟩
  | 50 => ⟨S2048, .i32⟩
  | 51 => ⟨S_, .i32⟩
  | 52 => ⟨S2048, .i32⟩
  | 53 => ⟨S2048, .i1⟩
  | 54 => ⟨S_, .i32⟩
  | 55 => ⟨S2048, .i32⟩
  | 56 => ⟨S2048, .i32⟩
  | 57 => ⟨S2048, .i32⟩
  | 58 => ⟨S2048x1, .i32⟩
  | 59 => ⟨S2048x1, .i32⟩
  | 60 => ⟨S2048x2, .i32⟩
  | 61 => ⟨S4096x2048, .f32⟩
  | 62 => ⟨S4096x2048, .bf16⟩
  | 63 => ⟨S2048x1, .f32⟩
  | 64 => ⟨S2048, .f32⟩
  | 65 => ⟨S2048x1, .f32⟩
  | 66 => ⟨S2048, .f32⟩
  | 67 => ⟨S_, .f32⟩
  | 68 => ⟨S2048, .f32⟩
  | 69 => ⟨S2048, .f32⟩
  | 70 => ⟨S_, .f32⟩
  | 71 => ⟨S2048, .f32⟩
  | 72 => ⟨S2048, .f32⟩
  | 73 => ⟨S_, .f32⟩
  | 74 => ⟨S2048, .f32⟩
  | 75 => ⟨S2048, .f32⟩
  | 76 => ⟨S_, .f32⟩
  | 77 => ⟨S2048, .f32⟩
  | 78 => ⟨S2048, .f32⟩
  | 79 => ⟨S_, .f32⟩
  | 80 => ⟨S2048, .f32⟩
  | 81 => ⟨S2048, .f32⟩
  | 82 => ⟨S_, .f32⟩
  | 83 => ⟨S2048, .f32⟩
  | 84 => ⟨S2048, .f32⟩
  | 85 => ⟨S_, .f32⟩
  | 86 => ⟨S2048, .f32⟩
  | 87 => ⟨S2048, .f32⟩
  | 88 => ⟨S_, .f32⟩
  | 89 => ⟨S2048, .f32⟩
  | 90 => ⟨S2048, .f32⟩
  | 91 => ⟨S2048, .f32⟩
  | 92 => ⟨S2048, .f32⟩
  | 93 => ⟨S2048, .f32⟩
  | 94 => ⟨S2048, .f32⟩
  | 95 => ⟨S2048, .i32⟩
  | 96 => ⟨S2048, .i32⟩
  | 97 => ⟨S2048, .i32⟩
  | 98 => ⟨S_, .f32⟩
  | 99 => ⟨S1024x2048, .f32⟩
  | 100 => ⟨S_, .f32⟩
  | 101 => ⟨S2048, .f32⟩
  | 102 => ⟨S2048, .f32⟩
  | 103 => ⟨S_, .f32⟩
  | 104 => ⟨S2048, .f32⟩
  | 105 => ⟨S2048, .f32⟩
  | 106 => ⟨S2048, .f32⟩
  | 107 => ⟨S_, .f32⟩
  | 108 => ⟨S2048, .f32⟩
  | 109 => ⟨S2048, .f32⟩
  | 110 => ⟨S2048, .f32⟩
  | 111 => ⟨S_, .f32⟩
  | 112 => ⟨S2048, .f32⟩
  | 113 => ⟨S2048, .f32⟩
  | 114 => ⟨S2048, .f32⟩
  | 115 => ⟨S2048, .f32⟩
  | 116 => ⟨S_, .i32⟩
  | 117 => ⟨S2048, .i32⟩
  | 118 => ⟨S2048, .i32⟩
  | 119 => ⟨S_, .i32⟩
  | 120 => ⟨S2048, .i32⟩
  | 121 => ⟨S2048, .i32⟩
  | 122 => ⟨S_, .i32⟩
  | 123 => ⟨S2048, .i32⟩
  | 124 => ⟨S2048, .i1⟩
  | 125 => ⟨S_, .i32⟩
  | 126 => ⟨S2048, .i32⟩
  | 127 => ⟨S2048, .i1⟩
  | _ => ⟨S8x64x16x64x64, .f32⟩

abbrev hbmTy0_3 (i : Nat) : BufTy := match i % 128 with
  | 0 => ⟨S2048, .i1⟩
  | 1 => ⟨S_, .i32⟩
  | 2 => ⟨S2048, .i32⟩
  | 3 => ⟨S2048, .i1⟩
  | 4 => ⟨S2048, .i1⟩
  | 5 => ⟨S_, .i32⟩
  | 6 => ⟨S2048, .i32⟩
  | 7 => ⟨S2048, .i1⟩
  | 8 => ⟨S2048, .i1⟩
  | 9 => ⟨S_, .i32⟩
  | 10 => ⟨S_, .i32⟩
  | 11 => ⟨S_, .i32⟩
  | 12 => ⟨S2048, .i32⟩
  | 13 => ⟨S2048, .i32⟩
  | 14 => ⟨S_, .i32⟩
  | 15 => ⟨S2048, .i32⟩
  | 16 => ⟨S2048, .i32⟩
  | 17 => ⟨S_, .i32⟩
  | 18 => ⟨S_, .i32⟩
  | 19 => ⟨S_, .i32⟩
  | 20 => ⟨S2048, .i32⟩
  | 21 => ⟨S2048, .i32⟩
  | 22 => ⟨S_, .i32⟩
  | 23 => ⟨S2048, .i32⟩
  | 24 => ⟨S2048, .i32⟩
  | 25 => ⟨S_, .i32⟩
  | 26 => ⟨S2048, .i32⟩
  | 27 => ⟨S2048, .i32⟩
  | 28 => ⟨S2048, .i32⟩
  | 29 => ⟨S_, .f32⟩
  | 30 => ⟨S_, .f32⟩
  | 31 => ⟨S2048, .f32⟩
  | 32 => ⟨S2048, .f32⟩
  | 33 => ⟨S_, .i32⟩
  | 34 => ⟨S2048, .i32⟩
  | 35 => ⟨S2048, .i1⟩
  | 36 => ⟨S_, .i32⟩
  | 37 => ⟨S2048, .i32⟩
  | 38 => ⟨S2048, .i32⟩
  | 39 => ⟨S2048, .i32⟩
  | 40 => ⟨S_, .i32⟩
  | 41 => ⟨S2048, .i32⟩
  | 42 => ⟨S2048, .i1⟩
  | 43 => ⟨S_, .i32⟩
  | 44 => ⟨S2048, .i32⟩
  | 45 => ⟨S2048, .i32⟩
  | 46 => ⟨S2048, .i32⟩
  | 47 => ⟨S2048x1, .i32⟩
  | 48 => ⟨S2048x1, .i32⟩
  | 49 => ⟨S2048x2, .i32⟩
  | 50 => ⟨S1024x2048, .f32⟩
  | 51 => ⟨S_, .i32⟩
  | 52 => ⟨S2048, .i32⟩
  | 53 => ⟨S2048, .i32⟩
  | 54 => ⟨S_, .i32⟩
  | 55 => ⟨S2048, .i32⟩
  | 56 => ⟨S2048, .i32⟩
  | 57 => ⟨S_, .i32⟩
  | 58 => ⟨S2048, .i32⟩
  | 59 => ⟨S2048, .i1⟩
  | 60 => ⟨S_, .i32⟩
  | 61 => ⟨S2048, .i32⟩
  | 62 => ⟨S2048, .i1⟩
  | 63 => ⟨S2048, .i1⟩
  | 64 => ⟨S_, .i32⟩
  | 65 => ⟨S2048, .i32⟩
  | 66 => ⟨S2048, .i1⟩
  | 67 => ⟨S2048, .i1⟩
  | 68 => ⟨S_, .i32⟩
  | 69 => ⟨S2048, .i32⟩
  | 70 => ⟨S2048, .i1⟩
  | 71 => ⟨S2048, .i1⟩
  | 72 => ⟨S_, .i32⟩
  | 73 => ⟨S_, .i32⟩
  | 74 => ⟨S_, .i32⟩
  | 75 => ⟨S2048, .i32⟩
  | 76 => ⟨S2048, .i32⟩
  | 77 => ⟨S_, .i32⟩
  | 78 => ⟨S2048, .i32⟩
  | 79 => ⟨S2048, .i32⟩
  | 80 => ⟨S_, .i32⟩
  | 81 => ⟨S_, .i32⟩
  | 82 => ⟨S_, .i32⟩
  | 83 => ⟨S2048, .i32⟩
  | 84 => ⟨S2048, .i32⟩
  | 85 => ⟨S_, .i32⟩
  | 86 => ⟨S2048, .i32⟩
  | 87 => ⟨S2048, .i32⟩
  | 88 => ⟨S_, .i32⟩
  | 89 => ⟨S2048, .i32⟩
  | 90 => ⟨S2048, .i32⟩
  | 91 => ⟨S2048, .i32⟩
  | 92 => ⟨S_, .f32⟩
  | 93 => ⟨S_, .f32⟩
  | 94 => ⟨S2048, .f32⟩
  | 95 => ⟨S2048, .f32⟩
  | 96 => ⟨S_, .i32⟩
  | 97 => ⟨S2048, .i32⟩
  | 98 => ⟨S2048, .i1⟩
  | 99 => ⟨S_, .i32⟩
  | 100 => ⟨S2048, .i32⟩
  | 101 => ⟨S2048, .i32⟩
  | 102 => ⟨S2048, .i32⟩
  | 103 => ⟨S_, .i32⟩
  | 104 => ⟨S2048, .i32⟩
  | 105 => ⟨S2048, .i1⟩
  | 106 => ⟨S_, .i32⟩
  | 107 => ⟨S2048, .i32⟩
  | 108 => ⟨S2048, .i32⟩
  | 109 => ⟨S2048, .i32⟩
  | 110 => ⟨S2048x1, .i32⟩
  | 111 => ⟨S2048x1, .i32⟩
  | 112 => ⟨S2048x2, .i32⟩
  | 113 => ⟨S1024x2048, .f32⟩
  | 114 => ⟨S_, .i32⟩
  | 115 => ⟨S2048, .i32⟩
  | 116 => ⟨S2048, .i32⟩
  | 117 => ⟨S_, .i32⟩
  | 118 => ⟨S2048, .i32⟩
  | 119 => ⟨S2048, .i32⟩
  | 120 => ⟨S_, .i32⟩
  | 121 => ⟨S2048, .i32⟩
  | 122 => ⟨S2048, .i1⟩
  | 123 => ⟨S_, .i32⟩
  | 124 => ⟨S2048, .i32⟩
  | 125 => ⟨S2048, .i1⟩
  | 126 => ⟨S2048, .i1⟩
  | 127 => ⟨S_, .i32⟩
  | _ => ⟨S8x64x16x64x64, .f32⟩

abbrev hbmTy0_4 (i : Nat) : BufTy := match i % 128 with
  | 0 => ⟨S2048, .i32⟩
  | 1 => ⟨S2048, .i1⟩
  | 2 => ⟨S2048, .i1⟩
  | 3 => ⟨S_, .i32⟩
  | 4 => ⟨S2048, .i32⟩
  | 5 => ⟨S2048, .i1⟩
  | 6 => ⟨S2048, .i1⟩
  | 7 => ⟨S_, .i32⟩
  | 8 => ⟨S_, .i32⟩
  | 9 => ⟨S_, .i32⟩
  | 10 => ⟨S2048, .i32⟩
  | 11 => ⟨S2048, .i32⟩
  | 12 => ⟨S_, .i32⟩
  | 13 => ⟨S2048, .i32⟩
  | 14 => ⟨S2048, .i32⟩
  | 15 => ⟨S_, .i32⟩
  | 16 => ⟨S_, .i32⟩
  | 17 => ⟨S_, .i32⟩
  | 18 => ⟨S2048, .i32⟩
  | 19 => ⟨S2048, .i32⟩
  | 20 => ⟨S_, .i32⟩
  | 21 => ⟨S2048, .i32⟩
  | 22 => ⟨S2048, .i32⟩
  | 23 => ⟨S_, .i32⟩
  | 24 => ⟨S2048, .i32⟩
  | 25 => ⟨S2048, .i32⟩
  | 26 => ⟨S2048, .i32⟩
  | 27 => ⟨S_, .f32⟩
  | 28 => ⟨S_, .f32⟩
  | 29 => ⟨S2048, .f32⟩
  | 30 => ⟨S2048, .f32⟩
  | 31 => ⟨S_, .i32⟩
  | 32 => ⟨S2048, .i32⟩
  | 33 => ⟨S2048, .i1⟩
  | 34 => ⟨S_, .i32⟩
  | 35 => ⟨S2048, .i32⟩
  | 36 => ⟨S2048, .i32⟩
  | 37 => ⟨S2048, .i32⟩
  | 38 => ⟨S_, .i32⟩
  | 39 => ⟨S2048, .i32⟩
  | 40 => ⟨S2048, .i1⟩
  | 41 => ⟨S_, .i32⟩
  | 42 => ⟨S2048, .i32⟩
  | 43 => ⟨S2048, .i32⟩
  | 44 => ⟨S2048, .i32⟩
  | 45 => ⟨S2048x1, .i32⟩
  | 46 => ⟨S2048x1, .i32⟩
  | 47 => ⟨S2048x2, .i32⟩
  | 48 => ⟨S1024x2048, .f32⟩
  | 49 => ⟨S_, .i32⟩
  | 50 => ⟨S2048, .i32⟩
  | 51 => ⟨S2048, .i32⟩
  | 52 => ⟨S_, .i32⟩
  | 53 => ⟨S2048, .i32⟩
  | 54 => ⟨S2048, .i32⟩
  | 55 => ⟨S_, .i32⟩
  | 56 => ⟨S2048, .i32⟩
  | 57 => ⟨S2048, .i1⟩
  | 58 => ⟨S_, .i32⟩
  | 59 => ⟨S2048, .i32⟩
  | 60 => ⟨S2048, .i1⟩
  | 61 => ⟨S2048, .i1⟩
  | 62 => ⟨S_, .i32⟩
  | 63 => ⟨S2048, .i32⟩
  | 64 => ⟨S2048, .i1⟩
  | 65 => ⟨S2048, .i1⟩
  | 66 => ⟨S_, .i32⟩
  | 67 => ⟨S2048, .i32⟩
  | 68 => ⟨S2048, .i1⟩
  | 69 => ⟨S2048, .i1⟩
  | 70 => ⟨S_, .i32⟩
  | 71 => ⟨S_, .i32⟩
  | 72 => ⟨S_, .i32⟩
  | 73 => ⟨S2048, .i32⟩
  | 74 => ⟨S2048, .i32⟩
  | 75 => ⟨S_, .i32⟩
  | 76 => ⟨S2048, .i32⟩
  | 77 => ⟨S2048, .i32⟩
  | 78 => ⟨S_, .i32⟩
  | 79 => ⟨S_, .i32⟩
  | 80 => ⟨S_, .i32⟩
  | 81 => ⟨S2048, .i32⟩
  | 82 => ⟨S2048, .i32⟩
  | 83 => ⟨S_, .i32⟩
  | 84 => ⟨S2048, .i32⟩
  | 85 => ⟨S2048, .i32⟩
  | 86 => ⟨S_, .i32⟩
  | 87 => ⟨S2048, .i32⟩
  | 88 => ⟨S2048, .i32⟩
  | 89 => ⟨S2048, .i32⟩
  | 90 => ⟨S_, .f32⟩
  | 91 => ⟨S_, .f32⟩
  | 92 => ⟨S2048, .f32⟩
  | 93 => ⟨S2048, .f32⟩
  | 94 => ⟨S_, .i32⟩
  | 95 => ⟨S2048, .i32⟩
  | 96 => ⟨S2048, .i1⟩
  | 97 => ⟨S_, .i32⟩
  | 98 => ⟨S2048, .i32⟩
  | 99 => ⟨S2048, .i32⟩
  | 100 => ⟨S2048, .i32⟩
  | 101 => ⟨S_, .i32⟩
  | 102 => ⟨S2048, .i32⟩
  | 103 => ⟨S2048, .i1⟩
  | 104 => ⟨S_, .i32⟩
  | 105 => ⟨S2048, .i32⟩
  | 106 => ⟨S2048, .i32⟩
  | 107 => ⟨S2048, .i32⟩
  | 108 => ⟨S2048x1, .i32⟩
  | 109 => ⟨S2048x1, .i32⟩
  | 110 => ⟨S2048x2, .i32⟩
  | 111 => ⟨S1024x2048, .f32⟩
  | 112 => ⟨S1024x2048, .bf16⟩
  | 113 => ⟨S2048x1, .f32⟩
  | 114 => ⟨S2048, .f32⟩
  | 115 => ⟨S2048x1, .f32⟩
  | 116 => ⟨S2048, .f32⟩
  | 117 => ⟨S_, .f32⟩
  | 118 => ⟨S2048, .f32⟩
  | 119 => ⟨S2048, .f32⟩
  | 120 => ⟨S_, .f32⟩
  | 121 => ⟨S2048, .f32⟩
  | 122 => ⟨S2048, .f32⟩
  | 123 => ⟨S_, .f32⟩
  | 124 => ⟨S2048, .f32⟩
  | 125 => ⟨S2048, .f32⟩
  | 126 => ⟨S_, .f32⟩
  | 127 => ⟨S2048, .f32⟩
  | _ => ⟨S8x64x16x64x64, .f32⟩

abbrev hbmTy0_5 (i : Nat) : BufTy := match i % 128 with
  | 0 => ⟨S2048, .f32⟩
  | 1 => ⟨S_, .f32⟩
  | 2 => ⟨S2048, .f32⟩
  | 3 => ⟨S2048, .f32⟩
  | 4 => ⟨S_, .f32⟩
  | 5 => ⟨S2048, .f32⟩
  | 6 => ⟨S2048, .f32⟩
  | 7 => ⟨S_, .f32⟩
  | 8 => ⟨S2048, .f32⟩
  | 9 => ⟨S2048, .f32⟩
  | 10 => ⟨S_, .f32⟩
  | 11 => ⟨S2048, .f32⟩
  | 12 => ⟨S2048, .f32⟩
  | 13 => ⟨S2048, .f32⟩
  | 14 => ⟨S2048, .f32⟩
  | 15 => ⟨S2048, .f32⟩
  | 16 => ⟨S2048, .f32⟩
  | 17 => ⟨S2048, .i32⟩
  | 18 => ⟨S2048, .i32⟩
  | 19 => ⟨S2048, .i32⟩
  | 20 => ⟨S_, .f32⟩
  | 21 => ⟨S256x2048, .f32⟩
  | 22 => ⟨S_, .f32⟩
  | 23 => ⟨S2048, .f32⟩
  | 24 => ⟨S2048, .f32⟩
  | 25 => ⟨S_, .f32⟩
  | 26 => ⟨S2048, .f32⟩
  | 27 => ⟨S2048, .f32⟩
  | 28 => ⟨S2048, .f32⟩
  | 29 => ⟨S_, .f32⟩
  | 30 => ⟨S2048, .f32⟩
  | 31 => ⟨S2048, .f32⟩
  | 32 => ⟨S2048, .f32⟩
  | 33 => ⟨S_, .f32⟩
  | 34 => ⟨S2048, .f32⟩
  | 35 => ⟨S2048, .f32⟩
  | 36 => ⟨S2048, .f32⟩
  | 37 => ⟨S2048, .f32⟩
  | 38 => ⟨S_, .i32⟩
  | 39 => ⟨S2048, .i32⟩
  | 40 => ⟨S2048, .i32⟩
  | 41 => ⟨S_, .i32⟩
  | 42 => ⟨S2048, .i32⟩
  | 43 => ⟨S2048, .i32⟩
  | 44 => ⟨S_, .i32⟩
  | 45 => ⟨S2048, .i32⟩
  | 46 => ⟨S2048, .i1⟩
  | 47 => ⟨S_, .i32⟩
  | 48 => ⟨S2048, .i32⟩
  | 49 => ⟨S2048, .i1⟩
  | 50 => ⟨S2048, .i1⟩
  | 51 => ⟨S_, .i32⟩
  | 52 => ⟨S2048, .i32⟩
  | 53 => ⟨S2048, .i1⟩
  | 54 => ⟨S2048, .i1⟩
  | 55 => ⟨S_, .i32⟩
  | 56 => ⟨S2048, .i32⟩
  | 57 => ⟨S2048, .i1⟩
  | 58 => ⟨S2048, .i1⟩
  | 59 => ⟨S_, .i32⟩
  | 60 => ⟨S_, .i32⟩
  | 61 => ⟨S_, .i32⟩
  | 62 => ⟨S2048, .i32⟩
  | 63 => ⟨S2048, .i32⟩
  | 64 => ⟨S_, .i32⟩
  | 65 => ⟨S2048, .i32⟩
  | 66 => ⟨S2048, .i32⟩
  | 67 => ⟨S_, .i32⟩
  | 68 => ⟨S_, .i32⟩
  | 69 => ⟨S_, .i32⟩
  | 70 => ⟨S2048, .i32⟩
  | 71 => ⟨S2048, .i32⟩
  | 72 => ⟨S_, .i32⟩
  | 73 => ⟨S2048, .i32⟩
  | 74 => ⟨S2048, .i32⟩
  | 75 => ⟨S_, .i32⟩
  | 76 => ⟨S2048, .i32⟩
  | 77 => ⟨S2048, .i32⟩
  | 78 => ⟨S2048, .i32⟩
  | 79 => ⟨S_, .f32⟩
  | 80 => ⟨S_, .f32⟩
  | 81 => ⟨S2048, .f32⟩
  | 82 => ⟨S2048, .f32⟩
  | 83 => ⟨S_, .i32⟩
  | 84 => ⟨S2048, .i32⟩
  | 85 => ⟨S2048, .i1⟩
  | 86 => ⟨S_, .i32⟩
  | 87 => ⟨S2048, .i32⟩
  | 88 => ⟨S2048, .i32⟩
  | 89 => ⟨S2048, .i32⟩
  | 90 => ⟨S_, .i32⟩
  | 91 => ⟨S2048, .i32⟩
  | 92 => ⟨S2048, .i1⟩
  | 93 => ⟨S_, .i32⟩
  | 94 => ⟨S2048, .i32⟩
  | 95 => ⟨S2048, .i32⟩
  | 96 => ⟨S2048, .i32⟩
  | 97 => ⟨S2048x1, .i32⟩
  | 98 => ⟨S2048x1, .i32⟩
  | 99 => ⟨S2048x2, .i32⟩
  | 100 => ⟨S256x2048, .f32⟩
  | 101 => ⟨S_, .i32⟩
  | 102 => ⟨S2048, .i32⟩
  | 103 => ⟨S2048, .i32⟩
  | 104 => ⟨S_, .i32⟩
  | 105 => ⟨S2048, .i32⟩
  | 106 => ⟨S2048, .i32⟩
  | 107 => ⟨S_, .i32⟩
  | 108 => ⟨S2048, .i32⟩
  | 109 => ⟨S2048, .i1⟩
  | 110 => ⟨S_, .i32⟩
  | 111 => ⟨S2048, .i32⟩
  | 112 => ⟨S2048, .i1⟩
  | 113 => ⟨S2048, .i1⟩
  | 114 => ⟨S_, .i32⟩
  | 115 => ⟨S2048, .i32⟩
  | 116 => ⟨S2048, .i1⟩
  | 117 => ⟨S2048, .i1⟩
  | 118 => ⟨S_, .i32⟩
  | 119 => ⟨S2048, .i32⟩
  | 120 => ⟨S2048, .i1⟩
  | 121 => ⟨S2048, .i1⟩
  | 122 => ⟨S_, .i32⟩
  | 123 => ⟨S_, .i32⟩
  | 124 => ⟨S_, .i32⟩
  | 125 => ⟨S2048, .i32⟩
  | 126 => ⟨S2048, .i32⟩
  | 127 => ⟨S_, .i32⟩
  | _ => ⟨S8x64x16x64x64, .f32⟩

abbrev hbmTy0_6 (i : Nat) : BufTy := match i % 128 with
  | 0 => ⟨S2048, .i32⟩
  | 1 => ⟨S2048, .i32⟩
  | 2 => ⟨S_, .i32⟩
  | 3 => ⟨S_, .i32⟩
  | 4 => ⟨S_, .i32⟩
  | 5 => ⟨S2048, .i32⟩
  | 6 => ⟨S2048, .i32⟩
  | 7 => ⟨S_, .i32⟩
  | 8 => ⟨S2048, .i32⟩
  | 9 => ⟨S2048, .i32⟩
  | 10 => ⟨S_, .i32⟩
  | 11 => ⟨S2048, .i32⟩
  | 12 => ⟨S2048, .i32⟩
  | 13 => ⟨S2048, .i32⟩
  | 14 => ⟨S_, .f32⟩
  | 15 => ⟨S_, .f32⟩
  | 16 => ⟨S2048, .f32⟩
  | 17 => ⟨S2048, .f32⟩
  | 18 => ⟨S_, .i32⟩
  | 19 => ⟨S2048, .i32⟩
  | 20 => ⟨S2048, .i1⟩
  | 21 => ⟨S_, .i32⟩
  | 22 => ⟨S2048, .i32⟩
  | 23 => ⟨S2048, .i32⟩
  | 24 => ⟨S2048, .i32⟩
  | 25 => ⟨S_, .i32⟩
  | 26 => ⟨S2048, .i32⟩
  | 27 => ⟨S2048, .i1⟩
  | 28 => ⟨S_, .i32⟩
  | 29 => ⟨S2048, .i32⟩
  | 30 => ⟨S2048, .i32⟩
  | 31 => ⟨S2048, .i32⟩
  | 32 => ⟨S2048x1, .i32⟩
  | 33 => ⟨S2048x1, .i32⟩
  | 34 => ⟨S2048x2, .i32⟩
  | 35 => ⟨S256x2048, .f32⟩
  | 36 => ⟨S_, .i32⟩
  | 37 => ⟨S2048, .i32⟩
  | 38 => ⟨S2048, .i32⟩
  | 39 => ⟨S_, .i32⟩
  | 40 => ⟨S2048, .i32⟩
  | 41 => ⟨S2048, .i32⟩
  | 42 => ⟨S_, .i32⟩
  | 43 => ⟨S2048, .i32⟩
  | 44 => ⟨S2048, .i1⟩
  | 45 => ⟨S_, .i32⟩
  | 46 => ⟨S2048, .i32⟩
  | 47 => ⟨S2048, .i1⟩
  | 48 => ⟨S2048, .i1⟩
  | 49 => ⟨S_, .i32⟩
  | 50 => ⟨S2048, .i32⟩
  | 51 => ⟨S2048, .i1⟩
  | 52 => ⟨S2048, .i1⟩
  | 53 => ⟨S_, .i32⟩
  | 54 => ⟨S2048, .i32⟩
  | 55 => ⟨S2048, .i1⟩
  | 56 => ⟨S2048, .i1⟩
  | 57 => ⟨S_, .i32⟩
  | 58 => ⟨S_, .i32⟩
  | 59 => ⟨S_, .i32⟩
  | 60 => ⟨S2048, .i32⟩
  | 61 => ⟨S2048, .i32⟩
  | 62 => ⟨S_, .i32⟩
  | 63 => ⟨S2048, .i32⟩
  | 64 => ⟨S2048, .i32⟩
  | 65 => ⟨S_, .i32⟩
  | 66 => ⟨S_, .i32⟩
  | 67 => ⟨S_, .i32⟩
  | 68 => ⟨S2048, .i32⟩
  | 69 => ⟨S2048, .i32⟩
  | 70 => ⟨S_, .i32⟩
  | 71 => ⟨S2048, .i32⟩
  | 72 => ⟨S2048, .i32⟩
  | 73 => ⟨S_, .i32⟩
  | 74 => ⟨S2048, .i32⟩
  | 75 => ⟨S2048, .i32⟩
  | 76 => ⟨S2048, .i32⟩
  | 77 => ⟨S_, .f32⟩
  | 78 => ⟨S_, .f32⟩
  | 79 => ⟨S2048, .f32⟩
  | 80 => ⟨S2048, .f32⟩
  | 81 => ⟨S_, .i32⟩
  | 82 => ⟨S2048, .i32⟩
  | 83 => ⟨S2048, .i1⟩
  | 84 => ⟨S_, .i32⟩
  | 85 => ⟨S2048, .i32⟩
  | 86 => ⟨S2048, .i32⟩
  | 87 => ⟨S2048, .i32⟩
  | 88 => ⟨S_, .i32⟩
  | 89 => ⟨S2048, .i32⟩
  | 90 => ⟨S2048, .i1⟩
  | 91 => ⟨S_, .i32⟩
  | 92 => ⟨S2048, .i32⟩
  | 93 => ⟨S2048, .i32⟩
  | 94 => ⟨S2048, .i32⟩
  | 95 => ⟨S2048x1, .i32⟩
  | 96 => ⟨S2048x1, .i32⟩
  | 97 => ⟨S2048x2, .i32⟩
  | 98 => ⟨S256x2048, .f32⟩
  | 99 => ⟨S_, .i32⟩
  | 100 => ⟨S2048, .i32⟩
  | 101 => ⟨S2048, .i32⟩
  | 102 => ⟨S_, .i32⟩
  | 103 => ⟨S2048, .i32⟩
  | 104 => ⟨S2048, .i32⟩
  | 105 => ⟨S_, .i32⟩
  | 106 => ⟨S2048, .i32⟩
  | 107 => ⟨S2048, .i1⟩
  | 108 => ⟨S_, .i32⟩
  | 109 => ⟨S2048, .i32⟩
  | 110 => ⟨S2048, .i1⟩
  | 111 => ⟨S2048, .i1⟩
  | 112 => ⟨S_, .i32⟩
  | 113 => ⟨S2048, .i32⟩
  | 114 => ⟨S2048, .i1⟩
  | 115 => ⟨S2048, .i1⟩
  | 116 => ⟨S_, .i32⟩
  | 117 => ⟨S2048, .i32⟩
  | 118 => ⟨S2048, .i1⟩
  | 119 => ⟨S2048, .i1⟩
  | 120 => ⟨S_, .i32⟩
  | 121 => ⟨S_, .i32⟩
  | 122 => ⟨S_, .i32⟩
  | 123 => ⟨S2048, .i32⟩
  | 124 => ⟨S2048, .i32⟩
  | 125 => ⟨S_, .i32⟩
  | 126 => ⟨S2048, .i32⟩
  | 127 => ⟨S2048, .i32⟩
  | _ => ⟨S8x64x16x64x64, .f32⟩

abbrev hbmTy0_7 (i : Nat) : BufTy := match i % 128 with
  | 0 => ⟨S_, .i32⟩
  | 1 => ⟨S_, .i32⟩
  | 2 => ⟨S_, .i32⟩
  | 3 => ⟨S2048, .i32⟩
  | 4 => ⟨S2048, .i32⟩
  | 5 => ⟨S_, .i32⟩
  | 6 => ⟨S2048, .i32⟩
  | 7 => ⟨S2048, .i32⟩
  | 8 => ⟨S_, .i32⟩
  | 9 => ⟨S2048, .i32⟩
  | 10 => ⟨S2048, .i32⟩
  | 11 => ⟨S2048, .i32⟩
  | 12 => ⟨S_, .f32⟩
  | 13 => ⟨S_, .f32⟩
  | 14 => ⟨S2048, .f32⟩
  | 15 => ⟨S2048, .f32⟩
  | 16 => ⟨S_, .i32⟩
  | 17 => ⟨S2048, .i32⟩
  | 18 => ⟨S2048, .i1⟩
  | 19 => ⟨S_, .i32⟩
  | 20 => ⟨S2048, .i32⟩
  | 21 => ⟨S2048, .i32⟩
  | 22 => ⟨S2048, .i32⟩
  | 23 => ⟨S_, .i32⟩
  | 24 => ⟨S2048, .i32⟩
  | 25 => ⟨S2048, .i1⟩
  | 26 => ⟨S_, .i32⟩
  | 27 => ⟨S2048, .i32⟩
  | 28 => ⟨S2048, .i32⟩
  | 29 => ⟨S2048, .i32⟩
  | 30 => ⟨S2048x1, .i32⟩
  | 31 => ⟨S2048x1, .i32⟩
  | 32 => ⟨S2048x2, .i32⟩
  | 33 => ⟨S256x2048, .f32⟩
  | 34 => ⟨S256x2048, .bf16⟩
  | 35 => ⟨S3x64x2048, .f32⟩
  | 36 => ⟨S1x2048, .f32⟩
  | 37 => ⟨S8x16x2048, .f32⟩
  | _ => ⟨S8x64x16x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S8x64x16x64x64, .f32⟩

abbrev bufTy : (tb : Table) → Fin (tcTables nBuf tb) → BufTy
  | .hbm, ⟨i, _⟩ => hbmTy i
  | .local _ .vmem, ⟨0, _⟩ => ⟨S1x32x8x64x64, .f32⟩
  | .local _ .vmem, ⟨1, _⟩ => ⟨S1x32x8x64x64, .f32⟩
  | .local _ .vmem, ⟨2, _⟩ => ⟨S4096x2048, .bf16⟩
  | .local _ .vmem, ⟨3, _⟩ => ⟨S1024x2048, .bf16⟩
  | .local _ .vmem, ⟨4, _⟩ => ⟨S256x2048, .bf16⟩
  | .local _ .vmem, ⟨5, _⟩ => ⟨S3x32x2048, .f32⟩
  | .local _ .vmem, ⟨6, _⟩ => ⟨S3x32x2048, .f32⟩
  | .local _ .vmem, ⟨7, _⟩ => ⟨S1x2048, .f32⟩
  | .local _ .vmem, ⟨8, _⟩ => ⟨S1x8x2048, .f32⟩
  | .local _ .vmem, ⟨9, _⟩ => ⟨S1x8x2048, .f32⟩
  | .local _ .vmem, ⟨10, _⟩ => ⟨S8x2048, .f32⟩
  | _, _ => ⟨S8x64x16x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_v12 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_v15 : Ref sig .tc := ⟨.hbm, 31, rfl⟩
abbrev main_cst_6 : Ref sig .tc := ⟨.hbm, 32, rfl⟩
abbrev main_v16 : Ref sig .tc := ⟨.hbm, 33, rfl⟩
abbrev main_v17 : Ref sig .tc := ⟨.hbm, 34, rfl⟩
abbrev main_cst_7 : Ref sig .tc := ⟨.hbm, 35, rfl⟩
abbrev main_v18 : Ref sig .tc := ⟨.hbm, 36, rfl⟩
abbrev main_v19 : Ref sig .tc := ⟨.hbm, 37, rfl⟩
abbrev main_cst_8 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_cst_10 : Ref sig .tc := ⟨.hbm, 50, rfl⟩
abbrev main_v30 : Ref sig .tc := ⟨.hbm, 51, rfl⟩
abbrev main_v31 : Ref sig .tc := ⟨.hbm, 52, rfl⟩
abbrev main_cst_11 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_12 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_13 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c : Ref sig .tc := ⟨.hbm, 66, rfl⟩
abbrev main_v42 : Ref sig .tc := ⟨.hbm, 67, rfl⟩
abbrev main_v43 : Ref sig .tc := ⟨.hbm, 68, rfl⟩
abbrev main_c_14 : Ref sig .tc := ⟨.hbm, 69, rfl⟩
abbrev main_v44 : Ref sig .tc := ⟨.hbm, 70, rfl⟩
abbrev main_v45 : Ref sig .tc := ⟨.hbm, 71, rfl⟩
abbrev main_c_15 : Ref sig .tc := ⟨.hbm, 72, rfl⟩
abbrev main_v46 : Ref sig .tc := ⟨.hbm, 73, rfl⟩
abbrev main_v47 : Ref sig .tc := ⟨.hbm, 74, rfl⟩
abbrev main_c_16 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_17 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_c_18 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c_19 : Ref sig .tc := ⟨.hbm, 87, rfl⟩
abbrev main_c_20 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_v57 : Ref sig .tc := ⟨.hbm, 94, rfl⟩
abbrev main_c_21 : Ref sig .tc := ⟨.hbm, 95, rfl⟩
abbrev main_c_22 : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_v58 : Ref sig .tc := ⟨.hbm, 102, rfl⟩
abbrev main_c_23 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_cst_24 : Ref sig .tc := ⟨.hbm, 107, rfl⟩
abbrev main_call3_v0 : Ref sig .tc := ⟨.hbm, 108, rfl⟩
abbrev main_call3_v1 : Ref sig .tc := ⟨.hbm, 109, rfl⟩
abbrev main_v62 : Ref sig .tc := ⟨.hbm, 110, rfl⟩
abbrev main_c_25 : Ref sig .tc := ⟨.hbm, 111, rfl⟩
abbrev main_v63 : Ref sig .tc := ⟨.hbm, 112, rfl⟩
abbrev main_v64 : Ref sig .tc := ⟨.hbm, 113, rfl⟩
abbrev main_c_26 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_c_27 : Ref sig .tc := ⟨.hbm, 118, rfl⟩
abbrev main_v68 : Ref sig .tc := ⟨.hbm, 119, rfl⟩
abbrev main_v69 : Ref sig .tc := ⟨.hbm, 120, rfl⟩
abbrev main_c_28 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_c_29 : Ref sig .tc := ⟨.hbm, 129, rfl⟩
abbrev main_v77 : Ref sig .tc := ⟨.hbm, 130, rfl⟩
abbrev main_v78 : Ref sig .tc := ⟨.hbm, 131, rfl⟩
abbrev main_c_30 : Ref sig .tc := ⟨.hbm, 132, rfl⟩
abbrev main_v79 : Ref sig .tc := ⟨.hbm, 133, rfl⟩
abbrev main_v80 : Ref sig .tc := ⟨.hbm, 134, rfl⟩
abbrev main_c_31 : Ref sig .tc := ⟨.hbm, 135, rfl⟩
abbrev main_v81 : Ref sig .tc := ⟨.hbm, 136, rfl⟩
abbrev main_v82 : Ref sig .tc := ⟨.hbm, 137, rfl⟩
abbrev main_c_32 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_c_33 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_c_34 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_c_35 : Ref sig .tc := ⟨.hbm, 150, rfl⟩
abbrev main_c_36 : Ref sig .tc := ⟨.hbm, 151, rfl⟩
abbrev main_call4_v0 : Ref sig .tc := ⟨.hbm, 152, rfl⟩
abbrev main_call4_v1 : Ref sig .tc := ⟨.hbm, 153, rfl⟩
abbrev main_call4_v2 : Ref sig .tc := ⟨.hbm, 154, rfl⟩
abbrev main_call4_v3 : Ref sig .tc := ⟨.hbm, 155, rfl⟩
abbrev main_call4_v4 : Ref sig .tc := ⟨.hbm, 156, rfl⟩
abbrev main_v92 : Ref sig .tc := ⟨.hbm, 157, rfl⟩
abbrev main_c_37 : Ref sig .tc := ⟨.hbm, 158, rfl⟩
abbrev main_c_38 : Ref sig .tc := ⟨.hbm, 159, rfl⟩
abbrev main_call5_v0 : Ref sig .tc := ⟨.hbm, 160, rfl⟩
abbrev main_call5_v1 : Ref sig .tc := ⟨.hbm, 161, rfl⟩
abbrev main_call5_v2 : Ref sig .tc := ⟨.hbm, 162, rfl⟩
abbrev main_call5_v3 : Ref sig .tc := ⟨.hbm, 163, rfl⟩
abbrev main_call5_v4 : Ref sig .tc := ⟨.hbm, 164, rfl⟩
abbrev main_v93 : Ref sig .tc := ⟨.hbm, 165, rfl⟩
abbrev main_c_39 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_cst_40 : Ref sig .tc := ⟨.hbm, 170, rfl⟩
abbrev main_call6_v0 : Ref sig .tc := ⟨.hbm, 171, rfl⟩
abbrev main_call6_v1 : Ref sig .tc := ⟨.hbm, 172, rfl⟩
abbrev main_v97 : Ref sig .tc := ⟨.hbm, 173, rfl⟩
abbrev main_c_41 : Ref sig .tc := ⟨.hbm, 174, rfl⟩
abbrev main_v98 : Ref sig .tc := ⟨.hbm, 175, rfl⟩
abbrev main_v99 : Ref sig .tc := ⟨.hbm, 176, rfl⟩
abbrev main_c_42 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_c_43 : Ref sig .tc := ⟨.hbm, 181, rfl⟩
abbrev main_v103 : Ref sig .tc := ⟨.hbm, 182, rfl⟩
abbrev main_v104 : Ref sig .tc := ⟨.hbm, 183, rfl⟩
abbrev main_c_44 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_c_45 : Ref sig .tc := ⟨.hbm, 192, rfl⟩
abbrev main_v112 : Ref sig .tc := ⟨.hbm, 193, rfl⟩
abbrev main_v113 : Ref sig .tc := ⟨.hbm, 194, rfl⟩
abbrev main_c_46 : Ref sig .tc := ⟨.hbm, 195, rfl⟩
abbrev main_v114 : Ref sig .tc := ⟨.hbm, 196, rfl⟩
abbrev main_v115 : Ref sig .tc := ⟨.hbm, 197, rfl⟩
abbrev main_c_47 : Ref sig .tc := ⟨.hbm, 198, rfl⟩
abbrev main_v116 : Ref sig .tc := ⟨.hbm, 199, rfl⟩
abbrev main_v117 : Ref sig .tc := ⟨.hbm, 200, rfl⟩
abbrev main_c_48 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_c_49 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_c_50 : Ref sig .tc := ⟨.hbm, 209, rfl⟩
abbrev main_v124 : Ref sig .tc := ⟨.hbm, 210, rfl⟩
abbrev main_v125 : Ref sig .tc := ⟨.hbm, 211, rfl⟩
abbrev main_v126 : Ref sig .tc := ⟨.hbm, 212, rfl⟩
abbrev main_c_51 : Ref sig .tc := ⟨.hbm, 213, rfl⟩
abbrev main_c_52 : Ref sig .tc := ⟨.hbm, 214, rfl⟩
abbrev main_call7_v0 : Ref sig .tc := ⟨.hbm, 215, rfl⟩
abbrev main_call7_v1 : Ref sig .tc := ⟨.hbm, 216, rfl⟩
abbrev main_call7_v2 : Ref sig .tc := ⟨.hbm, 217, rfl⟩
abbrev main_call7_v3 : Ref sig .tc := ⟨.hbm, 218, rfl⟩
abbrev main_call7_v4 : Ref sig .tc := ⟨.hbm, 219, rfl⟩
abbrev main_v127 : Ref sig .tc := ⟨.hbm, 220, rfl⟩
abbrev main_c_53 : Ref sig .tc := ⟨.hbm, 221, rfl⟩
abbrev main_c_54 : Ref sig .tc := ⟨.hbm, 222, rfl⟩
abbrev main_call8_v0 : Ref sig .tc := ⟨.hbm, 223, rfl⟩
abbrev main_call8_v1 : Ref sig .tc := ⟨.hbm, 224, rfl⟩
abbrev main_call8_v2 : Ref sig .tc := ⟨.hbm, 225, rfl⟩
abbrev main_call8_v3 : Ref sig .tc := ⟨.hbm, 226, rfl⟩
abbrev main_call8_v4 : Ref sig .tc := ⟨.hbm, 227, rfl⟩
abbrev main_v128 : Ref sig .tc := ⟨.hbm, 228, rfl⟩
abbrev main_c_55 : Ref sig .tc := ⟨.hbm, 229, rfl⟩
abbrev main_v129 : Ref sig .tc := ⟨.hbm, 230, rfl⟩
abbrev main_v130 : Ref sig .tc := ⟨.hbm, 231, rfl⟩
abbrev main_v131 : Ref sig .tc := ⟨.hbm, 232, rfl⟩
abbrev main_cst_56 : Ref sig .tc := ⟨.hbm, 233, rfl⟩
abbrev main_call9_v0 : Ref sig .tc := ⟨.hbm, 234, rfl⟩
abbrev main_call9_v1 : Ref sig .tc := ⟨.hbm, 235, rfl⟩
abbrev main_v132 : Ref sig .tc := ⟨.hbm, 236, rfl⟩
abbrev main_c_57 : Ref sig .tc := ⟨.hbm, 237, rfl⟩
abbrev main_v133 : Ref sig .tc := ⟨.hbm, 238, rfl⟩
abbrev main_v134 : Ref sig .tc := ⟨.hbm, 239, rfl⟩
abbrev main_c_58 : Ref sig .tc := ⟨.hbm, 240, rfl⟩
abbrev main_v135 : Ref sig .tc := ⟨.hbm, 241, rfl⟩
abbrev main_v136 : Ref sig .tc := ⟨.hbm, 242, rfl⟩
abbrev main_v137 : Ref sig .tc := ⟨.hbm, 243, rfl⟩
abbrev main_c_59 : Ref sig .tc := ⟨.hbm, 244, rfl⟩
abbrev main_v138 : Ref sig .tc := ⟨.hbm, 245, rfl⟩
abbrev main_v139 : Ref sig .tc := ⟨.hbm, 246, rfl⟩
abbrev main_c_60 : Ref sig .tc := ⟨.hbm, 247, rfl⟩
abbrev main_v140 : Ref sig .tc := ⟨.hbm, 248, rfl⟩
abbrev main_v141 : Ref sig .tc := ⟨.hbm, 249, rfl⟩
abbrev main_v142 : Ref sig .tc := ⟨.hbm, 250, rfl⟩
abbrev main_v143 : Ref sig .tc := ⟨.hbm, 251, rfl⟩
abbrev main_v144 : Ref sig .tc := ⟨.hbm, 252, rfl⟩
abbrev main_v145 : Ref sig .tc := ⟨.hbm, 253, rfl⟩
abbrev main_v146 : Ref sig .tc := ⟨.hbm, 254, rfl⟩
abbrev main_c_61 : Ref sig .tc := ⟨.hbm, 255, rfl⟩
abbrev main_v147 : Ref sig .tc := ⟨.hbm, 256, rfl⟩
abbrev main_v148 : Ref sig .tc := ⟨.hbm, 257, rfl⟩
abbrev main_c_62 : Ref sig .tc := ⟨.hbm, 258, rfl⟩
abbrev main_v149 : Ref sig .tc := ⟨.hbm, 259, rfl⟩
abbrev main_v150 : Ref sig .tc := ⟨.hbm, 260, rfl⟩
abbrev main_c_63 : Ref sig .tc := ⟨.hbm, 261, rfl⟩
abbrev main_v151 : Ref sig .tc := ⟨.hbm, 262, rfl⟩
abbrev main_v152 : Ref sig .tc := ⟨.hbm, 263, rfl⟩
abbrev main_c_64 : Ref sig .tc := ⟨.hbm, 264, rfl⟩
abbrev main_v153 : Ref sig .tc := ⟨.hbm, 265, rfl⟩
abbrev main_v154 : Ref sig .tc := ⟨.hbm, 266, rfl⟩
abbrev main_v155 : Ref sig .tc := ⟨.hbm, 267, rfl⟩
abbrev main_c_65 : Ref sig .tc := ⟨.hbm, 268, rfl⟩
abbrev main_v156 : Ref sig .tc := ⟨.hbm, 269, rfl⟩
abbrev main_v157 : Ref sig .tc := ⟨.hbm, 270, rfl⟩
abbrev main_v158 : Ref sig .tc := ⟨.hbm, 271, rfl⟩
abbrev main_c_66 : Ref sig .tc := ⟨.hbm, 272, rfl⟩
abbrev main_v159 : Ref sig .tc := ⟨.hbm, 273, rfl⟩
abbrev main_v160 : Ref sig .tc := ⟨.hbm, 274, rfl⟩
abbrev main_v161 : Ref sig .tc := ⟨.hbm, 275, rfl⟩
abbrev main_c_67 : Ref sig .tc := ⟨.hbm, 276, rfl⟩
abbrev main_c_68 : Ref sig .tc := ⟨.hbm, 277, rfl⟩
abbrev main_call10_v0 : Ref sig .tc := ⟨.hbm, 278, rfl⟩
abbrev main_call10_v1 : Ref sig .tc := ⟨.hbm, 279, rfl⟩
abbrev main_call10_v2 : Ref sig .tc := ⟨.hbm, 280, rfl⟩
abbrev main_call10_v3 : Ref sig .tc := ⟨.hbm, 281, rfl⟩
abbrev main_call10_v4 : Ref sig .tc := ⟨.hbm, 282, rfl⟩
abbrev main_v162 : Ref sig .tc := ⟨.hbm, 283, rfl⟩
abbrev main_c_69 : Ref sig .tc := ⟨.hbm, 284, rfl⟩
abbrev main_c_70 : Ref sig .tc := ⟨.hbm, 285, rfl⟩
abbrev main_call11_v0 : Ref sig .tc := ⟨.hbm, 286, rfl⟩
abbrev main_call11_v1 : Ref sig .tc := ⟨.hbm, 287, rfl⟩
abbrev main_call11_v2 : Ref sig .tc := ⟨.hbm, 288, rfl⟩
abbrev main_call11_v3 : Ref sig .tc := ⟨.hbm, 289, rfl⟩
abbrev main_call11_v4 : Ref sig .tc := ⟨.hbm, 290, rfl⟩
abbrev main_v163 : Ref sig .tc := ⟨.hbm, 291, rfl⟩
abbrev main_c_71 : Ref sig .tc := ⟨.hbm, 292, rfl⟩
abbrev main_v164 : Ref sig .tc := ⟨.hbm, 293, rfl⟩
abbrev main_v165 : Ref sig .tc := ⟨.hbm, 294, rfl⟩
abbrev main_v166 : Ref sig .tc := ⟨.hbm, 295, rfl⟩
abbrev main_cst_72 : Ref sig .tc := ⟨.hbm, 296, rfl⟩
abbrev main_call12_v0 : Ref sig .tc := ⟨.hbm, 297, rfl⟩
abbrev main_call12_v1 : Ref sig .tc := ⟨.hbm, 298, rfl⟩
abbrev main_v167 : Ref sig .tc := ⟨.hbm, 299, rfl⟩
abbrev main_c_73 : Ref sig .tc := ⟨.hbm, 300, rfl⟩
abbrev main_v168 : Ref sig .tc := ⟨.hbm, 301, rfl⟩
abbrev main_v169 : Ref sig .tc := ⟨.hbm, 302, rfl⟩
abbrev main_c_74 : Ref sig .tc := ⟨.hbm, 303, rfl⟩
abbrev main_v170 : Ref sig .tc := ⟨.hbm, 304, rfl⟩
abbrev main_v171 : Ref sig .tc := ⟨.hbm, 305, rfl⟩
abbrev main_v172 : Ref sig .tc := ⟨.hbm, 306, rfl⟩
abbrev main_c_75 : Ref sig .tc := ⟨.hbm, 307, rfl⟩
abbrev main_v173 : Ref sig .tc := ⟨.hbm, 308, rfl⟩
abbrev main_v174 : Ref sig .tc := ⟨.hbm, 309, rfl⟩
abbrev main_c_76 : Ref sig .tc := ⟨.hbm, 310, rfl⟩
abbrev main_v175 : Ref sig .tc := ⟨.hbm, 311, rfl⟩
abbrev main_v176 : Ref sig .tc := ⟨.hbm, 312, rfl⟩
abbrev main_v177 : Ref sig .tc := ⟨.hbm, 313, rfl⟩
abbrev main_v178 : Ref sig .tc := ⟨.hbm, 314, rfl⟩
abbrev main_v179 : Ref sig .tc := ⟨.hbm, 315, rfl⟩
abbrev main_v180 : Ref sig .tc := ⟨.hbm, 316, rfl⟩
abbrev main_v181 : Ref sig .tc := ⟨.hbm, 317, rfl⟩
abbrev main_v182 : Ref sig .tc := ⟨.hbm, 318, rfl⟩
abbrev main_v183 : Ref sig .tc := ⟨.hbm, 319, rfl⟩
abbrev main_v184 : Ref sig .tc := ⟨.hbm, 320, rfl⟩
abbrev main_v185 : Ref sig .tc := ⟨.hbm, 321, rfl⟩
abbrev main_v186 : Ref sig .tc := ⟨.hbm, 322, rfl⟩
abbrev main_cst_77 : Ref sig .tc := ⟨.hbm, 323, rfl⟩
abbrev main_v187 : Ref sig .tc := ⟨.hbm, 324, rfl⟩
abbrev main_v188 : Ref sig .tc := ⟨.hbm, 325, rfl⟩
abbrev main_cst_78 : Ref sig .tc := ⟨.hbm, 326, rfl⟩
abbrev main_v189 : Ref sig .tc := ⟨.hbm, 327, rfl⟩
abbrev main_v190 : Ref sig .tc := ⟨.hbm, 328, rfl⟩
abbrev main_cst_79 : Ref sig .tc := ⟨.hbm, 329, rfl⟩
abbrev main_v191 : Ref sig .tc := ⟨.hbm, 330, rfl⟩
abbrev main_v192 : Ref sig .tc := ⟨.hbm, 331, rfl⟩
abbrev main_cst_80 : Ref sig .tc := ⟨.hbm, 332, rfl⟩
abbrev main_v193 : Ref sig .tc := ⟨.hbm, 333, rfl⟩
abbrev main_v194 : Ref sig .tc := ⟨.hbm, 334, rfl⟩
abbrev main_cst_81 : Ref sig .tc := ⟨.hbm, 335, rfl⟩
abbrev main_v195 : Ref sig .tc := ⟨.hbm, 336, rfl⟩
abbrev main_v196 : Ref sig .tc := ⟨.hbm, 337, rfl⟩
abbrev main_cst_82 : Ref sig .tc := ⟨.hbm, 338, rfl⟩
abbrev main_v197 : Ref sig .tc := ⟨.hbm, 339, rfl⟩
abbrev main_v198 : Ref sig .tc := ⟨.hbm, 340, rfl⟩
abbrev main_cst_83 : Ref sig .tc := ⟨.hbm, 341, rfl⟩
abbrev main_v199 : Ref sig .tc := ⟨.hbm, 342, rfl⟩
abbrev main_v200 : Ref sig .tc := ⟨.hbm, 343, rfl⟩
abbrev main_cst_84 : Ref sig .tc := ⟨.hbm, 344, rfl⟩
abbrev main_v201 : Ref sig .tc := ⟨.hbm, 345, rfl⟩
abbrev main_v202 : Ref sig .tc := ⟨.hbm, 346, rfl⟩
abbrev main_v203 : Ref sig .tc := ⟨.hbm, 347, rfl⟩
abbrev main_v204 : Ref sig .tc := ⟨.hbm, 348, rfl⟩
abbrev main_v205 : Ref sig .tc := ⟨.hbm, 349, rfl⟩
abbrev main_v206 : Ref sig .tc := ⟨.hbm, 350, rfl⟩
abbrev main_v207 : Ref sig .tc := ⟨.hbm, 351, rfl⟩
abbrev main_v208 : Ref sig .tc := ⟨.hbm, 352, rfl⟩
abbrev main_v209 : Ref sig .tc := ⟨.hbm, 353, rfl⟩
abbrev main_cst_85 : Ref sig .tc := ⟨.hbm, 354, rfl⟩
abbrev main_v210 : Ref sig .tc := ⟨.hbm, 355, rfl⟩
abbrev main_cst_86 : Ref sig .tc := ⟨.hbm, 356, rfl⟩
abbrev main_v211 : Ref sig .tc := ⟨.hbm, 357, rfl⟩
abbrev main_v212 : Ref sig .tc := ⟨.hbm, 358, rfl⟩
abbrev main_cst_87 : Ref sig .tc := ⟨.hbm, 359, rfl⟩
abbrev main_v213 : Ref sig .tc := ⟨.hbm, 360, rfl⟩
abbrev main_v214 : Ref sig .tc := ⟨.hbm, 361, rfl⟩
abbrev main_v215 : Ref sig .tc := ⟨.hbm, 362, rfl⟩
abbrev main_cst_88 : Ref sig .tc := ⟨.hbm, 363, rfl⟩
abbrev main_v216 : Ref sig .tc := ⟨.hbm, 364, rfl⟩
abbrev main_v217 : Ref sig .tc := ⟨.hbm, 365, rfl⟩
abbrev main_v218 : Ref sig .tc := ⟨.hbm, 366, rfl⟩
abbrev main_cst_89 : Ref sig .tc := ⟨.hbm, 367, rfl⟩
abbrev main_v219 : Ref sig .tc := ⟨.hbm, 368, rfl⟩
abbrev main_v220 : Ref sig .tc := ⟨.hbm, 369, rfl⟩
abbrev main_v221 : Ref sig .tc := ⟨.hbm, 370, rfl⟩
abbrev main_v222 : Ref sig .tc := ⟨.hbm, 371, rfl⟩
abbrev main_c_90 : Ref sig .tc := ⟨.hbm, 372, rfl⟩
abbrev main_v223 : Ref sig .tc := ⟨.hbm, 373, rfl⟩
abbrev main_v224 : Ref sig .tc := ⟨.hbm, 374, rfl⟩
abbrev main_c_91 : Ref sig .tc := ⟨.hbm, 375, rfl⟩
abbrev main_v225 : Ref sig .tc := ⟨.hbm, 376, rfl⟩
abbrev main_v226 : Ref sig .tc := ⟨.hbm, 377, rfl⟩
abbrev main_c_92 : Ref sig .tc := ⟨.hbm, 378, rfl⟩
abbrev main_v227 : Ref sig .tc := ⟨.hbm, 379, rfl⟩
abbrev main_v228 : Ref sig .tc := ⟨.hbm, 380, rfl⟩
abbrev main_c_93 : Ref sig .tc := ⟨.hbm, 381, rfl⟩
abbrev main_v229 : Ref sig .tc := ⟨.hbm, 382, rfl⟩
abbrev main_v230 : Ref sig .tc := ⟨.hbm, 383, rfl⟩
abbrev main_v231 : Ref sig .tc := ⟨.hbm, 384, rfl⟩
abbrev main_c_94 : Ref sig .tc := ⟨.hbm, 385, rfl⟩
abbrev main_v232 : Ref sig .tc := ⟨.hbm, 386, rfl⟩
abbrev main_v233 : Ref sig .tc := ⟨.hbm, 387, rfl⟩
abbrev main_v234 : Ref sig .tc := ⟨.hbm, 388, rfl⟩
abbrev main_c_95 : Ref sig .tc := ⟨.hbm, 389, rfl⟩
abbrev main_v235 : Ref sig .tc := ⟨.hbm, 390, rfl⟩
abbrev main_v236 : Ref sig .tc := ⟨.hbm, 391, rfl⟩
abbrev main_v237 : Ref sig .tc := ⟨.hbm, 392, rfl⟩
abbrev main_c_96 : Ref sig .tc := ⟨.hbm, 393, rfl⟩
abbrev main_c_97 : Ref sig .tc := ⟨.hbm, 394, rfl⟩
abbrev main_call13_v0 : Ref sig .tc := ⟨.hbm, 395, rfl⟩
abbrev main_call13_v1 : Ref sig .tc := ⟨.hbm, 396, rfl⟩
abbrev main_call13_v2 : Ref sig .tc := ⟨.hbm, 397, rfl⟩
abbrev main_call13_v3 : Ref sig .tc := ⟨.hbm, 398, rfl⟩
abbrev main_call13_v4 : Ref sig .tc := ⟨.hbm, 399, rfl⟩
abbrev main_v238 : Ref sig .tc := ⟨.hbm, 400, rfl⟩
abbrev main_c_98 : Ref sig .tc := ⟨.hbm, 401, rfl⟩
abbrev main_c_99 : Ref sig .tc := ⟨.hbm, 402, rfl⟩
abbrev main_call14_v0 : Ref sig .tc := ⟨.hbm, 403, rfl⟩
abbrev main_call14_v1 : Ref sig .tc := ⟨.hbm, 404, rfl⟩
abbrev main_call14_v2 : Ref sig .tc := ⟨.hbm, 405, rfl⟩
abbrev main_call14_v3 : Ref sig .tc := ⟨.hbm, 406, rfl⟩
abbrev main_call14_v4 : Ref sig .tc := ⟨.hbm, 407, rfl⟩
abbrev main_v239 : Ref sig .tc := ⟨.hbm, 408, rfl⟩
abbrev main_c_100 : Ref sig .tc := ⟨.hbm, 409, rfl⟩
abbrev main_v240 : Ref sig .tc := ⟨.hbm, 410, rfl⟩
abbrev main_v241 : Ref sig .tc := ⟨.hbm, 411, rfl⟩
abbrev main_v242 : Ref sig .tc := ⟨.hbm, 412, rfl⟩
abbrev main_cst_101 : Ref sig .tc := ⟨.hbm, 413, rfl⟩
abbrev main_call15_v0 : Ref sig .tc := ⟨.hbm, 414, rfl⟩
abbrev main_call15_v1 : Ref sig .tc := ⟨.hbm, 415, rfl⟩
abbrev main_v243 : Ref sig .tc := ⟨.hbm, 416, rfl⟩
abbrev main_c_102 : Ref sig .tc := ⟨.hbm, 417, rfl⟩
abbrev main_v244 : Ref sig .tc := ⟨.hbm, 418, rfl⟩
abbrev main_v245 : Ref sig .tc := ⟨.hbm, 419, rfl⟩
abbrev main_c_103 : Ref sig .tc := ⟨.hbm, 420, rfl⟩
abbrev main_v246 : Ref sig .tc := ⟨.hbm, 421, rfl⟩
abbrev main_v247 : Ref sig .tc := ⟨.hbm, 422, rfl⟩
abbrev main_v248 : Ref sig .tc := ⟨.hbm, 423, rfl⟩
abbrev main_c_104 : Ref sig .tc := ⟨.hbm, 424, rfl⟩
abbrev main_v249 : Ref sig .tc := ⟨.hbm, 425, rfl⟩
abbrev main_v250 : Ref sig .tc := ⟨.hbm, 426, rfl⟩
abbrev main_c_105 : Ref sig .tc := ⟨.hbm, 427, rfl⟩
abbrev main_v251 : Ref sig .tc := ⟨.hbm, 428, rfl⟩
abbrev main_v252 : Ref sig .tc := ⟨.hbm, 429, rfl⟩
abbrev main_v253 : Ref sig .tc := ⟨.hbm, 430, rfl⟩
abbrev main_v254 : Ref sig .tc := ⟨.hbm, 431, rfl⟩
abbrev main_v255 : Ref sig .tc := ⟨.hbm, 432, rfl⟩
abbrev main_v256 : Ref sig .tc := ⟨.hbm, 433, rfl⟩
abbrev main_v257 : Ref sig .tc := ⟨.hbm, 434, rfl⟩
abbrev main_c_106 : Ref sig .tc := ⟨.hbm, 435, rfl⟩
abbrev main_v258 : Ref sig .tc := ⟨.hbm, 436, rfl⟩
abbrev main_v259 : Ref sig .tc := ⟨.hbm, 437, rfl⟩
abbrev main_c_107 : Ref sig .tc := ⟨.hbm, 438, rfl⟩
abbrev main_v260 : Ref sig .tc := ⟨.hbm, 439, rfl⟩
abbrev main_v261 : Ref sig .tc := ⟨.hbm, 440, rfl⟩
abbrev main_c_108 : Ref sig .tc := ⟨.hbm, 441, rfl⟩
abbrev main_v262 : Ref sig .tc := ⟨.hbm, 442, rfl⟩
abbrev main_v263 : Ref sig .tc := ⟨.hbm, 443, rfl⟩
abbrev main_c_109 : Ref sig .tc := ⟨.hbm, 444, rfl⟩
abbrev main_v264 : Ref sig .tc := ⟨.hbm, 445, rfl⟩
abbrev main_v265 : Ref sig .tc := ⟨.hbm, 446, rfl⟩
abbrev main_v266 : Ref sig .tc := ⟨.hbm, 447, rfl⟩
abbrev main_c_110 : Ref sig .tc := ⟨.hbm, 448, rfl⟩
abbrev main_v267 : Ref sig .tc := ⟨.hbm, 449, rfl⟩
abbrev main_v268 : Ref sig .tc := ⟨.hbm, 450, rfl⟩
abbrev main_v269 : Ref sig .tc := ⟨.hbm, 451, rfl⟩
abbrev main_c_111 : Ref sig .tc := ⟨.hbm, 452, rfl⟩
abbrev main_v270 : Ref sig .tc := ⟨.hbm, 453, rfl⟩
abbrev main_v271 : Ref sig .tc := ⟨.hbm, 454, rfl⟩
abbrev main_v272 : Ref sig .tc := ⟨.hbm, 455, rfl⟩
abbrev main_c_112 : Ref sig .tc := ⟨.hbm, 456, rfl⟩
abbrev main_c_113 : Ref sig .tc := ⟨.hbm, 457, rfl⟩
abbrev main_call16_v0 : Ref sig .tc := ⟨.hbm, 458, rfl⟩
abbrev main_call16_v1 : Ref sig .tc := ⟨.hbm, 459, rfl⟩
abbrev main_call16_v2 : Ref sig .tc := ⟨.hbm, 460, rfl⟩
abbrev main_call16_v3 : Ref sig .tc := ⟨.hbm, 461, rfl⟩
abbrev main_call16_v4 : Ref sig .tc := ⟨.hbm, 462, rfl⟩
abbrev main_v273 : Ref sig .tc := ⟨.hbm, 463, rfl⟩
abbrev main_c_114 : Ref sig .tc := ⟨.hbm, 464, rfl⟩
abbrev main_c_115 : Ref sig .tc := ⟨.hbm, 465, rfl⟩
abbrev main_call17_v0 : Ref sig .tc := ⟨.hbm, 466, rfl⟩
abbrev main_call17_v1 : Ref sig .tc := ⟨.hbm, 467, rfl⟩
abbrev main_call17_v2 : Ref sig .tc := ⟨.hbm, 468, rfl⟩
abbrev main_call17_v3 : Ref sig .tc := ⟨.hbm, 469, rfl⟩
abbrev main_call17_v4 : Ref sig .tc := ⟨.hbm, 470, rfl⟩
abbrev main_v274 : Ref sig .tc := ⟨.hbm, 471, rfl⟩
abbrev main_c_116 : Ref sig .tc := ⟨.hbm, 472, rfl⟩
abbrev main_v275 : Ref sig .tc := ⟨.hbm, 473, rfl⟩
abbrev main_v276 : Ref sig .tc := ⟨.hbm, 474, rfl⟩
abbrev main_v277 : Ref sig .tc := ⟨.hbm, 475, rfl⟩
abbrev main_cst_117 : Ref sig .tc := ⟨.hbm, 476, rfl⟩
abbrev main_call18_v0 : Ref sig .tc := ⟨.hbm, 477, rfl⟩
abbrev main_call18_v1 : Ref sig .tc := ⟨.hbm, 478, rfl⟩
abbrev main_v278 : Ref sig .tc := ⟨.hbm, 479, rfl⟩
abbrev main_c_118 : Ref sig .tc := ⟨.hbm, 480, rfl⟩
abbrev main_v279 : Ref sig .tc := ⟨.hbm, 481, rfl⟩
abbrev main_v280 : Ref sig .tc := ⟨.hbm, 482, rfl⟩
abbrev main_c_119 : Ref sig .tc := ⟨.hbm, 483, rfl⟩
abbrev main_v281 : Ref sig .tc := ⟨.hbm, 484, rfl⟩
abbrev main_v282 : Ref sig .tc := ⟨.hbm, 485, rfl⟩
abbrev main_v283 : Ref sig .tc := ⟨.hbm, 486, rfl⟩
abbrev main_c_120 : Ref sig .tc := ⟨.hbm, 487, rfl⟩
abbrev main_v284 : Ref sig .tc := ⟨.hbm, 488, rfl⟩
abbrev main_v285 : Ref sig .tc := ⟨.hbm, 489, rfl⟩
abbrev main_c_121 : Ref sig .tc := ⟨.hbm, 490, rfl⟩
abbrev main_v286 : Ref sig .tc := ⟨.hbm, 491, rfl⟩
abbrev main_v287 : Ref sig .tc := ⟨.hbm, 492, rfl⟩
abbrev main_v288 : Ref sig .tc := ⟨.hbm, 493, rfl⟩
abbrev main_v289 : Ref sig .tc := ⟨.hbm, 494, rfl⟩
abbrev main_v290 : Ref sig .tc := ⟨.hbm, 495, rfl⟩
abbrev main_v291 : Ref sig .tc := ⟨.hbm, 496, rfl⟩
abbrev main_v292 : Ref sig .tc := ⟨.hbm, 497, rfl⟩
abbrev main_c_122 : Ref sig .tc := ⟨.hbm, 498, rfl⟩
abbrev main_v293 : Ref sig .tc := ⟨.hbm, 499, rfl⟩
abbrev main_v294 : Ref sig .tc := ⟨.hbm, 500, rfl⟩
abbrev main_c_123 : Ref sig .tc := ⟨.hbm, 501, rfl⟩
abbrev main_v295 : Ref sig .tc := ⟨.hbm, 502, rfl⟩
abbrev main_v296 : Ref sig .tc := ⟨.hbm, 503, rfl⟩
abbrev main_c_124 : Ref sig .tc := ⟨.hbm, 504, rfl⟩
abbrev main_v297 : Ref sig .tc := ⟨.hbm, 505, rfl⟩
abbrev main_v298 : Ref sig .tc := ⟨.hbm, 506, rfl⟩
abbrev main_c_125 : Ref sig .tc := ⟨.hbm, 507, rfl⟩
abbrev main_v299 : Ref sig .tc := ⟨.hbm, 508, rfl⟩
abbrev main_v300 : Ref sig .tc := ⟨.hbm, 509, rfl⟩
abbrev main_v301 : Ref sig .tc := ⟨.hbm, 510, rfl⟩
abbrev main_c_126 : Ref sig .tc := ⟨.hbm, 511, rfl⟩
abbrev main_v302 : Ref sig .tc := ⟨.hbm, 512, rfl⟩
abbrev main_v303 : Ref sig .tc := ⟨.hbm, 513, rfl⟩
abbrev main_v304 : Ref sig .tc := ⟨.hbm, 514, rfl⟩
abbrev main_c_127 : Ref sig .tc := ⟨.hbm, 515, rfl⟩
abbrev main_v305 : Ref sig .tc := ⟨.hbm, 516, rfl⟩
abbrev main_v306 : Ref sig .tc := ⟨.hbm, 517, rfl⟩
abbrev main_v307 : Ref sig .tc := ⟨.hbm, 518, rfl⟩
abbrev main_c_128 : Ref sig .tc := ⟨.hbm, 519, rfl⟩
abbrev main_c_129 : Ref sig .tc := ⟨.hbm, 520, rfl⟩
abbrev main_call19_v0 : Ref sig .tc := ⟨.hbm, 521, rfl⟩
abbrev main_call19_v1 : Ref sig .tc := ⟨.hbm, 522, rfl⟩
abbrev main_call19_v2 : Ref sig .tc := ⟨.hbm, 523, rfl⟩
abbrev main_call19_v3 : Ref sig .tc := ⟨.hbm, 524, rfl⟩
abbrev main_call19_v4 : Ref sig .tc := ⟨.hbm, 525, rfl⟩
abbrev main_v308 : Ref sig .tc := ⟨.hbm, 526, rfl⟩
abbrev main_c_130 : Ref sig .tc := ⟨.hbm, 527, rfl⟩
abbrev main_c_131 : Ref sig .tc := ⟨.hbm, 528, rfl⟩
abbrev main_call20_v0 : Ref sig .tc := ⟨.hbm, 529, rfl⟩
abbrev main_call20_v1 : Ref sig .tc := ⟨.hbm, 530, rfl⟩
abbrev main_call20_v2 : Ref sig .tc := ⟨.hbm, 531, rfl⟩
abbrev main_call20_v3 : Ref sig .tc := ⟨.hbm, 532, rfl⟩
abbrev main_call20_v4 : Ref sig .tc := ⟨.hbm, 533, rfl⟩
abbrev main_v309 : Ref sig .tc := ⟨.hbm, 534, rfl⟩
abbrev main_c_132 : Ref sig .tc := ⟨.hbm, 535, rfl⟩
abbrev main_v310 : Ref sig .tc := ⟨.hbm, 536, rfl⟩
abbrev main_v311 : Ref sig .tc := ⟨.hbm, 537, rfl⟩
abbrev main_v312 : Ref sig .tc := ⟨.hbm, 538, rfl⟩
abbrev main_cst_133 : Ref sig .tc := ⟨.hbm, 539, rfl⟩
abbrev main_call21_v0 : Ref sig .tc := ⟨.hbm, 540, rfl⟩
abbrev main_call21_v1 : Ref sig .tc := ⟨.hbm, 541, rfl⟩
abbrev main_v313 : Ref sig .tc := ⟨.hbm, 542, rfl⟩
abbrev main_c_134 : Ref sig .tc := ⟨.hbm, 543, rfl⟩
abbrev main_v314 : Ref sig .tc := ⟨.hbm, 544, rfl⟩
abbrev main_v315 : Ref sig .tc := ⟨.hbm, 545, rfl⟩
abbrev main_c_135 : Ref sig .tc := ⟨.hbm, 546, rfl⟩
abbrev main_v316 : Ref sig .tc := ⟨.hbm, 547, rfl⟩
abbrev main_v317 : Ref sig .tc := ⟨.hbm, 548, rfl⟩
abbrev main_v318 : Ref sig .tc := ⟨.hbm, 549, rfl⟩
abbrev main_c_136 : Ref sig .tc := ⟨.hbm, 550, rfl⟩
abbrev main_v319 : Ref sig .tc := ⟨.hbm, 551, rfl⟩
abbrev main_v320 : Ref sig .tc := ⟨.hbm, 552, rfl⟩
abbrev main_c_137 : Ref sig .tc := ⟨.hbm, 553, rfl⟩
abbrev main_v321 : Ref sig .tc := ⟨.hbm, 554, rfl⟩
abbrev main_v322 : Ref sig .tc := ⟨.hbm, 555, rfl⟩
abbrev main_v323 : Ref sig .tc := ⟨.hbm, 556, rfl⟩
abbrev main_v324 : Ref sig .tc := ⟨.hbm, 557, rfl⟩
abbrev main_v325 : Ref sig .tc := ⟨.hbm, 558, rfl⟩
abbrev main_v326 : Ref sig .tc := ⟨.hbm, 559, rfl⟩
abbrev main_v327 : Ref sig .tc := ⟨.hbm, 560, rfl⟩
abbrev main_c_138 : Ref sig .tc := ⟨.hbm, 561, rfl⟩
abbrev main_v328 : Ref sig .tc := ⟨.hbm, 562, rfl⟩
abbrev main_v329 : Ref sig .tc := ⟨.hbm, 563, rfl⟩
abbrev main_c_139 : Ref sig .tc := ⟨.hbm, 564, rfl⟩
abbrev main_v330 : Ref sig .tc := ⟨.hbm, 565, rfl⟩
abbrev main_v331 : Ref sig .tc := ⟨.hbm, 566, rfl⟩
abbrev main_c_140 : Ref sig .tc := ⟨.hbm, 567, rfl⟩
abbrev main_v332 : Ref sig .tc := ⟨.hbm, 568, rfl⟩
abbrev main_v333 : Ref sig .tc := ⟨.hbm, 569, rfl⟩
abbrev main_c_141 : Ref sig .tc := ⟨.hbm, 570, rfl⟩
abbrev main_v334 : Ref sig .tc := ⟨.hbm, 571, rfl⟩
abbrev main_v335 : Ref sig .tc := ⟨.hbm, 572, rfl⟩
abbrev main_v336 : Ref sig .tc := ⟨.hbm, 573, rfl⟩
abbrev main_c_142 : Ref sig .tc := ⟨.hbm, 574, rfl⟩
abbrev main_v337 : Ref sig .tc := ⟨.hbm, 575, rfl⟩
abbrev main_v338 : Ref sig .tc := ⟨.hbm, 576, rfl⟩
abbrev main_v339 : Ref sig .tc := ⟨.hbm, 577, rfl⟩
abbrev main_c_143 : Ref sig .tc := ⟨.hbm, 578, rfl⟩
abbrev main_v340 : Ref sig .tc := ⟨.hbm, 579, rfl⟩
abbrev main_v341 : Ref sig .tc := ⟨.hbm, 580, rfl⟩
abbrev main_v342 : Ref sig .tc := ⟨.hbm, 581, rfl⟩
abbrev main_c_144 : Ref sig .tc := ⟨.hbm, 582, rfl⟩
abbrev main_c_145 : Ref sig .tc := ⟨.hbm, 583, rfl⟩
abbrev main_call22_v0 : Ref sig .tc := ⟨.hbm, 584, rfl⟩
abbrev main_call22_v1 : Ref sig .tc := ⟨.hbm, 585, rfl⟩
abbrev main_call22_v2 : Ref sig .tc := ⟨.hbm, 586, rfl⟩
abbrev main_call22_v3 : Ref sig .tc := ⟨.hbm, 587, rfl⟩
abbrev main_call22_v4 : Ref sig .tc := ⟨.hbm, 588, rfl⟩
abbrev main_v343 : Ref sig .tc := ⟨.hbm, 589, rfl⟩
abbrev main_c_146 : Ref sig .tc := ⟨.hbm, 590, rfl⟩
abbrev main_c_147 : Ref sig .tc := ⟨.hbm, 591, rfl⟩
abbrev main_call23_v0 : Ref sig .tc := ⟨.hbm, 592, rfl⟩
abbrev main_call23_v1 : Ref sig .tc := ⟨.hbm, 593, rfl⟩
abbrev main_call23_v2 : Ref sig .tc := ⟨.hbm, 594, rfl⟩
abbrev main_call23_v3 : Ref sig .tc := ⟨.hbm, 595, rfl⟩
abbrev main_call23_v4 : Ref sig .tc := ⟨.hbm, 596, rfl⟩
abbrev main_v344 : Ref sig .tc := ⟨.hbm, 597, rfl⟩
abbrev main_c_148 : Ref sig .tc := ⟨.hbm, 598, rfl⟩
abbrev main_v345 : Ref sig .tc := ⟨.hbm, 599, rfl⟩
abbrev main_v346 : Ref sig .tc := ⟨.hbm, 600, rfl⟩
abbrev main_v347 : Ref sig .tc := ⟨.hbm, 601, rfl⟩
abbrev main_cst_149 : Ref sig .tc := ⟨.hbm, 602, rfl⟩
abbrev main_call24_v0 : Ref sig .tc := ⟨.hbm, 603, rfl⟩
abbrev main_call24_v1 : Ref sig .tc := ⟨.hbm, 604, rfl⟩
abbrev main_v348 : Ref sig .tc := ⟨.hbm, 605, rfl⟩
abbrev main_c_150 : Ref sig .tc := ⟨.hbm, 606, rfl⟩
abbrev main_v349 : Ref sig .tc := ⟨.hbm, 607, rfl⟩
abbrev main_v350 : Ref sig .tc := ⟨.hbm, 608, rfl⟩
abbrev main_c_151 : Ref sig .tc := ⟨.hbm, 609, rfl⟩
abbrev main_v351 : Ref sig .tc := ⟨.hbm, 610, rfl⟩
abbrev main_v352 : Ref sig .tc := ⟨.hbm, 611, rfl⟩
abbrev main_v353 : Ref sig .tc := ⟨.hbm, 612, rfl⟩
abbrev main_c_152 : Ref sig .tc := ⟨.hbm, 613, rfl⟩
abbrev main_v354 : Ref sig .tc := ⟨.hbm, 614, rfl⟩
abbrev main_v355 : Ref sig .tc := ⟨.hbm, 615, rfl⟩
abbrev main_c_153 : Ref sig .tc := ⟨.hbm, 616, rfl⟩
abbrev main_v356 : Ref sig .tc := ⟨.hbm, 617, rfl⟩
abbrev main_v357 : Ref sig .tc := ⟨.hbm, 618, rfl⟩
abbrev main_v358 : Ref sig .tc := ⟨.hbm, 619, rfl⟩
abbrev main_v359 : Ref sig .tc := ⟨.hbm, 620, rfl⟩
abbrev main_v360 : Ref sig .tc := ⟨.hbm, 621, rfl⟩
abbrev main_v361 : Ref sig .tc := ⟨.hbm, 622, rfl⟩
abbrev main_v362 : Ref sig .tc := ⟨.hbm, 623, rfl⟩
abbrev main_v363 : Ref sig .tc := ⟨.hbm, 624, rfl⟩
abbrev main_v364 : Ref sig .tc := ⟨.hbm, 625, rfl⟩
abbrev main_v365 : Ref sig .tc := ⟨.hbm, 626, rfl⟩
abbrev main_v366 : Ref sig .tc := ⟨.hbm, 627, rfl⟩
abbrev main_v367 : Ref sig .tc := ⟨.hbm, 628, rfl⟩
abbrev main_cst_154 : Ref sig .tc := ⟨.hbm, 629, rfl⟩
abbrev main_v368 : Ref sig .tc := ⟨.hbm, 630, rfl⟩
abbrev main_v369 : Ref sig .tc := ⟨.hbm, 631, rfl⟩
abbrev main_cst_155 : Ref sig .tc := ⟨.hbm, 632, rfl⟩
abbrev main_v370 : Ref sig .tc := ⟨.hbm, 633, rfl⟩
abbrev main_v371 : Ref sig .tc := ⟨.hbm, 634, rfl⟩
abbrev main_cst_156 : Ref sig .tc := ⟨.hbm, 635, rfl⟩
abbrev main_v372 : Ref sig .tc := ⟨.hbm, 636, rfl⟩
abbrev main_v373 : Ref sig .tc := ⟨.hbm, 637, rfl⟩
abbrev main_cst_157 : Ref sig .tc := ⟨.hbm, 638, rfl⟩
abbrev main_v374 : Ref sig .tc := ⟨.hbm, 639, rfl⟩
abbrev main_v375 : Ref sig .tc := ⟨.hbm, 640, rfl⟩
abbrev main_cst_158 : Ref sig .tc := ⟨.hbm, 641, rfl⟩
abbrev main_v376 : Ref sig .tc := ⟨.hbm, 642, rfl⟩
abbrev main_v377 : Ref sig .tc := ⟨.hbm, 643, rfl⟩
abbrev main_cst_159 : Ref sig .tc := ⟨.hbm, 644, rfl⟩
abbrev main_v378 : Ref sig .tc := ⟨.hbm, 645, rfl⟩
abbrev main_v379 : Ref sig .tc := ⟨.hbm, 646, rfl⟩
abbrev main_cst_160 : Ref sig .tc := ⟨.hbm, 647, rfl⟩
abbrev main_v380 : Ref sig .tc := ⟨.hbm, 648, rfl⟩
abbrev main_v381 : Ref sig .tc := ⟨.hbm, 649, rfl⟩
abbrev main_cst_161 : Ref sig .tc := ⟨.hbm, 650, rfl⟩
abbrev main_v382 : Ref sig .tc := ⟨.hbm, 651, rfl⟩
abbrev main_v383 : Ref sig .tc := ⟨.hbm, 652, rfl⟩
abbrev main_v384 : Ref sig .tc := ⟨.hbm, 653, rfl⟩
abbrev main_v385 : Ref sig .tc := ⟨.hbm, 654, rfl⟩
abbrev main_v386 : Ref sig .tc := ⟨.hbm, 655, rfl⟩
abbrev main_v387 : Ref sig .tc := ⟨.hbm, 656, rfl⟩
abbrev main_v388 : Ref sig .tc := ⟨.hbm, 657, rfl⟩
abbrev main_v389 : Ref sig .tc := ⟨.hbm, 658, rfl⟩
abbrev main_v390 : Ref sig .tc := ⟨.hbm, 659, rfl⟩
abbrev main_cst_162 : Ref sig .tc := ⟨.hbm, 660, rfl⟩
abbrev main_v391 : Ref sig .tc := ⟨.hbm, 661, rfl⟩
abbrev main_cst_163 : Ref sig .tc := ⟨.hbm, 662, rfl⟩
abbrev main_v392 : Ref sig .tc := ⟨.hbm, 663, rfl⟩
abbrev main_v393 : Ref sig .tc := ⟨.hbm, 664, rfl⟩
abbrev main_cst_164 : Ref sig .tc := ⟨.hbm, 665, rfl⟩
abbrev main_v394 : Ref sig .tc := ⟨.hbm, 666, rfl⟩
abbrev main_v395 : Ref sig .tc := ⟨.hbm, 667, rfl⟩
abbrev main_v396 : Ref sig .tc := ⟨.hbm, 668, rfl⟩
abbrev main_cst_165 : Ref sig .tc := ⟨.hbm, 669, rfl⟩
abbrev main_v397 : Ref sig .tc := ⟨.hbm, 670, rfl⟩
abbrev main_v398 : Ref sig .tc := ⟨.hbm, 671, rfl⟩
abbrev main_v399 : Ref sig .tc := ⟨.hbm, 672, rfl⟩
abbrev main_cst_166 : Ref sig .tc := ⟨.hbm, 673, rfl⟩
abbrev main_v400 : Ref sig .tc := ⟨.hbm, 674, rfl⟩
abbrev main_v401 : Ref sig .tc := ⟨.hbm, 675, rfl⟩
abbrev main_v402 : Ref sig .tc := ⟨.hbm, 676, rfl⟩
abbrev main_v403 : Ref sig .tc := ⟨.hbm, 677, rfl⟩
abbrev main_c_167 : Ref sig .tc := ⟨.hbm, 678, rfl⟩
abbrev main_v404 : Ref sig .tc := ⟨.hbm, 679, rfl⟩
abbrev main_v405 : Ref sig .tc := ⟨.hbm, 680, rfl⟩
abbrev main_c_168 : Ref sig .tc := ⟨.hbm, 681, rfl⟩
abbrev main_v406 : Ref sig .tc := ⟨.hbm, 682, rfl⟩
abbrev main_v407 : Ref sig .tc := ⟨.hbm, 683, rfl⟩
abbrev main_c_169 : Ref sig .tc := ⟨.hbm, 684, rfl⟩
abbrev main_v408 : Ref sig .tc := ⟨.hbm, 685, rfl⟩
abbrev main_v409 : Ref sig .tc := ⟨.hbm, 686, rfl⟩
abbrev main_c_170 : Ref sig .tc := ⟨.hbm, 687, rfl⟩
abbrev main_v410 : Ref sig .tc := ⟨.hbm, 688, rfl⟩
abbrev main_v411 : Ref sig .tc := ⟨.hbm, 689, rfl⟩
abbrev main_v412 : Ref sig .tc := ⟨.hbm, 690, rfl⟩
abbrev main_c_171 : Ref sig .tc := ⟨.hbm, 691, rfl⟩
abbrev main_v413 : Ref sig .tc := ⟨.hbm, 692, rfl⟩
abbrev main_v414 : Ref sig .tc := ⟨.hbm, 693, rfl⟩
abbrev main_v415 : Ref sig .tc := ⟨.hbm, 694, rfl⟩
abbrev main_c_172 : Ref sig .tc := ⟨.hbm, 695, rfl⟩
abbrev main_v416 : Ref sig .tc := ⟨.hbm, 696, rfl⟩
abbrev main_v417 : Ref sig .tc := ⟨.hbm, 697, rfl⟩
abbrev main_v418 : Ref sig .tc := ⟨.hbm, 698, rfl⟩
abbrev main_c_173 : Ref sig .tc := ⟨.hbm, 699, rfl⟩
abbrev main_c_174 : Ref sig .tc := ⟨.hbm, 700, rfl⟩
abbrev main_call25_v0 : Ref sig .tc := ⟨.hbm, 701, rfl⟩
abbrev main_call25_v1 : Ref sig .tc := ⟨.hbm, 702, rfl⟩
abbrev main_call25_v2 : Ref sig .tc := ⟨.hbm, 703, rfl⟩
abbrev main_call25_v3 : Ref sig .tc := ⟨.hbm, 704, rfl⟩
abbrev main_call25_v4 : Ref sig .tc := ⟨.hbm, 705, rfl⟩
abbrev main_v419 : Ref sig .tc := ⟨.hbm, 706, rfl⟩
abbrev main_c_175 : Ref sig .tc := ⟨.hbm, 707, rfl⟩
abbrev main_c_176 : Ref sig .tc := ⟨.hbm, 708, rfl⟩
abbrev main_call26_v0 : Ref sig .tc := ⟨.hbm, 709, rfl⟩
abbrev main_call26_v1 : Ref sig .tc := ⟨.hbm, 710, rfl⟩
abbrev main_call26_v2 : Ref sig .tc := ⟨.hbm, 711, rfl⟩
abbrev main_call26_v3 : Ref sig .tc := ⟨.hbm, 712, rfl⟩
abbrev main_call26_v4 : Ref sig .tc := ⟨.hbm, 713, rfl⟩
abbrev main_v420 : Ref sig .tc := ⟨.hbm, 714, rfl⟩
abbrev main_c_177 : Ref sig .tc := ⟨.hbm, 715, rfl⟩
abbrev main_v421 : Ref sig .tc := ⟨.hbm, 716, rfl⟩
abbrev main_v422 : Ref sig .tc := ⟨.hbm, 717, rfl⟩
abbrev main_v423 : Ref sig .tc := ⟨.hbm, 718, rfl⟩
abbrev main_cst_178 : Ref sig .tc := ⟨.hbm, 719, rfl⟩
abbrev main_call27_v0 : Ref sig .tc := ⟨.hbm, 720, rfl⟩
abbrev main_call27_v1 : Ref sig .tc := ⟨.hbm, 721, rfl⟩
abbrev main_v424 : Ref sig .tc := ⟨.hbm, 722, rfl⟩
abbrev main_c_179 : Ref sig .tc := ⟨.hbm, 723, rfl⟩
abbrev main_v425 : Ref sig .tc := ⟨.hbm, 724, rfl⟩
abbrev main_v426 : Ref sig .tc := ⟨.hbm, 725, rfl⟩
abbrev main_c_180 : Ref sig .tc := ⟨.hbm, 726, rfl⟩
abbrev main_v427 : Ref sig .tc := ⟨.hbm, 727, rfl⟩
abbrev main_v428 : Ref sig .tc := ⟨.hbm, 728, rfl⟩
abbrev main_v429 : Ref sig .tc := ⟨.hbm, 729, rfl⟩
abbrev main_c_181 : Ref sig .tc := ⟨.hbm, 730, rfl⟩
abbrev main_v430 : Ref sig .tc := ⟨.hbm, 731, rfl⟩
abbrev main_v431 : Ref sig .tc := ⟨.hbm, 732, rfl⟩
abbrev main_c_182 : Ref sig .tc := ⟨.hbm, 733, rfl⟩
abbrev main_v432 : Ref sig .tc := ⟨.hbm, 734, rfl⟩
abbrev main_v433 : Ref sig .tc := ⟨.hbm, 735, rfl⟩
abbrev main_v434 : Ref sig .tc := ⟨.hbm, 736, rfl⟩
abbrev main_v435 : Ref sig .tc := ⟨.hbm, 737, rfl⟩
abbrev main_v436 : Ref sig .tc := ⟨.hbm, 738, rfl⟩
abbrev main_v437 : Ref sig .tc := ⟨.hbm, 739, rfl⟩
abbrev main_v438 : Ref sig .tc := ⟨.hbm, 740, rfl⟩
abbrev main_c_183 : Ref sig .tc := ⟨.hbm, 741, rfl⟩
abbrev main_v439 : Ref sig .tc := ⟨.hbm, 742, rfl⟩
abbrev main_v440 : Ref sig .tc := ⟨.hbm, 743, rfl⟩
abbrev main_c_184 : Ref sig .tc := ⟨.hbm, 744, rfl⟩
abbrev main_v441 : Ref sig .tc := ⟨.hbm, 745, rfl⟩
abbrev main_v442 : Ref sig .tc := ⟨.hbm, 746, rfl⟩
abbrev main_c_185 : Ref sig .tc := ⟨.hbm, 747, rfl⟩
abbrev main_v443 : Ref sig .tc := ⟨.hbm, 748, rfl⟩
abbrev main_v444 : Ref sig .tc := ⟨.hbm, 749, rfl⟩
abbrev main_c_186 : Ref sig .tc := ⟨.hbm, 750, rfl⟩
abbrev main_v445 : Ref sig .tc := ⟨.hbm, 751, rfl⟩
abbrev main_v446 : Ref sig .tc := ⟨.hbm, 752, rfl⟩
abbrev main_v447 : Ref sig .tc := ⟨.hbm, 753, rfl⟩
abbrev main_c_187 : Ref sig .tc := ⟨.hbm, 754, rfl⟩
abbrev main_v448 : Ref sig .tc := ⟨.hbm, 755, rfl⟩
abbrev main_v449 : Ref sig .tc := ⟨.hbm, 756, rfl⟩
abbrev main_v450 : Ref sig .tc := ⟨.hbm, 757, rfl⟩
abbrev main_c_188 : Ref sig .tc := ⟨.hbm, 758, rfl⟩
abbrev main_v451 : Ref sig .tc := ⟨.hbm, 759, rfl⟩
abbrev main_v452 : Ref sig .tc := ⟨.hbm, 760, rfl⟩
abbrev main_v453 : Ref sig .tc := ⟨.hbm, 761, rfl⟩
abbrev main_c_189 : Ref sig .tc := ⟨.hbm, 762, rfl⟩
abbrev main_c_190 : Ref sig .tc := ⟨.hbm, 763, rfl⟩
abbrev main_call28_v0 : Ref sig .tc := ⟨.hbm, 764, rfl⟩
abbrev main_call28_v1 : Ref sig .tc := ⟨.hbm, 765, rfl⟩
abbrev main_call28_v2 : Ref sig .tc := ⟨.hbm, 766, rfl⟩
abbrev main_call28_v3 : Ref sig .tc := ⟨.hbm, 767, rfl⟩
abbrev main_call28_v4 : Ref sig .tc := ⟨.hbm, 768, rfl⟩
abbrev main_v454 : Ref sig .tc := ⟨.hbm, 769, rfl⟩
abbrev main_c_191 : Ref sig .tc := ⟨.hbm, 770, rfl⟩
abbrev main_c_192 : Ref sig .tc := ⟨.hbm, 771, rfl⟩
abbrev main_call29_v0 : Ref sig .tc := ⟨.hbm, 772, rfl⟩
abbrev main_call29_v1 : Ref sig .tc := ⟨.hbm, 773, rfl⟩
abbrev main_call29_v2 : Ref sig .tc := ⟨.hbm, 774, rfl⟩
abbrev main_call29_v3 : Ref sig .tc := ⟨.hbm, 775, rfl⟩
abbrev main_call29_v4 : Ref sig .tc := ⟨.hbm, 776, rfl⟩
abbrev main_v455 : Ref sig .tc := ⟨.hbm, 777, rfl⟩
abbrev main_c_193 : Ref sig .tc := ⟨.hbm, 778, rfl⟩
abbrev main_v456 : Ref sig .tc := ⟨.hbm, 779, rfl⟩
abbrev main_v457 : Ref sig .tc := ⟨.hbm, 780, rfl⟩
abbrev main_v458 : Ref sig .tc := ⟨.hbm, 781, rfl⟩
abbrev main_cst_194 : Ref sig .tc := ⟨.hbm, 782, rfl⟩
abbrev main_call30_v0 : Ref sig .tc := ⟨.hbm, 783, rfl⟩
abbrev main_call30_v1 : Ref sig .tc := ⟨.hbm, 784, rfl⟩
abbrev main_v459 : Ref sig .tc := ⟨.hbm, 785, rfl⟩
abbrev main_c_195 : Ref sig .tc := ⟨.hbm, 786, rfl⟩
abbrev main_v460 : Ref sig .tc := ⟨.hbm, 787, rfl⟩
abbrev main_v461 : Ref sig .tc := ⟨.hbm, 788, rfl⟩
abbrev main_c_196 : Ref sig .tc := ⟨.hbm, 789, rfl⟩
abbrev main_v462 : Ref sig .tc := ⟨.hbm, 790, rfl⟩
abbrev main_v463 : Ref sig .tc := ⟨.hbm, 791, rfl⟩
abbrev main_v464 : Ref sig .tc := ⟨.hbm, 792, rfl⟩
abbrev main_c_197 : Ref sig .tc := ⟨.hbm, 793, rfl⟩
abbrev main_v465 : Ref sig .tc := ⟨.hbm, 794, rfl⟩
abbrev main_v466 : Ref sig .tc := ⟨.hbm, 795, rfl⟩
abbrev main_c_198 : Ref sig .tc := ⟨.hbm, 796, rfl⟩
abbrev main_v467 : Ref sig .tc := ⟨.hbm, 797, rfl⟩
abbrev main_v468 : Ref sig .tc := ⟨.hbm, 798, rfl⟩
abbrev main_v469 : Ref sig .tc := ⟨.hbm, 799, rfl⟩
abbrev main_v470 : Ref sig .tc := ⟨.hbm, 800, rfl⟩
abbrev main_v471 : Ref sig .tc := ⟨.hbm, 801, rfl⟩
abbrev main_v472 : Ref sig .tc := ⟨.hbm, 802, rfl⟩
abbrev main_v473 : Ref sig .tc := ⟨.hbm, 803, rfl⟩
abbrev main_c_199 : Ref sig .tc := ⟨.hbm, 804, rfl⟩
abbrev main_v474 : Ref sig .tc := ⟨.hbm, 805, rfl⟩
abbrev main_v475 : Ref sig .tc := ⟨.hbm, 806, rfl⟩
abbrev main_c_200 : Ref sig .tc := ⟨.hbm, 807, rfl⟩
abbrev main_v476 : Ref sig .tc := ⟨.hbm, 808, rfl⟩
abbrev main_v477 : Ref sig .tc := ⟨.hbm, 809, rfl⟩
abbrev main_c_201 : Ref sig .tc := ⟨.hbm, 810, rfl⟩
abbrev main_v478 : Ref sig .tc := ⟨.hbm, 811, rfl⟩
abbrev main_v479 : Ref sig .tc := ⟨.hbm, 812, rfl⟩
abbrev main_c_202 : Ref sig .tc := ⟨.hbm, 813, rfl⟩
abbrev main_v480 : Ref sig .tc := ⟨.hbm, 814, rfl⟩
abbrev main_v481 : Ref sig .tc := ⟨.hbm, 815, rfl⟩
abbrev main_v482 : Ref sig .tc := ⟨.hbm, 816, rfl⟩
abbrev main_c_203 : Ref sig .tc := ⟨.hbm, 817, rfl⟩
abbrev main_v483 : Ref sig .tc := ⟨.hbm, 818, rfl⟩
abbrev main_v484 : Ref sig .tc := ⟨.hbm, 819, rfl⟩
abbrev main_v485 : Ref sig .tc := ⟨.hbm, 820, rfl⟩
abbrev main_c_204 : Ref sig .tc := ⟨.hbm, 821, rfl⟩
abbrev main_v486 : Ref sig .tc := ⟨.hbm, 822, rfl⟩
abbrev main_v487 : Ref sig .tc := ⟨.hbm, 823, rfl⟩
abbrev main_v488 : Ref sig .tc := ⟨.hbm, 824, rfl⟩
abbrev main_c_205 : Ref sig .tc := ⟨.hbm, 825, rfl⟩
abbrev main_c_206 : Ref sig .tc := ⟨.hbm, 826, rfl⟩
abbrev main_call31_v0 : Ref sig .tc := ⟨.hbm, 827, rfl⟩
abbrev main_call31_v1 : Ref sig .tc := ⟨.hbm, 828, rfl⟩
abbrev main_call31_v2 : Ref sig .tc := ⟨.hbm, 829, rfl⟩
abbrev main_call31_v3 : Ref sig .tc := ⟨.hbm, 830, rfl⟩
abbrev main_call31_v4 : Ref sig .tc := ⟨.hbm, 831, rfl⟩
abbrev main_v489 : Ref sig .tc := ⟨.hbm, 832, rfl⟩
abbrev main_c_207 : Ref sig .tc := ⟨.hbm, 833, rfl⟩
abbrev main_c_208 : Ref sig .tc := ⟨.hbm, 834, rfl⟩
abbrev main_call32_v0 : Ref sig .tc := ⟨.hbm, 835, rfl⟩
abbrev main_call32_v1 : Ref sig .tc := ⟨.hbm, 836, rfl⟩
abbrev main_call32_v2 : Ref sig .tc := ⟨.hbm, 837, rfl⟩
abbrev main_call32_v3 : Ref sig .tc := ⟨.hbm, 838, rfl⟩
abbrev main_call32_v4 : Ref sig .tc := ⟨.hbm, 839, rfl⟩
abbrev main_v490 : Ref sig .tc := ⟨.hbm, 840, rfl⟩
abbrev main_c_209 : Ref sig .tc := ⟨.hbm, 841, rfl⟩
abbrev main_v491 : Ref sig .tc := ⟨.hbm, 842, rfl⟩
abbrev main_v492 : Ref sig .tc := ⟨.hbm, 843, rfl⟩
abbrev main_v493 : Ref sig .tc := ⟨.hbm, 844, rfl⟩
abbrev main_cst_210 : Ref sig .tc := ⟨.hbm, 845, rfl⟩
abbrev main_call33_v0 : Ref sig .tc := ⟨.hbm, 846, rfl⟩
abbrev main_call33_v1 : Ref sig .tc := ⟨.hbm, 847, rfl⟩
abbrev main_v494 : Ref sig .tc := ⟨.hbm, 848, rfl⟩
abbrev main_c_211 : Ref sig .tc := ⟨.hbm, 849, rfl⟩
abbrev main_v495 : Ref sig .tc := ⟨.hbm, 850, rfl⟩
abbrev main_v496 : Ref sig .tc := ⟨.hbm, 851, rfl⟩
abbrev main_c_212 : Ref sig .tc := ⟨.hbm, 852, rfl⟩
abbrev main_v497 : Ref sig .tc := ⟨.hbm, 853, rfl⟩
abbrev main_v498 : Ref sig .tc := ⟨.hbm, 854, rfl⟩
abbrev main_v499 : Ref sig .tc := ⟨.hbm, 855, rfl⟩
abbrev main_c_213 : Ref sig .tc := ⟨.hbm, 856, rfl⟩
abbrev main_v500 : Ref sig .tc := ⟨.hbm, 857, rfl⟩
abbrev main_v501 : Ref sig .tc := ⟨.hbm, 858, rfl⟩
abbrev main_c_214 : Ref sig .tc := ⟨.hbm, 859, rfl⟩
abbrev main_v502 : Ref sig .tc := ⟨.hbm, 860, rfl⟩
abbrev main_v503 : Ref sig .tc := ⟨.hbm, 861, rfl⟩
abbrev main_v504 : Ref sig .tc := ⟨.hbm, 862, rfl⟩
abbrev main_v505 : Ref sig .tc := ⟨.hbm, 863, rfl⟩
abbrev main_v506 : Ref sig .tc := ⟨.hbm, 864, rfl⟩
abbrev main_v507 : Ref sig .tc := ⟨.hbm, 865, rfl⟩
abbrev main_v508 : Ref sig .tc := ⟨.hbm, 866, rfl⟩
abbrev main_c_215 : Ref sig .tc := ⟨.hbm, 867, rfl⟩
abbrev main_v509 : Ref sig .tc := ⟨.hbm, 868, rfl⟩
abbrev main_v510 : Ref sig .tc := ⟨.hbm, 869, rfl⟩
abbrev main_c_216 : Ref sig .tc := ⟨.hbm, 870, rfl⟩
abbrev main_v511 : Ref sig .tc := ⟨.hbm, 871, rfl⟩
abbrev main_v512 : Ref sig .tc := ⟨.hbm, 872, rfl⟩
abbrev main_c_217 : Ref sig .tc := ⟨.hbm, 873, rfl⟩
abbrev main_v513 : Ref sig .tc := ⟨.hbm, 874, rfl⟩
abbrev main_v514 : Ref sig .tc := ⟨.hbm, 875, rfl⟩
abbrev main_c_218 : Ref sig .tc := ⟨.hbm, 876, rfl⟩
abbrev main_v515 : Ref sig .tc := ⟨.hbm, 877, rfl⟩
abbrev main_v516 : Ref sig .tc := ⟨.hbm, 878, rfl⟩
abbrev main_v517 : Ref sig .tc := ⟨.hbm, 879, rfl⟩
abbrev main_c_219 : Ref sig .tc := ⟨.hbm, 880, rfl⟩
abbrev main_v518 : Ref sig .tc := ⟨.hbm, 881, rfl⟩
abbrev main_v519 : Ref sig .tc := ⟨.hbm, 882, rfl⟩
abbrev main_v520 : Ref sig .tc := ⟨.hbm, 883, rfl⟩
abbrev main_c_220 : Ref sig .tc := ⟨.hbm, 884, rfl⟩
abbrev main_v521 : Ref sig .tc := ⟨.hbm, 885, rfl⟩
abbrev main_v522 : Ref sig .tc := ⟨.hbm, 886, rfl⟩
abbrev main_v523 : Ref sig .tc := ⟨.hbm, 887, rfl⟩
abbrev main_c_221 : Ref sig .tc := ⟨.hbm, 888, rfl⟩
abbrev main_c_222 : Ref sig .tc := ⟨.hbm, 889, rfl⟩
abbrev main_call34_v0 : Ref sig .tc := ⟨.hbm, 890, rfl⟩
abbrev main_call34_v1 : Ref sig .tc := ⟨.hbm, 891, rfl⟩
abbrev main_call34_v2 : Ref sig .tc := ⟨.hbm, 892, rfl⟩
abbrev main_call34_v3 : Ref sig .tc := ⟨.hbm, 893, rfl⟩
abbrev main_call34_v4 : Ref sig .tc := ⟨.hbm, 894, rfl⟩
abbrev main_v524 : Ref sig .tc := ⟨.hbm, 895, rfl⟩
abbrev main_c_223 : Ref sig .tc := ⟨.hbm, 896, rfl⟩
abbrev main_c_224 : Ref sig .tc := ⟨.hbm, 897, rfl⟩
abbrev main_call35_v0 : Ref sig .tc := ⟨.hbm, 898, rfl⟩
abbrev main_call35_v1 : Ref sig .tc := ⟨.hbm, 899, rfl⟩
abbrev main_call35_v2 : Ref sig .tc := ⟨.hbm, 900, rfl⟩
abbrev main_call35_v3 : Ref sig .tc := ⟨.hbm, 901, rfl⟩
abbrev main_call35_v4 : Ref sig .tc := ⟨.hbm, 902, rfl⟩
abbrev main_v525 : Ref sig .tc := ⟨.hbm, 903, rfl⟩
abbrev main_c_225 : Ref sig .tc := ⟨.hbm, 904, rfl⟩
abbrev main_v526 : Ref sig .tc := ⟨.hbm, 905, rfl⟩
abbrev main_v527 : Ref sig .tc := ⟨.hbm, 906, rfl⟩
abbrev main_v528 : Ref sig .tc := ⟨.hbm, 907, rfl⟩
abbrev main_cst_226 : Ref sig .tc := ⟨.hbm, 908, rfl⟩
abbrev main_call36_v0 : Ref sig .tc := ⟨.hbm, 909, rfl⟩
abbrev main_call36_v1 : Ref sig .tc := ⟨.hbm, 910, rfl⟩
abbrev main_v529 : Ref sig .tc := ⟨.hbm, 911, rfl⟩
abbrev main_c_227 : Ref sig .tc := ⟨.hbm, 912, rfl⟩
abbrev main_v530 : Ref sig .tc := ⟨.hbm, 913, rfl⟩
abbrev main_v531 : Ref sig .tc := ⟨.hbm, 914, rfl⟩
abbrev main_c_228 : Ref sig .tc := ⟨.hbm, 915, rfl⟩
abbrev main_v532 : Ref sig .tc := ⟨.hbm, 916, rfl⟩
abbrev main_v533 : Ref sig .tc := ⟨.hbm, 917, rfl⟩
abbrev main_v534 : Ref sig .tc := ⟨.hbm, 918, rfl⟩
abbrev main_c_229 : Ref sig .tc := ⟨.hbm, 919, rfl⟩
abbrev main_v535 : Ref sig .tc := ⟨.hbm, 920, rfl⟩
abbrev main_v536 : Ref sig .tc := ⟨.hbm, 921, rfl⟩
abbrev main_c_230 : Ref sig .tc := ⟨.hbm, 922, rfl⟩
abbrev main_v537 : Ref sig .tc := ⟨.hbm, 923, rfl⟩
abbrev main_v538 : Ref sig .tc := ⟨.hbm, 924, rfl⟩
abbrev main_v539 : Ref sig .tc := ⟨.hbm, 925, rfl⟩
abbrev main_v540 : Ref sig .tc := ⟨.hbm, 926, rfl⟩
abbrev main_v541 : Ref sig .tc := ⟨.hbm, 927, rfl⟩
abbrev main_v542 : Ref sig .tc := ⟨.hbm, 928, rfl⟩
abbrev main_v543 : Ref sig .tc := ⟨.hbm, 929, rfl⟩
abbrev main_v544 : Ref sig .tc := ⟨.hbm, 930, rfl⟩
abbrev main_v545 : Ref sig .tc := ⟨.hbm, 931, rfl⟩
abbrev main_v546 : Ref sig .tc := ⟨.hbm, 932, rfl⟩
abbrev main_v547 : Ref sig .tc := ⟨.hbm, 933, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v66 : BitVec 1 := Scalar.cmpi .eq arg2 c1_i32
  let v67 : BitVec 32 := Scalar.extui v66
  let c0_i32_29 : BitVec 32 := 0#32
  let v68 : BitVec 1 := Scalar.cmpi .ne v67 c0_i32_29
  v68

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x32x8x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S3x32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  shapeCasts_S1x2048x1x2_S2048x2 : S1x2048x1x2.ShapeCasts S2048x2
  bcast_S_S2048x2 : S_.BroadcastsInDim S2048x2 (![] : Fin 0 → Fin S2048x2.rank)
  slices_S2048x2_S2048x1_0_0 : S2048x2.Slices ![0, 0] S2048x1
  shapeCasts_S2048x1_S2048 : S2048x1.ShapeCasts S2048
  slices_S2048x2_S2048x1_0_1 : S2048x2.Slices ![0, 1] S2048x1
  bcast_S_S2048 : S_.BroadcastsInDim S2048 (![] : Fin 0 → Fin S2048.rank)
  bcast_S_S4096x2048 : S_.BroadcastsInDim S4096x2048 (![] : Fin 0 → Fin S4096x2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  bitsLt_bf16_f32 : FTy.bits .bf16 < FTy.bits .f32
  bcast_S_S1024x2048 : S_.BroadcastsInDim S1024x2048 (![] : Fin 0 → Fin S1024x2048.rank)
  bcast_S_S256x2048 : S_.BroadcastsInDim S256x2048 (![] : Fin 0 → Fin S256x2048.rank)
  shapeCasts_S1x192x1x2048_S3x64x2048 : S1x192x1x2048.ShapeCasts S3x64x2048
  shapeCasts_S2048_S1x2048 : S2048.ShapeCasts S1x2048
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S1x32x8x64x64_S1x32x8x64x64_0_0_0_0_0 : ∀ a, (![0, 0, 0, 0, 0] : Fin 5 → Nat) a + S1x32x8x64x64.size a ≤ S1x32x8x64x64.size a
  h_S1x32x8x64x64 : 0 < S1x32x8x64x64.numel
  shapeCasts_S1x32x8x64x64_S32x8x64x64 : S1x32x8x64x64.ShapeCasts S32x8x64x64
  shapeCasts_S32x8x64x64_S256x4096 : S32x8x64x64.ShapeCasts S256x4096
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  shapeCasts_S32x8x64x64_S32x8x32x2x64 : S32x8x64x64.ShapeCasts S32x8x32x2x64
  reduces_S32x8x32x2x64_S32x8x32x64 : S32x8x32x2x64.Reduces [3] S32x8x32x64
  transposes_S32x8x32x64_p0_1_3_2_S32x8x64x32 : S32x8x32x64.Transposes [0, 1, 3, 2] S32x8x64x32
  shapeCasts_S32x8x64x32_S32x8x32x2x32 : S32x8x64x32.ShapeCasts S32x8x32x2x32
  reduces_S32x8x32x2x32_S32x8x32x32 : S32x8x32x2x32.Reduces [3] S32x8x32x32
  transposes_S32x8x32x32_p0_1_3_2_S32x8x32x32 : S32x8x32x32.Transposes [0, 1, 3, 2] S32x8x32x32
  shapeCasts_S32x8x32x32_S256x1024 : S32x8x32x32.ShapeCasts S256x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  shapeCasts_S32x8x32x32_S32x8x16x2x32 : S32x8x32x32.ShapeCasts S32x8x16x2x32
  reduces_S32x8x16x2x32_S32x8x16x32 : S32x8x16x2x32.Reduces [3] S32x8x16x32
  transposes_S32x8x16x32_p0_1_3_2_S32x8x32x16 : S32x8x16x32.Transposes [0, 1, 3, 2] S32x8x32x16
  shapeCasts_S32x8x32x16_S32x8x16x2x16 : S32x8x32x16.ShapeCasts S32x8x16x2x16
  reduces_S32x8x16x2x16_S32x8x16x16 : S32x8x16x2x16.Reduces [3] S32x8x16x16
  transposes_S32x8x16x16_p0_1_3_2_S32x8x16x16 : S32x8x16x16.Transposes [0, 1, 3, 2] S32x8x16x16
  shapeCasts_S32x8x16x16_S256x256 : S32x8x16x16.ShapeCasts S256x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  shapeCasts_S256x2048_S32x8x2048 : S256x2048.ShapeCasts S32x8x2048
  inb_S3x32x2048_S3x32x2048_0_0_0 : ∀ a, (![0, 0, 0] : Fin 3 → Nat) a + S3x32x2048.size a ≤ S3x32x2048.size a
  h_S3x32x2048 : 0 < S3x32x2048.numel
  shapeCasts_S3x32x2048_S3x32x2048 : S3x32x2048.ShapeCasts S3x32x2048
  slices_S3x32x2048_o0_0_0_S1x32x2048 : S3x32x2048.Slices ![0, 0, 0] S1x32x2048
  shapeCasts_S1x32x2048_S32x2048 : S1x32x2048.ShapeCasts S32x2048
  slices_S3x32x2048_o1_0_0_S1x32x2048 : S3x32x2048.Slices ![1, 0, 0] S1x32x2048
  slices_S3x32x2048_o2_0_0_S1x32x2048 : S3x32x2048.Slices ![2, 0, 0] S1x32x2048
  shapeCasts_S32x2048_S32x1x2048 : S32x2048.ShapeCasts S32x1x2048
  broadcasts_S32x1x2048_S32x8x2048 : S32x1x2048.Broadcasts S32x8x2048
  reduces_S32x8x2048_S8x2048 : S32x8x2048.Reduces [0] S8x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S8x2048 : S1x2048.Broadcasts S8x2048
  inb_S1x8x2048_S1x8x2048_0_0_0 : ∀ a, (![0, 0, 0] : Fin 3 → Nat) a + S1x8x2048.size a ≤ S1x8x2048.size a
  h_S1x8x2048 : 0 < S1x8x2048.numel
  shapeCasts_S1x8x2048_S8x2048 : S1x8x2048.ShapeCasts S8x2048
  shapeCasts_S8x2048_S1x8x2048 : S8x2048.ShapeCasts S1x8x2048
  scatter_S4096x2048_S2048x2_S2048_n_01_01_1_wf : ScatterDims.WF S4096x2048 S2048x2 S2048 [] [0, 1] [0, 1] 1
  scatter_S1024x2048_S2048x2_S2048_n_01_01_1_wf : ScatterDims.WF S1024x2048 S2048x2 S2048 [] [0, 1] [0, 1] 1
  scatter_S256x2048_S2048x2_S2048_n_01_01_1_wf : ScatterDims.WF S256x2048 S2048x2 S2048 [] [0, 1] [0, 1] 1
  dot_S256x4096_S4096x2048_S256x2048_1_0_0_1_n_n_wf : DotDims.WF S256x4096 S4096x2048 S256x2048 [1] [0] [0] [1] [] []
  dot_S256x1024_S1024x2048_S256x2048_1_0_0_1_n_n_wf : DotDims.WF S256x1024 S1024x2048 S256x2048 [1] [0] [0] [1] [] []
  dot_S256x256_S256x2048_S256x2048_1_0_0_1_n_n_wf : DotDims.WF S256x256 S256x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x8x64x64.size a ≤ S8x64x16x64x64.size a
  hwx0_0 : ∀ i : grid0.Coords, EltTy.bits .f32 = 32 ∨ (Rect.block (s := S8x64x16x64x64) S1x32x8x64x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x2048.size a ≤ S4096x2048.size a
  hwx0_1 : ∀ i : grid0.Coords, EltTy.bits .bf16 = 32 ∨ (Rect.block (s := S4096x2048) S4096x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x2048.size a
  hwx0_2 : ∀ i : grid0.Coords, EltTy.bits .bf16 = 32 ∨ (Rect.block (s := S1024x2048) S1024x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S256x2048.size a
  hwx0_3 : ∀ i : grid0.Coords, EltTy.bits .bf16 = 32 ∨ (Rect.block (s := S256x2048) S256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3x32x2048.size a ≤ S3x64x2048.size a
  hwx0_4 : ∀ i : grid0.Coords, EltTy.bits .f32 = 32 ∨ (Rect.block (s := S3x64x2048) S3x32x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x2048.size a ≤ S8x16x2048.size a
  hwx0_6 : ∀ i : grid0.Coords, EltTy.bits .f32 = 32 ∨ (Rect.block (s := S8x16x2048) S1x8x2048.size (cc0_transform_6 i) (hinb0_6 i)).WholeWords (EltTy.packing .f32)

variable [Facts₀]

def scatter_S4096x2048_S2048x2_S2048_n_01_01_1 : ScatterDims S4096x2048 S2048x2 S2048 where
  updateWindowDims := []
  insertedWindowDims := [0, 1]
  scatterDimsToOperandDims := [0, 1]
  indexVectorDim := 1
  wf := scatter_S4096x2048_S2048x2_S2048_n_01_01_1_wf
def scatter_S1024x2048_S2048x2_S2048_n_01_01_1 : ScatterDims S1024x2048 S2048x2 S2048 where
  updateWindowDims := []
  insertedWindowDims := [0, 1]
  scatterDimsToOperandDims := [0, 1]
  indexVectorDim := 1
  wf := scatter_S1024x2048_S2048x2_S2048_n_01_01_1_wf
def scatter_S256x2048_S2048x2_S2048_n_01_01_1 : ScatterDims S256x2048 S2048x2 S2048 where
  updateWindowDims := []
  insertedWindowDims := [0, 1]
  scatterDimsToOperandDims := [0, 1]
  indexVectorDim := 1
  wf := scatter_S256x2048_S2048x2_S2048_n_01_01_1_wf
def dot_S256x4096_S4096x2048_S256x2048_1_0_0_1_n_n : DotDims S256x4096 S4096x2048 S256x2048 where
  lhsContracting := [1]
  rhsContracting := [0]
  lhsNonContracting := [0]
  rhsNonContracting := [1]
  lhsBatch := []
  rhsBatch := []
  wf := dot_S256x4096_S4096x2048_S256x2048_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x256_S256x2048_S256x2048_1_0_0_1_n_n : DotDims S256x256 S256x2048 S256x2048 where
  lhsContracting := [1]
  rhsContracting := [0]
  lhsNonContracting := [0]
  rhsNonContracting := [1]
  lhsBatch := []
  rhsBatch := []
  wf := dot_S256x256_S256x2048_S256x2048_1_0_0_1_n_n_wf

abbrev win0_0 : Pipeline.Window sig grid0 :=
  Pipeline.Window.ofSpec (Memref.whole main_arg0) S1x32x8x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v182) S4096x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v363) S1024x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v544) S256x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v545) S3x32x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v546) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v547) S1x8x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8x64x16x64x64 : Shape := ⟨5, ![8, 64, 16, 64, 64]⟩
abbrev S1x2048x1x2 : Shape := ⟨4, ![1, 2048, 1, 2]⟩
abbrev S1x192x1x2048 : Shape := ⟨4, ![1, 192, 1, 2048]⟩
abbrev S2048 : Shape := ⟨1, ![2048]⟩
abbrev S_ : Shape := ⟨0, ![]⟩
abbrev S1x2048x2 : Shape := ⟨3, ![1, 2048, 2]⟩
abbrev S128x2048x2 : Shape := ⟨3, ![128, 2048, 2]⟩
abbrev S8x16x64x64x64 : Shape := ⟨5, ![8, 16, 64, 64, 64]⟩
abbrev S128x64x64x64 : Shape := ⟨4, ![128, 64, 64, 64]⟩
abbrev S128x2048x1 : Shape := ⟨3, ![128, 2048, 1]⟩
abbrev S128x2048 : Shape := ⟨2, ![128, 2048]⟩
abbrev S128x64x2048 : Shape := ⟨3, ![128, 64, 2048]⟩
abbrev S128x1x2048 : Shape := ⟨3, ![128, 1, 2048]⟩
abbrev S128x64x32x2x32x2 : Shape := ⟨6, ![128, 64, 32, 2, 32, 2]⟩
abbrev S128x64x32x32 : Shape := ⟨4, ![128, 64, 32, 32]⟩
abbrev S128x64x16x2x16x2 : Shape := ⟨6, ![128, 64, 16, 2, 16, 2]⟩
abbrev S128x64x16x16 : Shape := ⟨4, ![128, 64, 16, 16]⟩
abbrev S128x192x2048 : Shape := ⟨3, ![128, 192, 2048]⟩
abbrev S1x192x2048 : Shape := ⟨3, ![1, 192, 2048]⟩
abbrev S8x16x2048 : Shape := ⟨3, ![8, 16, 2048]⟩
abbrev S1x1x2048 : Shape := ⟨3, ![1, 1, 2048]⟩

abbrev nBuf : Space → Nat
  | .hbm => 881
  | .vmem => 0
  | .smem => 0
  | _ => 0

abbrev hbmTy0_0 (i : Nat) : BufTy := match i % 128 with
  | 0 => ⟨S8x64x16x64x64, .f32⟩
  | 1 => ⟨S1x2048x1x2, .f32⟩
  | 2 => ⟨S1x192x1x2048, .f32⟩
  | 3 => ⟨S2048, .f32⟩
  | 4 => ⟨S_, .f32⟩
  | 5 => ⟨S_, .f32⟩
  | 6 => ⟨S_, .f32⟩
  | 7 => ⟨S1x2048x1x2, .f32⟩
  | 8 => ⟨S1x2048x1x2, .f32⟩
  | 9 => ⟨S_, .f32⟩
  | 10 => ⟨S1x2048x1x2, .f32⟩
  | 11 => ⟨S1x2048x1x2, .f32⟩
  | 12 => ⟨S1x2048x2, .f32⟩
  | 13 => ⟨S128x2048x2, .f32⟩
  | 14 => ⟨S8x16x64x64x64, .f32⟩
  | 15 => ⟨S128x64x64x64, .f32⟩
  | 16 => ⟨S128x2048x1, .f32⟩
  | 17 => ⟨S128x2048, .f32⟩
  | 18 => ⟨S_, .f32⟩
  | 19 => ⟨S128x2048, .f32⟩
  | 20 => ⟨S128x2048, .f32⟩
  | 21 => ⟨S_, .f32⟩
  | 22 => ⟨S128x2048, .f32⟩
  | 23 => ⟨S128x2048, .f32⟩
  | 24 => ⟨S_, .f32⟩
  | 25 => ⟨S128x2048, .f32⟩
  | 26 => ⟨S128x2048, .f32⟩
  | 27 => ⟨S_, .f32⟩
  | 28 => ⟨S128x2048, .f32⟩
  | 29 => ⟨S128x2048, .f32⟩
  | 30 => ⟨S128x2048x1, .f32⟩
  | 31 => ⟨S128x2048, .f32⟩
  | 32 => ⟨S_, .f32⟩
  | 33 => ⟨S128x2048, .f32⟩
  | 34 => ⟨S128x2048, .f32⟩
  | 35 => ⟨S_, .f32⟩
  | 36 => ⟨S128x2048, .f32⟩
  | 37 => ⟨S128x2048, .f32⟩
  | 38 => ⟨S_, .f32⟩
  | 39 => ⟨S128x2048, .f32⟩
  | 40 => ⟨S128x2048, .f32⟩
  | 41 => ⟨S_, .f32⟩
  | 42 => ⟨S128x2048, .f32⟩
  | 43 => ⟨S128x2048, .f32⟩
  | 44 => ⟨S128x2048, .f32⟩
  | 45 => ⟨S128x2048, .f32⟩
  | 46 => ⟨S128x2048, .f32⟩
  | 47 => ⟨S128x2048, .f32⟩
  | 48 => ⟨S128x2048, .i32⟩
  | 49 => ⟨S128x2048, .i32⟩
  | 50 => ⟨S_, .f32⟩
  | 51 => ⟨S128x2048, .f32⟩
  | 52 => ⟨S128x2048, .f32⟩
  | 53 => ⟨S_, .f32⟩
  | 54 => ⟨S128x2048, .f32⟩
  | 55 => ⟨S128x2048, .f32⟩
  | 56 => ⟨S128x2048, .f32⟩
  | 57 => ⟨S_, .i32⟩
  | 58 => ⟨S128x2048, .i32⟩
  | 59 => ⟨S128x2048, .i1⟩
  | 60 => ⟨S_, .i32⟩
  | 61 => ⟨S128x2048, .i32⟩
  | 62 => ⟨S128x2048, .i1⟩
  | 63 => ⟨S128x2048, .i1⟩
  | 64 => ⟨S_, .i32⟩
  | 65 => ⟨S128x2048, .i32⟩
  | 66 => ⟨S128x2048, .i1⟩
  | 67 => ⟨S128x2048, .i1⟩
  | 68 => ⟨S_, .i32⟩
  | 69 => ⟨S128x2048, .i32⟩
  | 70 => ⟨S128x2048, .i1⟩
  | 71 => ⟨S128x2048, .i1⟩
  | 72 => ⟨S128x2048, .f32⟩
  | 73 => ⟨S_, .i32⟩
  | 74 => ⟨S_, .i32⟩
  | 75 => ⟨S_, .i32⟩
  | 76 => ⟨S128x2048, .i32⟩
  | 77 => ⟨S128x2048, .i32⟩
  | 78 => ⟨S_, .i32⟩
  | 79 => ⟨S128x2048, .i32⟩
  | 80 => ⟨S128x2048, .i32⟩
  | 81 => ⟨S_, .i32⟩
  | 82 => ⟨S_, .i32⟩
  | 83 => ⟨S_, .i32⟩
  | 84 => ⟨S128x2048, .i32⟩
  | 85 => ⟨S128x2048, .i32⟩
  | 86 => ⟨S_, .i32⟩
  | 87 => ⟨S128x2048, .i32⟩
  | 88 => ⟨S128x2048, .i32⟩
  | 89 => ⟨S_, .i32⟩
  | 90 => ⟨S128x2048, .i32⟩
  | 91 => ⟨S128x2048, .i1⟩
  | 92 => ⟨S_, .i32⟩
  | 93 => ⟨S128x2048, .i32⟩
  | 94 => ⟨S128x2048, .i32⟩
  | 95 => ⟨S128x2048, .i32⟩
  | 96 => ⟨S_, .i32⟩
  | 97 => ⟨S128x2048, .i32⟩
  | 98 => ⟨S128x2048, .i1⟩
  | 99 => ⟨S_, .i32⟩
  | 100 => ⟨S128x2048, .i32⟩
  | 101 => ⟨S128x2048, .i32⟩
  | 102 => ⟨S128x2048, .i32⟩
  | 103 => ⟨S128x2048x1, .i32⟩
  | 104 => ⟨S128x2048x1, .i32⟩
  | 105 => ⟨S128x2048x2, .i32⟩
  | 106 => ⟨S128x64x2048, .f32⟩
  | 107 => ⟨S128x2048, .f32⟩
  | 108 => ⟨S128x1x2048, .f32⟩
  | 109 => ⟨S128x64x2048, .f32⟩
  | 110 => ⟨S128x64x2048, .f32⟩
  | 111 => ⟨S_, .i32⟩
  | 112 => ⟨S128x2048, .i32⟩
  | 113 => ⟨S128x2048, .i32⟩
  | 114 => ⟨S_, .f32⟩
  | 115 => ⟨S128x2048, .f32⟩
  | 116 => ⟨S128x2048, .f32⟩
  | 117 => ⟨S128x2048, .f32⟩
  | 118 => ⟨S_, .i32⟩
  | 119 => ⟨S128x2048, .i32⟩
  | 120 => ⟨S128x2048, .i1⟩
  | 121 => ⟨S_, .i32⟩
  | 122 => ⟨S128x2048, .i32⟩
  | 123 => ⟨S128x2048, .i1⟩
  | 124 => ⟨S128x2048, .i1⟩
  | 125 => ⟨S_, .i32⟩
  | 126 => ⟨S128x2048, .i32⟩
  | 127 => ⟨S128x2048, .i1⟩
  | _ => ⟨S8x64x16x64x64, .f32⟩

abbrev hbmTy0_1 (i : Nat) : BufTy := match i % 128 with
  | 0 => ⟨S128x2048, .i1⟩
  | 1 => ⟨S_, .i32⟩
  | 2 => ⟨S128x2048, .i32⟩
  | 3 => ⟨S128x2048, .i1⟩
  | 4 => ⟨S128x2048, .i1⟩
  | 5 => ⟨S128x2048, .f32⟩
  | 6 => ⟨S_, .i32⟩
  | 7 => ⟨S_, .i32⟩
  | 8 => ⟨S_, .i32⟩
  | 9 => ⟨S128x2048, .i32⟩
  | 10 => ⟨S128x2048, .i32⟩
  | 11 => ⟨S_, .i32⟩
  | 12 => ⟨S128x2048, .i32⟩
  | 13 => ⟨S128x2048, .i32⟩
  | 14 => ⟨S_, .i32⟩
  | 15 => ⟨S_, .i32⟩
  | 16 => ⟨S_, .i32⟩
  | 17 => ⟨S128x2048, .i32⟩
  | 18 => ⟨S128x2048, .i32⟩
  | 19 => ⟨S_, .i32⟩
  | 20 => ⟨S128x2048, .i32⟩
  | 21 => ⟨S128x2048, .i32⟩
  | 22 => ⟨S_, .i32⟩
  | 23 => ⟨S128x2048, .i32⟩
  | 24 => ⟨S128x2048, .i1⟩
  | 25 => ⟨S_, .i32⟩
  | 26 => ⟨S128x2048, .i32⟩
  | 27 => ⟨S128x2048, .i32⟩
  | 28 => ⟨S128x2048, .i32⟩
  | 29 => ⟨S_, .i32⟩
  | 30 => ⟨S128x2048, .i32⟩
  | 31 => ⟨S128x2048, .i1⟩
  | 32 => ⟨S_, .i32⟩
  | 33 => ⟨S128x2048, .i32⟩
  | 34 => ⟨S128x2048, .i32⟩
  | 35 => ⟨S128x2048, .i32⟩
  | 36 => ⟨S128x2048x1, .i32⟩
  | 37 => ⟨S128x2048x1, .i32⟩
  | 38 => ⟨S128x2048x2, .i32⟩
  | 39 => ⟨S128x64x2048, .f32⟩
  | 40 => ⟨S128x2048, .f32⟩
  | 41 => ⟨S128x1x2048, .f32⟩
  | 42 => ⟨S128x64x2048, .f32⟩
  | 43 => ⟨S128x64x2048, .f32⟩
  | 44 => ⟨S128x64x2048, .f32⟩
  | 45 => ⟨S_, .i32⟩
  | 46 => ⟨S128x2048, .i32⟩
  | 47 => ⟨S128x2048, .i32⟩
  | 48 => ⟨S_, .f32⟩
  | 49 => ⟨S128x2048, .f32⟩
  | 50 => ⟨S128x2048, .f32⟩
  | 51 => ⟨S128x2048, .f32⟩
  | 52 => ⟨S_, .i32⟩
  | 53 => ⟨S128x2048, .i32⟩
  | 54 => ⟨S128x2048, .i1⟩
  | 55 => ⟨S_, .i32⟩
  | 56 => ⟨S128x2048, .i32⟩
  | 57 => ⟨S128x2048, .i1⟩
  | 58 => ⟨S128x2048, .i1⟩
  | 59 => ⟨S_, .i32⟩
  | 60 => ⟨S128x2048, .i32⟩
  | 61 => ⟨S128x2048, .i1⟩
  | 62 => ⟨S128x2048, .i1⟩
  | 63 => ⟨S_, .i32⟩
  | 64 => ⟨S128x2048, .i32⟩
  | 65 => ⟨S128x2048, .i1⟩
  | 66 => ⟨S128x2048, .i1⟩
  | 67 => ⟨S128x2048, .f32⟩
  | 68 => ⟨S_, .i32⟩
  | 69 => ⟨S_, .i32⟩
  | 70 => ⟨S_, .i32⟩
  | 71 => ⟨S128x2048, .i32⟩
  | 72 => ⟨S128x2048, .i32⟩
  | 73 => ⟨S_, .i32⟩
  | 74 => ⟨S128x2048, .i32⟩
  | 75 => ⟨S128x2048, .i32⟩
  | 76 => ⟨S_, .i32⟩
  | 77 => ⟨S_, .i32⟩
  | 78 => ⟨S_, .i32⟩
  | 79 => ⟨S128x2048, .i32⟩
  | 80 => ⟨S128x2048, .i32⟩
  | 81 => ⟨S_, .i32⟩
  | 82 => ⟨S128x2048, .i32⟩
  | 83 => ⟨S128x2048, .i32⟩
  | 84 => ⟨S_, .i32⟩
  | 85 => ⟨S128x2048, .i32⟩
  | 86 => ⟨S128x2048, .i1⟩
  | 87 => ⟨S_, .i32⟩
  | 88 => ⟨S128x2048, .i32⟩
  | 89 => ⟨S128x2048, .i32⟩
  | 90 => ⟨S128x2048, .i32⟩
  | 91 => ⟨S_, .i32⟩
  | 92 => ⟨S128x2048, .i32⟩
  | 93 => ⟨S128x2048, .i1⟩
  | 94 => ⟨S_, .i32⟩
  | 95 => ⟨S128x2048, .i32⟩
  | 96 => ⟨S128x2048, .i32⟩
  | 97 => ⟨S128x2048, .i32⟩
  | 98 => ⟨S128x2048x1, .i32⟩
  | 99 => ⟨S128x2048x1, .i32⟩
  | 100 => ⟨S128x2048x2, .i32⟩
  | 101 => ⟨S128x64x2048, .f32⟩
  | 102 => ⟨S128x2048, .f32⟩
  | 103 => ⟨S128x1x2048, .f32⟩
  | 104 => ⟨S128x64x2048, .f32⟩
  | 105 => ⟨S128x64x2048, .f32⟩
  | 106 => ⟨S128x64x2048, .f32⟩
  | 107 => ⟨S_, .i32⟩
  | 108 => ⟨S128x2048, .i32⟩
  | 109 => ⟨S128x2048, .i32⟩
  | 110 => ⟨S_, .i32⟩
  | 111 => ⟨S128x2048, .i32⟩
  | 112 => ⟨S128x2048, .i32⟩
  | 113 => ⟨S128x2048, .f32⟩
  | 114 => ⟨S_, .i32⟩
  | 115 => ⟨S128x2048, .i32⟩
  | 116 => ⟨S128x2048, .i1⟩
  | 117 => ⟨S_, .i32⟩
  | 118 => ⟨S128x2048, .i32⟩
  | 119 => ⟨S128x2048, .i1⟩
  | 120 => ⟨S128x2048, .i1⟩
  | 121 => ⟨S_, .i32⟩
  | 122 => ⟨S128x2048, .i32⟩
  | 123 => ⟨S128x2048, .i1⟩
  | 124 => ⟨S128x2048, .i1⟩
  | 125 => ⟨S_, .i32⟩
  | 126 => ⟨S128x2048, .i32⟩
  | 127 => ⟨S128x2048, .i1⟩
  | _ => ⟨S8x64x16x64x64, .f32⟩

abbrev hbmTy0_2 (i : Nat) : BufTy := match i % 128 with
  | 0 => ⟨S128x2048, .i1⟩
  | 1 => ⟨S128x2048, .f32⟩
  | 2 => ⟨S_, .i32⟩
  | 3 => ⟨S_, .i32⟩
  | 4 => ⟨S_, .i32⟩
  | 5 => ⟨S128x2048, .i32⟩
  | 6 => ⟨S128x2048, .i32⟩
  | 7 => ⟨S_, .i32⟩
  | 8 => ⟨S128x2048, .i32⟩
  | 9 => ⟨S128x2048, .i32⟩
  | 10 => ⟨S_, .i32⟩
  | 11 => ⟨S_, .i32⟩
  | 12 => ⟨S_, .i32⟩
  | 13 => ⟨S128x2048, .i32⟩
  | 14 => ⟨S128x2048, .i32⟩
  | 15 => ⟨S_, .i32⟩
  | 16 => ⟨S128x2048, .i32⟩
  | 17 => ⟨S128x2048, .i32⟩
  | 18 => ⟨S_, .i32⟩
  | 19 => ⟨S128x2048, .i32⟩
  | 20 => ⟨S128x2048, .i1⟩
  | 21 => ⟨S_, .i32⟩
  | 22 => ⟨S128x2048, .i32⟩
  | 23 => ⟨S128x2048, .i32⟩
  | 24 => ⟨S128x2048, .i32⟩
  | 25 => ⟨S_, .i32⟩
  | 26 => ⟨S128x2048, .i32⟩
  | 27 => ⟨S128x2048, .i1⟩
  | 28 => ⟨S_, .i32⟩
  | 29 => ⟨S128x2048, .i32⟩
  | 30 => ⟨S128x2048, .i32⟩
  | 31 => ⟨S128x2048, .i32⟩
  | 32 => ⟨S128x2048x1, .i32⟩
  | 33 => ⟨S128x2048x1, .i32⟩
  | 34 => ⟨S128x2048x2, .i32⟩
  | 35 => ⟨S128x64x2048, .f32⟩
  | 36 => ⟨S128x2048, .f32⟩
  | 37 => ⟨S128x1x2048, .f32⟩
  | 38 => ⟨S128x64x2048, .f32⟩
  | 39 => ⟨S128x64x2048, .f32⟩
  | 40 => ⟨S128x64x2048, .f32⟩
  | 41 => ⟨S128x64x32x2x32x2, .f32⟩
  | 42 => ⟨S_, .f32⟩
  | 43 => ⟨S128x64x32x32, .f32⟩
  | 44 => ⟨S_, .f32⟩
  | 45 => ⟨S128x64x32x32, .f32⟩
  | 46 => ⟨S128x64x32x32, .f32⟩
  | 47 => ⟨S128x2048x1, .f32⟩
  | 48 => ⟨S128x2048, .f32⟩
  | 49 => ⟨S_, .f32⟩
  | 50 => ⟨S128x2048, .f32⟩
  | 51 => ⟨S128x2048, .f32⟩
  | 52 => ⟨S_, .f32⟩
  | 53 => ⟨S128x2048, .f32⟩
  | 54 => ⟨S128x2048, .f32⟩
  | 55 => ⟨S_, .f32⟩
  | 56 => ⟨S128x2048, .f32⟩
  | 57 => ⟨S128x2048, .f32⟩
  | 58 => ⟨S_, .f32⟩
  | 59 => ⟨S128x2048, .f32⟩
  | 60 => ⟨S128x2048, .f32⟩
  | 61 => ⟨S128x2048x1, .f32⟩
  | 62 => ⟨S128x2048, .f32⟩
  | 63 => ⟨S_, .f32⟩
  | 64 => ⟨S128x2048, .f32⟩
  | 65 => ⟨S128x2048, .f32⟩
  | 66 => ⟨S_, .f32⟩
  | 67 => ⟨S128x2048, .f32⟩
  | 68 => ⟨S128x2048, .f32⟩
  | 69 => ⟨S_, .f32⟩
  | 70 => ⟨S128x2048, .f32⟩
  | 71 => ⟨S128x2048, .f32⟩
  | 72 => ⟨S_, .f32⟩
  | 73 => ⟨S128x2048, .f32⟩
  | 74 => ⟨S128x2048, .f32⟩
  | 75 => ⟨S128x2048, .f32⟩
  | 76 => ⟨S128x2048, .f32⟩
  | 77 => ⟨S128x2048, .f32⟩
  | 78 => ⟨S128x2048, .f32⟩
  | 79 => ⟨S128x2048, .i32⟩
  | 80 => ⟨S128x2048, .i32⟩
  | 81 => ⟨S_, .f32⟩
  | 82 => ⟨S128x2048, .f32⟩
  | 83 => ⟨S128x2048, .f32⟩
  | 84 => ⟨S_, .f32⟩
  | 85 => ⟨S128x2048, .f32⟩
  | 86 => ⟨S128x2048, .f32⟩
  | 87 => ⟨S128x2048, .f32⟩
  | 88 => ⟨S_, .i32⟩
  | 89 => ⟨S128x2048, .i32⟩
  | 90 => ⟨S128x2048, .i1⟩
  | 91 => ⟨S_, .i32⟩
  | 92 => ⟨S128x2048, .i32⟩
  | 93 => ⟨S128x2048, .i1⟩
  | 94 => ⟨S128x2048, .i1⟩
  | 95 => ⟨S_, .i32⟩
  | 96 => ⟨S128x2048, .i32⟩
  | 97 => ⟨S128x2048, .i1⟩
  | 98 => ⟨S128x2048, .i1⟩
  | 99 => ⟨S_, .i32⟩
  | 100 => ⟨S128x2048, .i32⟩
  | 101 => ⟨S128x2048, .i1⟩
  | 102 => ⟨S128x2048, .i1⟩
  | 103 => ⟨S128x2048, .f32⟩
  | 104 => ⟨S_, .i32⟩
  | 105 => ⟨S_, .i32⟩
  | 106 => ⟨S_, .i32⟩
  | 107 => ⟨S128x2048, .i32⟩
  | 108 => ⟨S128x2048, .i32⟩
  | 109 => ⟨S_, .i32⟩
  | 110 => ⟨S128x2048, .i32⟩
  | 111 => ⟨S128x2048, .i32⟩
  | 112 => ⟨S_, .i32⟩
  | 113 => ⟨S_, .i32⟩
  | 114 => ⟨S_, .i32⟩
  | 115 => ⟨S128x2048, .i32⟩
  | 116 => ⟨S128x2048, .i32⟩
  | 117 => ⟨S_, .i32⟩
  | 118 => ⟨S128x2048, .i32⟩
  | 119 => ⟨S128x2048, .i32⟩
  | 120 => ⟨S_, .i32⟩
  | 121 => ⟨S128x2048, .i32⟩
  | 122 => ⟨S128x2048, .i1⟩
  | 123 => ⟨S_, .i32⟩
  | 124 => ⟨S128x2048, .i32⟩
  | 125 => ⟨S128x2048, .i32⟩
  | 126 => ⟨S128x2048, .i32⟩
  | 127 => ⟨S_, .i32⟩
  | _ => ⟨S8x64x16x64x64, .f32⟩

abbrev hbmTy0_3 (i : Nat) : BufTy := match i % 128 with
  | 0 => ⟨S128x2048, .i32⟩
  | 1 => ⟨S128x2048, .i1⟩
  | 2 => ⟨S_, .i32⟩
  | 3 => ⟨S128x2048, .i32⟩
  | 4 => ⟨S128x2048, .i32⟩
  | 5 => ⟨S128x2048, .i32⟩
  | 6 => ⟨S128x2048x1, .i32⟩
  | 7 => ⟨S128x2048x1, .i32⟩
  | 8 => ⟨S128x2048x2, .i32⟩
  | 9 => ⟨S128x64x2048, .f32⟩
  | 10 => ⟨S128x2048, .f32⟩
  | 11 => ⟨S128x1x2048, .f32⟩
  | 12 => ⟨S128x64x2048, .f32⟩
  | 13 => ⟨S128x64x2048, .f32⟩
  | 14 => ⟨S_, .i32⟩
  | 15 => ⟨S128x2048, .i32⟩
  | 16 => ⟨S128x2048, .i32⟩
  | 17 => ⟨S_, .f32⟩
  | 18 => ⟨S128x2048, .f32⟩
  | 19 => ⟨S128x2048, .f32⟩
  | 20 => ⟨S128x2048, .f32⟩
  | 21 => ⟨S_, .i32⟩
  | 22 => ⟨S128x2048, .i32⟩
  | 23 => ⟨S128x2048, .i1⟩
  | 24 => ⟨S_, .i32⟩
  | 25 => ⟨S128x2048, .i32⟩
  | 26 => ⟨S128x2048, .i1⟩
  | 27 => ⟨S128x2048, .i1⟩
  | 28 => ⟨S_, .i32⟩
  | 29 => ⟨S128x2048, .i32⟩
  | 30 => ⟨S128x2048, .i1⟩
  | 31 => ⟨S128x2048, .i1⟩
  | 32 => ⟨S_, .i32⟩
  | 33 => ⟨S128x2048, .i32⟩
  | 34 => ⟨S128x2048, .i1⟩
  | 35 => ⟨S128x2048, .i1⟩
  | 36 => ⟨S128x2048, .f32⟩
  | 37 => ⟨S_, .i32⟩
  | 38 => ⟨S_, .i32⟩
  | 39 => ⟨S_, .i32⟩
  | 40 => ⟨S128x2048, .i32⟩
  | 41 => ⟨S128x2048, .i32⟩
  | 42 => ⟨S_, .i32⟩
  | 43 => ⟨S128x2048, .i32⟩
  | 44 => ⟨S128x2048, .i32⟩
  | 45 => ⟨S_, .i32⟩
  | 46 => ⟨S_, .i32⟩
  | 47 => ⟨S_, .i32⟩
  | 48 => ⟨S128x2048, .i32⟩
  | 49 => ⟨S128x2048, .i32⟩
  | 50 => ⟨S_, .i32⟩
  | 51 => ⟨S128x2048, .i32⟩
  | 52 => ⟨S128x2048, .i32⟩
  | 53 => ⟨S_, .i32⟩
  | 54 => ⟨S128x2048, .i32⟩
  | 55 => ⟨S128x2048, .i1⟩
  | 56 => ⟨S_, .i32⟩
  | 57 => ⟨S128x2048, .i32⟩
  | 58 => ⟨S128x2048, .i32⟩
  | 59 => ⟨S128x2048, .i32⟩
  | 60 => ⟨S_, .i32⟩
  | 61 => ⟨S128x2048, .i32⟩
  | 62 => ⟨S128x2048, .i1⟩
  | 63 => ⟨S_, .i32⟩
  | 64 => ⟨S128x2048, .i32⟩
  | 65 => ⟨S128x2048, .i32⟩
  | 66 => ⟨S128x2048, .i32⟩
  | 67 => ⟨S128x2048x1, .i32⟩
  | 68 => ⟨S128x2048x1, .i32⟩
  | 69 => ⟨S128x2048x2, .i32⟩
  | 70 => ⟨S128x64x2048, .f32⟩
  | 71 => ⟨S128x2048, .f32⟩
  | 72 => ⟨S128x1x2048, .f32⟩
  | 73 => ⟨S128x64x2048, .f32⟩
  | 74 => ⟨S128x64x2048, .f32⟩
  | 75 => ⟨S128x64x2048, .f32⟩
  | 76 => ⟨S_, .i32⟩
  | 77 => ⟨S128x2048, .i32⟩
  | 78 => ⟨S128x2048, .i32⟩
  | 79 => ⟨S_, .f32⟩
  | 80 => ⟨S128x2048, .f32⟩
  | 81 => ⟨S128x2048, .f32⟩
  | 82 => ⟨S128x2048, .f32⟩
  | 83 => ⟨S_, .i32⟩
  | 84 => ⟨S128x2048, .i32⟩
  | 85 => ⟨S128x2048, .i1⟩
  | 86 => ⟨S_, .i32⟩
  | 87 => ⟨S128x2048, .i32⟩
  | 88 => ⟨S128x2048, .i1⟩
  | 89 => ⟨S128x2048, .i1⟩
  | 90 => ⟨S_, .i32⟩
  | 91 => ⟨S128x2048, .i32⟩
  | 92 => ⟨S128x2048, .i1⟩
  | 93 => ⟨S128x2048, .i1⟩
  | 94 => ⟨S_, .i32⟩
  | 95 => ⟨S128x2048, .i32⟩
  | 96 => ⟨S128x2048, .i1⟩
  | 97 => ⟨S128x2048, .i1⟩
  | 98 => ⟨S128x2048, .f32⟩
  | 99 => ⟨S_, .i32⟩
  | 100 => ⟨S_, .i32⟩
  | 101 => ⟨S_, .i32⟩
  | 102 => ⟨S128x2048, .i32⟩
  | 103 => ⟨S128x2048, .i32⟩
  | 104 => ⟨S_, .i32⟩
  | 105 => ⟨S128x2048, .i32⟩
  | 106 => ⟨S128x2048, .i32⟩
  | 107 => ⟨S_, .i32⟩
  | 108 => ⟨S_, .i32⟩
  | 109 => ⟨S_, .i32⟩
  | 110 => ⟨S128x2048, .i32⟩
  | 111 => ⟨S128x2048, .i32⟩
  | 112 => ⟨S_, .i32⟩
  | 113 => ⟨S128x2048, .i32⟩
  | 114 => ⟨S128x2048, .i32⟩
  | 115 => ⟨S_, .i32⟩
  | 116 => ⟨S128x2048, .i32⟩
  | 117 => ⟨S128x2048, .i1⟩
  | 118 => ⟨S_, .i32⟩
  | 119 => ⟨S128x2048, .i32⟩
  | 120 => ⟨S128x2048, .i32⟩
  | 121 => ⟨S128x2048, .i32⟩
  | 122 => ⟨S_, .i32⟩
  | 123 => ⟨S128x2048, .i32⟩
  | 124 => ⟨S128x2048, .i1⟩
  | 125 => ⟨S_, .i32⟩
  | 126 => ⟨S128x2048, .i32⟩
  | 127 => ⟨S128x2048, .i32⟩
  | _ => ⟨S8x64x16x64x64, .f32⟩

abbrev hbmTy0_4 (i : Nat) : BufTy := match i % 128 with
  | 0 => ⟨S128x2048, .i32⟩
  | 1 => ⟨S128x2048x1, .i32⟩
  | 2 => ⟨S128x2048x1, .i32⟩
  | 3 => ⟨S128x2048x2, .i32⟩
  | 4 => ⟨S128x64x2048, .f32⟩
  | 5 => ⟨S128x2048, .f32⟩
  | 6 => ⟨S128x1x2048, .f32⟩
  | 7 => ⟨S128x64x2048, .f32⟩
  | 8 => ⟨S128x64x2048, .f32⟩
  | 9 => ⟨S128x64x2048, .f32⟩
  | 10 => ⟨S_, .i32⟩
  | 11 => ⟨S128x2048, .i32⟩
  | 12 => ⟨S128x2048, .i32⟩
  | 13 => ⟨S_, .i32⟩
  | 14 => ⟨S128x2048, .i32⟩
  | 15 => ⟨S128x2048, .i32⟩
  | 16 => ⟨S128x2048, .f32⟩
  | 17 => ⟨S_, .i32⟩
  | 18 => ⟨S128x2048, .i32⟩
  | 19 => ⟨S128x2048, .i1⟩
  | 20 => ⟨S_, .i32⟩
  | 21 => ⟨S128x2048, .i32⟩
  | 22 => ⟨S128x2048, .i1⟩
  | 23 => ⟨S128x2048, .i1⟩
  | 24 => ⟨S_, .i32⟩
  | 25 => ⟨S128x2048, .i32⟩
  | 26 => ⟨S128x2048, .i1⟩
  | 27 => ⟨S128x2048, .i1⟩
  | 28 => ⟨S_, .i32⟩
  | 29 => ⟨S128x2048, .i32⟩
  | 30 => ⟨S128x2048, .i1⟩
  | 31 => ⟨S128x2048, .i1⟩
  | 32 => ⟨S128x2048, .f32⟩
  | 33 => ⟨S_, .i32⟩
  | 34 => ⟨S_, .i32⟩
  | 35 => ⟨S_, .i32⟩
  | 36 => ⟨S128x2048, .i32⟩
  | 37 => ⟨S128x2048, .i32⟩
  | 38 => ⟨S_, .i32⟩
  | 39 => ⟨S128x2048, .i32⟩
  | 40 => ⟨S128x2048, .i32⟩
  | 41 => ⟨S_, .i32⟩
  | 42 => ⟨S_, .i32⟩
  | 43 => ⟨S_, .i32⟩
  | 44 => ⟨S128x2048, .i32⟩
  | 45 => ⟨S128x2048, .i32⟩
  | 46 => ⟨S_, .i32⟩
  | 47 => ⟨S128x2048, .i32⟩
  | 48 => ⟨S128x2048, .i32⟩
  | 49 => ⟨S_, .i32⟩
  | 50 => ⟨S128x2048, .i32⟩
  | 51 => ⟨S128x2048, .i1⟩
  | 52 => ⟨S_, .i32⟩
  | 53 => ⟨S128x2048, .i32⟩
  | 54 => ⟨S128x2048, .i32⟩
  | 55 => ⟨S128x2048, .i32⟩
  | 56 => ⟨S_, .i32⟩
  | 57 => ⟨S128x2048, .i32⟩
  | 58 => ⟨S128x2048, .i1⟩
  | 59 => ⟨S_, .i32⟩
  | 60 => ⟨S128x2048, .i32⟩
  | 61 => ⟨S128x2048, .i32⟩
  | 62 => ⟨S128x2048, .i32⟩
  | 63 => ⟨S128x2048x1, .i32⟩
  | 64 => ⟨S128x2048x1, .i32⟩
  | 65 => ⟨S128x2048x2, .i32⟩
  | 66 => ⟨S128x64x2048, .f32⟩
  | 67 => ⟨S128x2048, .f32⟩
  | 68 => ⟨S128x1x2048, .f32⟩
  | 69 => ⟨S128x64x2048, .f32⟩
  | 70 => ⟨S128x64x2048, .f32⟩
  | 71 => ⟨S128x64x2048, .f32⟩
  | 72 => ⟨S128x64x16x2x16x2, .f32⟩
  | 73 => ⟨S_, .f32⟩
  | 74 => ⟨S128x64x16x16, .f32⟩
  | 75 => ⟨S_, .f32⟩
  | 76 => ⟨S128x64x16x16, .f32⟩
  | 77 => ⟨S128x64x16x16, .f32⟩
  | 78 => ⟨S128x2048x1, .f32⟩
  | 79 => ⟨S128x2048, .f32⟩
  | 80 => ⟨S_, .f32⟩
  | 81 => ⟨S128x2048, .f32⟩
  | 82 => ⟨S128x2048, .f32⟩
  | 83 => ⟨S_, .f32⟩
  | 84 => ⟨S128x2048, .f32⟩
  | 85 => ⟨S128x2048, .f32⟩
  | 86 => ⟨S_, .f32⟩
  | 87 => ⟨S128x2048, .f32⟩
  | 88 => ⟨S128x2048, .f32⟩
  | 89 => ⟨S_, .f32⟩
  | 90 => ⟨S128x2048, .f32⟩
  | 91 => ⟨S128x2048, .f32⟩
  | 92 => ⟨S128x2048x1, .f32⟩
  | 93 => ⟨S128x2048, .f32⟩
  | 94 => ⟨S_, .f32⟩
  | 95 => ⟨S128x2048, .f32⟩
  | 96 => ⟨S128x2048, .f32⟩
  | 97 => ⟨S_, .f32⟩
  | 98 => ⟨S128x2048, .f32⟩
  | 99 => ⟨S128x2048, .f32⟩
  | 100 => ⟨S_, .f32⟩
  | 101 => ⟨S128x2048, .f32⟩
  | 102 => ⟨S128x2048, .f32⟩
  | 103 => ⟨S_, .f32⟩
  | 104 => ⟨S128x2048, .f32⟩
  | 105 => ⟨S128x2048, .f32⟩
  | 106 => ⟨S128x2048, .f32⟩
  | 107 => ⟨S128x2048, .f32⟩
  | 108 => ⟨S128x2048, .f32⟩
  | 109 => ⟨S128x2048, .f32⟩
  | 110 => ⟨S128x2048, .i32⟩
  | 111 => ⟨S128x2048, .i32⟩
  | 112 => ⟨S_, .f32⟩
  | 113 => ⟨S128x2048, .f32⟩
  | 114 => ⟨S128x2048, .f32⟩
  | 115 => ⟨S_, .f32⟩
  | 116 => ⟨S128x2048, .f32⟩
  | 117 => ⟨S128x2048, .f32⟩
  | 118 => ⟨S128x2048, .f32⟩
  | 119 => ⟨S_, .i32⟩
  | 120 => ⟨S128x2048, .i32⟩
  | 121 => ⟨S128x2048, .i1⟩
  | 122 => ⟨S_, .i32⟩
  | 123 => ⟨S128x2048, .i32⟩
  | 124 => ⟨S128x2048, .i1⟩
  | 125 => ⟨S128x2048, .i1⟩
  | 126 => ⟨S_, .i32⟩
  | 127 => ⟨S128x2048, .i32⟩
  | _ => ⟨S8x64x16x64x64, .f32⟩

abbrev hbmTy0_5 (i : Nat) : BufTy := match i % 128 with
  | 0 => ⟨S128x2048, .i1⟩
  | 1 => ⟨S128x2048, .i1⟩
  | 2 => ⟨S_, .i32⟩
  | 3 => ⟨S128x2048, .i32⟩
  | 4 => ⟨S128x2048, .i1⟩
  | 5 => ⟨S128x2048, .i1⟩
  | 6 => ⟨S128x2048, .f32⟩
  | 7 => ⟨S_, .i32⟩
  | 8 => ⟨S_, .i32⟩
  | 9 => ⟨S_, .i32⟩
  | 10 => ⟨S128x2048, .i32⟩
  | 11 => ⟨S128x2048, .i32⟩
  | 12 => ⟨S_, .i32⟩
  | 13 => ⟨S128x2048, .i32⟩
  | 14 => ⟨S128x2048, .i32⟩
  | 15 => ⟨S_, .i32⟩
  | 16 => ⟨S_, .i32⟩
  | 17 => ⟨S_, .i32⟩
  | 18 => ⟨S128x2048, .i32⟩
  | 19 => ⟨S128x2048, .i32⟩
  | 20 => ⟨S_, .i32⟩
  | 21 => ⟨S128x2048, .i32⟩
  | 22 => ⟨S128x2048, .i32⟩
  | 23 => ⟨S_, .i32⟩
  | 24 => ⟨S128x2048, .i32⟩
  | 25 => ⟨S128x2048, .i1⟩
  | 26 => ⟨S_, .i32⟩
  | 27 => ⟨S128x2048, .i32⟩
  | 28 => ⟨S128x2048, .i32⟩
  | 29 => ⟨S128x2048, .i32⟩
  | 30 => ⟨S_, .i32⟩
  | 31 => ⟨S128x2048, .i32⟩
  | 32 => ⟨S128x2048, .i1⟩
  | 33 => ⟨S_, .i32⟩
  | 34 => ⟨S128x2048, .i32⟩
  | 35 => ⟨S128x2048, .i32⟩
  | 36 => ⟨S128x2048, .i32⟩
  | 37 => ⟨S128x2048x1, .i32⟩
  | 38 => ⟨S128x2048x1, .i32⟩
  | 39 => ⟨S128x2048x2, .i32⟩
  | 40 => ⟨S128x64x2048, .f32⟩
  | 41 => ⟨S128x2048, .f32⟩
  | 42 => ⟨S128x1x2048, .f32⟩
  | 43 => ⟨S128x64x2048, .f32⟩
  | 44 => ⟨S128x64x2048, .f32⟩
  | 45 => ⟨S_, .i32⟩
  | 46 => ⟨S128x2048, .i32⟩
  | 47 => ⟨S128x2048, .i32⟩
  | 48 => ⟨S_, .f32⟩
  | 49 => ⟨S128x2048, .f32⟩
  | 50 => ⟨S128x2048, .f32⟩
  | 51 => ⟨S128x2048, .f32⟩
  | 52 => ⟨S_, .i32⟩
  | 53 => ⟨S128x2048, .i32⟩
  | 54 => ⟨S128x2048, .i1⟩
  | 55 => ⟨S_, .i32⟩
  | 56 => ⟨S128x2048, .i32⟩
  | 57 => ⟨S128x2048, .i1⟩
  | 58 => ⟨S128x2048, .i1⟩
  | 59 => ⟨S_, .i32⟩
  | 60 => ⟨S128x2048, .i32⟩
  | 61 => ⟨S128x2048, .i1⟩
  | 62 => ⟨S128x2048, .i1⟩
  | 63 => ⟨S_, .i32⟩
  | 64 => ⟨S128x2048, .i32⟩
  | 65 => ⟨S128x2048, .i1⟩
  | 66 => ⟨S128x2048, .i1⟩
  | 67 => ⟨S128x2048, .f32⟩
  | 68 => ⟨S_, .i32⟩
  | 69 => ⟨S_, .i32⟩
  | 70 => ⟨S_, .i32⟩
  | 71 => ⟨S128x2048, .i32⟩
  | 72 => ⟨S128x2048, .i32⟩
  | 73 => ⟨S_, .i32⟩
  | 74 => ⟨S128x2048, .i32⟩
  | 75 => ⟨S128x2048, .i32⟩
  | 76 => ⟨S_, .i32⟩
  | 77 => ⟨S_, .i32⟩
  | 78 => ⟨S_, .i32⟩
  | 79 => ⟨S128x2048, .i32⟩
  | 80 => ⟨S128x2048, .i32⟩
  | 81 => ⟨S_, .i32⟩
  | 82 => ⟨S128x2048, .i32⟩
  | 83 => ⟨S128x2048, .i32⟩
  | 84 => ⟨S_, .i32⟩
  | 85 => ⟨S128x2048, .i32⟩
  | 86 => ⟨S128x2048, .i1⟩
  | 87 => ⟨S_, .i32⟩
  | 88 => ⟨S128x2048, .i32⟩
  | 89 => ⟨S128x2048, .i32⟩
  | 90 => ⟨S128x2048, .i32⟩
  | 91 => ⟨S_, .i32⟩
  | 92 => ⟨S128x2048, .i32⟩
  | 93 => ⟨S128x2048, .i1⟩
  | 94 => ⟨S_, .i32⟩
  | 95 => ⟨S128x2048, .i32⟩
  | 96 => ⟨S128x2048, .i32⟩
  | 97 => ⟨S128x2048, .i32⟩
  | 98 => ⟨S128x2048x1, .i32⟩
  | 99 => ⟨S128x2048x1, .i32⟩
  | 100 => ⟨S128x2048x2, .i32⟩
  | 101 => ⟨S128x64x2048, .f32⟩
  | 102 => ⟨S128x2048, .f32⟩
  | 103 => ⟨S128x1x2048, .f32⟩
  | 104 => ⟨S128x64x2048, .f32⟩
  | 105 => ⟨S128x64x2048, .f32⟩
  | 106 => ⟨S128x64x2048, .f32⟩
  | 107 => ⟨S_, .i32⟩
  | 108 => ⟨S128x2048, .i32⟩
  | 109 => ⟨S128x2048, .i32⟩
  | 110 => ⟨S_, .f32⟩
  | 111 => ⟨S128x2048, .f32⟩
  | 112 => ⟨S128x2048, .f32⟩
  | 113 => ⟨S128x2048, .f32⟩
  | 114 => ⟨S_, .i32⟩
  | 115 => ⟨S128x2048, .i32⟩
  | 116 => ⟨S128x2048, .i1⟩
  | 117 => ⟨S_, .i32⟩
  | 118 => ⟨S128x2048, .i32⟩
  | 119 => ⟨S128x2048, .i1⟩
  | 120 => ⟨S128x2048, .i1⟩
  | 121 => ⟨S_, .i32⟩
  | 122 => ⟨S128x2048, .i32⟩
  | 123 => ⟨S128x2048, .i1⟩
  | 124 => ⟨S128x2048, .i1⟩
  | 125 => ⟨S_, .i32⟩
  | 126 => ⟨S128x2048, .i32⟩
  | 127 => ⟨S128x2048, .i1⟩
  | _ => ⟨S8x64x16x64x64, .f32⟩

abbrev hbmTy0_6 (i : Nat) : BufTy := match i % 128 with
  | 0 => ⟨S128x2048, .i1⟩
  | 1 => ⟨S128x2048, .f32⟩
  | 2 => ⟨S_, .i32⟩
  | 3 => ⟨S_, .i32⟩
  | 4 => ⟨S_, .i32⟩
  | 5 => ⟨S128x2048, .i32⟩
  | 6 => ⟨S128x2048, .i32⟩
  | 7 => ⟨S_, .i32⟩
  | 8 => ⟨S128x2048, .i32⟩
  | 9 => ⟨S128x2048, .i32⟩
  | 10 => ⟨S_, .i32⟩
  | 11 => ⟨S_, .i32⟩
  | 12 => ⟨S_, .i32⟩
  | 13 => ⟨S128x2048, .i32⟩
  | 14 => ⟨S128x2048, .i32⟩
  | 15 => ⟨S_, .i32⟩
  | 16 => ⟨S128x2048, .i32⟩
  | 17 => ⟨S128x2048, .i32⟩
  | 18 => ⟨S_, .i32⟩
  | 19 => ⟨S128x2048, .i32⟩
  | 20 => ⟨S128x2048, .i1⟩
  | 21 => ⟨S_, .i32⟩
  | 22 => ⟨S128x2048, .i32⟩
  | 23 => ⟨S128x2048, .i32⟩
  | 24 => ⟨S128x2048, .i32⟩
  | 25 => ⟨S_, .i32⟩
  | 26 => ⟨S128x2048, .i32⟩
  | 27 => ⟨S128x2048, .i1⟩
  | 28 => ⟨S_, .i32⟩
  | 29 => ⟨S128x2048, .i32⟩
  | 30 => ⟨S128x2048, .i32⟩
  | 31 => ⟨S128x2048, .i32⟩
  | 32 => ⟨S128x2048x1, .i32⟩
  | 33 => ⟨S128x2048x1, .i32⟩
  | 34 => ⟨S128x2048x2, .i32⟩
  | 35 => ⟨S128x64x2048, .f32⟩
  | 36 => ⟨S128x2048, .f32⟩
  | 37 => ⟨S128x1x2048, .f32⟩
  | 38 => ⟨S128x64x2048, .f32⟩
  | 39 => ⟨S128x64x2048, .f32⟩
  | 40 => ⟨S128x64x2048, .f32⟩
  | 41 => ⟨S_, .i32⟩
  | 42 => ⟨S128x2048, .i32⟩
  | 43 => ⟨S128x2048, .i32⟩
  | 44 => ⟨S_, .i32⟩
  | 45 => ⟨S128x2048, .i32⟩
  | 46 => ⟨S128x2048, .i32⟩
  | 47 => ⟨S128x2048, .f32⟩
  | 48 => ⟨S_, .i32⟩
  | 49 => ⟨S128x2048, .i32⟩
  | 50 => ⟨S128x2048, .i1⟩
  | 51 => ⟨S_, .i32⟩
  | 52 => ⟨S128x2048, .i32⟩
  | 53 => ⟨S128x2048, .i1⟩
  | 54 => ⟨S128x2048, .i1⟩
  | 55 => ⟨S_, .i32⟩
  | 56 => ⟨S128x2048, .i32⟩
  | 57 => ⟨S128x2048, .i1⟩
  | 58 => ⟨S128x2048, .i1⟩
  | 59 => ⟨S_, .i32⟩
  | 60 => ⟨S128x2048, .i32⟩
  | 61 => ⟨S128x2048, .i1⟩
  | 62 => ⟨S128x2048, .i1⟩
  | 63 => ⟨S128x2048, .f32⟩
  | 64 => ⟨S_, .i32⟩
  | 65 => ⟨S_, .i32⟩
  | 66 => ⟨S_, .i32⟩
  | 67 => ⟨S128x2048, .i32⟩
  | 68 => ⟨S128x2048, .i32⟩
  | 69 => ⟨S_, .i32⟩
  | 70 => ⟨S128x2048, .i32⟩
  | 71 => ⟨S128x2048, .i32⟩
  | 72 => ⟨S_, .i32⟩
  | 73 => ⟨S_, .i32⟩
  | 74 => ⟨S_, .i32⟩
  | 75 => ⟨S128x2048, .i32⟩
  | 76 => ⟨S128x2048, .i32⟩
  | 77 => ⟨S_, .i32⟩
  | 78 => ⟨S128x2048, .i32⟩
  | 79 => ⟨S128x2048, .i32⟩
  | 80 => ⟨S_, .i32⟩
  | 81 => ⟨S128x2048, .i32⟩
  | 82 => ⟨S128x2048, .i1⟩
  | 83 => ⟨S_, .i32⟩
  | 84 => ⟨S128x2048, .i32⟩
  | 85 => ⟨S128x2048, .i32⟩
  | 86 => ⟨S128x2048, .i32⟩
  | 87 => ⟨S_, .i32⟩
  | 88 => ⟨S128x2048, .i32⟩
  | 89 => ⟨S128x2048, .i1⟩
  | 90 => ⟨S_, .i32⟩
  | 91 => ⟨S128x2048, .i32⟩
  | 92 => ⟨S128x2048, .i32⟩
  | 93 => ⟨S128x2048, .i32⟩
  | 94 => ⟨S128x2048x1, .i32⟩
  | 95 => ⟨S128x2048x1, .i32⟩
  | 96 => ⟨S128x2048x2, .i32⟩
  | 97 => ⟨S128x64x2048, .f32⟩
  | 98 => ⟨S128x2048, .f32⟩
  | 99 => ⟨S128x1x2048, .f32⟩
  | 100 => ⟨S128x64x2048, .f32⟩
  | 101 => ⟨S128x64x2048, .f32⟩
  | 102 => ⟨S128x64x2048, .f32⟩
  | 103 => ⟨S128x192x2048, .f32⟩
  | 104 => ⟨S1x192x2048, .f32⟩
  | 105 => ⟨S128x192x2048, .f32⟩
  | 106 => ⟨S128x192x2048, .f32⟩
  | 107 => ⟨S_, .f32⟩
  | 108 => ⟨S128x2048, .f32⟩
  | 109 => ⟨S8x16x2048, .f32⟩
  | 110 => ⟨S1x1x2048, .f32⟩
  | 111 => ⟨S8x16x2048, .f32⟩
  | 112 => ⟨S8x16x2048, .f32⟩
  | _ => ⟨S8x64x16x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S8x64x16x64x64, .f32⟩

abbrev bufTy : (tb : Table) → Fin (tcTables nBuf tb) → BufTy
  | .hbm, ⟨i, _⟩ => hbmTy i
  | _, _ => ⟨S8x64x16x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_v20 : Ref sig .tc := ⟨.hbm, 37, rfl⟩
abbrev main_cst_7 : Ref sig .tc := ⟨.hbm, 38, rfl⟩
abbrev main_v21 : Ref sig .tc := ⟨.hbm, 39, rfl⟩
abbrev main_v22 : Ref sig .tc := ⟨.hbm, 40, rfl⟩
abbrev main_cst_8 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_cst_10 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c : Ref sig .tc := ⟨.hbm, 57, rfl⟩
abbrev main_v36 : Ref sig .tc := ⟨.hbm, 58, rfl⟩
abbrev main_v37 : Ref sig .tc := ⟨.hbm, 59, rfl⟩
abbrev main_c_11 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_12 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_13 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_14 : Ref sig .tc := ⟨.hbm, 73, rfl⟩
abbrev main_c_15 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_v48 : Ref sig .tc := ⟨.hbm, 80, rfl⟩
abbrev main_c_16 : Ref sig .tc := ⟨.hbm, 81, rfl⟩
abbrev main_c_17 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_v49 : Ref sig .tc := ⟨.hbm, 88, rfl⟩
abbrev main_c_18 : Ref sig .tc := ⟨.hbm, 89, rfl⟩
abbrev main_v50 : Ref sig .tc := ⟨.hbm, 90, rfl⟩
abbrev main_v51 : Ref sig .tc := ⟨.hbm, 91, rfl⟩
abbrev main_c_19 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_c_20 : Ref sig .tc := ⟨.hbm, 96, rfl⟩
abbrev main_v55 : Ref sig .tc := ⟨.hbm, 97, rfl⟩
abbrev main_v56 : Ref sig .tc := ⟨.hbm, 98, rfl⟩
abbrev main_c_21 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_c_22 : Ref sig .tc := ⟨.hbm, 111, rfl⟩
abbrev main_v68 : Ref sig .tc := ⟨.hbm, 112, rfl⟩
abbrev main_v69 : Ref sig .tc := ⟨.hbm, 113, rfl⟩
abbrev main_cst_23 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_c_24 : Ref sig .tc := ⟨.hbm, 118, rfl⟩
abbrev main_v73 : Ref sig .tc := ⟨.hbm, 119, rfl⟩
abbrev main_v74 : Ref sig .tc := ⟨.hbm, 120, rfl⟩
abbrev main_c_25 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_c_26 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_c_27 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_c_28 : Ref sig .tc := ⟨.hbm, 134, rfl⟩
abbrev main_c_29 : Ref sig .tc := ⟨.hbm, 135, rfl⟩
abbrev main_call3_v0 : Ref sig .tc := ⟨.hbm, 136, rfl⟩
abbrev main_call3_v1 : Ref sig .tc := ⟨.hbm, 137, rfl⟩
abbrev main_call3_v2 : Ref sig .tc := ⟨.hbm, 138, rfl⟩
abbrev main_call3_v3 : Ref sig .tc := ⟨.hbm, 139, rfl⟩
abbrev main_call3_v4 : Ref sig .tc := ⟨.hbm, 140, rfl⟩
abbrev main_v85 : Ref sig .tc := ⟨.hbm, 141, rfl⟩
abbrev main_c_30 : Ref sig .tc := ⟨.hbm, 142, rfl⟩
abbrev main_c_31 : Ref sig .tc := ⟨.hbm, 143, rfl⟩
abbrev main_call4_v0 : Ref sig .tc := ⟨.hbm, 144, rfl⟩
abbrev main_call4_v1 : Ref sig .tc := ⟨.hbm, 145, rfl⟩
abbrev main_call4_v2 : Ref sig .tc := ⟨.hbm, 146, rfl⟩
abbrev main_call4_v3 : Ref sig .tc := ⟨.hbm, 147, rfl⟩
abbrev main_call4_v4 : Ref sig .tc := ⟨.hbm, 148, rfl⟩
abbrev main_v86 : Ref sig .tc := ⟨.hbm, 149, rfl⟩
abbrev main_c_32 : Ref sig .tc := ⟨.hbm, 150, rfl⟩
abbrev main_v87 : Ref sig .tc := ⟨.hbm, 151, rfl⟩
abbrev main_v88 : Ref sig .tc := ⟨.hbm, 152, rfl⟩
abbrev main_c_33 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_c_34 : Ref sig .tc := ⟨.hbm, 157, rfl⟩
abbrev main_v92 : Ref sig .tc := ⟨.hbm, 158, rfl⟩
abbrev main_v93 : Ref sig .tc := ⟨.hbm, 159, rfl⟩
abbrev main_c_35 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_c_36 : Ref sig .tc := ⟨.hbm, 173, rfl⟩
abbrev main_v106 : Ref sig .tc := ⟨.hbm, 174, rfl⟩
abbrev main_v107 : Ref sig .tc := ⟨.hbm, 175, rfl⟩
abbrev main_cst_37 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_c_38 : Ref sig .tc := ⟨.hbm, 180, rfl⟩
abbrev main_v111 : Ref sig .tc := ⟨.hbm, 181, rfl⟩
abbrev main_v112 : Ref sig .tc := ⟨.hbm, 182, rfl⟩
abbrev main_c_39 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_c_40 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_c_41 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_c_42 : Ref sig .tc := ⟨.hbm, 196, rfl⟩
abbrev main_c_43 : Ref sig .tc := ⟨.hbm, 197, rfl⟩
abbrev main_call5_v0 : Ref sig .tc := ⟨.hbm, 198, rfl⟩
abbrev main_call5_v1 : Ref sig .tc := ⟨.hbm, 199, rfl⟩
abbrev main_call5_v2 : Ref sig .tc := ⟨.hbm, 200, rfl⟩
abbrev main_call5_v3 : Ref sig .tc := ⟨.hbm, 201, rfl⟩
abbrev main_call5_v4 : Ref sig .tc := ⟨.hbm, 202, rfl⟩
abbrev main_v123 : Ref sig .tc := ⟨.hbm, 203, rfl⟩
abbrev main_c_44 : Ref sig .tc := ⟨.hbm, 204, rfl⟩
abbrev main_c_45 : Ref sig .tc := ⟨.hbm, 205, rfl⟩
abbrev main_call6_v0 : Ref sig .tc := ⟨.hbm, 206, rfl⟩
abbrev main_call6_v1 : Ref sig .tc := ⟨.hbm, 207, rfl⟩
abbrev main_call6_v2 : Ref sig .tc := ⟨.hbm, 208, rfl⟩
abbrev main_call6_v3 : Ref sig .tc := ⟨.hbm, 209, rfl⟩
abbrev main_call6_v4 : Ref sig .tc := ⟨.hbm, 210, rfl⟩
abbrev main_v124 : Ref sig .tc := ⟨.hbm, 211, rfl⟩
abbrev main_c_46 : Ref sig .tc := ⟨.hbm, 212, rfl⟩
abbrev main_v125 : Ref sig .tc := ⟨.hbm, 213, rfl⟩
abbrev main_v126 : Ref sig .tc := ⟨.hbm, 214, rfl⟩
abbrev main_c_47 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_c_48 : Ref sig .tc := ⟨.hbm, 219, rfl⟩
abbrev main_v130 : Ref sig .tc := ⟨.hbm, 220, rfl⟩
abbrev main_v131 : Ref sig .tc := ⟨.hbm, 221, rfl⟩
abbrev main_c_49 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_v139 : Ref sig .tc := ⟨.hbm, 230, rfl⟩
abbrev main_v140 : Ref sig .tc := ⟨.hbm, 231, rfl⟩
abbrev main_v141 : Ref sig .tc := ⟨.hbm, 232, rfl⟩
abbrev main_v142 : Ref sig .tc := ⟨.hbm, 233, rfl⟩
abbrev main_v143 : Ref sig .tc := ⟨.hbm, 234, rfl⟩
abbrev main_c_50 : Ref sig .tc := ⟨.hbm, 235, rfl⟩
abbrev main_v144 : Ref sig .tc := ⟨.hbm, 236, rfl⟩
abbrev main_v145 : Ref sig .tc := ⟨.hbm, 237, rfl⟩
abbrev main_c_51 : Ref sig .tc := ⟨.hbm, 238, rfl⟩
abbrev main_v146 : Ref sig .tc := ⟨.hbm, 239, rfl⟩
abbrev main_v147 : Ref sig .tc := ⟨.hbm, 240, rfl⟩
abbrev main_v148 : Ref sig .tc := ⟨.hbm, 241, rfl⟩
abbrev main_c_52 : Ref sig .tc := ⟨.hbm, 242, rfl⟩
abbrev main_v149 : Ref sig .tc := ⟨.hbm, 243, rfl⟩
abbrev main_v150 : Ref sig .tc := ⟨.hbm, 244, rfl⟩
abbrev main_c_53 : Ref sig .tc := ⟨.hbm, 245, rfl⟩
abbrev main_v151 : Ref sig .tc := ⟨.hbm, 246, rfl⟩
abbrev main_v152 : Ref sig .tc := ⟨.hbm, 247, rfl⟩
abbrev main_v153 : Ref sig .tc := ⟨.hbm, 248, rfl⟩
abbrev main_c_54 : Ref sig .tc := ⟨.hbm, 249, rfl⟩
abbrev main_v154 : Ref sig .tc := ⟨.hbm, 250, rfl⟩
abbrev main_v155 : Ref sig .tc := ⟨.hbm, 251, rfl⟩
abbrev main_v156 : Ref sig .tc := ⟨.hbm, 252, rfl⟩
abbrev main_c_55 : Ref sig .tc := ⟨.hbm, 253, rfl⟩
abbrev main_v157 : Ref sig .tc := ⟨.hbm, 254, rfl⟩
abbrev main_v158 : Ref sig .tc := ⟨.hbm, 255, rfl⟩
abbrev main_v159 : Ref sig .tc := ⟨.hbm, 256, rfl⟩
abbrev main_v160 : Ref sig .tc := ⟨.hbm, 257, rfl⟩
abbrev main_c_56 : Ref sig .tc := ⟨.hbm, 258, rfl⟩
abbrev main_c_57 : Ref sig .tc := ⟨.hbm, 259, rfl⟩
abbrev main_call7_v0 : Ref sig .tc := ⟨.hbm, 260, rfl⟩
abbrev main_call7_v1 : Ref sig .tc := ⟨.hbm, 261, rfl⟩
abbrev main_call7_v2 : Ref sig .tc := ⟨.hbm, 262, rfl⟩
abbrev main_call7_v3 : Ref sig .tc := ⟨.hbm, 263, rfl⟩
abbrev main_call7_v4 : Ref sig .tc := ⟨.hbm, 264, rfl⟩
abbrev main_v161 : Ref sig .tc := ⟨.hbm, 265, rfl⟩
abbrev main_c_58 : Ref sig .tc := ⟨.hbm, 266, rfl⟩
abbrev main_c_59 : Ref sig .tc := ⟨.hbm, 267, rfl⟩
abbrev main_call8_v0 : Ref sig .tc := ⟨.hbm, 268, rfl⟩
abbrev main_call8_v1 : Ref sig .tc := ⟨.hbm, 269, rfl⟩
abbrev main_call8_v2 : Ref sig .tc := ⟨.hbm, 270, rfl⟩
abbrev main_call8_v3 : Ref sig .tc := ⟨.hbm, 271, rfl⟩
abbrev main_call8_v4 : Ref sig .tc := ⟨.hbm, 272, rfl⟩
abbrev main_v162 : Ref sig .tc := ⟨.hbm, 273, rfl⟩
abbrev main_c_60 : Ref sig .tc := ⟨.hbm, 274, rfl⟩
abbrev main_v163 : Ref sig .tc := ⟨.hbm, 275, rfl⟩
abbrev main_v164 : Ref sig .tc := ⟨.hbm, 276, rfl⟩
abbrev main_c_61 : Ref sig .tc := ⟨.hbm, 277, rfl⟩
abbrev main_v165 : Ref sig .tc := ⟨.hbm, 278, rfl⟩
abbrev main_v166 : Ref sig .tc := ⟨.hbm, 279, rfl⟩
abbrev main_v167 : Ref sig .tc := ⟨.hbm, 280, rfl⟩
abbrev main_c_62 : Ref sig .tc := ⟨.hbm, 281, rfl⟩
abbrev main_v168 : Ref sig .tc := ⟨.hbm, 282, rfl⟩
abbrev main_v169 : Ref sig .tc := ⟨.hbm, 283, rfl⟩
abbrev main_c_63 : Ref sig .tc := ⟨.hbm, 284, rfl⟩
abbrev main_v170 : Ref sig .tc := ⟨.hbm, 285, rfl⟩
abbrev main_v171 : Ref sig .tc := ⟨.hbm, 286, rfl⟩
abbrev main_v172 : Ref sig .tc := ⟨.hbm, 287, rfl⟩
abbrev main_v173 : Ref sig .tc := ⟨.hbm, 288, rfl⟩
abbrev main_v174 : Ref sig .tc := ⟨.hbm, 289, rfl⟩
abbrev main_v175 : Ref sig .tc := ⟨.hbm, 290, rfl⟩
abbrev main_v176 : Ref sig .tc := ⟨.hbm, 291, rfl⟩
abbrev main_v177 : Ref sig .tc := ⟨.hbm, 292, rfl⟩
abbrev main_v178 : Ref sig .tc := ⟨.hbm, 293, rfl⟩
abbrev main_v179 : Ref sig .tc := ⟨.hbm, 294, rfl⟩
abbrev main_v180 : Ref sig .tc := ⟨.hbm, 295, rfl⟩
abbrev main_v181 : Ref sig .tc := ⟨.hbm, 296, rfl⟩
abbrev main_v182 : Ref sig .tc := ⟨.hbm, 297, rfl⟩
abbrev main_cst_64 : Ref sig .tc := ⟨.hbm, 298, rfl⟩
abbrev main_v183 : Ref sig .tc := ⟨.hbm, 299, rfl⟩
abbrev main_cst_65 : Ref sig .tc := ⟨.hbm, 300, rfl⟩
abbrev main_v184 : Ref sig .tc := ⟨.hbm, 301, rfl⟩
abbrev main_v185 : Ref sig .tc := ⟨.hbm, 302, rfl⟩
abbrev main_v186 : Ref sig .tc := ⟨.hbm, 303, rfl⟩
abbrev main_v187 : Ref sig .tc := ⟨.hbm, 304, rfl⟩
abbrev main_cst_66 : Ref sig .tc := ⟨.hbm, 305, rfl⟩
abbrev main_v188 : Ref sig .tc := ⟨.hbm, 306, rfl⟩
abbrev main_v189 : Ref sig .tc := ⟨.hbm, 307, rfl⟩
abbrev main_cst_67 : Ref sig .tc := ⟨.hbm, 308, rfl⟩
abbrev main_v190 : Ref sig .tc := ⟨.hbm, 309, rfl⟩
abbrev main_v191 : Ref sig .tc := ⟨.hbm, 310, rfl⟩
abbrev main_cst_68 : Ref sig .tc := ⟨.hbm, 311, rfl⟩
abbrev main_v192 : Ref sig .tc := ⟨.hbm, 312, rfl⟩
abbrev main_v193 : Ref sig .tc := ⟨.hbm, 313, rfl⟩
abbrev main_cst_69 : Ref sig .tc := ⟨.hbm, 314, rfl⟩
abbrev main_v194 : Ref sig .tc := ⟨.hbm, 315, rfl⟩
abbrev main_v195 : Ref sig .tc := ⟨.hbm, 316, rfl⟩
abbrev main_v196 : Ref sig .tc := ⟨.hbm, 317, rfl⟩
abbrev main_v197 : Ref sig .tc := ⟨.hbm, 318, rfl⟩
abbrev main_cst_70 : Ref sig .tc := ⟨.hbm, 319, rfl⟩
abbrev main_v198 : Ref sig .tc := ⟨.hbm, 320, rfl⟩
abbrev main_v199 : Ref sig .tc := ⟨.hbm, 321, rfl⟩
abbrev main_cst_71 : Ref sig .tc := ⟨.hbm, 322, rfl⟩
abbrev main_v200 : Ref sig .tc := ⟨.hbm, 323, rfl⟩
abbrev main_v201 : Ref sig .tc := ⟨.hbm, 324, rfl⟩
abbrev main_cst_72 : Ref sig .tc := ⟨.hbm, 325, rfl⟩
abbrev main_v202 : Ref sig .tc := ⟨.hbm, 326, rfl⟩
abbrev main_v203 : Ref sig .tc := ⟨.hbm, 327, rfl⟩
abbrev main_cst_73 : Ref sig .tc := ⟨.hbm, 328, rfl⟩
abbrev main_v204 : Ref sig .tc := ⟨.hbm, 329, rfl⟩
abbrev main_v205 : Ref sig .tc := ⟨.hbm, 330, rfl⟩
abbrev main_v206 : Ref sig .tc := ⟨.hbm, 331, rfl⟩
abbrev main_v207 : Ref sig .tc := ⟨.hbm, 332, rfl⟩
abbrev main_v208 : Ref sig .tc := ⟨.hbm, 333, rfl⟩
abbrev main_v209 : Ref sig .tc := ⟨.hbm, 334, rfl⟩
abbrev main_v210 : Ref sig .tc := ⟨.hbm, 335, rfl⟩
abbrev main_v211 : Ref sig .tc := ⟨.hbm, 336, rfl⟩
abbrev main_cst_74 : Ref sig .tc := ⟨.hbm, 337, rfl⟩
abbrev main_v212 : Ref sig .tc := ⟨.hbm, 338, rfl⟩
abbrev main_v213 : Ref sig .tc := ⟨.hbm, 339, rfl⟩
abbrev main_cst_75 : Ref sig .tc := ⟨.hbm, 340, rfl⟩
abbrev main_v214 : Ref sig .tc := ⟨.hbm, 341, rfl⟩
abbrev main_v215 : Ref sig .tc := ⟨.hbm, 342, rfl⟩
abbrev main_v216 : Ref sig .tc := ⟨.hbm, 343, rfl⟩
abbrev main_c_76 : Ref sig .tc := ⟨.hbm, 344, rfl⟩
abbrev main_v217 : Ref sig .tc := ⟨.hbm, 345, rfl⟩
abbrev main_v218 : Ref sig .tc := ⟨.hbm, 346, rfl⟩
abbrev main_c_77 : Ref sig .tc := ⟨.hbm, 347, rfl⟩
abbrev main_v219 : Ref sig .tc := ⟨.hbm, 348, rfl⟩
abbrev main_v220 : Ref sig .tc := ⟨.hbm, 349, rfl⟩
abbrev main_v221 : Ref sig .tc := ⟨.hbm, 350, rfl⟩
abbrev main_c_78 : Ref sig .tc := ⟨.hbm, 351, rfl⟩
abbrev main_v222 : Ref sig .tc := ⟨.hbm, 352, rfl⟩
abbrev main_v223 : Ref sig .tc := ⟨.hbm, 353, rfl⟩
abbrev main_v224 : Ref sig .tc := ⟨.hbm, 354, rfl⟩
abbrev main_c_79 : Ref sig .tc := ⟨.hbm, 355, rfl⟩
abbrev main_v225 : Ref sig .tc := ⟨.hbm, 356, rfl⟩
abbrev main_v226 : Ref sig .tc := ⟨.hbm, 357, rfl⟩
abbrev main_v227 : Ref sig .tc := ⟨.hbm, 358, rfl⟩
abbrev main_v228 : Ref sig .tc := ⟨.hbm, 359, rfl⟩
abbrev main_c_80 : Ref sig .tc := ⟨.hbm, 360, rfl⟩
abbrev main_c_81 : Ref sig .tc := ⟨.hbm, 361, rfl⟩
abbrev main_call9_v0 : Ref sig .tc := ⟨.hbm, 362, rfl⟩
abbrev main_call9_v1 : Ref sig .tc := ⟨.hbm, 363, rfl⟩
abbrev main_call9_v2 : Ref sig .tc := ⟨.hbm, 364, rfl⟩
abbrev main_call9_v3 : Ref sig .tc := ⟨.hbm, 365, rfl⟩
abbrev main_call9_v4 : Ref sig .tc := ⟨.hbm, 366, rfl⟩
abbrev main_v229 : Ref sig .tc := ⟨.hbm, 367, rfl⟩
abbrev main_c_82 : Ref sig .tc := ⟨.hbm, 368, rfl⟩
abbrev main_c_83 : Ref sig .tc := ⟨.hbm, 369, rfl⟩
abbrev main_call10_v0 : Ref sig .tc := ⟨.hbm, 370, rfl⟩
abbrev main_call10_v1 : Ref sig .tc := ⟨.hbm, 371, rfl⟩
abbrev main_call10_v2 : Ref sig .tc := ⟨.hbm, 372, rfl⟩
abbrev main_call10_v3 : Ref sig .tc := ⟨.hbm, 373, rfl⟩
abbrev main_call10_v4 : Ref sig .tc := ⟨.hbm, 374, rfl⟩
abbrev main_v230 : Ref sig .tc := ⟨.hbm, 375, rfl⟩
abbrev main_c_84 : Ref sig .tc := ⟨.hbm, 376, rfl⟩
abbrev main_v231 : Ref sig .tc := ⟨.hbm, 377, rfl⟩
abbrev main_v232 : Ref sig .tc := ⟨.hbm, 378, rfl⟩
abbrev main_c_85 : Ref sig .tc := ⟨.hbm, 379, rfl⟩
abbrev main_v233 : Ref sig .tc := ⟨.hbm, 380, rfl⟩
abbrev main_v234 : Ref sig .tc := ⟨.hbm, 381, rfl⟩
abbrev main_v235 : Ref sig .tc := ⟨.hbm, 382, rfl⟩
abbrev main_c_86 : Ref sig .tc := ⟨.hbm, 383, rfl⟩
abbrev main_v236 : Ref sig .tc := ⟨.hbm, 384, rfl⟩
abbrev main_v237 : Ref sig .tc := ⟨.hbm, 385, rfl⟩
abbrev main_c_87 : Ref sig .tc := ⟨.hbm, 386, rfl⟩
abbrev main_v238 : Ref sig .tc := ⟨.hbm, 387, rfl⟩
abbrev main_v239 : Ref sig .tc := ⟨.hbm, 388, rfl⟩
abbrev main_v240 : Ref sig .tc := ⟨.hbm, 389, rfl⟩
abbrev main_v241 : Ref sig .tc := ⟨.hbm, 390, rfl⟩
abbrev main_v242 : Ref sig .tc := ⟨.hbm, 391, rfl⟩
abbrev main_v243 : Ref sig .tc := ⟨.hbm, 392, rfl⟩
abbrev main_v244 : Ref sig .tc := ⟨.hbm, 393, rfl⟩
abbrev main_v245 : Ref sig .tc := ⟨.hbm, 394, rfl⟩
abbrev main_v246 : Ref sig .tc := ⟨.hbm, 395, rfl⟩
abbrev main_v247 : Ref sig .tc := ⟨.hbm, 396, rfl⟩
abbrev main_v248 : Ref sig .tc := ⟨.hbm, 397, rfl⟩
abbrev main_c_88 : Ref sig .tc := ⟨.hbm, 398, rfl⟩
abbrev main_v249 : Ref sig .tc := ⟨.hbm, 399, rfl⟩
abbrev main_v250 : Ref sig .tc := ⟨.hbm, 400, rfl⟩
abbrev main_cst_89 : Ref sig .tc := ⟨.hbm, 401, rfl⟩
abbrev main_v251 : Ref sig .tc := ⟨.hbm, 402, rfl⟩
abbrev main_v252 : Ref sig .tc := ⟨.hbm, 403, rfl⟩
abbrev main_v253 : Ref sig .tc := ⟨.hbm, 404, rfl⟩
abbrev main_c_90 : Ref sig .tc := ⟨.hbm, 405, rfl⟩
abbrev main_v254 : Ref sig .tc := ⟨.hbm, 406, rfl⟩
abbrev main_v255 : Ref sig .tc := ⟨.hbm, 407, rfl⟩
abbrev main_c_91 : Ref sig .tc := ⟨.hbm, 408, rfl⟩
abbrev main_v256 : Ref sig .tc := ⟨.hbm, 409, rfl⟩
abbrev main_v257 : Ref sig .tc := ⟨.hbm, 410, rfl⟩
abbrev main_v258 : Ref sig .tc := ⟨.hbm, 411, rfl⟩
abbrev main_c_92 : Ref sig .tc := ⟨.hbm, 412, rfl⟩
abbrev main_v259 : Ref sig .tc := ⟨.hbm, 413, rfl⟩
abbrev main_v260 : Ref sig .tc := ⟨.hbm, 414, rfl⟩
abbrev main_v261 : Ref sig .tc := ⟨.hbm, 415, rfl⟩
abbrev main_c_93 : Ref sig .tc := ⟨.hbm, 416, rfl⟩
abbrev main_v262 : Ref sig .tc := ⟨.hbm, 417, rfl⟩
abbrev main_v263 : Ref sig .tc := ⟨.hbm, 418, rfl⟩
abbrev main_v264 : Ref sig .tc := ⟨.hbm, 419, rfl⟩
abbrev main_v265 : Ref sig .tc := ⟨.hbm, 420, rfl⟩
abbrev main_c_94 : Ref sig .tc := ⟨.hbm, 421, rfl⟩
abbrev main_c_95 : Ref sig .tc := ⟨.hbm, 422, rfl⟩
abbrev main_call11_v0 : Ref sig .tc := ⟨.hbm, 423, rfl⟩
abbrev main_call11_v1 : Ref sig .tc := ⟨.hbm, 424, rfl⟩
abbrev main_call11_v2 : Ref sig .tc := ⟨.hbm, 425, rfl⟩
abbrev main_call11_v3 : Ref sig .tc := ⟨.hbm, 426, rfl⟩
abbrev main_call11_v4 : Ref sig .tc := ⟨.hbm, 427, rfl⟩
abbrev main_v266 : Ref sig .tc := ⟨.hbm, 428, rfl⟩
abbrev main_c_96 : Ref sig .tc := ⟨.hbm, 429, rfl⟩
abbrev main_c_97 : Ref sig .tc := ⟨.hbm, 430, rfl⟩
abbrev main_call12_v0 : Ref sig .tc := ⟨.hbm, 431, rfl⟩
abbrev main_call12_v1 : Ref sig .tc := ⟨.hbm, 432, rfl⟩
abbrev main_call12_v2 : Ref sig .tc := ⟨.hbm, 433, rfl⟩
abbrev main_call12_v3 : Ref sig .tc := ⟨.hbm, 434, rfl⟩
abbrev main_call12_v4 : Ref sig .tc := ⟨.hbm, 435, rfl⟩
abbrev main_v267 : Ref sig .tc := ⟨.hbm, 436, rfl⟩
abbrev main_c_98 : Ref sig .tc := ⟨.hbm, 437, rfl⟩
abbrev main_v268 : Ref sig .tc := ⟨.hbm, 438, rfl⟩
abbrev main_v269 : Ref sig .tc := ⟨.hbm, 439, rfl⟩
abbrev main_c_99 : Ref sig .tc := ⟨.hbm, 440, rfl⟩
abbrev main_v270 : Ref sig .tc := ⟨.hbm, 441, rfl⟩
abbrev main_v271 : Ref sig .tc := ⟨.hbm, 442, rfl⟩
abbrev main_v272 : Ref sig .tc := ⟨.hbm, 443, rfl⟩
abbrev main_c_100 : Ref sig .tc := ⟨.hbm, 444, rfl⟩
abbrev main_v273 : Ref sig .tc := ⟨.hbm, 445, rfl⟩
abbrev main_v274 : Ref sig .tc := ⟨.hbm, 446, rfl⟩
abbrev main_c_101 : Ref sig .tc := ⟨.hbm, 447, rfl⟩
abbrev main_v275 : Ref sig .tc := ⟨.hbm, 448, rfl⟩
abbrev main_v276 : Ref sig .tc := ⟨.hbm, 449, rfl⟩
abbrev main_v277 : Ref sig .tc := ⟨.hbm, 450, rfl⟩
abbrev main_v278 : Ref sig .tc := ⟨.hbm, 451, rfl⟩
abbrev main_v279 : Ref sig .tc := ⟨.hbm, 452, rfl⟩
abbrev main_v280 : Ref sig .tc := ⟨.hbm, 453, rfl⟩
abbrev main_v281 : Ref sig .tc := ⟨.hbm, 454, rfl⟩
abbrev main_v282 : Ref sig .tc := ⟨.hbm, 455, rfl⟩
abbrev main_v283 : Ref sig .tc := ⟨.hbm, 456, rfl⟩
abbrev main_v284 : Ref sig .tc := ⟨.hbm, 457, rfl⟩
abbrev main_v285 : Ref sig .tc := ⟨.hbm, 458, rfl⟩
abbrev main_v286 : Ref sig .tc := ⟨.hbm, 459, rfl⟩
abbrev main_c_102 : Ref sig .tc := ⟨.hbm, 460, rfl⟩
abbrev main_v287 : Ref sig .tc := ⟨.hbm, 461, rfl⟩
abbrev main_v288 : Ref sig .tc := ⟨.hbm, 462, rfl⟩
abbrev main_cst_103 : Ref sig .tc := ⟨.hbm, 463, rfl⟩
abbrev main_v289 : Ref sig .tc := ⟨.hbm, 464, rfl⟩
abbrev main_v290 : Ref sig .tc := ⟨.hbm, 465, rfl⟩
abbrev main_v291 : Ref sig .tc := ⟨.hbm, 466, rfl⟩
abbrev main_c_104 : Ref sig .tc := ⟨.hbm, 467, rfl⟩
abbrev main_v292 : Ref sig .tc := ⟨.hbm, 468, rfl⟩
abbrev main_v293 : Ref sig .tc := ⟨.hbm, 469, rfl⟩
abbrev main_c_105 : Ref sig .tc := ⟨.hbm, 470, rfl⟩
abbrev main_v294 : Ref sig .tc := ⟨.hbm, 471, rfl⟩
abbrev main_v295 : Ref sig .tc := ⟨.hbm, 472, rfl⟩
abbrev main_v296 : Ref sig .tc := ⟨.hbm, 473, rfl⟩
abbrev main_c_106 : Ref sig .tc := ⟨.hbm, 474, rfl⟩
abbrev main_v297 : Ref sig .tc := ⟨.hbm, 475, rfl⟩
abbrev main_v298 : Ref sig .tc := ⟨.hbm, 476, rfl⟩
abbrev main_v299 : Ref sig .tc := ⟨.hbm, 477, rfl⟩
abbrev main_c_107 : Ref sig .tc := ⟨.hbm, 478, rfl⟩
abbrev main_v300 : Ref sig .tc := ⟨.hbm, 479, rfl⟩
abbrev main_v301 : Ref sig .tc := ⟨.hbm, 480, rfl⟩
abbrev main_v302 : Ref sig .tc := ⟨.hbm, 481, rfl⟩
abbrev main_v303 : Ref sig .tc := ⟨.hbm, 482, rfl⟩
abbrev main_c_108 : Ref sig .tc := ⟨.hbm, 483, rfl⟩
abbrev main_c_109 : Ref sig .tc := ⟨.hbm, 484, rfl⟩
abbrev main_call13_v0 : Ref sig .tc := ⟨.hbm, 485, rfl⟩
abbrev main_call13_v1 : Ref sig .tc := ⟨.hbm, 486, rfl⟩
abbrev main_call13_v2 : Ref sig .tc := ⟨.hbm, 487, rfl⟩
abbrev main_call13_v3 : Ref sig .tc := ⟨.hbm, 488, rfl⟩
abbrev main_call13_v4 : Ref sig .tc := ⟨.hbm, 489, rfl⟩
abbrev main_v304 : Ref sig .tc := ⟨.hbm, 490, rfl⟩
abbrev main_c_110 : Ref sig .tc := ⟨.hbm, 491, rfl⟩
abbrev main_c_111 : Ref sig .tc := ⟨.hbm, 492, rfl⟩
abbrev main_call14_v0 : Ref sig .tc := ⟨.hbm, 493, rfl⟩
abbrev main_call14_v1 : Ref sig .tc := ⟨.hbm, 494, rfl⟩
abbrev main_call14_v2 : Ref sig .tc := ⟨.hbm, 495, rfl⟩
abbrev main_call14_v3 : Ref sig .tc := ⟨.hbm, 496, rfl⟩
abbrev main_call14_v4 : Ref sig .tc := ⟨.hbm, 497, rfl⟩
abbrev main_v305 : Ref sig .tc := ⟨.hbm, 498, rfl⟩
abbrev main_c_112 : Ref sig .tc := ⟨.hbm, 499, rfl⟩
abbrev main_v306 : Ref sig .tc := ⟨.hbm, 500, rfl⟩
abbrev main_v307 : Ref sig .tc := ⟨.hbm, 501, rfl⟩
abbrev main_c_113 : Ref sig .tc := ⟨.hbm, 502, rfl⟩
abbrev main_v308 : Ref sig .tc := ⟨.hbm, 503, rfl⟩
abbrev main_v309 : Ref sig .tc := ⟨.hbm, 504, rfl⟩
abbrev main_v310 : Ref sig .tc := ⟨.hbm, 505, rfl⟩
abbrev main_c_114 : Ref sig .tc := ⟨.hbm, 506, rfl⟩
abbrev main_v311 : Ref sig .tc := ⟨.hbm, 507, rfl⟩
abbrev main_v312 : Ref sig .tc := ⟨.hbm, 508, rfl⟩
abbrev main_c_115 : Ref sig .tc := ⟨.hbm, 509, rfl⟩
abbrev main_v313 : Ref sig .tc := ⟨.hbm, 510, rfl⟩
abbrev main_v314 : Ref sig .tc := ⟨.hbm, 511, rfl⟩
abbrev main_v315 : Ref sig .tc := ⟨.hbm, 512, rfl⟩
abbrev main_v316 : Ref sig .tc := ⟨.hbm, 513, rfl⟩
abbrev main_v317 : Ref sig .tc := ⟨.hbm, 514, rfl⟩
abbrev main_v318 : Ref sig .tc := ⟨.hbm, 515, rfl⟩
abbrev main_v319 : Ref sig .tc := ⟨.hbm, 516, rfl⟩
abbrev main_v320 : Ref sig .tc := ⟨.hbm, 517, rfl⟩
abbrev main_v321 : Ref sig .tc := ⟨.hbm, 518, rfl⟩
abbrev main_v322 : Ref sig .tc := ⟨.hbm, 519, rfl⟩
abbrev main_v323 : Ref sig .tc := ⟨.hbm, 520, rfl⟩
abbrev main_v324 : Ref sig .tc := ⟨.hbm, 521, rfl⟩
abbrev main_c_116 : Ref sig .tc := ⟨.hbm, 522, rfl⟩
abbrev main_v325 : Ref sig .tc := ⟨.hbm, 523, rfl⟩
abbrev main_v326 : Ref sig .tc := ⟨.hbm, 524, rfl⟩
abbrev main_c_117 : Ref sig .tc := ⟨.hbm, 525, rfl⟩
abbrev main_v327 : Ref sig .tc := ⟨.hbm, 526, rfl⟩
abbrev main_v328 : Ref sig .tc := ⟨.hbm, 527, rfl⟩
abbrev main_v329 : Ref sig .tc := ⟨.hbm, 528, rfl⟩
abbrev main_c_118 : Ref sig .tc := ⟨.hbm, 529, rfl⟩
abbrev main_v330 : Ref sig .tc := ⟨.hbm, 530, rfl⟩
abbrev main_v331 : Ref sig .tc := ⟨.hbm, 531, rfl⟩
abbrev main_c_119 : Ref sig .tc := ⟨.hbm, 532, rfl⟩
abbrev main_v332 : Ref sig .tc := ⟨.hbm, 533, rfl⟩
abbrev main_v333 : Ref sig .tc := ⟨.hbm, 534, rfl⟩
abbrev main_v334 : Ref sig .tc := ⟨.hbm, 535, rfl⟩
abbrev main_c_120 : Ref sig .tc := ⟨.hbm, 536, rfl⟩
abbrev main_v335 : Ref sig .tc := ⟨.hbm, 537, rfl⟩
abbrev main_v336 : Ref sig .tc := ⟨.hbm, 538, rfl⟩
abbrev main_v337 : Ref sig .tc := ⟨.hbm, 539, rfl⟩
abbrev main_c_121 : Ref sig .tc := ⟨.hbm, 540, rfl⟩
abbrev main_v338 : Ref sig .tc := ⟨.hbm, 541, rfl⟩
abbrev main_v339 : Ref sig .tc := ⟨.hbm, 542, rfl⟩
abbrev main_v340 : Ref sig .tc := ⟨.hbm, 543, rfl⟩
abbrev main_v341 : Ref sig .tc := ⟨.hbm, 544, rfl⟩
abbrev main_c_122 : Ref sig .tc := ⟨.hbm, 545, rfl⟩
abbrev main_c_123 : Ref sig .tc := ⟨.hbm, 546, rfl⟩
abbrev main_call15_v0 : Ref sig .tc := ⟨.hbm, 547, rfl⟩
abbrev main_call15_v1 : Ref sig .tc := ⟨.hbm, 548, rfl⟩
abbrev main_call15_v2 : Ref sig .tc := ⟨.hbm, 549, rfl⟩
abbrev main_call15_v3 : Ref sig .tc := ⟨.hbm, 550, rfl⟩
abbrev main_call15_v4 : Ref sig .tc := ⟨.hbm, 551, rfl⟩
abbrev main_v342 : Ref sig .tc := ⟨.hbm, 552, rfl⟩
abbrev main_c_124 : Ref sig .tc := ⟨.hbm, 553, rfl⟩
abbrev main_c_125 : Ref sig .tc := ⟨.hbm, 554, rfl⟩
abbrev main_call16_v0 : Ref sig .tc := ⟨.hbm, 555, rfl⟩
abbrev main_call16_v1 : Ref sig .tc := ⟨.hbm, 556, rfl⟩
abbrev main_call16_v2 : Ref sig .tc := ⟨.hbm, 557, rfl⟩
abbrev main_call16_v3 : Ref sig .tc := ⟨.hbm, 558, rfl⟩
abbrev main_call16_v4 : Ref sig .tc := ⟨.hbm, 559, rfl⟩
abbrev main_v343 : Ref sig .tc := ⟨.hbm, 560, rfl⟩
abbrev main_c_126 : Ref sig .tc := ⟨.hbm, 561, rfl⟩
abbrev main_v344 : Ref sig .tc := ⟨.hbm, 562, rfl⟩
abbrev main_v345 : Ref sig .tc := ⟨.hbm, 563, rfl⟩
abbrev main_c_127 : Ref sig .tc := ⟨.hbm, 564, rfl⟩
abbrev main_v346 : Ref sig .tc := ⟨.hbm, 565, rfl⟩
abbrev main_v347 : Ref sig .tc := ⟨.hbm, 566, rfl⟩
abbrev main_v348 : Ref sig .tc := ⟨.hbm, 567, rfl⟩
abbrev main_c_128 : Ref sig .tc := ⟨.hbm, 568, rfl⟩
abbrev main_v349 : Ref sig .tc := ⟨.hbm, 569, rfl⟩
abbrev main_v350 : Ref sig .tc := ⟨.hbm, 570, rfl⟩
abbrev main_c_129 : Ref sig .tc := ⟨.hbm, 571, rfl⟩
abbrev main_v351 : Ref sig .tc := ⟨.hbm, 572, rfl⟩
abbrev main_v352 : Ref sig .tc := ⟨.hbm, 573, rfl⟩
abbrev main_v353 : Ref sig .tc := ⟨.hbm, 574, rfl⟩
abbrev main_v354 : Ref sig .tc := ⟨.hbm, 575, rfl⟩
abbrev main_v355 : Ref sig .tc := ⟨.hbm, 576, rfl⟩
abbrev main_v356 : Ref sig .tc := ⟨.hbm, 577, rfl⟩
abbrev main_v357 : Ref sig .tc := ⟨.hbm, 578, rfl⟩
abbrev main_v358 : Ref sig .tc := ⟨.hbm, 579, rfl⟩
abbrev main_v359 : Ref sig .tc := ⟨.hbm, 580, rfl⟩
abbrev main_v360 : Ref sig .tc := ⟨.hbm, 581, rfl⟩
abbrev main_v361 : Ref sig .tc := ⟨.hbm, 582, rfl⟩
abbrev main_v362 : Ref sig .tc := ⟨.hbm, 583, rfl⟩
abbrev main_v363 : Ref sig .tc := ⟨.hbm, 584, rfl⟩
abbrev main_cst_130 : Ref sig .tc := ⟨.hbm, 585, rfl⟩
abbrev main_v364 : Ref sig .tc := ⟨.hbm, 586, rfl⟩
abbrev main_cst_131 : Ref sig .tc := ⟨.hbm, 587, rfl⟩
abbrev main_v365 : Ref sig .tc := ⟨.hbm, 588, rfl⟩
abbrev main_v366 : Ref sig .tc := ⟨.hbm, 589, rfl⟩
abbrev main_v367 : Ref sig .tc := ⟨.hbm, 590, rfl⟩
abbrev main_v368 : Ref sig .tc := ⟨.hbm, 591, rfl⟩
abbrev main_cst_132 : Ref sig .tc := ⟨.hbm, 592, rfl⟩
abbrev main_v369 : Ref sig .tc := ⟨.hbm, 593, rfl⟩
abbrev main_v370 : Ref sig .tc := ⟨.hbm, 594, rfl⟩
abbrev main_cst_133 : Ref sig .tc := ⟨.hbm, 595, rfl⟩
abbrev main_v371 : Ref sig .tc := ⟨.hbm, 596, rfl⟩
abbrev main_v372 : Ref sig .tc := ⟨.hbm, 597, rfl⟩
abbrev main_cst_134 : Ref sig .tc := ⟨.hbm, 598, rfl⟩
abbrev main_v373 : Ref sig .tc := ⟨.hbm, 599, rfl⟩
abbrev main_v374 : Ref sig .tc := ⟨.hbm, 600, rfl⟩
abbrev main_cst_135 : Ref sig .tc := ⟨.hbm, 601, rfl⟩
abbrev main_v375 : Ref sig .tc := ⟨.hbm, 602, rfl⟩
abbrev main_v376 : Ref sig .tc := ⟨.hbm, 603, rfl⟩
abbrev main_v377 : Ref sig .tc := ⟨.hbm, 604, rfl⟩
abbrev main_v378 : Ref sig .tc := ⟨.hbm, 605, rfl⟩
abbrev main_cst_136 : Ref sig .tc := ⟨.hbm, 606, rfl⟩
abbrev main_v379 : Ref sig .tc := ⟨.hbm, 607, rfl⟩
abbrev main_v380 : Ref sig .tc := ⟨.hbm, 608, rfl⟩
abbrev main_cst_137 : Ref sig .tc := ⟨.hbm, 609, rfl⟩
abbrev main_v381 : Ref sig .tc := ⟨.hbm, 610, rfl⟩
abbrev main_v382 : Ref sig .tc := ⟨.hbm, 611, rfl⟩
abbrev main_cst_138 : Ref sig .tc := ⟨.hbm, 612, rfl⟩
abbrev main_v383 : Ref sig .tc := ⟨.hbm, 613, rfl⟩
abbrev main_v384 : Ref sig .tc := ⟨.hbm, 614, rfl⟩
abbrev main_cst_139 : Ref sig .tc := ⟨.hbm, 615, rfl⟩
abbrev main_v385 : Ref sig .tc := ⟨.hbm, 616, rfl⟩
abbrev main_v386 : Ref sig .tc := ⟨.hbm, 617, rfl⟩
abbrev main_v387 : Ref sig .tc := ⟨.hbm, 618, rfl⟩
abbrev main_v388 : Ref sig .tc := ⟨.hbm, 619, rfl⟩
abbrev main_v389 : Ref sig .tc := ⟨.hbm, 620, rfl⟩
abbrev main_v390 : Ref sig .tc := ⟨.hbm, 621, rfl⟩
abbrev main_v391 : Ref sig .tc := ⟨.hbm, 622, rfl⟩
abbrev main_v392 : Ref sig .tc := ⟨.hbm, 623, rfl⟩
abbrev main_cst_140 : Ref sig .tc := ⟨.hbm, 624, rfl⟩
abbrev main_v393 : Ref sig .tc := ⟨.hbm, 625, rfl⟩
abbrev main_v394 : Ref sig .tc := ⟨.hbm, 626, rfl⟩
abbrev main_cst_141 : Ref sig .tc := ⟨.hbm, 627, rfl⟩
abbrev main_v395 : Ref sig .tc := ⟨.hbm, 628, rfl⟩
abbrev main_v396 : Ref sig .tc := ⟨.hbm, 629, rfl⟩
abbrev main_v397 : Ref sig .tc := ⟨.hbm, 630, rfl⟩
abbrev main_c_142 : Ref sig .tc := ⟨.hbm, 631, rfl⟩
abbrev main_v398 : Ref sig .tc := ⟨.hbm, 632, rfl⟩
abbrev main_v399 : Ref sig .tc := ⟨.hbm, 633, rfl⟩
abbrev main_c_143 : Ref sig .tc := ⟨.hbm, 634, rfl⟩
abbrev main_v400 : Ref sig .tc := ⟨.hbm, 635, rfl⟩
abbrev main_v401 : Ref sig .tc := ⟨.hbm, 636, rfl⟩
abbrev main_v402 : Ref sig .tc := ⟨.hbm, 637, rfl⟩
abbrev main_c_144 : Ref sig .tc := ⟨.hbm, 638, rfl⟩
abbrev main_v403 : Ref sig .tc := ⟨.hbm, 639, rfl⟩
abbrev main_v404 : Ref sig .tc := ⟨.hbm, 640, rfl⟩
abbrev main_v405 : Ref sig .tc := ⟨.hbm, 641, rfl⟩
abbrev main_c_145 : Ref sig .tc := ⟨.hbm, 642, rfl⟩
abbrev main_v406 : Ref sig .tc := ⟨.hbm, 643, rfl⟩
abbrev main_v407 : Ref sig .tc := ⟨.hbm, 644, rfl⟩
abbrev main_v408 : Ref sig .tc := ⟨.hbm, 645, rfl⟩
abbrev main_v409 : Ref sig .tc := ⟨.hbm, 646, rfl⟩
abbrev main_c_146 : Ref sig .tc := ⟨.hbm, 647, rfl⟩
abbrev main_c_147 : Ref sig .tc := ⟨.hbm, 648, rfl⟩
abbrev main_call17_v0 : Ref sig .tc := ⟨.hbm, 649, rfl⟩
abbrev main_call17_v1 : Ref sig .tc := ⟨.hbm, 650, rfl⟩
abbrev main_call17_v2 : Ref sig .tc := ⟨.hbm, 651, rfl⟩
abbrev main_call17_v3 : Ref sig .tc := ⟨.hbm, 652, rfl⟩
abbrev main_call17_v4 : Ref sig .tc := ⟨.hbm, 653, rfl⟩
abbrev main_v410 : Ref sig .tc := ⟨.hbm, 654, rfl⟩
abbrev main_c_148 : Ref sig .tc := ⟨.hbm, 655, rfl⟩
abbrev main_c_149 : Ref sig .tc := ⟨.hbm, 656, rfl⟩
abbrev main_call18_v0 : Ref sig .tc := ⟨.hbm, 657, rfl⟩
abbrev main_call18_v1 : Ref sig .tc := ⟨.hbm, 658, rfl⟩
abbrev main_call18_v2 : Ref sig .tc := ⟨.hbm, 659, rfl⟩
abbrev main_call18_v3 : Ref sig .tc := ⟨.hbm, 660, rfl⟩
abbrev main_call18_v4 : Ref sig .tc := ⟨.hbm, 661, rfl⟩
abbrev main_v411 : Ref sig .tc := ⟨.hbm, 662, rfl⟩
abbrev main_c_150 : Ref sig .tc := ⟨.hbm, 663, rfl⟩
abbrev main_v412 : Ref sig .tc := ⟨.hbm, 664, rfl⟩
abbrev main_v413 : Ref sig .tc := ⟨.hbm, 665, rfl⟩
abbrev main_c_151 : Ref sig .tc := ⟨.hbm, 666, rfl⟩
abbrev main_v414 : Ref sig .tc := ⟨.hbm, 667, rfl⟩
abbrev main_v415 : Ref sig .tc := ⟨.hbm, 668, rfl⟩
abbrev main_v416 : Ref sig .tc := ⟨.hbm, 669, rfl⟩
abbrev main_c_152 : Ref sig .tc := ⟨.hbm, 670, rfl⟩
abbrev main_v417 : Ref sig .tc := ⟨.hbm, 671, rfl⟩
abbrev main_v418 : Ref sig .tc := ⟨.hbm, 672, rfl⟩
abbrev main_c_153 : Ref sig .tc := ⟨.hbm, 673, rfl⟩
abbrev main_v419 : Ref sig .tc := ⟨.hbm, 674, rfl⟩
abbrev main_v420 : Ref sig .tc := ⟨.hbm, 675, rfl⟩
abbrev main_v421 : Ref sig .tc := ⟨.hbm, 676, rfl⟩
abbrev main_v422 : Ref sig .tc := ⟨.hbm, 677, rfl⟩
abbrev main_v423 : Ref sig .tc := ⟨.hbm, 678, rfl⟩
abbrev main_v424 : Ref sig .tc := ⟨.hbm, 679, rfl⟩
abbrev main_v425 : Ref sig .tc := ⟨.hbm, 680, rfl⟩
abbrev main_v426 : Ref sig .tc := ⟨.hbm, 681, rfl⟩
abbrev main_v427 : Ref sig .tc := ⟨.hbm, 682, rfl⟩
abbrev main_v428 : Ref sig .tc := ⟨.hbm, 683, rfl⟩
abbrev main_v429 : Ref sig .tc := ⟨.hbm, 684, rfl⟩
abbrev main_c_154 : Ref sig .tc := ⟨.hbm, 685, rfl⟩
abbrev main_v430 : Ref sig .tc := ⟨.hbm, 686, rfl⟩
abbrev main_v431 : Ref sig .tc := ⟨.hbm, 687, rfl⟩
abbrev main_cst_155 : Ref sig .tc := ⟨.hbm, 688, rfl⟩
abbrev main_v432 : Ref sig .tc := ⟨.hbm, 689, rfl⟩
abbrev main_v433 : Ref sig .tc := ⟨.hbm, 690, rfl⟩
abbrev main_v434 : Ref sig .tc := ⟨.hbm, 691, rfl⟩
abbrev main_c_156 : Ref sig .tc := ⟨.hbm, 692, rfl⟩
abbrev main_v435 : Ref sig .tc := ⟨.hbm, 693, rfl⟩
abbrev main_v436 : Ref sig .tc := ⟨.hbm, 694, rfl⟩
abbrev main_c_157 : Ref sig .tc := ⟨.hbm, 695, rfl⟩
abbrev main_v437 : Ref sig .tc := ⟨.hbm, 696, rfl⟩
abbrev main_v438 : Ref sig .tc := ⟨.hbm, 697, rfl⟩
abbrev main_v439 : Ref sig .tc := ⟨.hbm, 698, rfl⟩
abbrev main_c_158 : Ref sig .tc := ⟨.hbm, 699, rfl⟩
abbrev main_v440 : Ref sig .tc := ⟨.hbm, 700, rfl⟩
abbrev main_v441 : Ref sig .tc := ⟨.hbm, 701, rfl⟩
abbrev main_v442 : Ref sig .tc := ⟨.hbm, 702, rfl⟩
abbrev main_c_159 : Ref sig .tc := ⟨.hbm, 703, rfl⟩
abbrev main_v443 : Ref sig .tc := ⟨.hbm, 704, rfl⟩
abbrev main_v444 : Ref sig .tc := ⟨.hbm, 705, rfl⟩
abbrev main_v445 : Ref sig .tc := ⟨.hbm, 706, rfl⟩
abbrev main_v446 : Ref sig .tc := ⟨.hbm, 707, rfl⟩
abbrev main_c_160 : Ref sig .tc := ⟨.hbm, 708, rfl⟩
abbrev main_c_161 : Ref sig .tc := ⟨.hbm, 709, rfl⟩
abbrev main_call19_v0 : Ref sig .tc := ⟨.hbm, 710, rfl⟩
abbrev main_call19_v1 : Ref sig .tc := ⟨.hbm, 711, rfl⟩
abbrev main_call19_v2 : Ref sig .tc := ⟨.hbm, 712, rfl⟩
abbrev main_call19_v3 : Ref sig .tc := ⟨.hbm, 713, rfl⟩
abbrev main_call19_v4 : Ref sig .tc := ⟨.hbm, 714, rfl⟩
abbrev main_v447 : Ref sig .tc := ⟨.hbm, 715, rfl⟩
abbrev main_c_162 : Ref sig .tc := ⟨.hbm, 716, rfl⟩
abbrev main_c_163 : Ref sig .tc := ⟨.hbm, 717, rfl⟩
abbrev main_call20_v0 : Ref sig .tc := ⟨.hbm, 718, rfl⟩
abbrev main_call20_v1 : Ref sig .tc := ⟨.hbm, 719, rfl⟩
abbrev main_call20_v2 : Ref sig .tc := ⟨.hbm, 720, rfl⟩
abbrev main_call20_v3 : Ref sig .tc := ⟨.hbm, 721, rfl⟩
abbrev main_call20_v4 : Ref sig .tc := ⟨.hbm, 722, rfl⟩
abbrev main_v448 : Ref sig .tc := ⟨.hbm, 723, rfl⟩
abbrev main_c_164 : Ref sig .tc := ⟨.hbm, 724, rfl⟩
abbrev main_v449 : Ref sig .tc := ⟨.hbm, 725, rfl⟩
abbrev main_v450 : Ref sig .tc := ⟨.hbm, 726, rfl⟩
abbrev main_c_165 : Ref sig .tc := ⟨.hbm, 727, rfl⟩
abbrev main_v451 : Ref sig .tc := ⟨.hbm, 728, rfl⟩
abbrev main_v452 : Ref sig .tc := ⟨.hbm, 729, rfl⟩
abbrev main_v453 : Ref sig .tc := ⟨.hbm, 730, rfl⟩
abbrev main_c_166 : Ref sig .tc := ⟨.hbm, 731, rfl⟩
abbrev main_v454 : Ref sig .tc := ⟨.hbm, 732, rfl⟩
abbrev main_v455 : Ref sig .tc := ⟨.hbm, 733, rfl⟩
abbrev main_c_167 : Ref sig .tc := ⟨.hbm, 734, rfl⟩
abbrev main_v456 : Ref sig .tc := ⟨.hbm, 735, rfl⟩
abbrev main_v457 : Ref sig .tc := ⟨.hbm, 736, rfl⟩
abbrev main_v458 : Ref sig .tc := ⟨.hbm, 737, rfl⟩
abbrev main_v459 : Ref sig .tc := ⟨.hbm, 738, rfl⟩
abbrev main_v460 : Ref sig .tc := ⟨.hbm, 739, rfl⟩
abbrev main_v461 : Ref sig .tc := ⟨.hbm, 740, rfl⟩
abbrev main_v462 : Ref sig .tc := ⟨.hbm, 741, rfl⟩
abbrev main_v463 : Ref sig .tc := ⟨.hbm, 742, rfl⟩
abbrev main_v464 : Ref sig .tc := ⟨.hbm, 743, rfl⟩
abbrev main_v465 : Ref sig .tc := ⟨.hbm, 744, rfl⟩
abbrev main_v466 : Ref sig .tc := ⟨.hbm, 745, rfl⟩
abbrev main_v467 : Ref sig .tc := ⟨.hbm, 746, rfl⟩
abbrev main_c_168 : Ref sig .tc := ⟨.hbm, 747, rfl⟩
abbrev main_v468 : Ref sig .tc := ⟨.hbm, 748, rfl⟩
abbrev main_v469 : Ref sig .tc := ⟨.hbm, 749, rfl⟩
abbrev main_cst_169 : Ref sig .tc := ⟨.hbm, 750, rfl⟩
abbrev main_v470 : Ref sig .tc := ⟨.hbm, 751, rfl⟩
abbrev main_v471 : Ref sig .tc := ⟨.hbm, 752, rfl⟩
abbrev main_v472 : Ref sig .tc := ⟨.hbm, 753, rfl⟩
abbrev main_c_170 : Ref sig .tc := ⟨.hbm, 754, rfl⟩
abbrev main_v473 : Ref sig .tc := ⟨.hbm, 755, rfl⟩
abbrev main_v474 : Ref sig .tc := ⟨.hbm, 756, rfl⟩
abbrev main_c_171 : Ref sig .tc := ⟨.hbm, 757, rfl⟩
abbrev main_v475 : Ref sig .tc := ⟨.hbm, 758, rfl⟩
abbrev main_v476 : Ref sig .tc := ⟨.hbm, 759, rfl⟩
abbrev main_v477 : Ref sig .tc := ⟨.hbm, 760, rfl⟩
abbrev main_c_172 : Ref sig .tc := ⟨.hbm, 761, rfl⟩
abbrev main_v478 : Ref sig .tc := ⟨.hbm, 762, rfl⟩
abbrev main_v479 : Ref sig .tc := ⟨.hbm, 763, rfl⟩
abbrev main_v480 : Ref sig .tc := ⟨.hbm, 764, rfl⟩
abbrev main_c_173 : Ref sig .tc := ⟨.hbm, 765, rfl⟩
abbrev main_v481 : Ref sig .tc := ⟨.hbm, 766, rfl⟩
abbrev main_v482 : Ref sig .tc := ⟨.hbm, 767, rfl⟩
abbrev main_v483 : Ref sig .tc := ⟨.hbm, 768, rfl⟩
abbrev main_v484 : Ref sig .tc := ⟨.hbm, 769, rfl⟩
abbrev main_c_174 : Ref sig .tc := ⟨.hbm, 770, rfl⟩
abbrev main_c_175 : Ref sig .tc := ⟨.hbm, 771, rfl⟩
abbrev main_call21_v0 : Ref sig .tc := ⟨.hbm, 772, rfl⟩
abbrev main_call21_v1 : Ref sig .tc := ⟨.hbm, 773, rfl⟩
abbrev main_call21_v2 : Ref sig .tc := ⟨.hbm, 774, rfl⟩
abbrev main_call21_v3 : Ref sig .tc := ⟨.hbm, 775, rfl⟩
abbrev main_call21_v4 : Ref sig .tc := ⟨.hbm, 776, rfl⟩
abbrev main_v485 : Ref sig .tc := ⟨.hbm, 777, rfl⟩
abbrev main_c_176 : Ref sig .tc := ⟨.hbm, 778, rfl⟩
abbrev main_c_177 : Ref sig .tc := ⟨.hbm, 779, rfl⟩
abbrev main_call22_v0 : Ref sig .tc := ⟨.hbm, 780, rfl⟩
abbrev main_call22_v1 : Ref sig .tc := ⟨.hbm, 781, rfl⟩
abbrev main_call22_v2 : Ref sig .tc := ⟨.hbm, 782, rfl⟩
abbrev main_call22_v3 : Ref sig .tc := ⟨.hbm, 783, rfl⟩
abbrev main_call22_v4 : Ref sig .tc := ⟨.hbm, 784, rfl⟩
abbrev main_v486 : Ref sig .tc := ⟨.hbm, 785, rfl⟩
abbrev main_c_178 : Ref sig .tc := ⟨.hbm, 786, rfl⟩
abbrev main_v487 : Ref sig .tc := ⟨.hbm, 787, rfl⟩
abbrev main_v488 : Ref sig .tc := ⟨.hbm, 788, rfl⟩
abbrev main_c_179 : Ref sig .tc := ⟨.hbm, 789, rfl⟩
abbrev main_v489 : Ref sig .tc := ⟨.hbm, 790, rfl⟩
abbrev main_v490 : Ref sig .tc := ⟨.hbm, 791, rfl⟩
abbrev main_v491 : Ref sig .tc := ⟨.hbm, 792, rfl⟩
abbrev main_c_180 : Ref sig .tc := ⟨.hbm, 793, rfl⟩
abbrev main_v492 : Ref sig .tc := ⟨.hbm, 794, rfl⟩
abbrev main_v493 : Ref sig .tc := ⟨.hbm, 795, rfl⟩
abbrev main_c_181 : Ref sig .tc := ⟨.hbm, 796, rfl⟩
abbrev main_v494 : Ref sig .tc := ⟨.hbm, 797, rfl⟩
abbrev main_v495 : Ref sig .tc := ⟨.hbm, 798, rfl⟩
abbrev main_v496 : Ref sig .tc := ⟨.hbm, 799, rfl⟩
abbrev main_v497 : Ref sig .tc := ⟨.hbm, 800, rfl⟩
abbrev main_v498 : Ref sig .tc := ⟨.hbm, 801, rfl⟩
abbrev main_v499 : Ref sig .tc := ⟨.hbm, 802, rfl⟩
abbrev main_v500 : Ref sig .tc := ⟨.hbm, 803, rfl⟩
abbrev main_v501 : Ref sig .tc := ⟨.hbm, 804, rfl⟩
abbrev main_v502 : Ref sig .tc := ⟨.hbm, 805, rfl⟩
abbrev main_v503 : Ref sig .tc := ⟨.hbm, 806, rfl⟩
abbrev main_v504 : Ref sig .tc := ⟨.hbm, 807, rfl⟩
abbrev main_v505 : Ref sig .tc := ⟨.hbm, 808, rfl⟩
abbrev main_c_182 : Ref sig .tc := ⟨.hbm, 809, rfl⟩
abbrev main_v506 : Ref sig .tc := ⟨.hbm, 810, rfl⟩
abbrev main_v507 : Ref sig .tc := ⟨.hbm, 811, rfl⟩
abbrev main_c_183 : Ref sig .tc := ⟨.hbm, 812, rfl⟩
abbrev main_v508 : Ref sig .tc := ⟨.hbm, 813, rfl⟩
abbrev main_v509 : Ref sig .tc := ⟨.hbm, 814, rfl⟩
abbrev main_v510 : Ref sig .tc := ⟨.hbm, 815, rfl⟩
abbrev main_c_184 : Ref sig .tc := ⟨.hbm, 816, rfl⟩
abbrev main_v511 : Ref sig .tc := ⟨.hbm, 817, rfl⟩
abbrev main_v512 : Ref sig .tc := ⟨.hbm, 818, rfl⟩
abbrev main_c_185 : Ref sig .tc := ⟨.hbm, 819, rfl⟩
abbrev main_v513 : Ref sig .tc := ⟨.hbm, 820, rfl⟩
abbrev main_v514 : Ref sig .tc := ⟨.hbm, 821, rfl⟩
abbrev main_v515 : Ref sig .tc := ⟨.hbm, 822, rfl⟩
abbrev main_c_186 : Ref sig .tc := ⟨.hbm, 823, rfl⟩
abbrev main_v516 : Ref sig .tc := ⟨.hbm, 824, rfl⟩
abbrev main_v517 : Ref sig .tc := ⟨.hbm, 825, rfl⟩
abbrev main_v518 : Ref sig .tc := ⟨.hbm, 826, rfl⟩
abbrev main_c_187 : Ref sig .tc := ⟨.hbm, 827, rfl⟩
abbrev main_v519 : Ref sig .tc := ⟨.hbm, 828, rfl⟩
abbrev main_v520 : Ref sig .tc := ⟨.hbm, 829, rfl⟩
abbrev main_v521 : Ref sig .tc := ⟨.hbm, 830, rfl⟩
abbrev main_v522 : Ref sig .tc := ⟨.hbm, 831, rfl⟩
abbrev main_c_188 : Ref sig .tc := ⟨.hbm, 832, rfl⟩
abbrev main_c_189 : Ref sig .tc := ⟨.hbm, 833, rfl⟩
abbrev main_call23_v0 : Ref sig .tc := ⟨.hbm, 834, rfl⟩
abbrev main_call23_v1 : Ref sig .tc := ⟨.hbm, 835, rfl⟩
abbrev main_call23_v2 : Ref sig .tc := ⟨.hbm, 836, rfl⟩
abbrev main_call23_v3 : Ref sig .tc := ⟨.hbm, 837, rfl⟩
abbrev main_call23_v4 : Ref sig .tc := ⟨.hbm, 838, rfl⟩
abbrev main_v523 : Ref sig .tc := ⟨.hbm, 839, rfl⟩
abbrev main_c_190 : Ref sig .tc := ⟨.hbm, 840, rfl⟩
abbrev main_c_191 : Ref sig .tc := ⟨.hbm, 841, rfl⟩
abbrev main_call24_v0 : Ref sig .tc := ⟨.hbm, 842, rfl⟩
abbrev main_call24_v1 : Ref sig .tc := ⟨.hbm, 843, rfl⟩
abbrev main_call24_v2 : Ref sig .tc := ⟨.hbm, 844, rfl⟩
abbrev main_call24_v3 : Ref sig .tc := ⟨.hbm, 845, rfl⟩
abbrev main_call24_v4 : Ref sig .tc := ⟨.hbm, 846, rfl⟩
abbrev main_v524 : Ref sig .tc := ⟨.hbm, 847, rfl⟩
abbrev main_c_192 : Ref sig .tc := ⟨.hbm, 848, rfl⟩
abbrev main_v525 : Ref sig .tc := ⟨.hbm, 849, rfl⟩
abbrev main_v526 : Ref sig .tc := ⟨.hbm, 850, rfl⟩
abbrev main_c_193 : Ref sig .tc := ⟨.hbm, 851, rfl⟩
abbrev main_v527 : Ref sig .tc := ⟨.hbm, 852, rfl⟩
abbrev main_v528 : Ref sig .tc := ⟨.hbm, 853, rfl⟩
abbrev main_v529 : Ref sig .tc := ⟨.hbm, 854, rfl⟩
abbrev main_c_194 : Ref sig .tc := ⟨.hbm, 855, rfl⟩
abbrev main_v530 : Ref sig .tc := ⟨.hbm, 856, rfl⟩
abbrev main_v531 : Ref sig .tc := ⟨.hbm, 857, rfl⟩
abbrev main_c_195 : Ref sig .tc := ⟨.hbm, 858, rfl⟩
abbrev main_v532 : Ref sig .tc := ⟨.hbm, 859, rfl⟩
abbrev main_v533 : Ref sig .tc := ⟨.hbm, 860, rfl⟩
abbrev main_v534 : Ref sig .tc := ⟨.hbm, 861, rfl⟩
abbrev main_v535 : Ref sig .tc := ⟨.hbm, 862, rfl⟩
abbrev main_v536 : Ref sig .tc := ⟨.hbm, 863, rfl⟩
abbrev main_v537 : Ref sig .tc := ⟨.hbm, 864, rfl⟩
abbrev main_v538 : Ref sig .tc := ⟨.hbm, 865, rfl⟩
abbrev main_v539 : Ref sig .tc := ⟨.hbm, 866, rfl⟩
abbrev main_v540 : Ref sig .tc := ⟨.hbm, 867, rfl⟩
abbrev main_v541 : Ref sig .tc := ⟨.hbm, 868, rfl⟩
abbrev main_v542 : Ref sig .tc := ⟨.hbm, 869, rfl⟩
abbrev main_v543 : Ref sig .tc := ⟨.hbm, 870, rfl⟩
abbrev main_v544 : Ref sig .tc := ⟨.hbm, 871, rfl⟩
abbrev main_v545 : Ref sig .tc := ⟨.hbm, 872, rfl⟩
abbrev main_v546 : Ref sig .tc := ⟨.hbm, 873, rfl⟩
abbrev main_v547 : Ref sig .tc := ⟨.hbm, 874, rfl⟩
abbrev main_cst_196 : Ref sig .tc := ⟨.hbm, 875, rfl⟩
abbrev main_v548 : Ref sig .tc := ⟨.hbm, 876, rfl⟩
abbrev main_v549 : Ref sig .tc := ⟨.hbm, 877, rfl⟩
abbrev main_v550 : Ref sig .tc := ⟨.hbm, 878, rfl⟩
abbrev main_v551 : Ref sig .tc := ⟨.hbm, 879, rfl⟩
abbrev main_v552 : Ref sig .tc := ⟨.hbm, 880, rfl⟩

abbrev nD : Nat := 1
abbrev τ : Topo := Topo.v7x

variable {F : FTy → Type} [FloatOps F]

class Facts₀ : Prop where
  bcast_S_S1x2048x1x2 : S_.BroadcastsInDim S1x2048x1x2 (![] : Fin 0 → Fin S1x2048x1x2.rank)
  shapeCasts_S1x2048x1x2_S1x2048x2 : S1x2048x1x2.ShapeCasts S1x2048x2
  bcast_S1x2048x2_S128x2048x2_0_1_2 : S1x2048x2.BroadcastsInDim S128x2048x2 (![0, 1, 2] : Fin 3 → Fin S128x2048x2.rank)
  transposes_S8x64x16x64x64_S8x16x64x64x64_0_2_1_3_4 : S8x64x16x64x64.Transposes [0, 2, 1, 3, 4] S8x16x64x64x64
  shapeCasts_S8x16x64x64x64_S128x64x64x64 : S8x16x64x64x64.ShapeCasts S128x64x64x64
  slices_S128x2048x2_S128x2048x1_0_0_0 : S128x2048x2.Slices ![0, 0, 0] S128x2048x1
  shapeCasts_S128x2048x1_S128x2048 : S128x2048x1.ShapeCasts S128x2048
  bcast_S_S128x2048 : S_.BroadcastsInDim S128x2048 (![] : Fin 0 → Fin S128x2048.rank)
  slices_S128x2048x2_S128x2048x1_0_0_1 : S128x2048x2.Slices ![0, 0, 1] S128x2048x1
  bcast_S128x2048_S128x2048x1_0_1 : S128x2048.BroadcastsInDim S128x2048x1 (![0, 1] : Fin 2 → Fin S128x2048x1.rank)
  concatenates_S128x2048x1_S128x2048x1_S128x2048x2_d2 : Shape.Concatenates [S128x2048x1, S128x2048x1] S128x2048x2 2
  bcast_S128x2048_S128x1x2048_0_2 : S128x2048.BroadcastsInDim S128x1x2048 (![0, 2] : Fin 2 → Fin S128x1x2048.rank)
  bcast_S128x1x2048_S128x64x2048_0_1_2 : S128x1x2048.BroadcastsInDim S128x64x2048 (![0, 1, 2] : Fin 3 → Fin S128x64x2048.rank)
  shapeCasts_S128x64x64x64_S128x64x32x2x32x2 : S128x64x64x64.ShapeCasts S128x64x32x2x32x2
  reducesTo_S128x64x32x2x32x2_S128x64x32x32_d3_5 : S128x64x32x2x32x2.ReducesTo [3, 5] S128x64x32x32
  h_S_ : 0 < S_.numel
  bcast_S_S128x64x32x32 : S_.BroadcastsInDim S128x64x32x32 (![] : Fin 0 → Fin S128x64x32x32.rank)
  shapeCasts_S128x64x32x32_S128x64x16x2x16x2 : S128x64x32x32.ShapeCasts S128x64x16x2x16x2
  reducesTo_S128x64x16x2x16x2_S128x64x16x16_d3_5 : S128x64x16x2x16x2.ReducesTo [3, 5] S128x64x16x16
  bcast_S_S128x64x16x16 : S_.BroadcastsInDim S128x64x16x16 (![] : Fin 0 → Fin S128x64x16x16.rank)
  concatenates_S128x64x2048_S128x64x2048_S128x64x2048_S128x192x2048_d1 : Shape.Concatenates [S128x64x2048, S128x64x2048, S128x64x2048] S128x192x2048 1
  shapeCasts_S1x192x1x2048_S1x192x2048 : S1x192x1x2048.ShapeCasts S1x192x2048
  bcast_S1x192x2048_S128x192x2048_0_1_2 : S1x192x2048.BroadcastsInDim S128x192x2048 (![0, 1, 2] : Fin 3 → Fin S128x192x2048.rank)
  reducesTo_S128x192x2048_S128x2048_d1 : S128x192x2048.ReducesTo [1] S128x2048
  shapeCasts_S128x2048_S8x16x2048 : S128x2048.ShapeCasts S8x16x2048
  bcast_S2048_S1x1x2048_2 : S2048.BroadcastsInDim S1x1x2048 (![2] : Fin 1 → Fin S1x1x2048.rank)
  bcast_S1x1x2048_S8x16x2048_0_1_2 : S1x1x2048.BroadcastsInDim S8x16x2048 (![0, 1, 2] : Fin 3 → Fin S8x16x2048.rank)
  gather_S128x64x64x64_S128x2048x2_S128x64x2048_1_23_0_0_23_2_16411_wf : GatherDims.WF S128x64x64x64 S128x2048x2 S128x64x2048 [1] [2, 3] [0] [2, 3] [0] 2 ![1, 64, 1, 1]
  gather_S128x64x32x32_S128x2048x2_S128x64x2048_1_23_0_0_23_2_16411_wf : GatherDims.WF S128x64x32x32 S128x2048x2 S128x64x2048 [1] [2, 3] [0] [2, 3] [0] 2 ![1, 64, 1, 1]
  gather_S128x64x16x16_S128x2048x2_S128x64x2048_1_23_0_0_23_2_16411_wf : GatherDims.WF S128x64x16x16 S128x2048x2 S128x64x2048 [1] [2, 3] [0] [2, 3] [0] 2 ![1, 64, 1, 1]

variable [Facts₀]

def gather_S128x64x64x64_S128x2048x2_S128x64x2048_1_23_0_0_23_2_16411 : GatherDims S128x64x64x64 S128x2048x2 S128x64x2048 where
  offsetDims := [1]
  collapsedSliceDims := [2, 3]
  operandBatchingDims := [0]
  startIndicesBatchingDims := [0]
  startIndexMap := [2, 3]
  indexVectorDim := 2
  sliceSizes := ![1, 64, 1, 1]
  wf := gather_S128x64x64x64_S128x2048x2_S128x64x2048_1_23_0_0_23_2_16411_wf
def gather_S128x64x32x32_S128x2048x2_S128x64x2048_1_23_0_0_23_2_16411 : GatherDims S128x64x32x32 S128x2048x2 S128x64x2048 where
  offsetDims := [1]
  collapsedSliceDims := [2, 3]
  operandBatchingDims := [0]
  startIndicesBatchingDims := [0]
  startIndexMap := [2, 3]
  indexVectorDim := 2
  sliceSizes := ![1, 64, 1, 1]
  wf := gather_S128x64x32x32_S128x2048x2_S128x64x2048_1_23_0_0_23_2_16411_wf
def gather_S128x64x16x16_S128x2048x2_S128x64x2048_1_23_0_0_23_2_16411 : GatherDims S128x64x16x16 S128x2048x2 S128x64x2048 where
  offsetDims := [1]
  collapsedSliceDims := [2, 3]
  operandBatchingDims := [0]
  startIndicesBatchingDims := [0]
  startIndexMap := [2, 3]
  indexVectorDim := 2
  sliceSizes := ![1, 64, 1, 1]
  wf := gather_S128x64x16x16_S128x2048x2_S128x64x2048_1_23_0_0_23_2_16411_wf

class Facts : Prop extends Facts₀ where

variable [Facts]
-- ==== Proof.KInductPieces.lean ====
import proofs.«416765_j9792525435349_4_alg».proof.Proof.PatchedKernelIdeal.Frame
import Idealize.ShloMosaic.Lib.Pipeline.Value
import Idealize.ShloMosaic.Lib.Tactic

noncomputable section

namespace Cert.KernelIdeal.KInduct

open Cert.KernelIdeal Cert.KernelIdeal.GenP Cert.KernelIdeal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

theorem soutA_eq (c : Dev nD) (i : grid0.Coords) (arg3 : Memref sig .tc .vmem S1x32x8x64x64 .f32) (harg3 : arg3.IsWhole) (arg4 : Memref sig .tc .vmem S4096x2048 .bf16) (harg4 : arg4.IsWhole) (arg5 : Memref sig .tc .vmem S1024x2048 .bf16) (harg5 : arg5.IsWhole) (arg6 : Memref sig .tc .vmem S256x2048 .bf16) (harg6 : arg6.IsWhole) (arg7 : Memref sig .tc .vmem S3x32x2048 .f32) (harg7 : arg7.IsWhole) (arg8 : Memref sig .tc .vmem S1x2048 .f32) (harg8 : arg8.IsWhole) (arg9 : Memref sig .tc .vmem S1x8x2048 .f32) (harg9 : arg9.IsWhole) (arg10 : Memref sig .tc .vmem S8x2048 .f32) (harg10 : arg10.IsWhole) (hc0 : cond0_0 i) (hc1 : ¬cond0_1 i)
    (x0 : Vec F S1x32x8x64x64 .f32) (x1 : Vec F S4096x2048 .bf16) (x2 : Vec F S1024x2048 .bf16) (x3 : Vec F S256x2048 .bf16) (x4 : Vec F S3x32x2048 .f32) (x5 : Vec F S1x2048 .f32) :
    sout0_A_0 c i arg3 harg3 arg4 harg4 arg5 harg5 arg6 harg6 arg7 harg7 arg8 harg8 arg9 harg9 arg10 harg10 hc0 hc1 x0 x1 x2 x3 x4 x5 = k0_pay1 (k0_pay5 x0 x1) (k0_pay7 x0 x2) (k0_pay8 x0) (k0_pay9 x3) x4 k0_pay3 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S8x2048) hz2, View.readCov_unit_zero (S := S8x2048) _ hz2]
  simp only [View.readAt_eq_ld, harg3.read_unread, harg4.read_unread, harg5.read_unread, harg6.read_unread, harg7.read_unread, harg8.read_unread, harg10.read_unread,
    View.ld_unit_zero (S := S1x32x8x64x64) hz5, View.ld_unit_zero (S := S4096x2048) hz2, View.ld_unit_zero (S := S1024x2048) hz2,
    View.ld_unit_zero (S := S256x2048) hz2, View.ld_unit_zero (S := S3x32x2048) hz3, View.ld_unit_zero (S := S1x2048) hz2,
    View.ld_unit_zero (S := S8x2048) hz2, View.readCov_unit_zero (S := S8x2048) _ hz2]

theorem outB_eq (c : Dev nD) (i : grid0.Coords) (arg3 : Memref sig .tc .vmem S1x32x8x64x64 .f32) (harg3 : arg3.IsWhole) (arg4 : Memref sig .tc .vmem S4096x2048 .bf16) (harg4 : arg4.IsWhole) (arg5 : Memref sig .tc .vmem S1024x2048 .bf16) (harg5 : arg5.IsWhole) (arg6 : Memref sig .tc .vmem S256x2048 .bf16) (harg6 : arg6.IsWhole) (arg7 : Memref sig .tc .vmem S3x32x2048 .f32) (harg7 : arg7.IsWhole) (arg8 : Memref sig .tc .vmem S1x2048 .f32) (harg8 : arg8.IsWhole) (arg9 : Memref sig .tc .vmem S1x8x2048 .f32) (harg9 : arg9.IsWhole) (arg10 : Memref sig .tc .vmem S8x2048 .f32) (harg10 : arg10.IsWhole) (hc0 : ¬cond0_0 i) (hc1 : cond0_1 i)
    (x0 : Vec F S1x32x8x64x64 .f32) (x1 : Vec F S4096x2048 .bf16) (x2 : Vec F S1024x2048 .bf16) (x3 : Vec F S256x2048 .bf16) (x4 : Vec F S3x32x2048 .f32) (x5 : Vec F S1x2048 .f32) (xs0 : Vec F S8x2048 .f32) :
    out0_B_6 c i arg3 harg3 arg4 harg4 arg5 harg5 arg6 harg6 arg7 harg7 arg8 harg8 arg9 harg9 arg10 harg10 hc0 hc1 x0 x1 x2 x3 x4 x5 xs0 = k0_pay2 (k0_pay1 (k0_pay5 x0 x1) (k0_pay7 x0 x2) (k0_pay8 x0) (k0_pay9 x3) x4 xs0) x5 := by
  unfold out0_B_6
  rw [View.read_writes_eq_canon _ _ _ (cover0_B_6 c i arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  rw [View.canon_unit_zero hz3]
  simp only [View.readAt_eq_ld, harg3.read_unread, harg4.read_unread, harg5.read_unread, harg6.read_unread, harg7.read_unread, harg8.read_unread, harg10.read_unread,
    View.ld_unit_zero (S := S1x32x8x64x64) hz5, View.ld_unit_zero (S := S4096x2048) hz2, View.ld_unit_zero (S := S1024x2048) hz2,
    View.ld_unit_zero (S := S256x2048) hz2, View.ld_unit_zero (S := S3x32x2048) hz3, View.ld_unit_zero (S := S1x2048) hz2,
    View.ld_unit_zero (S := S8x2048) hz2, View.readCov_unit_zero (S := S8x2048) _ hz2]

end Cert.KernelIdeal.KInduct

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev zero32 : EReal := Ideal.ofBits .f32 0x00000000#32
abbrev quarter32 : EReal := Ideal.ofBits .f32 0x3E800000#32
abbrev four32 : EReal := Ideal.ofBits .f32 0x40800000#32

def pool64 (x : Fin 64 → Fin 64 → EReal) (a b : Fin 32) : EReal :=
  (∑ j : Fin 2, ∑ i : Fin 2, x ⟨2 * a.val + i.val, by omega⟩ ⟨2 * b.val + j.val, by omega⟩) * quarter32

def pool32 (x : Fin 32 → Fin 32 → EReal) (a b : Fin 16) : EReal :=
  (∑ j : Fin 2, ∑ i : Fin 2, x ⟨2 * a.val + i.val, by omega⟩ ⟨2 * b.val + j.val, by omega⟩) * quarter32

def wentry {R : Type} [DecidableEq R] (flat : Fin 4 → R) (wt : Fin 4 → EReal) (r : R) : EReal :=
  (((zero32 + (if flat 0 = r then wt 0 else zero32)) + (if flat 1 = r then wt 1 else zero32))
    + (if flat 2 = r then wt 2 else zero32)) + (if flat 3 = r then wt 3 else zero32)

def chunkSum (g0 g1 g2 f0 f1 f2 : Fin 32 → EReal) : EReal :=
  ((∑ c : Fin 32, g0 c * f0 c) + (∑ c : Fin 32, g1 c * f1 c)) + (∑ c : Fin 32, g2 c * f2 c)

end Cert.Spec

end
-- ==== Proof.KBody.lean ====
import proofs.«416765_j9792525435349_4_alg».proof.Proof.Gen.KernelIdeal.Skeleton
import proofs.«416765_j9792525435349_4_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Idealize.SL.Sem

theorem pay3_apply (tt : Fin 8) (o : Fin 2048) :
    k0_pay3 (F := Ideal) (ix2 tt o) = Spec.zero32 := by
  unfold k0_pay3
  rw [shapeCast_self]
  rfl

theorem pay9_apply (w2 : Vec Ideal S256x2048 .bf16) : k0_pay9 (F := Ideal) w2 = w2 := by
  unfold k0_pay9
  exact shapeCast_self _ _

theorem pay2_apply (acc : Vec Ideal S8x2048 .f32) (bias : Vec Ideal S1x2048 .f32) (tt : Fin 8) (o : Fin 2048) :
    k0_pay2 (F := Ideal) acc bias (ix3 0 tt o) = acc (ix2 tt o) + bias (ix2 0 o) := by
  unfold k0_pay2
  rw [shapeCast_self]
  rw [shapeCast_ab_1ab_apply]
  rw [addf_apply, broadcastTo_1b_ab_apply]

abbrev img (x0 : Vec Ideal S1x32x8x64x64 .f32) (c : Fin 32) (tt : Fin 8) : Fin 64 → Fin 64 → EReal :=
  fun w h => x0 (ix5 0 c tt w h)

abbrev row (c : Fin 32) (tt : Fin 8) : Fin 256 := ⟨c.val * 8 + tt.val, by omega⟩

abbrev D5 := dot_S256x4096_S4096x2048_S256x2048_1_0_0_1_n_n

theorem lhs5_0 (j : S256x2048.Idx) (k : D5.contr.Idx) : ((D5.lhsIdx j k 0 : Fin 256) : ℕ) = (j 0 : Fin 256) := by
  simp [DotDims.lhsIdx, D5, dot_S256x4096_S4096x2048_S256x2048_1_0_0_1_n_n]; rfl
theorem lhs5_1 (j : S256x2048.Idx) (k : D5.contr.Idx) : ((D5.lhsIdx j k 1 : Fin 4096) : ℕ) = (k ⟨0, by decide⟩).val := by
  simp [DotDims.lhsIdx, D5, dot_S256x4096_S4096x2048_S256x2048_1_0_0_1_n_n]; rfl
theorem rhs5_0 (j : S256x2048.Idx) (k : D5.contr.Idx) : ((D5.rhsIdx j k 0 : Fin 4096) : ℕ) = (k ⟨0, by decide⟩).val := by
  simp [DotDims.rhsIdx, D5, dot_S256x4096_S4096x2048_S256x2048_1_0_0_1_n_n]; rfl
theorem rhs5_1 (j : S256x2048.Idx) (k : D5.contr.Idx) : ((D5.rhsIdx j k 1 : Fin 2048) : ℕ) = (j 1 : Fin 2048) := by
  simp [DotDims.rhsIdx, D5, dot_S256x4096_S4096x2048_S256x2048_1_0_0_1_n_n]; rfl

theorem lhsIdx5 (p : Fin 256) (o : Fin 2048) (r : Fin 4096) :
    D5.lhsIdx (ix2 p o) ((contrEquiv1 D5 4096 rfl rfl).symm r) = ix2 p r := by
  funext a
  match a with
  | ⟨0, _⟩ => exact Fin.ext (lhs5_0 _ _)
  | ⟨1, _⟩ => exact Fin.ext ((lhs5_1 _ _).trans (contrEquiv1_symm_val D5 4096 rfl rfl r))

theorem rhsIdx5 (p : Fin 256) (o : Fin 2048) (r : Fin 4096) :
    D5.rhsIdx (ix2 p o) ((contrEquiv1 D5 4096 rfl rfl).symm r) = ix2 r o := by
  funext a
  match a with
  | ⟨0, _⟩ => exact Fin.ext ((rhs5_0 _ _).trans (contrEquiv1_symm_val D5 4096 rfl rfl r))
  | ⟨1, _⟩ => exact Fin.ext (rhs5_1 _ _)

theorem pay4_apply (x0 : Vec Ideal S1x32x8x64x64 .f32) (c : Fin 32) (tt : Fin 8) (w h : Fin 64) :
    k0_pay4 (F := Ideal) x0 (ix4 c tt w h) = x0 (ix5 0 c tt w h) := by
  unfold k0_pay4
  exact shapeCast_apply x0 shapeCasts_S1x32x8x64x64_S32x8x64x64 _ _ (by
    rw [Shape.rowMajor_val_five, Shape.rowMajor_val_four]
    show ((((0 * 32 + c.val) * 8 + tt.val) * 64 + w.val) * 64 + h.val) = ((c.val * 8 + tt.val) * 64 + w.val) * 64 + h.val
    omega)

theorem flat5_apply (x0 : Vec Ideal S1x32x8x64x64 .f32) (c : Fin 32) (tt : Fin 8) (r : Fin 4096) :
    shapeCast S256x4096 (k0_pay4 (F := Ideal) x0) shapeCasts_S32x8x64x64_S256x4096 (ix2 (row c tt) r)
      = img x0 c tt ⟨r.val / 64, by omega⟩ ⟨r.val % 64, by omega⟩ := by
  rw [shapeCast_apply _ shapeCasts_S32x8x64x64_S256x4096 (ix2 (row c tt) r)
    (ix4 c tt ⟨r.val / 64, by omega⟩ ⟨r.val % 64, by omega⟩) (by
      rw [Shape.rowMajor_val_four, Shape.rowMajor_val_two]
      show ((c.val * 8 + tt.val) * 64 + r.val / 64) * 64 + r.val % 64 = (c.val * 8 + tt.val) * 4096 + r.val
      omega)]
  exact pay4_apply x0 c tt _ _

theorem pay5_apply (x0 : Vec Ideal S1x32x8x64x64 .f32) (w0 : Vec Ideal S4096x2048 .bf16) (c : Fin 32) (tt : Fin 8) (o : Fin 2048) :
    k0_pay5 (F := Ideal) x0 w0 (ix2 (row c tt) o)
      = ∑ r : Fin 4096, img x0 c tt ⟨r.val / 64, by omega⟩ ⟨r.val % 64, by omega⟩ * w0 (ix2 r o) := by
  unfold k0_pay5
  rw [shapeCast_self w0]
  simp only [matmul]
  rw [Ideal.matmul_constant_zero_apply, ← Equiv.sum_comp (contrEquiv1 D5 4096 rfl rfl).symm]
  refine Finset.sum_congr rfl fun r _ => ?_
  rw [lhsIdx5, rhsIdx5, truncf_apply, flat5_apply]

theorem split64_apply (y : FVec Ideal S32x8x64x64 .f32) (c : Fin 32) (tt : Fin 8) (a : Fin 32) (i : Fin 2) (h : Fin 64) :
    shapeCast S32x8x32x2x64 y shapeCasts_S32x8x64x64_S32x8x32x2x64 (ix5 c tt a i h)
      = y (ix4 c tt ⟨2 * a.val + i.val, by omega⟩ h) :=
  shapeCast_apply y shapeCasts_S32x8x64x64_S32x8x32x2x64 _ _ (by
    rw [Shape.rowMajor_val_four, Shape.rowMajor_val_five]
    show ((c.val * 8 + tt.val) * 64 + (2 * a.val + i.val)) * 64 + h.val
      = (((c.val * 8 + tt.val) * 32 + a.val) * 2 + i.val) * 64 + h.val
    omega)

theorem sumPair64_apply (v : FVec Ideal S32x8x32x2x64 .f32) (hφ : FKind.Formats .f32)
    (hacc : (0x00000000#32 : BitVec 32) = FKind.add.neutral .f32 hφ) (c : Fin 32) (tt : Fin 8) (a : Fin 32) (h : Fin 64) :
    multiReduction (F := Ideal) .add [3] S32x8x32x64 v 0x00000000#32 reduces_S32x8x32x2x64_S32x8x32x64 hφ hacc (ix4 c tt a h)
      = ∑ i : Fin 2, v (ix5 c tt a i h) := by
  refine (Ideal.multiReduction_add_single v _ reduces_S32x8x32x2x64_S32x8x32x64 hφ hacc (ix4 c tt a h)).trans ?_
  refine Finset.sum_congr rfl fun i _ => congrArg v (funext fun d => Fin.ext ?_)
  match d with
  | ⟨0, _⟩ => rfl
  | ⟨1, _⟩ => rfl
  | ⟨2, _⟩ => rfl
  | ⟨3, _⟩ => rfl
  | ⟨4, _⟩ => rfl

theorem tr64_apply (v : FVec Ideal S32x8x32x64 .f32) (c : Fin 32) (tt : Fin 8) (h : Fin 64) (a : Fin 32) :
    transpose S32x8x64x32 [0, 1, 3, 2] v transposes_S32x8x32x64_p0_1_3_2_S32x8x64x32 (ix4 c tt h a) = v (ix4 c tt a h) :=
  transpose_apply _ v transposes_S32x8x32x64_p0_1_3_2_S32x8x64x32 _ _ fun d => match d with
    | ⟨0, _⟩ => rfl
    | ⟨1, _⟩ => rfl
    | ⟨2, _⟩ => rfl
    | ⟨3, _⟩ => rfl

theorem splitB64_apply (y : FVec Ideal S32x8x64x32 .f32) (c : Fin 32) (tt : Fin 8) (b : Fin 32) (j : Fin 2) (a : Fin 32) :
    shapeCast S32x8x32x2x32 y shapeCasts_S32x8x64x32_S32x8x32x2x32 (ix5 c tt b j a)
      = y (ix4 c tt ⟨2 * b.val + j.val, by omega⟩ a) :=
  shapeCast_apply y shapeCasts_S32x8x64x32_S32x8x32x2x32 _ _ (by
    rw [Shape.rowMajor_val_four, Shape.rowMajor_val_five]
    show ((c.val * 8 + tt.val) * 64 + (2 * b.val + j.val)) * 32 + a.val
      = (((c.val * 8 + tt.val) * 32 + b.val) * 2 + j.val) * 32 + a.val
    omega)

theorem sumPairB64_apply (v : FVec Ideal S32x8x32x2x32 .f32) (hφ : FKind.Formats .f32)
    (hacc : (0x00000000#32 : BitVec 32) = FKind.add.neutral .f32 hφ) (c : Fin 32) (tt : Fin 8) (b a : Fin 32) :
    multiReduction (F := Ideal) .add [3] S32x8x32x32 v 0x00000000#32 reduces_S32x8x32x2x32_S32x8x32x32 hφ hacc (ix4 c tt b a)
      = ∑ j : Fin 2, v (ix5 c tt b j a) := by
  refine (Ideal.multiReduction_add_single v _ reduces_S32x8x32x2x32_S32x8x32x32 hφ hacc (ix4 c tt b a)).trans ?_
  refine Finset.sum_congr rfl fun j _ => congrArg v (funext fun d => Fin.ext ?_)
  match d with
  | ⟨0, _⟩ => rfl
  | ⟨1, _⟩ => rfl
  | ⟨2, _⟩ => rfl
  | ⟨3, _⟩ => rfl
  | ⟨4, _⟩ => rfl

theorem trB64_apply (v : FVec Ideal S32x8x32x32 .f32) (c : Fin 32) (tt : Fin 8) (a b : Fin 32) :
    transpose S32x8x32x32 [0, 1, 3, 2] v transposes_S32x8x32x32_p0_1_3_2_S32x8x32x32 (ix4 c tt a b) = v (ix4 c tt b a) :=
  transpose_apply _ v transposes_S32x8x32x32_p0_1_3_2_S32x8x32x32 _ _ fun d => match d with
    | ⟨0, _⟩ => rfl
    | ⟨1, _⟩ => rfl
    | ⟨2, _⟩ => rfl
    | ⟨3, _⟩ => rfl

theorem pay6_apply (x0 : Vec Ideal S1x32x8x64x64 .f32) (c : Fin 32) (tt : Fin 8) (a b : Fin 32) :
    k0_pay6 (F := Ideal) x0 (ix4 c tt a b) = Spec.pool64 (img x0 c tt) a b := by
  unfold k0_pay6 Spec.pool64
  rw [mulf_apply, broadcast_apply, trB64_apply]
  refine congrArg (· * Spec.quarter32) ?_
  refine (sumPairB64_apply _ _ _ c tt b a).trans (Finset.sum_congr rfl fun j _ => ?_)
  rw [splitB64_apply, tr64_apply]
  refine (sumPair64_apply _ _ _ c tt a _).trans (Finset.sum_congr rfl fun i _ => ?_)
  rw [split64_apply, pay4_apply]

abbrev D7 := dot_S256x1024_S1024x2048_S256x2048_1_0_0_1_n_n

theorem lhs7_0 (j : S256x2048.Idx) (k : D7.contr.Idx) : ((D7.lhsIdx j k 0 : Fin 256) : ℕ) = (j 0 : Fin 256) := by
  simp [DotDims.lhsIdx, D7, dot_S256x1024_S1024x2048_S256x2048_1_0_0_1_n_n]; rfl
theorem lhs7_1 (j : S256x2048.Idx) (k : D7.contr.Idx) : ((D7.lhsIdx j k 1 : Fin 1024) : ℕ) = (k ⟨0, by decide⟩).val := by
  simp [DotDims.lhsIdx, D7, dot_S256x1024_S1024x2048_S256x2048_1_0_0_1_n_n]; rfl
theorem rhs7_0 (j : S256x2048.Idx) (k : D7.contr.Idx) : ((D7.rhsIdx j k 0 : Fin 1024) : ℕ) = (k ⟨0, by decide⟩).val := by
  simp [DotDims.rhsIdx, D7, dot_S256x1024_S1024x2048_S256x2048_1_0_0_1_n_n]; rfl
theorem rhs7_1 (j : S256x2048.Idx) (k : D7.contr.Idx) : ((D7.rhsIdx j k 1 : Fin 2048) : ℕ) = (j 1 : Fin 2048) := by
  simp [DotDims.rhsIdx, D7, dot_S256x1024_S1024x2048_S256x2048_1_0_0_1_n_n]; rfl

theorem lhsIdx7 (p : Fin 256) (o : Fin 2048) (r : Fin 1024) :
    D7.lhsIdx (ix2 p o) ((contrEquiv1 D7 1024 rfl rfl).symm r) = ix2 p r := by
  funext a
  match a with
  | ⟨0, _⟩ => exact Fin.ext (lhs7_0 _ _)
  | ⟨1, _⟩ => exact Fin.ext ((lhs7_1 _ _).trans (contrEquiv1_symm_val D7 1024 rfl rfl r))

theorem rhsIdx7 (p : Fin 256) (o : Fin 2048) (r : Fin 1024) :
    D7.rhsIdx (ix2 p o) ((contrEquiv1 D7 1024 rfl rfl).symm r) = ix2 r o := by
  funext a
  match a with
  | ⟨0, _⟩ => exact Fin.ext ((rhs7_0 _ _).trans (contrEquiv1_symm_val D7 1024 rfl rfl r))
  | ⟨1, _⟩ => exact Fin.ext (rhs7_1 _ _)

theorem flat7_apply (x0 : Vec Ideal S1x32x8x64x64 .f32) (c : Fin 32) (tt : Fin 8) (r : Fin 1024) :
    shapeCast S256x1024 (k0_pay6 (F := Ideal) x0) shapeCasts_S32x8x32x32_S256x1024 (ix2 (row c tt) r)
      = Spec.pool64 (img x0 c tt) ⟨r.val / 32, by omega⟩ ⟨r.val % 32, by omega⟩ := by
  rw [shapeCast_apply _ shapeCasts_S32x8x32x32_S256x1024 (ix2 (row c tt) r)
    (ix4 c tt ⟨r.val / 32, by omega⟩ ⟨r.val % 32, by omega⟩) (by
      rw [Shape.rowMajor_val_four, Shape.rowMajor_val_two]
      show ((c.val * 8 + tt.val) * 32 + r.val / 32) * 32 + r.val % 32 = (c.val * 8 + tt.val) * 1024 + r.val
      omega)]
  exact pay6_apply x0 c tt _ _

theorem pay7_apply (x0 : Vec Ideal S1x32x8x64x64 .f32) (w1 : Vec Ideal S1024x2048 .bf16) (c : Fin 32) (tt : Fin 8) (o : Fin 2048) :
    k0_pay7 (F := Ideal) x0 w1 (ix2 (row c tt) o)
      = ∑ r : Fin 1024, Spec.pool64 (img x0 c tt) ⟨r.val / 32, by omega⟩ ⟨r.val % 32, by omega⟩ * w1 (ix2 r o) := by
  unfold k0_pay7
  rw [shapeCast_self w1]
  simp only [matmul]
  rw [Ideal.matmul_constant_zero_apply, ← Equiv.sum_comp (contrEquiv1 D7 1024 rfl rfl).symm]
  refine Finset.sum_congr rfl fun r _ => ?_
  rw [lhsIdx7, rhsIdx7, truncf_apply, flat7_apply]

theorem split32_apply (y : FVec Ideal S32x8x32x32 .f32) (c : Fin 32) (tt : Fin 8) (a : Fin 16) (i : Fin 2) (h : Fin 32) :
    shapeCast S32x8x16x2x32 y shapeCasts_S32x8x32x32_S32x8x16x2x32 (ix5 c tt a i h)
      = y (ix4 c tt ⟨2 * a.val + i.val, by omega⟩ h) :=
  shapeCast_apply y shapeCasts_S32x8x32x32_S32x8x16x2x32 _ _ (by
    rw [Shape.rowMajor_val_four, Shape.rowMajor_val_five]
    show ((c.val * 8 + tt.val) * 32 + (2 * a.val + i.val)) * 32 + h.val
      = (((c.val * 8 + tt.val) * 16 + a.val) * 2 + i.val) * 32 + h.val
    omega)

theorem sumPair32_apply (v : FVec Ideal S32x8x16x2x32 .f32) (hφ : FKind.Formats .f32)
    (hacc : (0x00000000#32 : BitVec 32) = FKind.add.neutral .f32 hφ) (c : Fin 32) (tt : Fin 8) (a : Fin 16) (h : Fin 32) :
    multiReduction (F := Ideal) .add [3] S32x8x16x32 v 0x00000000#32 reduces_S32x8x16x2x32_S32x8x16x32 hφ hacc (ix4 c tt a h)
      = ∑ i : Fin 2, v (ix5 c tt a i h) := by
  refine (Ideal.multiReduction_add_single v _ reduces_S32x8x16x2x32_S32x8x16x32 hφ hacc (ix4 c tt a h)).trans ?_
  refine Finset.sum_congr rfl fun i _ => congrArg v (funext fun d => Fin.ext ?_)
  match d with
  | ⟨0, _⟩ => rfl
  | ⟨1, _⟩ => rfl
  | ⟨2, _⟩ => rfl
  | ⟨3, _⟩ => rfl
  | ⟨4, _⟩ => rfl

theorem tr32_apply (v : FVec Ideal S32x8x16x32 .f32) (c : Fin 32) (tt : Fin 8) (h : Fin 32) (a : Fin 16) :
    transpose S32x8x32x16 [0, 1, 3, 2] v transposes_S32x8x16x32_p0_1_3_2_S32x8x32x16 (ix4 c tt h a) = v (ix4 c tt a h) :=
  transpose_apply _ v transposes_S32x8x16x32_p0_1_3_2_S32x8x32x16 _ _ fun d => match d with
    | ⟨0, _⟩ => rfl
    | ⟨1, _⟩ => rfl
    | ⟨2, _⟩ => rfl
    | ⟨3, _⟩ => rfl

theorem splitB32_apply (y : FVec Ideal S32x8x32x16 .f32) (c : Fin 32) (tt : Fin 8) (b : Fin 16) (j : Fin 2) (a : Fin 16) :
    shapeCast S32x8x16x2x16 y shapeCasts_S32x8x32x16_S32x8x16x2x16 (ix5 c tt b j a)
      = y (ix4 c tt ⟨2 * b.val + j.val, by omega⟩ a) :=
  shapeCast_apply y shapeCasts_S32x8x32x16_S32x8x16x2x16 _ _ (by
    rw [Shape.rowMajor_val_four, Shape.rowMajor_val_five]
    show ((c.val * 8 + tt.val) * 32 + (2 * b.val + j.val)) * 16 + a.val
      = (((c.val * 8 + tt.val) * 16 + b.val) * 2 + j.val) * 16 + a.val
    omega)

theorem sumPairB32_apply (v : FVec Ideal S32x8x16x2x16 .f32) (hφ : FKind.Formats .f32)
    (hacc : (0x00000000#32 : BitVec 32) = FKind.add.neutral .f32 hφ) (c : Fin 32) (tt : Fin 8) (b a : Fin 16) :
    multiReduction (F := Ideal) .add [3] S32x8x16x16 v 0x00000000#32 reduces_S32x8x16x2x16_S32x8x16x16 hφ hacc (ix4 c tt b a)
      = ∑ j : Fin 2, v (ix5 c tt b j a) := by
  refine (Ideal.multiReduction_add_single v _ reduces_S32x8x16x2x16_S32x8x16x16 hφ hacc (ix4 c tt b a)).trans ?_
  refine Finset.sum_congr rfl fun j _ => congrArg v (funext fun d => Fin.ext ?_)
  match d with
  | ⟨0, _⟩ => rfl
  | ⟨1, _⟩ => rfl
  | ⟨2, _⟩ => rfl
  | ⟨3, _⟩ => rfl
  | ⟨4, _⟩ => rfl

theorem trB32_apply (v : FVec Ideal S32x8x16x16 .f32) (c : Fin 32) (tt : Fin 8) (a b : Fin 16) :
    transpose S32x8x16x16 [0, 1, 3, 2] v transposes_S32x8x16x16_p0_1_3_2_S32x8x16x16 (ix4 c tt a b) = v (ix4 c tt b a) :=
  transpose_apply _ v transposes_S32x8x16x16_p0_1_3_2_S32x8x16x16 _ _ fun d => match d with
    | ⟨0, _⟩ => rfl
    | ⟨1, _⟩ => rfl
    | ⟨2, _⟩ => rfl
    | ⟨3, _⟩ => rfl

theorem pay8_apply (x0 : Vec Ideal S1x32x8x64x64 .f32) (c : Fin 32) (tt : Fin 8) (r : Fin 256) :
    k0_pay8 (F := Ideal) x0 (ix2 (row c tt) r)
      = Spec.pool32 (Spec.pool64 (img x0 c tt)) ⟨r.val / 16, by omega⟩ ⟨r.val % 16, by omega⟩ := by
  unfold k0_pay8 Spec.pool32
  rw [truncf_apply, shapeCast_apply _ shapeCasts_S32x8x16x16_S256x256 (ix2 (row c tt) r)
    (ix4 c tt ⟨r.val / 16, by omega⟩ ⟨r.val % 16, by omega⟩) (by
      rw [Shape.rowMajor_val_four, Shape.rowMajor_val_two]
      show ((c.val * 8 + tt.val) * 16 + r.val / 16) * 16 + r.val % 16 = (c.val * 8 + tt.val) * 256 + r.val
      omega)]
  rw [mulf_apply, broadcast_apply, trB32_apply]
  refine congrArg (· * Spec.quarter32) ?_
  refine (sumPairB32_apply _ _ _ c tt _ _).trans (Finset.sum_congr rfl fun j _ => ?_)
  rw [splitB32_apply, tr32_apply]
  refine (sumPair32_apply _ _ _ c tt _ _).trans (Finset.sum_congr rfl fun i _ => ?_)
  rw [split32_apply, pay6_apply]

abbrev D1 := dot_S256x256_S256x2048_S256x2048_1_0_0_1_n_n

theorem lhs1_0 (j : S256x2048.Idx) (k : D1.contr.Idx) : ((D1.lhsIdx j k 0 : Fin 256) : ℕ) = (j 0 : Fin 256) := by
  simp [DotDims.lhsIdx, D1, dot_S256x256_S256x2048_S256x2048_1_0_0_1_n_n]; rfl
theorem lhs1_1 (j : S256x2048.Idx) (k : D1.contr.Idx) : ((D1.lhsIdx j k 1 : Fin 256) : ℕ) = (k ⟨0, by decide⟩).val := by
  simp [DotDims.lhsIdx, D1, dot_S256x256_S256x2048_S256x2048_1_0_0_1_n_n]; rfl
theorem rhs1_0 (j : S256x2048.Idx) (k : D1.contr.Idx) : ((D1.rhsIdx j k 0 : Fin 256) : ℕ) = (k ⟨0, by decide⟩).val := by
  simp [DotDims.rhsIdx, D1, dot_S256x256_S256x2048_S256x2048_1_0_0_1_n_n]; rfl
theorem rhs1_1 (j : S256x2048.Idx) (k : D1.contr.Idx) : ((D1.rhsIdx j k 1 : Fin 2048) : ℕ) = (j 1 : Fin 2048) := by
  simp [DotDims.rhsIdx, D1, dot_S256x256_S256x2048_S256x2048_1_0_0_1_n_n]; rfl

theorem lhsIdx1 (p : Fin 256) (o : Fin 2048) (r : Fin 256) :
    D1.lhsIdx (ix2 p o) ((contrEquiv1 D1 256 rfl rfl).symm r) = ix2 p r := by
  funext a
  match a with
  | ⟨0, _⟩ => exact Fin.ext (lhs1_0 _ _)
  | ⟨1, _⟩ => exact Fin.ext ((lhs1_1 _ _).trans (contrEquiv1_symm_val D1 256 rfl rfl r))

theorem rhsIdx1 (p : Fin 256) (o : Fin 2048) (r : Fin 256) :
    D1.rhsIdx (ix2 p o) ((contrEquiv1 D1 256 rfl rfl).symm r) = ix2 r o := by
  funext a
  match a with
  | ⟨0, _⟩ => exact Fin.ext ((rhs1_0 _ _).trans (contrEquiv1_symm_val D1 256 rfl rfl r))
  | ⟨1, _⟩ => exact Fin.ext (rhs1_1 _ _)

theorem mm1_apply (v32 : FVec Ideal S256x256 .bf16) (v34 : FVec Ideal S256x2048 .bf16) (p : Fin 256) (o : Fin 2048) :
    matmul D1 none v32 v34 (constant (F := Ideal) S256x2048 .f32 0x00000000#32) (ix2 p o)
      = ∑ r : Fin 256, v32 (ix2 p r) * v34 (ix2 r o) := by
  simp only [matmul]
  rw [Ideal.matmul_constant_zero_apply, ← Equiv.sum_comp (contrEquiv1 D1 256 rfl rfl).symm]
  refine Finset.sum_congr rfl fun r _ => ?_
  rw [lhsIdx1, rhsIdx1]

theorem rows_apply (v : FVec Ideal S256x2048 .f32) (c : Fin 32) (tt : Fin 8) (o : Fin 2048) :
    shapeCast S32x8x2048 v shapeCasts_S256x2048_S32x8x2048 (ix3 c tt o) = v (ix2 (row c tt) o) :=
  shapeCast_apply v shapeCasts_S256x2048_S32x8x2048 _ _ (by
    rw [Shape.rowMajor_val_two, Shape.rowMajor_val_three]
    rfl)

theorem level_apply (ft : FVec Ideal S3x32x2048 .f32) (l : Nat) (hl : l < 3) (h : S3x32x2048.Slices ![l, 0, 0] S1x32x2048)
    (c : Fin 32) (tt : Fin 8) (o : Fin 2048) :
    broadcastTo S32x8x2048 (shapeCast S32x1x2048 (shapeCast S32x2048 (extractStridedSlice S1x32x2048 ![l, 0, 0] ft h)
      shapeCasts_S1x32x2048_S32x2048) shapeCasts_S32x2048_S32x1x2048) broadcasts_S32x1x2048_S32x8x2048 (ix3 c tt o)
      = ft (ix3 ⟨l, hl⟩ c o) := by
  refine (broadcastTo_apply _ broadcasts_S32x1x2048_S32x8x2048 (ix3 c tt o) (ix3 c (0 : Fin 1) o) fun a => ?_).trans ?_
  · match a with
    | ⟨0, _⟩ => show c.val = if (32 : Nat) = 1 then 0 else c.val; rw [if_neg (by decide)]
    | ⟨1, _⟩ => show 0 = if (1 : Nat) = 1 then 0 else tt.val; rw [if_pos rfl]
    | ⟨2, _⟩ => show o.val = if (2048 : Nat) = 1 then 0 else o.val; rw [if_neg (by decide)]
  refine (shapeCast_apply _ shapeCasts_S32x2048_S32x1x2048 (ix3 c (0 : Fin 1) o) (ix2 c o) (by
    rw [Shape.rowMajor_val_two, Shape.rowMajor_val_three]
    show c.val * 2048 + o.val = (c.val * 1 + 0) * 2048 + o.val
    omega)).trans ?_
  rw [shapeCast_1ab_ab_apply]
  exact extractStridedSlice_apply _ ft h (ix3 (0 : Fin 1) c o) (ix3 ⟨l, hl⟩ c o) fun a => by
    match a with
    | ⟨0, _⟩ => rfl
    | ⟨1, _⟩ => show c.val = 0 + c.val; omega
    | ⟨2, _⟩ => show o.val = 0 + o.val; omega

theorem sum32_apply (v : FVec Ideal S32x8x2048 .f32) (hφ : FKind.Formats .f32)
    (hacc : (0x00000000#32 : BitVec 32) = FKind.add.neutral .f32 hφ) (tt : Fin 8) (o : Fin 2048) :
    multiReduction (F := Ideal) .add [0] S8x2048 v 0x00000000#32 reduces_S32x8x2048_S8x2048 hφ hacc (ix2 tt o)
      = ∑ c : Fin 32, v (ix3 c tt o) := by
  refine (Ideal.multiReduction_add_single v _ reduces_S32x8x2048_S8x2048 hφ hacc (ix2 tt o)).trans ?_
  refine Finset.sum_congr rfl fun c _ => congrArg v (funext fun a => Fin.ext ?_)
  match a with
  | ⟨0, _⟩ => rfl
  | ⟨1, _⟩ => rfl
  | ⟨2, _⟩ => rfl

theorem pay1_apply (v9 v22 : FVec Ideal S256x2048 .f32) (v32 : FVec Ideal S256x256 .bf16) (v34 : FVec Ideal S256x2048 .bf16)
    (ft : Vec Ideal S3x32x2048 .f32) (acc : Vec Ideal S8x2048 .f32) (tt : Fin 8) (o : Fin 2048) :
    k0_pay1 (F := Ideal) v9 v22 v32 v34 ft acc (ix2 tt o)
      = acc (ix2 tt o) + Spec.chunkSum (fun c => v9 (ix2 (row c tt) o)) (fun c => v22 (ix2 (row c tt) o))
          (fun c => ∑ r : Fin 256, v32 (ix2 (row c tt) r) * v34 (ix2 r o))
          (fun c => ft (ix3 0 c o)) (fun c => ft (ix3 1 c o)) (fun c => ft (ix3 2 c o)) := by
  unfold k0_pay1 Spec.chunkSum
  rw [shapeCast_self, shapeCast_self ft]
  simp only [addf_apply]
  refine congrArg (acc (ix2 tt o) + ·) (congrArg₂ (· + ·) (congrArg₂ (· + ·) ?_ ?_) ?_)
  · refine (sum32_apply _ _ _ tt o).trans (Finset.sum_congr rfl fun c _ => ?_)
    rw [mulf_apply, rows_apply, level_apply ft 0 (by decide)]
    rfl
  · refine (sum32_apply _ _ _ tt o).trans (Finset.sum_congr rfl fun c _ => ?_)
    rw [mulf_apply, rows_apply, level_apply ft 1 (by decide)]
    rfl
  · refine (sum32_apply _ _ _ tt o).trans (Finset.sum_congr rfl fun c _ => ?_)
    rw [mulf_apply, rows_apply, level_apply ft 2 (by decide), mm1_apply]
    rfl

end Cert.KernelIdeal.Body

end
-- ==== Proof.KInductPoints.lean ====
import proofs.«416765_j9792525435349_4_alg».proof.Proof.KInductPieces
import proofs.«416765_j9792525435349_4_alg».proof.Proof.KBody
import proofs.«416765_j9792525435349_4_alg».proof.Proof.Spec
import Idealize.ShloMosaic.Lib.ValueIdx
import Idealize.ShloMosaic.Lib.Pipeline.Value

noncomputable section

namespace Cert.KernelIdeal.KInduct

open Cert.KernelIdeal Cert.KernelIdeal.GenP Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

abbrev xblk (c : Dev nD) (t : Fin cfg0.N) : Vec Ideal S1x32x8x64x64 .f32 := iblk m c 0 t
abbrev w0blk (c : Dev nD) (t : Fin cfg0.N) : Vec Ideal S4096x2048 .bf16 := iblk m c 1 t
abbrev w1blk (c : Dev nD) (t : Fin cfg0.N) : Vec Ideal S1024x2048 .bf16 := iblk m c 2 t
abbrev w2blk (c : Dev nD) (t : Fin cfg0.N) : Vec Ideal S256x2048 .bf16 := iblk m c 3 t
abbrev fblk (c : Dev nD) (t : Fin cfg0.N) : Vec Ideal S3x32x2048 .f32 := iblk m c 4 t
abbrev bblk (c : Dev nD) (t : Fin cfg0.N) : Vec Ideal S1x2048 .f32 := iblk m c 5 t

abbrev xarr (c : Dev nD) : S8x64x16x64x64.Idx → EReal := V m c main_arg0
abbrev w0arr (c : Dev nD) : S4096x2048.Idx → EReal := V m c main_v182
abbrev w1arr (c : Dev nD) : S1024x2048.Idx → EReal := V m c main_v363
abbrev w2arr (c : Dev nD) : S256x2048.Idx → EReal := V m c main_v544
abbrev farr (c : Dev nD) : S3x64x2048.Idx → EReal := V m c main_v545
abbrev barr (c : Dev nD) : S1x2048.Idx → EReal := V m c main_v546

def chunkB (x0 : Vec Ideal S1x32x8x64x64 .f32) (w0 : Vec Ideal S4096x2048 .bf16) (w1 : Vec Ideal S1024x2048 .bf16)
    (w2 : Vec Ideal S256x2048 .bf16) (ft : Vec Ideal S3x32x2048 .f32) (t8 : Fin 8) (o : Fin 2048) : EReal :=
  Spec.chunkSum
    (fun c' => ∑ r : Fin 4096, Body.img x0 c' t8 ⟨r.val / 64, by omega⟩ ⟨r.val % 64, by omega⟩ * w0 (ix2 r o))
    (fun c' => ∑ r : Fin 1024, Spec.pool64 (Body.img x0 c' t8) ⟨r.val / 32, by omega⟩ ⟨r.val % 32, by omega⟩ * w1 (ix2 r o))
    (fun c' => ∑ r : Fin 256, Spec.pool32 (Spec.pool64 (Body.img x0 c' t8)) ⟨r.val / 16, by omega⟩ ⟨r.val % 16, by omega⟩ * w2 (ix2 r o))
    (fun c' => ft (ix3 0 c' o)) (fun c' => ft (ix3 1 c' o)) (fun c' => ft (ix3 2 c' o))

theorem upd_apply (x0 : Vec Ideal S1x32x8x64x64 .f32) (w0 : Vec Ideal S4096x2048 .bf16) (w1 : Vec Ideal S1024x2048 .bf16)
    (w2 : Vec Ideal S256x2048 .bf16) (ft : Vec Ideal S3x32x2048 .f32) (acc : Vec Ideal S8x2048 .f32) (t8 : Fin 8) (o : Fin 2048) :
    k0_pay1 (F := Ideal) (k0_pay5 x0 w0) (k0_pay7 x0 w1) (k0_pay8 x0) (k0_pay9 w2) ft acc (ix2 t8 o)
      = acc (ix2 t8 o) + chunkB x0 w0 w1 w2 ft t8 o := by
  refine (Body.pay1_apply (k0_pay5 x0 w0) (k0_pay7 x0 w1) (k0_pay8 x0) (k0_pay9 w2) ft acc t8 o).trans ?_
  unfold chunkB
  have e1 : (fun c' : Fin 32 => k0_pay5 (F := Ideal) x0 w0 (ix2 (Body.row c' t8) o))
      = fun c' => ∑ r : Fin 4096, Body.img x0 c' t8 ⟨r.val / 64, by omega⟩ ⟨r.val % 64, by omega⟩ * w0 (ix2 r o) :=
    funext fun c' => Body.pay5_apply x0 w0 c' t8 o
  have e2 : (fun c' : Fin 32 => k0_pay7 (F := Ideal) x0 w1 (ix2 (Body.row c' t8) o))
      = fun c' => ∑ r : Fin 1024, Spec.pool64 (Body.img x0 c' t8) ⟨r.val / 32, by omega⟩ ⟨r.val % 32, by omega⟩ * w1 (ix2 r o) :=
    funext fun c' => Body.pay7_apply x0 w1 c' t8 o
  have e3 : (fun c' : Fin 32 => ∑ r : Fin 256, k0_pay8 (F := Ideal) x0 (ix2 (Body.row c' t8) r) * k0_pay9 (F := Ideal) w2 (ix2 r o))
      = fun c' => ∑ r : Fin 256, Spec.pool32 (Spec.pool64 (Body.img x0 c' t8)) ⟨r.val / 16, by omega⟩ ⟨r.val % 16, by omega⟩ * w2 (ix2 r o) :=
    funext fun c' => Finset.sum_congr rfl fun r _ => by rw [Body.pay8_apply, Body.pay9_apply]
  rw [e1, e2, e3]

theorem scratch_even (c : Dev nD) (t : Fin cfg0.N) (h0 : t.val % 2 = 0) (t8 : Fin 8) (o : Fin 2048) :
    ((outsAt0 m c t.val t.isLt).2 : Vec Ideal S8x2048 .f32) (ix2 t8 o)
      = Spec.zero32 + chunkB (xblk m c t) (w0blk m c t) (w1blk m c t) (w2blk m c t) (fblk m c t) t8 o := by
  have h1 : ¬t.val % 2 = 1 := by omega
  rw [outsAt0_A m c t h0 h1]
  dsimp only
  refine (congrFun (soutA_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (xblk m c t) (w0blk m c t) (w1blk m c t) (w2blk m c t) (fblk m c t) (bblk m c t)) (ix2 t8 o)).trans ?_
  refine (upd_apply (xblk m c t) (w0blk m c t) (w1blk m c t) (w2blk m c t) (fblk m c t) (k0_pay3 (F := Ideal)) t8 o).trans ?_
  rw [Body.pay3_apply]

theorem out_odd (c : Dev nD) (t : Fin cfg0.N) (h1 : t.val % 2 = 1) (hlt : t.val - 1 < cfg0.N) (t8 : Fin 8) (o : Fin 2048) :
    ((outsAt0 m c t.val t.isLt).1 : Vec Ideal S1x8x2048 .f32) (ix3 0 t8 o)
      = ((Spec.zero32 + chunkB (xblk m c ⟨t.val - 1, hlt⟩) (w0blk m c ⟨t.val - 1, hlt⟩) (w1blk m c ⟨t.val - 1, hlt⟩) (w2blk m c ⟨t.val - 1, hlt⟩) (fblk m c ⟨t.val - 1, hlt⟩) t8 o)
          + chunkB (xblk m c t) (w0blk m c t) (w1blk m c t) (w2blk m c t) (fblk m c t) t8 o) + bblk m c t (ix2 0 o) := by
  have h0 : ¬t.val % 2 = 0 := by omega
  rw [outsAt0_B m c t h0 h1]
  dsimp only
  refine (congrFun (outB_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (xblk m c t) (w0blk m c t) (w1blk m c t) (w2blk m c t) (fblk m c t) (bblk m c t) (outsAt0 m c (t.val - 1) hlt).2) (ix3 0 t8 o)).trans ?_
  refine (Body.pay2_apply (k0_pay1 (F := Ideal) (k0_pay5 (xblk m c t) (w0blk m c t)) (k0_pay7 (xblk m c t) (w1blk m c t)) (k0_pay8 (xblk m c t)) (k0_pay9 (w2blk m c t)) (fblk m c t) (outsAt0 m c (t.val - 1) hlt).2) (bblk m c t) t8 o).trans ?_
  refine congrArg (fun z : EReal => z + bblk m c t (ix2 0 o)) ?_
  refine (upd_apply (xblk m c t) (w0blk m c t) (w1blk m c t) (w2blk m c t) (fblk m c t) (outsAt0 m c (t.val - 1) hlt).2 t8 o).trans ?_
  refine congrArg (fun z : EReal => z + chunkB (xblk m c t) (w0blk m c t) (w1blk m c t) (w2blk m c t) (fblk m c t) t8 o) ?_
  exact scratch_even m c ⟨t.val - 1, hlt⟩ (by show (t.val - 1) % 2 = 0; omega) t8 o

end Cert.KernelIdeal.KInduct

end
-- ==== Proof.KInduct.lean ====
import proofs.«416765_j9792525435349_4_alg».proof.Proof.KInductPoints

noncomputable section

namespace Cert.KernelIdeal.KInduct

open Cert.KernelIdeal Cert.KernelIdeal.GenP Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

theorem idx0 : ∀ t : Fin cfg0.N, win0_0.index t (0 : Fin 5) = t.val / 4 ∧ win0_0.index t (1 : Fin 5) = t.val % 2
    ∧ win0_0.index t (2 : Fin 5) = t.val / 2 % 2 ∧ win0_0.index t (3 : Fin 5) = 0 ∧ win0_0.index t (4 : Fin 5) = 0 :=
  (by decide +kernel : ∀ t : Fin grid0.N, win0_0.index t (0 : Fin 5) = t.val / 4 ∧ win0_0.index t (1 : Fin 5) = t.val % 2
    ∧ win0_0.index t (2 : Fin 5) = t.val / 2 % 2 ∧ win0_0.index t (3 : Fin 5) = 0 ∧ win0_0.index t (4 : Fin 5) = 0)

theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

theorem idx4 : ∀ t : Fin cfg0.N, win0_4.index t (0 : Fin 3) = 0 ∧ win0_4.index t (1 : Fin 3) = t.val % 2 ∧ win0_4.index t (2 : Fin 3) = 0 :=
  (by decide +kernel : ∀ t : Fin grid0.N, win0_4.index t (0 : Fin 3) = 0 ∧ win0_4.index t (1 : Fin 3) = t.val % 2 ∧ win0_4.index t (2 : Fin 3) = 0)

theorem idx6 : ∀ t : Fin cfg0.N, win0_6.index t (0 : Fin 3) = t.val / 4 ∧ win0_6.index t (1 : Fin 3) = t.val / 2 % 2 ∧ win0_6.index t (2 : Fin 3) = 0 :=
  (by decide +kernel : ∀ t : Fin grid0.N, win0_6.index t (0 : Fin 3) = t.val / 4 ∧ win0_6.index t (1 : Fin 3) = t.val / 2 % 2 ∧ win0_6.index t (2 : Fin 3) = 0)

theorem read0 (c : Dev nD) (A : Buf (Elt Ideal) ((c : Thread nD τ).loc (Pipeline.arrRef spec0 0))) (t : Fin cfg0.N)
    (c' : Fin 32) (t8 : Fin 8) (w h : Fin 64) (n : Fin 8) (ch : Fin 64) (tt : Fin 16)
    (hn : t.val / 4 = n.val) (hch : t.val % 2 * 32 + c'.val = ch.val) (htt : t.val / 2 % 2 * 8 + t8.val = tt.val) :
    (((cfg0.win 0).blk t).view.read (Elt Ideal) A : Vec Ideal S1x32x8x64x64 .f32) (ix5 0 c' t8 w h)
      = (A : S8x64x16x64x64.Idx → EReal) (ix5 n ch tt w h) := by
  obtain ⟨e0, e1, e2, e3, e4⟩ := idx0 t
  show A (((cfg0.win 0).blk t).view.emb (ix5 0 c' t8 w h)) = A (ix5 n ch tt w h)
  refine congrArg A (funext fun a => Fin.ext ?_)
  match a with
  | ⟨0, _⟩ => show win0_0.index t (0 : Fin 5) * 1 + 1 * 0 = n.val; omega
  | ⟨1, _⟩ => show win0_0.index t (1 : Fin 5) * 32 + 1 * c'.val = ch.val; omega
  | ⟨2, _⟩ => show win0_0.index t (2 : Fin 5) * 8 + 1 * t8.val = tt.val; omega
  | ⟨3, _⟩ => show win0_0.index t (3 : Fin 5) * 64 + 1 * w.val = w.val; omega
  | ⟨4, _⟩ => show win0_0.index t (4 : Fin 5) * 64 + 1 * h.val = h.val; omega

theorem xblk_apply (c : Dev nD) (t : Fin cfg0.N) (c' : Fin 32) (t8 : Fin 8) (w h : Fin 64) (n : Fin 8) (ch : Fin 64) (tt : Fin 16)
    (hn : t.val / 4 = n.val) (hch : t.val % 2 * 32 + c'.val = ch.val) (htt : t.val / 2 % 2 * 8 + t8.val = tt.val) :
    xblk m c t (ix5 0 c' t8 w h) = xarr m c (ix5 n ch tt w h) :=
  read0 c (V m c (Pipeline.arrRef spec0 0)) t c' t8 w h n ch tt hn hch htt

theorem read1 (c : Dev nD) (A : Buf (Elt Ideal) ((c : Thread nD τ).loc (Pipeline.arrRef spec0 1))) (t : Fin cfg0.N) :
    (((cfg0.win 1).blk t).view.read (Elt Ideal) A : Vec Ideal S4096x2048 .bf16) = (A : S4096x2048.Idx → EReal) := by
  obtain ⟨e0, e1⟩ := idx1 t
  funext j
  show A (((cfg0.win 1).blk t).view.emb j) = A j
  refine congrArg A (funext fun a => Fin.ext ?_)
  match a with
  | ⟨0, _⟩ => show win0_1.index t (0 : Fin 2) * 4096 + 1 * (j 0).val = (j 0).val; omega
  | ⟨1, _⟩ => show win0_1.index t (1 : Fin 2) * 2048 + 1 * (j 1).val = (j 1).val; omega
theorem w0blk_eq (c : Dev nD) (t : Fin cfg0.N) : w0blk m c t = w0arr m c :=
  read1 c (V m c (Pipeline.arrRef spec0 1)) t
theorem read2 (c : Dev nD) (A : Buf (Elt Ideal) ((c : Thread nD τ).loc (Pipeline.arrRef spec0 2))) (t : Fin cfg0.N) :
    (((cfg0.win 2).blk t).view.read (Elt Ideal) A : Vec Ideal S1024x2048 .bf16) = (A : S1024x2048.Idx → EReal) := by
  obtain ⟨e0, e1⟩ := idx2 t
  funext j
  show A (((cfg0.win 2).blk t).view.emb j) = A j
  refine congrArg A (funext fun a => Fin.ext ?_)
  match a with
  | ⟨0, _⟩ => show win0_2.index t (0 : Fin 2) * 1024 + 1 * (j 0).val = (j 0).val; omega
  | ⟨1, _⟩ => show win0_2.index t (1 : Fin 2) * 2048 + 1 * (j 1).val = (j 1).val; omega
theorem w1blk_eq (c : Dev nD) (t : Fin cfg0.N) : w1blk m c t = w1arr m c :=
  read2 c (V m c (Pipeline.arrRef spec0 2)) t
theorem read3 (c : Dev nD) (A : Buf (Elt Ideal) ((c : Thread nD τ).loc (Pipeline.arrRef spec0 3))) (t : Fin cfg0.N) :
    (((cfg0.win 3).blk t).view.read (Elt Ideal) A : Vec Ideal S256x2048 .bf16) = (A : S256x2048.Idx → EReal) := by
  obtain ⟨e0, e1⟩ := idx3 t
  funext j
  show A (((cfg0.win 3).blk t).view.emb j) = A j
  refine congrArg A (funext fun a => Fin.ext ?_)
  match a with
  | ⟨0, _⟩ => show win0_3.index t (0 : Fin 2) * 256 + 1 * (j 0).val = (j 0).val; omega
  | ⟨1, _⟩ => show win0_3.index t (1 : Fin 2) * 2048 + 1 * (j 1).val = (j 1).val; omega
theorem w2blk_eq (c : Dev nD) (t : Fin cfg0.N) : w2blk m c t = w2arr m c :=
  read3 c (V m c (Pipeline.arrRef spec0 3)) t

theorem read5 (c : Dev nD) (A : Buf (Elt Ideal) ((c : Thread nD τ).loc (Pipeline.arrRef spec0 5))) (t : Fin cfg0.N) :
    (((cfg0.win 5).blk t).view.read (Elt Ideal) A : Vec Ideal S1x2048 .f32) = (A : S1x2048.Idx → EReal) := by
  obtain ⟨e0, e1⟩ := idx5 t
  funext j
  show A (((cfg0.win 5).blk t).view.emb j) = A j
  refine congrArg A (funext fun a => Fin.ext ?_)
  match a with
  | ⟨0, _⟩ => show win0_5.index t (0 : Fin 2) * 1 + 1 * (j 0).val = (j 0).val; omega
  | ⟨1, _⟩ => show win0_5.index t (1 : Fin 2) * 2048 + 1 * (j 1).val = (j 1).val; omega
theorem bblk_eq (c : Dev nD) (t : Fin cfg0.N) : bblk m c t = barr m c :=
  read5 c (V m c (Pipeline.arrRef spec0 5)) t

theorem read4 (c : Dev nD) (A : Buf (Elt Ideal) ((c : Thread nD τ).loc (Pipeline.arrRef spec0 4))) (t : Fin cfg0.N)
    (l : Fin 3) (c' : Fin 32) (o : Fin 2048) (ch : Fin 64) (hch : t.val % 2 * 32 + c'.val = ch.val) :
    (((cfg0.win 4).blk t).view.read (Elt Ideal) A : Vec Ideal S3x32x2048 .f32) (ix3 l c' o) = (A : S3x64x2048.Idx → EReal) (ix3 l ch o) := by
  obtain ⟨e0, e1, e2⟩ := idx4 t
  show A (((cfg0.win 4).blk t).view.emb (ix3 l c' o)) = A (ix3 l ch o)
  refine congrArg A (funext fun a => Fin.ext ?_)
  match a with
  | ⟨0, _⟩ => show win0_4.index t (0 : Fin 3) * 3 + 1 * l.val = l.val; omega
  | ⟨1, _⟩ => show win0_4.index t (1 : Fin 3) * 32 + 1 * c'.val = ch.val; omega
  | ⟨2, _⟩ => show win0_4.index t (2 : Fin 3) * 2048 + 1 * o.val = o.val; omega
theorem fblk_apply (c : Dev nD) (t : Fin cfg0.N) (l : Fin 3) (c' : Fin 32) (o : Fin 2048) (ch : Fin 64)
    (hch : t.val % 2 * 32 + c'.val = ch.val) : fblk m c t (ix3 l c' o) = farr m c (ix3 l ch o) :=
  read4 c (V m c (Pipeline.arrRef spec0 4)) t l c' o ch hch

def chunkOf (X : S8x64x16x64x64.Idx → EReal) (W0 : S4096x2048.Idx → EReal) (W1 : S1024x2048.Idx → EReal) (W2 : S256x2048.Idx → EReal)
    (Ft : S3x64x2048.Idx → EReal) (n : Fin 8) (tt : Fin 16) (o : Fin 2048) (cc : Fin 2) : EReal :=
  Spec.chunkSum
    (fun c' : Fin 32 => ∑ r : Fin 4096, X (ix5 n ⟨cc.val * 32 + c'.val, by omega⟩ tt ⟨r.val / 64, by omega⟩ ⟨r.val % 64, by omega⟩) * W0 (ix2 r o))
    (fun c' : Fin 32 => ∑ r : Fin 1024, Spec.pool64 (fun w h => X (ix5 n ⟨cc.val * 32 + c'.val, by omega⟩ tt w h)) ⟨r.val / 32, by omega⟩ ⟨r.val % 32, by omega⟩ * W1 (ix2 r o))
    (fun c' : Fin 32 => ∑ r : Fin 256, Spec.pool32 (Spec.pool64 (fun w h => X (ix5 n ⟨cc.val * 32 + c'.val, by omega⟩ tt w h))) ⟨r.val / 16, by omega⟩ ⟨r.val % 16, by omega⟩ * W2 (ix2 r o))
    (fun c' : Fin 32 => Ft (ix3 0 ⟨cc.val * 32 + c'.val, by omega⟩ o))
    (fun c' : Fin 32 => Ft (ix3 1 ⟨cc.val * 32 + c'.val, by omega⟩ o))
    (fun c' : Fin 32 => Ft (ix3 2 ⟨cc.val * 32 + c'.val, by omega⟩ o))

def chunkV (c : Dev nD) (n : Fin 8) (tt : Fin 16) (o : Fin 2048) (cc : Fin 2) : EReal :=
  chunkOf (V m c main_arg0) (V m c main_v182) (V m c main_v363) (V m c main_v544) (V m c main_v545) n tt o cc

theorem chunkSum_congr {g0 g1 g2 f0 f1 f2 g0' g1' g2' f0' f1' f2' : Fin 32 → EReal} (h0 : ∀ c, g0 c = g0' c) (h1 : ∀ c, g1 c = g1' c)
    (h2 : ∀ c, g2 c = g2' c) (k0 : ∀ c, f0 c = f0' c) (k1 : ∀ c, f1 c = f1' c) (k2 : ∀ c, f2 c = f2' c) :
    Spec.chunkSum g0 g1 g2 f0 f1 f2 = Spec.chunkSum g0' g1' g2' f0' f1' f2' := by
  obtain rfl := funext h0; obtain rfl := funext h1; obtain rfl := funext h2
  obtain rfl := funext k0; obtain rfl := funext k1; obtain rfl := funext k2
  rfl

theorem chunkB_eq (c : Dev nD) (t : Fin cfg0.N) (n : Fin 8) (tt : Fin 16) (cc : Fin 2) (t8 : Fin 8) (o : Fin 2048)
    (hn : t.val / 4 = n.val) (hcc : t.val % 2 = cc.val) (htt : t.val / 2 % 2 * 8 + t8.val = tt.val) :
    chunkB (xblk m c t) (w0blk m c t) (w1blk m c t) (w2blk m c t) (fblk m c t) t8 o = chunkV m c n tt o cc := by
  have hi : ∀ c' : Fin 32, Body.img (xblk m c t) c' t8 = fun w h => xarr m c (ix5 n ⟨cc.val * 32 + c'.val, by omega⟩ tt w h) :=
    fun c' => funext fun w => funext fun h => xblk_apply m c t c' t8 w h n ⟨cc.val * 32 + c'.val, by omega⟩ tt hn
      (by show t.val % 2 * 32 + c'.val = cc.val * 32 + c'.val; omega) htt
  have hf : ∀ (l : Fin 3) (c' : Fin 32), fblk m c t (ix3 l c' o) = farr m c (ix3 l ⟨cc.val * 32 + c'.val, by omega⟩ o) :=
    fun l c' => fblk_apply m c t l c' o ⟨cc.val * 32 + c'.val, by omega⟩ (by show t.val % 2 * 32 + c'.val = cc.val * 32 + c'.val; omega)
  unfold chunkB chunkV chunkOf
  refine chunkSum_congr (fun c' => ?_) (fun c' => ?_) (fun c' => ?_) (fun c' => hf 0 c') (fun c' => hf 1 c') (fun c' => hf 2 c')
  · rw [hi c', w0blk_eq m c t]
  · rw [hi c', w1blk_eq m c t]
  · rw [hi c', w2blk_eq m c t]

def outVal (c : Dev nD) (n : Fin 8) (tt : Fin 16) (o : Fin 2048) : EReal :=
  ((Spec.zero32 + chunkV m c n tt o 0) + chunkV m c n tt o 1) + (V m c main_v546 : S1x2048.Idx → EReal) (ix2 0 o)

theorem outVal_congr (c : Dev nD) {n n' : Fin 8} {tt tt' : Fin 16} {o o' : Fin 2048} (hn : n.val = n'.val) (ht : tt.val = tt'.val)
    (ho : o.val = o'.val) : outVal m c n tt o = outVal m c n' tt' o' := by
  obtain rfl := Fin.ext hn; obtain rfl := Fin.ext ht; obtain rfl := Fin.ext ho; rfl

abbrev outArr (c : Dev nD) : Buf (Elt Ideal) ((c : Thread nD τ).loc main_v547) :=
  fun i : S8x16x2048.Idx => outVal m c (i 0) (i 1) (i 2)

theorem flushed_eq (c : Dev nD) (t : Fin cfg0.N) (hf : (cfg0.win 6).flush t = true) :
    (dats m 0 c).flushed 6 t = ((cfg0.win 6).blk t).view.read (Elt Ideal) (outArr m c) := by
  have hN : cfg0.N = 32 := N_0
  have htN := t.isLt
  have h1 : t.val % 2 = 1 := (flush0_6 t).mp hf
  have hlt : t.val - 1 < cfg0.N := Nat.lt_of_le_of_lt (Nat.sub_le _ _) t.isLt
  obtain ⟨e0, e1, e2⟩ := idx6 t
  show (cfg0.win 6).cut (grid0.coords t) ((dats m 0 c).after 6 t) = _
  rw [after0_6]
  funext j
  have hj0 : (j 0).val < 1 := (j 0).isLt
  have hj1 : (j 1).val < 8 := (j 1).isLt
  have hj2 : (j 2).val < 2048 := (j 2).isLt
  have key := out_odd m c t h1 hlt ⟨(j 1).val, hj1⟩ ⟨(j 2).val, hj2⟩
  rw [chunkB_eq m c ⟨t.val - 1, hlt⟩ ⟨t.val / 4, by omega⟩ ⟨t.val / 2 % 2 * 8 + (j 1).val, by omega⟩ 0 ⟨(j 1).val, hj1⟩ ⟨(j 2).val, hj2⟩
      (by show (t.val - 1) / 4 = t.val / 4; omega) (by show (t.val - 1) % 2 = 0; omega)
      (by show (t.val - 1) / 2 % 2 * 8 + (j 1).val = t.val / 2 % 2 * 8 + (j 1).val; omega),
    chunkB_eq m c t ⟨t.val / 4, by omega⟩ ⟨t.val / 2 % 2 * 8 + (j 1).val, by omega⟩ 1 ⟨(j 1).val, hj1⟩ ⟨(j 2).val, hj2⟩
      rfl (by show t.val % 2 = 1; omega) rfl,
    bblk_eq m c t] at key
  have hx : ((cfg0.win 6).xinj (grid0.coords t) j : S1x8x2048.Idx) = ix3 0 ⟨(j 1).val, hj1⟩ ⟨(j 2).val, hj2⟩ := by
    funext a; apply Fin.ext
    match a with
    | ⟨0, _⟩ => show (j 0).val = 0; omega
    | ⟨1, _⟩ => rfl
    | ⟨2, _⟩ => rfl
  refine (congrArg ((outsAt0 m c t.val t.isLt).1 : Vec Ideal S1x8x2048 .f32) hx).trans (key.trans ?_)
  show outVal m c ⟨t.val / 4, by omega⟩ ⟨t.val / 2 % 2 * 8 + (j 1).val, by omega⟩ ⟨(j 2).val, hj2⟩
    = outVal m c (((cfg0.win 6).blk t).view.emb j 0) (((cfg0.win 6).blk t).view.emb j 1) (((cfg0.win 6).blk t).view.emb j 2)
  refine outVal_congr m c ?_ ?_ ?_
  · show t.val / 4 = win0_6.index t (0 : Fin 3) * 1 + 1 * (j 0).val; omega
  · show t.val / 2 % 2 * 8 + (j 1).val = win0_6.index t (1 : Fin 3) * 8 + 1 * (j 1).val; omega
  · show (j 2).val = win0_6.index t (2 : Fin 3) * 2048 + 1 * (j 2).val; omega

theorem mem_blk6 (t : Fin cfg0.N) (i : S8x16x2048.Idx) :
    i ∈ ((cfg0.win 6).blk t).view.set ↔ ∀ a : Fin 3, win0_6.index t a * S1x8x2048.size a ≤ (i a).val ∧ (i a).val < win0_6.index t a * S1x8x2048.size a + S1x8x2048.size a := by
  show i ∈ ((View.whole main_v547).slice (win0_6.rect t)).set ↔ _
  rw [View.set_slice_whole, Rect.mem_set_unit]
  exact Iff.rfl

theorem arrAt6_of_point (c : Dev nD) (t : Fin cfg0.N) (h1 : t.val % 2 = 1) (n : Fin 8) (tt : Fin 16) (o : Fin 2048)
    (hn : t.val / 4 = n.val) (htt : t.val / 2 % 2 = tt.val / 8) :
    ((dats m 0 c).arrAt 6 cfg0.N : S8x16x2048.Idx → EReal) (ix3 n tt o) = outVal m c n tt o := by
  obtain ⟨e0, e1, e2⟩ := idx6 t
  have hmem : ix3 n tt o ∈ ((cfg0.win 6).blk t).view.set := by
    rw [mem_blk6]
    intro a
    match a with
    | ⟨0, _⟩ => show win0_6.index t (0 : Fin 3) * 1 ≤ n.val ∧ n.val < win0_6.index t (0 : Fin 3) * 1 + 1; omega
    | ⟨1, _⟩ => show win0_6.index t (1 : Fin 3) * 8 ≤ tt.val ∧ tt.val < win0_6.index t (1 : Fin 3) * 8 + 8; omega
    | ⟨2, _⟩ => show win0_6.index t (2 : Fin 3) * 2048 ≤ o.val ∧ o.val < win0_6.index t (2 : Fin 3) * 2048 + 2048; omega
  exact ((dats m 0 c).arrAt_apply_of_mem 6 (outArr m c) (fun t hf => flushed_eq m c t hf) cfg0.N t (ix3 n tt o) t.isLt
    ((flush0_6 t).mpr h1) hmem).trans rfl

theorem arrAt6_apply (c : Dev nD) (n : Fin 8) (tt : Fin 16) (o : Fin 2048) :
    ((dats m 0 c).arrAt 6 cfg0.N : S8x16x2048.Idx → EReal) (ix3 n tt o)
      = ((Spec.zero32 + chunkV m c n tt o 0) + chunkV m c n tt o 1) + (V m c main_v546 : S1x2048.Idx → EReal) (ix2 0 o) := by
  have hN : cfg0.N = 32 := N_0
  have hn8 := n.isLt
  have ht16 := tt.isLt
  have ht : (n.val * 2 + tt.val / 8) * 2 + 1 < cfg0.N := by omega
  exact arrAt6_of_point m c ⟨(n.val * 2 + tt.val / 8) * 2 + 1, ht⟩ (by show ((n.val * 2 + tt.val / 8) * 2 + 1) % 2 = 1; omega) n tt o
    (by show ((n.val * 2 + tt.val / 8) * 2 + 1) / 4 = n.val; omega) (by show ((n.val * 2 + tt.val / 8) * 2 + 1) / 2 % 2 = tt.val / 8; omega)

end Cert.KernelIdeal.KInduct

end
-- ==== Proof.KHostGen.Stages.lean ====
import proofs.«416765_j9792525435349_4_alg».proof.KernelIdeal
import proofs.«416765_j9792525435349_4_alg».proof.Proof.Gen.KernelIdeal
import Idealize.ShloMosaic.Lib.StableHlo.Run

set_option maxRecDepth 5052

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]
variable (x1 : (⟨S1x2048x1x2, .f32⟩ : BufTy).Contents (Elt F)) (x2 : (⟨S1x192x1x2048, .f32⟩ : BufTy).Contents (Elt F)) (x3 : (⟨S2048, .f32⟩ : BufTy).Contents (Elt F))

def kv_main_v0 : (⟨S2048x2, .f32⟩ : BufTy).Contents (Elt F) :=
  shapeCast _ x1 shapeCasts_S1x2048x1x2_S2048x2

def kv_main_cst : (⟨S_, .f32⟩ : BufTy).Contents (Elt F) :=
  constant S_ .f32 0xBF800000#32

def kv_main_cst_0 : (⟨S_, .f32⟩ : BufTy).Contents (Elt F) :=
  constant S_ .f32 0x3F800000#32

def kv_main_call0_v0 : (⟨S_, .f32⟩ : BufTy).Contents (Elt F) :=
  id (kv_main_cst (F := F))

def kv_main_call0_v1 : (⟨S2048x2, .f32⟩ : BufTy).Contents (Elt F) :=
  broadcastInDim S2048x2 ![] bcast_S_S2048x2 (kv_main_call0_v0 (F := F))

def kv_main_call0_v2 : (⟨S2048x2, .f32⟩ : BufTy).Contents (Elt F) :=
  maximumf (kv_main_call0_v1 (F := F)) (kv_main_v0 (F := F) x1)

def kv_main_call0_v3 : (⟨S_, .f32⟩ : BufTy).Contents (Elt F) :=
  id (kv_main_cst_0 (F := F))

def kv_main_call0_v4 : (⟨S2048x2, .f32⟩ : BufTy).Contents (Elt F) :=
  broadcastInDim S2048x2 ![] bcast_S_S2048x2 (kv_main_call0_v3 (F := F))

def kv_main_v1 : (⟨S2048x2, .f32⟩ : BufTy).Contents (Elt F) :=
  minimumf (kv_main_call0_v4 (F := F)) (kv_main_call0_v2 (F := F) x1)

def kv_main_v2 : (⟨S2048x1, .f32⟩ : BufTy).Contents (Elt F) :=
  ((extractStridedSlice S2048x1 ![0, 0] · slices_S2048x2_S2048x1_0_0) : (⟨S2048x2, .f32⟩ : BufTy).Contents (Elt F) → (⟨S2048x1, .f32⟩ : BufTy).Contents (Elt F)) (kv_main_v1 (F := F) x1)

def kv_main_v3 : (⟨S2048, .f32⟩ : BufTy).Contents (Elt F) :=
  shapeCast _ (kv_main_v2 (F := F) x1) shapeCasts_S2048x1_S2048

def kv_main_v4 : (⟨S2048x1, .f32⟩ : BufTy).Contents (Elt F) :=
  ((extractStridedSlice S2048x1 ![0, 1] · slices_S2048x2_S2048x1_0_1) : (⟨S2048x2, .f32⟩ : BufTy).Contents (Elt F) → (⟨S2048x1, .f32⟩ : BufTy).Contents (Elt F)) (kv_main_v1 (F := F) x1)

def kv_main_v5 : (⟨S2048, .f32⟩ : BufTy).Contents (Elt F) :=
  shapeCast _ (kv_main_v4 (F := F) x1) shapeCasts_S2048x1_S2048

def kv_main_cst_1 : (⟨S_, .f32⟩ : BufTy).Contents (Elt F) :=
  constant S_ .f32 0x3F800000#32

def kv_main_v6 : (⟨S2048, .f32⟩ : BufTy).Contents (Elt F) :=
  broadcastInDim S2048 ![] bcast_S_S2048 (kv_main_cst_1 (F := F))

def kv_main_v7 : (⟨S2048, .f32⟩ : BufTy).Contents (Elt F) :=
  addf (kv_main_v3 (F := F) x1) (kv_main_v6 (F := F))

def kv_main_cst_2 : (⟨S_, .f32⟩ : BufTy).Contents (Elt F) :=
  constant S_ .f32 0x42800000#32

def kv_main_v8 : (⟨S2048, .f32⟩ : BufTy).Contents (Elt F) :=
  broadcastInDim S2048 ![] bcast_S_S2048 (kv_main_cst_2 (F := F))

def kv_main_v9 : (⟨S2048, .f32⟩ : BufTy).Contents (Elt F) :=
  mulf (kv_main_v7 (F := F) x1) (kv_main_v8 (F := F))

def kv_main_cst_3 : (⟨S_, .f32⟩ : BufTy).Contents (Elt F) :=
  constant S_ .f32 0x3F800000#32

def kv_main_v10 : (⟨S2048, .f32⟩ : BufTy).Contents (Elt F) :=
  broadcastInDim S2048 ![] bcast_S_S2048 (kv_main_cst_3 (F := F))

def kv_main_v11 : (⟨S2048, .f32⟩ : BufTy).Contents (Elt F) :=
  subf (kv_main_v9 (F := F) x1) (kv_main_v10 (F := F))

def kv_main_cst_4 : (⟨S_, .f32⟩ : BufTy).Contents (Elt F) :=
  constant S_ .f32 0x3F000000#32

def kv_main_v12 : (⟨S2048, .f32⟩ : BufTy).Contents (Elt F) :=
  broadcastInDim S2048 ![] bcast_S_S2048 (kv_main_cst_4 (F := F))

def kv_main_v13 : (⟨S2048, .f32⟩ : BufTy).Contents (Elt F) :=
  mulf (kv_main_v11 (F := F) x1) (kv_main_v12 (F := F))

def kv_main_cst_5 : (⟨S_, .f32⟩ : BufTy).Contents (Elt F) :=
  constant S_ .f32 0x3F800000#32

def kv_main_v14 : (⟨S2048, .f32⟩ : BufTy).Contents (Elt F) :=
  broadcastInDim S2048 ![] bcast_S_S2048 (kv_main_cst_5 (F := F))

def kv_main_v15 : (⟨S2048, .f32⟩ : BufTy).Contents (Elt F) :=
  addf (kv_main_v5 (F := F) x1) (kv_main_v14 (F := F))

def kv_main_cst_6 : (⟨S_, .f32⟩ : BufTy).Contents (Elt F) :=
  constant S_ .f32 0x42800000#32

def kv_main_v16 : (⟨S2048, .f32⟩ : BufTy).Contents (Elt F) :=
  broadcastInDim S2048 ![] bcast_S_S2048 (kv_main_cst_6 (F := F))

def kv_main_v17 : (⟨S2048, .f32⟩ : BufTy).Contents (Elt F) :=
  mulf (kv_main_v15 (F := F) x1) (kv_main_v16 (F := F))

def kv_main_cst_7 : (⟨S_, .f32⟩ : BufTy).Contents (Elt F) :=
  constant S_ .f32 0x3F800000#32

def kv_main_v18 : (⟨S2048, .f32⟩ : BufTy).Contents (Elt F) :=
  broadcastInDim S2048 ![] bcast_S_S2048 (kv_main_cst_7 (F := F))

def kv_main_v19 : (⟨S2048, .f32⟩ : BufTy).Contents (Elt F) :=
  subf (kv_main_v17 (F := F) x1) (kv_main_v18 (F := F))

def kv_main_cst_8 : (⟨S_, .f32⟩ : BufTy).Contents (Elt F) :=
  constant S_ .f32 0x3F000000#32

def kv_main_v20 : (⟨S2048, .f32⟩ : BufTy).Contents (Elt F) :=
  broadcastInDim S2048 ![] bcast_S_S2048 (kv_main_cst_8 (F := F))

def kv_main_v21 : (⟨S2048, .f32⟩ : BufTy).Contents (Elt F) :=
  mulf (kv_main_v19 (F := F) x1) (kv_main_v20 (F := F))

def kv_main_v22 : (⟨S2048, .f32⟩ : BufTy).Contents (Elt F) :=
  Host.floor (kv_main_v13 (F := F) x1)

def kv_main_v23 : (⟨S2048, .f32⟩ : BufTy).Contents (Elt F) :=
  Host.floor (kv_main_v21 (F := F) x1)

def kv_main_v24 : (⟨S2048, .f32⟩ : BufTy).Contents (Elt F) :=
  subf (kv_main_v13 (F := F) x1) (kv_main_v22 (F := F) x1)

def kv_main_v25 : (⟨S2048, .f32⟩ : BufTy).Contents (Elt F) :=
  subf (kv_main_v21 (F := F) x1) (kv_main_v23 (F := F) x1)

def kv_main_v26 : (⟨S2048, .i32⟩ : BufTy).Contents (Elt F) :=
  fptosi 32 (kv_main_v22 (F := F) x1)

def kv_main_v27 : (⟨S2048, .i32⟩ : BufTy).Contents (Elt F) :=
  fptosi 32 (kv_main_v23 (F := F) x1)

def kv_main_v28 : (⟨S2048, .i32⟩ : BufTy).Contents (Elt F) :=
  iotaInDim S2048 32 0

def kv_main_cst_9 : (⟨S_, .f32⟩ : BufTy).Contents (Elt F) :=
  constant S_ .f32 0x00000000#32

def kv_main_v29 : (⟨S4096x2048, .f32⟩ : BufTy).Contents (Elt F) :=
  broadcastInDim S4096x2048 ![] bcast_S_S4096x2048 (kv_main_cst_9 (F := F))

def kv_main_cst_10 : (⟨S_, .f32⟩ : BufTy).Contents (Elt F) :=
  constant S_ .f32 0x3F800000#32

def kv_main_v30 : (⟨S2048, .f32⟩ : BufTy).Contents (Elt F) :=
  broadcastInDim S2048 ![] bcast_S_S2048 (kv_main_cst_10 (F := F))

def kv_main_v31 : (⟨S2048, .f32⟩ : BufTy).Contents (Elt F) :=
  subf (kv_main_v30 (F := F)) (kv_main_v25 (F := F) x1)

def kv_main_cst_11 : (⟨S_, .f32⟩ : BufTy).Contents (Elt F) :=
  constant S_ .f32 0x3F800000#32

def kv_main_v32 : (⟨S2048, .f32⟩ : BufTy).Contents (Elt F) :=
  broadcastInDim S2048 ![] bcast_S_S2048 (kv_main_cst_11 (F := F))

def kv_main_v33 : (⟨S2048, .f32⟩ : BufTy).Contents (Elt F) :=
  subf (kv_main_v32 (F := F)) (kv_main_v24 (F := F) x1)

def kv_main_v34 : (⟨S2048, .f32⟩ : BufTy).Contents (Elt F) :=
  mulf (kv_main_v31 (F := F) x1) (kv_main_v33 (F := F) x1)

def kv_main_cst_12 : (⟨S_, .f32⟩ : BufTy).Contents (Elt F) :=
  constant S_ .f32 0x3F800000#32

def kv_main_v35 : (⟨S2048, .f32⟩ : BufTy).Contents (Elt F) :=
  broadcastInDim S2048 ![] bcast_S_S2048 (kv_main_cst_12 (F := F))

def kv_main_v36 : (⟨S2048, .f32⟩ : BufTy).Contents (Elt F) :=
  subf (kv_main_v35 (F := F)) (kv_main_v25 (F := F) x1)

def kv_main_v37 : (⟨S2048, .f32⟩ : BufTy).Contents (Elt F) :=
  mulf (kv_main_v36 (F := F) x1) (kv_main_v24 (F := F) x1)

def kv_main_cst_13 : (⟨S_, .f32⟩ : BufTy).Contents (Elt F) :=
  constant S_ .f32 0x3F800000#32

def kv_main_v38 : (⟨S2048, .f32⟩ : BufTy).Contents (Elt F) :=
  broadcastInDim S2048 ![] bcast_S_S2048 (kv_main_cst_13 (F := F))

def kv_main_v39 : (⟨S2048, .f32⟩ : BufTy).Contents (Elt F) :=
  subf (kv_main_v38 (F := F)) (kv_main_v24 (F := F) x1)

def kv_main_v40 : (⟨S2048, .f32⟩ : BufTy).Contents (Elt F) :=
  mulf (kv_main_v25 (F := F) x1) (kv_main_v39 (F := F) x1)

def kv_main_v41 : (⟨S2048, .f32⟩ : BufTy).Contents (Elt F) :=
  mulf (kv_main_v25 (F := F) x1) (kv_main_v24 (F := F) x1)

def kv_main_c : (⟨S_, .i32⟩ : BufTy).Contents (Elt F) :=
  constantI S_ 32 0#32

def kv_main_v42 : (⟨S2048, .i32⟩ : BufTy).Contents (Elt F) :=
  broadcastInDim S2048 ![] bcast_S_S2048 (kv_main_c (F := F))

def kv_main_v43 : (⟨S2048, .i32⟩ : BufTy).Contents (Elt F) :=
  addi (kv_main_v27 (F := F) x1) (kv_main_v42 (F := F))

def kv_main_c_14 : (⟨S_, .i32⟩ : BufTy).Contents (Elt F) :=
  constantI S_ 32 0#32

def kv_main_v44 : (⟨S2048, .i32⟩ : BufTy).Contents (Elt F) :=
  broadcastInDim S2048 ![] bcast_S_S2048 (kv_main_c_14 (F := F))

def kv_main_v45 : (⟨S2048, .i32⟩ : BufTy).Contents (Elt F) :=
  addi (kv_main_v26 (F := F) x1) (kv_main_v44 (F := F))

def kv_main_c_15 : (⟨S_, .i32⟩ : BufTy).Contents (Elt F) :=
  constantI S_ 32 0#32

def kv_main_v46 : (⟨S2048, .i32⟩ : BufTy).Contents (Elt F) :=
  broadcastInDim S2048 ![] bcast_S_S2048 (kv_main_c_15 (F := F))

def kv_main_v47 : (⟨S2048, .i1⟩ : BufTy).Contents (Elt F) :=
  cmpi .sge (kv_main_v43 (F := F) x1) (kv_main_v46 (F := F))

def kv_main_c_16 : (⟨S_, .i32⟩ : BufTy).Contents (Elt F) :=
  constantI S_ 32 64#32

def kv_main_v48 : (⟨S2048, .i32⟩ : BufTy).Contents (Elt F) :=
  broadcastInDim S2048 ![] bcast_S_S2048 (kv_main_c_16 (F := F))

def kv_main_v49 : (⟨S2048, .i1⟩ : BufTy).Contents (Elt F) :=
  cmpi .slt (kv_main_v43 (F := F) x1) (kv_main_v48 (F := F))

def kv_main_v50 : (⟨S2048, .i1⟩ : BufTy).Contents (Elt F) :=
  andi (kv_main_v47 (F := F) x1) (kv_main_v49 (F := F) x1)

def kv_main_c_17 : (⟨S_, .i32⟩ : BufTy).Contents (Elt F) :=
  constantI S_ 32 0#32

def kv_main_v51 : (⟨S2048, .i32⟩ : BufTy).Contents (Elt F) :=
  broadcastInDim S2048 ![] bcast_S_S2048 (kv_main_c_17 (F := F))

def kv_main_v52 : (⟨S2048, .i1⟩ : BufTy).Contents (Elt F) :=
  cmpi .sge (kv_main_v45 (F := F) x1) (kv_main_v51 (F := F))

def kv_main_v53 : (⟨S2048, .i1⟩ : BufTy).Contents (Elt F) :=
  andi (kv_main_v50 (F := F) x1) (kv_main_v52 (F := F) x1)

def kv_main_c_18 : (⟨S_, .i32⟩ : BufTy).Contents (Elt F) :=
  constantI S_ 32 64#32

def kv_main_v54 : (⟨S2048, .i32⟩ : BufTy).Contents (Elt F) :=
  broadcastInDim S2048 ![] bcast_S_S2048 (kv_main_c_18 (F := F))

def kv_main_v55 : (⟨S2048, .i1⟩ : BufTy).Contents (Elt F) :=
  cmpi .slt (kv_main_v45 (F := F) x1) (kv_main_v54 (F := F))

def kv_main_v56 : (⟨S2048, .i1⟩ : BufTy).Contents (Elt F) :=
  andi (kv_main_v53 (F := F) x1) (kv_main_v55 (F := F) x1)

def kv_main_c_19 : (⟨S_, .i32⟩ : BufTy).Contents (Elt F) :=
  constantI S_ 32 0#32

def kv_main_c_20 : (⟨S_, .i32⟩ : BufTy).Contents (Elt F) :=
  constantI S_ 32 63#32

def kv_main_call1_v0 : (⟨S_, .i32⟩ : BufTy).Contents (Elt F) :=
  id (kv_main_c_19 (F := F))

def kv_main_call1_v1 : (⟨S2048, .i32⟩ : BufTy).Contents (Elt F) :=
  broadcastInDim S2048 ![] bcast_S_S2048 (kv_main_call1_v0 (F := F))

def kv_main_call1_v2 : (⟨S2048, .i32⟩ : BufTy).Contents (Elt F) :=
  maxsi (kv_main_call1_v1 (F := F)) (kv_main_v43 (F := F) x1)

def kv_main_call1_v3 : (⟨S_, .i32⟩ : BufTy).Contents (Elt F) :=
  id (kv_main_c_20 (F := F))

def kv_main_call1_v4 : (⟨S2048, .i32⟩ : BufTy).Contents (Elt F) :=
  broadcastInDim S2048 ![] bcast_S_S2048 (kv_main_call1_v3 (F := F))

def kv_main_v57 : (⟨S2048, .i32⟩ : BufTy).Contents (Elt F) :=
  minsi (kv_main_call1_v4 (F := F)) (kv_main_call1_v2 (F := F) x1)

def kv_main_c_21 : (⟨S_, .i32⟩ : BufTy).Contents (Elt F) :=
  constantI S_ 32 0#32

def kv_main_c_22 : (⟨S_, .i32⟩ : BufTy).Contents (Elt F) :=
  constantI S_ 32 63#32

def kv_main_call2_v0 : (⟨S_, .i32⟩ : BufTy).Contents (Elt F) :=
  id (kv_main_c_21 (F := F))

def kv_main_call2_v1 : (⟨S2048, .i32⟩ : BufTy).Contents (Elt F) :=
  broadcastInDim S2048 ![] bcast_S_S2048 (kv_main_call2_v0 (F := F))

def kv_main_call2_v2 : (⟨S2048, .i32⟩ : BufTy).Contents (Elt F) :=
  maxsi (kv_main_call2_v1 (F := F)) (kv_main_v45 (F := F) x1)

def kv_main_call2_v3 : (⟨S_, .i32⟩ : BufTy).Contents (Elt F) :=
  id (kv_main_c_22 (F := F))

def kv_main_call2_v4 : (⟨S2048, .i32⟩ : BufTy).Contents (Elt F) :=
  broadcastInDim S2048 ![] bcast_S_S2048 (kv_main_call2_v3 (F := F))

def kv_main_v58 : (⟨S2048, .i32⟩ : BufTy).Contents (Elt F) :=
  minsi (kv_main_call2_v4 (F := F)) (kv_main_call2_v2 (F := F) x1)

def kv_main_c_23 : (⟨S_, .i32⟩ : BufTy).Contents (Elt F) :=
  constantI S_ 32 64#32

def kv_main_v59 : (⟨S2048, .i32⟩ : BufTy).Contents (Elt F) :=
  broadcastInDim S2048 ![] bcast_S_S2048 (kv_main_c_23 (F := F))

def kv_main_v60 : (⟨S2048, .i32⟩ : BufTy).Contents (Elt F) :=
  muli (kv_main_v57 (F := F) x1) (kv_main_v59 (F := F))

def kv_main_v61 : (⟨S2048, .i32⟩ : BufTy).Contents (Elt F) :=
  addi (kv_main_v60 (F := F) x1) (kv_main_v58 (F := F) x1)

def kv_main_cst_24 : (⟨S_, .f32⟩ : BufTy).Contents (Elt F) :=
  constant S_ .f32 0x00000000#32

def kv_main_call3_v0 : (⟨S_, .f32⟩ : BufTy).Contents (Elt F) :=
  id (kv_main_cst_24 (F := F))

def kv_main_call3_v1 : (⟨S2048, .f32⟩ : BufTy).Contents (Elt F) :=
  broadcastInDim S2048 ![] bcast_S_S2048 (kv_main_call3_v0 (F := F))

def kv_main_v62 : (⟨S2048, .f32⟩ : BufTy).Contents (Elt F) :=
  select (kv_main_v56 (F := F) x1) (kv_main_v34 (F := F) x1) (kv_main_call3_v1 (F := F))

def kv_main_c_25 : (⟨S_, .i32⟩ : BufTy).Contents (Elt F) :=
  constantI S_ 32 0#32

def kv_main_v63 : (⟨S2048, .i32⟩ : BufTy).Contents (Elt F) :=
  broadcastInDim S2048 ![] bcast_S_S2048 (kv_main_c_25 (F := F))

def kv_main_v64 : (⟨S2048, .i1⟩ : BufTy).Contents (Elt F) :=
  cmpi .slt (kv_main_v61 (F := F) x1) (kv_main_v63 (F := F))

def kv_main_c_26 : (⟨S_, .i32⟩ : BufTy).Contents (Elt F) :=
  constantI S_ 32 4096#32

def kv_main_v65 : (⟨S2048, .i32⟩ : BufTy).Contents (Elt F) :=
  broadcastInDim S2048 ![] bcast_S_S2048 (kv_main_c_26 (F := F))

def kv_main_v66 : (⟨S2048, .i32⟩ : BufTy).Contents (Elt F) :=
  addi (kv_main_v61 (F := F) x1) (kv_main_v65 (F := F))

def kv_main_v67 : (⟨S2048, .i32⟩ : BufTy).Contents (Elt F) :=
  select (kv_main_v64 (F := F) x1) (kv_main_v66 (F := F) x1) (kv_main_v61 (F := F) x1)

def kv_main_c_27 : (⟨S_, .i32⟩ : BufTy).Contents (Elt F) :=
  constantI S_ 32 0#32

def kv_main_v68 : (⟨S2048, .i32⟩ : BufTy).Contents (Elt F) :=
  broadcastInDim S2048 ![] bcast_S_S2048 (kv_main_c_27 (F := F))

def kv_main_v69 : (⟨S2048, .i1⟩ : BufTy).Contents (Elt F) :=
  cmpi .slt (kv_main_v28 (F := F)) (kv_main_v68 (F := F))

def kv_main_c_28 : (⟨S_, .i32⟩ : BufTy).Contents (Elt F) :=
  constantI S_ 32 2048#32

def kv_main_v70 : (⟨S2048, .i32⟩ : BufTy).Contents (Elt F) :=
  broadcastInDim S2048 ![] bcast_S_S2048 (kv_main_c_28 (F := F))

def kv_main_v71 : (⟨S2048, .i32⟩ : BufTy).Contents (Elt F) :=
  addi (kv_main_v28 (F := F)) (kv_main_v70 (F := F))

def kv_main_v72 : (⟨S2048, .i32⟩ : BufTy).Contents (Elt F) :=
  select (kv_main_v69 (F := F)) (kv_main_v71 (F := F)) (kv_main_v28 (F := F))

def kv_main_v73 : (⟨S2048x1, .i32⟩ : BufTy).Contents (Elt F) :=
  broadcastInDim S2048x1 ![0] bcast_S2048_S2048x1_0 (kv_main_v67 (F := F) x1)

def kv_main_v74 : (⟨S2048x1, .i32⟩ : BufTy).Contents (Elt F) :=
  broadcastInDim S2048x1 ![0] bcast_S2048_S2048x1_0 (kv_main_v72 (F := F))

def kv_main_v75 : (⟨S2048x2, .i32⟩ : BufTy).Contents (Elt F) :=
  ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)) (kv_main_v73 (F := F) x1) (kv_main_v74 (F := F))

def kv_main_v76 : (⟨S4096x2048, .f32⟩ : BufTy).Contents (Elt F) :=
  ((fun x i u => Host.scatterAdd scatter_S4096x2048_S2048x2_S2048_n_01_01_1 x i u) : (⟨S4096x2048, .f32⟩ : BufTy).Contents (Elt F) → (⟨S2048x2, .i32⟩ : BufTy).Contents (Elt F) → (⟨S2048, .f32⟩ : BufTy).Contents (Elt F) → (⟨S4096x2048, .f32⟩ : BufTy).Contents (Elt F)) (kv_main_v29 (F := F)) (kv_main_v75 (F := F) x1) (kv_main_v62 (F := F) x1)

def kv_main_c_29 : (⟨S_, .i32⟩ : BufTy).Contents (Elt F) :=
  constantI S_ 32 0#32

def kv_main_v77 : (⟨S2048, .i32⟩ : BufTy).Contents (Elt F) :=
  broadcastInDim S2048 ![] bcast_S_S2048 (kv_main_c_29 (F := F))

def kv_main_v78 : (⟨S2048, .i32⟩ : BufTy).Contents (Elt F) :=
  addi (kv_main_v27 (F := F) x1) (kv_main_v77 (F := F))

def kv_main_c_30 : (⟨S_, .i32⟩ : BufTy).Contents (Elt F) :=
  constantI S_ 32 1#32

def kv_main_v79 : (⟨S2048, .i32⟩ : BufTy).Contents (Elt F) :=
  broadcastInDim S2048 ![] bcast_S_S2048 (kv_main_c_30 (F := F))

def kv_main_v80 : (⟨S2048, .i32⟩ : BufTy).Contents (Elt F) :=
  addi (kv_main_v26 (F := F) x1) (kv_main_v79 (F := F))

def kv_main_c_31 : (⟨S_, .i32⟩ : BufTy).Contents (Elt F) :=
  constantI S_ 32 0#32

def kv_main_v81 : (⟨S2048, .i32⟩ : BufTy).Contents (Elt F) :=
  broadcastInDim S2048 ![] bcast_S_S2048 (kv_main_c_31 (F := F))

def kv_main_v82 : (⟨S2048, .i1⟩ : BufTy).Contents (Elt F) :=
  cmpi .sge (kv_main_v78 (F := F) x1) (kv_main_v81 (F := F))

def kv_main_c_32 : (⟨S_, .i32⟩ : BufTy).Contents (Elt F) :=
  constantI S_ 32 64#32

def kv_main_v83 : (⟨S2048, .i32⟩ : BufTy).Contents (Elt F) :=
  broadcastInDim S2048 ![] bcast_S_S2048 (kv_main_c_32 (F := F))

def kv_main_v84 : (⟨S2048, .i1⟩ : BufTy).Contents (Elt F) :=
  cmpi .slt (kv_main_v78 (F := F) x1) (kv_main_v83 (F := F))

def kv_main_v85 : (⟨S2048, .i1⟩ : BufTy).Contents (Elt F) :=
  andi (kv_main_v82 (F := F) x1) (kv_main_v84 (F := F) x1)

def kv_main_c_33 : (⟨S_, .i32⟩ : BufTy).Contents (Elt F) :=
  constantI S_ 32 0#32

def kv_main_v86 : (⟨S2048, .i32⟩ : BufTy).Contents (Elt F) :=
  broadcastInDim S2048 ![] bcast_S_S2048 (kv_main_c_33 (F := F))

def kv_main_v87 : (⟨S2048, .i1⟩ : BufTy).Contents (Elt F) :=
  cmpi .sge (kv_main_v80 (F := F) x1) (kv_main_v86 (F := F))

def kv_main_v88 : (⟨S2048, .i1⟩ : BufTy).Contents (Elt F) :=
  andi (kv_main_v85 (F := F) x1) (kv_main_v87 (F := F) x1)

def kv_main_c_34 : (⟨S_, .i32⟩ : BufTy).Contents (Elt F) :=
  constantI S_ 32 64#32

def kv_main_v89 : (⟨S2048, .i32⟩ : BufTy).Contents (Elt F) :=
  broadcastInDim S2048 ![] bcast_S_S2048 (kv_main_c_34 (F := F))

def kv_main_v90 : (⟨S2048, .i1⟩ : BufTy).Contents (Elt F) :=
  cmpi .slt (kv_main_v80 (F := F) x1) (kv_main_v89 (F := F))

def kv_main_v91 : (⟨S2048, .i1⟩ : BufTy).Contents (Elt F) :=
  andi (kv_main_v88 (F := F) x1) (kv_main_v90 (F := F) x1)

def kv_main_c_35 : (⟨S_, .i32⟩ : BufTy).Contents (Elt F) :=
  constantI S_ 32 0#32

def kv_main_c_36 : (⟨S_, .i32⟩ : BufTy).Contents (Elt F) :=
  constantI S_ 32 63#32

def kv_main_call4_v0 : (⟨S_, .i32⟩ : BufTy).Contents (Elt F) :=
  id (kv_main_c_35 (F := F))

def kv_main_call4_v1 : (⟨S2048, .i32⟩ : BufTy).Contents (Elt F) :=
  broadcastInDim S2048 ![] bcast_S_S2048 (kv_main_call4_v0 (F := F))

def kv_main_call4_v2 : (⟨S2048, .i32⟩ : BufTy).Contents (Elt F) :=
  maxsi (kv_main_call4_v1 (F := F)) (kv_main_v78 (F := F) x1)

def kv_main_call4_v3 : (⟨S_, .i32⟩ : BufTy).Contents (Elt F) :=
  id (kv_main_c_36 (F := F))

def kv_main_call4_v4 : (⟨S2048, .i32⟩ : BufTy).Contents (Elt F) :=
  broadcastInDim S2048 ![] bcast_S_S2048 (kv_main_call4_v3 (F := F))

def kv_main_v92 : (⟨S2048, .i32⟩ : BufTy).Contents (Elt F) :=
  minsi (kv_main_call4_v4 (F := F)) (kv_main_call4_v2 (F := F) x1)

def kv_main_c_37 : (⟨S_, .i32⟩ : BufTy).Contents (Elt F) :=
  constantI S_ 32 0#32

def kv_main_c_38 : (⟨S_, .i32⟩ : BufTy).Contents (Elt F) :=
  constantI S_ 32 63#32

def kv_main_call5_v0 : (⟨S_, .i32⟩ : BufTy).Contents (Elt F) :=
  id (kv_main_c_37 (F := F))

def kv_main_call5_v1 : (⟨S2048, .i32⟩ : BufTy).Contents (Elt F) :=
  broadcastInDim S2048 ![] bcast_S_S2048 (kv_main_call5_v0 (F := F))

def kv_main_call5_v2 : (⟨S2048, .i32⟩ : BufTy).Contents (Elt F) :=
  maxsi (kv_main_call5_v1 (F := F)) (kv_main_v80 (F := F) x1)

def kv_main_call5_v3 : (⟨S_, .i32⟩ : BufTy).Contents (Elt F) :=
  id (kv_main_c_38 (F := F))

def kv_main_call5_v4 : (⟨S2048, .i32⟩ : BufTy).Contents (Elt F) :=
  broadcastInDim S2048 ![] bcast_S_S2048 (kv_main_call5_v3 (F := F))

def kv_main_v93 : (⟨S2048, .i32⟩ : BufTy).Contents (Elt F) :=
  minsi (kv_main_call5_v4 (F := F)) (kv_main_call5_v2 (F := F) x1)

def kv_main_c_39 : (⟨S_, .i32⟩ : BufTy).Contents (Elt F) :=
  constantI S_ 32 64#32

def kv_main_v94 : (⟨S2048, .i32⟩ : BufTy).Contents (Elt F) :=
  broadcastInDim S2048 ![] bcast_S_S2048 (kv_main_c_39 (F := F))

def kv_main_v95 : (⟨S2048, .i32⟩ : BufTy).Contents (Elt F) :=
  muli (kv_main_v92 (F := F) x1) (kv_main_v94 (F := F))

def kv_main_v96 : (⟨S2048, .i32⟩ : BufTy).Contents (Elt F) :=
  addi (kv_main_v95 (F := F) x1) (kv_main_v93 (F := F) x1)

def kv_main_cst_40 : (⟨S_, .f32⟩ : BufTy).Contents (Elt F) :=
  constant S_ .f32 0x00000000#32

def kv_main_call6_v0 : (⟨S_, .f32⟩ : BufTy).Contents (Elt F) :=
  id (kv_main_cst_40 (F := F))

def kv_main_call6_v1 : (⟨S2048, .f32⟩ : BufTy).Contents (Elt F) :=
  broadcastInDim S2048 ![] bcast_S_S2048 (kv_main_call6_v0 (F := F))

def kv_main_v97 : (⟨S2048, .f32⟩ : BufTy).Contents (Elt F) :=
  select (kv_main_v91 (F := F) x1) (kv_main_v37 (F := F) x1) (kv_main_call6_v1 (F := F))

def kv_main_c_41 : (⟨S_, .i32⟩ : BufTy).Contents (Elt F) :=
  constantI S_ 32 0#32

def kv_main_v98 : (⟨S2048, .i32⟩ : BufTy).Contents (Elt F) :=
  broadcastInDim S2048 ![] bcast_S_S2048 (kv_main_c_41 (F := F))

def kv_main_v99 : (⟨S2048, .i1⟩ : BufTy).Contents (Elt F) :=
  cmpi .slt (kv_main_v96 (F := F) x1) (kv_main_v98 (F := F))

def kv_main_c_42 : (⟨S_, .i32⟩ : BufTy).Contents (Elt F) :=
  constantI S_ 32 4096#32

def kv_main_v100 : (⟨S2048, .i32⟩ : BufTy).Contents (Elt F) :=
  broadcastInDim S2048 ![] bcast_S_S2048 (kv_main_c_42 (F := F))

def kv_main_v101 : (⟨S2048, .i32⟩ : BufTy).Contents (Elt F) :=
  addi (kv_main_v96 (F := F) x1) (kv_main_v100 (F := F))

def kv_main_v102 : (⟨S2048, .i32⟩ : BufTy).Contents (Elt F) :=
  select (kv_main_v99 (F := F) x1) (kv_main_v101 (F := F) x1) (kv_main_v96 (F := F) x1)

def kv_main_c_43 : (⟨S_, .i32⟩ : BufTy).Contents (Elt F) :=
  constantI S_ 32 0#32

def kv_main_v103 : (⟨S2048, .i32⟩ : BufTy).Contents (Elt F) :=
  broadcastInDim S2048 ![] bcast_S_S2048 (kv_main_c_43 (F := F))

def kv_main_v104 : (⟨S2048, .i1⟩ : BufTy).Contents (Elt F) :=
  cmpi .slt (kv_main_v28 (F := F)) (kv_main_v103 (F := F))

def kv_main_c_44 : (⟨S_, .i32⟩ : BufTy).Contents (Elt F) :=
  constantI S_ 32 2048#32

def kv_main_v105 : (⟨S2048, .i32⟩ : BufTy).Contents (Elt F) :=
  broadcastInDim S2048 ![] bcast_S_S2048 (kv_main_c_44 (F := F))

def kv_main_v106 : (⟨S2048, .i32⟩ : BufTy).Contents (Elt F) :=
  addi (kv_main_v28 (F := F)) (kv_main_v105 (F := F))

def kv_main_v107 : (⟨S2048, .i32⟩ : BufTy).Contents (Elt F) :=
  select (kv_main_v104 (F := F)) (kv_main_v106 (F := F)) (kv_main_v28 (F := F))

def kv_main_v108 : (⟨S2048x1, .i32⟩ : BufTy).Contents (Elt F) :=
  broadcastInDim S2048x1 ![0] bcast_S2048_S2048x1_0 (kv_main_v102 (F := F) x1)

def kv_main_v109 : (⟨S2048x1, .i32⟩ : BufTy).Contents (Elt F) :=
  broadcastInDim S2048x1 ![0] bcast_S2048_S2048x1_0 (kv_main_v107 (F := F))

def kv_main_v110 : (⟨S2048x2, .i32⟩ : BufTy).Contents (Elt F) :=
  ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)) (kv_main_v108 (F := F) x1) (kv_main_v109 (F := F))

def kv_main_v111 : (⟨S4096x2048, .f32⟩ : BufTy).Contents (Elt F) :=
  ((fun x i u => Host.scatterAdd scatter_S4096x2048_S2048x2_S2048_n_01_01_1 x i u) : (⟨S4096x2048, .f32⟩ : BufTy).Contents (Elt F) → (⟨S2048x2, .i32⟩ : BufTy).Contents (Elt F) → (⟨S2048, .f32⟩ : BufTy).Contents (Elt F) → (⟨S4096x2048, .f32⟩ : BufTy).Contents (Elt F)) (kv_main_v76 (F := F) x1) (kv_main_v110 (F := F) x1) (kv_main_v97 (F := F) x1)

def kv_main_c_45 : (⟨S_, .i32⟩ : BufTy).Contents (Elt F) :=
  constantI S_ 32 1#32

def kv_main_v112 : (⟨S2048, .i32⟩ : BufTy).Contents (Elt F) :=
  broadcastInDim S2048 ![] bcast_S_S2048 (kv_main_c_45 (F := F))

def kv_main_v113 : (⟨S2048, .i32⟩ : BufTy).Contents (Elt F) :=
  addi (kv_main_v27 (F := F) x1) (kv_main_v112 (F := F))

def kv_main_c_46 : (⟨S_, .i32⟩ : BufTy).Contents (Elt F) :=
  constantI S_ 32 0#32

def kv_main_v114 : (⟨S2048, .i32⟩ : BufTy).Contents (Elt F) :=
  broadcastInDim S2048 ![] bcast_S_S2048 (kv_main_c_46 (F := F))

def kv_main_v115 : (⟨S2048, .i32⟩ : BufTy).Contents (Elt F) :=
  addi (kv_main_v26 (F := F) x1) (kv_main_v114 (F := F))

def kv_main_c_47 : (⟨S_, .i32⟩ : BufTy).Contents (Elt F) :=
  constantI S_ 32 0#32

def kv_main_v116 : (⟨S2048, .i32⟩ : BufTy).Contents (Elt F) :=
  broadcastInDim S2048 ![] bcast_S_S2048 (kv_main_c_47 (F := F))

def kv_main_v117 : (⟨S2048, .i1⟩ : BufTy).Contents (Elt F) :=
  cmpi .sge (kv_main_v113 (F := F) x1) (kv_main_v116 (F := F))

def kv_main_c_48 : (⟨S_, .i32⟩ : BufTy).Contents (Elt F) :=
  constantI S_ 32 64#32

def kv_main_v118 : (⟨S2048, .i32⟩ : BufTy).Contents (Elt F) :=
  broadcastInDim S2048 ![] bcast_S_S2048 (kv_main_c_48 (F := F))

def kv_main_v119 : (⟨S2048, .i1⟩ : BufTy).Contents (Elt F) :=
  cmpi .slt (kv_main_v113 (F := F) x1) (kv_main_v118 (F := F))

def kv_main_v120 : (⟨S2048, .i1⟩ : BufTy).Contents (Elt F) :=
  andi (kv_main_v117 (F := F) x1) (kv_main_v119 (F := F) x1)

def kv_main_c_49 : (⟨S_, .i32⟩ : BufTy).Contents (Elt F) :=
  constantI S_ 32 0#32

def kv_main_v121 : (⟨S2048, .i32⟩ : BufTy).Contents (Elt F) :=
  broadcastInDim S2048 ![] bcast_S_S2048 (kv_main_c_49 (F := F))

def kv_main_v122 : (⟨S2048, .i1⟩ : BufTy).Contents (Elt F) :=
  cmpi .sge (kv_main_v115 (F := F) x1) (kv_main_v121 (F := F))

def kv_main_v123 : (⟨S2048, .i1⟩ : BufTy).Contents (Elt F) :=
  andi (kv_main_v120 (F := F) x1) (kv_main_v122 (F := F) x1)

def kv_main_c_50 : (⟨S_, .i32⟩ : BufTy).Contents (Elt F) :=
  constantI S_ 32 64#32

def kv_main_v124 : (⟨S2048, .i32⟩ : BufTy).Contents (Elt F) :=
  broadcastInDim S2048 ![] bcast_S_S2048 (kv_main_c_50 (F := F))

def kv_main_v125 : (⟨S2048, .i1⟩ : BufTy).Contents (Elt F) :=
  cmpi .slt (kv_main_v115 (F := F) x1) (kv_main_v124 (F := F))

def kv_main_v126 : (⟨S2048, .i1⟩ : BufTy).Contents (Elt F) :=
  andi (kv_main_v123 (F := F) x1) (kv_main_v125 (F := F) x1)

def kv_main_c_51 : (⟨S_, .i32⟩ : BufTy).Contents (Elt F) :=
  constantI S_ 32 0#32

def kv_main_c_52 : (⟨S_, .i32⟩ : BufTy).Contents (Elt F) :=
  constantI S_ 32 63#32

def kv_main_call7_v0 : (⟨S_, .i32⟩ : BufTy).Contents (Elt F) :=
  id (kv_main_c_51 (F := F))

def kv_main_call7_v1 : (⟨S2048, .i32⟩ : BufTy).Contents (Elt F) :=
  broadcastInDim S2048 ![] bcast_S_S2048 (kv_main_call7_v0 (F := F))

def kv_main_call7_v2 : (⟨S2048, .i32⟩ : BufTy).Contents (Elt F) :=
  maxsi (kv_main_call7_v1 (F := F)) (kv_main_v113 (F := F) x1)

def kv_main_call7_v3 : (⟨S_, .i32⟩ : BufTy).Contents (Elt F) :=
  id (kv_main_c_52 (F := F))

def kv_main_call7_v4 : (⟨S2048, .i32⟩ : BufTy).Contents (Elt F) :=
  broadcastInDim S2048 ![] bcast_S_S2048 (kv_main_call7_v3 (F := F))

def kv_main_v127 : (⟨S2048, .i32⟩ : BufTy).Contents (Elt F) :=
  minsi (kv_main_call7_v4 (F := F)) (kv_main_call7_v2 (F := F) x1)

def kv_main_c_53 : (⟨S_, .i32⟩ : BufTy).Contents (Elt F) :=
  constantI S_ 32 0#32

def kv_main_c_54 : (⟨S_, .i32⟩ : BufTy).Contents (Elt F) :=
  constantI S_ 32 63#32

def kv_main_call8_v0 : (⟨S_, .i32⟩ : BufTy).Contents (Elt F) :=
  id (kv_main_c_53 (F := F))

def kv_main_call8_v1 : (⟨S2048, .i32⟩ : BufTy).Contents (Elt F) :=
  broadcastInDim S2048 ![] bcast_S_S2048 (kv_main_call8_v0 (F := F))

def kv_main_call8_v2 : (⟨S2048, .i32⟩ : BufTy).Contents (Elt F) :=
  maxsi (kv_main_call8_v1 (F := F)) (kv_main_v115 (F := F) x1)

def kv_main_call8_v3 : (⟨S_, .i32⟩ : BufTy).Contents (Elt F) :=
  id (kv_main_c_54 (F := F))

def kv_main_call8_v4 : (⟨S2048, .i32⟩ : BufTy).Contents (Elt F) :=
  broadcastInDim S2048 ![] bcast_S_S2048 (kv_main_call8_v3 (F := F))

def kv_main_v128 : (⟨S2048, .i32⟩ : BufTy).Contents (Elt F) :=
  minsi (kv_main_call8_v4 (F := F)) (kv_main_call8_v2 (F := F) x1)

def kv_main_c_55 : (⟨S_, .i32⟩ : BufTy).Contents (Elt F) :=
  constantI S_ 32 64#32

def kv_main_v129 : (⟨S2048, .i32⟩ : BufTy).Contents (Elt F) :=
  broadcastInDim S2048 ![] bcast_S_S2048 (kv_main_c_55 (F := F))

def kv_main_v130 : (⟨S2048, .i32⟩ : BufTy).Contents (Elt F) :=
  muli (kv_main_v127 (F := F) x1) (kv_main_v129 (F := F))

def kv_main_v131 : (⟨S2048, .i32⟩ : BufTy).Contents (Elt F) :=
  addi (kv_main_v130 (F := F) x1) (kv_main_v128 (F := F) x1)

def kv_main_cst_56 : (⟨S_, .f32⟩ : BufTy).Contents (Elt F) :=
  constant S_ .f32 0x00000000#32

def kv_main_call9_v0 : (⟨S_, .f32⟩ : BufTy).Contents (Elt F) :=
  id (kv_main_cst_56 (F := F))

def kv_main_call9_v1 : (⟨S2048, .f32⟩ : BufTy).Contents (Elt F) :=
  broadcastInDim S2048 ![] bcast_S_S2048 (kv_main_call9_v0 (F := F))

def kv_main_v132 : (⟨S2048, .f32⟩ : BufTy).Contents (Elt F) :=
  select (kv_main_v126 (F := F) x1) (kv_main_v40 (F := F) x1) (kv_main_call9_v1 (F := F))

def kv_main_c_57 : (⟨S_, .i32⟩ : BufTy).Contents (Elt F) :=
  constantI S_ 32 0#32

def kv_main_v133 : (⟨S2048, .i32⟩ : BufTy).Contents (Elt F) :=
  broadcastInDim S2048 ![] bcast_S_S2048 (kv_main_c_57 (F := F))

def kv_main_v134 : (⟨S2048, .i1⟩ : BufTy).Contents (Elt F) :=
  cmpi .slt (kv_main_v131 (F := F) x1) (kv_main_v133 (F := F))

def kv_main_c_58 : (⟨S_, .i32⟩ : BufTy).Contents (Elt F) :=
  constantI S_ 32 4096#32

def kv_main_v135 : (⟨S2048, .i32⟩ : BufTy).Contents (Elt F) :=
  broadcastInDim S2048 ![] bcast_S_S2048 (kv_main_c_58 (F := F))

def kv_main_v136 : (⟨S2048, .i32⟩ : BufTy).Contents (Elt F) :=
  addi (kv_main_v131 (F := F) x1) (kv_main_v135 (F := F))

def kv_main_v137 : (⟨S2048, .i32⟩ : BufTy).Contents (Elt F) :=
  select (kv_main_v134 (F := F) x1) (kv_main_v136 (F := F) x1) (kv_main_v131 (F := F) x1)

def kv_main_c_59 : (⟨S_, .i32⟩ : BufTy).Contents (Elt F) :=
  constantI S_ 32 0#32

def kv_main_v138 : (⟨S2048, .i32⟩ : BufTy).Contents (Elt F) :=
  broadcastInDim S2048 ![] bcast_S_S2048 (kv_main_c_59 (F := F))

def kv_main_v139 : (⟨S2048, .i1⟩ : BufTy).Contents (Elt F) :=
  cmpi .slt (kv_main_v28 (F := F)) (kv_main_v138 (F := F))

def kv_main_c_60 : (⟨S_, .i32⟩ : BufTy).Contents (Elt F) :=
  constantI S_ 32 2048#32

def kv_main_v140 : (⟨S2048, .i32⟩ : BufTy).Contents (Elt F) :=
  broadcastInDim S2048 ![] bcast_S_S2048 (kv_main_c_60 (F := F))

def kv_main_v141 : (⟨S2048, .i32⟩ : BufTy).Contents (Elt F) :=
  addi (kv_main_v28 (F := F)) (kv_main_v140 (F := F))

def kv_main_v142 : (⟨S2048, .i32⟩ : BufTy).Contents (Elt F) :=
  select (kv_main_v139 (F := F)) (kv_main_v141 (F := F)) (kv_main_v28 (F := F))

def kv_main_v143 : (⟨S2048x1, .i32⟩ : BufTy).Contents (Elt F) :=
  broadcastInDim S2048x1 ![0] bcast_S2048_S2048x1_0 (kv_main_v137 (F := F) x1)

def kv_main_v144 : (⟨S2048x1, .i32⟩ : BufTy).Contents (Elt F) :=
  broadcastInDim S2048x1 ![0] bcast_S2048_S2048x1_0 (kv_main_v142 (F := F))

def kv_main_v145 : (⟨S2048x2, .i32⟩ : BufTy).Contents (Elt F) :=
  ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)) (kv_main_v143 (F := F) x1) (kv_main_v144 (F := F))

def kv_main_v146 : (⟨S4096x2048, .f32⟩ : BufTy).Contents (Elt F) :=
  ((fun x i u => Host.scatterAdd scatter_S4096x2048_S2048x2_S2048_n_01_01_1 x i u) : (⟨S4096x2048, .f32⟩ : BufTy).Contents (Elt F) → (⟨S2048x2, .i32⟩ : BufTy).Contents (Elt F) → (⟨S2048, .f32⟩ : BufTy).Contents (Elt F) → (⟨S4096x2048, .f32⟩ : BufTy).Contents (Elt F)) (kv_main_v111 (F := F) x1) (kv_main_v145 (F := F) x1) (kv_main_v132 (F := F) x1)

def kv_main_c_61 : (⟨S_, .i32⟩ : BufTy).Contents (Elt F) :=
  constantI S_ 32 1#32

def kv_main_v147 : (⟨S2048, .i32⟩ : BufTy).Contents (Elt F) :=
  broadcastInDim S2048 ![] bcast_S_S2048 (kv_main_c_61 (F := F))

def kv_main_v148 : (⟨S2048, .i32⟩ : BufTy).Contents (Elt F) :=
  addi (kv_main_v27 (F := F) x1) (kv_main_v147 (F := F))

def kv_main_c_62 : (⟨S_, .i32⟩ : BufTy).Contents (Elt F) :=
  constantI S_ 32 1#32

def kv_main_v149 : (⟨S2048, .i32⟩ : BufTy).Contents (Elt F) :=
  broadcastInDim S2048 ![] bcast_S_S2048 (kv_main_c_62 (F := F))

def kv_main_v150 : (⟨S2048, .i32⟩ : BufTy).Contents (Elt F) :=
  addi (kv_main_v26 (F := F) x1) (kv_main_v149 (F := F))

def kv_main_c_63 : (⟨S_, .i32⟩ : BufTy).Contents (Elt F) :=
  constantI S_ 32 0#32

def kv_main_v151 : (⟨S2048, .i32⟩ : BufTy).Contents (Elt F) :=
  broadcastInDim S2048 ![] bcast_S_S2048 (kv_main_c_63 (F := F))

def kv_main_v152 : (⟨S2048, .i1⟩ : BufTy).Contents (Elt F) :=
  cmpi .sge (kv_main_v148 (F := F) x1) (kv_main_v151 (F := F))

def kv_main_c_64 : (⟨S_, .i32⟩ : BufTy).Contents (Elt F) :=
  constantI S_ 32 64#32

def kv_main_v153 : (⟨S2048, .i32⟩ : BufTy).Contents (Elt F) :=
  broadcastInDim S2048 ![] bcast_S_S2048 (kv_main_c_64 (F := F))

def kv_main_v154 : (⟨S2048, .i1⟩ : BufTy).Contents (Elt F) :=
  cmpi .slt (kv_main_v148 (F := F) x1) (kv_main_v153 (F := F))

def kv_main_v155 : (⟨S2048, .i1⟩ : BufTy).Contents (Elt F) :=
  andi (kv_main_v152 (F := F) x1) (kv_main_v154 (F := F) x1)

def kv_main_c_65 : (⟨S_, .i32⟩ : BufTy).Contents (Elt F) :=
  constantI S_ 32 0#32

def kv_main_v156 : (⟨S2048, .i32⟩ : BufTy).Contents (Elt F) :=
  broadcastInDim S2048 ![] bcast_S_S2048 (kv_main_c_65 (F := F))

def kv_main_v157 : (⟨S2048, .i1⟩ : BufTy).Contents (Elt F) :=
  cmpi .sge (kv_main_v150 (F := F) x1) (kv_main_v156 (F := F))

def kv_main_v158 : (⟨S2048, .i1⟩ : BufTy).Contents (Elt F) :=
  andi (kv_main_v155 (F := F) x1) (kv_main_v157 (F := F) x1)

def kv_main_c_66 : (⟨S_, .i32⟩ : BufTy).Contents (Elt F) :=
  constantI S_ 32 64#32

def kv_main_v159 : (⟨S2048, .i32⟩ : BufTy).Contents (Elt F) :=
  broadcastInDim S2048 ![] bcast_S_S2048 (kv_main_c_66 (F := F))

def kv_main_v160 : (⟨S2048, .i1⟩ : BufTy).Contents (Elt F) :=
  cmpi .slt (kv_main_v150 (F := F) x1) (kv_main_v159 (F := F))

def kv_main_v161 : (⟨S2048, .i1⟩ : BufTy).Contents (Elt F) :=
  andi (kv_main_v158 (F := F) x1) (kv_main_v160 (F := F) x1)

def kv_main_c_67 : (⟨S_, .i32⟩ : BufTy).Contents (Elt F) :=
  constantI S_ 32 0#32

def kv_main_c_68 : (⟨S_, .i32⟩ : BufTy).Contents (Elt F) :=
  constantI S_ 32 63#32

def kv_main_call10_v0 : (⟨S_, .i32⟩ : BufTy).Contents (Elt F) :=
  id (kv_main_c_67 (F := F))

def kv_main_call10_v1 : (⟨S2048, .i32⟩ : BufTy).Contents (Elt F) :=
  broadcastInDim S2048 ![] bcast_S_S2048 (kv_main_call10_v0 (F := F))

def kv_main_call10_v2 : (⟨S2048, .i32⟩ : BufTy).Contents (Elt F) :=
  maxsi (kv_main_call10_v1 (F := F)) (kv_main_v148 (F := F) x1)

def kv_main_call10_v3 : (⟨S_, .i32⟩ : BufTy).Contents (Elt F) :=
  id (kv_main_c_68 (F := F))

def kv_main_call10_v4 : (⟨S2048, .i32⟩ : BufTy).Contents (Elt F) :=
  broadcastInDim S2048 ![] bcast_S_S2048 (kv_main_call10_v3 (F := F))

def kv_main_v162 : (⟨S2048, .i32⟩ : BufTy).Contents (Elt F) :=
  minsi (kv_main_call10_v4 (F := F)) (kv_main_call10_v2 (F := F) x1)

def kv_main_c_69 : (⟨S_, .i32⟩ : BufTy).Contents (Elt F) :=
  constantI S_ 32 0#32

def kv_main_c_70 : (⟨S_, .i32⟩ : BufTy).Contents (Elt F) :=
  constantI S_ 32 63#32

def kv_main_call11_v0 : (⟨S_, .i32⟩ : BufTy).Contents (Elt F) :=
  id (kv_main_c_69 (F := F))

def kv_main_call11_v1 : (⟨S2048, .i32⟩ : BufTy).Contents (Elt F) :=
  broadcastInDim S2048 ![] bcast_S_S2048 (kv_main_call11_v0 (F := F))

def kv_main_call11_v2 : (⟨S2048, .i32⟩ : BufTy).Contents (Elt F) :=
  maxsi (kv_main_call11_v1 (F := F)) (kv_main_v150 (F := F) x1)

def kv_main_call11_v3 : (⟨S_, .i32⟩ : BufTy).Contents (Elt F) :=
  id (kv_main_c_70 (F := F))

def kv_main_call11_v4 : (⟨S2048, .i32⟩ : BufTy).Contents (Elt F) :=
  broadcastInDim S2048 ![] bcast_S_S2048 (kv_main_call11_v3 (F := F))

def kv_main_v163 : (⟨S2048, .i32⟩ : BufTy).Contents (Elt F) :=
  minsi (kv_main_call11_v4 (F := F)) (kv_main_call11_v2 (F := F) x1)

def kv_main_c_71 : (⟨S_, .i32⟩ : BufTy).Contents (Elt F) :=
  constantI S_ 32 64#32

def kv_main_v164 : (⟨S2048, .i32⟩ : BufTy).Contents (Elt F) :=
  broadcastInDim S2048 ![] bcast_S_S2048 (kv_main_c_71 (F := F))

def kv_main_v165 : (⟨S2048, .i32⟩ : BufTy).Contents (Elt F) :=
  muli (kv_main_v162 (F := F) x1) (kv_main_v164 (F := F))

def kv_main_v166 : (⟨S2048, .i32⟩ : BufTy).Contents (Elt F) :=
  addi (kv_main_v165 (F := F) x1) (kv_main_v163 (F := F) x1)

def kv_main_cst_72 : (⟨S_, .f32⟩ : BufTy).Contents (Elt F) :=
  constant S_ .f32 0x00000000#32

def kv_main_call12_v0 : (⟨S_, .f32⟩ : BufTy).Contents (Elt F) :=
  id (kv_main_cst_72 (F := F))

def kv_main_call12_v1 : (⟨S2048, .f32⟩ : BufTy).Contents (Elt F) :=
  broadcastInDim S2048 ![] bcast_S_S2048 (kv_main_call12_v0 (F := F))

def kv_main_v167 : (⟨S2048, .f32⟩ : BufTy).Contents (Elt F) :=
  select (kv_main_v161 (F := F) x1) (kv_main_v41 (F := F) x1) (kv_main_call12_v1 (F := F))

def kv_main_c_73 : (⟨S_, .i32⟩ : BufTy).Contents (Elt F) :=
  constantI S_ 32 0#32

def kv_main_v168 : (⟨S2048, .i32⟩ : BufTy).Contents (Elt F) :=
  broadcastInDim S2048 ![] bcast_S_S2048 (kv_main_c_73 (F := F))

def kv_main_v169 : (⟨S2048, .i1⟩ : BufTy).Contents (Elt F) :=
  cmpi .slt (kv_main_v166 (F := F) x1) (kv_main_v168 (F := F))

def kv_main_c_74 : (⟨S_, .i32⟩ : BufTy).Contents (Elt F) :=
  constantI S_ 32 4096#32

def kv_main_v170 : (⟨S2048, .i32⟩ : BufTy).Contents (Elt F) :=
  broadcastInDim S2048 ![] bcast_S_S2048 (kv_main_c_74 (F := F))

def kv_main_v171 : (⟨S2048, .i32⟩ : BufTy).Contents (Elt F) :=
  addi (kv_main_v166 (F := F) x1) (kv_main_v170 (F := F))

def kv_main_v172 : (⟨S2048, .i32⟩ : BufTy).Contents (Elt F) :=
  select (kv_main_v169 (F := F) x1) (kv_main_v171 (F := F) x1) (kv_main_v166 (F := F) x1)

def kv_main_c_75 : (⟨S_, .i32⟩ : BufTy).Contents (Elt F) :=
  constantI S_ 32 0#32

def kv_main_v173 : (⟨S2048, .i32⟩ : BufTy).Contents (Elt F) :=
  broadcastInDim S2048 ![] bcast_S_S2048 (kv_main_c_75 (F := F))

def kv_main_v174 : (⟨S2048, .i1⟩ : BufTy).Contents (Elt F) :=
  cmpi .slt (kv_main_v28 (F := F)) (kv_main_v173 (F := F))

def kv_main_c_76 : (⟨S_, .i32⟩ : BufTy).Contents (Elt F) :=
  constantI S_ 32 2048#32

def kv_main_v175 : (⟨S2048, .i32⟩ : BufTy).Contents (Elt F) :=
  broadcastInDim S2048 ![] bcast_S_S2048 (kv_main_c_76 (F := F))

def kv_main_v176 : (⟨S2048, .i32⟩ : BufTy).Contents (Elt F) :=
  addi (kv_main_v28 (F := F)) (kv_main_v175 (F := F))

def kv_main_v177 : (⟨S2048, .i32⟩ : BufTy).Contents (Elt F) :=
  select (kv_main_v174 (F := F)) (kv_main_v176 (F := F)) (kv_main_v28 (F := F))

def kv_main_v178 : (⟨S2048x1, .i32⟩ : BufTy).Contents (Elt F) :=
  broadcastInDim S2048x1 ![0] bcast_S2048_S2048x1_0 (kv_main_v172 (F := F) x1)

def kv_main_v179 : (⟨S2048x1, .i32⟩ : BufTy).Contents (Elt F) :=
  broadcastInDim S2048x1 ![0] bcast_S2048_S2048x1_0 (kv_main_v177 (F := F))

def kv_main_v180 : (⟨S2048x2, .i32⟩ : BufTy).Contents (Elt F) :=
  ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)) (kv_main_v178 (F := F) x1) (kv_main_v179 (F := F))

def kv_main_v181 : (⟨S4096x2048, .f32⟩ : BufTy).Contents (Elt F) :=
  ((fun x i u => Host.scatterAdd scatter_S4096x2048_S2048x2_S2048_n_01_01_1 x i u) : (⟨S4096x2048, .f32⟩ : BufTy).Contents (Elt F) → (⟨S2048x2, .i32⟩ : BufTy).Contents (Elt F) → (⟨S2048, .f32⟩ : BufTy).Contents (Elt F) → (⟨S4096x2048, .f32⟩ : BufTy).Contents (Elt F)) (kv_main_v146 (F := F) x1) (kv_main_v180 (F := F) x1) (kv_main_v167 (F := F) x1)

def kv_main_v182 : (⟨S4096x2048, .bf16⟩ : BufTy).Contents (Elt F) :=
  ((truncf .bf16 · bitsLt_bf16_f32) : (⟨S4096x2048, .f32⟩ : BufTy).Contents (Elt F) → (⟨S4096x2048, .bf16⟩ : BufTy).Contents (Elt F)) (kv_main_v181 (F := F) x1)

def kv_main_v183 : (⟨S2048x1, .f32⟩ : BufTy).Contents (Elt F) :=
  ((extractStridedSlice S2048x1 ![0, 0] · slices_S2048x2_S2048x1_0_0) : (⟨S2048x2, .f32⟩ : BufTy).Contents (Elt F) → (⟨S2048x1, .f32⟩ : BufTy).Contents (Elt F)) (kv_main_v1 (F := F) x1)

def kv_main_v184 : (⟨S2048, .f32⟩ : BufTy).Contents (Elt F) :=
  shapeCast _ (kv_main_v183 (F := F) x1) shapeCasts_S2048x1_S2048

def kv_main_v185 : (⟨S2048x1, .f32⟩ : BufTy).Contents (Elt F) :=
  ((extractStridedSlice S2048x1 ![0, 1] · slices_S2048x2_S2048x1_0_1) : (⟨S2048x2, .f32⟩ : BufTy).Contents (Elt F) → (⟨S2048x1, .f32⟩ : BufTy).Contents (Elt F)) (kv_main_v1 (F := F) x1)

def kv_main_v186 : (⟨S2048, .f32⟩ : BufTy).Contents (Elt F) :=
  shapeCast _ (kv_main_v185 (F := F) x1) shapeCasts_S2048x1_S2048

def kv_main_cst_77 : (⟨S_, .f32⟩ : BufTy).Contents (Elt F) :=
  constant S_ .f32 0x3F800000#32

def kv_main_v187 : (⟨S2048, .f32⟩ : BufTy).Contents (Elt F) :=
  broadcastInDim S2048 ![] bcast_S_S2048 (kv_main_cst_77 (F := F))

def kv_main_v188 : (⟨S2048, .f32⟩ : BufTy).Contents (Elt F) :=
  addf (kv_main_v184 (F := F) x1) (kv_main_v187 (F := F))

def kv_main_cst_78 : (⟨S_, .f32⟩ : BufTy).Contents (Elt F) :=
  constant S_ .f32 0x42000000#32

def kv_main_v189 : (⟨S2048, .f32⟩ : BufTy).Contents (Elt F) :=
  broadcastInDim S2048 ![] bcast_S_S2048 (kv_main_cst_78 (F := F))

def kv_main_v190 : (⟨S2048, .f32⟩ : BufTy).Contents (Elt F) :=
  mulf (kv_main_v188 (F := F) x1) (kv_main_v189 (F := F))

def kv_main_cst_79 : (⟨S_, .f32⟩ : BufTy).Contents (Elt F) :=
  constant S_ .f32 0x3F800000#32

def kv_main_v191 : (⟨S2048, .f32⟩ : BufTy).Contents (Elt F) :=
  broadcastInDim S2048 ![] bcast_S_S2048 (kv_main_cst_79 (F := F))

def kv_main_v192 : (⟨S2048, .f32⟩ : BufTy).Contents (Elt F) :=
  subf (kv_main_v190 (F := F) x1) (kv_main_v191 (F := F))

def kv_main_cst_80 : (⟨S_, .f32⟩ : BufTy).Contents (Elt F) :=
  constant S_ .f32 0x3F000000#32

def kv_main_v193 : (⟨S2048, .f32⟩ : BufTy).Contents (Elt F) :=
  broadcastInDim S2048 ![] bcast_S_S2048 (kv_main_cst_80 (F := F))

def kv_main_v194 : (⟨S2048, .f32⟩ : BufTy).Contents (Elt F) :=
  mulf (kv_main_v192 (F := F) x1) (kv_main_v193 (F := F))

def kv_main_cst_81 : (⟨S_, .f32⟩ : BufTy).Contents (Elt F) :=
  constant S_ .f32 0x3F800000#32

def kv_main_v195 : (⟨S2048, .f32⟩ : BufTy).Contents (Elt F) :=
  broadcastInDim S2048 ![] bcast_S_S2048 (kv_main_cst_81 (F := F))

def kv_main_v196 : (⟨S2048, .f32⟩ : BufTy).Contents (Elt F) :=
  addf (kv_main_v186 (F := F) x1) (kv_main_v195 (F := F))

def kv_main_cst_82 : (⟨S_, .f32⟩ : BufTy).Contents (Elt F) :=
  constant S_ .f32 0x42000000#32

def kv_main_v197 : (⟨S2048, .f32⟩ : BufTy).Contents (Elt F) :=
  broadcastInDim S2048 ![] bcast_S_S2048 (kv_main_cst_82 (F := F))

def kv_main_v198 : (⟨S2048, .f32⟩ : BufTy).Contents (Elt F) :=
  mulf (kv_main_v196 (F := F) x1) (kv_main_v197 (F := F))

def kv_main_cst_83 : (⟨S_, .f32⟩ : BufTy).Contents (Elt F) :=
  constant S_ .f32 0x3F800000#32

def kv_main_v199 : (⟨S2048, .f32⟩ : BufTy).Contents (Elt F) :=
  broadcastInDim S2048 ![] bcast_S_S2048 (kv_main_cst_83 (F := F))

def kv_main_v200 : (⟨S2048, .f32⟩ : BufTy).Contents (Elt F) :=
  subf (kv_main_v198 (F := F) x1) (kv_main_v199 (F := F))

def kv_main_cst_84 : (⟨S_, .f32⟩ : BufTy).Contents (Elt F) :=
  constant S_ .f32 0x3F000000#32

def kv_main_v201 : (⟨S2048, .f32⟩ : BufTy).Contents (Elt F) :=
  broadcastInDim S2048 ![] bcast_S_S2048 (kv_main_cst_84 (F := F))

def kv_main_v202 : (⟨S2048, .f32⟩ : BufTy).Contents (Elt F) :=
  mulf (kv_main_v200 (F := F) x1) (kv_main_v201 (F := F))

def kv_main_v203 : (⟨S2048, .f32⟩ : BufTy).Contents (Elt F) :=
  Host.floor (kv_main_v194 (F := F) x1)

def kv_main_v204 : (⟨S2048, .f32⟩ : BufTy).Contents (Elt F) :=
  Host.floor (kv_main_v202 (F := F) x1)

def kv_main_v205 : (⟨S2048, .f32⟩ : BufTy).Contents (Elt F) :=
  subf (kv_main_v194 (F := F) x1) (kv_main_v203 (F := F) x1)

def kv_main_v206 : (⟨S2048, .f32⟩ : BufTy).Contents (Elt F) :=
  subf (kv_main_v202 (F := F) x1) (kv_main_v204 (F := F) x1)

def kv_main_v207 : (⟨S2048, .i32⟩ : BufTy).Contents (Elt F) :=
  fptosi 32 (kv_main_v203 (F := F) x1)

def kv_main_v208 : (⟨S2048, .i32⟩ : BufTy).Contents (Elt F) :=
  fptosi 32 (kv_main_v204 (F := F) x1)

def kv_main_v209 : (⟨S2048, .i32⟩ : BufTy).Contents (Elt F) :=
  iotaInDim S2048 32 0

def kv_main_cst_85 : (⟨S_, .f32⟩ : BufTy).Contents (Elt F) :=
  constant S_ .f32 0x00000000#32

def kv_main_v210 : (⟨S1024x2048, .f32⟩ : BufTy).Contents (Elt F) :=
  broadcastInDim S1024x2048 ![] bcast_S_S1024x2048 (kv_main_cst_85 (F := F))

def kv_main_cst_86 : (⟨S_, .f32⟩ : BufTy).Contents (Elt F) :=
  constant S_ .f32 0x3F800000#32

def kv_main_v211 : (⟨S2048, .f32⟩ : BufTy).Contents (Elt F) :=
  broadcastInDim S2048 ![] bcast_S_S2048 (kv_main_cst_86 (F := F))

def kv_main_v212 : (⟨S2048, .f32⟩ : BufTy).Contents (Elt F) :=
  subf (kv_main_v211 (F := F)) (kv_main_v206 (F := F) x1)

def kv_main_cst_87 : (⟨S_, .f32⟩ : BufTy).Contents (Elt F) :=
  constant S_ .f32 0x3F800000#32

def kv_main_v213 : (⟨S2048, .f32⟩ : BufTy).Contents (Elt F) :=
  broadcastInDim S2048 ![] bcast_S_S2048 (kv_main_cst_87 (F := F))

def kv_main_v214 : (⟨S2048, .f32⟩ : BufTy).Contents (Elt F) :=
  subf (kv_main_v213 (F := F)) (kv_main_v205 (F := F) x1)

def kv_main_v215 : (⟨S2048, .f32⟩ : BufTy).Contents (Elt F) :=
  mulf (kv_main_v212 (F := F) x1) (kv_main_v214 (F := F) x1)

def kv_main_cst_88 : (⟨S_, .f32⟩ : BufTy).Contents (Elt F) :=
  constant S_ .f32 0x3F800000#32

def kv_main_v216 : (⟨S2048, .f32⟩ : BufTy).Contents (Elt F) :=
  broadcastInDim S2048 ![] bcast_S_S2048 (kv_main_cst_88 (F := F))

def kv_main_v217 : (⟨S2048, .f32⟩ : BufTy).Contents (Elt F) :=
  subf (kv_main_v216 (F := F)) (kv_main_v206 (F := F) x1)

def kv_main_v218 : (⟨S2048, .f32⟩ : BufTy).Contents (Elt F) :=
  mulf (kv_main_v217 (F := F) x1) (kv_main_v205 (F := F) x1)

def kv_main_cst_89 : (⟨S_, .f32⟩ : BufTy).Contents (Elt F) :=
  constant S_ .f32 0x3F800000#32

def kv_main_v219 : (⟨S2048, .f32⟩ : BufTy).Contents (Elt F) :=
  broadcastInDim S2048 ![] bcast_S_S2048 (kv_main_cst_89 (F := F))

def kv_main_v220 : (⟨S2048, .f32⟩ : BufTy).Contents (Elt F) :=
  subf (kv_main_v219 (F := F)) (kv_main_v205 (F := F) x1)

def kv_main_v221 : (⟨S2048, .f32⟩ : BufTy).Contents (Elt F) :=
  mulf (kv_main_v206 (F := F) x1) (kv_main_v220 (F := F) x1)

def kv_main_v222 : (⟨S2048, .f32⟩ : BufTy).Contents (Elt F) :=
  mulf (kv_main_v206 (F := F) x1) (kv_main_v205 (F := F) x1)

def kv_main_c_90 : (⟨S_, .i32⟩ : BufTy).Contents (Elt F) :=
  constantI S_ 32 0#32

def kv_main_v223 : (⟨S2048, .i32⟩ : BufTy).Contents (Elt F) :=
  broadcastInDim S2048 ![] bcast_S_S2048 (kv_main_c_90 (F := F))

def kv_main_v224 : (⟨S2048, .i32⟩ : BufTy).Contents (Elt F) :=
  addi (kv_main_v208 (F := F) x1) (kv_main_v223 (F := F))

def kv_main_c_91 : (⟨S_, .i32⟩ : BufTy).Contents (Elt F) :=
  constantI S_ 32 0#32

def kv_main_v225 : (⟨S2048, .i32⟩ : BufTy).Contents (Elt F) :=
  broadcastInDim S2048 ![] bcast_S_S2048 (kv_main_c_91 (F := F))

def kv_main_v226 : (⟨S2048, .i32⟩ : BufTy).Contents (Elt F) :=
  addi (kv_main_v207 (F := F) x1) (kv_main_v225 (F := F))

def kv_main_c_92 : (⟨S_, .i32⟩ : BufTy).Contents (Elt F) :=
  constantI S_ 32 0#32

def kv_main_v227 : (⟨S2048, .i32⟩ : BufTy).Contents (Elt F) :=
  broadcastInDim S2048 ![] bcast_S_S2048 (kv_main_c_92 (F := F))

def kv_main_v228 : (⟨S2048, .i1⟩ : BufTy).Contents (Elt F) :=
  cmpi .sge (kv_main_v224 (F := F) x1) (kv_main_v227 (F := F))

def kv_main_c_93 : (⟨S_, .i32⟩ : BufTy).Contents (Elt F) :=
  constantI S_ 32 32#32

def kv_main_v229 : (⟨S2048, .i32⟩ : BufTy).Contents (Elt F) :=
  broadcastInDim S2048 ![] bcast_S_S2048 (kv_main_c_93 (F := F))

def kv_main_v230 : (⟨S2048, .i1⟩ : BufTy).Contents (Elt F) :=
  cmpi .slt (kv_main_v224 (F := F) x1) (kv_main_v229 (F := F))

def kv_main_v231 : (⟨S2048, .i1⟩ : BufTy).Contents (Elt F) :=
  andi (kv_main_v228 (F := F) x1) (kv_main_v230 (F := F) x1)

def kv_main_c_94 : (⟨S_, .i32⟩ : BufTy).Contents (Elt F) :=
  constantI S_ 32 0#32

def kv_main_v232 : (⟨S2048, .i32⟩ : BufTy).Contents (Elt F) :=
  broadcastInDim S2048 ![] bcast_S_S2048 (kv_main_c_94 (F := F))

def kv_main_v233 : (⟨S2048, .i1⟩ : BufTy).Contents (Elt F) :=
  cmpi .sge (kv_main_v226 (F := F) x1) (kv_main_v232 (F := F))

def kv_main_v234 : (⟨S2048, .i1⟩ : BufTy).Contents (Elt F) :=
  andi (kv_main_v231 (F := F) x1) (kv_main_v233 (F := F) x1)

def kv_main_c_95 : (⟨S_, .i32⟩ : BufTy).Contents (Elt F) :=
  constantI S_ 32 32#32

def kv_main_v235 : (⟨S2048, .i32⟩ : BufTy).Contents (Elt F) :=
  broadcastInDim S2048 ![] bcast_S_S2048 (kv_main_c_95 (F := F))

def kv_main_v236 : (⟨S2048, .i1⟩ : BufTy).Contents (Elt F) :=
  cmpi .slt (kv_main_v226 (F := F) x1) (kv_main_v235 (F := F))

def kv_main_v237 : (⟨S2048, .i1⟩ : BufTy).Contents (Elt F) :=
  andi (kv_main_v234 (F := F) x1) (kv_main_v236 (F := F) x1)

def kv_main_c_96 : (⟨S_, .i32⟩ : BufTy).Contents (Elt F) :=
  constantI S_ 32 0#32

def kv_main_c_97 : (⟨S_, .i32⟩ : BufTy).Contents (Elt F) :=
  constantI S_ 32 31#32

def kv_main_call13_v0 : (⟨S_, .i32⟩ : BufTy).Contents (Elt F) :=
  id (kv_main_c_96 (F := F))

def kv_main_call13_v1 : (⟨S2048, .i32⟩ : BufTy).Contents (Elt F) :=
  broadcastInDim S2048 ![] bcast_S_S2048 (kv_main_call13_v0 (F := F))

def kv_main_call13_v2 : (⟨S2048, .i32⟩ : BufTy).Contents (Elt F) :=
  maxsi (kv_main_call13_v1 (F := F)) (kv_main_v224 (F := F) x1)

def kv_main_call13_v3 : (⟨S_, .i32⟩ : BufTy).Contents (Elt F) :=
  id (kv_main_c_97 (F := F))

def kv_main_call13_v4 : (⟨S2048, .i32⟩ : BufTy).Contents (Elt F) :=
  broadcastInDim S2048 ![] bcast_S_S2048 (kv_main_call13_v3 (F := F))

def kv_main_v238 : (⟨S2048, .i32⟩ : BufTy).Contents (Elt F) :=
  minsi (kv_main_call13_v4 (F := F)) (kv_main_call13_v2 (F := F) x1)

def kv_main_c_98 : (⟨S_, .i32⟩ : BufTy).Contents (Elt F) :=
  constantI S_ 32 0#32

def kv_main_c_99 : (⟨S_, .i32⟩ : BufTy).Contents (Elt F) :=
  constantI S_ 32 31#32

def kv_main_call14_v0 : (⟨S_, .i32⟩ : BufTy).Contents (Elt F) :=
  id (kv_main_c_98 (F := F))

def kv_main_call14_v1 : (⟨S2048, .i32⟩ : BufTy).Contents (Elt F) :=
  broadcastInDim S2048 ![] bcast_S_S2048 (kv_main_call14_v0 (F := F))

def kv_main_call14_v2 : (⟨S2048, .i32⟩ : BufTy).Contents (Elt F) :=
  maxsi (kv_main_call14_v1 (F := F)) (kv_main_v226 (F := F) x1)

def kv_main_call14_v3 : (⟨S_, .i32⟩ : BufTy).Contents (Elt F) :=
  id (kv_main_c_99 (F := F))

def kv_main_call14_v4 : (⟨S2048, .i32⟩ : BufTy).Contents (Elt F) :=
  broadcastInDim S2048 ![] bcast_S_S2048 (kv_main_call14_v3 (F := F))

def kv_main_v239 : (⟨S2048, .i32⟩ : BufTy).Contents (Elt F) :=
  minsi (kv_main_call14_v4 (F := F)) (kv_main_call14_v2 (F := F) x1)

def kv_main_c_100 : (⟨S_, .i32⟩ : BufTy).Contents (Elt F) :=
  constantI S_ 32 32#32

def kv_main_v240 : (⟨S2048, .i32⟩ : BufTy).Contents (Elt F) :=
  broadcastInDim S2048 ![] bcast_S_S2048 (kv_main_c_100 (F := F))

def kv_main_v241 : (⟨S2048, .i32⟩ : BufTy).Contents (Elt F) :=
  muli (kv_main_v238 (F := F) x1) (kv_main_v240 (F := F))

def kv_main_v242 : (⟨S2048, .i32⟩ : BufTy).Contents (Elt F) :=
  addi (kv_main_v241 (F := F) x1) (kv_main_v239 (F := F) x1)

def kv_main_cst_101 : (⟨S_, .f32⟩ : BufTy).Contents (Elt F) :=
  constant S_ .f32 0x00000000#32

def kv_main_call15_v0 : (⟨S_, .f32⟩ : BufTy).Contents (Elt F) :=
  id (kv_main_cst_101 (F := F))

def kv_main_call15_v1 : (⟨S2048, .f32⟩ : BufTy).Contents (Elt F) :=
  broadcastInDim S2048 ![] bcast_S_S2048 (kv_main_call15_v0 (F := F))

def kv_main_v243 : (⟨S2048, .f32⟩ : BufTy).Contents (Elt F) :=
  select (kv_main_v237 (F := F) x1) (kv_main_v215 (F := F) x1) (kv_main_call15_v1 (F := F))

def kv_main_c_102 : (⟨S_, .i32⟩ : BufTy).Contents (Elt F) :=
  constantI S_ 32 0#32

def kv_main_v244 : (⟨S2048, .i32⟩ : BufTy).Contents (Elt F) :=
  broadcastInDim S2048 ![] bcast_S_S2048 (kv_main_c_102 (F := F))

def kv_main_v245 : (⟨S2048, .i1⟩ : BufTy).Contents (Elt F) :=
  cmpi .slt (kv_main_v242 (F := F) x1) (kv_main_v244 (F := F))

def kv_main_c_103 : (⟨S_, .i32⟩ : BufTy).Contents (Elt F) :=
  constantI S_ 32 1024#32

def kv_main_v246 : (⟨S2048, .i32⟩ : BufTy).Contents (Elt F) :=
  broadcastInDim S2048 ![] bcast_S_S2048 (kv_main_c_103 (F := F))

def kv_main_v247 : (⟨S2048, .i32⟩ : BufTy).Contents (Elt F) :=
  addi (kv_main_v242 (F := F) x1) (kv_main_v246 (F := F))

def kv_main_v248 : (⟨S2048, .i32⟩ : BufTy).Contents (Elt F) :=
  select (kv_main_v245 (F := F) x1) (kv_main_v247 (F := F) x1) (kv_main_v242 (F := F) x1)

def kv_main_c_104 : (⟨S_, .i32⟩ : BufTy).Contents (Elt F) :=
  constantI S_ 32 0#32

def kv_main_v249 : (⟨S2048, .i32⟩ : BufTy).Contents (Elt F) :=
  broadcastInDim S2048 ![] bcast_S_S2048 (kv_main_c_104 (F := F))

def kv_main_v250 : (⟨S2048, .i1⟩ : BufTy).Contents (Elt F) :=
  cmpi .slt (kv_main_v209 (F := F)) (kv_main_v249 (F := F))

def kv_main_c_105 : (⟨S_, .i32⟩ : BufTy).Contents (Elt F) :=
  constantI S_ 32 2048#32

def kv_main_v251 : (⟨S2048, .i32⟩ : BufTy).Contents (Elt F) :=
  broadcastInDim S2048 ![] bcast_S_S2048 (kv_main_c_105 (F := F))

def kv_main_v252 : (⟨S2048, .i32⟩ : BufTy).Contents (Elt F) :=
  addi (kv_main_v209 (F := F)) (kv_main_v251 (F := F))

def kv_main_v253 : (⟨S2048, .i32⟩ : BufTy).Contents (Elt F) :=
  select (kv_main_v250 (F := F)) (kv_main_v252 (F := F)) (kv_main_v209 (F := F))

def kv_main_v254 : (⟨S2048x1, .i32⟩ : BufTy).Contents (Elt F) :=
  broadcastInDim S2048x1 ![0] bcast_S2048_S2048x1_0 (kv_main_v248 (F := F) x1)

def kv_main_v255 : (⟨S2048x1, .i32⟩ : BufTy).Contents (Elt F) :=
  broadcastInDim S2048x1 ![0] bcast_S2048_S2048x1_0 (kv_main_v253 (F := F))

def kv_main_v256 : (⟨S2048x2, .i32⟩ : BufTy).Contents (Elt F) :=
  ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)) (kv_main_v254 (F := F) x1) (kv_main_v255 (F := F))

def kv_main_v257 : (⟨S1024x2048, .f32⟩ : BufTy).Contents (Elt F) :=
  ((fun x i u => Host.scatterAdd scatter_S1024x2048_S2048x2_S2048_n_01_01_1 x i u) : (⟨S1024x2048, .f32⟩ : BufTy).Contents (Elt F) → (⟨S2048x2, .i32⟩ : BufTy).Contents (Elt F) → (⟨S2048, .f32⟩ : BufTy).Contents (Elt F) → (⟨S1024x2048, .f32⟩ : BufTy).Contents (Elt F)) (kv_main_v210 (F := F)) (kv_main_v256 (F := F) x1) (kv_main_v243 (F := F) x1)

def kv_main_c_106 : (⟨S_, .i32⟩ : BufTy).Contents (Elt F) :=
  constantI S_ 32 0#32

def kv_main_v258 : (⟨S2048, .i32⟩ : BufTy).Contents (Elt F) :=
  broadcastInDim S2048 ![] bcast_S_S2048 (kv_main_c_106 (F := F))

def kv_main_v259 : (⟨S2048, .i32⟩ : BufTy).Contents (Elt F) :=
  addi (kv_main_v208 (F := F) x1) (kv_main_v258 (F := F))

def kv_main_c_107 : (⟨S_, .i32⟩ : BufTy).Contents (Elt F) :=
  constantI S_ 32 1#32

def kv_main_v260 : (⟨S2048, .i32⟩ : BufTy).Contents (Elt F) :=
  broadcastInDim S2048 ![] bcast_S_S2048 (kv_main_c_107 (F := F))

def kv_main_v261 : (⟨S2048, .i32⟩ : BufTy).Contents (Elt F) :=
  addi (kv_main_v207 (F := F) x1) (kv_main_v260 (F := F))

def kv_main_c_108 : (⟨S_, .i32⟩ : BufTy).Contents (Elt F) :=
  constantI S_ 32 0#32

def kv_main_v262 : (⟨S2048, .i32⟩ : BufTy).Contents (Elt F) :=
  broadcastInDim S2048 ![] bcast_S_S2048 (kv_main_c_108 (F := F))

def kv_main_v263 : (⟨S2048, .i1⟩ : BufTy).Contents (Elt F) :=
  cmpi .sge (kv_main_v259 (F := F) x1) (kv_main_v262 (F := F))

def kv_main_c_109 : (⟨S_, .i32⟩ : BufTy).Contents (Elt F) :=
  constantI S_ 32 32#32

def kv_main_v264 : (⟨S2048, .i32⟩ : BufTy).Contents (Elt F) :=
  broadcastInDim S2048 ![] bcast_S_S2048 (kv_main_c_109 (F := F))

def kv_main_v265 : (⟨S2048, .i1⟩ : BufTy).Contents (Elt F) :=
  cmpi .slt (kv_main_v259 (F := F) x1) (kv_main_v264 (F := F))

def kv_main_v266 : (⟨S2048, .i1⟩ : BufTy).Contents (Elt F) :=
  andi (kv_main_v263 (F := F) x1) (kv_main_v265 (F := F) x1)

def kv_main_c_110 : (⟨S_, .i32⟩ : BufTy).Contents (Elt F) :=
  constantI S_ 32 0#32

def kv_main_v267 : (⟨S2048, .i32⟩ : BufTy).Contents (Elt F) :=
  broadcastInDim S2048 ![] bcast_S_S2048 (kv_main_c_110 (F := F))

def kv_main_v268 : (⟨S2048, .i1⟩ : BufTy).Contents (Elt F) :=
  cmpi .sge (kv_main_v261 (F := F) x1) (kv_main_v267 (F := F))

def kv_main_v269 : (⟨S2048, .i1⟩ : BufTy).Contents (Elt F) :=
  andi (kv_main_v266 (F := F) x1) (kv_main_v268 (F := F) x1)

def kv_main_c_111 : (⟨S_, .i32⟩ : BufTy).Contents (Elt F) :=
  constantI S_ 32 32#32

def kv_main_v270 : (⟨S2048, .i32⟩ : BufTy).Contents (Elt F) :=
  broadcastInDim S2048 ![] bcast_S_S2048 (kv_main_c_111 (F := F))

def kv_main_v271 : (⟨S2048, .i1⟩ : BufTy).Contents (Elt F) :=
  cmpi .slt (kv_main_v261 (F := F) x1) (kv_main_v270 (F := F))

def kv_main_v272 : (⟨S2048, .i1⟩ : BufTy).Contents (Elt F) :=
  andi (kv_main_v269 (F := F) x1) (kv_main_v271 (F := F) x1)

def kv_main_c_112 : (⟨S_, .i32⟩ : BufTy).Contents (Elt F) :=
  constantI S_ 32 0#32

def kv_main_c_113 : (⟨S_, .i32⟩ : BufTy).Contents (Elt F) :=
  constantI S_ 32 31#32

def kv_main_call16_v0 : (⟨S_, .i32⟩ : BufTy).Contents (Elt F) :=
  id (kv_main_c_112 (F := F))

def kv_main_call16_v1 : (⟨S2048, .i32⟩ : BufTy).Contents (Elt F) :=
  broadcastInDim S2048 ![] bcast_S_S2048 (kv_main_call16_v0 (F := F))

def kv_main_call16_v2 : (⟨S2048, .i32⟩ : BufTy).Contents (Elt F) :=
  maxsi (kv_main_call16_v1 (F := F)) (kv_main_v259 (F := F) x1)

def kv_main_call16_v3 : (⟨S_, .i32⟩ : BufTy).Contents (Elt F) :=
  id (kv_main_c_113 (F := F))

def kv_main_call16_v4 : (⟨S2048, .i32⟩ : BufTy).Contents (Elt F) :=
  broadcastInDim S2048 ![] bcast_S_S2048 (kv_main_call16_v3 (F := F))

def kv_main_v273 : (⟨S2048, .i32⟩ : BufTy).Contents (Elt F) :=
  minsi (kv_main_call16_v4 (F := F)) (kv_main_call16_v2 (F := F) x1)

def kv_main_c_114 : (⟨S_, .i32⟩ : BufTy).Contents (Elt F) :=
  constantI S_ 32 0#32

def kv_main_c_115 : (⟨S_, .i32⟩ : BufTy).Contents (Elt F) :=
  constantI S_ 32 31#32

def kv_main_call17_v0 : (⟨S_, .i32⟩ : BufTy).Contents (Elt F) :=
  id (kv_main_c_114 (F := F))

def kv_main_call17_v1 : (⟨S2048, .i32⟩ : BufTy).Contents (Elt F) :=
  broadcastInDim S2048 ![] bcast_S_S2048 (kv_main_call17_v0 (F := F))

def kv_main_call17_v2 : (⟨S2048, .i32⟩ : BufTy).Contents (Elt F) :=
  maxsi (kv_main_call17_v1 (F := F)) (kv_main_v261 (F := F) x1)

def kv_main_call17_v3 : (⟨S_, .i32⟩ : BufTy).Contents (Elt F) :=
  id (kv_main_c_115 (F := F))

def kv_main_call17_v4 : (⟨S2048, .i32⟩ : BufTy).Contents (Elt F) :=
  broadcastInDim S2048 ![] bcast_S_S2048 (kv_main_call17_v3 (F := F))

def kv_main_v274 : (⟨S2048, .i32⟩ : BufTy).Contents (Elt F) :=
  minsi (kv_main_call17_v4 (F := F)) (kv_main_call17_v2 (F := F) x1)

def kv_main_c_116 : (⟨S_, .i32⟩ : BufTy).Contents (Elt F) :=
  constantI S_ 32 32#32

def kv_main_v275 : (⟨S2048, .i32⟩ : BufTy).Contents (Elt F) :=
  broadcastInDim S2048 ![] bcast_S_S2048 (kv_main_c_116 (F := F))

def kv_main_v276 : (⟨S2048, .i32⟩ : BufTy).Contents (Elt F) :=
  muli (kv_main_v273 (F := F) x1) (kv_main_v275 (F := F))

def kv_main_v277 : (⟨S2048, .i32⟩ : BufTy).Contents (Elt F) :=
  addi (kv_main_v276 (F := F) x1) (kv_main_v274 (F := F) x1)

def kv_main_cst_117 : (⟨S_, .f32⟩ : BufTy).Contents (Elt F) :=
  constant S_ .f32 0x00000000#32

def kv_main_call18_v0 : (⟨S_, .f32⟩ : BufTy).Contents (Elt F) :=
  id (kv_main_cst_117 (F := F))

def kv_main_call18_v1 : (⟨S2048, .f32⟩ : BufTy).Contents (Elt F) :=
  broadcastInDim S2048 ![] bcast_S_S2048 (kv_main_call18_v0 (F := F))

def kv_main_v278 : (⟨S2048, .f32⟩ : BufTy).Contents (Elt F) :=
  select (kv_main_v272 (F := F) x1) (kv_main_v218 (F := F) x1) (kv_main_call18_v1 (F := F))

def kv_main_c_118 : (⟨S_, .i32⟩ : BufTy).Contents (Elt F) :=
  constantI S_ 32 0#32

def kv_main_v279 : (⟨S2048, .i32⟩ : BufTy).Contents (Elt F) :=
  broadcastInDim S2048 ![] bcast_S_S2048 (kv_main_c_118 (F := F))

def kv_main_v280 : (⟨S2048, .i1⟩ : BufTy).Contents (Elt F) :=
  cmpi .slt (kv_main_v277 (F := F) x1) (kv_main_v279 (F := F))

def kv_main_c_119 : (⟨S_, .i32⟩ : BufTy).Contents (Elt F) :=
  constantI S_ 32 1024#32

def kv_main_v281 : (⟨S2048, .i32⟩ : BufTy).Contents (Elt F) :=
  broadcastInDim S2048 ![] bcast_S_S2048 (kv_main_c_119 (F := F))

def kv_main_v282 : (⟨S2048, .i32⟩ : BufTy).Contents (Elt F) :=
  addi (kv_main_v277 (F := F) x1) (kv_main_v281 (F := F))

def kv_main_v283 : (⟨S2048, .i32⟩ : BufTy).Contents (Elt F) :=
  select (kv_main_v280 (F := F) x1) (kv_main_v282 (F := F) x1) (kv_main_v277 (F := F) x1)

def kv_main_c_120 : (⟨S_, .i32⟩ : BufTy).Contents (Elt F) :=
  constantI S_ 32 0#32

def kv_main_v284 : (⟨S2048, .i32⟩ : BufTy).Contents (Elt F) :=
  broadcastInDim S2048 ![] bcast_S_S2048 (kv_main_c_120 (F := F))

def kv_main_v285 : (⟨S2048, .i1⟩ : BufTy).Contents (Elt F) :=
  cmpi .slt (kv_main_v209 (F := F)) (kv_main_v284 (F := F))

def kv_main_c_121 : (⟨S_, .i32⟩ : BufTy).Contents (Elt F) :=
  constantI S_ 32 2048#32

def kv_main_v286 : (⟨S2048, .i32⟩ : BufTy).Contents (Elt F) :=
  broadcastInDim S2048 ![] bcast_S_S2048 (kv_main_c_121 (F := F))

def kv_main_v287 : (⟨S2048, .i32⟩ : BufTy).Contents (Elt F) :=
  addi (kv_main_v209 (F := F)) (kv_main_v286 (F := F))

def kv_main_v288 : (⟨S2048, .i32⟩ : BufTy).Contents (Elt F) :=
  select (kv_main_v285 (F := F)) (kv_main_v287 (F := F)) (kv_main_v209 (F := F))

def kv_main_v289 : (⟨S2048x1, .i32⟩ : BufTy).Contents (Elt F) :=
  broadcastInDim S2048x1 ![0] bcast_S2048_S2048x1_0 (kv_main_v283 (F := F) x1)

def kv_main_v290 : (⟨S2048x1, .i32⟩ : BufTy).Contents (Elt F) :=
  broadcastInDim S2048x1 ![0] bcast_S2048_S2048x1_0 (kv_main_v288 (F := F))

def kv_main_v291 : (⟨S2048x2, .i32⟩ : BufTy).Contents (Elt F) :=
  ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)) (kv_main_v289 (F := F) x1) (kv_main_v290 (F := F))

def kv_main_v292 : (⟨S1024x2048, .f32⟩ : BufTy).Contents (Elt F) :=
  ((fun x i u => Host.scatterAdd scatter_S1024x2048_S2048x2_S2048_n_01_01_1 x i u) : (⟨S1024x2048, .f32⟩ : BufTy).Contents (Elt F) → (⟨S2048x2, .i32⟩ : BufTy).Contents (Elt F) → (⟨S2048, .f32⟩ : BufTy).Contents (Elt F) → (⟨S1024x2048, .f32⟩ : BufTy).Contents (Elt F)) (kv_main_v257 (F := F) x1) (kv_main_v291 (F := F) x1) (kv_main_v278 (F := F) x1)

def kv_main_c_122 : (⟨S_, .i32⟩ : BufTy).Contents (Elt F) :=
  constantI S_ 32 1#32

def kv_main_v293 : (⟨S2048, .i32⟩ : BufTy).Contents (Elt F) :=
  broadcastInDim S2048 ![] bcast_S_S2048 (kv_main_c_122 (F := F))

def kv_main_v294 : (⟨S2048, .i32⟩ : BufTy).Contents (Elt F) :=
  addi (kv_main_v208 (F := F) x1) (kv_main_v293 (F := F))

def kv_main_c_123 : (⟨S_, .i32⟩ : BufTy).Contents (Elt F) :=
  constantI S_ 32 0#32

def kv_main_v295 : (⟨S2048, .i32⟩ : BufTy).Contents (Elt F) :=
  broadcastInDim S2048 ![] bcast_S_S2048 (kv_main_c_123 (F := F))

def kv_main_v296 : (⟨S2048, .i32⟩ : BufTy).Contents (Elt F) :=
  addi (kv_main_v207 (F := F) x1) (kv_main_v295 (F := F))

def kv_main_c_124 : (⟨S_, .i32⟩ : BufTy).Contents (Elt F) :=
  constantI S_ 32 0#32

def kv_main_v297 : (⟨S2048, .i32⟩ : BufTy).Contents (Elt F) :=
  broadcastInDim S2048 ![] bcast_S_S2048 (kv_main_c_124 (F := F))

def kv_main_v298 : (⟨S2048, .i1⟩ : BufTy).Contents (Elt F) :=
  cmpi .sge (kv_main_v294 (F := F) x1) (kv_main_v297 (F := F))

def kv_main_c_125 : (⟨S_, .i32⟩ : BufTy).Contents (Elt F) :=
  constantI S_ 32 32#32

def kv_main_v299 : (⟨S2048, .i32⟩ : BufTy).Contents (Elt F) :=
  broadcastInDim S2048 ![] bcast_S_S2048 (kv_main_c_125 (F := F))

def kv_main_v300 : (⟨S2048, .i1⟩ : BufTy).Contents (Elt F) :=
  cmpi .slt (kv_main_v294 (F := F) x1) (kv_main_v299 (F := F))

def kv_main_v301 : (⟨S2048, .i1⟩ : BufTy).Contents (Elt F) :=
  andi (kv_main_v298 (F := F) x1) (kv_main_v300 (F := F) x1)

def kv_main_c_126 : (⟨S_, .i32⟩ : BufTy).Contents (Elt F) :=
  constantI S_ 32 0#32

def kv_main_v302 : (⟨S2048, .i32⟩ : BufTy).Contents (Elt F) :=
  broadcastInDim S2048 ![] bcast_S_S2048 (kv_main_c_126 (F := F))

def kv_main_v303 : (⟨S2048, .i1⟩ : BufTy).Contents (Elt F) :=
  cmpi .sge (kv_main_v296 (F := F) x1) (kv_main_v302 (F := F))

def kv_main_v304 : (⟨S2048, .i1⟩ : BufTy).Contents (Elt F) :=
  andi (kv_main_v301 (F := F) x1) (kv_main_v303 (F := F) x1)

def kv_main_c_127 : (⟨S_, .i32⟩ : BufTy).Contents (Elt F) :=
  constantI S_ 32 32#32

def kv_main_v305 : (⟨S2048, .i32⟩ : BufTy).Contents (Elt F) :=
  broadcastInDim S2048 ![] bcast_S_S2048 (kv_main_c_127 (F := F))

def kv_main_v306 : (⟨S2048, .i1⟩ : BufTy).Contents (Elt F) :=
  cmpi .slt (kv_main_v296 (F := F) x1) (kv_main_v305 (F := F))

def kv_main_v307 : (⟨S2048, .i1⟩ : BufTy).Contents (Elt F) :=
  andi (kv_main_v304 (F := F) x1) (kv_main_v306 (F := F) x1)

def kv_main_c_128 : (⟨S_, .i32⟩ : BufTy).Contents (Elt F) :=
  constantI S_ 32 0#32

def kv_main_c_129 : (⟨S_, .i32⟩ : BufTy).Contents (Elt F) :=
  constantI S_ 32 31#32

def kv_main_call19_v0 : (⟨S_, .i32⟩ : BufTy).Contents (Elt F) :=
  id (kv_main_c_128 (F := F))

def kv_main_call19_v1 : (⟨S2048, .i32⟩ : BufTy).Contents (Elt F) :=
  broadcastInDim S2048 ![] bcast_S_S2048 (kv_main_call19_v0 (F := F))

def kv_main_call19_v2 : (⟨S2048, .i32⟩ : BufTy).Contents (Elt F) :=
  maxsi (kv_main_call19_v1 (F := F)) (kv_main_v294 (F := F) x1)

def kv_main_call19_v3 : (⟨S_, .i32⟩ : BufTy).Contents (Elt F) :=
  id (kv_main_c_129 (F := F))

def kv_main_call19_v4 : (⟨S2048, .i32⟩ : BufTy).Contents (Elt F) :=
  broadcastInDim S2048 ![] bcast_S_S2048 (kv_main_call19_v3 (F := F))

def kv_main_v308 : (⟨S2048, .i32⟩ : BufTy).Contents (Elt F) :=
  minsi (kv_main_call19_v4 (F := F)) (kv_main_call19_v2 (F := F) x1)

def kv_main_c_130 : (⟨S_, .i32⟩ : BufTy).Contents (Elt F) :=
  constantI S_ 32 0#32

def kv_main_c_131 : (⟨S_, .i32⟩ : BufTy).Contents (Elt F) :=
  constantI S_ 32 31#32

def kv_main_call20_v0 : (⟨S_, .i32⟩ : BufTy).Contents (Elt F) :=
  id (kv_main_c_130 (F := F))

def kv_main_call20_v1 : (⟨S2048, .i32⟩ : BufTy).Contents (Elt F) :=
  broadcastInDim S2048 ![] bcast_S_S2048 (kv_main_call20_v0 (F := F))

def kv_main_call20_v2 : (⟨S2048, .i32⟩ : BufTy).Contents (Elt F) :=
  maxsi (kv_main_call20_v1 (F := F)) (kv_main_v296 (F := F) x1)

def kv_main_call20_v3 : (⟨S_, .i32⟩ : BufTy).Contents (Elt F) :=
  id (kv_main_c_131 (F := F))

def kv_main_call20_v4 : (⟨S2048, .i32⟩ : BufTy).Contents (Elt F) :=
  broadcastInDim S2048 ![] bcast_S_S2048 (kv_main_call20_v3 (F := F))

def kv_main_v309 : (⟨S2048, .i32⟩ : BufTy).Contents (Elt F) :=
  minsi (kv_main_call20_v4 (F := F)) (kv_main_call20_v2 (F := F) x1)

def kv_main_c_132 : (⟨S_, .i32⟩ : BufTy).Contents (Elt F) :=
  constantI S_ 32 32#32

def kv_main_v310 : (⟨S2048, .i32⟩ : BufTy).Contents (Elt F) :=
  broadcastInDim S2048 ![] bcast_S_S2048 (kv_main_c_132 (F := F))

def kv_main_v311 : (⟨S2048, .i32⟩ : BufTy).Contents (Elt F) :=
  muli (kv_main_v308 (F := F) x1) (kv_main_v310 (F := F))

def kv_main_v312 : (⟨S2048, .i32⟩ : BufTy).Contents (Elt F) :=
  addi (kv_main_v311 (F := F) x1) (kv_main_v309 (F := F) x1)

def kv_main_cst_133 : (⟨S_, .f32⟩ : BufTy).Contents (Elt F) :=
  constant S_ .f32 0x00000000#32

def kv_main_call21_v0 : (⟨S_, .f32⟩ : BufTy).Contents (Elt F) :=
  id (kv_main_cst_133 (F := F))

def kv_main_call21_v1 : (⟨S2048, .f32⟩ : BufTy).Contents (Elt F) :=
  broadcastInDim S2048 ![] bcast_S_S2048 (kv_main_call21_v0 (F := F))

def kv_main_v313 : (⟨S2048, .f32⟩ : BufTy).Contents (Elt F) :=
  select (kv_main_v307 (F := F) x1) (kv_main_v221 (F := F) x1) (kv_main_call21_v1 (F := F))

def kv_main_c_134 : (⟨S_, .i32⟩ : BufTy).Contents (Elt F) :=
  constantI S_ 32 0#32

def kv_main_v314 : (⟨S2048, .i32⟩ : BufTy).Contents (Elt F) :=
  broadcastInDim S2048 ![] bcast_S_S2048 (kv_main_c_134 (F := F))

def kv_main_v315 : (⟨S2048, .i1⟩ : BufTy).Contents (Elt F) :=
  cmpi .slt (kv_main_v312 (F := F) x1) (kv_main_v314 (F := F))

def kv_main_c_135 : (⟨S_, .i32⟩ : BufTy).Contents (Elt F) :=
  constantI S_ 32 1024#32

def kv_main_v316 : (⟨S2048, .i32⟩ : BufTy).Contents (Elt F) :=
  broadcastInDim S2048 ![] bcast_S_S2048 (kv_main_c_135 (F := F))

def kv_main_v317 : (⟨S2048, .i32⟩ : BufTy).Contents (Elt F) :=
  addi (kv_main_v312 (F := F) x1) (kv_main_v316 (F := F))

def kv_main_v318 : (⟨S2048, .i32⟩ : BufTy).Contents (Elt F) :=
  select (kv_main_v315 (F := F) x1) (kv_main_v317 (F := F) x1) (kv_main_v312 (F := F) x1)

def kv_main_c_136 : (⟨S_, .i32⟩ : BufTy).Contents (Elt F) :=
  constantI S_ 32 0#32

def kv_main_v319 : (⟨S2048, .i32⟩ : BufTy).Contents (Elt F) :=
  broadcastInDim S2048 ![] bcast_S_S2048 (kv_main_c_136 (F := F))

def kv_main_v320 : (⟨S2048, .i1⟩ : BufTy).Contents (Elt F) :=
  cmpi .slt (kv_main_v209 (F := F)) (kv_main_v319 (F := F))

def kv_main_c_137 : (⟨S_, .i32⟩ : BufTy).Contents (Elt F) :=
  constantI S_ 32 2048#32

def kv_main_v321 : (⟨S2048, .i32⟩ : BufTy).Contents (Elt F) :=
  broadcastInDim S2048 ![] bcast_S_S2048 (kv_main_c_137 (F := F))

def kv_main_v322 : (⟨S2048, .i32⟩ : BufTy).Contents (Elt F) :=
  addi (kv_main_v209 (F := F)) (kv_main_v321 (F := F))

def kv_main_v323 : (⟨S2048, .i32⟩ : BufTy).Contents (Elt F) :=
  select (kv_main_v320 (F := F)) (kv_main_v322 (F := F)) (kv_main_v209 (F := F))

def kv_main_v324 : (⟨S2048x1, .i32⟩ : BufTy).Contents (Elt F) :=
  broadcastInDim S2048x1 ![0] bcast_S2048_S2048x1_0 (kv_main_v318 (F := F) x1)

def kv_main_v325 : (⟨S2048x1, .i32⟩ : BufTy).Contents (Elt F) :=
  broadcastInDim S2048x1 ![0] bcast_S2048_S2048x1_0 (kv_main_v323 (F := F))

def kv_main_v326 : (⟨S2048x2, .i32⟩ : BufTy).Contents (Elt F) :=
  ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)) (kv_main_v324 (F := F) x1) (kv_main_v325 (F := F))

def kv_main_v327 : (⟨S1024x2048, .f32⟩ : BufTy).Contents (Elt F) :=
  ((fun x i u => Host.scatterAdd scatter_S1024x2048_S2048x2_S2048_n_01_01_1 x i u) : (⟨S1024x2048, .f32⟩ : BufTy).Contents (Elt F) → (⟨S2048x2, .i32⟩ : BufTy).Contents (Elt F) → (⟨S2048, .f32⟩ : BufTy).Contents (Elt F) → (⟨S1024x2048, .f32⟩ : BufTy).Contents (Elt F)) (kv_main_v292 (F := F) x1) (kv_main_v326 (F := F) x1) (kv_main_v313 (F := F) x1)

def kv_main_c_138 : (⟨S_, .i32⟩ : BufTy).Contents (Elt F) :=
  constantI S_ 32 1#32

def kv_main_v328 : (⟨S2048, .i32⟩ : BufTy).Contents (Elt F) :=
  broadcastInDim S2048 ![] bcast_S_S2048 (kv_main_c_138 (F := F))

def kv_main_v329 : (⟨S2048, .i32⟩ : BufTy).Contents (Elt F) :=
  addi (kv_main_v208 (F := F) x1) (kv_main_v328 (F := F))

def kv_main_c_139 : (⟨S_, .i32⟩ : BufTy).Contents (Elt F) :=
  constantI S_ 32 1#32

def kv_main_v330 : (⟨S2048, .i32⟩ : BufTy).Contents (Elt F) :=
  broadcastInDim S2048 ![] bcast_S_S2048 (kv_main_c_139 (F := F))

def kv_main_v331 : (⟨S2048, .i32⟩ : BufTy).Contents (Elt F) :=
  addi (kv_main_v207 (F := F) x1) (kv_main_v330 (F := F))

def kv_main_c_140 : (⟨S_, .i32⟩ : BufTy).Contents (Elt F) :=
  constantI S_ 32 0#32

def kv_main_v332 : (⟨S2048, .i32⟩ : BufTy).Contents (Elt F) :=
  broadcastInDim S2048 ![] bcast_S_S2048 (kv_main_c_140 (F := F))

def kv_main_v333 : (⟨S2048, .i1⟩ : BufTy).Contents (Elt F) :=
  cmpi .sge (kv_main_v329 (F := F) x1) (kv_main_v332 (F := F))

def kv_main_c_141 : (⟨S_, .i32⟩ : BufTy).Contents (Elt F) :=
  constantI S_ 32 32#32

def kv_main_v334 : (⟨S2048, .i32⟩ : BufTy).Contents (Elt F) :=
  broadcastInDim S2048 ![] bcast_S_S2048 (kv_main_c_141 (F := F))

def kv_main_v335 : (⟨S2048, .i1⟩ : BufTy).Contents (Elt F) :=
  cmpi .slt (kv_main_v329 (F := F) x1) (kv_main_v334 (F := F))

def kv_main_v336 : (⟨S2048, .i1⟩ : BufTy).Contents (Elt F) :=
  andi (kv_main_v333 (F := F) x1) (kv_main_v335 (F := F) x1)

def kv_main_c_142 : (⟨S_, .i32⟩ : BufTy).Contents (Elt F) :=
  constantI S_ 32 0#32

def kv_main_v337 : (⟨S2048, .i32⟩ : BufTy).Contents (Elt F) :=
  broadcastInDim S2048 ![] bcast_S_S2048 (kv_main_c_142 (F := F))

def kv_main_v338 : (⟨S2048, .i1⟩ : BufTy).Contents (Elt F) :=
  cmpi .sge (kv_main_v331 (F := F) x1) (kv_main_v337 (F := F))

def kv_main_v339 : (⟨S2048, .i1⟩ : BufTy).Contents (Elt F) :=
  andi (kv_main_v336 (F := F) x1) (kv_main_v338 (F := F) x1)

def kv_main_c_143 : (⟨S_, .i32⟩ : BufTy).Contents (Elt F) :=
  constantI S_ 32 32#32

def kv_main_v340 : (⟨S2048, .i32⟩ : BufTy).Contents (Elt F) :=
  broadcastInDim S2048 ![] bcast_S_S2048 (kv_main_c_143 (F := F))

def kv_main_v341 : (⟨S2048, .i1⟩ : BufTy).Contents (Elt F) :=
  cmpi .slt (kv_main_v331 (F := F) x1) (kv_main_v340 (F := F))

def kv_main_v342 : (⟨S2048, .i1⟩ : BufTy).Contents (Elt F) :=
  andi (kv_main_v339 (F := F) x1) (kv_main_v341 (F := F) x1)

def kv_main_c_144 : (⟨S_, .i32⟩ : BufTy).Contents (Elt F) :=
  constantI S_ 32 0#32

def kv_main_c_145 : (⟨S_, .i32⟩ : BufTy).Contents (Elt F) :=
  constantI S_ 32 31#32

def kv_main_call22_v0 : (⟨S_, .i32⟩ : BufTy).Contents (Elt F) :=
  id (kv_main_c_144 (F := F))

def kv_main_call22_v1 : (⟨S2048, .i32⟩ : BufTy).Contents (Elt F) :=
  broadcastInDim S2048 ![] bcast_S_S2048 (kv_main_call22_v0 (F := F))

def kv_main_call22_v2 : (⟨S2048, .i32⟩ : BufTy).Contents (Elt F) :=
  maxsi (kv_main_call22_v1 (F := F)) (kv_main_v329 (F := F) x1)

def kv_main_call22_v3 : (⟨S_, .i32⟩ : BufTy).Contents (Elt F) :=
  id (kv_main_c_145 (F := F))

def kv_main_call22_v4 : (⟨S2048, .i32⟩ : BufTy).Contents (Elt F) :=
  broadcastInDim S2048 ![] bcast_S_S2048 (kv_main_call22_v3 (F := F))

def kv_main_v343 : (⟨S2048, .i32⟩ : BufTy).Contents (Elt F) :=
  minsi (kv_main_call22_v4 (F := F)) (kv_main_call22_v2 (F := F) x1)

def kv_main_c_146 : (⟨S_, .i32⟩ : BufTy).Contents (Elt F) :=
  constantI S_ 32 0#32

def kv_main_c_147 : (⟨S_, .i32⟩ : BufTy).Contents (Elt F) :=
  constantI S_ 32 31#32

def kv_main_call23_v0 : (⟨S_, .i32⟩ : BufTy).Contents (Elt F) :=
  id (kv_main_c_146 (F := F))

def kv_main_call23_v1 : (⟨S2048, .i32⟩ : BufTy).Contents (Elt F) :=
  broadcastInDim S2048 ![] bcast_S_S2048 (kv_main_call23_v0 (F := F))

def kv_main_call23_v2 : (⟨S2048, .i32⟩ : BufTy).Contents (Elt F) :=
  maxsi (kv_main_call23_v1 (F := F)) (kv_main_v331 (F := F) x1)

def kv_main_call23_v3 : (⟨S_, .i32⟩ : BufTy).Contents (Elt F) :=
  id (kv_main_c_147 (F := F))

def kv_main_call23_v4 : (⟨S2048, .i32⟩ : BufTy).Contents (Elt F) :=
  broadcastInDim S2048 ![] bcast_S_S2048 (kv_main_call23_v3 (F := F))

def kv_main_v344 : (⟨S2048, .i32⟩ : BufTy).Contents (Elt F) :=
  minsi (kv_main_call23_v4 (F := F)) (kv_main_call23_v2 (F := F) x1)

def kv_main_c_148 : (⟨S_, .i32⟩ : BufTy).Contents (Elt F) :=
  constantI S_ 32 32#32

def kv_main_v345 : (⟨S2048, .i32⟩ : BufTy).Contents (Elt F) :=
  broadcastInDim S2048 ![] bcast_S_S2048 (kv_main_c_148 (F := F))

def kv_main_v346 : (⟨S2048, .i32⟩ : BufTy).Contents (Elt F) :=
  muli (kv_main_v343 (F := F) x1) (kv_main_v345 (F := F))

def kv_main_v347 : (⟨S2048, .i32⟩ : BufTy).Contents (Elt F) :=
  addi (kv_main_v346 (F := F) x1) (kv_main_v344 (F := F) x1)

def kv_main_cst_149 : (⟨S_, .f32⟩ : BufTy).Contents (Elt F) :=
  constant S_ .f32 0x00000000#32

def kv_main_call24_v0 : (⟨S_, .f32⟩ : BufTy).Contents (Elt F) :=
  id (kv_main_cst_149 (F := F))

def kv_main_call24_v1 : (⟨S2048, .f32⟩ : BufTy).Contents (Elt F) :=
  broadcastInDim S2048 ![] bcast_S_S2048 (kv_main_call24_v0 (F := F))

def kv_main_v348 : (⟨S2048, .f32⟩ : BufTy).Contents (Elt F) :=
  select (kv_main_v342 (F := F) x1) (kv_main_v222 (F := F) x1) (kv_main_call24_v1 (F := F))

def kv_main_c_150 : (⟨S_, .i32⟩ : BufTy).Contents (Elt F) :=
  constantI S_ 32 0#32

def kv_main_v349 : (⟨S2048, .i32⟩ : BufTy).Contents (Elt F) :=
  broadcastInDim S2048 ![] bcast_S_S2048 (kv_main_c_150 (F := F))

def kv_main_v350 : (⟨S2048, .i1⟩ : BufTy).Contents (Elt F) :=
  cmpi .slt (kv_main_v347 (F := F) x1) (kv_main_v349 (F := F))

def kv_main_c_151 : (⟨S_, .i32⟩ : BufTy).Contents (Elt F) :=
  constantI S_ 32 1024#32

def kv_main_v351 : (⟨S2048, .i32⟩ : BufTy).Contents (Elt F) :=
  broadcastInDim S2048 ![] bcast_S_S2048 (kv_main_c_151 (F := F))

def kv_main_v352 : (⟨S2048, .i32⟩ : BufTy).Contents (Elt F) :=
  addi (kv_main_v347 (F := F) x1) (kv_main_v351 (F := F))

def kv_main_v353 : (⟨S2048, .i32⟩ : BufTy).Contents (Elt F) :=
  select (kv_main_v350 (F := F) x1) (kv_main_v352 (F := F) x1) (kv_main_v347 (F := F) x1)

def kv_main_c_152 : (⟨S_, .i32⟩ : BufTy).Contents (Elt F) :=
  constantI S_ 32 0#32

def kv_main_v354 : (⟨S2048, .i32⟩ : BufTy).Contents (Elt F) :=
  broadcastInDim S2048 ![] bcast_S_S2048 (kv_main_c_152 (F := F))

def kv_main_v355 : (⟨S2048, .i1⟩ : BufTy).Contents (Elt F) :=
  cmpi .slt (kv_main_v209 (F := F)) (kv_main_v354 (F := F))

def kv_main_c_153 : (⟨S_, .i32⟩ : BufTy).Contents (Elt F) :=
  constantI S_ 32 2048#32

def kv_main_v356 : (⟨S2048, .i32⟩ : BufTy).Contents (Elt F) :=
  broadcastInDim S2048 ![] bcast_S_S2048 (kv_main_c_153 (F := F))

def kv_main_v357 : (⟨S2048, .i32⟩ : BufTy).Contents (Elt F) :=
  addi (kv_main_v209 (F := F)) (kv_main_v356 (F := F))

def kv_main_v358 : (⟨S2048, .i32⟩ : BufTy).Contents (Elt F) :=
  select (kv_main_v355 (F := F)) (kv_main_v357 (F := F)) (kv_main_v209 (F := F))

def kv_main_v359 : (⟨S2048x1, .i32⟩ : BufTy).Contents (Elt F) :=
  broadcastInDim S2048x1 ![0] bcast_S2048_S2048x1_0 (kv_main_v353 (F := F) x1)

def kv_main_v360 : (⟨S2048x1, .i32⟩ : BufTy).Contents (Elt F) :=
  broadcastInDim S2048x1 ![0] bcast_S2048_S2048x1_0 (kv_main_v358 (F := F))

def kv_main_v361 : (⟨S2048x2, .i32⟩ : BufTy).Contents (Elt F) :=
  ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)) (kv_main_v359 (F := F) x1) (kv_main_v360 (F := F))

def kv_main_v362 : (⟨S1024x2048, .f32⟩ : BufTy).Contents (Elt F) :=
  ((fun x i u => Host.scatterAdd scatter_S1024x2048_S2048x2_S2048_n_01_01_1 x i u) : (⟨S1024x2048, .f32⟩ : BufTy).Contents (Elt F) → (⟨S2048x2, .i32⟩ : BufTy).Contents (Elt F) → (⟨S2048, .f32⟩ : BufTy).Contents (Elt F) → (⟨S1024x2048, .f32⟩ : BufTy).Contents (Elt F)) (kv_main_v327 (F := F) x1) (kv_main_v361 (F := F) x1) (kv_main_v348 (F := F) x1)

def kv_main_v363 : (⟨S1024x2048, .bf16⟩ : BufTy).Contents (Elt F) :=
  ((truncf .bf16 · bitsLt_bf16_f32) : (⟨S1024x2048, .f32⟩ : BufTy).Contents (Elt F) → (⟨S1024x2048, .bf16⟩ : BufTy).Contents (Elt F)) (kv_main_v362 (F := F) x1)

def kv_main_v364 : (⟨S2048x1, .f32⟩ : BufTy).Contents (Elt F) :=
  ((extractStridedSlice S2048x1 ![0, 0] · slices_S2048x2_S2048x1_0_0) : (⟨S2048x2, .f32⟩ : BufTy).Contents (Elt F) → (⟨S2048x1, .f32⟩ : BufTy).Contents (Elt F)) (kv_main_v1 (F := F) x1)

def kv_main_v365 : (⟨S2048, .f32⟩ : BufTy).Contents (Elt F) :=
  shapeCast _ (kv_main_v364 (F := F) x1) shapeCasts_S2048x1_S2048

def kv_main_v366 : (⟨S2048x1, .f32⟩ : BufTy).Contents (Elt F) :=
  ((extractStridedSlice S2048x1 ![0, 1] · slices_S2048x2_S2048x1_0_1) : (⟨S2048x2, .f32⟩ : BufTy).Contents (Elt F) → (⟨S2048x1, .f32⟩ : BufTy).Contents (Elt F)) (kv_main_v1 (F := F) x1)

def kv_main_v367 : (⟨S2048, .f32⟩ : BufTy).Contents (Elt F) :=
  shapeCast _ (kv_main_v366 (F := F) x1) shapeCasts_S2048x1_S2048

def kv_main_cst_154 : (⟨S_, .f32⟩ : BufTy).Contents (Elt F) :=
  constant S_ .f32 0x3F800000#32

def kv_main_v368 : (⟨S2048, .f32⟩ : BufTy).Contents (Elt F) :=
  broadcastInDim S2048 ![] bcast_S_S2048 (kv_main_cst_154 (F := F))

def kv_main_v369 : (⟨S2048, .f32⟩ : BufTy).Contents (Elt F) :=
  addf (kv_main_v365 (F := F) x1) (kv_main_v368 (F := F))

def kv_main_cst_155 : (⟨S_, .f32⟩ : BufTy).Contents (Elt F) :=
  constant S_ .f32 0x41800000#32

def kv_main_v370 : (⟨S2048, .f32⟩ : BufTy).Contents (Elt F) :=
  broadcastInDim S2048 ![] bcast_S_S2048 (kv_main_cst_155 (F := F))

def kv_main_v371 : (⟨S2048, .f32⟩ : BufTy).Contents (Elt F) :=
  mulf (kv_main_v369 (F := F) x1) (kv_main_v370 (F := F))

def kv_main_cst_156 : (⟨S_, .f32⟩ : BufTy).Contents (Elt F) :=
  constant S_ .f32 0x3F800000#32

def kv_main_v372 : (⟨S2048, .f32⟩ : BufTy).Contents (Elt F) :=
  broadcastInDim S2048 ![] bcast_S_S2048 (kv_main_cst_156 (F := F))

def kv_main_v373 : (⟨S2048, .f32⟩ : BufTy).Contents (Elt F) :=
  subf (kv_main_v371 (F := F) x1) (kv_main_v372 (F := F))

def kv_main_cst_157 : (⟨S_, .f32⟩ : BufTy).Contents (Elt F) :=
  constant S_ .f32 0x3F000000#32

def kv_main_v374 : (⟨S2048, .f32⟩ : BufTy).Contents (Elt F) :=
  broadcastInDim S2048 ![] bcast_S_S2048 (kv_main_cst_157 (F := F))

def kv_main_v375 : (⟨S2048, .f32⟩ : BufTy).Contents (Elt F) :=
  mulf (kv_main_v373 (F := F) x1) (kv_main_v374 (F := F))

def kv_main_cst_158 : (⟨S_, .f32⟩ : BufTy).Contents (Elt F) :=
  constant S_ .f32 0x3F800000#32

def kv_main_v376 : (⟨S2048, .f32⟩ : BufTy).Contents (Elt F) :=
  broadcastInDim S2048 ![] bcast_S_S2048 (kv_main_cst_158 (F := F))

def kv_main_v377 : (⟨S2048, .f32⟩ : BufTy).Contents (Elt F) :=
  addf (kv_main_v367 (F := F) x1) (kv_main_v376 (F := F))

def kv_main_cst_159 : (⟨S_, .f32⟩ : BufTy).Contents (Elt F) :=
  constant S_ .f32 0x41800000#32

def kv_main_v378 : (⟨S2048, .f32⟩ : BufTy).Contents (Elt F) :=
  broadcastInDim S2048 ![] bcast_S_S2048 (kv_main_cst_159 (F := F))

def kv_main_v379 : (⟨S2048, .f32⟩ : BufTy).Contents (Elt F) :=
  mulf (kv_main_v377 (F := F) x1) (kv_main_v378 (F := F))

def kv_main_cst_160 : (⟨S_, .f32⟩ : BufTy).Contents (Elt F) :=
  constant S_ .f32 0x3F800000#32

def kv_main_v380 : (⟨S2048, .f32⟩ : BufTy).Contents (Elt F) :=
  broadcastInDim S2048 ![] bcast_S_S2048 (kv_main_cst_160 (F := F))

def kv_main_v381 : (⟨S2048, .f32⟩ : BufTy).Contents (Elt F) :=
  subf (kv_main_v379 (F := F) x1) (kv_main_v380 (F := F))

def kv_main_cst_161 : (⟨S_, .f32⟩ : BufTy).Contents (Elt F) :=
  constant S_ .f32 0x3F000000#32

def kv_main_v382 : (⟨S2048, .f32⟩ : BufTy).Contents (Elt F) :=
  broadcastInDim S2048 ![] bcast_S_S2048 (kv_main_cst_161 (F := F))

def kv_main_v383 : (⟨S2048, .f32⟩ : BufTy).Contents (Elt F) :=
  mulf (kv_main_v381 (F := F) x1) (kv_main_v382 (F := F))

def kv_main_v384 : (⟨S2048, .f32⟩ : BufTy).Contents (Elt F) :=
  Host.floor (kv_main_v375 (F := F) x1)

def kv_main_v385 : (⟨S2048, .f32⟩ : BufTy).Contents (Elt F) :=
  Host.floor (kv_main_v383 (F := F) x1)

def kv_main_v386 : (⟨S2048, .f32⟩ : BufTy).Contents (Elt F) :=
  subf (kv_main_v375 (F := F) x1) (kv_main_v384 (F := F) x1)

def kv_main_v387 : (⟨S2048, .f32⟩ : BufTy).Contents (Elt F) :=
  subf (kv_main_v383 (F := F) x1) (kv_main_v385 (F := F) x1)

def kv_main_v388 : (⟨S2048, .i32⟩ : BufTy).Contents (Elt F) :=
  fptosi 32 (kv_main_v384 (F := F) x1)

def kv_main_v389 : (⟨S2048, .i32⟩ : BufTy).Contents (Elt F) :=
  fptosi 32 (kv_main_v385 (F := F) x1)

def kv_main_v390 : (⟨S2048, .i32⟩ : BufTy).Contents (Elt F) :=
  iotaInDim S2048 32 0

def kv_main_cst_162 : (⟨S_, .f32⟩ : BufTy).Contents (Elt F) :=
  constant S_ .f32 0x00000000#32

def kv_main_v391 : (⟨S256x2048, .f32⟩ : BufTy).Contents (Elt F) :=
  broadcastInDim S256x2048 ![] bcast_S_S256x2048 (kv_main_cst_162 (F := F))

def kv_main_cst_163 : (⟨S_, .f32⟩ : BufTy).Contents (Elt F) :=
  constant S_ .f32 0x3F800000#32

def kv_main_v392 : (⟨S2048, .f32⟩ : BufTy).Contents (Elt F) :=
  broadcastInDim S2048 ![] bcast_S_S2048 (kv_main_cst_163 (F := F))

def kv_main_v393 : (⟨S2048, .f32⟩ : BufTy).Contents (Elt F) :=
  subf (kv_main_v392 (F := F)) (kv_main_v387 (F := F) x1)

def kv_main_cst_164 : (⟨S_, .f32⟩ : BufTy).Contents (Elt F) :=
  constant S_ .f32 0x3F800000#32

def kv_main_v394 : (⟨S2048, .f32⟩ : BufTy).Contents (Elt F) :=
  broadcastInDim S2048 ![] bcast_S_S2048 (kv_main_cst_164 (F := F))

def kv_main_v395 : (⟨S2048, .f32⟩ : BufTy).Contents (Elt F) :=
  subf (kv_main_v394 (F := F)) (kv_main_v386 (F := F) x1)

def kv_main_v396 : (⟨S2048, .f32⟩ : BufTy).Contents (Elt F) :=
  mulf (kv_main_v393 (F := F) x1) (kv_main_v395 (F := F) x1)

def kv_main_cst_165 : (⟨S_, .f32⟩ : BufTy).Contents (Elt F) :=
  constant S_ .f32 0x3F800000#32

def kv_main_v397 : (⟨S2048, .f32⟩ : BufTy).Contents (Elt F) :=
  broadcastInDim S2048 ![] bcast_S_S2048 (kv_main_cst_165 (F := F))

def kv_main_v398 : (⟨S2048, .f32⟩ : BufTy).Contents (Elt F) :=
  subf (kv_main_v397 (F := F)) (kv_main_v387 (F := F) x1)

def kv_main_v399 : (⟨S2048, .f32⟩ : BufTy).Contents (Elt F) :=
  mulf (kv_main_v398 (F := F) x1) (kv_main_v386 (F := F) x1)

def kv_main_cst_166 : (⟨S_, .f32⟩ : BufTy).Contents (Elt F) :=
  constant S_ .f32 0x3F800000#32

def kv_main_v400 : (⟨S2048, .f32⟩ : BufTy).Contents (Elt F) :=
  broadcastInDim S2048 ![] bcast_S_S2048 (kv_main_cst_166 (F := F))

def kv_main_v401 : (⟨S2048, .f32⟩ : BufTy).Contents (Elt F) :=
  subf (kv_main_v400 (F := F)) (kv_main_v386 (F := F) x1)

def kv_main_v402 : (⟨S2048, .f32⟩ : BufTy).Contents (Elt F) :=
  mulf (kv_main_v387 (F := F) x1) (kv_main_v401 (F := F) x1)

def kv_main_v403 : (⟨S2048, .f32⟩ : BufTy).Contents (Elt F) :=
  mulf (kv_main_v387 (F := F) x1) (kv_main_v386 (F := F) x1)

def kv_main_c_167 : (⟨S_, .i32⟩ : BufTy).Contents (Elt F) :=
  constantI S_ 32 0#32

def kv_main_v404 : (⟨S2048, .i32⟩ : BufTy).Contents (Elt F) :=
  broadcastInDim S2048 ![] bcast_S_S2048 (kv_main_c_167 (F := F))

def kv_main_v405 : (⟨S2048, .i32⟩ : BufTy).Contents (Elt F) :=
  addi (kv_main_v389 (F := F) x1) (kv_main_v404 (F := F))

def kv_main_c_168 : (⟨S_, .i32⟩ : BufTy).Contents (Elt F) :=
  constantI S_ 32 0#32

def kv_main_v406 : (⟨S2048, .i32⟩ : BufTy).Contents (Elt F) :=
  broadcastInDim S2048 ![] bcast_S_S2048 (kv_main_c_168 (F := F))

def kv_main_v407 : (⟨S2048, .i32⟩ : BufTy).Contents (Elt F) :=
  addi (kv_main_v388 (F := F) x1) (kv_main_v406 (F := F))

def kv_main_c_169 : (⟨S_, .i32⟩ : BufTy).Contents (Elt F) :=
  constantI S_ 32 0#32

def kv_main_v408 : (⟨S2048, .i32⟩ : BufTy).Contents (Elt F) :=
  broadcastInDim S2048 ![] bcast_S_S2048 (kv_main_c_169 (F := F))

def kv_main_v409 : (⟨S2048, .i1⟩ : BufTy).Contents (Elt F) :=
  cmpi .sge (kv_main_v405 (F := F) x1) (kv_main_v408 (F := F))

def kv_main_c_170 : (⟨S_, .i32⟩ : BufTy).Contents (Elt F) :=
  constantI S_ 32 16#32

def kv_main_v410 : (⟨S2048, .i32⟩ : BufTy).Contents (Elt F) :=
  broadcastInDim S2048 ![] bcast_S_S2048 (kv_main_c_170 (F := F))

def kv_main_v411 : (⟨S2048, .i1⟩ : BufTy).Contents (Elt F) :=
  cmpi .slt (kv_main_v405 (F := F) x1) (kv_main_v410 (F := F))

def kv_main_v412 : (⟨S2048, .i1⟩ : BufTy).Contents (Elt F) :=
  andi (kv_main_v409 (F := F) x1) (kv_main_v411 (F := F) x1)

def kv_main_c_171 : (⟨S_, .i32⟩ : BufTy).Contents (Elt F) :=
  constantI S_ 32 0#32

def kv_main_v413 : (⟨S2048, .i32⟩ : BufTy).Contents (Elt F) :=
  broadcastInDim S2048 ![] bcast_S_S2048 (kv_main_c_171 (F := F))

def kv_main_v414 : (⟨S2048, .i1⟩ : BufTy).Contents (Elt F) :=
  cmpi .sge (kv_main_v407 (F := F) x1) (kv_main_v413 (F := F))

def kv_main_v415 : (⟨S2048, .i1⟩ : BufTy).Contents (Elt F) :=
  andi (kv_main_v412 (F := F) x1) (kv_main_v414 (F := F) x1)

def kv_main_c_172 : (⟨S_, .i32⟩ : BufTy).Contents (Elt F) :=
  constantI S_ 32 16#32

def kv_main_v416 : (⟨S2048, .i32⟩ : BufTy).Contents (Elt F) :=
  broadcastInDim S2048 ![] bcast_S_S2048 (kv_main_c_172 (F := F))

def kv_main_v417 : (⟨S2048, .i1⟩ : BufTy).Contents (Elt F) :=
  cmpi .slt (kv_main_v407 (F := F) x1) (kv_main_v416 (F := F))

def kv_main_v418 : (⟨S2048, .i1⟩ : BufTy).Contents (Elt F) :=
  andi (kv_main_v415 (F := F) x1) (kv_main_v417 (F := F) x1)

def kv_main_c_173 : (⟨S_, .i32⟩ : BufTy).Contents (Elt F) :=
  constantI S_ 32 0#32

def kv_main_c_174 : (⟨S_, .i32⟩ : BufTy).Contents (Elt F) :=
  constantI S_ 32 15#32

def kv_main_call25_v0 : (⟨S_, .i32⟩ : BufTy).Contents (Elt F) :=
  id (kv_main_c_173 (F := F))

def kv_main_call25_v1 : (⟨S2048, .i32⟩ : BufTy).Contents (Elt F) :=
  broadcastInDim S2048 ![] bcast_S_S2048 (kv_main_call25_v0 (F := F))

def kv_main_call25_v2 : (⟨S2048, .i32⟩ : BufTy).Contents (Elt F) :=
  maxsi (kv_main_call25_v1 (F := F)) (kv_main_v405 (F := F) x1)

def kv_main_call25_v3 : (⟨S_, .i32⟩ : BufTy).Contents (Elt F) :=
  id (kv_main_c_174 (F := F))

def kv_main_call25_v4 : (⟨S2048, .i32⟩ : BufTy).Contents (Elt F) :=
  broadcastInDim S2048 ![] bcast_S_S2048 (kv_main_call25_v3 (F := F))

def kv_main_v419 : (⟨S2048, .i32⟩ : BufTy).Contents (Elt F) :=
  minsi (kv_main_call25_v4 (F := F)) (kv_main_call25_v2 (F := F) x1)

def kv_main_c_175 : (⟨S_, .i32⟩ : BufTy).Contents (Elt F) :=
  constantI S_ 32 0#32

def kv_main_c_176 : (⟨S_, .i32⟩ : BufTy).Contents (Elt F) :=
  constantI S_ 32 15#32

def kv_main_call26_v0 : (⟨S_, .i32⟩ : BufTy).Contents (Elt F) :=
  id (kv_main_c_175 (F := F))

def kv_main_call26_v1 : (⟨S2048, .i32⟩ : BufTy).Contents (Elt F) :=
  broadcastInDim S2048 ![] bcast_S_S2048 (kv_main_call26_v0 (F := F))

def kv_main_call26_v2 : (⟨S2048, .i32⟩ : BufTy).Contents (Elt F) :=
  maxsi (kv_main_call26_v1 (F := F)) (kv_main_v407 (F := F) x1)

def kv_main_call26_v3 : (⟨S_, .i32⟩ : BufTy).Contents (Elt F) :=
  id (kv_main_c_176 (F := F))

def kv_main_call26_v4 : (⟨S2048, .i32⟩ : BufTy).Contents (Elt F) :=
  broadcastInDim S2048 ![] bcast_S_S2048 (kv_main_call26_v3 (F := F))

def kv_main_v420 : (⟨S2048, .i32⟩ : BufTy).Contents (Elt F) :=
  minsi (kv_main_call26_v4 (F := F)) (kv_main_call26_v2 (F := F) x1)

def kv_main_c_177 : (⟨S_, .i32⟩ : BufTy).Contents (Elt F) :=
  constantI S_ 32 16#32

def kv_main_v421 : (⟨S2048, .i32⟩ : BufTy).Contents (Elt F) :=
  broadcastInDim S2048 ![] bcast_S_S2048 (kv_main_c_177 (F := F))

def kv_main_v422 : (⟨S2048, .i32⟩ : BufTy).Contents (Elt F) :=
  muli (kv_main_v419 (F := F) x1) (kv_main_v421 (F := F))

def kv_main_v423 : (⟨S2048, .i32⟩ : BufTy).Contents (Elt F) :=
  addi (kv_main_v422 (F := F) x1) (kv_main_v420 (F := F) x1)

def kv_main_cst_178 : (⟨S_, .f32⟩ : BufTy).Contents (Elt F) :=
  constant S_ .f32 0x00000000#32

def kv_main_call27_v0 : (⟨S_, .f32⟩ : BufTy).Contents (Elt F) :=
  id (kv_main_cst_178 (F := F))

def kv_main_call27_v1 : (⟨S2048, .f32⟩ : BufTy).Contents (Elt F) :=
  broadcastInDim S2048 ![] bcast_S_S2048 (kv_main_call27_v0 (F := F))

def kv_main_v424 : (⟨S2048, .f32⟩ : BufTy).Contents (Elt F) :=
  select (kv_main_v418 (F := F) x1) (kv_main_v396 (F := F) x1) (kv_main_call27_v1 (F := F))

def kv_main_c_179 : (⟨S_, .i32⟩ : BufTy).Contents (Elt F) :=
  constantI S_ 32 0#32

def kv_main_v425 : (⟨S2048, .i32⟩ : BufTy).Contents (Elt F) :=
  broadcastInDim S2048 ![] bcast_S_S2048 (kv_main_c_179 (F := F))

def kv_main_v426 : (⟨S2048, .i1⟩ : BufTy).Contents (Elt F) :=
  cmpi .slt (kv_main_v423 (F := F) x1) (kv_main_v425 (F := F))

def kv_main_c_180 : (⟨S_, .i32⟩ : BufTy).Contents (Elt F) :=
  constantI S_ 32 256#32

def kv_main_v427 : (⟨S2048, .i32⟩ : BufTy).Contents (Elt F) :=
  broadcastInDim S2048 ![] bcast_S_S2048 (kv_main_c_180 (F := F))

def kv_main_v428 : (⟨S2048, .i32⟩ : BufTy).Contents (Elt F) :=
  addi (kv_main_v423 (F := F) x1) (kv_main_v427 (F := F))

def kv_main_v429 : (⟨S2048, .i32⟩ : BufTy).Contents (Elt F) :=
  select (kv_main_v426 (F := F) x1) (kv_main_v428 (F := F) x1) (kv_main_v423 (F := F) x1)

def kv_main_c_181 : (⟨S_, .i32⟩ : BufTy).Contents (Elt F) :=
  constantI S_ 32 0#32

def kv_main_v430 : (⟨S2048, .i32⟩ : BufTy).Contents (Elt F) :=
  broadcastInDim S2048 ![] bcast_S_S2048 (kv_main_c_181 (F := F))

def kv_main_v431 : (⟨S2048, .i1⟩ : BufTy).Contents (Elt F) :=
  cmpi .slt (kv_main_v390 (F := F)) (kv_main_v430 (F := F))

def kv_main_c_182 : (⟨S_, .i32⟩ : BufTy).Contents (Elt F) :=
  constantI S_ 32 2048#32

def kv_main_v432 : (⟨S2048, .i32⟩ : BufTy).Contents (Elt F) :=
  broadcastInDim S2048 ![] bcast_S_S2048 (kv_main_c_182 (F := F))

def kv_main_v433 : (⟨S2048, .i32⟩ : BufTy).Contents (Elt F) :=
  addi (kv_main_v390 (F := F)) (kv_main_v432 (F := F))

def kv_main_v434 : (⟨S2048, .i32⟩ : BufTy).Contents (Elt F) :=
  select (kv_main_v431 (F := F)) (kv_main_v433 (F := F)) (kv_main_v390 (F := F))

def kv_main_v435 : (⟨S2048x1, .i32⟩ : BufTy).Contents (Elt F) :=
  broadcastInDim S2048x1 ![0] bcast_S2048_S2048x1_0 (kv_main_v429 (F := F) x1)

def kv_main_v436 : (⟨S2048x1, .i32⟩ : BufTy).Contents (Elt F) :=
  broadcastInDim S2048x1 ![0] bcast_S2048_S2048x1_0 (kv_main_v434 (F := F))

def kv_main_v437 : (⟨S2048x2, .i32⟩ : BufTy).Contents (Elt F) :=
  ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)) (kv_main_v435 (F := F) x1) (kv_main_v436 (F := F))

def kv_main_v438 : (⟨S256x2048, .f32⟩ : BufTy).Contents (Elt F) :=
  ((fun x i u => Host.scatterAdd scatter_S256x2048_S2048x2_S2048_n_01_01_1 x i u) : (⟨S256x2048, .f32⟩ : BufTy).Contents (Elt F) → (⟨S2048x2, .i32⟩ : BufTy).Contents (Elt F) → (⟨S2048, .f32⟩ : BufTy).Contents (Elt F) → (⟨S256x2048, .f32⟩ : BufTy).Contents (Elt F)) (kv_main_v391 (F := F)) (kv_main_v437 (F := F) x1) (kv_main_v424 (F := F) x1)

def kv_main_c_183 : (⟨S_, .i32⟩ : BufTy).Contents (Elt F) :=
  constantI S_ 32 0#32

def kv_main_v439 : (⟨S2048, .i32⟩ : BufTy).Contents (Elt F) :=
  broadcastInDim S2048 ![] bcast_S_S2048 (kv_main_c_183 (F := F))

def kv_main_v440 : (⟨S2048, .i32⟩ : BufTy).Contents (Elt F) :=
  addi (kv_main_v389 (F := F) x1) (kv_main_v439 (F := F))

def kv_main_c_184 : (⟨S_, .i32⟩ : BufTy).Contents (Elt F) :=
  constantI S_ 32 1#32

def kv_main_v441 : (⟨S2048, .i32⟩ : BufTy).Contents (Elt F) :=
  broadcastInDim S2048 ![] bcast_S_S2048 (kv_main_c_184 (F := F))

def kv_main_v442 : (⟨S2048, .i32⟩ : BufTy).Contents (Elt F) :=
  addi (kv_main_v388 (F := F) x1) (kv_main_v441 (F := F))

def kv_main_c_185 : (⟨S_, .i32⟩ : BufTy).Contents (Elt F) :=
  constantI S_ 32 0#32

def kv_main_v443 : (⟨S2048, .i32⟩ : BufTy).Contents (Elt F) :=
  broadcastInDim S2048 ![] bcast_S_S2048 (kv_main_c_185 (F := F))

def kv_main_v444 : (⟨S2048, .i1⟩ : BufTy).Contents (Elt F) :=
  cmpi .sge (kv_main_v440 (F := F) x1) (kv_main_v443 (F := F))

def kv_main_c_186 : (⟨S_, .i32⟩ : BufTy).Contents (Elt F) :=
  constantI S_ 32 16#32

def kv_main_v445 : (⟨S2048, .i32⟩ : BufTy).Contents (Elt F) :=
  broadcastInDim S2048 ![] bcast_S_S2048 (kv_main_c_186 (F := F))

def kv_main_v446 : (⟨S2048, .i1⟩ : BufTy).Contents (Elt F) :=
  cmpi .slt (kv_main_v440 (F := F) x1) (kv_main_v445 (F := F))

def kv_main_v447 : (⟨S2048, .i1⟩ : BufTy).Contents (Elt F) :=
  andi (kv_main_v444 (F := F) x1) (kv_main_v446 (F := F) x1)

def kv_main_c_187 : (⟨S_, .i32⟩ : BufTy).Contents (Elt F) :=
  constantI S_ 32 0#32

def kv_main_v448 : (⟨S2048, .i32⟩ : BufTy).Contents (Elt F) :=
  broadcastInDim S2048 ![] bcast_S_S2048 (kv_main_c_187 (F := F))

def kv_main_v449 : (⟨S2048, .i1⟩ : BufTy).Contents (Elt F) :=
  cmpi .sge (kv_main_v442 (F := F) x1) (kv_main_v448 (F := F))

def kv_main_v450 : (⟨S2048, .i1⟩ : BufTy).Contents (Elt F) :=
  andi (kv_main_v447 (F := F) x1) (kv_main_v449 (F := F) x1)

def kv_main_c_188 : (⟨S_, .i32⟩ : BufTy).Contents (Elt F) :=
  constantI S_ 32 16#32

def kv_main_v451 : (⟨S2048, .i32⟩ : BufTy).Contents (Elt F) :=
  broadcastInDim S2048 ![] bcast_S_S2048 (kv_main_c_188 (F := F))

def kv_main_v452 : (⟨S2048, .i1⟩ : BufTy).Contents (Elt F) :=
  cmpi .slt (kv_main_v442 (F := F) x1) (kv_main_v451 (F := F))

def kv_main_v453 : (⟨S2048, .i1⟩ : BufTy).Contents (Elt F) :=
  andi (kv_main_v450 (F := F) x1) (kv_main_v452 (F := F) x1)

def kv_main_c_189 : (⟨S_, .i32⟩ : BufTy).Contents (Elt F) :=
  constantI S_ 32 0#32

def kv_main_c_190 : (⟨S_, .i32⟩ : BufTy).Contents (Elt F) :=
  constantI S_ 32 15#32

def kv_main_call28_v0 : (⟨S_, .i32⟩ : BufTy).Contents (Elt F) :=
  id (kv_main_c_189 (F := F))

def kv_main_call28_v1 : (⟨S2048, .i32⟩ : BufTy).Contents (Elt F) :=
  broadcastInDim S2048 ![] bcast_S_S2048 (kv_main_call28_v0 (F := F))

def kv_main_call28_v2 : (⟨S2048, .i32⟩ : BufTy).Contents (Elt F) :=
  maxsi (kv_main_call28_v1 (F := F)) (kv_main_v440 (F := F) x1)

def kv_main_call28_v3 : (⟨S_, .i32⟩ : BufTy).Contents (Elt F) :=
  id (kv_main_c_190 (F := F))

def kv_main_call28_v4 : (⟨S2048, .i32⟩ : BufTy).Contents (Elt F) :=
  broadcastInDim S2048 ![] bcast_S_S2048 (kv_main_call28_v3 (F := F))

def kv_main_v454 : (⟨S2048, .i32⟩ : BufTy).Contents (Elt F) :=
  minsi (kv_main_call28_v4 (F := F)) (kv_main_call28_v2 (F := F) x1)

def kv_main_c_191 : (⟨S_, .i32⟩ : BufTy).Contents (Elt F) :=
  constantI S_ 32 0#32

def kv_main_c_192 : (⟨S_, .i32⟩ : BufTy).Contents (Elt F) :=
  constantI S_ 32 15#32

def kv_main_call29_v0 : (⟨S_, .i32⟩ : BufTy).Contents (Elt F) :=
  id (kv_main_c_191 (F := F))

def kv_main_call29_v1 : (⟨S2048, .i32⟩ : BufTy).Contents (Elt F) :=
  broadcastInDim S2048 ![] bcast_S_S2048 (kv_main_call29_v0 (F := F))

def kv_main_call29_v2 : (⟨S2048, .i32⟩ : BufTy).Contents (Elt F) :=
  maxsi (kv_main_call29_v1 (F := F)) (kv_main_v442 (F := F) x1)

def kv_main_call29_v3 : (⟨S_, .i32⟩ : BufTy).Contents (Elt F) :=
  id (kv_main_c_192 (F := F))

def kv_main_call29_v4 : (⟨S2048, .i32⟩ : BufTy).Contents (Elt F) :=
  broadcastInDim S2048 ![] bcast_S_S2048 (kv_main_call29_v3 (F := F))

def kv_main_v455 : (⟨S2048, .i32⟩ : BufTy).Contents (Elt F) :=
  minsi (kv_main_call29_v4 (F := F)) (kv_main_call29_v2 (F := F) x1)

def kv_main_c_193 : (⟨S_, .i32⟩ : BufTy).Contents (Elt F) :=
  constantI S_ 32 16#32

def kv_main_v456 : (⟨S2048, .i32⟩ : BufTy).Contents (Elt F) :=
  broadcastInDim S2048 ![] bcast_S_S2048 (kv_main_c_193 (F := F))

def kv_main_v457 : (⟨S2048, .i32⟩ : BufTy).Contents (Elt F) :=
  muli (kv_main_v454 (F := F) x1) (kv_main_v456 (F := F))

def kv_main_v458 : (⟨S2048, .i32⟩ : BufTy).Contents (Elt F) :=
  addi (kv_main_v457 (F := F) x1) (kv_main_v455 (F := F) x1)

def kv_main_cst_194 : (⟨S_, .f32⟩ : BufTy).Contents (Elt F) :=
  constant S_ .f32 0x00000000#32

def kv_main_call30_v0 : (⟨S_, .f32⟩ : BufTy).Contents (Elt F) :=
  id (kv_main_cst_194 (F := F))

def kv_main_call30_v1 : (⟨S2048, .f32⟩ : BufTy).Contents (Elt F) :=
  broadcastInDim S2048 ![] bcast_S_S2048 (kv_main_call30_v0 (F := F))

def kv_main_v459 : (⟨S2048, .f32⟩ : BufTy).Contents (Elt F) :=
  select (kv_main_v453 (F := F) x1) (kv_main_v399 (F := F) x1) (kv_main_call30_v1 (F := F))

def kv_main_c_195 : (⟨S_, .i32⟩ : BufTy).Contents (Elt F) :=
  constantI S_ 32 0#32

def kv_main_v460 : (⟨S2048, .i32⟩ : BufTy).Contents (Elt F) :=
  broadcastInDim S2048 ![] bcast_S_S2048 (kv_main_c_195 (F := F))

def kv_main_v461 : (⟨S2048, .i1⟩ : BufTy).Contents (Elt F) :=
  cmpi .slt (kv_main_v458 (F := F) x1) (kv_main_v460 (F := F))

def kv_main_c_196 : (⟨S_, .i32⟩ : BufTy).Contents (Elt F) :=
  constantI S_ 32 256#32

def kv_main_v462 : (⟨S2048, .i32⟩ : BufTy).Contents (Elt F) :=
  broadcastInDim S2048 ![] bcast_S_S2048 (kv_main_c_196 (F := F))

def kv_main_v463 : (⟨S2048, .i32⟩ : BufTy).Contents (Elt F) :=
  addi (kv_main_v458 (F := F) x1) (kv_main_v462 (F := F))

def kv_main_v464 : (⟨S2048, .i32⟩ : BufTy).Contents (Elt F) :=
  select (kv_main_v461 (F := F) x1) (kv_main_v463 (F := F) x1) (kv_main_v458 (F := F) x1)

def kv_main_c_197 : (⟨S_, .i32⟩ : BufTy).Contents (Elt F) :=
  constantI S_ 32 0#32

def kv_main_v465 : (⟨S2048, .i32⟩ : BufTy).Contents (Elt F) :=
  broadcastInDim S2048 ![] bcast_S_S2048 (kv_main_c_197 (F := F))

def kv_main_v466 : (⟨S2048, .i1⟩ : BufTy).Contents (Elt F) :=
  cmpi .slt (kv_main_v390 (F := F)) (kv_main_v465 (F := F))

def kv_main_c_198 : (⟨S_, .i32⟩ : BufTy).Contents (Elt F) :=
  constantI S_ 32 2048#32

def kv_main_v467 : (⟨S2048, .i32⟩ : BufTy).Contents (Elt F) :=
  broadcastInDim S2048 ![] bcast_S_S2048 (kv_main_c_198 (F := F))

def kv_main_v468 : (⟨S2048, .i32⟩ : BufTy).Contents (Elt F) :=
  addi (kv_main_v390 (F := F)) (kv_main_v467 (F := F))

def kv_main_v469 : (⟨S2048, .i32⟩ : BufTy).Contents (Elt F) :=
  select (kv_main_v466 (F := F)) (kv_main_v468 (F := F)) (kv_main_v390 (F := F))

def kv_main_v470 : (⟨S2048x1, .i32⟩ : BufTy).Contents (Elt F) :=
  broadcastInDim S2048x1 ![0] bcast_S2048_S2048x1_0 (kv_main_v464 (F := F) x1)

def kv_main_v471 : (⟨S2048x1, .i32⟩ : BufTy).Contents (Elt F) :=
  broadcastInDim S2048x1 ![0] bcast_S2048_S2048x1_0 (kv_main_v469 (F := F))

def kv_main_v472 : (⟨S2048x2, .i32⟩ : BufTy).Contents (Elt F) :=
  ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)) (kv_main_v470 (F := F) x1) (kv_main_v471 (F := F))

def kv_main_v473 : (⟨S256x2048, .f32⟩ : BufTy).Contents (Elt F) :=
  ((fun x i u => Host.scatterAdd scatter_S256x2048_S2048x2_S2048_n_01_01_1 x i u) : (⟨S256x2048, .f32⟩ : BufTy).Contents (Elt F) → (⟨S2048x2, .i32⟩ : BufTy).Contents (Elt F) → (⟨S2048, .f32⟩ : BufTy).Contents (Elt F) → (⟨S256x2048, .f32⟩ : BufTy).Contents (Elt F)) (kv_main_v438 (F := F) x1) (kv_main_v472 (F := F) x1) (kv_main_v459 (F := F) x1)

def kv_main_c_199 : (⟨S_, .i32⟩ : BufTy).Contents (Elt F) :=
  constantI S_ 32 1#32

def kv_main_v474 : (⟨S2048, .i32⟩ : BufTy).Contents (Elt F) :=
  broadcastInDim S2048 ![] bcast_S_S2048 (kv_main_c_199 (F := F))

def kv_main_v475 : (⟨S2048, .i32⟩ : BufTy).Contents (Elt F) :=
  addi (kv_main_v389 (F := F) x1) (kv_main_v474 (F := F))

def kv_main_c_200 : (⟨S_, .i32⟩ : BufTy).Contents (Elt F) :=
  constantI S_ 32 0#32

def kv_main_v476 : (⟨S2048, .i32⟩ : BufTy).Contents (Elt F) :=
  broadcastInDim S2048 ![] bcast_S_S2048 (kv_main_c_200 (F := F))

def kv_main_v477 : (⟨S2048, .i32⟩ : BufTy).Contents (Elt F) :=
  addi (kv_main_v388 (F := F) x1) (kv_main_v476 (F := F))

def kv_main_c_201 : (⟨S_, .i32⟩ : BufTy).Contents (Elt F) :=
  constantI S_ 32 0#32

def kv_main_v478 : (⟨S2048, .i32⟩ : BufTy).Contents (Elt F) :=
  broadcastInDim S2048 ![] bcast_S_S2048 (kv_main_c_201 (F := F))

def kv_main_v479 : (⟨S2048, .i1⟩ : BufTy).Contents (Elt F) :=
  cmpi .sge (kv_main_v475 (F := F) x1) (kv_main_v478 (F := F))

def kv_main_c_202 : (⟨S_, .i32⟩ : BufTy).Contents (Elt F) :=
  constantI S_ 32 16#32

def kv_main_v480 : (⟨S2048, .i32⟩ : BufTy).Contents (Elt F) :=
  broadcastInDim S2048 ![] bcast_S_S2048 (kv_main_c_202 (F := F))

def kv_main_v481 : (⟨S2048, .i1⟩ : BufTy).Contents (Elt F) :=
  cmpi .slt (kv_main_v475 (F := F) x1) (kv_main_v480 (F := F))

def kv_main_v482 : (⟨S2048, .i1⟩ : BufTy).Contents (Elt F) :=
  andi (kv_main_v479 (F := F) x1) (kv_main_v481 (F := F) x1)

def kv_main_c_203 : (⟨S_, .i32⟩ : BufTy).Contents (Elt F) :=
  constantI S_ 32 0#32

def kv_main_v483 : (⟨S2048, .i32⟩ : BufTy).Contents (Elt F) :=
  broadcastInDim S2048 ![] bcast_S_S2048 (kv_main_c_203 (F := F))

def kv_main_v484 : (⟨S2048, .i1⟩ : BufTy).Contents (Elt F) :=
  cmpi .sge (kv_main_v477 (F := F) x1) (kv_main_v483 (F := F))

def kv_main_v485 : (⟨S2048, .i1⟩ : BufTy).Contents (Elt F) :=
  andi (kv_main_v482 (F := F) x1) (kv_main_v484 (F := F) x1)

def kv_main_c_204 : (⟨S_, .i32⟩ : BufTy).Contents (Elt F) :=
  constantI S_ 32 16#32

def kv_main_v486 : (⟨S2048, .i32⟩ : BufTy).Contents (Elt F) :=
  broadcastInDim S2048 ![] bcast_S_S2048 (kv_main_c_204 (F := F))

def kv_main_v487 : (⟨S2048, .i1⟩ : BufTy).Contents (Elt F) :=
  cmpi .slt (kv_main_v477 (F := F) x1) (kv_main_v486 (F := F))

def kv_main_v488 : (⟨S2048, .i1⟩ : BufTy).Contents (Elt F) :=
  andi (kv_main_v485 (F := F) x1) (kv_main_v487 (F := F) x1)

def kv_main_c_205 : (⟨S_, .i32⟩ : BufTy).Contents (Elt F) :=
  constantI S_ 32 0#32

def kv_main_c_206 : (⟨S_, .i32⟩ : BufTy).Contents (Elt F) :=
  constantI S_ 32 15#32

def kv_main_call31_v0 : (⟨S_, .i32⟩ : BufTy).Contents (Elt F) :=
  id (kv_main_c_205 (F := F))

def kv_main_call31_v1 : (⟨S2048, .i32⟩ : BufTy).Contents (Elt F) :=
  broadcastInDim S2048 ![] bcast_S_S2048 (kv_main_call31_v0 (F := F))

def kv_main_call31_v2 : (⟨S2048, .i32⟩ : BufTy).Contents (Elt F) :=
  maxsi (kv_main_call31_v1 (F := F)) (kv_main_v475 (F := F) x1)

def kv_main_call31_v3 : (⟨S_, .i32⟩ : BufTy).Contents (Elt F) :=
  id (kv_main_c_206 (F := F))

def kv_main_call31_v4 : (⟨S2048, .i32⟩ : BufTy).Contents (Elt F) :=
  broadcastInDim S2048 ![] bcast_S_S2048 (kv_main_call31_v3 (F := F))

def kv_main_v489 : (⟨S2048, .i32⟩ : BufTy).Contents (Elt F) :=
  minsi (kv_main_call31_v4 (F := F)) (kv_main_call31_v2 (F := F) x1)

def kv_main_c_207 : (⟨S_, .i32⟩ : BufTy).Contents (Elt F) :=
  constantI S_ 32 0#32

def kv_main_c_208 : (⟨S_, .i32⟩ : BufTy).Contents (Elt F) :=
  constantI S_ 32 15#32

def kv_main_call32_v0 : (⟨S_, .i32⟩ : BufTy).Contents (Elt F) :=
  id (kv_main_c_207 (F := F))

def kv_main_call32_v1 : (⟨S2048, .i32⟩ : BufTy).Contents (Elt F) :=
  broadcastInDim S2048 ![] bcast_S_S2048 (kv_main_call32_v0 (F := F))

def kv_main_call32_v2 : (⟨S2048, .i32⟩ : BufTy).Contents (Elt F) :=
  maxsi (kv_main_call32_v1 (F := F)) (kv_main_v477 (F := F) x1)

def kv_main_call32_v3 : (⟨S_, .i32⟩ : BufTy).Contents (Elt F) :=
  id (kv_main_c_208 (F := F))

def kv_main_call32_v4 : (⟨S2048, .i32⟩ : BufTy).Contents (Elt F) :=
  broadcastInDim S2048 ![] bcast_S_S2048 (kv_main_call32_v3 (F := F))

def kv_main_v490 : (⟨S2048, .i32⟩ : BufTy).Contents (Elt F) :=
  minsi (kv_main_call32_v4 (F := F)) (kv_main_call32_v2 (F := F) x1)

def kv_main_c_209 : (⟨S_, .i32⟩ : BufTy).Contents (Elt F) :=
  constantI S_ 32 16#32

def kv_main_v491 : (⟨S2048, .i32⟩ : BufTy).Contents (Elt F) :=
  broadcastInDim S2048 ![] bcast_S_S2048 (kv_main_c_209 (F := F))

def kv_main_v492 : (⟨S2048, .i32⟩ : BufTy).Contents (Elt F) :=
  muli (kv_main_v489 (F := F) x1) (kv_main_v491 (F := F))

def kv_main_v493 : (⟨S2048, .i32⟩ : BufTy).Contents (Elt F) :=
  addi (kv_main_v492 (F := F) x1) (kv_main_v490 (F := F) x1)

def kv_main_cst_210 : (⟨S_, .f32⟩ : BufTy).Contents (Elt F) :=
  constant S_ .f32 0x00000000#32

def kv_main_call33_v0 : (⟨S_, .f32⟩ : BufTy).Contents (Elt F) :=
  id (kv_main_cst_210 (F := F))

def kv_main_call33_v1 : (⟨S2048, .f32⟩ : BufTy).Contents (Elt F) :=
  broadcastInDim S2048 ![] bcast_S_S2048 (kv_main_call33_v0 (F := F))

def kv_main_v494 : (⟨S2048, .f32⟩ : BufTy).Contents (Elt F) :=
  select (kv_main_v488 (F := F) x1) (kv_main_v402 (F := F) x1) (kv_main_call33_v1 (F := F))

def kv_main_c_211 : (⟨S_, .i32⟩ : BufTy).Contents (Elt F) :=
  constantI S_ 32 0#32

def kv_main_v495 : (⟨S2048, .i32⟩ : BufTy).Contents (Elt F) :=
  broadcastInDim S2048 ![] bcast_S_S2048 (kv_main_c_211 (F := F))

def kv_main_v496 : (⟨S2048, .i1⟩ : BufTy).Contents (Elt F) :=
  cmpi .slt (kv_main_v493 (F := F) x1) (kv_main_v495 (F := F))

def kv_main_c_212 : (⟨S_, .i32⟩ : BufTy).Contents (Elt F) :=
  constantI S_ 32 256#32

def kv_main_v497 : (⟨S2048, .i32⟩ : BufTy).Contents (Elt F) :=
  broadcastInDim S2048 ![] bcast_S_S2048 (kv_main_c_212 (F := F))

def kv_main_v498 : (⟨S2048, .i32⟩ : BufTy).Contents (Elt F) :=
  addi (kv_main_v493 (F := F) x1) (kv_main_v497 (F := F))

def kv_main_v499 : (⟨S2048, .i32⟩ : BufTy).Contents (Elt F) :=
  select (kv_main_v496 (F := F) x1) (kv_main_v498 (F := F) x1) (kv_main_v493 (F := F) x1)

def kv_main_c_213 : (⟨S_, .i32⟩ : BufTy).Contents (Elt F) :=
  constantI S_ 32 0#32

def kv_main_v500 : (⟨S2048, .i32⟩ : BufTy).Contents (Elt F) :=
  broadcastInDim S2048 ![] bcast_S_S2048 (kv_main_c_213 (F := F))

def kv_main_v501 : (⟨S2048, .i1⟩ : BufTy).Contents (Elt F) :=
  cmpi .slt (kv_main_v390 (F := F)) (kv_main_v500 (F := F))

def kv_main_c_214 : (⟨S_, .i32⟩ : BufTy).Contents (Elt F) :=
  constantI S_ 32 2048#32

def kv_main_v502 : (⟨S2048, .i32⟩ : BufTy).Contents (Elt F) :=
  broadcastInDim S2048 ![] bcast_S_S2048 (kv_main_c_214 (F := F))

def kv_main_v503 : (⟨S2048, .i32⟩ : BufTy).Contents (Elt F) :=
  addi (kv_main_v390 (F := F)) (kv_main_v502 (F := F))

def kv_main_v504 : (⟨S2048, .i32⟩ : BufTy).Contents (Elt F) :=
  select (kv_main_v501 (F := F)) (kv_main_v503 (F := F)) (kv_main_v390 (F := F))

def kv_main_v505 : (⟨S2048x1, .i32⟩ : BufTy).Contents (Elt F) :=
  broadcastInDim S2048x1 ![0] bcast_S2048_S2048x1_0 (kv_main_v499 (F := F) x1)

def kv_main_v506 : (⟨S2048x1, .i32⟩ : BufTy).Contents (Elt F) :=
  broadcastInDim S2048x1 ![0] bcast_S2048_S2048x1_0 (kv_main_v504 (F := F))

def kv_main_v507 : (⟨S2048x2, .i32⟩ : BufTy).Contents (Elt F) :=
  ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)) (kv_main_v505 (F := F) x1) (kv_main_v506 (F := F))

def kv_main_v508 : (⟨S256x2048, .f32⟩ : BufTy).Contents (Elt F) :=
  ((fun x i u => Host.scatterAdd scatter_S256x2048_S2048x2_S2048_n_01_01_1 x i u) : (⟨S256x2048, .f32⟩ : BufTy).Contents (Elt F) → (⟨S2048x2, .i32⟩ : BufTy).Contents (Elt F) → (⟨S2048, .f32⟩ : BufTy).Contents (Elt F) → (⟨S256x2048, .f32⟩ : BufTy).Contents (Elt F)) (kv_main_v473 (F := F) x1) (kv_main_v507 (F := F) x1) (kv_main_v494 (F := F) x1)

def kv_main_c_215 : (⟨S_, .i32⟩ : BufTy).Contents (Elt F) :=
  constantI S_ 32 1#32

def kv_main_v509 : (⟨S2048, .i32⟩ : BufTy).Contents (Elt F) :=
  broadcastInDim S2048 ![] bcast_S_S2048 (kv_main_c_215 (F := F))

def kv_main_v510 : (⟨S2048, .i32⟩ : BufTy).Contents (Elt F) :=
  addi (kv_main_v389 (F := F) x1) (kv_main_v509 (F := F))

def kv_main_c_216 : (⟨S_, .i32⟩ : BufTy).Contents (Elt F) :=
  constantI S_ 32 1#32

def kv_main_v511 : (⟨S2048, .i32⟩ : BufTy).Contents (Elt F) :=
  broadcastInDim S2048 ![] bcast_S_S2048 (kv_main_c_216 (F := F))

def kv_main_v512 : (⟨S2048, .i32⟩ : BufTy).Contents (Elt F) :=
  addi (kv_main_v388 (F := F) x1) (kv_main_v511 (F := F))

def kv_main_c_217 : (⟨S_, .i32⟩ : BufTy).Contents (Elt F) :=
  constantI S_ 32 0#32

def kv_main_v513 : (⟨S2048, .i32⟩ : BufTy).Contents (Elt F) :=
  broadcastInDim S2048 ![] bcast_S_S2048 (kv_main_c_217 (F := F))

def kv_main_v514 : (⟨S2048, .i1⟩ : BufTy).Contents (Elt F) :=
  cmpi .sge (kv_main_v510 (F := F) x1) (kv_main_v513 (F := F))

def kv_main_c_218 : (⟨S_, .i32⟩ : BufTy).Contents (Elt F) :=
  constantI S_ 32 16#32

def kv_main_v515 : (⟨S2048, .i32⟩ : BufTy).Contents (Elt F) :=
  broadcastInDim S2048 ![] bcast_S_S2048 (kv_main_c_218 (F := F))

def kv_main_v516 : (⟨S2048, .i1⟩ : BufTy).Contents (Elt F) :=
  cmpi .slt (kv_main_v510 (F := F) x1) (kv_main_v515 (F := F))

def kv_main_v517 : (⟨S2048, .i1⟩ : BufTy).Contents (Elt F) :=
  andi (kv_main_v514 (F := F) x1) (kv_main_v516 (F := F) x1)

def kv_main_c_219 : (⟨S_, .i32⟩ : BufTy).Contents (Elt F) :=
  constantI S_ 32 0#32

def kv_main_v518 : (⟨S2048, .i32⟩ : BufTy).Contents (Elt F) :=
  broadcastInDim S2048 ![] bcast_S_S2048 (kv_main_c_219 (F := F))

def kv_main_v519 : (⟨S2048, .i1⟩ : BufTy).Contents (Elt F) :=
  cmpi .sge (kv_main_v512 (F := F) x1) (kv_main_v518 (F := F))

def kv_main_v520 : (⟨S2048, .i1⟩ : BufTy).Contents (Elt F) :=
  andi (kv_main_v517 (F := F) x1) (kv_main_v519 (F := F) x1)

def kv_main_c_220 : (⟨S_, .i32⟩ : BufTy).Contents (Elt F) :=
  constantI S_ 32 16#32

def kv_main_v521 : (⟨S2048, .i32⟩ : BufTy).Contents (Elt F) :=
  broadcastInDim S2048 ![] bcast_S_S2048 (kv_main_c_220 (F := F))

def kv_main_v522 : (⟨S2048, .i1⟩ : BufTy).Contents (Elt F) :=
  cmpi .slt (kv_main_v512 (F := F) x1) (kv_main_v521 (F := F))

def kv_main_v523 : (⟨S2048, .i1⟩ : BufTy).Contents (Elt F) :=
  andi (kv_main_v520 (F := F) x1) (kv_main_v522 (F := F) x1)

def kv_main_c_221 : (⟨S_, .i32⟩ : BufTy).Contents (Elt F) :=
  constantI S_ 32 0#32

def kv_main_c_222 : (⟨S_, .i32⟩ : BufTy).Contents (Elt F) :=
  constantI S_ 32 15#32

def kv_main_call34_v0 : (⟨S_, .i32⟩ : BufTy).Contents (Elt F) :=
  id (kv_main_c_221 (F := F))

def kv_main_call34_v1 : (⟨S2048, .i32⟩ : BufTy).Contents (Elt F) :=
  broadcastInDim S2048 ![] bcast_S_S2048 (kv_main_call34_v0 (F := F))

def kv_main_call34_v2 : (⟨S2048, .i32⟩ : BufTy).Contents (Elt F) :=
  maxsi (kv_main_call34_v1 (F := F)) (kv_main_v510 (F := F) x1)

def kv_main_call34_v3 : (⟨S_, .i32⟩ : BufTy).Contents (Elt F) :=
  id (kv_main_c_222 (F := F))

def kv_main_call34_v4 : (⟨S2048, .i32⟩ : BufTy).Contents (Elt F) :=
  broadcastInDim S2048 ![] bcast_S_S2048 (kv_main_call34_v3 (F := F))

def kv_main_v524 : (⟨S2048, .i32⟩ : BufTy).Contents (Elt F) :=
  minsi (kv_main_call34_v4 (F := F)) (kv_main_call34_v2 (F := F) x1)

def kv_main_c_223 : (⟨S_, .i32⟩ : BufTy).Contents (Elt F) :=
  constantI S_ 32 0#32

def kv_main_c_224 : (⟨S_, .i32⟩ : BufTy).Contents (Elt F) :=
  constantI S_ 32 15#32

def kv_main_call35_v0 : (⟨S_, .i32⟩ : BufTy).Contents (Elt F) :=
  id (kv_main_c_223 (F := F))

def kv_main_call35_v1 : (⟨S2048, .i32⟩ : BufTy).Contents (Elt F) :=
  broadcastInDim S2048 ![] bcast_S_S2048 (kv_main_call35_v0 (F := F))

def kv_main_call35_v2 : (⟨S2048, .i32⟩ : BufTy).Contents (Elt F) :=
  maxsi (kv_main_call35_v1 (F := F)) (kv_main_v512 (F := F) x1)

def kv_main_call35_v3 : (⟨S_, .i32⟩ : BufTy).Contents (Elt F) :=
  id (kv_main_c_224 (F := F))

def kv_main_call35_v4 : (⟨S2048, .i32⟩ : BufTy).Contents (Elt F) :=
  broadcastInDim S2048 ![] bcast_S_S2048 (kv_main_call35_v3 (F := F))

def kv_main_v525 : (⟨S2048, .i32⟩ : BufTy).Contents (Elt F) :=
  minsi (kv_main_call35_v4 (F := F)) (kv_main_call35_v2 (F := F) x1)

def kv_main_c_225 : (⟨S_, .i32⟩ : BufTy).Contents (Elt F) :=
  constantI S_ 32 16#32

def kv_main_v526 : (⟨S2048, .i32⟩ : BufTy).Contents (Elt F) :=
  broadcastInDim S2048 ![] bcast_S_S2048 (kv_main_c_225 (F := F))

def kv_main_v527 : (⟨S2048, .i32⟩ : BufTy).Contents (Elt F) :=
  muli (kv_main_v524 (F := F) x1) (kv_main_v526 (F := F))

def kv_main_v528 : (⟨S2048, .i32⟩ : BufTy).Contents (Elt F) :=
  addi (kv_main_v527 (F := F) x1) (kv_main_v525 (F := F) x1)

def kv_main_cst_226 : (⟨S_, .f32⟩ : BufTy).Contents (Elt F) :=
  constant S_ .f32 0x00000000#32

def kv_main_call36_v0 : (⟨S_, .f32⟩ : BufTy).Contents (Elt F) :=
  id (kv_main_cst_226 (F := F))

def kv_main_call36_v1 : (⟨S2048, .f32⟩ : BufTy).Contents (Elt F) :=
  broadcastInDim S2048 ![] bcast_S_S2048 (kv_main_call36_v0 (F := F))

def kv_main_v529 : (⟨S2048, .f32⟩ : BufTy).Contents (Elt F) :=
  select (kv_main_v523 (F := F) x1) (kv_main_v403 (F := F) x1) (kv_main_call36_v1 (F := F))

def kv_main_c_227 : (⟨S_, .i32⟩ : BufTy).Contents (Elt F) :=
  constantI S_ 32 0#32

def kv_main_v530 : (⟨S2048, .i32⟩ : BufTy).Contents (Elt F) :=
  broadcastInDim S2048 ![] bcast_S_S2048 (kv_main_c_227 (F := F))

def kv_main_v531 : (⟨S2048, .i1⟩ : BufTy).Contents (Elt F) :=
  cmpi .slt (kv_main_v528 (F := F) x1) (kv_main_v530 (F := F))

def kv_main_c_228 : (⟨S_, .i32⟩ : BufTy).Contents (Elt F) :=
  constantI S_ 32 256#32

def kv_main_v532 : (⟨S2048, .i32⟩ : BufTy).Contents (Elt F) :=
  broadcastInDim S2048 ![] bcast_S_S2048 (kv_main_c_228 (F := F))

def kv_main_v533 : (⟨S2048, .i32⟩ : BufTy).Contents (Elt F) :=
  addi (kv_main_v528 (F := F) x1) (kv_main_v532 (F := F))

def kv_main_v534 : (⟨S2048, .i32⟩ : BufTy).Contents (Elt F) :=
  select (kv_main_v531 (F := F) x1) (kv_main_v533 (F := F) x1) (kv_main_v528 (F := F) x1)

def kv_main_c_229 : (⟨S_, .i32⟩ : BufTy).Contents (Elt F) :=
  constantI S_ 32 0#32

def kv_main_v535 : (⟨S2048, .i32⟩ : BufTy).Contents (Elt F) :=
  broadcastInDim S2048 ![] bcast_S_S2048 (kv_main_c_229 (F := F))

def kv_main_v536 : (⟨S2048, .i1⟩ : BufTy).Contents (Elt F) :=
  cmpi .slt (kv_main_v390 (F := F)) (kv_main_v535 (F := F))

def kv_main_c_230 : (⟨S_, .i32⟩ : BufTy).Contents (Elt F) :=
  constantI S_ 32 2048#32

def kv_main_v537 : (⟨S2048, .i32⟩ : BufTy).Contents (Elt F) :=
  broadcastInDim S2048 ![] bcast_S_S2048 (kv_main_c_230 (F := F))

def kv_main_v538 : (⟨S2048, .i32⟩ : BufTy).Contents (Elt F) :=
  addi (kv_main_v390 (F := F)) (kv_main_v537 (F := F))

def kv_main_v539 : (⟨S2048, .i32⟩ : BufTy).Contents (Elt F) :=
  select (kv_main_v536 (F := F)) (kv_main_v538 (F := F)) (kv_main_v390 (F := F))

def kv_main_v540 : (⟨S2048x1, .i32⟩ : BufTy).Contents (Elt F) :=
  broadcastInDim S2048x1 ![0] bcast_S2048_S2048x1_0 (kv_main_v534 (F := F) x1)

def kv_main_v541 : (⟨S2048x1, .i32⟩ : BufTy).Contents (Elt F) :=
  broadcastInDim S2048x1 ![0] bcast_S2048_S2048x1_0 (kv_main_v539 (F := F))

def kv_main_v542 : (⟨S2048x2, .i32⟩ : BufTy).Contents (Elt F) :=
  ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)) (kv_main_v540 (F := F) x1) (kv_main_v541 (F := F))

def kv_main_v543 : (⟨S256x2048, .f32⟩ : BufTy).Contents (Elt F) :=
  ((fun x i u => Host.scatterAdd scatter_S256x2048_S2048x2_S2048_n_01_01_1 x i u) : (⟨S256x2048, .f32⟩ : BufTy).Contents (Elt F) → (⟨S2048x2, .i32⟩ : BufTy).Contents (Elt F) → (⟨S2048, .f32⟩ : BufTy).Contents (Elt F) → (⟨S256x2048, .f32⟩ : BufTy).Contents (Elt F)) (kv_main_v508 (F := F) x1) (kv_main_v542 (F := F) x1) (kv_main_v529 (F := F) x1)

def kv_main_v544 : (⟨S256x2048, .bf16⟩ : BufTy).Contents (Elt F) :=
  ((truncf .bf16 · bitsLt_bf16_f32) : (⟨S256x2048, .f32⟩ : BufTy).Contents (Elt F) → (⟨S256x2048, .bf16⟩ : BufTy).Contents (Elt F)) (kv_main_v543 (F := F) x1)

def kv_main_v545 : (⟨S3x64x2048, .f32⟩ : BufTy).Contents (Elt F) :=
  shapeCast _ x2 shapeCasts_S1x192x1x2048_S3x64x2048

def kv_main_v546 : (⟨S1x2048, .f32⟩ : BufTy).Contents (Elt F) :=
  shapeCast _ x3 shapeCasts_S2048_S1x2048

end Cert.KernelIdeal.KHost
-- ==== Proof.KHost.lean ====
import proofs.«416765_j9792525435349_4_alg».proof.Proof.KHostGen.Stages
import proofs.«416765_j9792525435349_4_alg».proof.Proof.PatchedKernelIdeal.Frame.Runs

set_option maxRecDepth 16384

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

theorem V_v182 (c : Dev nD) :
    GenP.V m c main_v182 = kv_main_v182 (F := F) (m ((c : Thread nD τ).loc main_arg1)) := by
  chain_rfl

theorem V_v363 (c : Dev nD) :
    GenP.V m c main_v363 = kv_main_v363 (F := F) (m ((c : Thread nD τ).loc main_arg1)) := by
  chain_rfl

theorem V_v544 (c : Dev nD) :
    GenP.V m c main_v544 = kv_main_v544 (F := F) (m ((c : Thread nD τ).loc main_arg1)) := by
  chain_rfl

theorem V_v545 (c : Dev nD) :
    GenP.V m c main_v545 = kv_main_v545 (F := F) (m ((c : Thread nD τ).loc main_arg2)) := by
  chain_rfl

theorem V_v546 (c : Dev nD) :
    GenP.V m c main_v546 = kv_main_v546 (F := F) (m ((c : Thread nD τ).loc main_arg3)) := by
  chain_rfl

end Cert.KernelIdeal.KHost
-- ==== Proof.LibRowOps.lean ====
import Idealize.ShloMosaic.PureOps.Ideal
import Idealize.ShloMosaic.Lib.ValueIdx

noncomputable section

namespace Cert.LibRowOps

open Idealize.ShloMosaic Idealize.ShloMosaic.ValueIdx

/-- An integer clamped into the rows 0 … N-1. -/
def clampRow (N : Nat) (hN : 0 < N) (z : Int) : Fin N := ⟨(min (max z 0) ((N - 1 : Nat) : Int)).toNat, by omega⟩

/-- A sum over the indices of a rank-1 shape is the sum over its one coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, ix1, fun i => (eq_ix1 i).symm, fun _ => rfl⟩ _ _ fun i => ?_
  exact congrArg f (eq_ix1 i)

/-- A scatter's update lands on cell i exactly when, on every axis, its start plus its window offset is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hh a
      rw [← hh]
      exact (Int.toNat_of_nonneg (h a).1).symm
    · intro hh
      funext a
      refine Fin.ext ?_
      show (d.start j idx a + (d.window j a : ℤ)).toNat = (i a).val
      rw [hh a]; rfl
  · rename_i h
    constructor
    · intro hh; cases hh
    · intro hh
      refine absurd (fun a => ?_) h
      rw [hh a]
      exact ⟨Int.natCast_nonneg _, by exact_mod_cast (i a).isLt⟩

end Cert.LibRowOps

end
-- ==== Proof.LibPointScatter.lean ====
import Idealize.ShloMosaic.PureOps.Ideal
import Idealize.ShloMosaic.Lib.ValueIdx
import proofs.«416765_j9792525435349_4_alg».proof.Proof.LibRowOps

noncomputable section

namespace Cert.LibPointScatter

open Idealize.ShloMosaic Idealize.ShloMosaic.ValueIdx Cert.LibRowOps

/-- In a scatter of single points into a matrix, update e lands on cell (r, o) exactly when its index pair is (r, o). -/
theorem points_resultIdx?_iff {N C E w : Nat} (d : ScatterDims ⟨2, ![N, C]⟩ ⟨2, ![E, 2]⟩ ⟨1, ![E]⟩)
    (hu : d.updateWindowDims = []) (hi : d.insertedWindowDims = [0, 1]) (hs : d.scatterDimsToOperandDims = [0, 1])
    (hv : d.indexVectorDim = 1) (idx : IVec ⟨2, ![E, 2]⟩ w) (e : Fin E) (r : Fin N) (o : Fin C) :
    d.resultIdx? (ix1 e) idx = some (ix2 r o)
      ↔ (idx (ix2 e 0)).toInt = (r.val : ℤ) ∧ (idx (ix2 e 1)).toInt = (o.val : ℤ) := by
  obtain ⟨uw, iw, sd, iv, wf⟩ := d
  simp only at hu hi hs hv
  subst hu hi hs hv
  rw [resultIdx?_eq_some_iff, Fin.forall_fin_two]
  have hstart0 : (ScatterDims.mk (s := ⟨2, ![N, C]⟩) (si := ⟨2, ![E, 2]⟩) (u := ⟨1, ![E]⟩) [] [0, 1] [0, 1] 1 wf).start
      (ix1 e) idx 0 = (idx (ix2 e 0)).toInt := by
    unfold ScatterDims.start
    rw [dif_pos (by simp)]
    congr 2
    funext b
    refine Fin.ext ?_
    match b with
    | ⟨0, _⟩ => rfl
    | ⟨1, _⟩ => rfl
  have hstart1 : (ScatterDims.mk (s := ⟨2, ![N, C]⟩) (si := ⟨2, ![E, 2]⟩) (u := ⟨1, ![E]⟩) [] [0, 1] [0, 1] 1 wf).start
      (ix1 e) idx 1 = (idx (ix2 e 1)).toInt := by
    unfold ScatterDims.start
    rw [dif_pos (by simp)]
    congr 2
    funext b
    refine Fin.ext ?_
    match b with
    | ⟨0, _⟩ => rfl
    | ⟨1, _⟩ => rfl
  have hwin : ∀ a, (ScatterDims.mk (s := ⟨2, ![N, C]⟩) (si := ⟨2, ![E, 2]⟩) (u := ⟨1, ![E]⟩) [] [0, 1] [0, 1] 1 wf).window
      (ix1 e) a = 0 := by
    intro a
    unfold ScatterDims.window
    rw [dif_neg]
    intro ha
    have := (List.mem_filter.mp ha).2
    revert this
    match a with
    | ⟨0, _⟩ => simp
    | ⟨1, _⟩ => simp
  rw [hstart0, hstart1, hwin 0, hwin 1]
  show (idx (ix2 e 0)).toInt + ((0 : ℕ) : ℤ) = (r.val : ℤ) ∧ (idx (ix2 e 1)).toInt + ((0 : ℕ) : ℤ) = (o.val : ℤ) ↔ _
  rw [Nat.cast_zero, add_zero, add_zero]

/-- A point scatter-add read at a cell: the cell plus the updates whose index pair is that cell. -/
theorem scatterAdd_points_apply {N C E w : Nat} (d : ScatterDims ⟨2, ![N, C]⟩ ⟨2, ![E, 2]⟩ ⟨1, ![E]⟩)
    (hu : d.updateWindowDims = []) (hi : d.insertedWindowDims = [0, 1]) (hs : d.scatterDimsToOperandDims = [0, 1])
    (hv : d.indexVectorDim = 1)
    (x : (⟨2, ![N, C]⟩ : Shape).Idx → EReal) (idx : IVec ⟨2, ![E, 2]⟩ w) (upd : (⟨1, ![E]⟩ : Shape).Idx → EReal)
    (r : Fin N) (o : Fin C) :
    Ideal.hostScatterAdd d x idx upd (ix2 r o)
      = x (ix2 r o) + ∑ e ∈ Finset.univ.filter (fun e : Fin E =>
          (idx (ix2 e 0)).toInt = (r.val : ℤ) ∧ (idx (ix2 e 1)).toInt = (o.val : ℤ)), upd (ix1 e) := by
  unfold Ideal.hostScatterAdd
  congr 1
  rw [Finset.sum_filter, sum_idx1, Finset.sum_filter]
  refine Finset.sum_congr rfl fun e _ => ?_
  simp only [points_resultIdx?_iff d hu hi hs hv idx e r o]

/-- When update e's column index is e itself, only update o can land in column o. -/
theorem scatterAdd_points_diag_apply {N C w : Nat} (d : ScatterDims ⟨2, ![N, C]⟩ ⟨2, ![C, 2]⟩ ⟨1, ![C]⟩)
    (hu : d.updateWindowDims = []) (hi : d.insertedWindowDims = [0, 1]) (hs : d.scatterDimsToOperandDims = [0, 1])
    (hv : d.indexVectorDim = 1)
    (x : (⟨2, ![N, C]⟩ : Shape).Idx → EReal) (idx : IVec ⟨2, ![C, 2]⟩ w) (upd : (⟨1, ![C]⟩ : Shape).Idx → EReal)
    (hcol : ∀ e : Fin C, (idx (ix2 e 1)).toInt = (e.val : ℤ)) (r : Fin N) (o : Fin C) :
    Ideal.hostScatterAdd d x idx upd (ix2 r o)
      = x (ix2 r o) + (if (idx (ix2 o 0)).toInt = (r.val : ℤ) then upd (ix1 o) else 0) := by
  rw [scatterAdd_points_apply d hu hi hs hv x idx upd r o]
  congr 1
  rw [Finset.sum_filter, Finset.sum_eq_single o]
  · simp only [hcol o, and_true]
  · intro e _ hne
    rw [if_neg]
    rintro ⟨_, h2⟩
    rw [hcol e] at h2
    exact hne (Fin.ext (by exact_mod_cast h2))
  · intro h; exact absurd (Finset.mem_univ o) h

/-- The same for the host operation at the extended reals. -/
theorem host_scatterAdd_points_diag_apply {N C w : Nat} {φ : FTy} (d : ScatterDims ⟨2, ![N, C]⟩ ⟨2, ![C, 2]⟩ ⟨1, ![C]⟩)
    (hu : d.updateWindowDims = []) (hi : d.insertedWindowDims = [0, 1]) (hs : d.scatterDimsToOperandDims = [0, 1])
    (hv : d.indexVectorDim = 1)
    (x : FVec Ideal ⟨2, ![N, C]⟩ φ) (idx : IVec ⟨2, ![C, 2]⟩ w) (upd : FVec Ideal ⟨1, ![C]⟩ φ)
    (hcol : ∀ e : Fin C, (idx (ix2 e 1)).toInt = (e.val : ℤ)) (r : Fin N) (o : Fin C) :
    Host.scatterAdd d x idx upd (ix2 r o)
      = x (ix2 r o) + (if (idx (ix2 o 0)).toInt = (r.val : ℤ) then upd (ix1 o) else 0) :=
  scatterAdd_points_diag_apply d hu hi hs hv x idx upd hcol r o

end Cert.LibPointScatter

end
-- ==== Proof.Taps.lean ====
import Idealize.ShloMosaic.PureOps.Ideal
import Idealize.ShloMosaic.Lib.ValueIdx
import proofs.«416765_j9792525435349_4_alg».proof.Proof.Spec

noncomputable section

namespace Cert.Spec

open Idealize.ShloMosaic

abbrev fw (w : BitVec 32) : Ideal .f32 := Ideal.ofBits .f32 w

def clipG (g : Ideal .f32) : Ideal .f32 :=
  FloatOps.minimumf (fw 0x3F800000#32) (FloatOps.maximumf (fw 0xBF800000#32) g)

def pix (szf : BitVec 32) (g : Ideal .f32) : Ideal .f32 :=
  FloatOps.mulf (FloatOps.subf (FloatOps.mulf (FloatOps.addf (clipG g) (fw 0x3F800000#32)) (fw szf)) (fw 0x3F800000#32)) (fw 0x3F000000#32)

def pixFloor (szf : BitVec 32) (g : Ideal .f32) : Ideal .f32 := FloatOps.hostUnary .floor (pix szf g)

def frac (szf : BitVec 32) (g : Ideal .f32) : Ideal .f32 := FloatOps.subf (pix szf g) (pixFloor szf g)

def cell0 (szf : BitVec 32) (g : Ideal .f32) : BitVec 32 := FloatOps.fptosi 32 (pixFloor szf g)

def tapDr (k : Fin 4) : Bool := k.val / 2 = 1
def tapDc (k : Fin 4) : Bool := k.val % 2 = 1

def shifted (far : Bool) (v : BitVec 32) : BitVec 32 := if far then IntOp.addi v 1#32 else v

def validW (szi : BitVec 32) (ri ci : BitVec 32) : BitVec 1 :=
  IntOp.andi (IntOp.andi (IntOp.andi (IntOp.cmpi .sge ri 0#32) (IntOp.cmpi .slt ri szi)) (IntOp.cmpi .sge ci 0#32)) (IntOp.cmpi .slt ci szi)

def clampI (szm : BitVec 32) (v : BitVec 32) : BitVec 32 := IntOp.minsi szm (IntOp.maxsi 0#32 v)

def tapWgt (k : Fin 4) (wy wx : Ideal .f32) : Ideal .f32 :=
  FloatOps.mulf (if tapDr k then wy else FloatOps.subf (fw 0x3F800000#32) wy) (if tapDc k then wx else FloatOps.subf (fw 0x3F800000#32) wx)

def tapRi (szf : BitVec 32) (k : Fin 4) (gy : Ideal .f32) : BitVec 32 := shifted (tapDr k) (cell0 szf gy)
def tapCi (szf : BitVec 32) (k : Fin 4) (gx : Ideal .f32) : BitVec 32 := shifted (tapDc k) (cell0 szf gx)

def tapValid (szf szi : BitVec 32) (k : Fin 4) (gx gy : Ideal .f32) : BitVec 1 := validW szi (tapRi szf k gy) (tapCi szf k gx)
def tapRow (szf szm : BitVec 32) (k : Fin 4) (gy : Ideal .f32) : BitVec 32 := clampI szm (tapRi szf k gy)
def tapCol (szf szm : BitVec 32) (k : Fin 4) (gx : Ideal .f32) : BitVec 32 := clampI szm (tapCi szf k gx)
def tapW (szf : BitVec 32) (k : Fin 4) (gx gy : Ideal .f32) : Ideal .f32 := tapWgt k (frac szf gy) (frac szf gx)

def kFlat (szf szi szm nrows : BitVec 32) (k : Fin 4) (gx gy : Ideal .f32) : BitVec 32 :=
  let idx := IntOp.addi (IntOp.muli (tapRow szf szm k gy) szi) (tapCol szf szm k gx)
  Scalar.select (IntOp.cmpi .slt idx 0#32) (IntOp.addi idx nrows) idx
def kWt (szf szi : BitVec 32) (k : Fin 4) (gx gy : Ideal .f32) : Ideal .f32 :=
  Scalar.select (tapValid szf szi k gx gy) (tapW szf k gx gy) (fw 0x00000000#32)

def rRow (szf szi szm : BitVec 32) (k : Fin 4) (gy : Ideal .f32) : BitVec 32 :=
  Scalar.select (IntOp.cmpi .slt (tapRow szf szm k gy) 0#32) (IntOp.addi (tapRow szf szm k gy) szi) (tapRow szf szm k gy)
def rCol (szf szi szm : BitVec 32) (k : Fin 4) (gx : Ideal .f32) : BitVec 32 :=
  Scalar.select (IntOp.cmpi .slt (tapCol szf szm k gx) 0#32) (IntOp.addi (tapCol szf szm k gx) szi) (tapCol szf szm k gx)
def rWt (szf szi : BitVec 32) (k : Fin 4) (gx gy : Ideal .f32) : Ideal .f32 :=
  FloatOps.mulf (tapW szf k gx gy) (FloatOps.uitofp .f32 (tapValid szf szi k gx gy))

def cellFin (n : Nat) (hn : 0 < n) (v : BitVec 32) : Fin n := ⟨v.toNat % n, Nat.mod_lt _ hn⟩

end Cert.Spec

end
-- ==== Proof.TapFacts.lean ====
import Idealize.ShloMosaic.PureOps.Ideal
import Idealize.ShloMosaic.Lib.ValueIdx
import proofs.«416765_j9792525435349_4_alg».proof.Proof.Spec
import proofs.«416765_j9792525435349_4_alg».proof.Proof.LibRowOps
import proofs.«416765_j9792525435349_4_alg».proof.Proof.Taps

noncomputable section

namespace Cert.TapFacts

open Idealize.ShloMosaic

theorem toInt_of_toNat_lt (x : BitVec 32) (h : x.toNat < 2147483648) : x.toInt = (x.toNat : Int) := by
  rw [BitVec.toInt_eq_toNat_cond]
  split <;> omega

theorem toNat_of_toInt_nonneg (x : BitVec 32) (h : 0 ≤ x.toInt) : (x.toNat : Int) = x.toInt := by
  have hlt := x.isLt
  rw [BitVec.toInt_eq_toNat_cond] at h ⊢
  split at h <;> split <;> omega

theorem toInt_ofNat_small (m : Nat) (h : m < 2147483648) : (BitVec.ofNat 32 m).toInt = (m : Int) := by
  have h1 : (BitVec.ofNat 32 m).toNat = m := by
    rw [BitVec.toNat_ofNat]; omega
  rw [toInt_of_toNat_lt _ (by omega), h1]

theorem addi_zero (v : BitVec 32) : IntOp.addi v 0#32 = v := by
  simp [IntOp.addi]

theorem select_neg_id (x y : BitVec 32) (h : 0 ≤ x.toInt) :
    Scalar.select (IntOp.cmpi .slt x 0#32) (IntOp.addi x y) x = x := by
  have h0 : x.slt 0#32 = false := by
    simp [BitVec.slt]; omega
  simp [Scalar.select, IntOp.cmpi, h0]

theorem iota_col (o : Fin 2048) :
    (Scalar.select (IntOp.cmpi .slt (BitVec.ofNat 32 o.val) 0#32) (IntOp.addi (BitVec.ofNat 32 o.val) 2048#32)
      (BitVec.ofNat 32 o.val)).toInt = (o.val : Int) := by
  have ho := o.isLt
  have h1 : (BitVec.ofNat 32 o.val).toInt = (o.val : Int) := toInt_ofNat_small _ (by omega)
  rw [select_neg_id _ _ (by omega), h1]

section Clamp
variable {n : Nat} (hn : 0 < n) (hn64 : n ≤ 64) {szi szm nrows : BitVec 32}
  (hszi : szi = BitVec.ofNat 32 n) (hszm : szm = BitVec.ofNat 32 (n - 1)) (hrows : nrows = BitVec.ofNat 32 (n * n))

include hn hn64 hszm in

theorem clampI_range (v : BitVec 32) :
    0 ≤ (Spec.clampI szm v).toInt ∧ (Spec.clampI szm v).toInt ≤ (n : Int) - 1 := by
  have hm : szm.toInt = ((n - 1 : Nat) : Int) := by
    rw [hszm]; exact toInt_ofNat_small _ (by omega)
  have h0 : (0#32 : BitVec 32).toInt = 0 := by decide
  unfold Spec.clampI IntOp.minsi IntOp.maxsi
  by_cases hv : v.slt 0#32 = true
  · rw [if_pos hv]
    by_cases hs : szm.slt 0#32 = true
    · rw [if_pos hs]; omega
    · rw [if_neg hs]
      rw [h0]; omega
  · rw [if_neg hv]
    have hv' : 0 ≤ v.toInt := by
      simp [BitVec.slt] at hv; omega
    by_cases hs : szm.slt v = true
    · rw [if_pos hs]; omega
    · rw [if_neg hs]
      simp [BitVec.slt] at hs
      omega

include hn hn64 hszm in

theorem clampI_toNat_lt (v : BitVec 32) : (Spec.clampI szm v).toNat < n := by
  obtain ⟨h1, h2⟩ := clampI_range hn hn64 hszm v
  have := toNat_of_toInt_nonneg _ h1
  omega

include hn hn64 hszm in

theorem cellFin_clampI (v : BitVec 32) : (Spec.cellFin n hn (Spec.clampI szm v)).val = (Spec.clampI szm v).toNat := by
  show (Spec.clampI szm v).toNat % n = _
  exact Nat.mod_eq_of_lt (clampI_toNat_lt hn hn64 hszm v)

include hn hn64 hszm in

theorem clampI_toInt (v : BitVec 32) : (Spec.clampI szm v).toInt = ((Spec.cellFin n hn (Spec.clampI szm v)).val : Int) := by
  rw [cellFin_clampI hn hn64 hszm v]
  exact (toNat_of_toInt_nonneg _ (clampI_range hn hn64 hszm v).1).symm

end Clamp

section Taps
variable {n : Nat} (hn : 0 < n) (hn64 : n ≤ 64) {szi szm nrows : BitVec 32}
  (hszi : szi = BitVec.ofNat 32 n) (hszm : szm = BitVec.ofNat 32 (n - 1)) (hrows : nrows = BitVec.ofNat 32 (n * n))
  (szf : BitVec 32) (gx gy : Ideal .f32) (k : Fin 4)

include hn hn64 hszm in

theorem rRow_toInt :
    (Spec.rRow szf szi szm k gy).toInt = ((Spec.cellFin n hn (Spec.tapRow szf szm k gy)).val : Int) := by
  unfold Spec.rRow Spec.tapRow
  rw [select_neg_id _ _ (clampI_range hn hn64 hszm _).1]
  exact clampI_toInt hn hn64 hszm _

include hn hn64 hszm in

theorem rCol_toInt :
    (Spec.rCol szf szi szm k gx).toInt = ((Spec.cellFin n hn (Spec.tapCol szf szm k gx)).val : Int) := by
  unfold Spec.rCol Spec.tapCol
  rw [select_neg_id _ _ (clampI_range hn hn64 hszm _).1]
  exact clampI_toInt hn hn64 hszm _

theorem clampRow_cell (c : Fin n) : LibRowOps.clampRow n hn (c.val : Int) = c := by
  have hc := c.isLt
  refine Fin.ext ?_
  show (min (max (c.val : Int) 0) ((n - 1 : Nat) : Int)).toNat = c.val
  omega

include hn64 hszm in
theorem rRow_clampRow :
    LibRowOps.clampRow n hn (Spec.rRow szf szi szm k gy).toInt = Spec.cellFin n hn (Spec.tapRow szf szm k gy) := by
  rw [rRow_toInt hn hn64 hszm]; exact clampRow_cell hn _

include hn64 hszm in
theorem rCol_clampRow :
    LibRowOps.clampRow n hn (Spec.rCol szf szi szm k gx).toInt = Spec.cellFin n hn (Spec.tapCol szf szm k gx) := by
  rw [rCol_toInt hn hn64 hszm]; exact clampRow_cell hn _

theorem flat_lt_of_lt {r c : Nat} (hr : r < n) (hc : c < n) : r * n + c < n * n := by
  have h1 : (r + 1) * n ≤ n * n := Nat.mul_le_mul_right n hr
  rw [Nat.add_mul, Nat.one_mul] at h1
  omega

theorem flat_lt (a b : BitVec 32) : (Spec.cellFin n hn a).val * n + (Spec.cellFin n hn b).val < n * n :=
  flat_lt_of_lt (Spec.cellFin n hn a).isLt (Spec.cellFin n hn b).isLt

theorem flat_div {r c : Nat} (hc : c < n) : (r * n + c) / n = r := by
  have hn : 0 < n := by omega
  rw [Nat.add_comm, Nat.add_mul_div_right _ _ hn, Nat.div_eq_of_lt hc, Nat.zero_add]

theorem flat_mod {r c : Nat} (hc : c < n) : (r * n + c) % n = c := by
  rw [Nat.add_comm, Nat.add_mul_mod_self_right, Nat.mod_eq_of_lt hc]

include hn hn64 hszi hszm in

theorem kFlat_toInt :
    (Spec.kFlat szf szi szm nrows k gx gy).toInt
      = (((Spec.cellFin n hn (Spec.tapRow szf szm k gy)).val * n + (Spec.cellFin n hn (Spec.tapCol szf szm k gx)).val : Nat) : Int) := by
  unfold Spec.kFlat Spec.tapRow Spec.tapCol
  rw [cellFin_clampI hn hn64 hszm, cellFin_clampI hn hn64 hszm]
  have hr := clampI_toNat_lt hn hn64 hszm (Spec.tapRi szf k gy)
  have hc := clampI_toNat_lt hn hn64 hszm (Spec.tapCi szf k gx)
  generalize Spec.clampI szm (Spec.tapRi szf k gy) = R at hr ⊢
  generalize Spec.clampI szm (Spec.tapCi szf k gx) = C at hc ⊢
  have hsz : szi.toNat = n := by rw [hszi, BitVec.toNat_ofNat]; omega
  have hfl : R.toNat * n + C.toNat < n * n := flat_lt_of_lt hr hc
  have hnn : n * n ≤ 64 * 64 := Nat.mul_le_mul hn64 hn64
  have hmul : (IntOp.muli R szi).toNat = R.toNat * n := by
    show (R * szi).toNat = _
    rw [BitVec.toNat_mul, hsz]; omega
  have hidx : (IntOp.addi (IntOp.muli R szi) C).toNat = R.toNat * n + C.toNat := by
    show (IntOp.muli R szi + C).toNat = _
    rw [BitVec.toNat_add, hmul]; omega
  have hint : (IntOp.addi (IntOp.muli R szi) C).toInt = ((R.toNat * n + C.toNat : Nat) : Int) := by
    rw [toInt_of_toNat_lt _ (by omega), hidx]
  show (Scalar.select (IntOp.cmpi .slt (IntOp.addi (IntOp.muli R szi) C) 0#32)
    (IntOp.addi (IntOp.addi (IntOp.muli R szi) C) nrows) (IntOp.addi (IntOp.muli R szi) C)).toInt = _
  rw [select_neg_id _ _ (by omega), hint]

theorem fw_zero : Spec.fw 0x00000000#32 = 0 := by
  simp [Spec.fw, Ideal.ofBits, Ideal.ieee]

theorem rWt_eq_kWt : Spec.rWt szf szi k gx gy = Spec.kWt szf szi k gx gy := by
  unfold Spec.rWt Spec.kWt
  generalize Spec.tapValid szf szi k gx gy = b
  generalize Spec.tapW szf k gx gy = w
  have hb : b = 0#1 ∨ b = 1#1 := by
    have := b.isLt
    rcases Nat.lt_or_ge b.toNat 1 with h | h
    · left; apply BitVec.eq_of_toNat_eq; simp; omega
    · right; apply BitVec.eq_of_toNat_eq; simp; omega
  rcases hb with rfl | rfl
  · have h1 : (FloatOps.uitofp .f32 (0#1 : BitVec 1) : Ideal .f32) = (0 : EReal) := by
      show (((0#1 : BitVec 1).toNat : ℝ) : EReal) = 0
      simp
    rw [Ideal.mulf_def, h1, fw_zero]
    show w * 0 = if (0#1 : BitVec 1) = 1 then w else 0
    rw [if_neg (by decide), mul_zero]
  · have h1 : (FloatOps.uitofp .f32 (1#1 : BitVec 1) : Ideal .f32) = (1 : EReal) := by
      show (((1#1 : BitVec 1).toNat : ℝ) : EReal) = 1
      simp
    rw [Ideal.mulf_def, h1]
    show w * 1 = if (1#1 : BitVec 1) = 1 then w else _
    rw [if_pos (by decide), mul_one]

end Taps

theorem fw_one : Spec.fw 0x3F800000#32 = ((1 : ℝ) : EReal) := by
  simp [Spec.fw, Ideal.ofBits, Ideal.ieee, -EReal.coe_mul]; norm_num

theorem fw_negone : Spec.fw 0xBF800000#32 = ((-1 : ℝ) : EReal) := by
  simp [Spec.fw, Ideal.ofBits, Ideal.ieee, -EReal.coe_mul]; norm_num

theorem fw_half : Spec.fw 0x3F000000#32 = ((1 / 2 : ℝ) : EReal) := by
  simp [Spec.fw, Ideal.ofBits, Ideal.ieee, -EReal.coe_mul]; norm_num

theorem fw_64 : Spec.fw 0x42800000#32 = ((64 : ℝ) : EReal) := by
  simp [Spec.fw, Ideal.ofBits, Ideal.ieee, -EReal.coe_mul]; norm_num

theorem fw_32 : Spec.fw 0x42000000#32 = ((32 : ℝ) : EReal) := by
  simp [Spec.fw, Ideal.ofBits, Ideal.ieee, -EReal.coe_mul]; norm_num

theorem fw_16 : Spec.fw 0x41800000#32 = ((16 : ℝ) : EReal) := by
  simp [Spec.fw, Ideal.ofBits, Ideal.ieee, -EReal.coe_mul]; norm_num

abbrev IsReal (x : EReal) : Prop := ∃ r : ℝ, x = (r : EReal)

theorem fw_real_one : IsReal (Spec.fw 0x3F800000#32) := ⟨_, fw_one⟩
theorem fw_real_negone : IsReal (Spec.fw 0xBF800000#32) := ⟨_, fw_negone⟩
theorem fw_real_half : IsReal (Spec.fw 0x3F000000#32) := ⟨_, fw_half⟩
theorem fw_real_64 : IsReal (Spec.fw 0x42800000#32) := ⟨_, fw_64⟩
theorem fw_real_32 : IsReal (Spec.fw 0x42000000#32) := ⟨_, fw_32⟩
theorem fw_real_16 : IsReal (Spec.fw 0x41800000#32) := ⟨_, fw_16⟩
theorem fw_real_zero : IsReal (Spec.fw 0x00000000#32) := ⟨0, by rw [fw_zero]; rfl⟩

theorem isReal_add {x y : EReal} (hx : IsReal x) (hy : IsReal y) : IsReal (x + y) := by
  obtain ⟨a, rfl⟩ := hx; obtain ⟨b, rfl⟩ := hy
  exact ⟨a + b, (EReal.coe_add a b).symm⟩

theorem isReal_sub {x y : EReal} (hx : IsReal x) (hy : IsReal y) : IsReal (x - y) := by
  obtain ⟨a, rfl⟩ := hx; obtain ⟨b, rfl⟩ := hy
  exact ⟨a - b, (EReal.coe_sub a b).symm⟩

theorem isReal_mul {x y : EReal} (hx : IsReal x) (hy : IsReal y) : IsReal (x * y) := by
  obtain ⟨a, rfl⟩ := hx; obtain ⟨b, rfl⟩ := hy
  exact ⟨a * b, (EReal.coe_mul a b).symm⟩

theorem isReal_min {x y : EReal} (hx : IsReal x) (hy : IsReal y) : IsReal (min x y) := by
  rcases min_choice x y with h | h <;> rw [h] <;> assumption

theorem isReal_max {x y : EReal} (hx : IsReal x) (hy : IsReal y) : IsReal (max x y) := by
  rcases max_choice x y with h | h <;> rw [h] <;> assumption

theorem isReal_floor {x : EReal} (hx : IsReal x) : IsReal (Ideal.liftRound Int.floor x) := by
  obtain ⟨a, rfl⟩ := hx
  exact ⟨((Int.floor a : ℤ) : ℝ), rfl⟩

section Real
variable (szf szi : BitVec 32) (k : Fin 4)

theorem clipG_real {g : Ideal .f32} (hg : IsReal g) : IsReal (Spec.clipG g) := by
  unfold Spec.clipG
  rw [Ideal.minimumf_def, Ideal.maximumf_def]
  exact isReal_min fw_real_one (isReal_max fw_real_negone hg)

theorem pix_real {g : Ideal .f32} (hs : IsReal (Spec.fw szf)) (hg : IsReal g) : IsReal (Spec.pix szf g) := by
  unfold Spec.pix
  rw [Ideal.mulf_def, Ideal.subf_def, Ideal.mulf_def, Ideal.addf_def]
  exact isReal_mul (isReal_sub (isReal_mul (isReal_add (clipG_real hg) fw_real_one) hs) fw_real_one) fw_real_half

theorem pixFloor_real {g : Ideal .f32} (hs : IsReal (Spec.fw szf)) (hg : IsReal g) : IsReal (Spec.pixFloor szf g) := by
  unfold Spec.pixFloor
  rw [Ideal.hostUnary_floor_def]
  exact isReal_floor (pix_real szf hs hg)

theorem frac_real {g : Ideal .f32} (hs : IsReal (Spec.fw szf)) (hg : IsReal g) : IsReal (Spec.frac szf g) := by
  unfold Spec.frac
  rw [Ideal.subf_def]
  exact isReal_sub (pix_real szf hs hg) (pixFloor_real szf hs hg)

theorem tapWgt_real {wy wx : Ideal .f32} (hy : IsReal wy) (hx : IsReal wx) : IsReal (Spec.tapWgt k wy wx) := by
  unfold Spec.tapWgt
  rw [Ideal.mulf_def]
  refine isReal_mul ?_ ?_
  · split
    · exact hy
    · rw [Ideal.subf_def]; exact isReal_sub fw_real_one hy
  · split
    · exact hx
    · rw [Ideal.subf_def]; exact isReal_sub fw_real_one hx

theorem tapW_real {gx gy : Ideal .f32} (hs : IsReal (Spec.fw szf)) (hx : IsReal gx) (hy : IsReal gy) :
    IsReal (Spec.tapW szf k gx gy) :=
  tapWgt_real k (frac_real szf hs hy) (frac_real szf hs hx)

theorem kWt_real {gx gy : Ideal .f32} (hszf : ∃ s : ℝ, Spec.fw szf = (s : EReal)) (hx : ∃ a : ℝ, gx = (a : EReal))
    (hy : ∃ b : ℝ, gy = (b : EReal)) : ∃ r : ℝ, Spec.kWt szf szi k gx gy = (r : EReal) := by
  unfold Spec.kWt Scalar.select
  split
  · exact tapW_real szf k hszf hx hy
  · exact fw_real_zero

end Real

end Cert.TapFacts

end
-- ==== Proof.Forms.lean ====
import Idealize.ShloMosaic.PureOps.Ideal
import Idealize.ShloMosaic.Lib.ValueIdx
import proofs.«416765_j9792525435349_4_alg».proof.Proof.Spec
import proofs.«416765_j9792525435349_4_alg».proof.Proof.Taps

noncomputable section

namespace Cert.Spec

open Idealize.ShloMosaic Idealize.ShloMosaic.ValueIdx

abbrev SX : Shape := ⟨5, ![8, 64, 16, 64, 64]⟩
abbrev SG : Shape := ⟨4, ![1, 2048, 1, 2]⟩
abbrev SFt : Shape := ⟨4, ![1, 192, 1, 2048]⟩
abbrev SB : Shape := ⟨1, ![2048]⟩

abbrev szf0 : BitVec 32 := 0x42800000#32
abbrev szf1 : BitVec 32 := 0x42000000#32
abbrev szf2 : BitVec 32 := 0x41800000#32

def img0 (x : SX.Idx → EReal) (n : Fin 8) (ch : Fin 64) (tt : Fin 16) : Fin 64 → Fin 64 → EReal :=
  fun w h => x (ix5 n ch tt w h)

def gxOf (g : SG.Idx → EReal) (o : Fin 2048) : EReal := g (ix4 0 o 0 0)
def gyOf (g : SG.Idx → EReal) (o : Fin 2048) : EReal := g (ix4 0 o 0 1)

def flat64 (k : Fin 4) (gx gy : EReal) : Fin 4096 :=
  cellFin 4096 (by decide) (kFlat szf0 64#32 63#32 4096#32 k gx gy)
def flat32 (k : Fin 4) (gx gy : EReal) : Fin 1024 :=
  cellFin 1024 (by decide) (kFlat szf1 32#32 31#32 1024#32 k gx gy)
def flat16 (k : Fin 4) (gx gy : EReal) : Fin 256 :=
  cellFin 256 (by decide) (kFlat szf2 16#32 15#32 256#32 k gx gy)

def w64 (g : SG.Idx → EReal) (r : Fin 4096) (o : Fin 2048) : EReal :=
  wentry (fun k => flat64 k (gxOf g o) (gyOf g o)) (fun k => kWt szf0 64#32 k (gxOf g o) (gyOf g o)) r
def w32 (g : SG.Idx → EReal) (r : Fin 1024) (o : Fin 2048) : EReal :=
  wentry (fun k => flat32 k (gxOf g o) (gyOf g o)) (fun k => kWt szf1 32#32 k (gxOf g o) (gyOf g o)) r
def w16 (g : SG.Idx → EReal) (r : Fin 256) (o : Fin 2048) : EReal :=
  wentry (fun k => flat16 k (gxOf g o) (gyOf g o)) (fun k => kWt szf2 16#32 k (gxOf g o) (gyOf g o)) r

def kChunk (x : SX.Idx → EReal) (g : SG.Idx → EReal) (f : SFt.Idx → EReal) (n : Fin 8) (tt : Fin 16) (o : Fin 2048)
    (cc : Fin 2) : EReal :=
  chunkSum
    (fun c => ∑ r : Fin 4096, img0 x n ⟨cc.val * 32 + c.val, by omega⟩ tt ⟨r.val / 64, by omega⟩ ⟨r.val % 64, by omega⟩ * w64 g r o)
    (fun c => ∑ r : Fin 1024, pool64 (img0 x n ⟨cc.val * 32 + c.val, by omega⟩ tt) ⟨r.val / 32, by omega⟩ ⟨r.val % 32, by omega⟩ * w32 g r o)
    (fun c => ∑ r : Fin 256, pool32 (pool64 (img0 x n ⟨cc.val * 32 + c.val, by omega⟩ tt)) ⟨r.val / 16, by omega⟩ ⟨r.val % 16, by omega⟩ * w16 g r o)
    (fun c => f (ix4 0 ⟨cc.val * 32 + c.val, by omega⟩ 0 o))
    (fun c => f (ix4 0 ⟨64 + cc.val * 32 + c.val, by omega⟩ 0 o))
    (fun c => f (ix4 0 ⟨128 + cc.val * 32 + c.val, by omega⟩ 0 o))

/-- The kernel's form of an output cell: two chunks of 32 channels, each summing over the three levels the image row times the weight-matrix column times the feature, then the bias. -/
def kOut (x : SX.Idx → EReal) (g : SG.Idx → EReal) (f : SFt.Idx → EReal) (b : SB.Idx → EReal)
    (n : Fin 8) (tt : Fin 16) (o : Fin 2048) : EReal :=
  ((zero32 + kChunk x g f n tt o 0) + kChunk x g f n tt o 1) + b (ix1 o)

def sample {n : Nat} (hn : 0 < n) (szf szi szm : BitVec 32) (im : Fin n → Fin n → EReal) (gx gy : EReal) : EReal :=
  let t : Fin 4 → EReal := fun k =>
    im (cellFin n hn (tapRow szf szm k gy)) (cellFin n hn (tapCol szf szm k gx)) * rWt szf szi k gx gy
  ((t 0 + t 1) + t 2) + t 3

def rY (x : SX.Idx → EReal) (g : SG.Idx → EReal) (n : Fin 8) (tt : Fin 16) (o : Fin 2048) (k : Fin 192) : EReal :=
  if k.val < 64 then
    sample (n := 64) (by decide) szf0 64#32 63#32 (img0 x n ⟨k.val % 64, Nat.mod_lt _ (by decide)⟩ tt) (gxOf g o) (gyOf g o)
  else if k.val < 128 then
    sample (n := 32) (by decide) szf1 32#32 31#32 (pool64 (img0 x n ⟨k.val % 64, Nat.mod_lt _ (by decide)⟩ tt)) (gxOf g o) (gyOf g o)
  else
    sample (n := 16) (by decide) szf2 16#32 15#32 (pool32 (pool64 (img0 x n ⟨k.val % 64, Nat.mod_lt _ (by decide)⟩ tt))) (gxOf g o) (gyOf g o)

/-- The reference's form: one sum over the 192 level-channel pairs of the bilinear sample times the feature, then the bias. -/
def rOut (x : SX.Idx → EReal) (g : SG.Idx → EReal) (f : SFt.Idx → EReal) (b : SB.Idx → EReal)
    (n : Fin 8) (tt : Fin 16) (o : Fin 2048) : EReal :=
  (zero32 + ∑ k : Fin 192, rY x g n tt o k * f (ix4 0 k 0 o)) + b (ix1 o)

end Cert.Spec

end
-- ==== Proof.Algebra.lean ====
import proofs.«416765_j9792525435349_4_alg».proof.Proof.Spec
import Idealize.ShloMosaic.PureOps.Ideal
import Mathlib.Data.EReal.Basic
import Mathlib.Data.EReal.Operations
import Mathlib.Data.Fintype.BigOperators
import Mathlib.Algebra.BigOperators.Fin
import Mathlib.Algebra.BigOperators.Group.Finset.Defs
import Mathlib.Algebra.BigOperators.Group.Finset.Basic
import Mathlib.Algebra.BigOperators.Group.Finset.Piecewise
import Mathlib.Algebra.BigOperators.Group.Finset.Sigma

noncomputable section

namespace Cert.Algebra

open Idealize.ShloMosaic

theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem zero32_eq : Spec.zero32 = 0 := by
  simp [Ideal.ofBits, Ideal.ieee]

theorem quarter32_eq : Spec.quarter32 = ((1 / 4 : ℝ) : EReal) := by
  simp [Ideal.ofBits, Ideal.ieee, -EReal.coe_mul]; norm_num

theorem four32_eq : Spec.four32 = ((4 : ℝ) : EReal) := by
  simp [Ideal.ofBits, Ideal.ieee, -EReal.coe_mul]; norm_num

theorem mul_quarter_eq_div_four (s : EReal) : s * Spec.quarter32 = Ideal.div s Spec.four32 := by
  rw [quarter32_eq, four32_eq, Ideal.div_coe (by norm_num : (4 : ℝ) ≠ 0)]

theorem ite_coe (c : Prop) [Decidable c] (a : ℝ) :
    (if c then (a : EReal) else Spec.zero32) = ((if c then a else 0 : ℝ) : EReal) := by
  rw [zero32_eq]; split_ifs <;> simp

theorem wentry_coe {R : Type} [DecidableEq R] (flat : Fin 4 → R) (w : Fin 4 → ℝ) (r : R) :
    Spec.wentry flat (fun k => (w k : EReal)) r
      = (((((if flat 0 = r then w 0 else 0) + (if flat 1 = r then w 1 else 0))
          + (if flat 2 = r then w 2 else 0)) + (if flat 3 = r then w 3 else 0) : ℝ) : EReal) := by
  simp only [Spec.wentry, ite_coe]
  rw [zero32_eq, zero_add]
  push_cast
  rfl

theorem taps_sum {R : Type} [Fintype R] [DecidableEq R] (P : R → EReal)
    (hP : ∀ r, ∃ a : ℝ, P r = (a : EReal)) (flat : Fin 4 → R) (wt : Fin 4 → EReal)
    (hw : ∀ k, ∃ a : ℝ, wt k = (a : EReal)) :
    ∑ r, P r * Spec.wentry flat wt r
      = ((P (flat 0) * wt 0 + P (flat 1) * wt 1) + P (flat 2) * wt 2) + P (flat 3) * wt 3 := by
  choose p hp using hP
  choose w hw using hw
  obtain rfl : P = fun r => (p r : EReal) := funext hp
  obtain rfl : wt = fun k => (w k : EReal) := funext hw
  simp only [wentry_coe, ← EReal.coe_mul, ← EReal.coe_add, coe_sum]
  congr 1
  simp only [mul_add, Finset.sum_add_distrib, mul_ite, mul_zero, Finset.sum_ite_eq, Finset.mem_univ,
    if_true]

theorem sum_pairs (f : Fin 2 → Fin 2 → EReal) :
    ∑ j : Fin 2, ∑ i : Fin 2, f i j = ((f 0 0 + f 1 0) + f 0 1) + f 1 1 := by
  simp only [Fin.sum_univ_two, add_assoc]

theorem sum_pairs_prod (f : Fin 2 → Fin 2 → EReal) :
    ∑ p : Fin 2 × Fin 2, f p.1 p.2 = ((f 0 0 + f 1 0) + f 0 1) + f 1 1 := by
  rw [Fintype.sum_prod_type_right]; exact sum_pairs f

theorem pool64_coe (v : Fin 64 → Fin 64 → ℝ) (a b : Fin 32) :
    Spec.pool64 (fun w h => (v w h : EReal)) a b
      = (((∑ j : Fin 2, ∑ i : Fin 2, v ⟨2 * a.val + i.val, by omega⟩ ⟨2 * b.val + j.val, by omega⟩) * (1 / 4) : ℝ)
          : EReal) := by
  unfold Spec.pool64
  rw [quarter32_eq]
  simp only [coe_sum, ← EReal.coe_mul]

theorem pool32_coe (v : Fin 32 → Fin 32 → ℝ) (a b : Fin 16) :
    Spec.pool32 (fun w h => (v w h : EReal)) a b
      = (((∑ j : Fin 2, ∑ i : Fin 2, v ⟨2 * a.val + i.val, by omega⟩ ⟨2 * b.val + j.val, by omega⟩) * (1 / 4) : ℝ)
          : EReal) := by
  unfold Spec.pool32
  rw [quarter32_eq]
  simp only [coe_sum, ← EReal.coe_mul]

theorem pool64_real (x : Fin 64 → Fin 64 → EReal) (hx : ∀ w h, ∃ a : ℝ, x w h = (a : EReal))
    (a b : Fin 32) : ∃ r : ℝ, Spec.pool64 x a b = (r : EReal) := by
  choose v hv using hx
  obtain rfl : x = fun w h => (v w h : EReal) := funext fun w => funext fun h => hv w h
  exact ⟨_, pool64_coe v a b⟩

theorem pool32_real (x : Fin 32 → Fin 32 → EReal) (hx : ∀ w h, ∃ a : ℝ, x w h = (a : EReal))
    (a b : Fin 16) : ∃ r : ℝ, Spec.pool32 x a b = (r : EReal) := by
  choose v hv using hx
  obtain rfl : x = fun w h => (v w h : EReal) := funext fun w => funext fun h => hv w h
  exact ⟨_, pool32_coe v a b⟩

def cell192 (l : Fin 3) (cc : Fin 2) (c : Fin 32) : Fin 192 := ⟨l.val * 64 + cc.val * 32 + c.val, by omega⟩

def equiv192 : Fin 3 × Fin 2 × Fin 32 ≃ Fin 192 where
  toFun p := cell192 p.1 p.2.1 p.2.2
  invFun k := (⟨k.val / 64, by omega⟩, ⟨k.val % 64 / 32, by omega⟩, ⟨k.val % 32, by omega⟩)
  left_inv := by
    rintro ⟨l, cc, c⟩
    simp only [cell192, Prod.mk.injEq, Fin.ext_iff]
    refine ⟨?_, ?_, ?_⟩ <;> omega
  right_inv := by
    intro k
    simp only [cell192, Fin.ext_iff]
    omega

abbrev Y192 (a : Fin 192 → EReal) (cc : Fin 2) : EReal :=
  ((∑ c : Fin 32, a ⟨cc.val * 32 + c.val, by omega⟩) + (∑ c : Fin 32, a ⟨64 + cc.val * 32 + c.val, by omega⟩))
    + (∑ c : Fin 32, a ⟨128 + cc.val * 32 + c.val, by omega⟩)

theorem Y192_eq (a : Fin 192 → EReal) (cc : Fin 2) :
    Y192 a cc = ∑ l : Fin 3, ∑ c : Fin 32, a (cell192 l cc c) := by
  rw [Fin.sum_univ_three]
  have h0 : ∀ c : Fin 32, cell192 0 cc c = ⟨cc.val * 32 + c.val, by omega⟩ := fun c =>
    Fin.ext (by simp [cell192])
  have h1 : ∀ c : Fin 32, cell192 1 cc c = ⟨64 + cc.val * 32 + c.val, by omega⟩ := fun c =>
    Fin.ext (by simp [cell192])
  have h2 : ∀ c : Fin 32, cell192 2 cc c = ⟨128 + cc.val * 32 + c.val, by omega⟩ := fun c =>
    Fin.ext (by simp [cell192])
  simp only [h0, h1, h2]

theorem regroup192 (a : Fin 192 → EReal) :
    Spec.zero32 + ∑ k : Fin 192, a k = (Spec.zero32 + Y192 a 0) + Y192 a 1 := by
  rw [zero32_eq, zero_add, zero_add, Y192_eq, Y192_eq, ← Equiv.sum_comp equiv192 a,
    Fintype.sum_prod_type]
  simp only [Fintype.sum_prod_type, Fin.sum_univ_two]
  rw [← Finset.sum_add_distrib]
  rfl

theorem Y192_mul (G F : Fin 192 → EReal) (cc : Fin 2) :
    Y192 (fun k => G k * F k) cc
      = Spec.chunkSum (fun c : Fin 32 => G ⟨cc.val * 32 + c.val, by omega⟩)
          (fun c : Fin 32 => G ⟨64 + cc.val * 32 + c.val, by omega⟩)
          (fun c : Fin 32 => G ⟨128 + cc.val * 32 + c.val, by omega⟩)
          (fun c : Fin 32 => F ⟨cc.val * 32 + c.val, by omega⟩)
          (fun c : Fin 32 => F ⟨64 + cc.val * 32 + c.val, by omega⟩)
          (fun c : Fin 32 => F ⟨128 + cc.val * 32 + c.val, by omega⟩) := rfl

end Cert.Algebra

end
-- ==== Proof.KW0.lean ====
import proofs.«416765_j9792525435349_4_alg».proof.Proof.KHostGen.Stages
import proofs.«416765_j9792525435349_4_alg».proof.Proof.LibPointScatter
import proofs.«416765_j9792525435349_4_alg».proof.Proof.Spec
import proofs.«416765_j9792525435349_4_alg».proof.Proof.Taps
import proofs.«416765_j9792525435349_4_alg».proof.Proof.TapFacts
import proofs.«416765_j9792525435349_4_alg».proof.Proof.Forms
import proofs.«416765_j9792525435349_4_alg».proof.Proof.Algebra
import Idealize.ShloMosaic.Lib.ValueIdx
import Idealize.ShloMosaic.Lib.Pipeline.Value

noncomputable section

namespace Cert.KernelIdeal.KW0

open Cert Cert.KernelIdeal Cert.KernelIdeal.Gen Cert.KernelIdeal.KHost Idealize.ShloMosaic Idealize.ShloMosaic.ValueIdx

abbrev Grid : Type := (⟨S1x2048x1x2, .f32⟩ : BufTy).Contents (Elt Ideal)

theorem kfeat_apply (x2 : (⟨S1x192x1x2048, .f32⟩ : BufTy).Contents (Elt Ideal)) (l : Fin 3) (ch : Fin 64) (o : Fin 2048) :
    kv_main_v545 (F := Ideal) x2 (ix3 l ch o)
      = x2 (ix4 0 ⟨l.val * 64 + ch.val, by have := l.isLt; have := ch.isLt; omega⟩ 0 o) := by
  unfold kv_main_v545
  refine shapeCast_apply x2 shapeCasts_S1x192x1x2048_S3x64x2048 (ix3 l ch o) _ ?_
  rw [Shape.rowMajor_val_four, Shape.rowMajor_val_three]
  have hl := l.isLt; have hc := ch.isLt; have ho := o.isLt
  show ((0 * 192 + (l.val * 64 + ch.val)) * 1 + 0) * 2048 + o.val = (l.val * 64 + ch.val) * 2048 + o.val
  omega

theorem kbias_apply (x3 : (⟨S2048, .f32⟩ : BufTy).Contents (Elt Ideal)) (o : Fin 2048) :
    kv_main_v546 (F := Ideal) x3 (ix2 0 o) = x3 (ix1 o) := by
  unfold kv_main_v546
  refine shapeCast_apply x3 shapeCasts_S2048_S1x2048 (ix2 0 o) _ ?_
  rw [Shape.rowMajor_val_one, Shape.rowMajor_val_two]
  show o.val = 0 * 2048 + o.val
  omega

theorem v0_apply (x1 : Grid) (o : Fin 2048) (c : Fin 2) :
    kv_main_v0 (F := Ideal) x1 (ix2 o c) = x1 (ix4 0 o 0 c) := by
  unfold kv_main_v0
  refine shapeCast_apply x1 shapeCasts_S1x2048x1x2_S2048x2 (ix2 o c) _ ?_
  rw [Shape.rowMajor_val_four, Shape.rowMajor_val_two]
  show ((0 * 2048 + o.val) * 1 + 0) * 2 + c.val = o.val * 2 + c.val
  omega

theorem v1_apply (x1 : Grid) (o : Fin 2048) (c : Fin 2) :
    kv_main_v1 (F := Ideal) x1 (ix2 o c) = Spec.clipG (x1 (ix4 0 o 0 c)) := by
  rw [← v0_apply x1 o c]; rfl

theorem v3_apply (x1 : Grid) (o : Fin 2048) :
    kv_main_v3 (F := Ideal) x1 (ix1 o) = Spec.clipG (Spec.gxOf x1 o) := by
  unfold kv_main_v3
  refine (shapeCast_apply _ shapeCasts_S2048x1_S2048 (ix1 o) (ix2 o 0) ?_).trans ?_
  · rw [Shape.rowMajor_val_two, Shape.rowMajor_val_one]
    show o.val * 1 + 0 = o.val
    omega
  unfold kv_main_v2
  refine (extractStridedSlice_apply _ _ _ (ix2 o 0) (ix2 o 0) ?_).trans ?_
  · intro a
    match a with
    | ⟨0, _⟩ => show o.val = 0 + o.val; omega
    | ⟨1, _⟩ => show 0 = 0 + 0; rfl
  exact v1_apply x1 o 0

theorem v5_apply (x1 : Grid) (o : Fin 2048) :
    kv_main_v5 (F := Ideal) x1 (ix1 o) = Spec.clipG (Spec.gyOf x1 o) := by
  unfold kv_main_v5
  refine (shapeCast_apply _ shapeCasts_S2048x1_S2048 (ix1 o) (ix2 o 0) ?_).trans ?_
  · rw [Shape.rowMajor_val_two, Shape.rowMajor_val_one]
    show o.val * 1 + 0 = o.val
    omega
  unfold kv_main_v4
  refine (extractStridedSlice_apply _ _ _ (ix2 o 0) (ix2 o 1) ?_).trans ?_
  · intro a
    match a with
    | ⟨0, _⟩ => show o.val = 0 + o.val; omega
    | ⟨1, _⟩ => show 1 = 1 + 0; rfl
  exact v1_apply x1 o 1

theorem pixx_apply (x1 : Grid) (o : Fin 2048) :
    kv_main_v13 (F := Ideal) x1 (ix1 o) = Spec.pix Spec.szf0 (Spec.gxOf x1 o) := by
  unfold Spec.pix
  rw [← v3_apply]; rfl

theorem pixy_apply (x1 : Grid) (o : Fin 2048) :
    kv_main_v21 (F := Ideal) x1 (ix1 o) = Spec.pix Spec.szf0 (Spec.gyOf x1 o) := by
  unfold Spec.pix
  rw [← v5_apply]; rfl

theorem fracx_apply (x1 : Grid) (o : Fin 2048) :
    kv_main_v24 (F := Ideal) x1 (ix1 o) = Spec.frac Spec.szf0 (Spec.gxOf x1 o) := by
  unfold Spec.frac Spec.pixFloor
  rw [← pixx_apply]; rfl

theorem fracy_apply (x1 : Grid) (o : Fin 2048) :
    kv_main_v25 (F := Ideal) x1 (ix1 o) = Spec.frac Spec.szf0 (Spec.gyOf x1 o) := by
  unfold Spec.frac Spec.pixFloor
  rw [← pixy_apply]; rfl

theorem cellx_apply (x1 : Grid) (o : Fin 2048) :
    kv_main_v26 (F := Ideal) x1 (ix1 o) = Spec.cell0 Spec.szf0 (Spec.gxOf x1 o) := by
  unfold Spec.cell0 Spec.pixFloor
  rw [← pixx_apply]; rfl

theorem celly_apply (x1 : Grid) (o : Fin 2048) :
    kv_main_v27 (F := Ideal) x1 (ix1 o) = Spec.cell0 Spec.szf0 (Spec.gyOf x1 o) := by
  unfold Spec.cell0 Spec.pixFloor
  rw [← pixy_apply]; rfl

theorem pair_fst (f c : IVec S2048 32) (o : Fin 2048) :
    concatenate S2048x2 1 [⟨S2048x1, broadcastInDim S2048x1 ![0] bcast_S2048_S2048x1_0 f⟩,
      ⟨S2048x1, broadcastInDim S2048x1 ![0] bcast_S2048_S2048x1_0 c⟩] concatenates_S2048x1_S2048x1_S2048x2_d1 (ix2 o 0)
      = f (ix1 o) := by
  refine (concatenate_pair_apply_left (t := S2048x2) (s₁ := S2048x1) (s₂ := S2048x1) 1 _ _ concatenates_S2048x1_S2048x1_S2048x2_d1 (ix2 o 0) rfl (ix2 o 0) ?_).trans ?_
  · intro b
    match b with
    | ⟨0, _⟩ => rfl
    | ⟨1, _⟩ => rfl
  exact broadcastInDim_apply _ bcast_S2048_S2048x1_0 f (ix2 o 0) (ix1 o) (fun a => match a with | ⟨0, _⟩ => rfl)

theorem pair_snd (f c : IVec S2048 32) (o : Fin 2048) :
    concatenate S2048x2 1 [⟨S2048x1, broadcastInDim S2048x1 ![0] bcast_S2048_S2048x1_0 f⟩,
      ⟨S2048x1, broadcastInDim S2048x1 ![0] bcast_S2048_S2048x1_0 c⟩] concatenates_S2048x1_S2048x1_S2048x2_d1 (ix2 o 1)
      = c (ix1 o) := by
  refine (concatenate_pair_apply_right (t := S2048x2) (s₁ := S2048x1) (s₂ := S2048x1) 1 _ _ concatenates_S2048x1_S2048x1_S2048x2_d1 (ix2 o 1) rfl rfl (ix2 o 0) ?_ ?_).trans ?_
  · intro b hb
    match b with
    | ⟨0, _⟩ => rfl
    | ⟨1, _⟩ => exact absurd rfl hb
  · rfl
  exact broadcastInDim_apply _ bcast_S2048_S2048x1_0 c (ix2 o 0) (ix1 o) (fun a => match a with | ⟨0, _⟩ => rfl)

theorem cond_iff (k : Fin 4) (gx gy : EReal) (r : Fin 4096) :
    (Spec.kFlat Spec.szf0 64#32 63#32 4096#32 k gx gy).toInt = (r.val : ℤ) ↔ Spec.flat64 k gx gy = r := by
  have h := TapFacts.kFlat_toInt (n := 64) (by decide) (le_refl _) (szi := 64#32) (szm := 63#32) (nrows := 4096#32)
    rfl rfl Spec.szf0 gx gy k
  have hlt := TapFacts.flat_lt (n := 64) (by decide) (Spec.tapRow Spec.szf0 63#32 k gy) (Spec.tapCol Spec.szf0 63#32 k gx)
  have hnat := TapFacts.toNat_of_toInt_nonneg (Spec.kFlat Spec.szf0 64#32 63#32 4096#32 k gx gy)
    (by rw [h]; exact Int.natCast_nonneg _)
  have hr := r.isLt
  rw [Fin.ext_iff]
  show _ ↔ (Spec.kFlat Spec.szf0 64#32 63#32 4096#32 k gx gy).toNat % 4096 = r.val
  omega

theorem base_apply (r : Fin 4096) (o : Fin 2048) : kv_main_v29 (F := Ideal) (ix2 r o) = Spec.zero32 := rfl

theorem row0_apply (x1 : Grid) (o : Fin 2048) :
    kv_main_v43 (F := Ideal) x1 (ix1 o) = Spec.tapRi Spec.szf0 0 (Spec.gyOf x1 o) := by
  show IntOp.addi (kv_main_v27 (F := Ideal) x1 (ix1 o)) 0#32 = _
  rw [TapFacts.addi_zero, celly_apply]; rfl

theorem col0_apply (x1 : Grid) (o : Fin 2048) :
    kv_main_v45 (F := Ideal) x1 (ix1 o) = Spec.tapCi Spec.szf0 0 (Spec.gxOf x1 o) := by
  show IntOp.addi (kv_main_v26 (F := Ideal) x1 (ix1 o)) 0#32 = _
  rw [TapFacts.addi_zero, cellx_apply]; rfl

theorem flat0_apply (x1 : Grid) (o : Fin 2048) :
    kv_main_v67 (F := Ideal) x1 (ix1 o)
      = Spec.kFlat Spec.szf0 64#32 63#32 4096#32 0 (Spec.gxOf x1 o) (Spec.gyOf x1 o) := by
  unfold Spec.kFlat Spec.tapRow Spec.tapCol Spec.clampI
  rw [← row0_apply x1 o, ← col0_apply x1 o]; rfl

theorem valid0_apply (x1 : Grid) (o : Fin 2048) :
    kv_main_v56 (F := Ideal) x1 (ix1 o) = Spec.tapValid Spec.szf0 64#32 0 (Spec.gxOf x1 o) (Spec.gyOf x1 o) := by
  unfold Spec.tapValid Spec.validW
  rw [← row0_apply x1 o, ← col0_apply x1 o]; rfl

theorem w0_apply (x1 : Grid) (o : Fin 2048) :
    kv_main_v34 (F := Ideal) x1 (ix1 o) = Spec.tapW Spec.szf0 0 (Spec.gxOf x1 o) (Spec.gyOf x1 o) := by
  unfold Spec.tapW
  rw [← fracy_apply x1 o, ← fracx_apply x1 o]; rfl

theorem wt0_apply (x1 : Grid) (o : Fin 2048) :
    kv_main_v62 (F := Ideal) x1 (ix1 o) = Spec.kWt Spec.szf0 64#32 0 (Spec.gxOf x1 o) (Spec.gyOf x1 o) := by
  unfold Spec.kWt
  rw [← valid0_apply x1 o, ← w0_apply x1 o]; rfl

theorem idx0_col (x1 : Grid) (e : Fin 2048) : (kv_main_v75 (F := Ideal) x1 (ix2 e 1)).toInt = (e.val : ℤ) := by
  have h : kv_main_v75 (F := Ideal) x1 (ix2 e 1) = kv_main_v72 (F := Ideal) (ix1 e) := by
    unfold kv_main_v75 kv_main_v73 kv_main_v74
    exact pair_snd _ _ e
  rw [h]
  exact TapFacts.iota_col e

theorem idx0_row (x1 : Grid) (o : Fin 2048) :
    kv_main_v75 (F := Ideal) x1 (ix2 o 0) = kv_main_v67 (F := Ideal) x1 (ix1 o) := by
  unfold kv_main_v75 kv_main_v73 kv_main_v74
  exact pair_fst _ _ o

theorem scatter0_apply (x1 : Grid) (r : Fin 4096) (o : Fin 2048) :
    kv_main_v76 (F := Ideal) x1 (ix2 r o) = kv_main_v29 (F := Ideal) (ix2 r o)
      + (if Spec.flat64 0 (Spec.gxOf x1 o) (Spec.gyOf x1 o) = r
          then Spec.kWt Spec.szf0 64#32 0 (Spec.gxOf x1 o) (Spec.gyOf x1 o) else Spec.zero32) := by
  unfold kv_main_v76
  refine (LibPointScatter.host_scatterAdd_points_diag_apply _ rfl rfl rfl rfl _ _ _ (idx0_col x1) r o).trans ?_
  rw [idx0_row x1 o, flat0_apply x1 o, wt0_apply x1 o, Algebra.zero32_eq]
  exact congrArg _ (if_congr (cond_iff 0 _ _ r) rfl rfl)

theorem row1_apply (x1 : Grid) (o : Fin 2048) :
    kv_main_v78 (F := Ideal) x1 (ix1 o) = Spec.tapRi Spec.szf0 1 (Spec.gyOf x1 o) := by
  show IntOp.addi (kv_main_v27 (F := Ideal) x1 (ix1 o)) 0#32 = _
  rw [TapFacts.addi_zero, celly_apply]; rfl

theorem col1_apply (x1 : Grid) (o : Fin 2048) :
    kv_main_v80 (F := Ideal) x1 (ix1 o) = Spec.tapCi Spec.szf0 1 (Spec.gxOf x1 o) := by
  show IntOp.addi (kv_main_v26 (F := Ideal) x1 (ix1 o)) 1#32 = _
  rw [cellx_apply]; rfl

theorem flat1_apply (x1 : Grid) (o : Fin 2048) :
    kv_main_v102 (F := Ideal) x1 (ix1 o)
      = Spec.kFlat Spec.szf0 64#32 63#32 4096#32 1 (Spec.gxOf x1 o) (Spec.gyOf x1 o) := by
  unfold Spec.kFlat Spec.tapRow Spec.tapCol Spec.clampI
  rw [← row1_apply x1 o, ← col1_apply x1 o]; rfl

theorem valid1_apply (x1 : Grid) (o : Fin 2048) :
    kv_main_v91 (F := Ideal) x1 (ix1 o) = Spec.tapValid Spec.szf0 64#32 1 (Spec.gxOf x1 o) (Spec.gyOf x1 o) := by
  unfold Spec.tapValid Spec.validW
  rw [← row1_apply x1 o, ← col1_apply x1 o]; rfl

theorem w1_apply (x1 : Grid) (o : Fin 2048) :
    kv_main_v37 (F := Ideal) x1 (ix1 o) = Spec.tapW Spec.szf0 1 (Spec.gxOf x1 o) (Spec.gyOf x1 o) := by
  unfold Spec.tapW
  rw [← fracy_apply x1 o, ← fracx_apply x1 o]; rfl

theorem wt1_apply (x1 : Grid) (o : Fin 2048) :
    kv_main_v97 (F := Ideal) x1 (ix1 o) = Spec.kWt Spec.szf0 64#32 1 (Spec.gxOf x1 o) (Spec.gyOf x1 o) := by
  unfold Spec.kWt
  rw [← valid1_apply x1 o, ← w1_apply x1 o]; rfl

theorem idx1_col (x1 : Grid) (e : Fin 2048) : (kv_main_v110 (F := Ideal) x1 (ix2 e 1)).toInt = (e.val : ℤ) := by
  have h : kv_main_v110 (F := Ideal) x1 (ix2 e 1) = kv_main_v107 (F := Ideal) (ix1 e) := by
    unfold kv_main_v110 kv_main_v108 kv_main_v109
    exact pair_snd _ _ e
  rw [h]
  exact TapFacts.iota_col e

theorem idx1_row (x1 : Grid) (o : Fin 2048) :
    kv_main_v110 (F := Ideal) x1 (ix2 o 0) = kv_main_v102 (F := Ideal) x1 (ix1 o) := by
  unfold kv_main_v110 kv_main_v108 kv_main_v109
  exact pair_fst _ _ o

theorem scatter1_apply (x1 : Grid) (r : Fin 4096) (o : Fin 2048) :
    kv_main_v111 (F := Ideal) x1 (ix2 r o) = kv_main_v76 (F := Ideal) x1 (ix2 r o)
      + (if Spec.flat64 1 (Spec.gxOf x1 o) (Spec.gyOf x1 o) = r
          then Spec.kWt Spec.szf0 64#32 1 (Spec.gxOf x1 o) (Spec.gyOf x1 o) else Spec.zero32) := by
  unfold kv_main_v111
  refine (LibPointScatter.host_scatterAdd_points_diag_apply _ rfl rfl rfl rfl _ _ _ (idx1_col x1) r o).trans ?_
  rw [idx1_row x1 o, flat1_apply x1 o, wt1_apply x1 o, Algebra.zero32_eq]
  exact congrArg _ (if_congr (cond_iff 1 _ _ r) rfl rfl)

theorem row2_apply (x1 : Grid) (o : Fin 2048) :
    kv_main_v113 (F := Ideal) x1 (ix1 o) = Spec.tapRi Spec.szf0 2 (Spec.gyOf x1 o) := by
  show IntOp.addi (kv_main_v27 (F := Ideal) x1 (ix1 o)) 1#32 = _
  rw [celly_apply]; rfl

theorem col2_apply (x1 : Grid) (o : Fin 2048) :
    kv_main_v115 (F := Ideal) x1 (ix1 o) = Spec.tapCi Spec.szf0 2 (Spec.gxOf x1 o) := by
  show IntOp.addi (kv_main_v26 (F := Ideal) x1 (ix1 o)) 0#32 = _
  rw [TapFacts.addi_zero, cellx_apply]; rfl

theorem flat2_apply (x1 : Grid) (o : Fin 2048) :
    kv_main_v137 (F := Ideal) x1 (ix1 o)
      = Spec.kFlat Spec.szf0 64#32 63#32 4096#32 2 (Spec.gxOf x1 o) (Spec.gyOf x1 o) := by
  unfold Spec.kFlat Spec.tapRow Spec.tapCol Spec.clampI
  rw [← row2_apply x1 o, ← col2_apply x1 o]; rfl

theorem valid2_apply (x1 : Grid) (o : Fin 2048) :
    kv_main_v126 (F := Ideal) x1 (ix1 o) = Spec.tapValid Spec.szf0 64#32 2 (Spec.gxOf x1 o) (Spec.gyOf x1 o) := by
  unfold Spec.tapValid Spec.validW
  rw [← row2_apply x1 o, ← col2_apply x1 o]; rfl

theorem w2_apply (x1 : Grid) (o : Fin 2048) :
    kv_main_v40 (F := Ideal) x1 (ix1 o) = Spec.tapW Spec.szf0 2 (Spec.gxOf x1 o) (Spec.gyOf x1 o) := by
  unfold Spec.tapW
  rw [← fracy_apply x1 o, ← fracx_apply x1 o]; rfl

theorem wt2_apply (x1 : Grid) (o : Fin 2048) :
    kv_main_v132 (F := Ideal) x1 (ix1 o) = Spec.kWt Spec.szf0 64#32 2 (Spec.gxOf x1 o) (Spec.gyOf x1 o) := by
  unfold Spec.kWt
  rw [← valid2_apply x1 o, ← w2_apply x1 o]; rfl

theorem idx2_col (x1 : Grid) (e : Fin 2048) : (kv_main_v145 (F := Ideal) x1 (ix2 e 1)).toInt = (e.val : ℤ) := by
  have h : kv_main_v145 (F := Ideal) x1 (ix2 e 1) = kv_main_v142 (F := Ideal) (ix1 e) := by
    unfold kv_main_v145 kv_main_v143 kv_main_v144
    exact pair_snd _ _ e
  rw [h]
  exact TapFacts.iota_col e

theorem idx2_row (x1 : Grid) (o : Fin 2048) :
    kv_main_v145 (F := Ideal) x1 (ix2 o 0) = kv_main_v137 (F := Ideal) x1 (ix1 o) := by
  unfold kv_main_v145 kv_main_v143 kv_main_v144
  exact pair_fst _ _ o

theorem scatter2_apply (x1 : Grid) (r : Fin 4096) (o : Fin 2048) :
    kv_main_v146 (F := Ideal) x1 (ix2 r o) = kv_main_v111 (F := Ideal) x1 (ix2 r o)
      + (if Spec.flat64 2 (Spec.gxOf x1 o) (Spec.gyOf x1 o) = r
          then Spec.kWt Spec.szf0 64#32 2 (Spec.gxOf x1 o) (Spec.gyOf x1 o) else Spec.zero32) := by
  unfold kv_main_v146
  refine (LibPointScatter.host_scatterAdd_points_diag_apply _ rfl rfl rfl rfl _ _ _ (idx2_col x1) r o).trans ?_
  rw [idx2_row x1 o, flat2_apply x1 o, wt2_apply x1 o, Algebra.zero32_eq]
  exact congrArg _ (if_congr (cond_iff 2 _ _ r) rfl rfl)

theorem row3_apply (x1 : Grid) (o : Fin 2048) :
    kv_main_v148 (F := Ideal) x1 (ix1 o) = Spec.tapRi Spec.szf0 3 (Spec.gyOf x1 o) := by
  show IntOp.addi (kv_main_v27 (F := Ideal) x1 (ix1 o)) 1#32 = _
  rw [celly_apply]; rfl

theorem col3_apply (x1 : Grid) (o : Fin 2048) :
    kv_main_v150 (F := Ideal) x1 (ix1 o) = Spec.tapCi Spec.szf0 3 (Spec.gxOf x1 o) := by
  show IntOp.addi (kv_main_v26 (F := Ideal) x1 (ix1 o)) 1#32 = _
  rw [cellx_apply]; rfl

theorem flat3_apply (x1 : Grid) (o : Fin 2048) :
    kv_main_v172 (F := Ideal) x1 (ix1 o)
      = Spec.kFlat Spec.szf0 64#32 63#32 4096#32 3 (Spec.gxOf x1 o) (Spec.gyOf x1 o) := by
  unfold Spec.kFlat Spec.tapRow Spec.tapCol Spec.clampI
  rw [← row3_apply x1 o, ← col3_apply x1 o]; rfl

theorem valid3_apply (x1 : Grid) (o : Fin 2048) :
    kv_main_v161 (F := Ideal) x1 (ix1 o) = Spec.tapValid Spec.szf0 64#32 3 (Spec.gxOf x1 o) (Spec.gyOf x1 o) := by
  unfold Spec.tapValid Spec.validW
  rw [← row3_apply x1 o, ← col3_apply x1 o]; rfl

theorem w3_apply (x1 : Grid) (o : Fin 2048) :
    kv_main_v41 (F := Ideal) x1 (ix1 o) = Spec.tapW Spec.szf0 3 (Spec.gxOf x1 o) (Spec.gyOf x1 o) := by
  unfold Spec.tapW
  rw [← fracy_apply x1 o, ← fracx_apply x1 o]; rfl

theorem wt3_apply (x1 : Grid) (o : Fin 2048) :
    kv_main_v167 (F := Ideal) x1 (ix1 o) = Spec.kWt Spec.szf0 64#32 3 (Spec.gxOf x1 o) (Spec.gyOf x1 o) := by
  unfold Spec.kWt
  rw [← valid3_apply x1 o, ← w3_apply x1 o]; rfl

theorem idx3_col (x1 : Grid) (e : Fin 2048) : (kv_main_v180 (F := Ideal) x1 (ix2 e 1)).toInt = (e.val : ℤ) := by
  have h : kv_main_v180 (F := Ideal) x1 (ix2 e 1) = kv_main_v177 (F := Ideal) (ix1 e) := by
    unfold kv_main_v180 kv_main_v178 kv_main_v179
    exact pair_snd _ _ e
  rw [h]
  exact TapFacts.iota_col e

theorem idx3_row (x1 : Grid) (o : Fin 2048) :
    kv_main_v180 (F := Ideal) x1 (ix2 o 0) = kv_main_v172 (F := Ideal) x1 (ix1 o) := by
  unfold kv_main_v180 kv_main_v178 kv_main_v179
  exact pair_fst _ _ o

theorem scatter3_apply (x1 : Grid) (r : Fin 4096) (o : Fin 2048) :
    kv_main_v181 (F := Ideal) x1 (ix2 r o) = kv_main_v146 (F := Ideal) x1 (ix2 r o)
      + (if Spec.flat64 3 (Spec.gxOf x1 o) (Spec.gyOf x1 o) = r
          then Spec.kWt Spec.szf0 64#32 3 (Spec.gxOf x1 o) (Spec.gyOf x1 o) else Spec.zero32) := by
  unfold kv_main_v181
  refine (LibPointScatter.host_scatterAdd_points_diag_apply _ rfl rfl rfl rfl _ _ _ (idx3_col x1) r o).trans ?_
  rw [idx3_row x1 o, flat3_apply x1 o, wt3_apply x1 o, Algebra.zero32_eq]
  exact congrArg _ (if_congr (cond_iff 3 _ _ r) rfl rfl)

theorem w64_apply (x1 : (⟨S1x2048x1x2, .f32⟩ : BufTy).Contents (Elt Ideal)) (r : Fin 4096) (o : Fin 2048) :
    kv_main_v182 (F := Ideal) x1 (ix2 r o) = Spec.w64 x1 r o := by
  show kv_main_v181 (F := Ideal) x1 (ix2 r o) = _
  rw [scatter3_apply, scatter2_apply, scatter1_apply, scatter0_apply, base_apply]
  rfl

end Cert.KernelIdeal.KW0

end
-- ==== Proof.KW1.lean ====
import proofs.«416765_j9792525435349_4_alg».proof.Proof.KHostGen.Stages
import proofs.«416765_j9792525435349_4_alg».proof.Proof.LibPointScatter
import proofs.«416765_j9792525435349_4_alg».proof.Proof.Spec
import proofs.«416765_j9792525435349_4_alg».proof.Proof.Taps
import proofs.«416765_j9792525435349_4_alg».proof.Proof.TapFacts
import proofs.«416765_j9792525435349_4_alg».proof.Proof.Forms
import proofs.«416765_j9792525435349_4_alg».proof.Proof.Algebra
import Idealize.ShloMosaic.PureOps.Ideal
import Idealize.ShloMosaic.Lib.ValueIdx
import Idealize.ShloMosaic.Lib.Pipeline.Value

set_option maxRecDepth 5052

noncomputable section

namespace Cert.KernelIdeal.KW1
open Cert.KernelIdeal Cert.KernelIdeal.Gen Cert.KernelIdeal.KHost Idealize.ShloMosaic Idealize.ShloMosaic.TcCoe Idealize.ShloMosaic.ValueIdx Idealize.SL.Sem Idealize.ShloMosaic.StableHlo

abbrev Grid := (⟨S1x2048x1x2, .f32⟩ : BufTy).Contents (Elt Ideal)

theorem v0_apply (x1 : Grid) (o : Fin 2048) (c : Fin 2) :
    kv_main_v0 (F := Ideal) x1 (ix2 o c) = x1 (ix4 0 o 0 c) := by
  unfold kv_main_v0
  refine shapeCast_apply x1 _ (ix2 o c) (ix4 0 o 0 c) ?_
  rw [Shape.rowMajor_val_four, Shape.rowMajor_val_two]
  simp

theorem clip_apply (x1 : Grid) (o : Fin 2048) (c : Fin 2) :
    kv_main_v1 (F := Ideal) x1 (ix2 o c) = Spec.clipG (x1 (ix4 0 o 0 c)) := by
  rw [← v0_apply x1 o c]; rfl

theorem gx_apply (x1 : Grid) (o : Fin 2048) :
    kv_main_v184 (F := Ideal) x1 (ix1 o) = Spec.clipG (Spec.gxOf x1 o) := by
  unfold kv_main_v184 Spec.gxOf
  rw [← clip_apply x1 o 0]
  refine (shapeCast_apply _ _ (ix1 o) (ix2 o 0) ?_).trans ?_
  · rw [Shape.rowMajor_val_one, Shape.rowMajor_val_two]; simp
  · unfold kv_main_v183
    refine extractStridedSlice_apply _ _ _ (ix2 o 0) (ix2 o 0) ?_
    intro a; match a with
    | ⟨0, _⟩ => simp
    | ⟨1, _⟩ => simp

theorem gy_apply (x1 : Grid) (o : Fin 2048) :
    kv_main_v186 (F := Ideal) x1 (ix1 o) = Spec.clipG (Spec.gyOf x1 o) := by
  unfold kv_main_v186 Spec.gyOf
  rw [← clip_apply x1 o 1]
  refine (shapeCast_apply _ _ (ix1 o) (ix2 o 0) ?_).trans ?_
  · rw [Shape.rowMajor_val_one, Shape.rowMajor_val_two]; simp
  · unfold kv_main_v185
    refine extractStridedSlice_apply _ _ _ (ix2 o 0) (ix2 o 1) ?_
    intro a; match a with
    | ⟨0, _⟩ => simp
    | ⟨1, _⟩ => simp

theorem pixx_apply (x1 : Grid) (o : Fin 2048) :
    kv_main_v194 (F := Ideal) x1 (ix1 o) = Spec.pix Spec.szf1 (Spec.gxOf x1 o) := by
  unfold Spec.pix; rw [← gx_apply x1 o]; rfl

theorem pixy_apply (x1 : Grid) (o : Fin 2048) :
    kv_main_v202 (F := Ideal) x1 (ix1 o) = Spec.pix Spec.szf1 (Spec.gyOf x1 o) := by
  unfold Spec.pix; rw [← gy_apply x1 o]; rfl

theorem floorx_apply (x1 : Grid) (o : Fin 2048) :
    kv_main_v203 (F := Ideal) x1 (ix1 o) = Spec.pixFloor Spec.szf1 (Spec.gxOf x1 o) := by
  unfold Spec.pixFloor; rw [← pixx_apply x1 o]; rfl

theorem floory_apply (x1 : Grid) (o : Fin 2048) :
    kv_main_v204 (F := Ideal) x1 (ix1 o) = Spec.pixFloor Spec.szf1 (Spec.gyOf x1 o) := by
  unfold Spec.pixFloor; rw [← pixy_apply x1 o]; rfl

theorem fracx_apply (x1 : Grid) (o : Fin 2048) :
    kv_main_v205 (F := Ideal) x1 (ix1 o) = Spec.frac Spec.szf1 (Spec.gxOf x1 o) := by
  unfold Spec.frac; rw [← pixx_apply x1 o, ← floorx_apply x1 o]; rfl

theorem fracy_apply (x1 : Grid) (o : Fin 2048) :
    kv_main_v206 (F := Ideal) x1 (ix1 o) = Spec.frac Spec.szf1 (Spec.gyOf x1 o) := by
  unfold Spec.frac; rw [← pixy_apply x1 o, ← floory_apply x1 o]; rfl

theorem cellx_apply (x1 : Grid) (o : Fin 2048) :
    kv_main_v207 (F := Ideal) x1 (ix1 o) = Spec.cell0 Spec.szf1 (Spec.gxOf x1 o) := by
  unfold Spec.cell0; rw [← floorx_apply x1 o]; rfl

theorem celly_apply (x1 : Grid) (o : Fin 2048) :
    kv_main_v208 (F := Ideal) x1 (ix1 o) = Spec.cell0 Spec.szf1 (Spec.gyOf x1 o) := by
  unfold Spec.cell0; rw [← floory_apply x1 o]; rfl

theorem flat_cond (w : BitVec 32) (N : Nat) (hN : N < 1024) (hw : w.toInt = (N : Int)) (r : Fin 1024) :
    (w.toInt = (r.val : Int)) ↔ (Spec.cellFin 1024 (by decide) w = r) := by
  have hnat : (w.toNat : Int) = w.toInt := Cert.TapFacts.toNat_of_toInt_nonneg w (by omega)
  constructor
  · intro h
    apply Fin.ext
    show w.toNat % 1024 = r.val
    omega
  · intro h
    have h2 : w.toNat % 1024 = r.val := congrArg Fin.val h
    omega

theorem flat32_cond (k : Fin 4) (gx gy : Ideal .f32) (r : Fin 1024) :
    ((Spec.kFlat Spec.szf1 32#32 31#32 1024#32 k gx gy).toInt = (r.val : Int)) ↔ (Spec.flat32 k gx gy = r) := by
  have hI := Cert.TapFacts.kFlat_toInt (n := 32) (by decide) (by decide) (szi := 32#32) (szm := 31#32)
    (nrows := 1024#32) rfl rfl Spec.szf1 gx gy k
  have hlt := Cert.TapFacts.flat_lt (n := 32) (by decide) (Spec.tapRow Spec.szf1 31#32 k gy) (Spec.tapCol Spec.szf1 31#32 k gx)
  exact flat_cond _ _ hlt hI r

theorem zeros_apply (r : Fin 1024) (o : Fin 2048) : kv_main_v210 (F := Ideal) (ix2 r o) = Spec.zero32 := rfl

theorem ri0_apply (x1 : Grid) (o : Fin 2048) :
    kv_main_v224 (F := Ideal) x1 (ix1 o) = Spec.tapRi Spec.szf1 0 (Spec.gyOf x1 o) := by
  show IntOp.addi (kv_main_v208 (F := Ideal) x1 (ix1 o)) _ = _
  rw [celly_apply x1 o]
  exact Cert.TapFacts.addi_zero _

theorem ci0_apply (x1 : Grid) (o : Fin 2048) :
    kv_main_v226 (F := Ideal) x1 (ix1 o) = Spec.tapCi Spec.szf1 0 (Spec.gxOf x1 o) := by
  show IntOp.addi (kv_main_v207 (F := Ideal) x1 (ix1 o)) _ = _
  rw [cellx_apply x1 o]
  exact Cert.TapFacts.addi_zero _

theorem valid0_apply (x1 : Grid) (o : Fin 2048) :
    kv_main_v237 (F := Ideal) x1 (ix1 o) = Spec.tapValid Spec.szf1 32#32 0 (Spec.gxOf x1 o) (Spec.gyOf x1 o) := by
  unfold Spec.tapValid Spec.validW; rw [← ri0_apply x1 o, ← ci0_apply x1 o]; rfl

theorem row0_apply (x1 : Grid) (o : Fin 2048) :
    kv_main_v238 (F := Ideal) x1 (ix1 o) = Spec.tapRow Spec.szf1 31#32 0 (Spec.gyOf x1 o) := by
  unfold Spec.tapRow Spec.clampI; rw [← ri0_apply x1 o]; rfl

theorem col0_apply (x1 : Grid) (o : Fin 2048) :
    kv_main_v239 (F := Ideal) x1 (ix1 o) = Spec.tapCol Spec.szf1 31#32 0 (Spec.gxOf x1 o) := by
  unfold Spec.tapCol Spec.clampI; rw [← ci0_apply x1 o]; rfl

theorem flat0_apply (x1 : Grid) (o : Fin 2048) :
    kv_main_v248 (F := Ideal) x1 (ix1 o)
      = Spec.kFlat Spec.szf1 32#32 31#32 1024#32 0 (Spec.gxOf x1 o) (Spec.gyOf x1 o) := by
  unfold Spec.kFlat; rw [← row0_apply x1 o, ← col0_apply x1 o]; rfl

theorem wt0_apply (x1 : Grid) (o : Fin 2048) :
    kv_main_v243 (F := Ideal) x1 (ix1 o) = Spec.kWt Spec.szf1 32#32 0 (Spec.gxOf x1 o) (Spec.gyOf x1 o) := by
  unfold Spec.kWt Spec.tapW Spec.tapWgt
  rw [← valid0_apply x1 o, ← fracx_apply x1 o, ← fracy_apply x1 o]; rfl

theorem idxcol0_apply (x1 : Grid) (e : Fin 2048) :
    (kv_main_v256 (F := Ideal) x1 (ix2 e 1)).toInt = (e.val : Int) := by
  have h1 : kv_main_v256 (F := Ideal) x1 (ix2 e 1) = kv_main_v253 (F := Ideal) (ix1 e) := by
    unfold kv_main_v256
    beta_reduce
    refine (concatenate_pair_apply_right (t := S2048x2) (s₁ := S2048x1) (s₂ := S2048x1) 1 _ _ _
      (ix2 (n0 := 2048) (n1 := 2) e 1) rfl rfl (ix2 (n0 := 2048) (n1 := 1) e 0) ?_ ?_).trans ?_
    · intro b hb; match b with
      | ⟨0, _⟩ => rfl
      | ⟨1, _⟩ => exact absurd rfl hb
    · rfl
    · unfold kv_main_v255
      refine broadcastInDim_apply _ _ _ (ix2 (n0 := 2048) (n1 := 1) e 0) (ix1 e) ?_
      intro a; match a with
      | ⟨0, _⟩ => rfl
  rw [h1]
  exact Cert.TapFacts.iota_col e

theorem idxrow0_apply (x1 : Grid) (o : Fin 2048) :
    kv_main_v256 (F := Ideal) x1 (ix2 o 0) = kv_main_v248 (F := Ideal) x1 (ix1 o) := by
  unfold kv_main_v256
  beta_reduce
  refine (concatenate_pair_apply_left (t := S2048x2) (s₁ := S2048x1) (s₂ := S2048x1) 1 _ _ _
    (ix2 (n0 := 2048) (n1 := 2) o 0) rfl (ix2 (n0 := 2048) (n1 := 1) o 0) ?_).trans ?_
  · intro b; match b with
    | ⟨0, _⟩ => rfl
    | ⟨1, _⟩ => rfl
  · unfold kv_main_v254
    refine broadcastInDim_apply _ _ _ (ix2 (n0 := 2048) (n1 := 1) o 0) (ix1 o) ?_
    intro a; match a with
    | ⟨0, _⟩ => rfl

theorem scatter0_apply (x1 : Grid) (r : Fin 1024) (o : Fin 2048) :
    kv_main_v257 (F := Ideal) x1 (ix2 r o)
      = kv_main_v210 (F := Ideal) (ix2 r o)
        + (if Spec.flat32 0 (Spec.gxOf x1 o) (Spec.gyOf x1 o) = r
            then Spec.kWt Spec.szf1 32#32 0 (Spec.gxOf x1 o) (Spec.gyOf x1 o) else Spec.zero32) := by
  unfold kv_main_v257
  beta_reduce
  refine (Cert.LibPointScatter.host_scatterAdd_points_diag_apply _ rfl rfl rfl rfl _ _ _
    (idxcol0_apply x1) r o).trans ?_
  rw [idxrow0_apply x1 o, flat0_apply x1 o, wt0_apply x1 o]
  exact congrArg _ (if_congr (flat32_cond 0 _ _ r) rfl Cert.Algebra.zero32_eq.symm)

theorem ri1_apply (x1 : Grid) (o : Fin 2048) :
    kv_main_v259 (F := Ideal) x1 (ix1 o) = Spec.tapRi Spec.szf1 1 (Spec.gyOf x1 o) := by
  show IntOp.addi (kv_main_v208 (F := Ideal) x1 (ix1 o)) _ = _
  rw [celly_apply x1 o]
  exact Cert.TapFacts.addi_zero _

theorem ci1_apply (x1 : Grid) (o : Fin 2048) :
    kv_main_v261 (F := Ideal) x1 (ix1 o) = Spec.tapCi Spec.szf1 1 (Spec.gxOf x1 o) := by
  show IntOp.addi (kv_main_v207 (F := Ideal) x1 (ix1 o)) _ = _
  rw [cellx_apply x1 o]
  rfl

theorem valid1_apply (x1 : Grid) (o : Fin 2048) :
    kv_main_v272 (F := Ideal) x1 (ix1 o) = Spec.tapValid Spec.szf1 32#32 1 (Spec.gxOf x1 o) (Spec.gyOf x1 o) := by
  unfold Spec.tapValid Spec.validW; rw [← ri1_apply x1 o, ← ci1_apply x1 o]; rfl

theorem row1_apply (x1 : Grid) (o : Fin 2048) :
    kv_main_v273 (F := Ideal) x1 (ix1 o) = Spec.tapRow Spec.szf1 31#32 1 (Spec.gyOf x1 o) := by
  unfold Spec.tapRow Spec.clampI; rw [← ri1_apply x1 o]; rfl

theorem col1_apply (x1 : Grid) (o : Fin 2048) :
    kv_main_v274 (F := Ideal) x1 (ix1 o) = Spec.tapCol Spec.szf1 31#32 1 (Spec.gxOf x1 o) := by
  unfold Spec.tapCol Spec.clampI; rw [← ci1_apply x1 o]; rfl

theorem flat1_apply (x1 : Grid) (o : Fin 2048) :
    kv_main_v283 (F := Ideal) x1 (ix1 o)
      = Spec.kFlat Spec.szf1 32#32 31#32 1024#32 1 (Spec.gxOf x1 o) (Spec.gyOf x1 o) := by
  unfold Spec.kFlat; rw [← row1_apply x1 o, ← col1_apply x1 o]; rfl

theorem wt1_apply (x1 : Grid) (o : Fin 2048) :
    kv_main_v278 (F := Ideal) x1 (ix1 o) = Spec.kWt Spec.szf1 32#32 1 (Spec.gxOf x1 o) (Spec.gyOf x1 o) := by
  unfold Spec.kWt Spec.tapW Spec.tapWgt
  rw [← valid1_apply x1 o, ← fracx_apply x1 o, ← fracy_apply x1 o]; rfl

theorem idxcol1_apply (x1 : Grid) (e : Fin 2048) :
    (kv_main_v291 (F := Ideal) x1 (ix2 e 1)).toInt = (e.val : Int) := by
  have h1 : kv_main_v291 (F := Ideal) x1 (ix2 e 1) = kv_main_v288 (F := Ideal) (ix1 e) := by
    unfold kv_main_v291
    beta_reduce
    refine (concatenate_pair_apply_right (t := S2048x2) (s₁ := S2048x1) (s₂ := S2048x1) 1 _ _ _
      (ix2 (n0 := 2048) (n1 := 2) e 1) rfl rfl (ix2 (n0 := 2048) (n1 := 1) e 0) ?_ ?_).trans ?_
    · intro b hb; match b with
      | ⟨0, _⟩ => rfl
      | ⟨1, _⟩ => exact absurd rfl hb
    · rfl
    · unfold kv_main_v290
      refine broadcastInDim_apply _ _ _ (ix2 (n0 := 2048) (n1 := 1) e 0) (ix1 e) ?_
      intro a; match a with
      | ⟨0, _⟩ => rfl
  rw [h1]
  exact Cert.TapFacts.iota_col e

theorem idxrow1_apply (x1 : Grid) (o : Fin 2048) :
    kv_main_v291 (F := Ideal) x1 (ix2 o 0) = kv_main_v283 (F := Ideal) x1 (ix1 o) := by
  unfold kv_main_v291
  beta_reduce
  refine (concatenate_pair_apply_left (t := S2048x2) (s₁ := S2048x1) (s₂ := S2048x1) 1 _ _ _
    (ix2 (n0 := 2048) (n1 := 2) o 0) rfl (ix2 (n0 := 2048) (n1 := 1) o 0) ?_).trans ?_
  · intro b; match b with
    | ⟨0, _⟩ => rfl
    | ⟨1, _⟩ => rfl
  · unfold kv_main_v289
    refine broadcastInDim_apply _ _ _ (ix2 (n0 := 2048) (n1 := 1) o 0) (ix1 o) ?_
    intro a; match a with
    | ⟨0, _⟩ => rfl

theorem scatter1_apply (x1 : Grid) (r : Fin 1024) (o : Fin 2048) :
    kv_main_v292 (F := Ideal) x1 (ix2 r o)
      = kv_main_v257 (F := Ideal) x1 (ix2 r o)
        + (if Spec.flat32 1 (Spec.gxOf x1 o) (Spec.gyOf x1 o) = r
            then Spec.kWt Spec.szf1 32#32 1 (Spec.gxOf x1 o) (Spec.gyOf x1 o) else Spec.zero32) := by
  unfold kv_main_v292
  beta_reduce
  refine (Cert.LibPointScatter.host_scatterAdd_points_diag_apply _ rfl rfl rfl rfl _ _ _
    (idxcol1_apply x1) r o).trans ?_
  rw [idxrow1_apply x1 o, flat1_apply x1 o, wt1_apply x1 o]
  exact congrArg _ (if_congr (flat32_cond 1 _ _ r) rfl Cert.Algebra.zero32_eq.symm)

theorem ri2_apply (x1 : Grid) (o : Fin 2048) :
    kv_main_v294 (F := Ideal) x1 (ix1 o) = Spec.tapRi Spec.szf1 2 (Spec.gyOf x1 o) := by
  show IntOp.addi (kv_main_v208 (F := Ideal) x1 (ix1 o)) _ = _
  rw [celly_apply x1 o]
  rfl

theorem ci2_apply (x1 : Grid) (o : Fin 2048) :
    kv_main_v296 (F := Ideal) x1 (ix1 o) = Spec.tapCi Spec.szf1 2 (Spec.gxOf x1 o) := by
  show IntOp.addi (kv_main_v207 (F := Ideal) x1 (ix1 o)) _ = _
  rw [cellx_apply x1 o]
  exact Cert.TapFacts.addi_zero _

theorem valid2_apply (x1 : Grid) (o : Fin 2048) :
    kv_main_v307 (F := Ideal) x1 (ix1 o) = Spec.tapValid Spec.szf1 32#32 2 (Spec.gxOf x1 o) (Spec.gyOf x1 o) := by
  unfold Spec.tapValid Spec.validW; rw [← ri2_apply x1 o, ← ci2_apply x1 o]; rfl

theorem row2_apply (x1 : Grid) (o : Fin 2048) :
    kv_main_v308 (F := Ideal) x1 (ix1 o) = Spec.tapRow Spec.szf1 31#32 2 (Spec.gyOf x1 o) := by
  unfold Spec.tapRow Spec.clampI; rw [← ri2_apply x1 o]; rfl

theorem col2_apply (x1 : Grid) (o : Fin 2048) :
    kv_main_v309 (F := Ideal) x1 (ix1 o) = Spec.tapCol Spec.szf1 31#32 2 (Spec.gxOf x1 o) := by
  unfold Spec.tapCol Spec.clampI; rw [← ci2_apply x1 o]; rfl

theorem flat2_apply (x1 : Grid) (o : Fin 2048) :
    kv_main_v318 (F := Ideal) x1 (ix1 o)
      = Spec.kFlat Spec.szf1 32#32 31#32 1024#32 2 (Spec.gxOf x1 o) (Spec.gyOf x1 o) := by
  unfold Spec.kFlat; rw [← row2_apply x1 o, ← col2_apply x1 o]; rfl

theorem wt2_apply (x1 : Grid) (o : Fin 2048) :
    kv_main_v313 (F := Ideal) x1 (ix1 o) = Spec.kWt Spec.szf1 32#32 2 (Spec.gxOf x1 o) (Spec.gyOf x1 o) := by
  unfold Spec.kWt Spec.tapW Spec.tapWgt
  rw [← valid2_apply x1 o, ← fracx_apply x1 o, ← fracy_apply x1 o]; rfl

theorem idxcol2_apply (x1 : Grid) (e : Fin 2048) :
    (kv_main_v326 (F := Ideal) x1 (ix2 e 1)).toInt = (e.val : Int) := by
  have h1 : kv_main_v326 (F := Ideal) x1 (ix2 e 1) = kv_main_v323 (F := Ideal) (ix1 e) := by
    unfold kv_main_v326
    beta_reduce
    refine (concatenate_pair_apply_right (t := S2048x2) (s₁ := S2048x1) (s₂ := S2048x1) 1 _ _ _
      (ix2 (n0 := 2048) (n1 := 2) e 1) rfl rfl (ix2 (n0 := 2048) (n1 := 1) e 0) ?_ ?_).trans ?_
    · intro b hb; match b with
      | ⟨0, _⟩ => rfl
      | ⟨1, _⟩ => exact absurd rfl hb
    · rfl
    · unfold kv_main_v325
      refine broadcastInDim_apply _ _ _ (ix2 (n0 := 2048) (n1 := 1) e 0) (ix1 e) ?_
      intro a; match a with
      | ⟨0, _⟩ => rfl
  rw [h1]
  exact Cert.TapFacts.iota_col e

theorem idxrow2_apply (x1 : Grid) (o : Fin 2048) :
    kv_main_v326 (F := Ideal) x1 (ix2 o 0) = kv_main_v318 (F := Ideal) x1 (ix1 o) := by
  unfold kv_main_v326
  beta_reduce
  refine (concatenate_pair_apply_left (t := S2048x2) (s₁ := S2048x1) (s₂ := S2048x1) 1 _ _ _
    (ix2 (n0 := 2048) (n1 := 2) o 0) rfl (ix2 (n0 := 2048) (n1 := 1) o 0) ?_).trans ?_
  · intro b; match b with
    | ⟨0, _⟩ => rfl
    | ⟨1, _⟩ => rfl
  · unfold kv_main_v324
    refine broadcastInDim_apply _ _ _ (ix2 (n0 := 2048) (n1 := 1) o 0) (ix1 o) ?_
    intro a; match a with
    | ⟨0, _⟩ => rfl

theorem scatter2_apply (x1 : Grid) (r : Fin 1024) (o : Fin 2048) :
    kv_main_v327 (F := Ideal) x1 (ix2 r o)
      = kv_main_v292 (F := Ideal) x1 (ix2 r o)
        + (if Spec.flat32 2 (Spec.gxOf x1 o) (Spec.gyOf x1 o) = r
            then Spec.kWt Spec.szf1 32#32 2 (Spec.gxOf x1 o) (Spec.gyOf x1 o) else Spec.zero32) := by
  unfold kv_main_v327
  beta_reduce
  refine (Cert.LibPointScatter.host_scatterAdd_points_diag_apply _ rfl rfl rfl rfl _ _ _
    (idxcol2_apply x1) r o).trans ?_
  rw [idxrow2_apply x1 o, flat2_apply x1 o, wt2_apply x1 o]
  exact congrArg _ (if_congr (flat32_cond 2 _ _ r) rfl Cert.Algebra.zero32_eq.symm)

theorem ri3_apply (x1 : Grid) (o : Fin 2048) :
    kv_main_v329 (F := Ideal) x1 (ix1 o) = Spec.tapRi Spec.szf1 3 (Spec.gyOf x1 o) := by
  show IntOp.addi (kv_main_v208 (F := Ideal) x1 (ix1 o)) _ = _
  rw [celly_apply x1 o]
  rfl

theorem ci3_apply (x1 : Grid) (o : Fin 2048) :
    kv_main_v331 (F := Ideal) x1 (ix1 o) = Spec.tapCi Spec.szf1 3 (Spec.gxOf x1 o) := by
  show IntOp.addi (kv_main_v207 (F := Ideal) x1 (ix1 o)) _ = _
  rw [cellx_apply x1 o]
  rfl

theorem valid3_apply (x1 : Grid) (o : Fin 2048) :
    kv_main_v342 (F := Ideal) x1 (ix1 o) = Spec.tapValid Spec.szf1 32#32 3 (Spec.gxOf x1 o) (Spec.gyOf x1 o) := by
  unfold Spec.tapValid Spec.validW; rw [← ri3_apply x1 o, ← ci3_apply x1 o]; rfl

theorem row3_apply (x1 : Grid) (o : Fin 2048) :
    kv_main_v343 (F := Ideal) x1 (ix1 o) = Spec.tapRow Spec.szf1 31#32 3 (Spec.gyOf x1 o) := by
  unfold Spec.tapRow Spec.clampI; rw [← ri3_apply x1 o]; rfl

theorem col3_apply (x1 : Grid) (o : Fin 2048) :
    kv_main_v344 (F := Ideal) x1 (ix1 o) = Spec.tapCol Spec.szf1 31#32 3 (Spec.gxOf x1 o) := by
  unfold Spec.tapCol Spec.clampI; rw [← ci3_apply x1 o]; rfl

theorem flat3_apply (x1 : Grid) (o : Fin 2048) :
    kv_main_v353 (F := Ideal) x1 (ix1 o)
      = Spec.kFlat Spec.szf1 32#32 31#32 1024#32 3 (Spec.gxOf x1 o) (Spec.gyOf x1 o) := by
  unfold Spec.kFlat; rw [← row3_apply x1 o, ← col3_apply x1 o]; rfl

theorem wt3_apply (x1 : Grid) (o : Fin 2048) :
    kv_main_v348 (F := Ideal) x1 (ix1 o) = Spec.kWt Spec.szf1 32#32 3 (Spec.gxOf x1 o) (Spec.gyOf x1 o) := by
  unfold Spec.kWt Spec.tapW Spec.tapWgt
  rw [← valid3_apply x1 o, ← fracx_apply x1 o, ← fracy_apply x1 o]; rfl

theorem idxcol3_apply (x1 : Grid) (e : Fin 2048) :
    (kv_main_v361 (F := Ideal) x1 (ix2 e 1)).toInt = (e.val : Int) := by
  have h1 : kv_main_v361 (F := Ideal) x1 (ix2 e 1) = kv_main_v358 (F := Ideal) (ix1 e) := by
    unfold kv_main_v361
    beta_reduce
    refine (concatenate_pair_apply_right (t := S2048x2) (s₁ := S2048x1) (s₂ := S2048x1) 1 _ _ _
      (ix2 (n0 := 2048) (n1 := 2) e 1) rfl rfl (ix2 (n0 := 2048) (n1 := 1) e 0) ?_ ?_).trans ?_
    · intro b hb; match b with
      | ⟨0, _⟩ => rfl
      | ⟨1, _⟩ => exact absurd rfl hb
    · rfl
    · unfold kv_main_v360
      refine broadcastInDim_apply _ _ _ (ix2 (n0 := 2048) (n1 := 1) e 0) (ix1 e) ?_
      intro a; match a with
      | ⟨0, _⟩ => rfl
  rw [h1]
  exact Cert.TapFacts.iota_col e

theorem idxrow3_apply (x1 : Grid) (o : Fin 2048) :
    kv_main_v361 (F := Ideal) x1 (ix2 o 0) = kv_main_v353 (F := Ideal) x1 (ix1 o) := by
  unfold kv_main_v361
  beta_reduce
  refine (concatenate_pair_apply_left (t := S2048x2) (s₁ := S2048x1) (s₂ := S2048x1) 1 _ _ _
    (ix2 (n0 := 2048) (n1 := 2) o 0) rfl (ix2 (n0 := 2048) (n1 := 1) o 0) ?_).trans ?_
  · intro b; match b with
    | ⟨0, _⟩ => rfl
    | ⟨1, _⟩ => rfl
  · unfold kv_main_v359
    refine broadcastInDim_apply _ _ _ (ix2 (n0 := 2048) (n1 := 1) o 0) (ix1 o) ?_
    intro a; match a with
    | ⟨0, _⟩ => rfl

theorem scatter3_apply (x1 : Grid) (r : Fin 1024) (o : Fin 2048) :
    kv_main_v362 (F := Ideal) x1 (ix2 r o)
      = kv_main_v327 (F := Ideal) x1 (ix2 r o)
        + (if Spec.flat32 3 (Spec.gxOf x1 o) (Spec.gyOf x1 o) = r
            then Spec.kWt Spec.szf1 32#32 3 (Spec.gxOf x1 o) (Spec.gyOf x1 o) else Spec.zero32) := by
  unfold kv_main_v362
  beta_reduce
  refine (Cert.LibPointScatter.host_scatterAdd_points_diag_apply _ rfl rfl rfl rfl _ _ _
    (idxcol3_apply x1) r o).trans ?_
  rw [idxrow3_apply x1 o, flat3_apply x1 o, wt3_apply x1 o]
  exact congrArg _ (if_congr (flat32_cond 3 _ _ r) rfl Cert.Algebra.zero32_eq.symm)

theorem w32_apply (x1 : Grid) (r : Fin 1024) (o : Fin 2048) :
    kv_main_v363 (F := Ideal) x1 (ix2 r o) = Spec.w32 x1 r o := by
  show kv_main_v362 (F := Ideal) x1 (ix2 r o) = _
  rw [scatter3_apply x1 r o, scatter2_apply x1 r o, scatter1_apply x1 r o, scatter0_apply x1 r o, zeros_apply r o]
  rfl

end Cert.KernelIdeal.KW1

end
-- ==== Proof.KW2.lean ====
import proofs.«416765_j9792525435349_4_alg».proof.KernelIdeal
import proofs.«416765_j9792525435349_4_alg».proof.Proof.Gen.KernelIdeal
import proofs.«416765_j9792525435349_4_alg».proof.Proof.KHostGen.Stages
import proofs.«416765_j9792525435349_4_alg».proof.Proof.LibPointScatter
import proofs.«416765_j9792525435349_4_alg».proof.Proof.TapFacts
import proofs.«416765_j9792525435349_4_alg».proof.Proof.Forms
import proofs.«416765_j9792525435349_4_alg».proof.Proof.Algebra
import Idealize.ShloMosaic.Lib.ValueLayout
import Idealize.ShloMosaic.Lib.Pipeline.Value
import Idealize.ShloMosaic.Lib.IdealHost

noncomputable section

namespace Cert.KernelIdeal.KW2

open Idealize.ShloMosaic Idealize.ShloMosaic.ValueIdx Cert.KernelIdeal Cert.KernelIdeal.Facts₀

section Layout
variable {α : Type}

theorem column_apply [Facts₀] (a : (S2048).Idx → α) (e : Fin 2048) :
    broadcastInDim S2048x1 ![0] bcast_S2048_S2048x1_0 a (ix2 e 0) = a (ix1 e) :=
  broadcastInDim_apply (s := S2048) (t := S2048x1) ![0] bcast_S2048_S2048x1_0 a (ix2 e 0) (ix1 e) (fun ax => by
    match ax with
    | ⟨0, _⟩ =>
      show e.val = if (2048 : ℕ) = 1 then 0 else e.val
      rw [if_neg (by decide)])

theorem table_col0 [Facts₀] (a b : (S2048).Idx → α) (e : Fin 2048) :
    concatenate S2048x2 1 [⟨S2048x1, broadcastInDim S2048x1 ![0] bcast_S2048_S2048x1_0 a⟩,
      ⟨S2048x1, broadcastInDim S2048x1 ![0] bcast_S2048_S2048x1_0 b⟩] concatenates_S2048x1_S2048x1_S2048x2_d1 (ix2 e 0)
      = a (ix1 e) := by
  refine (concatenate_pair_apply_left (t := S2048x2) (s₁ := S2048x1) (s₂ := S2048x1) (1 : Fin 2)
    (broadcastInDim S2048x1 ![0] bcast_S2048_S2048x1_0 a) (broadcastInDim S2048x1 ![0] bcast_S2048_S2048x1_0 b)
    concatenates_S2048x1_S2048x1_S2048x2_d1 (ix2 e 0) rfl (ix2 e 0) (fun ax => by
      match ax with
      | ⟨0, _⟩ => rfl
      | ⟨1, _⟩ => rfl)).trans ?_
  exact column_apply a e

theorem table_col1 [Facts₀] (a b : (S2048).Idx → α) (e : Fin 2048) :
    concatenate S2048x2 1 [⟨S2048x1, broadcastInDim S2048x1 ![0] bcast_S2048_S2048x1_0 a⟩,
      ⟨S2048x1, broadcastInDim S2048x1 ![0] bcast_S2048_S2048x1_0 b⟩] concatenates_S2048x1_S2048x1_S2048x2_d1 (ix2 e 1)
      = b (ix1 e) := by
  refine (concatenate_pair_apply_right (t := S2048x2) (s₁ := S2048x1) (s₂ := S2048x1) (1 : Fin 2)
    (broadcastInDim S2048x1 ![0] bcast_S2048_S2048x1_0 a) (broadcastInDim S2048x1 ![0] bcast_S2048_S2048x1_0 b)
    concatenates_S2048x1_S2048x1_S2048x2_d1 (ix2 e 1) rfl rfl (ix2 e 0) (fun ax hax => by
      match ax, hax with
      | ⟨0, _⟩, _ => rfl
      | ⟨1, _⟩, hax => exact absurd rfl hax) (by
      show (0 : ℕ) + 1 = 1
      rfl)).trans ?_
  exact column_apply b e

theorem col0_apply (X : (S2048x2).Idx → α) (h : S2048x2.Slices ![0, 0] S2048x1) (h' : S2048x1.ShapeCasts S2048)
    (o : Fin 2048) : shapeCast S2048 (extractStridedSlice S2048x1 ![0, 0] X h) h' (ix1 o) = X (ix2 o 0) := by
  refine (shapeCast_apply _ h' (ix1 o) (ix2 o 0) ?_).trans ?_
  · rw [Shape.rowMajor_val_two, Shape.rowMajor_val_one]
    show o.val * 1 + 0 = o.val
    omega
  · exact slice2_axis1_apply 0 X h o 0 0 rfl

theorem col1_apply (X : (S2048x2).Idx → α) (h : S2048x2.Slices ![0, 1] S2048x1) (h' : S2048x1.ShapeCasts S2048)
    (o : Fin 2048) : shapeCast S2048 (extractStridedSlice S2048x1 ![0, 1] X h) h' (ix1 o) = X (ix2 o 1) := by
  refine (shapeCast_apply _ h' (ix1 o) (ix2 o 0) ?_).trans ?_
  · rw [Shape.rowMajor_val_two, Shape.rowMajor_val_one]
    show o.val * 1 + 0 = o.val
    omega
  · exact slice2_axis1_apply 1 X h o 0 1 rfl

theorem grid_apply (X : (S1x2048x1x2).Idx → α) (h : S1x2048x1x2.ShapeCasts S2048x2) (o : Fin 2048) (c : Fin 2) :
    shapeCast S2048x2 X h (ix2 o c) = X (ix4 0 o 0 c) := by
  refine shapeCast_apply X h (ix2 o c) (ix4 0 o 0 c) ?_
  rw [Shape.rowMajor_val_four, Shape.rowMajor_val_two]
  show ((0 * 2048 + o.val) * 1 + 0) * 2 + c.val = o.val * 2 + c.val
  omega

end Layout

theorem scatter_step [Facts₀] (prev : FVec Ideal S256x2048 .f32) (a b : IVec S2048 32) (upd : FVec Ideal S2048 .f32)
    (hb : ∀ e : Fin 2048, (b (ix1 e)).toInt = (e.val : ℤ)) (r : Fin 256) (o : Fin 2048) :
    Host.scatterAdd scatter_S256x2048_S2048x2_S2048_n_01_01_1 prev
      (concatenate S2048x2 1 [⟨S2048x1, broadcastInDim S2048x1 ![0] bcast_S2048_S2048x1_0 a⟩,
        ⟨S2048x1, broadcastInDim S2048x1 ![0] bcast_S2048_S2048x1_0 b⟩] concatenates_S2048x1_S2048x1_S2048x2_d1) upd (ix2 r o)
      = prev (ix2 r o) + (if (a (ix1 o)).toInt = (r.val : ℤ) then upd (ix1 o) else 0) := by
  rw [Cert.LibPointScatter.host_scatterAdd_points_diag_apply _ rfl rfl rfl rfl prev _ upd
    (fun e => by rw [table_col1]; exact hb e) r o, table_col0]

theorem scatter_cell [Facts₀] (prev : FVec Ideal S256x2048 .f32) (a b : IVec S2048 32) (upd : FVec Ideal S2048 .f32)
    (hb : ∀ e : Fin 2048, (b (ix1 e)).toInt = (e.val : ℤ)) (r : Fin 256) (o : Fin 2048)
    {c : Prop} [Decidable c] (hc : (a (ix1 o)).toInt = (r.val : ℤ) ↔ c) {w : Ideal .f32} (hw : upd (ix1 o) = w) :
    Host.scatterAdd scatter_S256x2048_S2048x2_S2048_n_01_01_1 prev
      (concatenate S2048x2 1 [⟨S2048x1, broadcastInDim S2048x1 ![0] bcast_S2048_S2048x1_0 a⟩,
        ⟨S2048x1, broadcastInDim S2048x1 ![0] bcast_S2048_S2048x1_0 b⟩] concatenates_S2048x1_S2048x1_S2048x2_d1) upd (ix2 r o)
      = prev (ix2 r o) + (if c then w else Spec.zero32) := by
  rw [scatter_step prev a b upd hb r o]
  generalize prev (ix2 r o) = p
  generalize upd (ix1 o) = u at hw
  generalize (a (ix1 o)).toInt = z at hc
  subst hw
  rw [if_congr hc rfl Algebra.zero32_eq.symm]

def flatW (dr dc x0 y0 : BitVec 32) : BitVec 32 :=
  Scalar.select
    (IntOp.cmpi .slt (IntOp.addi (IntOp.muli (Spec.clampI 15#32 (IntOp.addi y0 dr)) 16#32) (Spec.clampI 15#32 (IntOp.addi x0 dc))) 0#32)
    (IntOp.addi (IntOp.addi (IntOp.muli (Spec.clampI 15#32 (IntOp.addi y0 dr)) 16#32) (Spec.clampI 15#32 (IntOp.addi x0 dc))) 256#32)
    (IntOp.addi (IntOp.muli (Spec.clampI 15#32 (IntOp.addi y0 dr)) 16#32) (Spec.clampI 15#32 (IntOp.addi x0 dc)))

def wtW (dr dc x0 y0 : BitVec 32) (w : Ideal .f32) : Ideal .f32 :=
  Scalar.select (Spec.validW 16#32 (IntOp.addi y0 dr) (IntOp.addi x0 dc)) w (Spec.fw 0x00000000#32)

section Words
variable (gx gy : Ideal .f32)

theorem kFlat_0 : Spec.kFlat Spec.szf2 16#32 15#32 256#32 0 gx gy
    = flatW 0#32 0#32 (Spec.cell0 Spec.szf2 gx) (Spec.cell0 Spec.szf2 gy) := by
  unfold flatW; rw [TapFacts.addi_zero, TapFacts.addi_zero]; rfl
theorem kFlat_1 : Spec.kFlat Spec.szf2 16#32 15#32 256#32 1 gx gy
    = flatW 0#32 1#32 (Spec.cell0 Spec.szf2 gx) (Spec.cell0 Spec.szf2 gy) := by
  unfold flatW; rw [TapFacts.addi_zero]; rfl
theorem kFlat_2 : Spec.kFlat Spec.szf2 16#32 15#32 256#32 2 gx gy
    = flatW 1#32 0#32 (Spec.cell0 Spec.szf2 gx) (Spec.cell0 Spec.szf2 gy) := by
  unfold flatW; rw [TapFacts.addi_zero]; rfl
theorem kFlat_3 : Spec.kFlat Spec.szf2 16#32 15#32 256#32 3 gx gy
    = flatW 1#32 1#32 (Spec.cell0 Spec.szf2 gx) (Spec.cell0 Spec.szf2 gy) := rfl

theorem kWt_0 : Spec.kWt Spec.szf2 16#32 0 gx gy
    = wtW 0#32 0#32 (Spec.cell0 Spec.szf2 gx) (Spec.cell0 Spec.szf2 gy)
        (Spec.tapWgt 0 (Spec.frac Spec.szf2 gy) (Spec.frac Spec.szf2 gx)) := by
  unfold wtW; rw [TapFacts.addi_zero, TapFacts.addi_zero]; rfl
theorem kWt_1 : Spec.kWt Spec.szf2 16#32 1 gx gy
    = wtW 0#32 1#32 (Spec.cell0 Spec.szf2 gx) (Spec.cell0 Spec.szf2 gy)
        (Spec.tapWgt 1 (Spec.frac Spec.szf2 gy) (Spec.frac Spec.szf2 gx)) := by
  unfold wtW; rw [TapFacts.addi_zero]; rfl
theorem kWt_2 : Spec.kWt Spec.szf2 16#32 2 gx gy
    = wtW 1#32 0#32 (Spec.cell0 Spec.szf2 gx) (Spec.cell0 Spec.szf2 gy)
        (Spec.tapWgt 2 (Spec.frac Spec.szf2 gy) (Spec.frac Spec.szf2 gx)) := by
  unfold wtW; rw [TapFacts.addi_zero]; rfl
theorem kWt_3 : Spec.kWt Spec.szf2 16#32 3 gx gy
    = wtW 1#32 1#32 (Spec.cell0 Spec.szf2 gx) (Spec.cell0 Spec.szf2 gy)
        (Spec.tapWgt 3 (Spec.frac Spec.szf2 gy) (Spec.frac Spec.szf2 gx)) := rfl

theorem flat16_cond (k : Fin 4) (r : Fin 256) :
    (Spec.kFlat Spec.szf2 16#32 15#32 256#32 k gx gy).toInt = (r.val : ℤ) ↔ Spec.flat16 k gx gy = r := by
  have h := TapFacts.kFlat_toInt (n := 16) (by decide) (by decide) (szi := 16#32) (szm := 15#32) (nrows := 256#32)
    rfl rfl (szf := Spec.szf2) (k := k) (gx := gx) (gy := gy)
  have hlt := TapFacts.flat_lt (n := 16) (by decide) (Spec.tapRow Spec.szf2 15#32 k gy) (Spec.tapCol Spec.szf2 15#32 k gx)
  have hnat := TapFacts.toNat_of_toInt_nonneg (Spec.kFlat Spec.szf2 16#32 15#32 256#32 k gx gy) (by rw [h]; exact Int.natCast_nonneg _)
  unfold Spec.flat16 Spec.cellFin
  rw [Fin.ext_iff]
  show _ ↔ (Spec.kFlat Spec.szf2 16#32 15#32 256#32 k gx gy).toNat % 256 = r.val
  omega

end Words

open Cert.KernelIdeal.KHost

section Stages
variable (x1 : (⟨S1x2048x1x2, .f32⟩ : BufTy).Contents (Elt Ideal)) (o : Fin 2048)

theorem clipped_apply (c : Fin 2) : kv_main_v1 (F := Ideal) x1 (ix2 o c) = Spec.clipG (x1 (ix4 0 o 0 c)) := by
  have h : kv_main_v1 (F := Ideal) x1 (ix2 o c) = Spec.clipG (kv_main_v0 (F := Ideal) x1 (ix2 o c)) := rfl
  rw [h]
  exact congrArg Spec.clipG (grid_apply x1 shapeCasts_S1x2048x1x2_S2048x2 o c)

theorem gx_apply : kv_main_v365 (F := Ideal) x1 (ix1 o) = Spec.clipG (Spec.gxOf x1 o) := by
  refine (col0_apply (kv_main_v1 (F := Ideal) x1) slices_S2048x2_S2048x1_0_0 shapeCasts_S2048x1_S2048 o).trans ?_
  exact clipped_apply x1 o 0

theorem gy_apply : kv_main_v367 (F := Ideal) x1 (ix1 o) = Spec.clipG (Spec.gyOf x1 o) := by
  refine (col1_apply (kv_main_v1 (F := Ideal) x1) slices_S2048x2_S2048x1_0_1 shapeCasts_S2048x1_S2048 o).trans ?_
  exact clipped_apply x1 o 1

theorem x0_apply : kv_main_v388 (F := Ideal) x1 (ix1 o) = Spec.cell0 Spec.szf2 (Spec.gxOf x1 o) := by
  unfold Spec.cell0 Spec.pixFloor Spec.pix
  rw [← gx_apply x1 o]; rfl

theorem y0_apply : kv_main_v389 (F := Ideal) x1 (ix1 o) = Spec.cell0 Spec.szf2 (Spec.gyOf x1 o) := by
  unfold Spec.cell0 Spec.pixFloor Spec.pix
  rw [← gy_apply x1 o]; rfl

theorem frx_apply : kv_main_v386 (F := Ideal) x1 (ix1 o) = Spec.frac Spec.szf2 (Spec.gxOf x1 o) := by
  unfold Spec.frac Spec.pixFloor Spec.pix
  rw [← gx_apply x1 o]; rfl

theorem fry_apply : kv_main_v387 (F := Ideal) x1 (ix1 o) = Spec.frac Spec.szf2 (Spec.gyOf x1 o) := by
  unfold Spec.frac Spec.pixFloor Spec.pix
  rw [← gy_apply x1 o]; rfl

theorem flat0_apply : kv_main_v429 (F := Ideal) x1 (ix1 o)
    = Spec.kFlat Spec.szf2 16#32 15#32 256#32 0 (Spec.gxOf x1 o) (Spec.gyOf x1 o) := by
  rw [kFlat_0, ← x0_apply x1 o, ← y0_apply x1 o]; rfl

theorem wt0_apply : kv_main_v424 (F := Ideal) x1 (ix1 o)
    = Spec.kWt Spec.szf2 16#32 0 (Spec.gxOf x1 o) (Spec.gyOf x1 o) := by
  rw [kWt_0, ← x0_apply x1 o, ← y0_apply x1 o, ← frx_apply x1 o, ← fry_apply x1 o]; rfl

theorem scatter0_apply (r : Fin 256) : kv_main_v438 (F := Ideal) x1 (ix2 r o)
    = kv_main_v391 (F := Ideal) (ix2 r o)
      + (if Spec.flat16 0 (Spec.gxOf x1 o) (Spec.gyOf x1 o) = r
          then Spec.kWt Spec.szf2 16#32 0 (Spec.gxOf x1 o) (Spec.gyOf x1 o) else Spec.zero32) := by
  have hc : (kv_main_v429 (F := Ideal) x1 (ix1 o)).toInt = (r.val : ℤ)
      ↔ Spec.flat16 0 (Spec.gxOf x1 o) (Spec.gyOf x1 o) = r := by
    rw [flat0_apply]; exact flat16_cond _ _ 0 r
  delta kv_main_v438 kv_main_v437 kv_main_v435 kv_main_v436
  exact scatter_cell _ _ _ _ TapFacts.iota_col r o hc (wt0_apply x1 o)

theorem flat1_apply : kv_main_v464 (F := Ideal) x1 (ix1 o)
    = Spec.kFlat Spec.szf2 16#32 15#32 256#32 1 (Spec.gxOf x1 o) (Spec.gyOf x1 o) := by
  rw [kFlat_1, ← x0_apply x1 o, ← y0_apply x1 o]; rfl

theorem wt1_apply : kv_main_v459 (F := Ideal) x1 (ix1 o)
    = Spec.kWt Spec.szf2 16#32 1 (Spec.gxOf x1 o) (Spec.gyOf x1 o) := by
  rw [kWt_1, ← x0_apply x1 o, ← y0_apply x1 o, ← frx_apply x1 o, ← fry_apply x1 o]; rfl

theorem scatter1_apply (r : Fin 256) : kv_main_v473 (F := Ideal) x1 (ix2 r o)
    = kv_main_v438 (F := Ideal) x1 (ix2 r o)
      + (if Spec.flat16 1 (Spec.gxOf x1 o) (Spec.gyOf x1 o) = r
          then Spec.kWt Spec.szf2 16#32 1 (Spec.gxOf x1 o) (Spec.gyOf x1 o) else Spec.zero32) := by
  have hc : (kv_main_v464 (F := Ideal) x1 (ix1 o)).toInt = (r.val : ℤ)
      ↔ Spec.flat16 1 (Spec.gxOf x1 o) (Spec.gyOf x1 o) = r := by
    rw [flat1_apply]; exact flat16_cond _ _ 1 r
  delta kv_main_v473 kv_main_v472 kv_main_v470 kv_main_v471
  exact scatter_cell _ _ _ _ TapFacts.iota_col r o hc (wt1_apply x1 o)

theorem flat2_apply : kv_main_v499 (F := Ideal) x1 (ix1 o)
    = Spec.kFlat Spec.szf2 16#32 15#32 256#32 2 (Spec.gxOf x1 o) (Spec.gyOf x1 o) := by
  rw [kFlat_2, ← x0_apply x1 o, ← y0_apply x1 o]; rfl

theorem wt2_apply : kv_main_v494 (F := Ideal) x1 (ix1 o)
    = Spec.kWt Spec.szf2 16#32 2 (Spec.gxOf x1 o) (Spec.gyOf x1 o) := by
  rw [kWt_2, ← x0_apply x1 o, ← y0_apply x1 o, ← frx_apply x1 o, ← fry_apply x1 o]; rfl

theorem scatter2_apply (r : Fin 256) : kv_main_v508 (F := Ideal) x1 (ix2 r o)
    = kv_main_v473 (F := Ideal) x1 (ix2 r o)
      + (if Spec.flat16 2 (Spec.gxOf x1 o) (Spec.gyOf x1 o) = r
          then Spec.kWt Spec.szf2 16#32 2 (Spec.gxOf x1 o) (Spec.gyOf x1 o) else Spec.zero32) := by
  have hc : (kv_main_v499 (F := Ideal) x1 (ix1 o)).toInt = (r.val : ℤ)
      ↔ Spec.flat16 2 (Spec.gxOf x1 o) (Spec.gyOf x1 o) = r := by
    rw [flat2_apply]; exact flat16_cond _ _ 2 r
  delta kv_main_v508 kv_main_v507 kv_main_v505 kv_main_v506
  exact scatter_cell _ _ _ _ TapFacts.iota_col r o hc (wt2_apply x1 o)

theorem flat3_apply : kv_main_v534 (F := Ideal) x1 (ix1 o)
    = Spec.kFlat Spec.szf2 16#32 15#32 256#32 3 (Spec.gxOf x1 o) (Spec.gyOf x1 o) := by
  rw [kFlat_3, ← x0_apply x1 o, ← y0_apply x1 o]; rfl

theorem wt3_apply : kv_main_v529 (F := Ideal) x1 (ix1 o)
    = Spec.kWt Spec.szf2 16#32 3 (Spec.gxOf x1 o) (Spec.gyOf x1 o) := by
  rw [kWt_3, ← x0_apply x1 o, ← y0_apply x1 o, ← frx_apply x1 o, ← fry_apply x1 o]; rfl

theorem scatter3_apply (r : Fin 256) : kv_main_v543 (F := Ideal) x1 (ix2 r o)
    = kv_main_v508 (F := Ideal) x1 (ix2 r o)
      + (if Spec.flat16 3 (Spec.gxOf x1 o) (Spec.gyOf x1 o) = r
          then Spec.kWt Spec.szf2 16#32 3 (Spec.gxOf x1 o) (Spec.gyOf x1 o) else Spec.zero32) := by
  have hc : (kv_main_v534 (F := Ideal) x1 (ix1 o)).toInt = (r.val : ℤ)
      ↔ Spec.flat16 3 (Spec.gxOf x1 o) (Spec.gyOf x1 o) = r := by
    rw [flat3_apply]; exact flat16_cond _ _ 3 r
  delta kv_main_v543 kv_main_v542 kv_main_v540 kv_main_v541
  exact scatter_cell _ _ _ _ TapFacts.iota_col r o hc (wt3_apply x1 o)

theorem w16_apply (r : Fin 256) : kv_main_v544 (F := Ideal) x1 (ix2 r o) = Spec.w16 x1 r o := by
  have h : kv_main_v544 (F := Ideal) x1 (ix2 r o) = kv_main_v543 (F := Ideal) x1 (ix2 r o) := rfl
  have hz : kv_main_v391 (F := Ideal) (ix2 r o) = Spec.zero32 := rfl
  rw [h, scatter3_apply, scatter2_apply, scatter1_apply, scatter0_apply, hz]
  rfl

end Stages

end Cert.KernelIdeal.KW2

end
-- ==== Proof.KVal.lean ====
import proofs.«416765_j9792525435349_4_alg».proof.Proof.KInduct
import proofs.«416765_j9792525435349_4_alg».proof.Proof.KHost
import proofs.«416765_j9792525435349_4_alg».proof.Proof.KW0
import proofs.«416765_j9792525435349_4_alg».proof.Proof.KW1
import proofs.«416765_j9792525435349_4_alg».proof.Proof.KW2
import proofs.«416765_j9792525435349_4_alg».proof.Proof.Forms

noncomputable section

namespace Cert.KernelIdeal.KVal

open Cert.KernelIdeal Cert.KernelIdeal.GenP Cert.KernelIdeal.Gen Idealize.ShloMosaic Idealize.ShloMosaic.TcCoe Idealize.SL.Sem
open Idealize.ShloMosaic.ValueIdx

variable (m : (ℓ : Loc nD τ sig) → Buf (Elt Ideal) ℓ)

theorem chunkV_eq (c : Dev nD) (n : Fin 8) (tt : Fin 16) (o : Fin 2048) (cc : Fin 2) :
    KInduct.chunkV m c n tt o cc
      = Spec.kChunk (m ((c : Thread nD τ).loc main_arg0)) (m ((c : Thread nD τ).loc main_arg1)) (m ((c : Thread nD τ).loc main_arg2)) n tt o cc := by
  unfold KInduct.chunkV KInduct.chunkOf Spec.kChunk
  rw [GenP.V_main_arg0 m c, KHost.V_v182 m c, KHost.V_v363 m c, KHost.V_v544 m c, KHost.V_v545 m c]
  refine KInduct.chunkSum_congr ?_ ?_ ?_ ?_ ?_ ?_
  · intro c'
    refine Finset.sum_congr rfl fun r _ => ?_
    rw [KW0.w64_apply]; rfl
  · intro c'
    refine Finset.sum_congr rfl fun r _ => ?_
    rw [KW1.w32_apply]; rfl
  · intro c'
    refine Finset.sum_congr rfl fun r _ => ?_
    rw [KW2.w16_apply]; rfl
  · intro c'
    rw [KW0.kfeat_apply]
    refine congrArg _ (congrArg (fun k => ix4 0 k 0 o) (Fin.ext ?_))
    show (0 : Fin 3).val * 64 + (cc.val * 32 + c'.val) = cc.val * 32 + c'.val
    simp
  · intro c'
    rw [KW0.kfeat_apply]
    refine congrArg _ (congrArg (fun k => ix4 0 k 0 o) (Fin.ext ?_))
    show (1 : Fin 3).val * 64 + (cc.val * 32 + c'.val) = 64 + cc.val * 32 + c'.val
    simp; omega
  · intro c'
    rw [KW0.kfeat_apply]
    refine congrArg _ (congrArg (fun k => ix4 0 k 0 o) (Fin.ext ?_))
    show (2 : Fin 3).val * 64 + (cc.val * 32 + c'.val) = 128 + cc.val * 32 + c'.val
    simp; omega

/-- The kernel's output array is, cell by cell, its form of the cell. -/
theorem kernel_final (c : Dev nD) :
    ((dats (F := Ideal) m 0 c).arrAt 6 cfg0.N : S8x16x2048.Idx → EReal)
      = fun i => Spec.kOut (m ((c : Thread nD τ).loc main_arg0)) (m ((c : Thread nD τ).loc main_arg1))
          (m ((c : Thread nD τ).loc main_arg2)) (m ((c : Thread nD τ).loc main_arg3)) (i 0) (i 1) (i 2) := by
  funext i
  obtain ⟨n, tt, o, rfl⟩ : ∃ (n : Fin 8) (tt : Fin 16) (o : Fin 2048), i = ix3 n tt o := ⟨i 0, i 1, i 2, eq_ix3 i⟩
  rw [KInduct.arrAt6_apply m c n tt o, chunkV_eq, chunkV_eq, KHost.V_v546 m c, KW0.kbias_apply]
  rfl

end Cert.KernelIdeal.KVal

end
-- ==== Proof.RefRunGen.Ok.lean ====
import proofs.«416765_j9792525435349_4_alg».proof.Proof.Gen.ReferenceIdeal
import Idealize.ShloMosaic.Lib.StableHlo.Run

noncomputable section

namespace Cert.ReferenceIdeal.RefRunGen

open Cert.ReferenceIdeal Idealize.ShloMosaic Idealize.ShloMosaic.StableHlo

variable {F : FTy → Type} [FloatOps F]

/-- What the run of a line of operations asks of each: it stays within the core's references and determines what it writes. -/
abbrev Ok (l : List (HloOp τ sig (Elt F))) : Prop :=
  l.Forall fun op => op.bufs ⊆ tcRefs τ sig ∧ op.fresh = ∅

theorem Ok.append {l₁ l₂ : List (HloOp τ sig (Elt F))} (h₁ : Ok l₁) (h₂ : Ok l₂) : Ok (l₁ ++ l₂) :=
  List.forall_append.mpr ⟨h₁, h₂⟩

theorem Ok.sub {l : List (HloOp τ sig (Elt F))} (h : Ok l) : l.Forall fun op => op.bufs ⊆ tcRefs τ sig :=
  List.forall_iff_forall_mem.mpr fun op m => (List.forall_iff_forall_mem.mp h op m).1

theorem Ok.fresh {l : List (HloOp τ sig (Elt F))} (h : Ok l) : ∀ op ∈ l, op.fresh = ∅ :=
  fun op m => (List.forall_iff_forall_mem.mp h op m).2

end Cert.ReferenceIdeal.RefRunGen

end
-- ==== Proof.RefRunGen.P0.lean ====
import proofs.«416765_j9792525435349_4_alg».proof.Proof.RefRunGen.Ok
import Idealize.ShloMosaic.Lib.Pipeline.Regions

noncomputable section

namespace Cert.ReferenceIdeal.RefRunGen

open Cert.ReferenceIdeal Cert.ReferenceIdeal.Gen Idealize.ShloMosaic Idealize.ShloMosaic.TcCoe Idealize.SL.Sem Idealize.ShloMosaic.StableHlo

variable {F : FTy → Type} [FloatOps F]

abbrev c0_0 : List (HloOp τ sig (Elt F)) :=
  [ nullary main_cst (constant S_ .f32 0xBF800000#32),
    nullary main_cst_0 (constant S_ .f32 0x3F800000#32) ]

theorem c0_0_ok : Ok (F := F) c0_0 :=
  ⟨⟨nullary_bufs_sub .., rfl⟩, ⟨nullary_bufs_sub .., rfl⟩⟩

abbrev c0_1 : List (HloOp τ sig (Elt F)) :=
  [ TRef.unary (TRef.of (T := ⟨S_, .f32⟩) main_cst) (TRef.of (T := ⟨S_, .f32⟩) main_call0_v0) id,
    TRef.unary (TRef.of (T := ⟨S_, .f32⟩) main_call0_v0) (TRef.of (T := ⟨S1x2048x1x2, .f32⟩) main_call0_v1) (broadcastInDim S1x2048x1x2 ![] bcast_S_S1x2048x1x2),
    TRef.binary (TRef.of (T := ⟨S1x2048x1x2, .f32⟩) main_call0_v1) (TRef.of (T := ⟨S1x2048x1x2, .f32⟩) main_arg1) (TRef.of (T := ⟨S1x2048x1x2, .f32⟩) main_call0_v2) maximumf,
    TRef.unary (TRef.of (T := ⟨S_, .f32⟩) main_cst_0) (TRef.of (T := ⟨S_, .f32⟩) main_call0_v3) id,
    TRef.unary (TRef.of (T := ⟨S_, .f32⟩) main_call0_v3) (TRef.of (T := ⟨S1x2048x1x2, .f32⟩) main_call0_v4) (broadcastInDim S1x2048x1x2 ![] bcast_S_S1x2048x1x2),
    TRef.binary (TRef.of (T := ⟨S1x2048x1x2, .f32⟩) main_call0_v4) (TRef.of (T := ⟨S1x2048x1x2, .f32⟩) main_call0_v2) (TRef.of (T := ⟨S1x2048x1x2, .f32⟩) main_v0) minimumf ]

theorem c0_1_ok : Ok (F := F) c0_1 :=
  ⟨⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩⟩

abbrev c0_2 : List (HloOp τ sig (Elt F)) :=
  [ reshape main_v0 main_v1 rfl shapeCasts_S1x2048x1x2_S1x2048x2,
    unary main_v1 main_v2 (broadcastInDim S128x2048x2 ![0, 1, 2] bcast_S1x2048x2_S128x2048x2_0_1_2 : (⟨S1x2048x2, .f32⟩ : BufTy).Contents (Elt F) → (⟨S128x2048x2, .f32⟩ : BufTy).Contents (Elt F)),
    unary main_arg0 main_v3 ((transpose S8x16x64x64x64 [0, 2, 1, 3, 4] · transposes_S8x64x16x64x64_S8x16x64x64x64_0_2_1_3_4) : (⟨S8x64x16x64x64, .f32⟩ : BufTy).Contents (Elt F) → (⟨S8x16x64x64x64, .f32⟩ : BufTy).Contents (Elt F)) ]

theorem c0_2_ok : Ok (F := F) c0_2 :=
  ⟨⟨reshape_bufs_sub .., rfl⟩, ⟨unary_bufs_sub .., rfl⟩, ⟨unary_bufs_sub .., rfl⟩⟩

abbrev c0_3 : List (HloOp τ sig (Elt F)) :=
  [ reshape main_v3 main_v4 rfl shapeCasts_S8x16x64x64x64_S128x64x64x64,
    unary main_v2 main_v5 ((extractStridedSlice S128x2048x1 ![0, 0, 0] · slices_S128x2048x2_S128x2048x1_0_0_0) : (⟨S128x2048x2, .f32⟩ : BufTy).Contents (Elt F) → (⟨S128x2048x1, .f32⟩ : BufTy).Contents (Elt F)),
    reshape main_v5 main_v6 rfl shapeCasts_S128x2048x1_S128x2048 ]

theorem c0_3_ok : Ok (F := F) c0_3 :=
  ⟨⟨reshape_bufs_sub .., rfl⟩, ⟨unary_bufs_sub .., rfl⟩, ⟨reshape_bufs_sub .., rfl⟩⟩

abbrev c0_4 : List (HloOp τ sig (Elt F)) :=
  [ nullary main_cst_1 (constant S_ .f32 0x3F800000#32),
    unary main_cst_1 main_v7 (broadcastInDim S128x2048 ![] bcast_S_S128x2048 : (⟨S_, .f32⟩ : BufTy).Contents (Elt F) → (⟨S128x2048, .f32⟩ : BufTy).Contents (Elt F)),
    binary main_v6 main_v7 main_v8 (addf : (⟨S128x2048, .f32⟩ : BufTy).Contents (Elt F) → (⟨S128x2048, .f32⟩ : BufTy).Contents (Elt F) → (⟨S128x2048, .f32⟩ : BufTy).Contents (Elt F)) ]

theorem c0_4_ok : Ok (F := F) c0_4 :=
  ⟨⟨nullary_bufs_sub .., rfl⟩, ⟨unary_bufs_sub .., rfl⟩, ⟨binary_bufs_sub .., rfl⟩⟩

abbrev c0_5 : List (HloOp τ sig (Elt F)) :=
  [ nullary main_cst_2 (constant S_ .f32 0x42800000#32),
    unary main_cst_2 main_v9 (broadcastInDim S128x2048 ![] bcast_S_S128x2048 : (⟨S_, .f32⟩ : BufTy).Contents (Elt F) → (⟨S128x2048, .f32⟩ : BufTy).Contents (Elt F)),
    binary main_v8 main_v9 main_v10 (mulf : (⟨S128x2048, .f32⟩ : BufTy).Contents (Elt F) → (⟨S128x2048, .f32⟩ : BufTy).Contents (Elt F) → (⟨S128x2048, .f32⟩ : BufTy).Contents (Elt F)) ]

theorem c0_5_ok : Ok (F := F) c0_5 :=
  ⟨⟨nullary_bufs_sub .., rfl⟩, ⟨unary_bufs_sub .., rfl⟩, ⟨binary_bufs_sub .., rfl⟩⟩

abbrev c0_6 : List (HloOp τ sig (Elt F)) :=
  [ nullary main_cst_3 (constant S_ .f32 0x3F800000#32),
    unary main_cst_3 main_v11 (broadcastInDim S128x2048 ![] bcast_S_S128x2048 : (⟨S_, .f32⟩ : BufTy).Contents (Elt F) → (⟨S128x2048, .f32⟩ : BufTy).Contents (Elt F)) ]

theorem c0_6_ok : Ok (F := F) c0_6 :=
  ⟨⟨nullary_bufs_sub .., rfl⟩, ⟨unary_bufs_sub .., rfl⟩⟩

abbrev c1_0 : List (HloOp τ sig (Elt F)) :=
  [ binary main_v10 main_v11 main_v12 (subf : (⟨S128x2048, .f32⟩ : BufTy).Contents (Elt F) → (⟨S128x2048, .f32⟩ : BufTy).Contents (Elt F) → (⟨S128x2048, .f32⟩ : BufTy).Contents (Elt F)),
    nullary main_cst_4 (constant S_ .f32 0x3F000000#32),
    unary main_cst_4 main_v13 (broadcastInDim S128x2048 ![] bcast_S_S128x2048 : (⟨S_, .f32⟩ : BufTy).Contents (Elt F) → (⟨S128x2048, .f32⟩ : BufTy).Contents (Elt F)) ]

theorem c1_0_ok : Ok (F := F) c1_0 :=
  ⟨⟨binary_bufs_sub .., rfl⟩, ⟨nullary_bufs_sub .., rfl⟩, ⟨unary_bufs_sub .., rfl⟩⟩

abbrev c1_1 : List (HloOp τ sig (Elt F)) :=
  [ binary main_v12 main_v13 main_v14 (mulf : (⟨S128x2048, .f32⟩ : BufTy).Contents (Elt F) → (⟨S128x2048, .f32⟩ : BufTy).Contents (Elt F) → (⟨S128x2048, .f32⟩ : BufTy).Contents (Elt F)),
    unary main_v2 main_v15 ((extractStridedSlice S128x2048x1 ![0, 0, 1] · slices_S128x2048x2_S128x2048x1_0_0_1) : (⟨S128x2048x2, .f32⟩ : BufTy).Contents (Elt F) → (⟨S128x2048x1, .f32⟩ : BufTy).Contents (Elt F)),
    reshape main_v15 main_v16 rfl shapeCasts_S128x2048x1_S128x2048 ]

theorem c1_1_ok : Ok (F := F) c1_1 :=
  ⟨⟨binary_bufs_sub .., rfl⟩, ⟨unary_bufs_sub .., rfl⟩, ⟨reshape_bufs_sub .., rfl⟩⟩

abbrev c1_2 : List (HloOp τ sig (Elt F)) :=
  [ nullary main_cst_5 (constant S_ .f32 0x3F800000#32),
    unary main_cst_5 main_v17 (broadcastInDim S128x2048 ![] bcast_S_S128x2048 : (⟨S_, .f32⟩ : BufTy).Contents (Elt F) → (⟨S128x2048, .f32⟩ : BufTy).Contents (Elt F)),
    binary main_v16 main_v17 main_v18 (addf : (⟨S128x2048, .f32⟩ : BufTy).Contents (Elt F) → (⟨S128x2048, .f32⟩ : BufTy).Contents (Elt F) → (⟨S128x2048, .f32⟩ : BufTy).Contents (Elt F)) ]

theorem c1_2_ok : Ok (F := F) c1_2 :=
  ⟨⟨nullary_bufs_sub .., rfl⟩, ⟨unary_bufs_sub .., rfl⟩, ⟨binary_bufs_sub .., rfl⟩⟩

abbrev c1_3 : List (HloOp τ sig (Elt F)) :=
  [ nullary main_cst_6 (constant S_ .f32 0x42800000#32),
    unary main_cst_6 main_v19 (broadcastInDim S128x2048 ![] bcast_S_S128x2048 : (⟨S_, .f32⟩ : BufTy).Contents (Elt F) → (⟨S128x2048, .f32⟩ : BufTy).Contents (Elt F)),
    binary main_v18 main_v19 main_v20 (mulf : (⟨S128x2048, .f32⟩ : BufTy).Contents (Elt F) → (⟨S128x2048, .f32⟩ : BufTy).Contents (Elt F) → (⟨S128x2048, .f32⟩ : BufTy).Contents (Elt F)) ]

theorem c1_3_ok : Ok (F := F) c1_3 :=
  ⟨⟨nullary_bufs_sub .., rfl⟩, ⟨unary_bufs_sub .., rfl⟩, ⟨binary_bufs_sub .., rfl⟩⟩

abbrev c1_4 : List (HloOp τ sig (Elt F)) :=
  [ nullary main_cst_7 (constant S_ .f32 0x3F800000#32),
    unary main_cst_7 main_v21 (broadcastInDim S128x2048 ![] bcast_S_S128x2048 : (⟨S_, .f32⟩ : BufTy).Contents (Elt F) → (⟨S128x2048, .f32⟩ : BufTy).Contents (Elt F)),
    binary main_v20 main_v21 main_v22 (subf : (⟨S128x2048, .f32⟩ : BufTy).Contents (Elt F) → (⟨S128x2048, .f32⟩ : BufTy).Contents (Elt F) → (⟨S128x2048, .f32⟩ : BufTy).Contents (Elt F)) ]

theorem c1_4_ok : Ok (F := F) c1_4 :=
  ⟨⟨nullary_bufs_sub .., rfl⟩, ⟨unary_bufs_sub .., rfl⟩, ⟨binary_bufs_sub .., rfl⟩⟩

abbrev c1_5 : List (HloOp τ sig (Elt F)) :=
  [ nullary main_cst_8 (constant S_ .f32 0x3F000000#32),
    unary main_cst_8 main_v23 (broadcastInDim S128x2048 ![] bcast_S_S128x2048 : (⟨S_, .f32⟩ : BufTy).Contents (Elt F) → (⟨S128x2048, .f32⟩ : BufTy).Contents (Elt F)),
    binary main_v22 main_v23 main_v24 (mulf : (⟨S128x2048, .f32⟩ : BufTy).Contents (Elt F) → (⟨S128x2048, .f32⟩ : BufTy).Contents (Elt F) → (⟨S128x2048, .f32⟩ : BufTy).Contents (Elt F)) ]

theorem c1_5_ok : Ok (F := F) c1_5 :=
  ⟨⟨nullary_bufs_sub .., rfl⟩, ⟨unary_bufs_sub .., rfl⟩, ⟨binary_bufs_sub .., rfl⟩⟩

abbrev c1_6 : List (HloOp τ sig (Elt F)) :=
  [ unary main_v14 main_v25 (Host.floor : (⟨S128x2048, .f32⟩ : BufTy).Contents (Elt F) → (⟨S128x2048, .f32⟩ : BufTy).Contents (Elt F)),
    unary main_v24 main_v26 (Host.floor : (⟨S128x2048, .f32⟩ : BufTy).Contents (Elt F) → (⟨S128x2048, .f32⟩ : BufTy).Contents (Elt F)),
    binary main_v14 main_v25 main_v27 (subf : (⟨S128x2048, .f32⟩ : BufTy).Contents (Elt F) → (⟨S128x2048, .f32⟩ : BufTy).Contents (Elt F) → (⟨S128x2048, .f32⟩ : BufTy).Contents (Elt F)) ]

theorem c1_6_ok : Ok (F := F) c1_6 :=
  ⟨⟨unary_bufs_sub .., rfl⟩, ⟨unary_bufs_sub .., rfl⟩, ⟨binary_bufs_sub .., rfl⟩⟩

abbrev c2_0 : List (HloOp τ sig (Elt F)) :=
  [ binary main_v24 main_v26 main_v28 (subf : (⟨S128x2048, .f32⟩ : BufTy).Contents (Elt F) → (⟨S128x2048, .f32⟩ : BufTy).Contents (Elt F) → (⟨S128x2048, .f32⟩ : BufTy).Contents (Elt F)),
    unary main_v25 main_v29 (fptosi 32 : (⟨S128x2048, .f32⟩ : BufTy).Contents (Elt F) → (⟨S128x2048, .i32⟩ : BufTy).Contents (Elt F)),
    unary main_v26 main_v30 (fptosi 32 : (⟨S128x2048, .f32⟩ : BufTy).Contents (Elt F) → (⟨S128x2048, .i32⟩ : BufTy).Contents (Elt F)) ]

theorem c2_0_ok : Ok (F := F) c2_0 :=
  ⟨⟨binary_bufs_sub .., rfl⟩, ⟨unary_bufs_sub .., rfl⟩, ⟨unary_bufs_sub .., rfl⟩⟩

abbrev c2_1 : List (HloOp τ sig (Elt F)) :=
  [ nullary main_cst_9 (constant S_ .f32 0x3F800000#32),
    unary main_cst_9 main_v31 (broadcastInDim S128x2048 ![] bcast_S_S128x2048 : (⟨S_, .f32⟩ : BufTy).Contents (Elt F) → (⟨S128x2048, .f32⟩ : BufTy).Contents (Elt F)),
    binary main_v31 main_v28 main_v32 (subf : (⟨S128x2048, .f32⟩ : BufTy).Contents (Elt F) → (⟨S128x2048, .f32⟩ : BufTy).Contents (Elt F) → (⟨S128x2048, .f32⟩ : BufTy).Contents (Elt F)) ]

theorem c2_1_ok : Ok (F := F) c2_1 :=
  ⟨⟨nullary_bufs_sub .., rfl⟩, ⟨unary_bufs_sub .., rfl⟩, ⟨binary_bufs_sub .., rfl⟩⟩

abbrev c2_2 : List (HloOp τ sig (Elt F)) :=
  [ nullary main_cst_10 (constant S_ .f32 0x3F800000#32),
    unary main_cst_10 main_v33 (broadcastInDim S128x2048 ![] bcast_S_S128x2048 : (⟨S_, .f32⟩ : BufTy).Contents (Elt F) → (⟨S128x2048, .f32⟩ : BufTy).Contents (Elt F)),
    binary main_v33 main_v27 main_v34 (subf : (⟨S128x2048, .f32⟩ : BufTy).Contents (Elt F) → (⟨S128x2048, .f32⟩ : BufTy).Contents (Elt F) → (⟨S128x2048, .f32⟩ : BufTy).Contents (Elt F)) ]

theorem c2_2_ok : Ok (F := F) c2_2 :=
  ⟨⟨nullary_bufs_sub .., rfl⟩, ⟨unary_bufs_sub .., rfl⟩, ⟨binary_bufs_sub .., rfl⟩⟩

abbrev c2_3 : List (HloOp τ sig (Elt F)) :=
  [ binary main_v32 main_v34 main_v35 (mulf : (⟨S128x2048, .f32⟩ : BufTy).Contents (Elt F) → (⟨S128x2048, .f32⟩ : BufTy).Contents (Elt F) → (⟨S128x2048, .f32⟩ : BufTy).Contents (Elt F)),
    nullary main_c (constantI S_ 32 0#32),
    unary main_c main_v36 (broadcastInDim S128x2048 ![] bcast_S_S128x2048 : (⟨S_, .i32⟩ : BufTy).Contents (Elt F) → (⟨S128x2048, .i32⟩ : BufTy).Contents (Elt F)) ]

theorem c2_3_ok : Ok (F := F) c2_3 :=
  ⟨⟨binary_bufs_sub .., rfl⟩, ⟨nullary_bufs_sub .., rfl⟩, ⟨unary_bufs_sub .., rfl⟩⟩

abbrev c2_4 : List (HloOp τ sig (Elt F)) :=
  [ binary main_v30 main_v36 main_v37 (cmpi .sge : (⟨S128x2048, .i32⟩ : BufTy).Contents (Elt F) → (⟨S128x2048, .i32⟩ : BufTy).Contents (Elt F) → (⟨S128x2048, .i1⟩ : BufTy).Contents (Elt F)),
    nullary main_c_11 (constantI S_ 32 64#32),
    unary main_c_11 main_v38 (broadcastInDim S128x2048 ![] bcast_S_S128x2048 : (⟨S_, .i32⟩ : BufTy).Contents (Elt F) → (⟨S128x2048, .i32⟩ : BufTy).Contents (Elt F)) ]

theorem c2_4_ok : Ok (F := F) c2_4 :=
  ⟨⟨binary_bufs_sub .., rfl⟩, ⟨nullary_bufs_sub .., rfl⟩, ⟨unary_bufs_sub .., rfl⟩⟩

abbrev c2_5 : List (HloOp τ sig (Elt F)) :=
  [ binary main_v30 main_v38 main_v39 (cmpi .slt : (⟨S128x2048, .i32⟩ : BufTy).Contents (Elt F) → (⟨S128x2048, .i32⟩ : BufTy).Contents (Elt F) → (⟨S128x2048, .i1⟩ : BufTy).Contents (Elt F)),
    binary main_v37 main_v39 main_v40 (andi : (⟨S128x2048, .i1⟩ : BufTy).Contents (Elt F) → (⟨S128x2048, .i1⟩ : BufTy).Contents (Elt F) → (⟨S128x2048, .i1⟩ : BufTy).Contents (Elt F)),
    nullary main_c_12 (constantI S_ 32 0#32) ]

theorem c2_5_ok : Ok (F := F) c2_5 :=
  ⟨⟨binary_bufs_sub .., rfl⟩, ⟨binary_bufs_sub .., rfl⟩, ⟨nullary_bufs_sub .., rfl⟩⟩

abbrev c2_6 : List (HloOp τ sig (Elt F)) :=
  [ unary main_c_12 main_v41 (broadcastInDim S128x2048 ![] bcast_S_S128x2048 : (⟨S_, .i32⟩ : BufTy).Contents (Elt F) → (⟨S128x2048, .i32⟩ : BufTy).Contents (Elt F)),
    binary main_v29 main_v41 main_v42 (cmpi .sge : (⟨S128x2048, .i32⟩ : BufTy).Contents (Elt F) → (⟨S128x2048, .i32⟩ : BufTy).Contents (Elt F) → (⟨S128x2048, .i1⟩ : BufTy).Contents (Elt F)),
    binary main_v40 main_v42 main_v43 (andi : (⟨S128x2048, .i1⟩ : BufTy).Contents (Elt F) → (⟨S128x2048, .i1⟩ : BufTy).Contents (Elt F) → (⟨S128x2048, .i1⟩ : BufTy).Contents (Elt F)) ]

theorem c2_6_ok : Ok (F := F) c2_6 :=
  ⟨⟨unary_bufs_sub .., rfl⟩, ⟨binary_bufs_sub .., rfl⟩, ⟨binary_bufs_sub .., rfl⟩⟩

abbrev c2_7 : List (HloOp τ sig (Elt F)) :=
  [ nullary main_c_13 (constantI S_ 32 64#32) ]

theorem c2_7_ok : Ok (F := F) c2_7 :=
  ⟨nullary_bufs_sub .., rfl⟩

def c0 : List (HloOp τ sig (Elt F)) := c0_0 ++ (c0_1 ++ (c0_2 ++ (c0_3 ++ (c0_4 ++ (c0_5 ++ (c0_6))))))

theorem c0_ok : Ok (F := F) c0 := c0_0_ok.append (c0_1_ok.append (c0_2_ok.append (c0_3_ok.append (c0_4_ok.append (c0_5_ok.append (c0_6_ok))))))

def c1 : List (HloOp τ sig (Elt F)) := c1_0 ++ (c1_1 ++ (c1_2 ++ (c1_3 ++ (c1_4 ++ (c1_5 ++ (c1_6))))))

theorem c1_ok : Ok (F := F) c1 := c1_0_ok.append (c1_1_ok.append (c1_2_ok.append (c1_3_ok.append (c1_4_ok.append (c1_5_ok.append (c1_6_ok))))))

def c2 : List (HloOp τ sig (Elt F)) := c2_0 ++ (c2_1 ++ (c2_2 ++ (c2_3 ++ (c2_4 ++ (c2_5 ++ (c2_6 ++ (c2_7)))))))

theorem c2_ok : Ok (F := F) c2 := c2_0_ok.append (c2_1_ok.append (c2_2_ok.append (c2_3_ok.append (c2_4_ok.append (c2_5_ok.append (c2_6_ok.append (c2_7_ok)))))))

def w0 : List (HloOp τ sig (Elt F)) := c0 ++ (c1 ++ (c2))

theorem w0_ok : Ok (F := F) w0 := c0_ok.append (c1_ok.append (c2_ok))

theorem main_part0_chain (d : Dev nD) : main_part0 (F := F) d = (Pipeline.chainK
  [ seq c0_0,
    seq c0_1,
    seq c0_2,
    seq c0_3,
    seq c0_4,
    seq c0_5,
    seq c0_6,
    seq c1_0,
    seq c1_1,
    seq c1_2,
    seq c1_3,
    seq c1_4,
    seq c1_5,
    seq c1_6,
    seq c2_0,
    seq c2_1,
    seq c2_2,
    seq c2_3,
    seq c2_4,
    seq c2_5,
    seq c2_6 ]
  (seq c2_7) : Prog (TpuEff nD τ sig (Elt F) (Pipeline.Sig Λ₀ (Fin 0) fun p => (pcfgs (F := F) p).Adm) .tc) PUnit) := by
  chain_rfl

theorem main_part0_eq (d : Dev nD) : main_part0 (F := F) d = (seq w0 : Prog (TpuEff nD τ sig (Elt F) (Pipeline.Sig Λ₀ (Fin 0) fun p => (pcfgs (F := F) p).Adm) .tc) PUnit) := by
  rw [main_part0_chain d]
  simp only [w0, c0, c1, c2, Pipeline.chainK, seq_append, bind_assoc]

end Cert.ReferenceIdeal.RefRunGen

end
-- ==== Proof.RefRunGen.P1.lean ====
import proofs.«416765_j9792525435349_4_alg».proof.Proof.RefRunGen.Ok
import Idealize.ShloMosaic.Lib.Pipeline.Regions

noncomputable section

namespace Cert.ReferenceIdeal.RefRunGen

open Cert.ReferenceIdeal Cert.ReferenceIdeal.Gen Idealize.ShloMosaic Idealize.ShloMosaic.TcCoe Idealize.SL.Sem Idealize.ShloMosaic.StableHlo

variable {F : FTy → Type} [FloatOps F]

abbrev c3_0 : List (HloOp τ sig (Elt F)) :=
  [ unary main_c_13 main_v44 (broadcastInDim S128x2048 ![] bcast_S_S128x2048 : (⟨S_, .i32⟩ : BufTy).Contents (Elt F) → (⟨S128x2048, .i32⟩ : BufTy).Contents (Elt F)),
    binary main_v29 main_v44 main_v45 (cmpi .slt : (⟨S128x2048, .i32⟩ : BufTy).Contents (Elt F) → (⟨S128x2048, .i32⟩ : BufTy).Contents (Elt F) → (⟨S128x2048, .i1⟩ : BufTy).Contents (Elt F)),
    binary main_v43 main_v45 main_v46 (andi : (⟨S128x2048, .i1⟩ : BufTy).Contents (Elt F) → (⟨S128x2048, .i1⟩ : BufTy).Contents (Elt F) → (⟨S128x2048, .i1⟩ : BufTy).Contents (Elt F)) ]

theorem c3_0_ok : Ok (F := F) c3_0 :=
  ⟨⟨unary_bufs_sub .., rfl⟩, ⟨binary_bufs_sub .., rfl⟩, ⟨binary_bufs_sub .., rfl⟩⟩

abbrev c3_1 : List (HloOp τ sig (Elt F)) :=
  [ unary main_v46 main_v47 (uitofp .f32 : (⟨S128x2048, .i1⟩ : BufTy).Contents (Elt F) → (⟨S128x2048, .f32⟩ : BufTy).Contents (Elt F)),
    nullary main_c_14 (constantI S_ 32 0#32),
    nullary main_c_15 (constantI S_ 32 63#32) ]

theorem c3_1_ok : Ok (F := F) c3_1 :=
  ⟨⟨unary_bufs_sub .., rfl⟩, ⟨nullary_bufs_sub .., rfl⟩, ⟨nullary_bufs_sub .., rfl⟩⟩

abbrev c3_2 : List (HloOp τ sig (Elt F)) :=
  [ TRef.unary (TRef.of (T := ⟨S_, .i32⟩) main_c_14) (TRef.of (T := ⟨S_, .i32⟩) main_call1_v0) id,
    TRef.unary (TRef.of (T := ⟨S_, .i32⟩) main_call1_v0) (TRef.of (T := ⟨S128x2048, .i32⟩) main_call1_v1) (broadcastInDim S128x2048 ![] bcast_S_S128x2048),
    TRef.binary (TRef.of (T := ⟨S128x2048, .i32⟩) main_call1_v1) (TRef.of (T := ⟨S128x2048, .i32⟩) main_v30) (TRef.of (T := ⟨S128x2048, .i32⟩) main_call1_v2) maxsi,
    TRef.unary (TRef.of (T := ⟨S_, .i32⟩) main_c_15) (TRef.of (T := ⟨S_, .i32⟩) main_call1_v3) id,
    TRef.unary (TRef.of (T := ⟨S_, .i32⟩) main_call1_v3) (TRef.of (T := ⟨S128x2048, .i32⟩) main_call1_v4) (broadcastInDim S128x2048 ![] bcast_S_S128x2048),
    TRef.binary (TRef.of (T := ⟨S128x2048, .i32⟩) main_call1_v4) (TRef.of (T := ⟨S128x2048, .i32⟩) main_call1_v2) (TRef.of (T := ⟨S128x2048, .i32⟩) main_v48) minsi ]

theorem c3_2_ok : Ok (F := F) c3_2 :=
  ⟨⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩⟩

abbrev c3_3 : List (HloOp τ sig (Elt F)) :=
  [ nullary main_c_16 (constantI S_ 32 0#32),
    nullary main_c_17 (constantI S_ 32 63#32) ]

theorem c3_3_ok : Ok (F := F) c3_3 :=
  ⟨⟨nullary_bufs_sub .., rfl⟩, ⟨nullary_bufs_sub .., rfl⟩⟩

abbrev c3_4 : List (HloOp τ sig (Elt F)) :=
  [ TRef.unary (TRef.of (T := ⟨S_, .i32⟩) main_c_16) (TRef.of (T := ⟨S_, .i32⟩) main_call2_v0) id,
    TRef.unary (TRef.of (T := ⟨S_, .i32⟩) main_call2_v0) (TRef.of (T := ⟨S128x2048, .i32⟩) main_call2_v1) (broadcastInDim S128x2048 ![] bcast_S_S128x2048),
    TRef.binary (TRef.of (T := ⟨S128x2048, .i32⟩) main_call2_v1) (TRef.of (T := ⟨S128x2048, .i32⟩) main_v29) (TRef.of (T := ⟨S128x2048, .i32⟩) main_call2_v2) maxsi,
    TRef.unary (TRef.of (T := ⟨S_, .i32⟩) main_c_17) (TRef.of (T := ⟨S_, .i32⟩) main_call2_v3) id,
    TRef.unary (TRef.of (T := ⟨S_, .i32⟩) main_call2_v3) (TRef.of (T := ⟨S128x2048, .i32⟩) main_call2_v4) (broadcastInDim S128x2048 ![] bcast_S_S128x2048),
    TRef.binary (TRef.of (T := ⟨S128x2048, .i32⟩) main_call2_v4) (TRef.of (T := ⟨S128x2048, .i32⟩) main_call2_v2) (TRef.of (T := ⟨S128x2048, .i32⟩) main_v49) minsi ]

theorem c3_4_ok : Ok (F := F) c3_4 :=
  ⟨⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩⟩

abbrev c3_5 : List (HloOp τ sig (Elt F)) :=
  [ nullary main_c_18 (constantI S_ 32 0#32),
    unary main_c_18 main_v50 (broadcastInDim S128x2048 ![] bcast_S_S128x2048 : (⟨S_, .i32⟩ : BufTy).Contents (Elt F) → (⟨S128x2048, .i32⟩ : BufTy).Contents (Elt F)),
    binary main_v48 main_v50 main_v51 (cmpi .slt : (⟨S128x2048, .i32⟩ : BufTy).Contents (Elt F) → (⟨S128x2048, .i32⟩ : BufTy).Contents (Elt F) → (⟨S128x2048, .i1⟩ : BufTy).Contents (Elt F)) ]

theorem c3_5_ok : Ok (F := F) c3_5 :=
  ⟨⟨nullary_bufs_sub .., rfl⟩, ⟨unary_bufs_sub .., rfl⟩, ⟨binary_bufs_sub .., rfl⟩⟩

abbrev c3_6 : List (HloOp τ sig (Elt F)) :=
  [ nullary main_c_19 (constantI S_ 32 64#32),
    unary main_c_19 main_v52 (broadcastInDim S128x2048 ![] bcast_S_S128x2048 : (⟨S_, .i32⟩ : BufTy).Contents (Elt F) → (⟨S128x2048, .i32⟩ : BufTy).Contents (Elt F)) ]

theorem c3_6_ok : Ok (F := F) c3_6 :=
  ⟨⟨nullary_bufs_sub .., rfl⟩, ⟨unary_bufs_sub .., rfl⟩⟩

abbrev c4_0 : List (HloOp τ sig (Elt F)) :=
  [ binary main_v48 main_v52 main_v53 (addi : (⟨S128x2048, .i32⟩ : BufTy).Contents (Elt F) → (⟨S128x2048, .i32⟩ : BufTy).Contents (Elt F) → (⟨S128x2048, .i32⟩ : BufTy).Contents (Elt F)),
    ternary main_v51 main_v53 main_v48 main_v54 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F)),
    nullary main_c_20 (constantI S_ 32 0#32) ]

theorem c4_0_ok : Ok (F := F) c4_0 :=
  ⟨⟨binary_bufs_sub .., rfl⟩, ⟨ternary_bufs_sub .., rfl⟩, ⟨nullary_bufs_sub .., rfl⟩⟩

abbrev c4_1 : List (HloOp τ sig (Elt F)) :=
  [ unary main_c_20 main_v55 (broadcastInDim S128x2048 ![] bcast_S_S128x2048 : (⟨S_, .i32⟩ : BufTy).Contents (Elt F) → (⟨S128x2048, .i32⟩ : BufTy).Contents (Elt F)),
    binary main_v49 main_v55 main_v56 (cmpi .slt : (⟨S128x2048, .i32⟩ : BufTy).Contents (Elt F) → (⟨S128x2048, .i32⟩ : BufTy).Contents (Elt F) → (⟨S128x2048, .i1⟩ : BufTy).Contents (Elt F)),
    nullary main_c_21 (constantI S_ 32 64#32) ]

theorem c4_1_ok : Ok (F := F) c4_1 :=
  ⟨⟨unary_bufs_sub .., rfl⟩, ⟨binary_bufs_sub .., rfl⟩, ⟨nullary_bufs_sub .., rfl⟩⟩

abbrev c4_2 : List (HloOp τ sig (Elt F)) :=
  [ unary main_c_21 main_v57 (broadcastInDim S128x2048 ![] bcast_S_S128x2048 : (⟨S_, .i32⟩ : BufTy).Contents (Elt F) → (⟨S128x2048, .i32⟩ : BufTy).Contents (Elt F)),
    binary main_v49 main_v57 main_v58 (addi : (⟨S128x2048, .i32⟩ : BufTy).Contents (Elt F) → (⟨S128x2048, .i32⟩ : BufTy).Contents (Elt F) → (⟨S128x2048, .i32⟩ : BufTy).Contents (Elt F)),
    ternary main_v56 main_v58 main_v49 main_v59 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F)) ]

theorem c4_2_ok : Ok (F := F) c4_2 :=
  ⟨⟨unary_bufs_sub .., rfl⟩, ⟨binary_bufs_sub .., rfl⟩, ⟨ternary_bufs_sub .., rfl⟩⟩

abbrev c4_3 : List (HloOp τ sig (Elt F)) :=
  [ unary main_v54 main_v60 (broadcastInDim S128x2048x1 ![0, 1] bcast_S128x2048_S128x2048x1_0_1 : (⟨S128x2048, .i32⟩ : BufTy).Contents (Elt F) → (⟨S128x2048x1, .i32⟩ : BufTy).Contents (Elt F)),
    unary main_v59 main_v61 (broadcastInDim S128x2048x1 ![0, 1] bcast_S128x2048_S128x2048x1_0_1 : (⟨S128x2048, .i32⟩ : BufTy).Contents (Elt F) → (⟨S128x2048x1, .i32⟩ : BufTy).Contents (Elt F)),
    binary main_v60 main_v61 main_v62 ((fun a b => concatenate S128x2048x2 2 [⟨S128x2048x1, a⟩, ⟨S128x2048x1, b⟩] concatenates_S128x2048x1_S128x2048x1_S128x2048x2_d2) : (⟨S128x2048x1, .i32⟩ : BufTy).Contents (Elt F) → (⟨S128x2048x1, .i32⟩ : BufTy).Contents (Elt F) → (⟨S128x2048x2, .i32⟩ : BufTy).Contents (Elt F)) ]

theorem c4_3_ok : Ok (F := F) c4_3 :=
  ⟨⟨unary_bufs_sub .., rfl⟩, ⟨unary_bufs_sub .., rfl⟩, ⟨binary_bufs_sub .., rfl⟩⟩

abbrev c4_4 : List (HloOp τ sig (Elt F)) :=
  [ binary main_v4 main_v62 main_v63 ((fun x i => Host.gather gather_S128x64x64x64_S128x2048x2_S128x64x2048_1_23_0_0_23_2_16411 x i) : (⟨S128x64x64x64, .f32⟩ : BufTy).Contents (Elt F) → (⟨S128x2048x2, .i32⟩ : BufTy).Contents (Elt F) → (⟨S128x64x2048, .f32⟩ : BufTy).Contents (Elt F)),
    binary main_v35 main_v47 main_v64 (mulf : (⟨S128x2048, .f32⟩ : BufTy).Contents (Elt F) → (⟨S128x2048, .f32⟩ : BufTy).Contents (Elt F) → (⟨S128x2048, .f32⟩ : BufTy).Contents (Elt F)),
    unary main_v64 main_v65 (broadcastInDim S128x1x2048 ![0, 2] bcast_S128x2048_S128x1x2048_0_2 : (⟨S128x2048, .f32⟩ : BufTy).Contents (Elt F) → (⟨S128x1x2048, .f32⟩ : BufTy).Contents (Elt F)) ]

theorem c4_4_ok : Ok (F := F) c4_4 :=
  ⟨⟨binary_bufs_sub .., rfl⟩, ⟨binary_bufs_sub .., rfl⟩, ⟨unary_bufs_sub .., rfl⟩⟩

abbrev c4_5 : List (HloOp τ sig (Elt F)) :=
  [ unary main_v65 main_v66 (broadcastInDim S128x64x2048 ![0, 1, 2] bcast_S128x1x2048_S128x64x2048_0_1_2 : (⟨S128x1x2048, .f32⟩ : BufTy).Contents (Elt F) → (⟨S128x64x2048, .f32⟩ : BufTy).Contents (Elt F)),
    binary main_v63 main_v66 main_v67 (mulf : (⟨S128x64x2048, .f32⟩ : BufTy).Contents (Elt F) → (⟨S128x64x2048, .f32⟩ : BufTy).Contents (Elt F) → (⟨S128x64x2048, .f32⟩ : BufTy).Contents (Elt F)),
    nullary main_c_22 (constantI S_ 32 1#32) ]

theorem c4_5_ok : Ok (F := F) c4_5 :=
  ⟨⟨unary_bufs_sub .., rfl⟩, ⟨binary_bufs_sub .., rfl⟩, ⟨nullary_bufs_sub .., rfl⟩⟩

abbrev c4_6 : List (HloOp τ sig (Elt F)) :=
  [ unary main_c_22 main_v68 (broadcastInDim S128x2048 ![] bcast_S_S128x2048 : (⟨S_, .i32⟩ : BufTy).Contents (Elt F) → (⟨S128x2048, .i32⟩ : BufTy).Contents (Elt F)),
    binary main_v29 main_v68 main_v69 (addi : (⟨S128x2048, .i32⟩ : BufTy).Contents (Elt F) → (⟨S128x2048, .i32⟩ : BufTy).Contents (Elt F) → (⟨S128x2048, .i32⟩ : BufTy).Contents (Elt F)),
    nullary main_cst_23 (constant S_ .f32 0x3F800000#32) ]

theorem c4_6_ok : Ok (F := F) c4_6 :=
  ⟨⟨unary_bufs_sub .., rfl⟩, ⟨binary_bufs_sub .., rfl⟩, ⟨nullary_bufs_sub .., rfl⟩⟩

abbrev c4_7 : List (HloOp τ sig (Elt F)) :=
  [ unary main_cst_23 main_v70 (broadcastInDim S128x2048 ![] bcast_S_S128x2048 : (⟨S_, .f32⟩ : BufTy).Contents (Elt F) → (⟨S128x2048, .f32⟩ : BufTy).Contents (Elt F)),
    binary main_v70 main_v28 main_v71 (subf : (⟨S128x2048, .f32⟩ : BufTy).Contents (Elt F) → (⟨S128x2048, .f32⟩ : BufTy).Contents (Elt F) → (⟨S128x2048, .f32⟩ : BufTy).Contents (Elt F)),
    binary main_v71 main_v27 main_v72 (mulf : (⟨S128x2048, .f32⟩ : BufTy).Contents (Elt F) → (⟨S128x2048, .f32⟩ : BufTy).Contents (Elt F) → (⟨S128x2048, .f32⟩ : BufTy).Contents (Elt F)) ]

theorem c4_7_ok : Ok (F := F) c4_7 :=
  ⟨⟨unary_bufs_sub .., rfl⟩, ⟨binary_bufs_sub .., rfl⟩, ⟨binary_bufs_sub .., rfl⟩⟩

abbrev c4_8 : List (HloOp τ sig (Elt F)) :=
  [ nullary main_c_24 (constantI S_ 32 0#32) ]

theorem c4_8_ok : Ok (F := F) c4_8 :=
  ⟨nullary_bufs_sub .., rfl⟩

abbrev c5_0 : List (HloOp τ sig (Elt F)) :=
  [ unary main_c_24 main_v73 (broadcastInDim S128x2048 ![] bcast_S_S128x2048 : (⟨S_, .i32⟩ : BufTy).Contents (Elt F) → (⟨S128x2048, .i32⟩ : BufTy).Contents (Elt F)),
    binary main_v30 main_v73 main_v74 (cmpi .sge : (⟨S128x2048, .i32⟩ : BufTy).Contents (Elt F) → (⟨S128x2048, .i32⟩ : BufTy).Contents (Elt F) → (⟨S128x2048, .i1⟩ : BufTy).Contents (Elt F)),
    nullary main_c_25 (constantI S_ 32 64#32) ]

theorem c5_0_ok : Ok (F := F) c5_0 :=
  ⟨⟨unary_bufs_sub .., rfl⟩, ⟨binary_bufs_sub .., rfl⟩, ⟨nullary_bufs_sub .., rfl⟩⟩

abbrev c5_1 : List (HloOp τ sig (Elt F)) :=
  [ unary main_c_25 main_v75 (broadcastInDim S128x2048 ![] bcast_S_S128x2048 : (⟨S_, .i32⟩ : BufTy).Contents (Elt F) → (⟨S128x2048, .i32⟩ : BufTy).Contents (Elt F)),
    binary main_v30 main_v75 main_v76 (cmpi .slt : (⟨S128x2048, .i32⟩ : BufTy).Contents (Elt F) → (⟨S128x2048, .i32⟩ : BufTy).Contents (Elt F) → (⟨S128x2048, .i1⟩ : BufTy).Contents (Elt F)),
    binary main_v74 main_v76 main_v77 (andi : (⟨S128x2048, .i1⟩ : BufTy).Contents (Elt F) → (⟨S128x2048, .i1⟩ : BufTy).Contents (Elt F) → (⟨S128x2048, .i1⟩ : BufTy).Contents (Elt F)) ]

theorem c5_1_ok : Ok (F := F) c5_1 :=
  ⟨⟨unary_bufs_sub .., rfl⟩, ⟨binary_bufs_sub .., rfl⟩, ⟨binary_bufs_sub .., rfl⟩⟩

abbrev c5_2 : List (HloOp τ sig (Elt F)) :=
  [ nullary main_c_26 (constantI S_ 32 0#32),
    unary main_c_26 main_v78 (broadcastInDim S128x2048 ![] bcast_S_S128x2048 : (⟨S_, .i32⟩ : BufTy).Contents (Elt F) → (⟨S128x2048, .i32⟩ : BufTy).Contents (Elt F)),
    binary main_v69 main_v78 main_v79 (cmpi .sge : (⟨S128x2048, .i32⟩ : BufTy).Contents (Elt F) → (⟨S128x2048, .i32⟩ : BufTy).Contents (Elt F) → (⟨S128x2048, .i1⟩ : BufTy).Contents (Elt F)) ]

theorem c5_2_ok : Ok (F := F) c5_2 :=
  ⟨⟨nullary_bufs_sub .., rfl⟩, ⟨unary_bufs_sub .., rfl⟩, ⟨binary_bufs_sub .., rfl⟩⟩

abbrev c5_3 : List (HloOp τ sig (Elt F)) :=
  [ binary main_v77 main_v79 main_v80 (andi : (⟨S128x2048, .i1⟩ : BufTy).Contents (Elt F) → (⟨S128x2048, .i1⟩ : BufTy).Contents (Elt F) → (⟨S128x2048, .i1⟩ : BufTy).Contents (Elt F)),
    nullary main_c_27 (constantI S_ 32 64#32),
    unary main_c_27 main_v81 (broadcastInDim S128x2048 ![] bcast_S_S128x2048 : (⟨S_, .i32⟩ : BufTy).Contents (Elt F) → (⟨S128x2048, .i32⟩ : BufTy).Contents (Elt F)) ]

theorem c5_3_ok : Ok (F := F) c5_3 :=
  ⟨⟨binary_bufs_sub .., rfl⟩, ⟨nullary_bufs_sub .., rfl⟩, ⟨unary_bufs_sub .., rfl⟩⟩

abbrev c5_4 : List (HloOp τ sig (Elt F)) :=
  [ binary main_v69 main_v81 main_v82 (cmpi .slt : (⟨S128x2048, .i32⟩ : BufTy).Contents (Elt F) → (⟨S128x2048, .i32⟩ : BufTy).Contents (Elt F) → (⟨S128x2048, .i1⟩ : BufTy).Contents (Elt F)),
    binary main_v80 main_v82 main_v83 (andi : (⟨S128x2048, .i1⟩ : BufTy).Contents (Elt F) → (⟨S128x2048, .i1⟩ : BufTy).Contents (Elt F) → (⟨S128x2048, .i1⟩ : BufTy).Contents (Elt F)),
    unary main_v83 main_v84 (uitofp .f32 : (⟨S128x2048, .i1⟩ : BufTy).Contents (Elt F) → (⟨S128x2048, .f32⟩ : BufTy).Contents (Elt F)) ]

theorem c5_4_ok : Ok (F := F) c5_4 :=
  ⟨⟨binary_bufs_sub .., rfl⟩, ⟨binary_bufs_sub .., rfl⟩, ⟨unary_bufs_sub .., rfl⟩⟩

abbrev c5_5 : List (HloOp τ sig (Elt F)) :=
  [ nullary main_c_28 (constantI S_ 32 0#32),
    nullary main_c_29 (constantI S_ 32 63#32) ]

theorem c5_5_ok : Ok (F := F) c5_5 :=
  ⟨⟨nullary_bufs_sub .., rfl⟩, ⟨nullary_bufs_sub .., rfl⟩⟩

abbrev c5_6 : List (HloOp τ sig (Elt F)) :=
  [ TRef.unary (TRef.of (T := ⟨S_, .i32⟩) main_c_28) (TRef.of (T := ⟨S_, .i32⟩) main_call3_v0) id,
    TRef.unary (TRef.of (T := ⟨S_, .i32⟩) main_call3_v0) (TRef.of (T := ⟨S128x2048, .i32⟩) main_call3_v1) (broadcastInDim S128x2048 ![] bcast_S_S128x2048),
    TRef.binary (TRef.of (T := ⟨S128x2048, .i32⟩) main_call3_v1) (TRef.of (T := ⟨S128x2048, .i32⟩) main_v30) (TRef.of (T := ⟨S128x2048, .i32⟩) main_call3_v2) maxsi,
    TRef.unary (TRef.of (T := ⟨S_, .i32⟩) main_c_29) (TRef.of (T := ⟨S_, .i32⟩) main_call3_v3) id,
    TRef.unary (TRef.of (T := ⟨S_, .i32⟩) main_call3_v3) (TRef.of (T := ⟨S128x2048, .i32⟩) main_call3_v4) (broadcastInDim S128x2048 ![] bcast_S_S128x2048),
    TRef.binary (TRef.of (T := ⟨S128x2048, .i32⟩) main_call3_v4) (TRef.of (T := ⟨S128x2048, .i32⟩) main_call3_v2) (TRef.of (T := ⟨S128x2048, .i32⟩) main_v85) minsi ]

theorem c5_6_ok : Ok (F := F) c5_6 :=
  ⟨⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩⟩

abbrev c5_7 : List (HloOp τ sig (Elt F)) :=
  [ nullary main_c_30 (constantI S_ 32 0#32),
    nullary main_c_31 (constantI S_ 32 63#32) ]

theorem c5_7_ok : Ok (F := F) c5_7 :=
  ⟨⟨nullary_bufs_sub .., rfl⟩, ⟨nullary_bufs_sub .., rfl⟩⟩

def c3 : List (HloOp τ sig (Elt F)) := c3_0 ++ (c3_1 ++ (c3_2 ++ (c3_3 ++ (c3_4 ++ (c3_5 ++ (c3_6))))))

theorem c3_ok : Ok (F := F) c3 := c3_0_ok.append (c3_1_ok.append (c3_2_ok.append (c3_3_ok.append (c3_4_ok.append (c3_5_ok.append (c3_6_ok))))))

def c4 : List (HloOp τ sig (Elt F)) := c4_0 ++ (c4_1 ++ (c4_2 ++ (c4_3 ++ (c4_4 ++ (c4_5 ++ (c4_6 ++ (c4_7 ++ (c4_8))))))))

theorem c4_ok : Ok (F := F) c4 := c4_0_ok.append (c4_1_ok.append (c4_2_ok.append (c4_3_ok.append (c4_4_ok.append (c4_5_ok.append (c4_6_ok.append (c4_7_ok.append (c4_8_ok))))))))

def c5 : List (HloOp τ sig (Elt F)) := c5_0 ++ (c5_1 ++ (c5_2 ++ (c5_3 ++ (c5_4 ++ (c5_5 ++ (c5_6 ++ (c5_7)))))))

theorem c5_ok : Ok (F := F) c5 := c5_0_ok.append (c5_1_ok.append (c5_2_ok.append (c5_3_ok.append (c5_4_ok.append (c5_5_ok.append (c5_6_ok.append (c5_7_ok)))))))

def w1 : List (HloOp τ sig (Elt F)) := c3 ++ (c4 ++ (c5))

theorem w1_ok : Ok (F := F) w1 := c3_ok.append (c4_ok.append (c5_ok))

noncomputable def t1_p23 : Prog (TpuEff nD τ sig (Elt F) (Pipeline.Sig Λ₀ (Fin 0) fun p => (pcfgs (F := F) p).Adm) .tc) PUnit := do
  hlo rfl (StableHlo.nullary main_c_30 (constantI S_ 32 0#32)) (fun _ => .ret ⟨⟩)
  hlo rfl (StableHlo.nullary main_c_31 (constantI S_ 32 63#32)) (fun _ => .ret ⟨⟩)

noncomputable def t1_p22 : Prog (TpuEff nD τ sig (Elt F) (Pipeline.Sig Λ₀ (Fin 0) fun p => (pcfgs (F := F) p).Adm) .tc) PUnit := do
  fn_clip_0.body (.of main_v30) (.of main_c_28) (.of main_c_29) main_call3
  t1_p23 (F := F)

noncomputable def t1_p21 : Prog (TpuEff nD τ sig (Elt F) (Pipeline.Sig Λ₀ (Fin 0) fun p => (pcfgs (F := F) p).Adm) .tc) PUnit := do
  hlo rfl (StableHlo.nullary main_c_28 (constantI S_ 32 0#32)) (fun _ => .ret ⟨⟩)
  hlo rfl (StableHlo.nullary main_c_29 (constantI S_ 32 63#32)) (fun _ => .ret ⟨⟩)
  t1_p22 (F := F)

noncomputable def t1_p20 : Prog (TpuEff nD τ sig (Elt F) (Pipeline.Sig Λ₀ (Fin 0) fun p => (pcfgs (F := F) p).Adm) .tc) PUnit := do
  hlo rfl (StableHlo.binary main_v69 main_v81 main_v82 (cmpi .slt : (⟨S128x2048, .i32⟩ : BufTy).Contents (Elt F) → (⟨S128x2048, .i32⟩ : BufTy).Contents (Elt F) → (⟨S128x2048, .i1⟩ : BufTy).Contents (Elt F))) (fun _ => .ret ⟨⟩)
  hlo rfl (StableHlo.binary main_v80 main_v82 main_v83 (andi : (⟨S128x2048, .i1⟩ : BufTy).Contents (Elt F) → (⟨S128x2048, .i1⟩ : BufTy).Contents (Elt F) → (⟨S128x2048, .i1⟩ : BufTy).Contents (Elt F))) (fun _ => .ret ⟨⟩)
  hlo rfl (StableHlo.unary main_v83 main_v84 (uitofp .f32 : (⟨S128x2048, .i1⟩ : BufTy).Contents (Elt F) → (⟨S128x2048, .f32⟩ : BufTy).Contents (Elt F))) (fun _ => .ret ⟨⟩)
  t1_p21 (F := F)

noncomputable def t1_p19 : Prog (TpuEff nD τ sig (Elt F) (Pipeline.Sig Λ₀ (Fin 0) fun p => (pcfgs (F := F) p).Adm) .tc) PUnit := do
  hlo rfl (StableHlo.binary main_v77 main_v79 main_v80 (andi : (⟨S128x2048, .i1⟩ : BufTy).Contents (Elt F) → (⟨S128x2048, .i1⟩ : BufTy).Contents (Elt F) → (⟨S128x2048, .i1⟩ : BufTy).Contents (Elt F))) (fun _ => .ret ⟨⟩)
  hlo rfl (StableHlo.nullary main_c_27 (constantI S_ 32 64#32)) (fun _ => .ret ⟨⟩)
  hlo rfl (StableHlo.unary main_c_27 main_v81 (broadcastInDim S128x2048 ![] bcast_S_S128x2048 : (⟨S_, .i32⟩ : BufTy).Contents (Elt F) → (⟨S128x2048, .i32⟩ : BufTy).Contents (Elt F))) (fun _ => .ret ⟨⟩)
  t1_p20 (F := F)

noncomputable def t1_p18 : Prog (TpuEff nD τ sig (Elt F) (Pipeline.Sig Λ₀ (Fin 0) fun p => (pcfgs (F := F) p).Adm) .tc) PUnit := do
  hlo rfl (StableHlo.nullary main_c_26 (constantI S_ 32 0#32)) (fun _ => .ret ⟨⟩)
  hlo rfl (StableHlo.unary main_c_26 main_v78 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v69 main_v78 main_v79 (cmpi .sge : (⟨S128x2048, .i32⟩ : BufTy).Contents (Elt F) → (⟨S128x2048, .i32⟩ : BufTy).Contents (Elt F) → (⟨S128x2048, .i1⟩ : BufTy).Contents (Elt F))) (fun _ => .ret ⟨⟩)
  t1_p19 (F := F)

noncomputable def t1_p17 : Prog (TpuEff nD τ sig (Elt F) (Pipeline.Sig Λ₀ (Fin 0) fun p => (pcfgs (F := F) p).Adm) .tc) PUnit := do
  hlo rfl (StableHlo.unary main_c_25 main_v75 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v30 main_v75 main_v76 (cmpi .slt : (⟨S128x2048, .i32⟩ : BufTy).Contents (Elt F) → (⟨S128x2048, .i32⟩ : BufTy).Contents (Elt F) → (⟨S128x2048, .i1⟩ : BufTy).Contents (Elt F))) (fun _ => .ret ⟨⟩)
  hlo rfl (StableHlo.binary main_v74 main_v76 main_v77 (andi : (⟨S128x2048, .i1⟩ : BufTy).Contents (Elt F) → (⟨S128x2048, .i1⟩ : BufTy).Contents (Elt F) → (⟨S128x2048, .i1⟩ : BufTy).Contents (Elt F))) (fun _ => .ret ⟨⟩)
  t1_p18 (F := F)

noncomputable def t1_p16 : Prog (TpuEff nD τ sig (Elt F) (Pipeline.Sig Λ₀ (Fin 0) fun p => (pcfgs (F := F) p).Adm) .tc) PUnit := do
  hlo rfl (StableHlo.unary main_c_24 main_v73 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v30 main_v73 main_v74 (cmpi .sge : (⟨S128x2048, .i32⟩ : BufTy).Contents (Elt F) → (⟨S128x2048, .i32⟩ : BufTy).Contents (Elt F) → (⟨S128x2048, .i1⟩ : BufTy).Contents (Elt F))) (fun _ => .ret ⟨⟩)
  hlo rfl (StableHlo.nullary main_c_25 (constantI S_ 32 64#32)) (fun _ => .ret ⟨⟩)
  t1_p17 (F := F)

noncomputable def t1_p15 : Prog (TpuEff nD τ sig (Elt F) (Pipeline.Sig Λ₀ (Fin 0) fun p => (pcfgs (F := F) p).Adm) .tc) PUnit := do
  hlo rfl (StableHlo.nullary main_c_24 (constantI S_ 32 0#32)) (fun _ => .ret ⟨⟩)
  t1_p16 (F := F)

noncomputable def t1_p14 : Prog (TpuEff nD τ sig (Elt F) (Pipeline.Sig Λ₀ (Fin 0) fun p => (pcfgs (F := F) p).Adm) .tc) PUnit := do
  hlo rfl (StableHlo.unary main_cst_23 main_v70 (broadcastInDim S128x2048 ![] bcast_S_S128x2048 : (⟨S_, .f32⟩ : BufTy).Contents (Elt F) → (⟨S128x2048, .f32⟩ : BufTy).Contents (Elt F))) (fun _ => .ret ⟨⟩)
  hlo rfl (StableHlo.binary main_v70 main_v28 main_v71 (subf : (⟨S128x2048, .f32⟩ : BufTy).Contents (Elt F) → (⟨S128x2048, .f32⟩ : BufTy).Contents (Elt F) → (⟨S128x2048, .f32⟩ : BufTy).Contents (Elt F))) (fun _ => .ret ⟨⟩)
  hlo rfl (StableHlo.binary main_v71 main_v27 main_v72 (mulf : (⟨S128x2048, .f32⟩ : BufTy).Contents (Elt F) → (⟨S128x2048, .f32⟩ : BufTy).Contents (Elt F) → (⟨S128x2048, .f32⟩ : BufTy).Contents (Elt F))) (fun _ => .ret ⟨⟩)
  t1_p15 (F := F)

noncomputable def t1_p13 : Prog (TpuEff nD τ sig (Elt F) (Pipeline.Sig Λ₀ (Fin 0) fun p => (pcfgs (F := F) p).Adm) .tc) PUnit := do
  hlo rfl (StableHlo.unary main_c_22 main_v68 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v29 main_v68 main_v69 (addi : (⟨S128x2048, .i32⟩ : BufTy).Contents (Elt F) → (⟨S128x2048, .i32⟩ : BufTy).Contents (Elt F) → (⟨S128x2048, .i32⟩ : BufTy).Contents (Elt F))) (fun _ => .ret ⟨⟩)
  hlo rfl (StableHlo.nullary main_cst_23 (constant S_ .f32 0x3F800000#32)) (fun _ => .ret ⟨⟩)
  t1_p14 (F := F)

noncomputable def t1_p12 : Prog (TpuEff nD τ sig (Elt F) (Pipeline.Sig Λ₀ (Fin 0) fun p => (pcfgs (F := F) p).Adm) .tc) PUnit := do
  hlo rfl (StableHlo.unary main_v65 main_v66 (broadcastInDim S128x64x2048 ![0, 1, 2] bcast_S128x1x2048_S128x64x2048_0_1_2 : (⟨S128x1x2048, .f32⟩ : BufTy).Contents (Elt F) → (⟨S128x64x2048, .f32⟩ : BufTy).Contents (Elt F))) (fun _ => .ret ⟨⟩)
  hlo rfl (StableHlo.binary main_v63 main_v66 main_v67 (mulf : (⟨S128x64x2048, .f32⟩ : BufTy).Contents (Elt F) → (⟨S128x64x2048, .f32⟩ : BufTy).Contents (Elt F) → (⟨S128x64x2048, .f32⟩ : BufTy).Contents (Elt F))) (fun _ => .ret ⟨⟩)
  hlo rfl (StableHlo.nullary main_c_22 (constantI S_ 32 1#32)) (fun _ => .ret ⟨⟩)
  t1_p13 (F := F)

noncomputable def t1_p11 : Prog (TpuEff nD τ sig (Elt F) (Pipeline.Sig Λ₀ (Fin 0) fun p => (pcfgs (F := F) p).Adm) .tc) PUnit := do
  hlo rfl (StableHlo.binary main_v4 main_v62 main_v63 ((fun x i => Host.gather gather_S128x64x64x64_S128x2048x2_S128x64x2048_1_23_0_0_23_2_16411 x i) : (⟨S128x64x64x64, .f32⟩ : BufTy).Contents (Elt F) → (⟨S128x2048x2, .i32⟩ : BufTy).Contents (Elt F) → (⟨S128x64x2048, .f32⟩ : BufTy).Contents (Elt F))) (fun _ => .ret ⟨⟩)
  hlo rfl (StableHlo.binary main_v35 main_v47 main_v64 (mulf : (⟨S128x2048, .f32⟩ : BufTy).Contents (Elt F) → (⟨S128x2048, .f32⟩ : BufTy).Contents (Elt F) → (⟨S128x2048, .f32⟩ : BufTy).Contents (Elt F))) (fun _ => .ret ⟨⟩)
  hlo rfl (StableHlo.unary main_v64 main_v65 (broadcastInDim S128x1x2048 ![0, 2] bcast_S128x2048_S128x1x2048_0_2 : (⟨S128x2048, .f32⟩ : BufTy).Contents (Elt F) → (⟨S128x1x2048, .f32⟩ : BufTy).Contents (Elt F))) (fun _ => .ret ⟨⟩)
  t1_p12 (F := F)

noncomputable def t1_p10 : Prog (TpuEff nD τ sig (Elt F) (Pipeline.Sig Λ₀ (Fin 0) fun p => (pcfgs (F := F) p).Adm) .tc) PUnit := do
  hlo rfl (StableHlo.unary main_v54 main_v60 (broadcastInDim S128x2048x1 ![0, 1] bcast_S128x2048_S128x2048x1_0_1 : (⟨S128x2048, .i32⟩ : BufTy).Contents (Elt F) → (⟨S128x2048x1, .i32⟩ : BufTy).Contents (Elt F))) (fun _ => .ret ⟨⟩)
  hlo rfl (StableHlo.unary main_v59 main_v61 (broadcastInDim S128x2048x1 ![0, 1] bcast_S128x2048_S128x2048x1_0_1 : (⟨S128x2048, .i32⟩ : BufTy).Contents (Elt F) → (⟨S128x2048x1, .i32⟩ : BufTy).Contents (Elt F))) (fun _ => .ret ⟨⟩)
  hlo rfl (StableHlo.binary main_v60 main_v61 main_v62 ((fun a b => concatenate S128x2048x2 2 [⟨S128x2048x1, a⟩, ⟨S128x2048x1, b⟩] concatenates_S128x2048x1_S128x2048x1_S128x2048x2_d2) : (⟨S128x2048x1, .i32⟩ : BufTy).Contents (Elt F) → (⟨S128x2048x1, .i32⟩ : BufTy).Contents (Elt F) → (⟨S128x2048x2, .i32⟩ : BufTy).Contents (Elt F))) (fun _ => .ret ⟨⟩)
  t1_p11 (F := F)

noncomputable def t1_p9 : Prog (TpuEff nD τ sig (Elt F) (Pipeline.Sig Λ₀ (Fin 0) fun p => (pcfgs (F := F) p).Adm) .tc) PUnit := do
  hlo rfl (StableHlo.unary main_c_21 main_v57 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v49 main_v57 main_v58 (addi : (⟨S128x2048, .i32⟩ : BufTy).Contents (Elt F) → (⟨S128x2048, .i32⟩ : BufTy).Contents (Elt F) → (⟨S128x2048, .i32⟩ : BufTy).Contents (Elt F))) (fun _ => .ret ⟨⟩)
  hlo rfl (StableHlo.ternary main_v56 main_v58 main_v49 main_v59 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F))) (fun _ => .ret ⟨⟩)
  t1_p10 (F := F)

noncomputable def t1_p8 : Prog (TpuEff nD τ sig (Elt F) (Pipeline.Sig Λ₀ (Fin 0) fun p => (pcfgs (F := F) p).Adm) .tc) PUnit := do
  hlo rfl (StableHlo.unary main_c_20 main_v55 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v49 main_v55 main_v56 (cmpi .slt : (⟨S128x2048, .i32⟩ : BufTy).Contents (Elt F) → (⟨S128x2048, .i32⟩ : BufTy).Contents (Elt F) → (⟨S128x2048, .i1⟩ : BufTy).Contents (Elt F))) (fun _ => .ret ⟨⟩)
  hlo rfl (StableHlo.nullary main_c_21 (constantI S_ 32 64#32)) (fun _ => .ret ⟨⟩)
  t1_p9 (F := F)

noncomputable def t1_p7 : Prog (TpuEff nD τ sig (Elt F) (Pipeline.Sig Λ₀ (Fin 0) fun p => (pcfgs (F := F) p).Adm) .tc) PUnit := do
  hlo rfl (StableHlo.binary main_v48 main_v52 main_v53 (addi : (⟨S128x2048, .i32⟩ : BufTy).Contents (Elt F) → (⟨S128x2048, .i32⟩ : BufTy).Contents (Elt F) → (⟨S128x2048, .i32⟩ : BufTy).Contents (Elt F))) (fun _ => .ret ⟨⟩)
  hlo rfl (StableHlo.ternary main_v51 main_v53 main_v48 main_v54 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F))) (fun _ => .ret ⟨⟩)
  hlo rfl (StableHlo.nullary main_c_20 (constantI S_ 32 0#32)) (fun _ => .ret ⟨⟩)
  t1_p8 (F := F)

noncomputable def t1_p6 : Prog (TpuEff nD τ sig (Elt F) (Pipeline.Sig Λ₀ (Fin 0) fun p => (pcfgs (F := F) p).Adm) .tc) PUnit := do
  hlo rfl (StableHlo.nullary main_c_19 (constantI S_ 32 64#32)) (fun _ => .ret ⟨⟩)
  hlo rfl (StableHlo.unary main_c_19 main_v52 (broadcastInDim S128x2048 ![] bcast_S_S128x2048 : (⟨S_, .i32⟩ : BufTy).Contents (Elt F) → (⟨S128x2048, .i32⟩ : BufTy).Contents (Elt F))) (fun _ => .ret ⟨⟩)
  t1_p7 (F := F)

noncomputable def t1_p5 : Prog (TpuEff nD τ sig (Elt F) (Pipeline.Sig Λ₀ (Fin 0) fun p => (pcfgs (F := F) p).Adm) .tc) PUnit := do
  hlo rfl (StableHlo.nullary main_c_18 (constantI S_ 32 0#32)) (fun _ => .ret ⟨⟩)
  hlo rfl (StableHlo.unary main_c_18 main_v50 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v48 main_v50 main_v51 (cmpi .slt : (⟨S128x2048, .i32⟩ : BufTy).Contents (Elt F) → (⟨S128x2048, .i32⟩ : BufTy).Contents (Elt F) → (⟨S128x2048, .i1⟩ : BufTy).Contents (Elt F))) (fun _ => .ret ⟨⟩)
  t1_p6 (F := F)

noncomputable def t1_p4 : Prog (TpuEff nD τ sig (Elt F) (Pipeline.Sig Λ₀ (Fin 0) fun p => (pcfgs (F := F) p).Adm) .tc) PUnit := do
  fn_clip_0.body (.of main_v29) (.of main_c_16) (.of main_c_17) main_call2
  t1_p5 (F := F)

noncomputable def t1_p3 : Prog (TpuEff nD τ sig (Elt F) (Pipeline.Sig Λ₀ (Fin 0) fun p => (pcfgs (F := F) p).Adm) .tc) PUnit := do
  hlo rfl (StableHlo.nullary main_c_16 (constantI S_ 32 0#32)) (fun _ => .ret ⟨⟩)
  hlo rfl (StableHlo.nullary main_c_17 (constantI S_ 32 63#32)) (fun _ => .ret ⟨⟩)
  t1_p4 (F := F)

noncomputable def t1_p2 : Prog (TpuEff nD τ sig (Elt F) (Pipeline.Sig Λ₀ (Fin 0) fun p => (pcfgs (F := F) p).Adm) .tc) PUnit := do
  fn_clip_0.body (.of main_v30) (.of main_c_14) (.of main_c_15) main_call1
  t1_p3 (F := F)

noncomputable def t1_p1 : Prog (TpuEff nD τ sig (Elt F) (Pipeline.Sig Λ₀ (Fin 0) fun p => (pcfgs (F := F) p).Adm) .tc) PUnit := do
  hlo rfl (StableHlo.unary main_v46 main_v47 (uitofp .f32 : (⟨S128x2048, .i1⟩ : BufTy).Contents (Elt F) → (⟨S128x2048, .f32⟩ : BufTy).Contents (Elt F))) (fun _ => .ret ⟨⟩)
  hlo rfl (StableHlo.nullary main_c_14 (constantI S_ 32 0#32)) (fun _ => .ret ⟨⟩)
  hlo rfl (StableHlo.nullary main_c_15 (constantI S_ 32 63#32)) (fun _ => .ret ⟨⟩)
  t1_p2 (F := F)

theorem main_part1_chain (d : Dev nD) : main_part1 (F := F) d = (Pipeline.chainK
  [ seq c3_0 ]
  (t1_p1 (F := F)) : Prog (TpuEff nD τ sig (Elt F) (Pipeline.Sig Λ₀ (Fin 0) fun p => (pcfgs (F := F) p).Adm) .tc) PUnit) := by
  chain_rfl

theorem t1_p1_eq : t1_p1 (F := F) = (Pipeline.chainK
  [ seq c3_1 ]
  (t1_p2 (F := F)) : Prog (TpuEff nD τ sig (Elt F) (Pipeline.Sig Λ₀ (Fin 0) fun p => (pcfgs (F := F) p).Adm) .tc) PUnit) := by
  chain_rfl

theorem t1_p2_eq : t1_p2 (F := F) = (Pipeline.chainK
  [ seq c3_2 ]
  (t1_p3 (F := F)) : Prog (TpuEff nD τ sig (Elt F) (Pipeline.Sig Λ₀ (Fin 0) fun p => (pcfgs (F := F) p).Adm) .tc) PUnit) := by
  chain_rfl

theorem t1_p3_eq : t1_p3 (F := F) = (Pipeline.chainK
  [ seq c3_3 ]
  (t1_p4 (F := F)) : Prog (TpuEff nD τ sig (Elt F) (Pipeline.Sig Λ₀ (Fin 0) fun p => (pcfgs (F := F) p).Adm) .tc) PUnit) := by
  chain_rfl

theorem t1_p4_eq : t1_p4 (F := F) = (Pipeline.chainK
  [ seq c3_4 ]
  (t1_p5 (F := F)) : Prog (TpuEff nD τ sig (Elt F) (Pipeline.Sig Λ₀ (Fin 0) fun p => (pcfgs (F := F) p).Adm) .tc) PUnit) := by
  chain_rfl

theorem t1_p5_eq : t1_p5 (F := F) = (Pipeline.chainK
  [ seq c3_5 ]
  (t1_p6 (F := F)) : Prog (TpuEff nD τ sig (Elt F) (Pipeline.Sig Λ₀ (Fin 0) fun p => (pcfgs (F := F) p).Adm) .tc) PUnit) := by
  chain_rfl

theorem t1_p6_eq : t1_p6 (F := F) = (Pipeline.chainK
  [ seq c3_6 ]
  (t1_p7 (F := F)) : Prog (TpuEff nD τ sig (Elt F) (Pipeline.Sig Λ₀ (Fin 0) fun p => (pcfgs (F := F) p).Adm) .tc) PUnit) := by
  chain_rfl

theorem t1_p7_eq : t1_p7 (F := F) = (Pipeline.chainK
  [ seq c4_0 ]
  (t1_p8 (F := F)) : Prog (TpuEff nD τ sig (Elt F) (Pipeline.Sig Λ₀ (Fin 0) fun p => (pcfgs (F := F) p).Adm) .tc) PUnit) := by
  chain_rfl

theorem t1_p8_eq : t1_p8 (F := F) = (Pipeline.chainK
  [ seq c4_1 ]
  (t1_p9 (F := F)) : Prog (TpuEff nD τ sig (Elt F) (Pipeline.Sig Λ₀ (Fin 0) fun p => (pcfgs (F := F) p).Adm) .tc) PUnit) := by
  chain_rfl

theorem t1_p9_eq : t1_p9 (F := F) = (Pipeline.chainK
  [ seq c4_2 ]
  (t1_p10 (F := F)) : Prog (TpuEff nD τ sig (Elt F) (Pipeline.Sig Λ₀ (Fin 0) fun p => (pcfgs (F := F) p).Adm) .tc) PUnit) := by
  chain_rfl

theorem t1_p10_eq : t1_p10 (F := F) = (Pipeline.chainK
  [ seq c4_3 ]
  (t1_p11 (F := F)) : Prog (TpuEff nD τ sig (Elt F) (Pipeline.Sig Λ₀ (Fin 0) fun p => (pcfgs (F := F) p).Adm) .tc) PUnit) := by
  chain_rfl

theorem t1_p11_eq : t1_p11 (F := F) = (Pipeline.chainK
  [ seq c4_4 ]
  (t1_p12 (F := F)) : Prog (TpuEff nD τ sig (Elt F) (Pipeline.Sig Λ₀ (Fin 0) fun p => (pcfgs (F := F) p).Adm) .tc) PUnit) := by
  chain_rfl

theorem t1_p12_eq : t1_p12 (F := F) = (Pipeline.chainK
  [ seq c4_5 ]
  (t1_p13 (F := F)) : Prog (TpuEff nD τ sig (Elt F) (Pipeline.Sig Λ₀ (Fin 0) fun p => (pcfgs (F := F) p).Adm) .tc) PUnit) := by
  chain_rfl

theorem t1_p13_eq : t1_p13 (F := F) = (Pipeline.chainK
  [ seq c4_6 ]
  (t1_p14 (F := F)) : Prog (TpuEff nD τ sig (Elt F) (Pipeline.Sig Λ₀ (Fin 0) fun p => (pcfgs (F := F) p).Adm) .tc) PUnit) := by
  chain_rfl

theorem t1_p14_eq : t1_p14 (F := F) = (Pipeline.chainK
  [ seq c4_7 ]
  (t1_p15 (F := F)) : Prog (TpuEff nD τ sig (Elt F) (Pipeline.Sig Λ₀ (Fin 0) fun p => (pcfgs (F := F) p).Adm) .tc) PUnit) := by
  chain_rfl

theorem t1_p15_eq : t1_p15 (F := F) = (Pipeline.chainK
  [ seq c4_8 ]
  (t1_p16 (F := F)) : Prog (TpuEff nD τ sig (Elt F) (Pipeline.Sig Λ₀ (Fin 0) fun p => (pcfgs (F := F) p).Adm) .tc) PUnit) := by
  chain_rfl

theorem t1_p16_eq : t1_p16 (F := F) = (Pipeline.chainK
  [ seq c5_0 ]
  (t1_p17 (F := F)) : Prog (TpuEff nD τ sig (Elt F) (Pipeline.Sig Λ₀ (Fin 0) fun p => (pcfgs (F := F) p).Adm) .tc) PUnit) := by
  chain_rfl

theorem t1_p17_eq : t1_p17 (F := F) = (Pipeline.chainK
  [ seq c5_1 ]
  (t1_p18 (F := F)) : Prog (TpuEff nD τ sig (Elt F) (Pipeline.Sig Λ₀ (Fin 0) fun p => (pcfgs (F := F) p).Adm) .tc) PUnit) := by
  chain_rfl

theorem t1_p18_eq : t1_p18 (F := F) = (Pipeline.chainK
  [ seq c5_2 ]
  (t1_p19 (F := F)) : Prog (TpuEff nD τ sig (Elt F) (Pipeline.Sig Λ₀ (Fin 0) fun p => (pcfgs (F := F) p).Adm) .tc) PUnit) := by
  chain_rfl

theorem t1_p19_eq : t1_p19 (F := F) = (Pipeline.chainK
  [ seq c5_3 ]
  (t1_p20 (F := F)) : Prog (TpuEff nD τ sig (Elt F) (Pipeline.Sig Λ₀ (Fin 0) fun p => (pcfgs (F := F) p).Adm) .tc) PUnit) := by
  chain_rfl

theorem t1_p20_eq : t1_p20 (F := F) = (Pipeline.chainK
  [ seq c5_4 ]
  (t1_p21 (F := F)) : Prog (TpuEff nD τ sig (Elt F) (Pipeline.Sig Λ₀ (Fin 0) fun p => (pcfgs (F := F) p).Adm) .tc) PUnit) := by
  chain_rfl

theorem t1_p21_eq : t1_p21 (F := F) = (Pipeline.chainK
  [ seq c5_5 ]
  (t1_p22 (F := F)) : Prog (TpuEff nD τ sig (Elt F) (Pipeline.Sig Λ₀ (Fin 0) fun p => (pcfgs (F := F) p).Adm) .tc) PUnit) := by
  chain_rfl

theorem t1_p22_eq : t1_p22 (F := F) = (Pipeline.chainK
  [ seq c5_6 ]
  (t1_p23 (F := F)) : Prog (TpuEff nD τ sig (Elt F) (Pipeline.Sig Λ₀ (Fin 0) fun p => (pcfgs (F := F) p).Adm) .tc) PUnit) := by
  chain_rfl

theorem t1_p23_eq : t1_p23 (F := F) = (Pipeline.chainK
  [  ]
  (seq c5_7) : Prog (TpuEff nD τ sig (Elt F) (Pipeline.Sig Λ₀ (Fin 0) fun p => (pcfgs (F := F) p).Adm) .tc) PUnit) := by
  chain_rfl

theorem main_part1_eq (d : Dev nD) : main_part1 (F := F) d = (seq w1 : Prog (TpuEff nD τ sig (Elt F) (Pipeline.Sig Λ₀ (Fin 0) fun p => (pcfgs (F := F) p).Adm) .tc) PUnit) := by
  rw [main_part1_chain d, t1_p1_eq, t1_p2_eq, t1_p3_eq, t1_p4_eq, t1_p5_eq, t1_p6_eq, t1_p7_eq, t1_p8_eq, t1_p9_eq, t1_p10_eq, t1_p11_eq, t1_p12_eq, t1_p13_eq, t1_p14_eq, t1_p15_eq, t1_p16_eq, t1_p17_eq, t1_p18_eq, t1_p19_eq, t1_p20_eq, t1_p21_eq, t1_p22_eq, t1_p23_eq]
  simp only [w1, c3, c4, c5, Pipeline.chainK, seq_append, bind_assoc]

end Cert.ReferenceIdeal.RefRunGen

end
-- ==== Proof.RefRunGen.P2.lean ====
import proofs.«416765_j9792525435349_4_alg».proof.Proof.RefRunGen.Ok
import Idealize.ShloMosaic.Lib.Pipeline.Regions

noncomputable section

namespace Cert.ReferenceIdeal.RefRunGen

open Cert.ReferenceIdeal Cert.ReferenceIdeal.Gen Idealize.ShloMosaic Idealize.ShloMosaic.TcCoe Idealize.SL.Sem Idealize.ShloMosaic.StableHlo

variable {F : FTy → Type} [FloatOps F]

abbrev c6_0 : List (HloOp τ sig (Elt F)) :=
  [ TRef.unary (TRef.of (T := ⟨S_, .i32⟩) main_c_30) (TRef.of (T := ⟨S_, .i32⟩) main_call4_v0) id,
    TRef.unary (TRef.of (T := ⟨S_, .i32⟩) main_call4_v0) (TRef.of (T := ⟨S128x2048, .i32⟩) main_call4_v1) (broadcastInDim S128x2048 ![] bcast_S_S128x2048),
    TRef.binary (TRef.of (T := ⟨S128x2048, .i32⟩) main_call4_v1) (TRef.of (T := ⟨S128x2048, .i32⟩) main_v69) (TRef.of (T := ⟨S128x2048, .i32⟩) main_call4_v2) maxsi,
    TRef.unary (TRef.of (T := ⟨S_, .i32⟩) main_c_31) (TRef.of (T := ⟨S_, .i32⟩) main_call4_v3) id,
    TRef.unary (TRef.of (T := ⟨S_, .i32⟩) main_call4_v3) (TRef.of (T := ⟨S128x2048, .i32⟩) main_call4_v4) (broadcastInDim S128x2048 ![] bcast_S_S128x2048),
    TRef.binary (TRef.of (T := ⟨S128x2048, .i32⟩) main_call4_v4) (TRef.of (T := ⟨S128x2048, .i32⟩) main_call4_v2) (TRef.of (T := ⟨S128x2048, .i32⟩) main_v86) minsi ]

theorem c6_0_ok : Ok (F := F) c6_0 :=
  ⟨⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩⟩

abbrev c6_1 : List (HloOp τ sig (Elt F)) :=
  [ nullary main_c_32 (constantI S_ 32 0#32),
    unary main_c_32 main_v87 (broadcastInDim S128x2048 ![] bcast_S_S128x2048 : (⟨S_, .i32⟩ : BufTy).Contents (Elt F) → (⟨S128x2048, .i32⟩ : BufTy).Contents (Elt F)),
    binary main_v85 main_v87 main_v88 (cmpi .slt : (⟨S128x2048, .i32⟩ : BufTy).Contents (Elt F) → (⟨S128x2048, .i32⟩ : BufTy).Contents (Elt F) → (⟨S128x2048, .i1⟩ : BufTy).Contents (Elt F)) ]

theorem c6_1_ok : Ok (F := F) c6_1 :=
  ⟨⟨nullary_bufs_sub .., rfl⟩, ⟨unary_bufs_sub .., rfl⟩, ⟨binary_bufs_sub .., rfl⟩⟩

abbrev c6_2 : List (HloOp τ sig (Elt F)) :=
  [ nullary main_c_33 (constantI S_ 32 64#32),
    unary main_c_33 main_v89 (broadcastInDim S128x2048 ![] bcast_S_S128x2048 : (⟨S_, .i32⟩ : BufTy).Contents (Elt F) → (⟨S128x2048, .i32⟩ : BufTy).Contents (Elt F)),
    binary main_v85 main_v89 main_v90 (addi : (⟨S128x2048, .i32⟩ : BufTy).Contents (Elt F) → (⟨S128x2048, .i32⟩ : BufTy).Contents (Elt F) → (⟨S128x2048, .i32⟩ : BufTy).Contents (Elt F)) ]

theorem c6_2_ok : Ok (F := F) c6_2 :=
  ⟨⟨nullary_bufs_sub .., rfl⟩, ⟨unary_bufs_sub .., rfl⟩, ⟨binary_bufs_sub .., rfl⟩⟩

abbrev c6_3 : List (HloOp τ sig (Elt F)) :=
  [ ternary main_v88 main_v90 main_v85 main_v91 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F)),
    nullary main_c_34 (constantI S_ 32 0#32),
    unary main_c_34 main_v92 (broadcastInDim S128x2048 ![] bcast_S_S128x2048 : (⟨S_, .i32⟩ : BufTy).Contents (Elt F) → (⟨S128x2048, .i32⟩ : BufTy).Contents (Elt F)) ]

theorem c6_3_ok : Ok (F := F) c6_3 :=
  ⟨⟨ternary_bufs_sub .., rfl⟩, ⟨nullary_bufs_sub .., rfl⟩, ⟨unary_bufs_sub .., rfl⟩⟩

abbrev c6_4 : List (HloOp τ sig (Elt F)) :=
  [ binary main_v86 main_v92 main_v93 (cmpi .slt : (⟨S128x2048, .i32⟩ : BufTy).Contents (Elt F) → (⟨S128x2048, .i32⟩ : BufTy).Contents (Elt F) → (⟨S128x2048, .i1⟩ : BufTy).Contents (Elt F)),
    nullary main_c_35 (constantI S_ 32 64#32),
    unary main_c_35 main_v94 (broadcastInDim S128x2048 ![] bcast_S_S128x2048 : (⟨S_, .i32⟩ : BufTy).Contents (Elt F) → (⟨S128x2048, .i32⟩ : BufTy).Contents (Elt F)) ]

theorem c6_4_ok : Ok (F := F) c6_4 :=
  ⟨⟨binary_bufs_sub .., rfl⟩, ⟨nullary_bufs_sub .., rfl⟩, ⟨unary_bufs_sub .., rfl⟩⟩

abbrev c6_5 : List (HloOp τ sig (Elt F)) :=
  [ binary main_v86 main_v94 main_v95 (addi : (⟨S128x2048, .i32⟩ : BufTy).Contents (Elt F) → (⟨S128x2048, .i32⟩ : BufTy).Contents (Elt F) → (⟨S128x2048, .i32⟩ : BufTy).Contents (Elt F)),
    ternary main_v93 main_v95 main_v86 main_v96 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F)),
    unary main_v91 main_v97 (broadcastInDim S128x2048x1 ![0, 1] bcast_S128x2048_S128x2048x1_0_1 : (⟨S128x2048, .i32⟩ : BufTy).Contents (Elt F) → (⟨S128x2048x1, .i32⟩ : BufTy).Contents (Elt F)) ]

theorem c6_5_ok : Ok (F := F) c6_5 :=
  ⟨⟨binary_bufs_sub .., rfl⟩, ⟨ternary_bufs_sub .., rfl⟩, ⟨unary_bufs_sub .., rfl⟩⟩

abbrev c6_6 : List (HloOp τ sig (Elt F)) :=
  [ unary main_v96 main_v98 (broadcastInDim S128x2048x1 ![0, 1] bcast_S128x2048_S128x2048x1_0_1 : (⟨S128x2048, .i32⟩ : BufTy).Contents (Elt F) → (⟨S128x2048x1, .i32⟩ : BufTy).Contents (Elt F)),
    binary main_v97 main_v98 main_v99 ((fun a b => concatenate S128x2048x2 2 [⟨S128x2048x1, a⟩, ⟨S128x2048x1, b⟩] concatenates_S128x2048x1_S128x2048x1_S128x2048x2_d2) : (⟨S128x2048x1, .i32⟩ : BufTy).Contents (Elt F) → (⟨S128x2048x1, .i32⟩ : BufTy).Contents (Elt F) → (⟨S128x2048x2, .i32⟩ : BufTy).Contents (Elt F)),
    binary main_v4 main_v99 main_v100 ((fun x i => Host.gather gather_S128x64x64x64_S128x2048x2_S128x64x2048_1_23_0_0_23_2_16411 x i) : (⟨S128x64x64x64, .f32⟩ : BufTy).Contents (Elt F) → (⟨S128x2048x2, .i32⟩ : BufTy).Contents (Elt F) → (⟨S128x64x2048, .f32⟩ : BufTy).Contents (Elt F)) ]

theorem c6_6_ok : Ok (F := F) c6_6 :=
  ⟨⟨unary_bufs_sub .., rfl⟩, ⟨binary_bufs_sub .., rfl⟩, ⟨binary_bufs_sub .., rfl⟩⟩

abbrev c6_7 : List (HloOp τ sig (Elt F)) :=
  [ binary main_v72 main_v84 main_v101 (mulf : (⟨S128x2048, .f32⟩ : BufTy).Contents (Elt F) → (⟨S128x2048, .f32⟩ : BufTy).Contents (Elt F) → (⟨S128x2048, .f32⟩ : BufTy).Contents (Elt F)) ]

theorem c6_7_ok : Ok (F := F) c6_7 :=
  ⟨binary_bufs_sub .., rfl⟩

abbrev c7_0 : List (HloOp τ sig (Elt F)) :=
  [ unary main_v101 main_v102 (broadcastInDim S128x1x2048 ![0, 2] bcast_S128x2048_S128x1x2048_0_2 : (⟨S128x2048, .f32⟩ : BufTy).Contents (Elt F) → (⟨S128x1x2048, .f32⟩ : BufTy).Contents (Elt F)),
    unary main_v102 main_v103 (broadcastInDim S128x64x2048 ![0, 1, 2] bcast_S128x1x2048_S128x64x2048_0_1_2 : (⟨S128x1x2048, .f32⟩ : BufTy).Contents (Elt F) → (⟨S128x64x2048, .f32⟩ : BufTy).Contents (Elt F)),
    binary main_v100 main_v103 main_v104 (mulf : (⟨S128x64x2048, .f32⟩ : BufTy).Contents (Elt F) → (⟨S128x64x2048, .f32⟩ : BufTy).Contents (Elt F) → (⟨S128x64x2048, .f32⟩ : BufTy).Contents (Elt F)) ]

theorem c7_0_ok : Ok (F := F) c7_0 :=
  ⟨⟨unary_bufs_sub .., rfl⟩, ⟨unary_bufs_sub .., rfl⟩, ⟨binary_bufs_sub .., rfl⟩⟩

abbrev c7_1 : List (HloOp τ sig (Elt F)) :=
  [ binary main_v67 main_v104 main_v105 (addf : (⟨S128x64x2048, .f32⟩ : BufTy).Contents (Elt F) → (⟨S128x64x2048, .f32⟩ : BufTy).Contents (Elt F) → (⟨S128x64x2048, .f32⟩ : BufTy).Contents (Elt F)),
    nullary main_c_36 (constantI S_ 32 1#32),
    unary main_c_36 main_v106 (broadcastInDim S128x2048 ![] bcast_S_S128x2048 : (⟨S_, .i32⟩ : BufTy).Contents (Elt F) → (⟨S128x2048, .i32⟩ : BufTy).Contents (Elt F)) ]

theorem c7_1_ok : Ok (F := F) c7_1 :=
  ⟨⟨binary_bufs_sub .., rfl⟩, ⟨nullary_bufs_sub .., rfl⟩, ⟨unary_bufs_sub .., rfl⟩⟩

abbrev c7_2 : List (HloOp τ sig (Elt F)) :=
  [ binary main_v30 main_v106 main_v107 (addi : (⟨S128x2048, .i32⟩ : BufTy).Contents (Elt F) → (⟨S128x2048, .i32⟩ : BufTy).Contents (Elt F) → (⟨S128x2048, .i32⟩ : BufTy).Contents (Elt F)),
    nullary main_cst_37 (constant S_ .f32 0x3F800000#32),
    unary main_cst_37 main_v108 (broadcastInDim S128x2048 ![] bcast_S_S128x2048 : (⟨S_, .f32⟩ : BufTy).Contents (Elt F) → (⟨S128x2048, .f32⟩ : BufTy).Contents (Elt F)) ]

theorem c7_2_ok : Ok (F := F) c7_2 :=
  ⟨⟨binary_bufs_sub .., rfl⟩, ⟨nullary_bufs_sub .., rfl⟩, ⟨unary_bufs_sub .., rfl⟩⟩

abbrev c7_3 : List (HloOp τ sig (Elt F)) :=
  [ binary main_v108 main_v27 main_v109 (subf : (⟨S128x2048, .f32⟩ : BufTy).Contents (Elt F) → (⟨S128x2048, .f32⟩ : BufTy).Contents (Elt F) → (⟨S128x2048, .f32⟩ : BufTy).Contents (Elt F)),
    binary main_v28 main_v109 main_v110 (mulf : (⟨S128x2048, .f32⟩ : BufTy).Contents (Elt F) → (⟨S128x2048, .f32⟩ : BufTy).Contents (Elt F) → (⟨S128x2048, .f32⟩ : BufTy).Contents (Elt F)),
    nullary main_c_38 (constantI S_ 32 0#32) ]

theorem c7_3_ok : Ok (F := F) c7_3 :=
  ⟨⟨binary_bufs_sub .., rfl⟩, ⟨binary_bufs_sub .., rfl⟩, ⟨nullary_bufs_sub .., rfl⟩⟩

abbrev c7_4 : List (HloOp τ sig (Elt F)) :=
  [ unary main_c_38 main_v111 (broadcastInDim S128x2048 ![] bcast_S_S128x2048 : (⟨S_, .i32⟩ : BufTy).Contents (Elt F) → (⟨S128x2048, .i32⟩ : BufTy).Contents (Elt F)),
    binary main_v107 main_v111 main_v112 (cmpi .sge : (⟨S128x2048, .i32⟩ : BufTy).Contents (Elt F) → (⟨S128x2048, .i32⟩ : BufTy).Contents (Elt F) → (⟨S128x2048, .i1⟩ : BufTy).Contents (Elt F)),
    nullary main_c_39 (constantI S_ 32 64#32) ]

theorem c7_4_ok : Ok (F := F) c7_4 :=
  ⟨⟨unary_bufs_sub .., rfl⟩, ⟨binary_bufs_sub .., rfl⟩, ⟨nullary_bufs_sub .., rfl⟩⟩

abbrev c7_5 : List (HloOp τ sig (Elt F)) :=
  [ unary main_c_39 main_v113 (broadcastInDim S128x2048 ![] bcast_S_S128x2048 : (⟨S_, .i32⟩ : BufTy).Contents (Elt F) → (⟨S128x2048, .i32⟩ : BufTy).Contents (Elt F)),
    binary main_v107 main_v113 main_v114 (cmpi .slt : (⟨S128x2048, .i32⟩ : BufTy).Contents (Elt F) → (⟨S128x2048, .i32⟩ : BufTy).Contents (Elt F) → (⟨S128x2048, .i1⟩ : BufTy).Contents (Elt F)),
    binary main_v112 main_v114 main_v115 (andi : (⟨S128x2048, .i1⟩ : BufTy).Contents (Elt F) → (⟨S128x2048, .i1⟩ : BufTy).Contents (Elt F) → (⟨S128x2048, .i1⟩ : BufTy).Contents (Elt F)) ]

theorem c7_5_ok : Ok (F := F) c7_5 :=
  ⟨⟨unary_bufs_sub .., rfl⟩, ⟨binary_bufs_sub .., rfl⟩, ⟨binary_bufs_sub .., rfl⟩⟩

abbrev c7_6 : List (HloOp τ sig (Elt F)) :=
  [ nullary main_c_40 (constantI S_ 32 0#32),
    unary main_c_40 main_v116 (broadcastInDim S128x2048 ![] bcast_S_S128x2048 : (⟨S_, .i32⟩ : BufTy).Contents (Elt F) → (⟨S128x2048, .i32⟩ : BufTy).Contents (Elt F)),
    binary main_v29 main_v116 main_v117 (cmpi .sge : (⟨S128x2048, .i32⟩ : BufTy).Contents (Elt F) → (⟨S128x2048, .i32⟩ : BufTy).Contents (Elt F) → (⟨S128x2048, .i1⟩ : BufTy).Contents (Elt F)) ]

theorem c7_6_ok : Ok (F := F) c7_6 :=
  ⟨⟨nullary_bufs_sub .., rfl⟩, ⟨unary_bufs_sub .., rfl⟩, ⟨binary_bufs_sub .., rfl⟩⟩

abbrev c7_7 : List (HloOp τ sig (Elt F)) :=
  [ binary main_v115 main_v117 main_v118 (andi : (⟨S128x2048, .i1⟩ : BufTy).Contents (Elt F) → (⟨S128x2048, .i1⟩ : BufTy).Contents (Elt F) → (⟨S128x2048, .i1⟩ : BufTy).Contents (Elt F)),
    nullary main_c_41 (constantI S_ 32 64#32),
    unary main_c_41 main_v119 (broadcastInDim S128x2048 ![] bcast_S_S128x2048 : (⟨S_, .i32⟩ : BufTy).Contents (Elt F) → (⟨S128x2048, .i32⟩ : BufTy).Contents (Elt F)) ]

theorem c7_7_ok : Ok (F := F) c7_7 :=
  ⟨⟨binary_bufs_sub .., rfl⟩, ⟨nullary_bufs_sub .., rfl⟩, ⟨unary_bufs_sub .., rfl⟩⟩

abbrev c7_8 : List (HloOp τ sig (Elt F)) :=
  [ binary main_v29 main_v119 main_v120 (cmpi .slt : (⟨S128x2048, .i32⟩ : BufTy).Contents (Elt F) → (⟨S128x2048, .i32⟩ : BufTy).Contents (Elt F) → (⟨S128x2048, .i1⟩ : BufTy).Contents (Elt F)) ]

theorem c7_8_ok : Ok (F := F) c7_8 :=
  ⟨binary_bufs_sub .., rfl⟩

abbrev c8_0 : List (HloOp τ sig (Elt F)) :=
  [ binary main_v118 main_v120 main_v121 (andi : (⟨S128x2048, .i1⟩ : BufTy).Contents (Elt F) → (⟨S128x2048, .i1⟩ : BufTy).Contents (Elt F) → (⟨S128x2048, .i1⟩ : BufTy).Contents (Elt F)),
    unary main_v121 main_v122 (uitofp .f32 : (⟨S128x2048, .i1⟩ : BufTy).Contents (Elt F) → (⟨S128x2048, .f32⟩ : BufTy).Contents (Elt F)),
    nullary main_c_42 (constantI S_ 32 0#32) ]

theorem c8_0_ok : Ok (F := F) c8_0 :=
  ⟨⟨binary_bufs_sub .., rfl⟩, ⟨unary_bufs_sub .., rfl⟩, ⟨nullary_bufs_sub .., rfl⟩⟩

abbrev c8_1 : List (HloOp τ sig (Elt F)) :=
  [ nullary main_c_43 (constantI S_ 32 63#32) ]

theorem c8_1_ok : Ok (F := F) c8_1 :=
  ⟨nullary_bufs_sub .., rfl⟩

abbrev c8_2 : List (HloOp τ sig (Elt F)) :=
  [ TRef.unary (TRef.of (T := ⟨S_, .i32⟩) main_c_42) (TRef.of (T := ⟨S_, .i32⟩) main_call5_v0) id,
    TRef.unary (TRef.of (T := ⟨S_, .i32⟩) main_call5_v0) (TRef.of (T := ⟨S128x2048, .i32⟩) main_call5_v1) (broadcastInDim S128x2048 ![] bcast_S_S128x2048),
    TRef.binary (TRef.of (T := ⟨S128x2048, .i32⟩) main_call5_v1) (TRef.of (T := ⟨S128x2048, .i32⟩) main_v107) (TRef.of (T := ⟨S128x2048, .i32⟩) main_call5_v2) maxsi,
    TRef.unary (TRef.of (T := ⟨S_, .i32⟩) main_c_43) (TRef.of (T := ⟨S_, .i32⟩) main_call5_v3) id,
    TRef.unary (TRef.of (T := ⟨S_, .i32⟩) main_call5_v3) (TRef.of (T := ⟨S128x2048, .i32⟩) main_call5_v4) (broadcastInDim S128x2048 ![] bcast_S_S128x2048),
    TRef.binary (TRef.of (T := ⟨S128x2048, .i32⟩) main_call5_v4) (TRef.of (T := ⟨S128x2048, .i32⟩) main_call5_v2) (TRef.of (T := ⟨S128x2048, .i32⟩) main_v123) minsi ]

theorem c8_2_ok : Ok (F := F) c8_2 :=
  ⟨⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩⟩

abbrev c8_3 : List (HloOp τ sig (Elt F)) :=
  [ nullary main_c_44 (constantI S_ 32 0#32),
    nullary main_c_45 (constantI S_ 32 63#32) ]

theorem c8_3_ok : Ok (F := F) c8_3 :=
  ⟨⟨nullary_bufs_sub .., rfl⟩, ⟨nullary_bufs_sub .., rfl⟩⟩

abbrev c8_4 : List (HloOp τ sig (Elt F)) :=
  [ TRef.unary (TRef.of (T := ⟨S_, .i32⟩) main_c_44) (TRef.of (T := ⟨S_, .i32⟩) main_call6_v0) id,
    TRef.unary (TRef.of (T := ⟨S_, .i32⟩) main_call6_v0) (TRef.of (T := ⟨S128x2048, .i32⟩) main_call6_v1) (broadcastInDim S128x2048 ![] bcast_S_S128x2048),
    TRef.binary (TRef.of (T := ⟨S128x2048, .i32⟩) main_call6_v1) (TRef.of (T := ⟨S128x2048, .i32⟩) main_v29) (TRef.of (T := ⟨S128x2048, .i32⟩) main_call6_v2) maxsi,
    TRef.unary (TRef.of (T := ⟨S_, .i32⟩) main_c_45) (TRef.of (T := ⟨S_, .i32⟩) main_call6_v3) id,
    TRef.unary (TRef.of (T := ⟨S_, .i32⟩) main_call6_v3) (TRef.of (T := ⟨S128x2048, .i32⟩) main_call6_v4) (broadcastInDim S128x2048 ![] bcast_S_S128x2048),
    TRef.binary (TRef.of (T := ⟨S128x2048, .i32⟩) main_call6_v4) (TRef.of (T := ⟨S128x2048, .i32⟩) main_call6_v2) (TRef.of (T := ⟨S128x2048, .i32⟩) main_v124) minsi ]

theorem c8_4_ok : Ok (F := F) c8_4 :=
  ⟨⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩⟩

abbrev c8_5 : List (HloOp τ sig (Elt F)) :=
  [ nullary main_c_46 (constantI S_ 32 0#32),
    unary main_c_46 main_v125 (broadcastInDim S128x2048 ![] bcast_S_S128x2048 : (⟨S_, .i32⟩ : BufTy).Contents (Elt F) → (⟨S128x2048, .i32⟩ : BufTy).Contents (Elt F)),
    binary main_v123 main_v125 main_v126 (cmpi .slt : (⟨S128x2048, .i32⟩ : BufTy).Contents (Elt F) → (⟨S128x2048, .i32⟩ : BufTy).Contents (Elt F) → (⟨S128x2048, .i1⟩ : BufTy).Contents (Elt F)) ]

theorem c8_5_ok : Ok (F := F) c8_5 :=
  ⟨⟨nullary_bufs_sub .., rfl⟩, ⟨unary_bufs_sub .., rfl⟩, ⟨binary_bufs_sub .., rfl⟩⟩

abbrev c8_6 : List (HloOp τ sig (Elt F)) :=
  [ nullary main_c_47 (constantI S_ 32 64#32),
    unary main_c_47 main_v127 (broadcastInDim S128x2048 ![] bcast_S_S128x2048 : (⟨S_, .i32⟩ : BufTy).Contents (Elt F) → (⟨S128x2048, .i32⟩ : BufTy).Contents (Elt F)),
    binary main_v123 main_v127 main_v128 (addi : (⟨S128x2048, .i32⟩ : BufTy).Contents (Elt F) → (⟨S128x2048, .i32⟩ : BufTy).Contents (Elt F) → (⟨S128x2048, .i32⟩ : BufTy).Contents (Elt F)) ]

theorem c8_6_ok : Ok (F := F) c8_6 :=
  ⟨⟨nullary_bufs_sub .., rfl⟩, ⟨unary_bufs_sub .., rfl⟩, ⟨binary_bufs_sub .., rfl⟩⟩

abbrev c8_7 : List (HloOp τ sig (Elt F)) :=
  [ ternary main_v126 main_v128 main_v123 main_v129 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F)) ]

theorem c8_7_ok : Ok (F := F) c8_7 :=
  ⟨ternary_bufs_sub .., rfl⟩

def c6 : List (HloOp τ sig (Elt F)) := c6_0 ++ (c6_1 ++ (c6_2 ++ (c6_3 ++ (c6_4 ++ (c6_5 ++ (c6_6 ++ (c6_7)))))))

theorem c6_ok : Ok (F := F) c6 := c6_0_ok.append (c6_1_ok.append (c6_2_ok.append (c6_3_ok.append (c6_4_ok.append (c6_5_ok.append (c6_6_ok.append (c6_7_ok)))))))

def c7 : List (HloOp τ sig (Elt F)) := c7_0 ++ (c7_1 ++ (c7_2 ++ (c7_3 ++ (c7_4 ++ (c7_5 ++ (c7_6 ++ (c7_7 ++ (c7_8))))))))

theorem c7_ok : Ok (F := F) c7 := c7_0_ok.append (c7_1_ok.append (c7_2_ok.append (c7_3_ok.append (c7_4_ok.append (c7_5_ok.append (c7_6_ok.append (c7_7_ok.append (c7_8_ok))))))))

def c8 : List (HloOp τ sig (Elt F)) := c8_0 ++ (c8_1 ++ (c8_2 ++ (c8_3 ++ (c8_4 ++ (c8_5 ++ (c8_6 ++ (c8_7)))))))

theorem c8_ok : Ok (F := F) c8 := c8_0_ok.append (c8_1_ok.append (c8_2_ok.append (c8_3_ok.append (c8_4_ok.append (c8_5_ok.append (c8_6_ok.append (c8_7_ok)))))))

def w2 : List (HloOp τ sig (Elt F)) := c6 ++ (c7 ++ (c8))

theorem w2_ok : Ok (F := F) w2 := c6_ok.append (c7_ok.append (c8_ok))

noncomputable def t2_p24 : Prog (TpuEff nD τ sig (Elt F) (Pipeline.Sig Λ₀ (Fin 0) fun p => (pcfgs (F := F) p).Adm) .tc) PUnit := do
  hlo rfl (StableHlo.ternary main_v126 main_v128 main_v123 main_v129 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F))) (fun _ => .ret ⟨⟩)

noncomputable def t2_p23 : Prog (TpuEff nD τ sig (Elt F) (Pipeline.Sig Λ₀ (Fin 0) fun p => (pcfgs (F := F) p).Adm) .tc) PUnit := do
  hlo rfl (StableHlo.nullary main_c_47 (constantI S_ 32 64#32)) (fun _ => .ret ⟨⟩)
  hlo rfl (StableHlo.unary main_c_47 main_v127 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v123 main_v127 main_v128 (addi : (⟨S128x2048, .i32⟩ : BufTy).Contents (Elt F) → (⟨S128x2048, .i32⟩ : BufTy).Contents (Elt F) → (⟨S128x2048, .i32⟩ : BufTy).Contents (Elt F))) (fun _ => .ret ⟨⟩)
  t2_p24 (F := F)

noncomputable def t2_p22 : Prog (TpuEff nD τ sig (Elt F) (Pipeline.Sig Λ₀ (Fin 0) fun p => (pcfgs (F := F) p).Adm) .tc) PUnit := do
  hlo rfl (StableHlo.nullary main_c_46 (constantI S_ 32 0#32)) (fun _ => .ret ⟨⟩)
  hlo rfl (StableHlo.unary main_c_46 main_v125 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v123 main_v125 main_v126 (cmpi .slt : (⟨S128x2048, .i32⟩ : BufTy).Contents (Elt F) → (⟨S128x2048, .i32⟩ : BufTy).Contents (Elt F) → (⟨S128x2048, .i1⟩ : BufTy).Contents (Elt F))) (fun _ => .ret ⟨⟩)
  t2_p23 (F := F)

noncomputable def t2_p21 : Prog (TpuEff nD τ sig (Elt F) (Pipeline.Sig Λ₀ (Fin 0) fun p => (pcfgs (F := F) p).Adm) .tc) PUnit := do
  fn_clip_0.body (.of main_v29) (.of main_c_44) (.of main_c_45) main_call6
  t2_p22 (F := F)

noncomputable def t2_p20 : Prog (TpuEff nD τ sig (Elt F) (Pipeline.Sig Λ₀ (Fin 0) fun p => (pcfgs (F := F) p).Adm) .tc) PUnit := do
  hlo rfl (StableHlo.nullary main_c_44 (constantI S_ 32 0#32)) (fun _ => .ret ⟨⟩)
  hlo rfl (StableHlo.nullary main_c_45 (constantI S_ 32 63#32)) (fun _ => .ret ⟨⟩)
  t2_p21 (F := F)

noncomputable def t2_p19 : Prog (TpuEff nD τ sig (Elt F) (Pipeline.Sig Λ₀ (Fin 0) fun p => (pcfgs (F := F) p).Adm) .tc) PUnit := do
  fn_clip_0.body (.of main_v107) (.of main_c_42) (.of main_c_43) main_call5
  t2_p20 (F := F)

noncomputable def t2_p18 : Prog (TpuEff nD τ sig (Elt F) (Pipeline.Sig Λ₀ (Fin 0) fun p => (pcfgs (F := F) p).Adm) .tc) PUnit := do
  hlo rfl (StableHlo.nullary main_c_43 (constantI S_ 32 63#32)) (fun _ => .ret ⟨⟩)
  t2_p19 (F := F)

noncomputable def t2_p17 : Prog (TpuEff nD τ sig (Elt F) (Pipeline.Sig Λ₀ (Fin 0) fun p => (pcfgs (F := F) p).Adm) .tc) PUnit := do
  hlo rfl (StableHlo.binary main_v118 main_v120 main_v121 (andi : (⟨S128x2048, .i1⟩ : BufTy).Contents (Elt F) → (⟨S128x2048, .i1⟩ : BufTy).Contents (Elt F) → (⟨S128x2048, .i1⟩ : BufTy).Contents (Elt F))) (fun _ => .ret ⟨⟩)
  hlo rfl (StableHlo.unary main_v121 main_v122 (uitofp .f32 : (⟨S128x2048, .i1⟩ : BufTy).Contents (Elt F) → (⟨S128x2048, .f32⟩ : BufTy).Contents (Elt F))) (fun _ => .ret ⟨⟩)
  hlo rfl (StableHlo.nullary main_c_42 (constantI S_ 32 0#32)) (fun _ => .ret ⟨⟩)
  t2_p18 (F := F)

noncomputable def t2_p16 : Prog (TpuEff nD τ sig (Elt F) (Pipeline.Sig Λ₀ (Fin 0) fun p => (pcfgs (F := F) p).Adm) .tc) PUnit := do
  hlo rfl (StableHlo.binary main_v29 main_v119 main_v120 (cmpi .slt : (⟨S128x2048, .i32⟩ : BufTy).Contents (Elt F) → (⟨S128x2048, .i32⟩ : BufTy).Contents (Elt F) → (⟨S128x2048, .i1⟩ : BufTy).Contents (Elt F))) (fun _ => .ret ⟨⟩)
  t2_p17 (F := F)

noncomputable def t2_p15 : Prog (TpuEff nD τ sig (Elt F) (Pipeline.Sig Λ₀ (Fin 0) fun p => (pcfgs (F := F) p).Adm) .tc) PUnit := do
  hlo rfl (StableHlo.binary main_v115 main_v117 main_v118 (andi : (⟨S128x2048, .i1⟩ : BufTy).Contents (Elt F) → (⟨S128x2048, .i1⟩ : BufTy).Contents (Elt F) → (⟨S128x2048, .i1⟩ : BufTy).Contents (Elt F))) (fun _ => .ret ⟨⟩)
  hlo rfl (StableHlo.nullary main_c_41 (constantI S_ 32 64#32)) (fun _ => .ret ⟨⟩)
  hlo rfl (StableHlo.unary main_c_41 main_v119 (broadcastInDim S128x2048 ![] bcast_S_S128x2048 : (⟨S_, .i32⟩ : BufTy).Contents (Elt F) → (⟨S128x2048, .i32⟩ : BufTy).Contents (Elt F))) (fun _ => .ret ⟨⟩)
  t2_p16 (F := F)

noncomputable def t2_p14 : Prog (TpuEff nD τ sig (Elt F) (Pipeline.Sig Λ₀ (Fin 0) fun p => (pcfgs (F := F) p).Adm) .tc) PUnit := do
  hlo rfl (StableHlo.nullary main_c_40 (constantI S_ 32 0#32)) (fun _ => .ret ⟨⟩)
  hlo rfl (StableHlo.unary main_c_40 main_v116 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v29 main_v116 main_v117 (cmpi .sge : (⟨S128x2048, .i32⟩ : BufTy).Contents (Elt F) → (⟨S128x2048, .i32⟩ : BufTy).Contents (Elt F) → (⟨S128x2048, .i1⟩ : BufTy).Contents (Elt F))) (fun _ => .ret ⟨⟩)
  t2_p15 (F := F)

noncomputable def t2_p13 : Prog (TpuEff nD τ sig (Elt F) (Pipeline.Sig Λ₀ (Fin 0) fun p => (pcfgs (F := F) p).Adm) .tc) PUnit := do
  hlo rfl (StableHlo.unary main_c_39 main_v113 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v107 main_v113 main_v114 (cmpi .slt : (⟨S128x2048, .i32⟩ : BufTy).Contents (Elt F) → (⟨S128x2048, .i32⟩ : BufTy).Contents (Elt F) → (⟨S128x2048, .i1⟩ : BufTy).Contents (Elt F))) (fun _ => .ret ⟨⟩)
  hlo rfl (StableHlo.binary main_v112 main_v114 main_v115 (andi : (⟨S128x2048, .i1⟩ : BufTy).Contents (Elt F) → (⟨S128x2048, .i1⟩ : BufTy).Contents (Elt F) → (⟨S128x2048, .i1⟩ : BufTy).Contents (Elt F))) (fun _ => .ret ⟨⟩)
  t2_p14 (F := F)

noncomputable def t2_p12 : Prog (TpuEff nD τ sig (Elt F) (Pipeline.Sig Λ₀ (Fin 0) fun p => (pcfgs (F := F) p).Adm) .tc) PUnit := do
  hlo rfl (StableHlo.unary main_c_38 main_v111 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v107 main_v111 main_v112 (cmpi .sge : (⟨S128x2048, .i32⟩ : BufTy).Contents (Elt F) → (⟨S128x2048, .i32⟩ : BufTy).Contents (Elt F) → (⟨S128x2048, .i1⟩ : BufTy).Contents (Elt F))) (fun _ => .ret ⟨⟩)
  hlo rfl (StableHlo.nullary main_c_39 (constantI S_ 32 64#32)) (fun _ => .ret ⟨⟩)
  t2_p13 (F := F)

noncomputable def t2_p11 : Prog (TpuEff nD τ sig (Elt F) (Pipeline.Sig Λ₀ (Fin 0) fun p => (pcfgs (F := F) p).Adm) .tc) PUnit := do
  hlo rfl (StableHlo.binary main_v108 main_v27 main_v109 (subf : (⟨S128x2048, .f32⟩ : BufTy).Contents (Elt F) → (⟨S128x2048, .f32⟩ : BufTy).Contents (Elt F) → (⟨S128x2048, .f32⟩ : BufTy).Contents (Elt F))) (fun _ => .ret ⟨⟩)
  hlo rfl (StableHlo.binary main_v28 main_v109 main_v110 (mulf : (⟨S128x2048, .f32⟩ : BufTy).Contents (Elt F) → (⟨S128x2048, .f32⟩ : BufTy).Contents (Elt F) → (⟨S128x2048, .f32⟩ : BufTy).Contents (Elt F))) (fun _ => .ret ⟨⟩)
  hlo rfl (StableHlo.nullary main_c_38 (constantI S_ 32 0#32)) (fun _ => .ret ⟨⟩)
  t2_p12 (F := F)

noncomputable def t2_p10 : Prog (TpuEff nD τ sig (Elt F) (Pipeline.Sig Λ₀ (Fin 0) fun p => (pcfgs (F := F) p).Adm) .tc) PUnit := do
  hlo rfl (StableHlo.binary main_v30 main_v106 main_v107 (addi : (⟨S128x2048, .i32⟩ : BufTy).Contents (Elt F) → (⟨S128x2048, .i32⟩ : BufTy).Contents (Elt F) → (⟨S128x2048, .i32⟩ : BufTy).Contents (Elt F))) (fun _ => .ret ⟨⟩)
  hlo rfl (StableHlo.nullary main_cst_37 (constant S_ .f32 0x3F800000#32)) (fun _ => .ret ⟨⟩)
  hlo rfl (StableHlo.unary main_cst_37 main_v108 (broadcastInDim S128x2048 ![] bcast_S_S128x2048 : (⟨S_, .f32⟩ : BufTy).Contents (Elt F) → (⟨S128x2048, .f32⟩ : BufTy).Contents (Elt F))) (fun _ => .ret ⟨⟩)
  t2_p11 (F := F)

noncomputable def t2_p9 : Prog (TpuEff nD τ sig (Elt F) (Pipeline.Sig Λ₀ (Fin 0) fun p => (pcfgs (F := F) p).Adm) .tc) PUnit := do
  hlo rfl (StableHlo.binary main_v67 main_v104 main_v105 (addf : (⟨S128x64x2048, .f32⟩ : BufTy).Contents (Elt F) → (⟨S128x64x2048, .f32⟩ : BufTy).Contents (Elt F) → (⟨S128x64x2048, .f32⟩ : BufTy).Contents (Elt F))) (fun _ => .ret ⟨⟩)
  hlo rfl (StableHlo.nullary main_c_36 (constantI S_ 32 1#32)) (fun _ => .ret ⟨⟩)
  hlo rfl (StableHlo.unary main_c_36 main_v106 (broadcastInDim S128x2048 ![] bcast_S_S128x2048 : (⟨S_, .i32⟩ : BufTy).Contents (Elt F) → (⟨S128x2048, .i32⟩ : BufTy).Contents (Elt F))) (fun _ => .ret ⟨⟩)
  t2_p10 (F := F)

noncomputable def t2_p8 : Prog (TpuEff nD τ sig (Elt F) (Pipeline.Sig Λ₀ (Fin 0) fun p => (pcfgs (F := F) p).Adm) .tc) PUnit := do
  hlo rfl (StableHlo.unary main_v101 main_v102 (broadcastInDim S128x1x2048 ![0, 2] bcast_S128x2048_S128x1x2048_0_2 : (⟨S128x2048, .f32⟩ : BufTy).Contents (Elt F) → (⟨S128x1x2048, .f32⟩ : BufTy).Contents (Elt F))) (fun _ => .ret ⟨⟩)
  hlo rfl (StableHlo.unary main_v102 main_v103 (broadcastInDim S128x64x2048 ![0, 1, 2] bcast_S128x1x2048_S128x64x2048_0_1_2 : (⟨S128x1x2048, .f32⟩ : BufTy).Contents (Elt F) → (⟨S128x64x2048, .f32⟩ : BufTy).Contents (Elt F))) (fun _ => .ret ⟨⟩)
  hlo rfl (StableHlo.binary main_v100 main_v103 main_v104 (mulf : (⟨S128x64x2048, .f32⟩ : BufTy).Contents (Elt F) → (⟨S128x64x2048, .f32⟩ : BufTy).Contents (Elt F) → (⟨S128x64x2048, .f32⟩ : BufTy).Contents (Elt F))) (fun _ => .ret ⟨⟩)
  t2_p9 (F := F)

noncomputable def t2_p7 : Prog (TpuEff nD τ sig (Elt F) (Pipeline.Sig Λ₀ (Fin 0) fun p => (pcfgs (F := F) p).Adm) .tc) PUnit := do
  hlo rfl (StableHlo.binary main_v72 main_v84 main_v101 (mulf : (⟨S128x2048, .f32⟩ : BufTy).Contents (Elt F) → (⟨S128x2048, .f32⟩ : BufTy).Contents (Elt F) → (⟨S128x2048, .f32⟩ : BufTy).Contents (Elt F))) (fun _ => .ret ⟨⟩)
  t2_p8 (F := F)

noncomputable def t2_p6 : Prog (TpuEff nD τ sig (Elt F) (Pipeline.Sig Λ₀ (Fin 0) fun p => (pcfgs (F := F) p).Adm) .tc) PUnit := do
  hlo rfl (StableHlo.unary main_v96 main_v98 (broadcastInDim S128x2048x1 ![0, 1] bcast_S128x2048_S128x2048x1_0_1 : (⟨S128x2048, .i32⟩ : BufTy).Contents (Elt F) → (⟨S128x2048x1, .i32⟩ : BufTy).Contents (Elt F))) (fun _ => .ret ⟨⟩)
  hlo rfl (StableHlo.binary main_v97 main_v98 main_v99 ((fun a b => concatenate S128x2048x2 2 [⟨S128x2048x1, a⟩, ⟨S128x2048x1, b⟩] concatenates_S128x2048x1_S128x2048x1_S128x2048x2_d2) : (⟨S128x2048x1, .i32⟩ : BufTy).Contents (Elt F) → (⟨S128x2048x1, .i32⟩ : BufTy).Contents (Elt F) → (⟨S128x2048x2, .i32⟩ : BufTy).Contents (Elt F))) (fun _ => .ret ⟨⟩)
  hlo rfl (StableHlo.binary main_v4 main_v99 main_v100 ((fun x i => Host.gather gather_S128x64x64x64_S128x2048x2_S128x64x2048_1_23_0_0_23_2_16411 x i) : (⟨S128x64x64x64, .f32⟩ : BufTy).Contents (Elt F) → (⟨S128x2048x2, .i32⟩ : BufTy).Contents (Elt F) → (⟨S128x64x2048, .f32⟩ : BufTy).Contents (Elt F))) (fun _ => .ret ⟨⟩)
  t2_p7 (F := F)

noncomputable def t2_p5 : Prog (TpuEff nD τ sig (Elt F) (Pipeline.Sig Λ₀ (Fin 0) fun p => (pcfgs (F := F) p).Adm) .tc) PUnit := do
  hlo rfl (StableHlo.binary main_v86 main_v94 main_v95 (addi : (⟨S128x2048, .i32⟩ : BufTy).Contents (Elt F) → (⟨S128x2048, .i32⟩ : BufTy).Contents (Elt F) → (⟨S128x2048, .i32⟩ : BufTy).Contents (Elt F))) (fun _ => .ret ⟨⟩)
  hlo rfl (StableHlo.ternary main_v93 main_v95 main_v86 main_v96 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F))) (fun _ => .ret ⟨⟩)
  hlo rfl (StableHlo.unary main_v91 main_v97 (broadcastInDim S128x2048x1 ![0, 1] bcast_S128x2048_S128x2048x1_0_1 : (⟨S128x2048, .i32⟩ : BufTy).Contents (Elt F) → (⟨S128x2048x1, .i32⟩ : BufTy).Contents (Elt F))) (fun _ => .ret ⟨⟩)
  t2_p6 (F := F)

noncomputable def t2_p4 : Prog (TpuEff nD τ sig (Elt F) (Pipeline.Sig Λ₀ (Fin 0) fun p => (pcfgs (F := F) p).Adm) .tc) PUnit := do
  hlo rfl (StableHlo.binary main_v86 main_v92 main_v93 (cmpi .slt : (⟨S128x2048, .i32⟩ : BufTy).Contents (Elt F) → (⟨S128x2048, .i32⟩ : BufTy).Contents (Elt F) → (⟨S128x2048, .i1⟩ : BufTy).Contents (Elt F))) (fun _ => .ret ⟨⟩)
  hlo rfl (StableHlo.nullary main_c_35 (constantI S_ 32 64#32)) (fun _ => .ret ⟨⟩)
  hlo rfl (StableHlo.unary main_c_35 main_v94 (broadcastInDim S128x2048 ![] bcast_S_S128x2048 : (⟨S_, .i32⟩ : BufTy).Contents (Elt F) → (⟨S128x2048, .i32⟩ : BufTy).Contents (Elt F))) (fun _ => .ret ⟨⟩)
  t2_p5 (F := F)

noncomputable def t2_p3 : Prog (TpuEff nD τ sig (Elt F) (Pipeline.Sig Λ₀ (Fin 0) fun p => (pcfgs (F := F) p).Adm) .tc) PUnit := do
  hlo rfl (StableHlo.ternary main_v88 main_v90 main_v85 main_v91 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F))) (fun _ => .ret ⟨⟩)
  hlo rfl (StableHlo.nullary main_c_34 (constantI S_ 32 0#32)) (fun _ => .ret ⟨⟩)
  hlo rfl (StableHlo.unary main_c_34 main_v92 (broadcastInDim S128x2048 ![] bcast_S_S128x2048 : (⟨S_, .i32⟩ : BufTy).Contents (Elt F) → (⟨S128x2048, .i32⟩ : BufTy).Contents (Elt F))) (fun _ => .ret ⟨⟩)
  t2_p4 (F := F)

noncomputable def t2_p2 : Prog (TpuEff nD τ sig (Elt F) (Pipeline.Sig Λ₀ (Fin 0) fun p => (pcfgs (F := F) p).Adm) .tc) PUnit := do
  hlo rfl (StableHlo.nullary main_c_33 (constantI S_ 32 64#32)) (fun _ => .ret ⟨⟩)
  hlo rfl (StableHlo.unary main_c_33 main_v89 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v85 main_v89 main_v90 (addi : (⟨S128x2048, .i32⟩ : BufTy).Contents (Elt F) → (⟨S128x2048, .i32⟩ : BufTy).Contents (Elt F) → (⟨S128x2048, .i32⟩ : BufTy).Contents (Elt F))) (fun _ => .ret ⟨⟩)
  t2_p3 (F := F)

noncomputable def t2_p1 : Prog (TpuEff nD τ sig (Elt F) (Pipeline.Sig Λ₀ (Fin 0) fun p => (pcfgs (F := F) p).Adm) .tc) PUnit := do
  hlo rfl (StableHlo.nullary main_c_32 (constantI S_ 32 0#32)) (fun _ => .ret ⟨⟩)
  hlo rfl (StableHlo.unary main_c_32 main_v87 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v85 main_v87 main_v88 (cmpi .slt : (⟨S128x2048, .i32⟩ : BufTy).Contents (Elt F) → (⟨S128x2048, .i32⟩ : BufTy).Contents (Elt F) → (⟨S128x2048, .i1⟩ : BufTy).Contents (Elt F))) (fun _ => .ret ⟨⟩)
  t2_p2 (F := F)

theorem main_part2_chain (d : Dev nD) : main_part2 (F := F) d = (Pipeline.chainK
  [ seq c6_0 ]
  (t2_p1 (F := F)) : Prog (TpuEff nD τ sig (Elt F) (Pipeline.Sig Λ₀ (Fin 0) fun p => (pcfgs (F := F) p).Adm) .tc) PUnit) := by
  chain_rfl

theorem t2_p1_eq : t2_p1 (F := F) = (Pipeline.chainK
  [ seq c6_1 ]
  (t2_p2 (F := F)) : Prog (TpuEff nD τ sig (Elt F) (Pipeline.Sig Λ₀ (Fin 0) fun p => (pcfgs (F := F) p).Adm) .tc) PUnit) := by
  chain_rfl

theorem t2_p2_eq : t2_p2 (F := F) = (Pipeline.chainK
  [ seq c6_2 ]
  (t2_p3 (F := F)) : Prog (TpuEff nD τ sig (Elt F) (Pipeline.Sig Λ₀ (Fin 0) fun p => (pcfgs (F := F) p).Adm) .tc) PUnit) := by
  chain_rfl

theorem t2_p3_eq : t2_p3 (F := F) = (Pipeline.chainK
  [ seq c6_3 ]
  (t2_p4 (F := F)) : Prog (TpuEff nD τ sig (Elt F) (Pipeline.Sig Λ₀ (Fin 0) fun p => (pcfgs (F := F) p).Adm) .tc) PUnit) := by
  chain_rfl

theorem t2_p4_eq : t2_p4 (F := F) = (Pipeline.chainK
  [ seq c6_4 ]
  (t2_p5 (F := F)) : Prog (TpuEff nD τ sig (Elt F) (Pipeline.Sig Λ₀ (Fin 0) fun p => (pcfgs (F := F) p).Adm) .tc) PUnit) := by
  chain_rfl

theorem t2_p5_eq : t2_p5 (F := F) = (Pipeline.chainK
  [ seq c6_5 ]
  (t2_p6 (F := F)) : Prog (TpuEff nD τ sig (Elt F) (Pipeline.Sig Λ₀ (Fin 0) fun p => (pcfgs (F := F) p).Adm) .tc) PUnit) := by
  chain_rfl

theorem t2_p6_eq : t2_p6 (F := F) = (Pipeline.chainK
  [ seq c6_6 ]
  (t2_p7 (F := F)) : Prog (TpuEff nD τ sig (Elt F) (Pipeline.Sig Λ₀ (Fin 0) fun p => (pcfgs (F := F) p).Adm) .tc) PUnit) := by
  chain_rfl

theorem t2_p7_eq : t2_p7 (F := F) = (Pipeline.chainK
  [ seq c6_7 ]
  (t2_p8 (F := F)) : Prog (TpuEff nD τ sig (Elt F) (Pipeline.Sig Λ₀ (Fin 0) fun p => (pcfgs (F := F) p).Adm) .tc) PUnit) := by
  chain_rfl

theorem t2_p8_eq : t2_p8 (F := F) = (Pipeline.chainK
  [ seq c7_0 ]
  (t2_p9 (F := F)) : Prog (TpuEff nD τ sig (Elt F) (Pipeline.Sig Λ₀ (Fin 0) fun p => (pcfgs (F := F) p).Adm) .tc) PUnit) := by
  chain_rfl

theorem t2_p9_eq : t2_p9 (F := F) = (Pipeline.chainK
  [ seq c7_1 ]
  (t2_p10 (F := F)) : Prog (TpuEff nD τ sig (Elt F) (Pipeline.Sig Λ₀ (Fin 0) fun p => (pcfgs (F := F) p).Adm) .tc) PUnit) := by
  chain_rfl

theorem t2_p10_eq : t2_p10 (F := F) = (Pipeline.chainK
  [ seq c7_2 ]
  (t2_p11 (F := F)) : Prog (TpuEff nD τ sig (Elt F) (Pipeline.Sig Λ₀ (Fin 0) fun p => (pcfgs (F := F) p).Adm) .tc) PUnit) := by
  chain_rfl

theorem t2_p11_eq : t2_p11 (F := F) = (Pipeline.chainK
  [ seq c7_3 ]
  (t2_p12 (F := F)) : Prog (TpuEff nD τ sig (Elt F) (Pipeline.Sig Λ₀ (Fin 0) fun p => (pcfgs (F := F) p).Adm) .tc) PUnit) := by
  chain_rfl

theorem t2_p12_eq : t2_p12 (F := F) = (Pipeline.chainK
  [ seq c7_4 ]
  (t2_p13 (F := F)) : Prog (TpuEff nD τ sig (Elt F) (Pipeline.Sig Λ₀ (Fin 0) fun p => (pcfgs (F := F) p).Adm) .tc) PUnit) := by
  chain_rfl

theorem t2_p13_eq : t2_p13 (F := F) = (Pipeline.chainK
  [ seq c7_5 ]
  (t2_p14 (F := F)) : Prog (TpuEff nD τ sig (Elt F) (Pipeline.Sig Λ₀ (Fin 0) fun p => (pcfgs (F := F) p).Adm) .tc) PUnit) := by
  chain_rfl

theorem t2_p14_eq : t2_p14 (F := F) = (Pipeline.chainK
  [ seq c7_6 ]
  (t2_p15 (F := F)) : Prog (TpuEff nD τ sig (Elt F) (Pipeline.Sig Λ₀ (Fin 0) fun p => (pcfgs (F := F) p).Adm) .tc) PUnit) := by
  chain_rfl

theorem t2_p15_eq : t2_p15 (F := F) = (Pipeline.chainK
  [ seq c7_7 ]
  (t2_p16 (F := F)) : Prog (TpuEff nD τ sig (Elt F) (Pipeline.Sig Λ₀ (Fin 0) fun p => (pcfgs (F := F) p).Adm) .tc) PUnit) := by
  chain_rfl

theorem t2_p16_eq : t2_p16 (F := F) = (Pipeline.chainK
  [ seq c7_8 ]
  (t2_p17 (F := F)) : Prog (TpuEff nD τ sig (Elt F) (Pipeline.Sig Λ₀ (Fin 0) fun p => (pcfgs (F := F) p).Adm) .tc) PUnit) := by
  chain_rfl

theorem t2_p17_eq : t2_p17 (F := F) = (Pipeline.chainK
  [ seq c8_0 ]
  (t2_p18 (F := F)) : Prog (TpuEff nD τ sig (Elt F) (Pipeline.Sig Λ₀ (Fin 0) fun p => (pcfgs (F := F) p).Adm) .tc) PUnit) := by
  chain_rfl

theorem t2_p18_eq : t2_p18 (F := F) = (Pipeline.chainK
  [ seq c8_1 ]
  (t2_p19 (F := F)) : Prog (TpuEff nD τ sig (Elt F) (Pipeline.Sig Λ₀ (Fin 0) fun p => (pcfgs (F := F) p).Adm) .tc) PUnit) := by
  chain_rfl

theorem t2_p19_eq : t2_p19 (F := F) = (Pipeline.chainK
  [ seq c8_2 ]
  (t2_p20 (F := F)) : Prog (TpuEff nD τ sig (Elt F) (Pipeline.Sig Λ₀ (Fin 0) fun p => (pcfgs (F := F) p).Adm) .tc) PUnit) := by
  chain_rfl

theorem t2_p20_eq : t2_p20 (F := F) = (Pipeline.chainK
  [ seq c8_3 ]
  (t2_p21 (F := F)) : Prog (TpuEff nD τ sig (Elt F) (Pipeline.Sig Λ₀ (Fin 0) fun p => (pcfgs (F := F) p).Adm) .tc) PUnit) := by
  chain_rfl

theorem t2_p21_eq : t2_p21 (F := F) = (Pipeline.chainK
  [ seq c8_4 ]
  (t2_p22 (F := F)) : Prog (TpuEff nD τ sig (Elt F) (Pipeline.Sig Λ₀ (Fin 0) fun p => (pcfgs (F := F) p).Adm) .tc) PUnit) := by
  chain_rfl

theorem t2_p22_eq : t2_p22 (F := F) = (Pipeline.chainK
  [ seq c8_5 ]
  (t2_p23 (F := F)) : Prog (TpuEff nD τ sig (Elt F) (Pipeline.Sig Λ₀ (Fin 0) fun p => (pcfgs (F := F) p).Adm) .tc) PUnit) := by
  chain_rfl

theorem t2_p23_eq : t2_p23 (F := F) = (Pipeline.chainK
  [ seq c8_6 ]
  (t2_p24 (F := F)) : Prog (TpuEff nD τ sig (Elt F) (Pipeline.Sig Λ₀ (Fin 0) fun p => (pcfgs (F := F) p).Adm) .tc) PUnit) := by
  chain_rfl

theorem t2_p24_eq : t2_p24 (F := F) = (Pipeline.chainK
  [  ]
  (seq c8_7) : Prog (TpuEff nD τ sig (Elt F) (Pipeline.Sig Λ₀ (Fin 0) fun p => (pcfgs (F := F) p).Adm) .tc) PUnit) := by
  chain_rfl

theorem main_part2_eq (d : Dev nD) : main_part2 (F := F) d = (seq w2 : Prog (TpuEff nD τ sig (Elt F) (Pipeline.Sig Λ₀ (Fin 0) fun p => (pcfgs (F := F) p).Adm) .tc) PUnit) := by
  rw [main_part2_chain d, t2_p1_eq, t2_p2_eq, t2_p3_eq, t2_p4_eq, t2_p5_eq, t2_p6_eq, t2_p7_eq, t2_p8_eq, t2_p9_eq, t2_p10_eq, t2_p11_eq, t2_p12_eq, t2_p13_eq, t2_p14_eq, t2_p15_eq, t2_p16_eq, t2_p17_eq, t2_p18_eq, t2_p19_eq, t2_p20_eq, t2_p21_eq, t2_p22_eq, t2_p23_eq, t2_p24_eq]
  simp only [w2, c6, c7, c8, Pipeline.chainK, seq_append, bind_assoc]

end Cert.ReferenceIdeal.RefRunGen

end
-- ==== Proof.RefRunGen.P3.lean ====
import proofs.«416765_j9792525435349_4_alg».proof.Proof.RefRunGen.Ok
import Idealize.ShloMosaic.Lib.Pipeline.Regions

noncomputable section

namespace Cert.ReferenceIdeal.RefRunGen

open Cert.ReferenceIdeal Cert.ReferenceIdeal.Gen Idealize.ShloMosaic Idealize.ShloMosaic.TcCoe Idealize.SL.Sem Idealize.ShloMosaic.StableHlo

variable {F : FTy → Type} [FloatOps F]

abbrev c9_0 : List (HloOp τ sig (Elt F)) :=
  [ nullary main_c_48 (constantI S_ 32 0#32),
    unary main_c_48 main_v130 (broadcastInDim S128x2048 ![] bcast_S_S128x2048 : (⟨S_, .i32⟩ : BufTy).Contents (Elt F) → (⟨S128x2048, .i32⟩ : BufTy).Contents (Elt F)),
    binary main_v124 main_v130 main_v131 (cmpi .slt : (⟨S128x2048, .i32⟩ : BufTy).Contents (Elt F) → (⟨S128x2048, .i32⟩ : BufTy).Contents (Elt F) → (⟨S128x2048, .i1⟩ : BufTy).Contents (Elt F)) ]

theorem c9_0_ok : Ok (F := F) c9_0 :=
  ⟨⟨nullary_bufs_sub .., rfl⟩, ⟨unary_bufs_sub .., rfl⟩, ⟨binary_bufs_sub .., rfl⟩⟩

abbrev c9_1 : List (HloOp τ sig (Elt F)) :=
  [ nullary main_c_49 (constantI S_ 32 64#32),
    unary main_c_49 main_v132 (broadcastInDim S128x2048 ![] bcast_S_S128x2048 : (⟨S_, .i32⟩ : BufTy).Contents (Elt F) → (⟨S128x2048, .i32⟩ : BufTy).Contents (Elt F)),
    binary main_v124 main_v132 main_v133 (addi : (⟨S128x2048, .i32⟩ : BufTy).Contents (Elt F) → (⟨S128x2048, .i32⟩ : BufTy).Contents (Elt F) → (⟨S128x2048, .i32⟩ : BufTy).Contents (Elt F)) ]

theorem c9_1_ok : Ok (F := F) c9_1 :=
  ⟨⟨nullary_bufs_sub .., rfl⟩, ⟨unary_bufs_sub .., rfl⟩, ⟨binary_bufs_sub .., rfl⟩⟩

abbrev c9_2 : List (HloOp τ sig (Elt F)) :=
  [ ternary main_v131 main_v133 main_v124 main_v134 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F)),
    unary main_v129 main_v135 (broadcastInDim S128x2048x1 ![0, 1] bcast_S128x2048_S128x2048x1_0_1 : (⟨S128x2048, .i32⟩ : BufTy).Contents (Elt F) → (⟨S128x2048x1, .i32⟩ : BufTy).Contents (Elt F)),
    unary main_v134 main_v136 (broadcastInDim S128x2048x1 ![0, 1] bcast_S128x2048_S128x2048x1_0_1 : (⟨S128x2048, .i32⟩ : BufTy).Contents (Elt F) → (⟨S128x2048x1, .i32⟩ : BufTy).Contents (Elt F)) ]

theorem c9_2_ok : Ok (F := F) c9_2 :=
  ⟨⟨ternary_bufs_sub .., rfl⟩, ⟨unary_bufs_sub .., rfl⟩, ⟨unary_bufs_sub .., rfl⟩⟩

abbrev c9_3 : List (HloOp τ sig (Elt F)) :=
  [ binary main_v135 main_v136 main_v137 ((fun a b => concatenate S128x2048x2 2 [⟨S128x2048x1, a⟩, ⟨S128x2048x1, b⟩] concatenates_S128x2048x1_S128x2048x1_S128x2048x2_d2) : (⟨S128x2048x1, .i32⟩ : BufTy).Contents (Elt F) → (⟨S128x2048x1, .i32⟩ : BufTy).Contents (Elt F) → (⟨S128x2048x2, .i32⟩ : BufTy).Contents (Elt F)),
    binary main_v4 main_v137 main_v138 ((fun x i => Host.gather gather_S128x64x64x64_S128x2048x2_S128x64x2048_1_23_0_0_23_2_16411 x i) : (⟨S128x64x64x64, .f32⟩ : BufTy).Contents (Elt F) → (⟨S128x2048x2, .i32⟩ : BufTy).Contents (Elt F) → (⟨S128x64x2048, .f32⟩ : BufTy).Contents (Elt F)),
    binary main_v110 main_v122 main_v139 (mulf : (⟨S128x2048, .f32⟩ : BufTy).Contents (Elt F) → (⟨S128x2048, .f32⟩ : BufTy).Contents (Elt F) → (⟨S128x2048, .f32⟩ : BufTy).Contents (Elt F)) ]

theorem c9_3_ok : Ok (F := F) c9_3 :=
  ⟨⟨binary_bufs_sub .., rfl⟩, ⟨binary_bufs_sub .., rfl⟩, ⟨binary_bufs_sub .., rfl⟩⟩

abbrev c9_4 : List (HloOp τ sig (Elt F)) :=
  [ unary main_v139 main_v140 (broadcastInDim S128x1x2048 ![0, 2] bcast_S128x2048_S128x1x2048_0_2 : (⟨S128x2048, .f32⟩ : BufTy).Contents (Elt F) → (⟨S128x1x2048, .f32⟩ : BufTy).Contents (Elt F)),
    unary main_v140 main_v141 (broadcastInDim S128x64x2048 ![0, 1, 2] bcast_S128x1x2048_S128x64x2048_0_1_2 : (⟨S128x1x2048, .f32⟩ : BufTy).Contents (Elt F) → (⟨S128x64x2048, .f32⟩ : BufTy).Contents (Elt F)),
    binary main_v138 main_v141 main_v142 (mulf : (⟨S128x64x2048, .f32⟩ : BufTy).Contents (Elt F) → (⟨S128x64x2048, .f32⟩ : BufTy).Contents (Elt F) → (⟨S128x64x2048, .f32⟩ : BufTy).Contents (Elt F)) ]

theorem c9_4_ok : Ok (F := F) c9_4 :=
  ⟨⟨unary_bufs_sub .., rfl⟩, ⟨unary_bufs_sub .., rfl⟩, ⟨binary_bufs_sub .., rfl⟩⟩

abbrev c9_5 : List (HloOp τ sig (Elt F)) :=
  [ binary main_v105 main_v142 main_v143 (addf : (⟨S128x64x2048, .f32⟩ : BufTy).Contents (Elt F) → (⟨S128x64x2048, .f32⟩ : BufTy).Contents (Elt F) → (⟨S128x64x2048, .f32⟩ : BufTy).Contents (Elt F)),
    nullary main_c_50 (constantI S_ 32 1#32),
    unary main_c_50 main_v144 (broadcastInDim S128x2048 ![] bcast_S_S128x2048 : (⟨S_, .i32⟩ : BufTy).Contents (Elt F) → (⟨S128x2048, .i32⟩ : BufTy).Contents (Elt F)) ]

theorem c9_5_ok : Ok (F := F) c9_5 :=
  ⟨⟨binary_bufs_sub .., rfl⟩, ⟨nullary_bufs_sub .., rfl⟩, ⟨unary_bufs_sub .., rfl⟩⟩

abbrev c9_6 : List (HloOp τ sig (Elt F)) :=
  [ binary main_v30 main_v144 main_v145 (addi : (⟨S128x2048, .i32⟩ : BufTy).Contents (Elt F) → (⟨S128x2048, .i32⟩ : BufTy).Contents (Elt F) → (⟨S128x2048, .i32⟩ : BufTy).Contents (Elt F)),
    nullary main_c_51 (constantI S_ 32 1#32),
    unary main_c_51 main_v146 (broadcastInDim S128x2048 ![] bcast_S_S128x2048 : (⟨S_, .i32⟩ : BufTy).Contents (Elt F) → (⟨S128x2048, .i32⟩ : BufTy).Contents (Elt F)) ]

theorem c9_6_ok : Ok (F := F) c9_6 :=
  ⟨⟨binary_bufs_sub .., rfl⟩, ⟨nullary_bufs_sub .., rfl⟩, ⟨unary_bufs_sub .., rfl⟩⟩

abbrev c9_7 : List (HloOp τ sig (Elt F)) :=
  [ binary main_v29 main_v146 main_v147 (addi : (⟨S128x2048, .i32⟩ : BufTy).Contents (Elt F) → (⟨S128x2048, .i32⟩ : BufTy).Contents (Elt F) → (⟨S128x2048, .i32⟩ : BufTy).Contents (Elt F)),
    binary main_v28 main_v27 main_v148 (mulf : (⟨S128x2048, .f32⟩ : BufTy).Contents (Elt F) → (⟨S128x2048, .f32⟩ : BufTy).Contents (Elt F) → (⟨S128x2048, .f32⟩ : BufTy).Contents (Elt F)) ]

theorem c9_7_ok : Ok (F := F) c9_7 :=
  ⟨⟨binary_bufs_sub .., rfl⟩, ⟨binary_bufs_sub .., rfl⟩⟩

abbrev c10_0 : List (HloOp τ sig (Elt F)) :=
  [ nullary main_c_52 (constantI S_ 32 0#32),
    unary main_c_52 main_v149 (broadcastInDim S128x2048 ![] bcast_S_S128x2048 : (⟨S_, .i32⟩ : BufTy).Contents (Elt F) → (⟨S128x2048, .i32⟩ : BufTy).Contents (Elt F)),
    binary main_v145 main_v149 main_v150 (cmpi .sge : (⟨S128x2048, .i32⟩ : BufTy).Contents (Elt F) → (⟨S128x2048, .i32⟩ : BufTy).Contents (Elt F) → (⟨S128x2048, .i1⟩ : BufTy).Contents (Elt F)) ]

theorem c10_0_ok : Ok (F := F) c10_0 :=
  ⟨⟨nullary_bufs_sub .., rfl⟩, ⟨unary_bufs_sub .., rfl⟩, ⟨binary_bufs_sub .., rfl⟩⟩

abbrev c10_1 : List (HloOp τ sig (Elt F)) :=
  [ nullary main_c_53 (constantI S_ 32 64#32),
    unary main_c_53 main_v151 (broadcastInDim S128x2048 ![] bcast_S_S128x2048 : (⟨S_, .i32⟩ : BufTy).Contents (Elt F) → (⟨S128x2048, .i32⟩ : BufTy).Contents (Elt F)),
    binary main_v145 main_v151 main_v152 (cmpi .slt : (⟨S128x2048, .i32⟩ : BufTy).Contents (Elt F) → (⟨S128x2048, .i32⟩ : BufTy).Contents (Elt F) → (⟨S128x2048, .i1⟩ : BufTy).Contents (Elt F)) ]

theorem c10_1_ok : Ok (F := F) c10_1 :=
  ⟨⟨nullary_bufs_sub .., rfl⟩, ⟨unary_bufs_sub .., rfl⟩, ⟨binary_bufs_sub .., rfl⟩⟩

abbrev c10_2 : List (HloOp τ sig (Elt F)) :=
  [ binary main_v150 main_v152 main_v153 (andi : (⟨S128x2048, .i1⟩ : BufTy).Contents (Elt F) → (⟨S128x2048, .i1⟩ : BufTy).Contents (Elt F) → (⟨S128x2048, .i1⟩ : BufTy).Contents (Elt F)),
    nullary main_c_54 (constantI S_ 32 0#32),
    unary main_c_54 main_v154 (broadcastInDim S128x2048 ![] bcast_S_S128x2048 : (⟨S_, .i32⟩ : BufTy).Contents (Elt F) → (⟨S128x2048, .i32⟩ : BufTy).Contents (Elt F)) ]

theorem c10_2_ok : Ok (F := F) c10_2 :=
  ⟨⟨binary_bufs_sub .., rfl⟩, ⟨nullary_bufs_sub .., rfl⟩, ⟨unary_bufs_sub .., rfl⟩⟩

abbrev c10_3 : List (HloOp τ sig (Elt F)) :=
  [ binary main_v147 main_v154 main_v155 (cmpi .sge : (⟨S128x2048, .i32⟩ : BufTy).Contents (Elt F) → (⟨S128x2048, .i32⟩ : BufTy).Contents (Elt F) → (⟨S128x2048, .i1⟩ : BufTy).Contents (Elt F)),
    binary main_v153 main_v155 main_v156 (andi : (⟨S128x2048, .i1⟩ : BufTy).Contents (Elt F) → (⟨S128x2048, .i1⟩ : BufTy).Contents (Elt F) → (⟨S128x2048, .i1⟩ : BufTy).Contents (Elt F)),
    nullary main_c_55 (constantI S_ 32 64#32) ]

theorem c10_3_ok : Ok (F := F) c10_3 :=
  ⟨⟨binary_bufs_sub .., rfl⟩, ⟨binary_bufs_sub .., rfl⟩, ⟨nullary_bufs_sub .., rfl⟩⟩

abbrev c10_4 : List (HloOp τ sig (Elt F)) :=
  [ unary main_c_55 main_v157 (broadcastInDim S128x2048 ![] bcast_S_S128x2048 : (⟨S_, .i32⟩ : BufTy).Contents (Elt F) → (⟨S128x2048, .i32⟩ : BufTy).Contents (Elt F)),
    binary main_v147 main_v157 main_v158 (cmpi .slt : (⟨S128x2048, .i32⟩ : BufTy).Contents (Elt F) → (⟨S128x2048, .i32⟩ : BufTy).Contents (Elt F) → (⟨S128x2048, .i1⟩ : BufTy).Contents (Elt F)),
    binary main_v156 main_v158 main_v159 (andi : (⟨S128x2048, .i1⟩ : BufTy).Contents (Elt F) → (⟨S128x2048, .i1⟩ : BufTy).Contents (Elt F) → (⟨S128x2048, .i1⟩ : BufTy).Contents (Elt F)) ]

theorem c10_4_ok : Ok (F := F) c10_4 :=
  ⟨⟨unary_bufs_sub .., rfl⟩, ⟨binary_bufs_sub .., rfl⟩, ⟨binary_bufs_sub .., rfl⟩⟩

abbrev c10_5 : List (HloOp τ sig (Elt F)) :=
  [ unary main_v159 main_v160 (uitofp .f32 : (⟨S128x2048, .i1⟩ : BufTy).Contents (Elt F) → (⟨S128x2048, .f32⟩ : BufTy).Contents (Elt F)),
    nullary main_c_56 (constantI S_ 32 0#32),
    nullary main_c_57 (constantI S_ 32 63#32) ]

theorem c10_5_ok : Ok (F := F) c10_5 :=
  ⟨⟨unary_bufs_sub .., rfl⟩, ⟨nullary_bufs_sub .., rfl⟩, ⟨nullary_bufs_sub .., rfl⟩⟩

abbrev c10_6 : List (HloOp τ sig (Elt F)) :=
  [ TRef.unary (TRef.of (T := ⟨S_, .i32⟩) main_c_56) (TRef.of (T := ⟨S_, .i32⟩) main_call7_v0) id,
    TRef.unary (TRef.of (T := ⟨S_, .i32⟩) main_call7_v0) (TRef.of (T := ⟨S128x2048, .i32⟩) main_call7_v1) (broadcastInDim S128x2048 ![] bcast_S_S128x2048),
    TRef.binary (TRef.of (T := ⟨S128x2048, .i32⟩) main_call7_v1) (TRef.of (T := ⟨S128x2048, .i32⟩) main_v145) (TRef.of (T := ⟨S128x2048, .i32⟩) main_call7_v2) maxsi,
    TRef.unary (TRef.of (T := ⟨S_, .i32⟩) main_c_57) (TRef.of (T := ⟨S_, .i32⟩) main_call7_v3) id,
    TRef.unary (TRef.of (T := ⟨S_, .i32⟩) main_call7_v3) (TRef.of (T := ⟨S128x2048, .i32⟩) main_call7_v4) (broadcastInDim S128x2048 ![] bcast_S_S128x2048),
    TRef.binary (TRef.of (T := ⟨S128x2048, .i32⟩) main_call7_v4) (TRef.of (T := ⟨S128x2048, .i32⟩) main_call7_v2) (TRef.of (T := ⟨S128x2048, .i32⟩) main_v161) minsi ]

theorem c10_6_ok : Ok (F := F) c10_6 :=
  ⟨⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩⟩

abbrev c11_0 : List (HloOp τ sig (Elt F)) :=
  [ nullary main_c_58 (constantI S_ 32 0#32),
    nullary main_c_59 (constantI S_ 32 63#32) ]

theorem c11_0_ok : Ok (F := F) c11_0 :=
  ⟨⟨nullary_bufs_sub .., rfl⟩, ⟨nullary_bufs_sub .., rfl⟩⟩

abbrev c11_1 : List (HloOp τ sig (Elt F)) :=
  [ TRef.unary (TRef.of (T := ⟨S_, .i32⟩) main_c_58) (TRef.of (T := ⟨S_, .i32⟩) main_call8_v0) id,
    TRef.unary (TRef.of (T := ⟨S_, .i32⟩) main_call8_v0) (TRef.of (T := ⟨S128x2048, .i32⟩) main_call8_v1) (broadcastInDim S128x2048 ![] bcast_S_S128x2048),
    TRef.binary (TRef.of (T := ⟨S128x2048, .i32⟩) main_call8_v1) (TRef.of (T := ⟨S128x2048, .i32⟩) main_v147) (TRef.of (T := ⟨S128x2048, .i32⟩) main_call8_v2) maxsi,
    TRef.unary (TRef.of (T := ⟨S_, .i32⟩) main_c_59) (TRef.of (T := ⟨S_, .i32⟩) main_call8_v3) id,
    TRef.unary (TRef.of (T := ⟨S_, .i32⟩) main_call8_v3) (TRef.of (T := ⟨S128x2048, .i32⟩) main_call8_v4) (broadcastInDim S128x2048 ![] bcast_S_S128x2048),
    TRef.binary (TRef.of (T := ⟨S128x2048, .i32⟩) main_call8_v4) (TRef.of (T := ⟨S128x2048, .i32⟩) main_call8_v2) (TRef.of (T := ⟨S128x2048, .i32⟩) main_v162) minsi ]

theorem c11_1_ok : Ok (F := F) c11_1 :=
  ⟨⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩⟩

abbrev c11_2 : List (HloOp τ sig (Elt F)) :=
  [ nullary main_c_60 (constantI S_ 32 0#32),
    unary main_c_60 main_v163 (broadcastInDim S128x2048 ![] bcast_S_S128x2048 : (⟨S_, .i32⟩ : BufTy).Contents (Elt F) → (⟨S128x2048, .i32⟩ : BufTy).Contents (Elt F)),
    binary main_v161 main_v163 main_v164 (cmpi .slt : (⟨S128x2048, .i32⟩ : BufTy).Contents (Elt F) → (⟨S128x2048, .i32⟩ : BufTy).Contents (Elt F) → (⟨S128x2048, .i1⟩ : BufTy).Contents (Elt F)) ]

theorem c11_2_ok : Ok (F := F) c11_2 :=
  ⟨⟨nullary_bufs_sub .., rfl⟩, ⟨unary_bufs_sub .., rfl⟩, ⟨binary_bufs_sub .., rfl⟩⟩

abbrev c11_3 : List (HloOp τ sig (Elt F)) :=
  [ nullary main_c_61 (constantI S_ 32 64#32),
    unary main_c_61 main_v165 (broadcastInDim S128x2048 ![] bcast_S_S128x2048 : (⟨S_, .i32⟩ : BufTy).Contents (Elt F) → (⟨S128x2048, .i32⟩ : BufTy).Contents (Elt F)),
    binary main_v161 main_v165 main_v166 (addi : (⟨S128x2048, .i32⟩ : BufTy).Contents (Elt F) → (⟨S128x2048, .i32⟩ : BufTy).Contents (Elt F) → (⟨S128x2048, .i32⟩ : BufTy).Contents (Elt F)) ]

theorem c11_3_ok : Ok (F := F) c11_3 :=
  ⟨⟨nullary_bufs_sub .., rfl⟩, ⟨unary_bufs_sub .., rfl⟩, ⟨binary_bufs_sub .., rfl⟩⟩

abbrev c11_4 : List (HloOp τ sig (Elt F)) :=
  [ ternary main_v164 main_v166 main_v161 main_v167 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F)),
    nullary main_c_62 (constantI S_ 32 0#32),
    unary main_c_62 main_v168 (broadcastInDim S128x2048 ![] bcast_S_S128x2048 : (⟨S_, .i32⟩ : BufTy).Contents (Elt F) → (⟨S128x2048, .i32⟩ : BufTy).Contents (Elt F)) ]

theorem c11_4_ok : Ok (F := F) c11_4 :=
  ⟨⟨ternary_bufs_sub .., rfl⟩, ⟨nullary_bufs_sub .., rfl⟩, ⟨unary_bufs_sub .., rfl⟩⟩

abbrev c11_5 : List (HloOp τ sig (Elt F)) :=
  [ binary main_v162 main_v168 main_v169 (cmpi .slt : (⟨S128x2048, .i32⟩ : BufTy).Contents (Elt F) → (⟨S128x2048, .i32⟩ : BufTy).Contents (Elt F) → (⟨S128x2048, .i1⟩ : BufTy).Contents (Elt F)),
    nullary main_c_63 (constantI S_ 32 64#32),
    unary main_c_63 main_v170 (broadcastInDim S128x2048 ![] bcast_S_S128x2048 : (⟨S_, .i32⟩ : BufTy).Contents (Elt F) → (⟨S128x2048, .i32⟩ : BufTy).Contents (Elt F)) ]

theorem c11_5_ok : Ok (F := F) c11_5 :=
  ⟨⟨binary_bufs_sub .., rfl⟩, ⟨nullary_bufs_sub .., rfl⟩, ⟨unary_bufs_sub .., rfl⟩⟩

abbrev c11_6 : List (HloOp τ sig (Elt F)) :=
  [ binary main_v162 main_v170 main_v171 (addi : (⟨S128x2048, .i32⟩ : BufTy).Contents (Elt F) → (⟨S128x2048, .i32⟩ : BufTy).Contents (Elt F) → (⟨S128x2048, .i32⟩ : BufTy).Contents (Elt F)),
    ternary main_v169 main_v171 main_v162 main_v172 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F)),
    unary main_v167 main_v173 (broadcastInDim S128x2048x1 ![0, 1] bcast_S128x2048_S128x2048x1_0_1 : (⟨S128x2048, .i32⟩ : BufTy).Contents (Elt F) → (⟨S128x2048x1, .i32⟩ : BufTy).Contents (Elt F)) ]

theorem c11_6_ok : Ok (F := F) c11_6 :=
  ⟨⟨binary_bufs_sub .., rfl⟩, ⟨ternary_bufs_sub .., rfl⟩, ⟨unary_bufs_sub .., rfl⟩⟩

def c9 : List (HloOp τ sig (Elt F)) := c9_0 ++ (c9_1 ++ (c9_2 ++ (c9_3 ++ (c9_4 ++ (c9_5 ++ (c9_6 ++ (c9_7)))))))

theorem c9_ok : Ok (F := F) c9 := c9_0_ok.append (c9_1_ok.append (c9_2_ok.append (c9_3_ok.append (c9_4_ok.append (c9_5_ok.append (c9_6_ok.append (c9_7_ok)))))))

def c10 : List (HloOp τ sig (Elt F)) := c10_0 ++ (c10_1 ++ (c10_2 ++ (c10_3 ++ (c10_4 ++ (c10_5 ++ (c10_6))))))

theorem c10_ok : Ok (F := F) c10 := c10_0_ok.append (c10_1_ok.append (c10_2_ok.append (c10_3_ok.append (c10_4_ok.append (c10_5_ok.append (c10_6_ok))))))

def c11 : List (HloOp τ sig (Elt F)) := c11_0 ++ (c11_1 ++ (c11_2 ++ (c11_3 ++ (c11_4 ++ (c11_5 ++ (c11_6))))))

theorem c11_ok : Ok (F := F) c11 := c11_0_ok.append (c11_1_ok.append (c11_2_ok.append (c11_3_ok.append (c11_4_ok.append (c11_5_ok.append (c11_6_ok))))))

def w3 : List (HloOp τ sig (Elt F)) := c9 ++ (c10 ++ (c11))

theorem w3_ok : Ok (F := F) w3 := c9_ok.append (c10_ok.append (c11_ok))

noncomputable def t3_p21 : Prog (TpuEff nD τ sig (Elt F) (Pipeline.Sig Λ₀ (Fin 0) fun p => (pcfgs (F := F) p).Adm) .tc) PUnit := do
  hlo rfl (StableHlo.binary main_v162 main_v170 main_v171 (addi : (⟨S128x2048, .i32⟩ : BufTy).Contents (Elt F) → (⟨S128x2048, .i32⟩ : BufTy).Contents (Elt F) → (⟨S128x2048, .i32⟩ : BufTy).Contents (Elt F))) (fun _ => .ret ⟨⟩)
  hlo rfl (StableHlo.ternary main_v169 main_v171 main_v162 main_v172 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F))) (fun _ => .ret ⟨⟩)
  hlo rfl (StableHlo.unary main_v167 main_v173 (broadcastInDim S128x2048x1 ![0, 1] bcast_S128x2048_S128x2048x1_0_1 : (⟨S128x2048, .i32⟩ : BufTy).Contents (Elt F) → (⟨S128x2048x1, .i32⟩ : BufTy).Contents (Elt F))) (fun _ => .ret ⟨⟩)

noncomputable def t3_p20 : Prog (TpuEff nD τ sig (Elt F) (Pipeline.Sig Λ₀ (Fin 0) fun p => (pcfgs (F := F) p).Adm) .tc) PUnit := do
  hlo rfl (StableHlo.binary main_v162 main_v168 main_v169 (cmpi .slt : (⟨S128x2048, .i32⟩ : BufTy).Contents (Elt F) → (⟨S128x2048, .i32⟩ : BufTy).Contents (Elt F) → (⟨S128x2048, .i1⟩ : BufTy).Contents (Elt F))) (fun _ => .ret ⟨⟩)
  hlo rfl (StableHlo.nullary main_c_63 (constantI S_ 32 64#32)) (fun _ => .ret ⟨⟩)
  hlo rfl (StableHlo.unary main_c_63 main_v170 (broadcastInDim S128x2048 ![] bcast_S_S128x2048 : (⟨S_, .i32⟩ : BufTy).Contents (Elt F) → (⟨S128x2048, .i32⟩ : BufTy).Contents (Elt F))) (fun _ => .ret ⟨⟩)
  t3_p21 (F := F)

noncomputable def t3_p19 : Prog (TpuEff nD τ sig (Elt F) (Pipeline.Sig Λ₀ (Fin 0) fun p => (pcfgs (F := F) p).Adm) .tc) PUnit := do
  hlo rfl (StableHlo.ternary main_v164 main_v166 main_v161 main_v167 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F))) (fun _ => .ret ⟨⟩)
  hlo rfl (StableHlo.nullary main_c_62 (constantI S_ 32 0#32)) (fun _ => .ret ⟨⟩)
  hlo rfl (StableHlo.unary main_c_62 main_v168 (broadcastInDim S128x2048 ![] bcast_S_S128x2048 : (⟨S_, .i32⟩ : BufTy).Contents (Elt F) → (⟨S128x2048, .i32⟩ : BufTy).Contents (Elt F))) (fun _ => .ret ⟨⟩)
  t3_p20 (F := F)

noncomputable def t3_p18 : Prog (TpuEff nD τ sig (Elt F) (Pipeline.Sig Λ₀ (Fin 0) fun p => (pcfgs (F := F) p).Adm) .tc) PUnit := do
  hlo rfl (StableHlo.nullary main_c_61 (constantI S_ 32 64#32)) (fun _ => .ret ⟨⟩)
  hlo rfl (StableHlo.unary main_c_61 main_v165 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v161 main_v165 main_v166 (addi : (⟨S128x2048, .i32⟩ : BufTy).Contents (Elt F) → (⟨S128x2048, .i32⟩ : BufTy).Contents (Elt F) → (⟨S128x2048, .i32⟩ : BufTy).Contents (Elt F))) (fun _ => .ret ⟨⟩)
  t3_p19 (F := F)

noncomputable def t3_p17 : Prog (TpuEff nD τ sig (Elt F) (Pipeline.Sig Λ₀ (Fin 0) fun p => (pcfgs (F := F) p).Adm) .tc) PUnit := do
  hlo rfl (StableHlo.nullary main_c_60 (constantI S_ 32 0#32)) (fun _ => .ret ⟨⟩)
  hlo rfl (StableHlo.unary main_c_60 main_v163 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v161 main_v163 main_v164 (cmpi .slt : (⟨S128x2048, .i32⟩ : BufTy).Contents (Elt F) → (⟨S128x2048, .i32⟩ : BufTy).Contents (Elt F) → (⟨S128x2048, .i1⟩ : BufTy).Contents (Elt F))) (fun _ => .ret ⟨⟩)
  t3_p18 (F := F)

noncomputable def t3_p16 : Prog (TpuEff nD τ sig (Elt F) (Pipeline.Sig Λ₀ (Fin 0) fun p => (pcfgs (F := F) p).Adm) .tc) PUnit := do
  fn_clip_0.body (.of main_v147) (.of main_c_58) (.of main_c_59) main_call8
  t3_p17 (F := F)

noncomputable def t3_p15 : Prog (TpuEff nD τ sig (Elt F) (Pipeline.Sig Λ₀ (Fin 0) fun p => (pcfgs (F := F) p).Adm) .tc) PUnit := do
  hlo rfl (StableHlo.nullary main_c_58 (constantI S_ 32 0#32)) (fun _ => .ret ⟨⟩)
  hlo rfl (StableHlo.nullary main_c_59 (constantI S_ 32 63#32)) (fun _ => .ret ⟨⟩)
  t3_p16 (F := F)

noncomputable def t3_p14 : Prog (TpuEff nD τ sig (Elt F) (Pipeline.Sig Λ₀ (Fin 0) fun p => (pcfgs (F := F) p).Adm) .tc) PUnit := do
  fn_clip_0.body (.of main_v145) (.of main_c_56) (.of main_c_57) main_call7
  t3_p15 (F := F)

noncomputable def t3_p13 : Prog (TpuEff nD τ sig (Elt F) (Pipeline.Sig Λ₀ (Fin 0) fun p => (pcfgs (F := F) p).Adm) .tc) PUnit := do
  hlo rfl (StableHlo.unary main_v159 main_v160 (uitofp .f32 : (⟨S128x2048, .i1⟩ : BufTy).Contents (Elt F) → (⟨S128x2048, .f32⟩ : BufTy).Contents (Elt F))) (fun _ => .ret ⟨⟩)
  hlo rfl (StableHlo.nullary main_c_56 (constantI S_ 32 0#32)) (fun _ => .ret ⟨⟩)
  hlo rfl (StableHlo.nullary main_c_57 (constantI S_ 32 63#32)) (fun _ => .ret ⟨⟩)
  t3_p14 (F := F)

noncomputable def t3_p12 : Prog (TpuEff nD τ sig (Elt F) (Pipeline.Sig Λ₀ (Fin 0) fun p => (pcfgs (F := F) p).Adm) .tc) PUnit := do
  hlo rfl (StableHlo.unary main_c_55 main_v157 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v147 main_v157 main_v158 (cmpi .slt : (⟨S128x2048, .i32⟩ : BufTy).Contents (Elt F) → (⟨S128x2048, .i32⟩ : BufTy).Contents (Elt F) → (⟨S128x2048, .i1⟩ : BufTy).Contents (Elt F))) (fun _ => .ret ⟨⟩)
  hlo rfl (StableHlo.binary main_v156 main_v158 main_v159 (andi : (⟨S128x2048, .i1⟩ : BufTy).Contents (Elt F) → (⟨S128x2048, .i1⟩ : BufTy).Contents (Elt F) → (⟨S128x2048, .i1⟩ : BufTy).Contents (Elt F))) (fun _ => .ret ⟨⟩)
  t3_p13 (F := F)

noncomputable def t3_p11 : Prog (TpuEff nD τ sig (Elt F) (Pipeline.Sig Λ₀ (Fin 0) fun p => (pcfgs (F := F) p).Adm) .tc) PUnit := do
  hlo rfl (StableHlo.binary main_v147 main_v154 main_v155 (cmpi .sge : (⟨S128x2048, .i32⟩ : BufTy).Contents (Elt F) → (⟨S128x2048, .i32⟩ : BufTy).Contents (Elt F) → (⟨S128x2048, .i1⟩ : BufTy).Contents (Elt F))) (fun _ => .ret ⟨⟩)
  hlo rfl (StableHlo.binary main_v153 main_v155 main_v156 (andi : (⟨S128x2048, .i1⟩ : BufTy).Contents (Elt F) → (⟨S128x2048, .i1⟩ : BufTy).Contents (Elt F) → (⟨S128x2048, .i1⟩ : BufTy).Contents (Elt F))) (fun _ => .ret ⟨⟩)
  hlo rfl (StableHlo.nullary main_c_55 (constantI S_ 32 64#32)) (fun _ => .ret ⟨⟩)
  t3_p12 (F := F)

noncomputable def t3_p10 : Prog (TpuEff nD τ sig (Elt F) (Pipeline.Sig Λ₀ (Fin 0) fun p => (pcfgs (F := F) p).Adm) .tc) PUnit := do
  hlo rfl (StableHlo.binary main_v150 main_v152 main_v153 (andi : (⟨S128x2048, .i1⟩ : BufTy).Contents (Elt F) → (⟨S128x2048, .i1⟩ : BufTy).Contents (Elt F) → (⟨S128x2048, .i1⟩ : BufTy).Contents (Elt F))) (fun _ => .ret ⟨⟩)
  hlo rfl (StableHlo.nullary main_c_54 (constantI S_ 32 0#32)) (fun _ => .ret ⟨⟩)
  hlo rfl (StableHlo.unary main_c_54 main_v154 (broadcastInDim S128x2048 ![] bcast_S_S128x2048 : (⟨S_, .i32⟩ : BufTy).Contents (Elt F) → (⟨S128x2048, .i32⟩ : BufTy).Contents (Elt F))) (fun _ => .ret ⟨⟩)
  t3_p11 (F := F)

noncomputable def t3_p9 : Prog (TpuEff nD τ sig (Elt F) (Pipeline.Sig Λ₀ (Fin 0) fun p => (pcfgs (F := F) p).Adm) .tc) PUnit := do
  hlo rfl (StableHlo.nullary main_c_53 (constantI S_ 32 64#32)) (fun _ => .ret ⟨⟩)
  hlo rfl (StableHlo.unary main_c_53 main_v151 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v145 main_v151 main_v152 (cmpi .slt : (⟨S128x2048, .i32⟩ : BufTy).Contents (Elt F) → (⟨S128x2048, .i32⟩ : BufTy).Contents (Elt F) → (⟨S128x2048, .i1⟩ : BufTy).Contents (Elt F))) (fun _ => .ret ⟨⟩)
  t3_p10 (F := F)

noncomputable def t3_p8 : Prog (TpuEff nD τ sig (Elt F) (Pipeline.Sig Λ₀ (Fin 0) fun p => (pcfgs (F := F) p).Adm) .tc) PUnit := do
  hlo rfl (StableHlo.nullary main_c_52 (constantI S_ 32 0#32)) (fun _ => .ret ⟨⟩)
  hlo rfl (StableHlo.unary main_c_52 main_v149 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v145 main_v149 main_v150 (cmpi .sge : (⟨S128x2048, .i32⟩ : BufTy).Contents (Elt F) → (⟨S128x2048, .i32⟩ : BufTy).Contents (Elt F) → (⟨S128x2048, .i1⟩ : BufTy).Contents (Elt F))) (fun _ => .ret ⟨⟩)
  t3_p9 (F := F)

noncomputable def t3_p7 : Prog (TpuEff nD τ sig (Elt F) (Pipeline.Sig Λ₀ (Fin 0) fun p => (pcfgs (F := F) p).Adm) .tc) PUnit := do
  hlo rfl (StableHlo.binary main_v29 main_v146 main_v147 (addi : (⟨S128x2048, .i32⟩ : BufTy).Contents (Elt F) → (⟨S128x2048, .i32⟩ : BufTy).Contents (Elt F) → (⟨S128x2048, .i32⟩ : BufTy).Contents (Elt F))) (fun _ => .ret ⟨⟩)
  hlo rfl (StableHlo.binary main_v28 main_v27 main_v148 (mulf : (⟨S128x2048, .f32⟩ : BufTy).Contents (Elt F) → (⟨S128x2048, .f32⟩ : BufTy).Contents (Elt F) → (⟨S128x2048, .f32⟩ : BufTy).Contents (Elt F))) (fun _ => .ret ⟨⟩)
  t3_p8 (F := F)

noncomputable def t3_p6 : Prog (TpuEff nD τ sig (Elt F) (Pipeline.Sig Λ₀ (Fin 0) fun p => (pcfgs (F := F) p).Adm) .tc) PUnit := do
  hlo rfl (StableHlo.binary main_v30 main_v144 main_v145 (addi : (⟨S128x2048, .i32⟩ : BufTy).Contents (Elt F) → (⟨S128x2048, .i32⟩ : BufTy).Contents (Elt F) → (⟨S128x2048, .i32⟩ : BufTy).Contents (Elt F))) (fun _ => .ret ⟨⟩)
  hlo rfl (StableHlo.nullary main_c_51 (constantI S_ 32 1#32)) (fun _ => .ret ⟨⟩)
  hlo rfl (StableHlo.unary main_c_51 main_v146 (broadcastInDim S128x2048 ![] bcast_S_S128x2048 : (⟨S_, .i32⟩ : BufTy).Contents (Elt F) → (⟨S128x2048, .i32⟩ : BufTy).Contents (Elt F))) (fun _ => .ret ⟨⟩)
  t3_p7 (F := F)

noncomputable def t3_p5 : Prog (TpuEff nD τ sig (Elt F) (Pipeline.Sig Λ₀ (Fin 0) fun p => (pcfgs (F := F) p).Adm) .tc) PUnit := do
  hlo rfl (StableHlo.binary main_v105 main_v142 main_v143 (addf : (⟨S128x64x2048, .f32⟩ : BufTy).Contents (Elt F) → (⟨S128x64x2048, .f32⟩ : BufTy).Contents (Elt F) → (⟨S128x64x2048, .f32⟩ : BufTy).Contents (Elt F))) (fun _ => .ret ⟨⟩)
  hlo rfl (StableHlo.nullary main_c_50 (constantI S_ 32 1#32)) (fun _ => .ret ⟨⟩)
  hlo rfl (StableHlo.unary main_c_50 main_v144 (broadcastInDim S128x2048 ![] bcast_S_S128x2048 : (⟨S_, .i32⟩ : BufTy).Contents (Elt F) → (⟨S128x2048, .i32⟩ : BufTy).Contents (Elt F))) (fun _ => .ret ⟨⟩)
  t3_p6 (F := F)

noncomputable def t3_p4 : Prog (TpuEff nD τ sig (Elt F) (Pipeline.Sig Λ₀ (Fin 0) fun p => (pcfgs (F := F) p).Adm) .tc) PUnit := do
  hlo rfl (StableHlo.unary main_v139 main_v140 (broadcastInDim S128x1x2048 ![0, 2] bcast_S128x2048_S128x1x2048_0_2 : (⟨S128x2048, .f32⟩ : BufTy).Contents (Elt F) → (⟨S128x1x2048, .f32⟩ : BufTy).Contents (Elt F))) (fun _ => .ret ⟨⟩)
  hlo rfl (StableHlo.unary main_v140 main_v141 (broadcastInDim S128x64x2048 ![0, 1, 2] bcast_S128x1x2048_S128x64x2048_0_1_2 : (⟨S128x1x2048, .f32⟩ : BufTy).Contents (Elt F) → (⟨S128x64x2048, .f32⟩ : BufTy).Contents (Elt F))) (fun _ => .ret ⟨⟩)
  hlo rfl (StableHlo.binary main_v138 main_v141 main_v142 (mulf : (⟨S128x64x2048, .f32⟩ : BufTy).Contents (Elt F) → (⟨S128x64x2048, .f32⟩ : BufTy).Contents (Elt F) → (⟨S128x64x2048, .f32⟩ : BufTy).Contents (Elt F))) (fun _ => .ret ⟨⟩)
  t3_p5 (F := F)

noncomputable def t3_p3 : Prog (TpuEff nD τ sig (Elt F) (Pipeline.Sig Λ₀ (Fin 0) fun p => (pcfgs (F := F) p).Adm) .tc) PUnit := do
  hlo rfl (StableHlo.binary main_v135 main_v136 main_v137 ((fun a b => concatenate S128x2048x2 2 [⟨S128x2048x1, a⟩, ⟨S128x2048x1, b⟩] concatenates_S128x2048x1_S128x2048x1_S128x2048x2_d2) : (⟨S128x2048x1, .i32⟩ : BufTy).Contents (Elt F) → (⟨S128x2048x1, .i32⟩ : BufTy).Contents (Elt F) → (⟨S128x2048x2, .i32⟩ : BufTy).Contents (Elt F))) (fun _ => .ret ⟨⟩)
  hlo rfl (StableHlo.binary main_v4 main_v137 main_v138 ((fun x i => Host.gather gather_S128x64x64x64_S128x2048x2_S128x64x2048_1_23_0_0_23_2_16411 x i) : (⟨S128x64x64x64, .f32⟩ : BufTy).Contents (Elt F) → (⟨S128x2048x2, .i32⟩ : BufTy).Contents (Elt F) → (⟨S128x64x2048, .f32⟩ : BufTy).Contents (Elt F))) (fun _ => .ret ⟨⟩)
  hlo rfl (StableHlo.binary main_v110 main_v122 main_v139 (mulf : (⟨S128x2048, .f32⟩ : BufTy).Contents (Elt F) → (⟨S128x2048, .f32⟩ : BufTy).Contents (Elt F) → (⟨S128x2048, .f32⟩ : BufTy).Contents (Elt F))) (fun _ => .ret ⟨⟩)
  t3_p4 (F := F)

noncomputable def t3_p2 : Prog (TpuEff nD τ sig (Elt F) (Pipeline.Sig Λ₀ (Fin 0) fun p => (pcfgs (F := F) p).Adm) .tc) PUnit := do
  hlo rfl (StableHlo.ternary main_v131 main_v133 main_v124 main_v134 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F))) (fun _ => .ret ⟨⟩)
  hlo rfl (StableHlo.unary main_v129 main_v135 (broadcastInDim S128x2048x1 ![0, 1] bcast_S128x2048_S128x2048x1_0_1 : (⟨S128x2048, .i32⟩ : BufTy).Contents (Elt F) → (⟨S128x2048x1, .i32⟩ : BufTy).Contents (Elt F))) (fun _ => .ret ⟨⟩)
  hlo rfl (StableHlo.unary main_v134 main_v136 (broadcastInDim S128x2048x1 ![0, 1] bcast_S128x2048_S128x2048x1_0_1 : (⟨S128x2048, .i32⟩ : BufTy).Contents (Elt F) → (⟨S128x2048x1, .i32⟩ : BufTy).Contents (Elt F))) (fun _ => .ret ⟨⟩)
  t3_p3 (F := F)

noncomputable def t3_p1 : Prog (TpuEff nD τ sig (Elt F) (Pipeline.Sig Λ₀ (Fin 0) fun p => (pcfgs (F := F) p).Adm) .tc) PUnit := do
  hlo rfl (StableHlo.nullary main_c_49 (constantI S_ 32 64#32)) (fun _ => .ret ⟨⟩)
  hlo rfl (StableHlo.unary main_c_49 main_v132 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v124 main_v132 main_v133 (addi : (⟨S128x2048, .i32⟩ : BufTy).Contents (Elt F) → (⟨S128x2048, .i32⟩ : BufTy).Contents (Elt F) → (⟨S128x2048, .i32⟩ : BufTy).Contents (Elt F))) (fun _ => .ret ⟨⟩)
  t3_p2 (F := F)

theorem main_part3_chain (d : Dev nD) : main_part3 (F := F) d = (Pipeline.chainK
  [ seq c9_0 ]
  (t3_p1 (F := F)) : Prog (TpuEff nD τ sig (Elt F) (Pipeline.Sig Λ₀ (Fin 0) fun p => (pcfgs (F := F) p).Adm) .tc) PUnit) := by
  chain_rfl

theorem t3_p1_eq : t3_p1 (F := F) = (Pipeline.chainK
  [ seq c9_1 ]
  (t3_p2 (F := F)) : Prog (TpuEff nD τ sig (Elt F) (Pipeline.Sig Λ₀ (Fin 0) fun p => (pcfgs (F := F) p).Adm) .tc) PUnit) := by
  chain_rfl

theorem t3_p2_eq : t3_p2 (F := F) = (Pipeline.chainK
  [ seq c9_2 ]
  (t3_p3 (F := F)) : Prog (TpuEff nD τ sig (Elt F) (Pipeline.Sig Λ₀ (Fin 0) fun p => (pcfgs (F := F) p).Adm) .tc) PUnit) := by
  chain_rfl

theorem t3_p3_eq : t3_p3 (F := F) = (Pipeline.chainK
  [ seq c9_3 ]
  (t3_p4 (F := F)) : Prog (TpuEff nD τ sig (Elt F) (Pipeline.Sig Λ₀ (Fin 0) fun p => (pcfgs (F := F) p).Adm) .tc) PUnit) := by
  chain_rfl

theorem t3_p4_eq : t3_p4 (F := F) = (Pipeline.chainK
  [ seq c9_4 ]
  (t3_p5 (F := F)) : Prog (TpuEff nD τ sig (Elt F) (Pipeline.Sig Λ₀ (Fin 0) fun p => (pcfgs (F := F) p).Adm) .tc) PUnit) := by
  chain_rfl

theorem t3_p5_eq : t3_p5 (F := F) = (Pipeline.chainK
  [ seq c9_5 ]
  (t3_p6 (F := F)) : Prog (TpuEff nD τ sig (Elt F) (Pipeline.Sig Λ₀ (Fin 0) fun p => (pcfgs (F := F) p).Adm) .tc) PUnit) := by
  chain_rfl

theorem t3_p6_eq : t3_p6 (F := F) = (Pipeline.chainK
  [ seq c9_6 ]
  (t3_p7 (F := F)) : Prog (TpuEff nD τ sig (Elt F) (Pipeline.Sig Λ₀ (Fin 0) fun p => (pcfgs (F := F) p).Adm) .tc) PUnit) := by
  chain_rfl

theorem t3_p7_eq : t3_p7 (F := F) = (Pipeline.chainK
  [ seq c9_7 ]
  (t3_p8 (F := F)) : Prog (TpuEff nD τ sig (Elt F) (Pipeline.Sig Λ₀ (Fin 0) fun p => (pcfgs (F := F) p).Adm) .tc) PUnit) := by
  chain_rfl

theorem t3_p8_eq : t3_p8 (F := F) = (Pipeline.chainK
  [ seq c10_0 ]
  (t3_p9 (F := F)) : Prog (TpuEff nD τ sig (Elt F) (Pipeline.Sig Λ₀ (Fin 0) fun p => (pcfgs (F := F) p).Adm) .tc) PUnit) := by
  chain_rfl

theorem t3_p9_eq : t3_p9 (F := F) = (Pipeline.chainK
  [ seq c10_1 ]
  (t3_p10 (F := F)) : Prog (TpuEff nD τ sig (Elt F) (Pipeline.Sig Λ₀ (Fin 0) fun p => (pcfgs (F := F) p).Adm) .tc) PUnit) := by
  chain_rfl

theorem t3_p10_eq : t3_p10 (F := F) = (Pipeline.chainK
  [ seq c10_2 ]
  (t3_p11 (F := F)) : Prog (TpuEff nD τ sig (Elt F) (Pipeline.Sig Λ₀ (Fin 0) fun p => (pcfgs (F := F) p).Adm) .tc) PUnit) := by
  chain_rfl

theorem t3_p11_eq : t3_p11 (F := F) = (Pipeline.chainK
  [ seq c10_3 ]
  (t3_p12 (F := F)) : Prog (TpuEff nD τ sig (Elt F) (Pipeline.Sig Λ₀ (Fin 0) fun p => (pcfgs (F := F) p).Adm) .tc) PUnit) := by
  chain_rfl

theorem t3_p12_eq : t3_p12 (F := F) = (Pipeline.chainK
  [ seq c10_4 ]
  (t3_p13 (F := F)) : Prog (TpuEff nD τ sig (Elt F) (Pipeline.Sig Λ₀ (Fin 0) fun p => (pcfgs (F := F) p).Adm) .tc) PUnit) := by
  chain_rfl

theorem t3_p13_eq : t3_p13 (F := F) = (Pipeline.chainK
  [ seq c10_5 ]
  (t3_p14 (F := F)) : Prog (TpuEff nD τ sig (Elt F) (Pipeline.Sig Λ₀ (Fin 0) fun p => (pcfgs (F := F) p).Adm) .tc) PUnit) := by
  chain_rfl

theorem t3_p14_eq : t3_p14 (F := F) = (Pipeline.chainK
  [ seq c10_6 ]
  (t3_p15 (F := F)) : Prog (TpuEff nD τ sig (Elt F) (Pipeline.Sig Λ₀ (Fin 0) fun p => (pcfgs (F := F) p).Adm) .tc) PUnit) := by
  chain_rfl

theorem t3_p15_eq : t3_p15 (F := F) = (Pipeline.chainK
  [ seq c11_0 ]
  (t3_p16 (F := F)) : Prog (TpuEff nD τ sig (Elt F) (Pipeline.Sig Λ₀ (Fin 0) fun p => (pcfgs (F := F) p).Adm) .tc) PUnit) := by
  chain_rfl

theorem t3_p16_eq : t3_p16 (F := F) = (Pipeline.chainK
  [ seq c11_1 ]
  (t3_p17 (F := F)) : Prog (TpuEff nD τ sig (Elt F) (Pipeline.Sig Λ₀ (Fin 0) fun p => (pcfgs (F := F) p).Adm) .tc) PUnit) := by
  chain_rfl

theorem t3_p17_eq : t3_p17 (F := F) = (Pipeline.chainK
  [ seq c11_2 ]
  (t3_p18 (F := F)) : Prog (TpuEff nD τ sig (Elt F) (Pipeline.Sig Λ₀ (Fin 0) fun p => (pcfgs (F := F) p).Adm) .tc) PUnit) := by
  chain_rfl

theorem t3_p18_eq : t3_p18 (F := F) = (Pipeline.chainK
  [ seq c11_3 ]
  (t3_p19 (F := F)) : Prog (TpuEff nD τ sig (Elt F) (Pipeline.Sig Λ₀ (Fin 0) fun p => (pcfgs (F := F) p).Adm) .tc) PUnit) := by
  chain_rfl

theorem t3_p19_eq : t3_p19 (F := F) = (Pipeline.chainK
  [ seq c11_4 ]
  (t3_p20 (F := F)) : Prog (TpuEff nD τ sig (Elt F) (Pipeline.Sig Λ₀ (Fin 0) fun p => (pcfgs (F := F) p).Adm) .tc) PUnit) := by
  chain_rfl

theorem t3_p20_eq : t3_p20 (F := F) = (Pipeline.chainK
  [ seq c11_5 ]
  (t3_p21 (F := F)) : Prog (TpuEff nD τ sig (Elt F) (Pipeline.Sig Λ₀ (Fin 0) fun p => (pcfgs (F := F) p).Adm) .tc) PUnit) := by
  chain_rfl

theorem t3_p21_eq : t3_p21 (F := F) = (Pipeline.chainK
  [  ]
  (seq c11_6) : Prog (TpuEff nD τ sig (Elt F) (Pipeline.Sig Λ₀ (Fin 0) fun p => (pcfgs (F := F) p).Adm) .tc) PUnit) := by
  chain_rfl

theorem main_part3_eq (d : Dev nD) : main_part3 (F := F) d = (seq w3 : Prog (TpuEff nD τ sig (Elt F) (Pipeline.Sig Λ₀ (Fin 0) fun p => (pcfgs (F := F) p).Adm) .tc) PUnit) := by
  rw [main_part3_chain d, t3_p1_eq, t3_p2_eq, t3_p3_eq, t3_p4_eq, t3_p5_eq, t3_p6_eq, t3_p7_eq, t3_p8_eq, t3_p9_eq, t3_p10_eq, t3_p11_eq, t3_p12_eq, t3_p13_eq, t3_p14_eq, t3_p15_eq, t3_p16_eq, t3_p17_eq, t3_p18_eq, t3_p19_eq, t3_p20_eq, t3_p21_eq]
  simp only [w3, c9, c10, c11, Pipeline.chainK, seq_append, bind_assoc]

end Cert.ReferenceIdeal.RefRunGen

end
-- ==== Proof.RefRunGen.P4.lean ====
import proofs.«416765_j9792525435349_4_alg».proof.Proof.RefRunGen.Ok
import Idealize.ShloMosaic.Lib.Pipeline.Regions

noncomputable section

namespace Cert.ReferenceIdeal.RefRunGen

open Cert.ReferenceIdeal Cert.ReferenceIdeal.Gen Idealize.ShloMosaic Idealize.ShloMosaic.TcCoe Idealize.SL.Sem Idealize.ShloMosaic.StableHlo

variable {F : FTy → Type} [FloatOps F]

abbrev c12_0 : List (HloOp τ sig (Elt F)) :=
  [ unary main_v172 main_v174 (broadcastInDim S128x2048x1 ![0, 1] bcast_S128x2048_S128x2048x1_0_1 : (⟨S128x2048, .i32⟩ : BufTy).Contents (Elt F) → (⟨S128x2048x1, .i32⟩ : BufTy).Contents (Elt F)),
    binary main_v173 main_v174 main_v175 ((fun a b => concatenate S128x2048x2 2 [⟨S128x2048x1, a⟩, ⟨S128x2048x1, b⟩] concatenates_S128x2048x1_S128x2048x1_S128x2048x2_d2) : (⟨S128x2048x1, .i32⟩ : BufTy).Contents (Elt F) → (⟨S128x2048x1, .i32⟩ : BufTy).Contents (Elt F) → (⟨S128x2048x2, .i32⟩ : BufTy).Contents (Elt F)),
    binary main_v4 main_v175 main_v176 ((fun x i => Host.gather gather_S128x64x64x64_S128x2048x2_S128x64x2048_1_23_0_0_23_2_16411 x i) : (⟨S128x64x64x64, .f32⟩ : BufTy).Contents (Elt F) → (⟨S128x2048x2, .i32⟩ : BufTy).Contents (Elt F) → (⟨S128x64x2048, .f32⟩ : BufTy).Contents (Elt F)) ]

theorem c12_0_ok : Ok (F := F) c12_0 :=
  ⟨⟨unary_bufs_sub .., rfl⟩, ⟨binary_bufs_sub .., rfl⟩, ⟨binary_bufs_sub .., rfl⟩⟩

abbrev c12_1 : List (HloOp τ sig (Elt F)) :=
  [ binary main_v148 main_v160 main_v177 (mulf : (⟨S128x2048, .f32⟩ : BufTy).Contents (Elt F) → (⟨S128x2048, .f32⟩ : BufTy).Contents (Elt F) → (⟨S128x2048, .f32⟩ : BufTy).Contents (Elt F)),
    unary main_v177 main_v178 (broadcastInDim S128x1x2048 ![0, 2] bcast_S128x2048_S128x1x2048_0_2 : (⟨S128x2048, .f32⟩ : BufTy).Contents (Elt F) → (⟨S128x1x2048, .f32⟩ : BufTy).Contents (Elt F)),
    unary main_v178 main_v179 (broadcastInDim S128x64x2048 ![0, 1, 2] bcast_S128x1x2048_S128x64x2048_0_1_2 : (⟨S128x1x2048, .f32⟩ : BufTy).Contents (Elt F) → (⟨S128x64x2048, .f32⟩ : BufTy).Contents (Elt F)) ]

theorem c12_1_ok : Ok (F := F) c12_1 :=
  ⟨⟨binary_bufs_sub .., rfl⟩, ⟨unary_bufs_sub .., rfl⟩, ⟨unary_bufs_sub .., rfl⟩⟩

abbrev c12_2 : List (HloOp τ sig (Elt F)) :=
  [ binary main_v176 main_v179 main_v180 (mulf : (⟨S128x64x2048, .f32⟩ : BufTy).Contents (Elt F) → (⟨S128x64x2048, .f32⟩ : BufTy).Contents (Elt F) → (⟨S128x64x2048, .f32⟩ : BufTy).Contents (Elt F)),
    binary main_v143 main_v180 main_v181 (addf : (⟨S128x64x2048, .f32⟩ : BufTy).Contents (Elt F) → (⟨S128x64x2048, .f32⟩ : BufTy).Contents (Elt F) → (⟨S128x64x2048, .f32⟩ : BufTy).Contents (Elt F)),
    reshape main_v4 main_v182 rfl shapeCasts_S128x64x64x64_S128x64x32x2x32x2 ]

theorem c12_2_ok : Ok (F := F) c12_2 :=
  ⟨⟨binary_bufs_sub .., rfl⟩, ⟨binary_bufs_sub .., rfl⟩, ⟨reshape_bufs_sub .., rfl⟩⟩

abbrev c12_3 : List (HloOp τ sig (Elt F)) :=
  [ nullary main_cst_64 (constant S_ .f32 0x00000000#32),
    binary main_v182 main_cst_64 main_v183 ((fun x v => Host.reduceAdd x v reducesTo_S128x64x32x2x32x2_S128x64x32x32_d3_5 h_S_) : (⟨S128x64x32x2x32x2, .f32⟩ : BufTy).Contents (Elt F) → (⟨S_, .f32⟩ : BufTy).Contents (Elt F) → (⟨S128x64x32x32, .f32⟩ : BufTy).Contents (Elt F)),
    nullary main_cst_65 (constant S_ .f32 0x40800000#32) ]

theorem c12_3_ok : Ok (F := F) c12_3 :=
  ⟨⟨nullary_bufs_sub .., rfl⟩, ⟨binary_bufs_sub .., rfl⟩, ⟨nullary_bufs_sub .., rfl⟩⟩

abbrev c12_4 : List (HloOp τ sig (Elt F)) :=
  [ unary main_cst_65 main_v184 (broadcastInDim S128x64x32x32 ![] bcast_S_S128x64x32x32 : (⟨S_, .f32⟩ : BufTy).Contents (Elt F) → (⟨S128x64x32x32, .f32⟩ : BufTy).Contents (Elt F)),
    binary main_v183 main_v184 main_v185 (Host.divf : (⟨S128x64x32x32, .f32⟩ : BufTy).Contents (Elt F) → (⟨S128x64x32x32, .f32⟩ : BufTy).Contents (Elt F) → (⟨S128x64x32x32, .f32⟩ : BufTy).Contents (Elt F)),
    unary main_v2 main_v186 ((extractStridedSlice S128x2048x1 ![0, 0, 0] · slices_S128x2048x2_S128x2048x1_0_0_0) : (⟨S128x2048x2, .f32⟩ : BufTy).Contents (Elt F) → (⟨S128x2048x1, .f32⟩ : BufTy).Contents (Elt F)) ]

theorem c12_4_ok : Ok (F := F) c12_4 :=
  ⟨⟨unary_bufs_sub .., rfl⟩, ⟨binary_bufs_sub .., rfl⟩, ⟨unary_bufs_sub .., rfl⟩⟩

abbrev c12_5 : List (HloOp τ sig (Elt F)) :=
  [ reshape main_v186 main_v187 rfl shapeCasts_S128x2048x1_S128x2048,
    nullary main_cst_66 (constant S_ .f32 0x3F800000#32),
    unary main_cst_66 main_v188 (broadcastInDim S128x2048 ![] bcast_S_S128x2048 : (⟨S_, .f32⟩ : BufTy).Contents (Elt F) → (⟨S128x2048, .f32⟩ : BufTy).Contents (Elt F)) ]

theorem c12_5_ok : Ok (F := F) c12_5 :=
  ⟨⟨reshape_bufs_sub .., rfl⟩, ⟨nullary_bufs_sub .., rfl⟩, ⟨unary_bufs_sub .., rfl⟩⟩

abbrev c12_6 : List (HloOp τ sig (Elt F)) :=
  [ binary main_v187 main_v188 main_v189 (addf : (⟨S128x2048, .f32⟩ : BufTy).Contents (Elt F) → (⟨S128x2048, .f32⟩ : BufTy).Contents (Elt F) → (⟨S128x2048, .f32⟩ : BufTy).Contents (Elt F)),
    nullary main_cst_67 (constant S_ .f32 0x42000000#32) ]

theorem c12_6_ok : Ok (F := F) c12_6 :=
  ⟨⟨binary_bufs_sub .., rfl⟩, ⟨nullary_bufs_sub .., rfl⟩⟩

abbrev c13_0 : List (HloOp τ sig (Elt F)) :=
  [ unary main_cst_67 main_v190 (broadcastInDim S128x2048 ![] bcast_S_S128x2048 : (⟨S_, .f32⟩ : BufTy).Contents (Elt F) → (⟨S128x2048, .f32⟩ : BufTy).Contents (Elt F)),
    binary main_v189 main_v190 main_v191 (mulf : (⟨S128x2048, .f32⟩ : BufTy).Contents (Elt F) → (⟨S128x2048, .f32⟩ : BufTy).Contents (Elt F) → (⟨S128x2048, .f32⟩ : BufTy).Contents (Elt F)),
    nullary main_cst_68 (constant S_ .f32 0x3F800000#32) ]

theorem c13_0_ok : Ok (F := F) c13_0 :=
  ⟨⟨unary_bufs_sub .., rfl⟩, ⟨binary_bufs_sub .., rfl⟩, ⟨nullary_bufs_sub .., rfl⟩⟩

abbrev c13_1 : List (HloOp τ sig (Elt F)) :=
  [ unary main_cst_68 main_v192 (broadcastInDim S128x2048 ![] bcast_S_S128x2048 : (⟨S_, .f32⟩ : BufTy).Contents (Elt F) → (⟨S128x2048, .f32⟩ : BufTy).Contents (Elt F)),
    binary main_v191 main_v192 main_v193 (subf : (⟨S128x2048, .f32⟩ : BufTy).Contents (Elt F) → (⟨S128x2048, .f32⟩ : BufTy).Contents (Elt F) → (⟨S128x2048, .f32⟩ : BufTy).Contents (Elt F)),
    nullary main_cst_69 (constant S_ .f32 0x3F000000#32) ]

theorem c13_1_ok : Ok (F := F) c13_1 :=
  ⟨⟨unary_bufs_sub .., rfl⟩, ⟨binary_bufs_sub .., rfl⟩, ⟨nullary_bufs_sub .., rfl⟩⟩

abbrev c13_2 : List (HloOp τ sig (Elt F)) :=
  [ unary main_cst_69 main_v194 (broadcastInDim S128x2048 ![] bcast_S_S128x2048 : (⟨S_, .f32⟩ : BufTy).Contents (Elt F) → (⟨S128x2048, .f32⟩ : BufTy).Contents (Elt F)),
    binary main_v193 main_v194 main_v195 (mulf : (⟨S128x2048, .f32⟩ : BufTy).Contents (Elt F) → (⟨S128x2048, .f32⟩ : BufTy).Contents (Elt F) → (⟨S128x2048, .f32⟩ : BufTy).Contents (Elt F)),
    unary main_v2 main_v196 ((extractStridedSlice S128x2048x1 ![0, 0, 1] · slices_S128x2048x2_S128x2048x1_0_0_1) : (⟨S128x2048x2, .f32⟩ : BufTy).Contents (Elt F) → (⟨S128x2048x1, .f32⟩ : BufTy).Contents (Elt F)) ]

theorem c13_2_ok : Ok (F := F) c13_2 :=
  ⟨⟨unary_bufs_sub .., rfl⟩, ⟨binary_bufs_sub .., rfl⟩, ⟨unary_bufs_sub .., rfl⟩⟩

abbrev c13_3 : List (HloOp τ sig (Elt F)) :=
  [ reshape main_v196 main_v197 rfl shapeCasts_S128x2048x1_S128x2048,
    nullary main_cst_70 (constant S_ .f32 0x3F800000#32),
    unary main_cst_70 main_v198 (broadcastInDim S128x2048 ![] bcast_S_S128x2048 : (⟨S_, .f32⟩ : BufTy).Contents (Elt F) → (⟨S128x2048, .f32⟩ : BufTy).Contents (Elt F)) ]

theorem c13_3_ok : Ok (F := F) c13_3 :=
  ⟨⟨reshape_bufs_sub .., rfl⟩, ⟨nullary_bufs_sub .., rfl⟩, ⟨unary_bufs_sub .., rfl⟩⟩

abbrev c13_4 : List (HloOp τ sig (Elt F)) :=
  [ binary main_v197 main_v198 main_v199 (addf : (⟨S128x2048, .f32⟩ : BufTy).Contents (Elt F) → (⟨S128x2048, .f32⟩ : BufTy).Contents (Elt F) → (⟨S128x2048, .f32⟩ : BufTy).Contents (Elt F)),
    nullary main_cst_71 (constant S_ .f32 0x42000000#32),
    unary main_cst_71 main_v200 (broadcastInDim S128x2048 ![] bcast_S_S128x2048 : (⟨S_, .f32⟩ : BufTy).Contents (Elt F) → (⟨S128x2048, .f32⟩ : BufTy).Contents (Elt F)) ]

theorem c13_4_ok : Ok (F := F) c13_4 :=
  ⟨⟨binary_bufs_sub .., rfl⟩, ⟨nullary_bufs_sub .., rfl⟩, ⟨unary_bufs_sub .., rfl⟩⟩

abbrev c13_5 : List (HloOp τ sig (Elt F)) :=
  [ binary main_v199 main_v200 main_v201 (mulf : (⟨S128x2048, .f32⟩ : BufTy).Contents (Elt F) → (⟨S128x2048, .f32⟩ : BufTy).Contents (Elt F) → (⟨S128x2048, .f32⟩ : BufTy).Contents (Elt F)),
    nullary main_cst_72 (constant S_ .f32 0x3F800000#32),
    unary main_cst_72 main_v202 (broadcastInDim S128x2048 ![] bcast_S_S128x2048 : (⟨S_, .f32⟩ : BufTy).Contents (Elt F) → (⟨S128x2048, .f32⟩ : BufTy).Contents (Elt F)) ]

theorem c13_5_ok : Ok (F := F) c13_5 :=
  ⟨⟨binary_bufs_sub .., rfl⟩, ⟨nullary_bufs_sub .., rfl⟩, ⟨unary_bufs_sub .., rfl⟩⟩

abbrev c13_6 : List (HloOp τ sig (Elt F)) :=
  [ binary main_v201 main_v202 main_v203 (subf : (⟨S128x2048, .f32⟩ : BufTy).Contents (Elt F) → (⟨S128x2048, .f32⟩ : BufTy).Contents (Elt F) → (⟨S128x2048, .f32⟩ : BufTy).Contents (Elt F)),
    nullary main_cst_73 (constant S_ .f32 0x3F000000#32) ]

theorem c13_6_ok : Ok (F := F) c13_6 :=
  ⟨⟨binary_bufs_sub .., rfl⟩, ⟨nullary_bufs_sub .., rfl⟩⟩

abbrev c14_0 : List (HloOp τ sig (Elt F)) :=
  [ unary main_cst_73 main_v204 (broadcastInDim S128x2048 ![] bcast_S_S128x2048 : (⟨S_, .f32⟩ : BufTy).Contents (Elt F) → (⟨S128x2048, .f32⟩ : BufTy).Contents (Elt F)),
    binary main_v203 main_v204 main_v205 (mulf : (⟨S128x2048, .f32⟩ : BufTy).Contents (Elt F) → (⟨S128x2048, .f32⟩ : BufTy).Contents (Elt F) → (⟨S128x2048, .f32⟩ : BufTy).Contents (Elt F)),
    unary main_v195 main_v206 (Host.floor : (⟨S128x2048, .f32⟩ : BufTy).Contents (Elt F) → (⟨S128x2048, .f32⟩ : BufTy).Contents (Elt F)) ]

theorem c14_0_ok : Ok (F := F) c14_0 :=
  ⟨⟨unary_bufs_sub .., rfl⟩, ⟨binary_bufs_sub .., rfl⟩, ⟨unary_bufs_sub .., rfl⟩⟩

abbrev c14_1 : List (HloOp τ sig (Elt F)) :=
  [ unary main_v205 main_v207 (Host.floor : (⟨S128x2048, .f32⟩ : BufTy).Contents (Elt F) → (⟨S128x2048, .f32⟩ : BufTy).Contents (Elt F)),
    binary main_v195 main_v206 main_v208 (subf : (⟨S128x2048, .f32⟩ : BufTy).Contents (Elt F) → (⟨S128x2048, .f32⟩ : BufTy).Contents (Elt F) → (⟨S128x2048, .f32⟩ : BufTy).Contents (Elt F)),
    binary main_v205 main_v207 main_v209 (subf : (⟨S128x2048, .f32⟩ : BufTy).Contents (Elt F) → (⟨S128x2048, .f32⟩ : BufTy).Contents (Elt F) → (⟨S128x2048, .f32⟩ : BufTy).Contents (Elt F)) ]

theorem c14_1_ok : Ok (F := F) c14_1 :=
  ⟨⟨unary_bufs_sub .., rfl⟩, ⟨binary_bufs_sub .., rfl⟩, ⟨binary_bufs_sub .., rfl⟩⟩

abbrev c14_2 : List (HloOp τ sig (Elt F)) :=
  [ unary main_v206 main_v210 (fptosi 32 : (⟨S128x2048, .f32⟩ : BufTy).Contents (Elt F) → (⟨S128x2048, .i32⟩ : BufTy).Contents (Elt F)),
    unary main_v207 main_v211 (fptosi 32 : (⟨S128x2048, .f32⟩ : BufTy).Contents (Elt F) → (⟨S128x2048, .i32⟩ : BufTy).Contents (Elt F)),
    nullary main_cst_74 (constant S_ .f32 0x3F800000#32) ]

theorem c14_2_ok : Ok (F := F) c14_2 :=
  ⟨⟨unary_bufs_sub .., rfl⟩, ⟨unary_bufs_sub .., rfl⟩, ⟨nullary_bufs_sub .., rfl⟩⟩

abbrev c14_3 : List (HloOp τ sig (Elt F)) :=
  [ unary main_cst_74 main_v212 (broadcastInDim S128x2048 ![] bcast_S_S128x2048 : (⟨S_, .f32⟩ : BufTy).Contents (Elt F) → (⟨S128x2048, .f32⟩ : BufTy).Contents (Elt F)),
    binary main_v212 main_v209 main_v213 (subf : (⟨S128x2048, .f32⟩ : BufTy).Contents (Elt F) → (⟨S128x2048, .f32⟩ : BufTy).Contents (Elt F) → (⟨S128x2048, .f32⟩ : BufTy).Contents (Elt F)),
    nullary main_cst_75 (constant S_ .f32 0x3F800000#32) ]

theorem c14_3_ok : Ok (F := F) c14_3 :=
  ⟨⟨unary_bufs_sub .., rfl⟩, ⟨binary_bufs_sub .., rfl⟩, ⟨nullary_bufs_sub .., rfl⟩⟩

abbrev c14_4 : List (HloOp τ sig (Elt F)) :=
  [ unary main_cst_75 main_v214 (broadcastInDim S128x2048 ![] bcast_S_S128x2048 : (⟨S_, .f32⟩ : BufTy).Contents (Elt F) → (⟨S128x2048, .f32⟩ : BufTy).Contents (Elt F)),
    binary main_v214 main_v208 main_v215 (subf : (⟨S128x2048, .f32⟩ : BufTy).Contents (Elt F) → (⟨S128x2048, .f32⟩ : BufTy).Contents (Elt F) → (⟨S128x2048, .f32⟩ : BufTy).Contents (Elt F)),
    binary main_v213 main_v215 main_v216 (mulf : (⟨S128x2048, .f32⟩ : BufTy).Contents (Elt F) → (⟨S128x2048, .f32⟩ : BufTy).Contents (Elt F) → (⟨S128x2048, .f32⟩ : BufTy).Contents (Elt F)) ]

theorem c14_4_ok : Ok (F := F) c14_4 :=
  ⟨⟨unary_bufs_sub .., rfl⟩, ⟨binary_bufs_sub .., rfl⟩, ⟨binary_bufs_sub .., rfl⟩⟩

abbrev c14_5 : List (HloOp τ sig (Elt F)) :=
  [ nullary main_c_76 (constantI S_ 32 0#32),
    unary main_c_76 main_v217 (broadcastInDim S128x2048 ![] bcast_S_S128x2048 : (⟨S_, .i32⟩ : BufTy).Contents (Elt F) → (⟨S128x2048, .i32⟩ : BufTy).Contents (Elt F)),
    binary main_v211 main_v217 main_v218 (cmpi .sge : (⟨S128x2048, .i32⟩ : BufTy).Contents (Elt F) → (⟨S128x2048, .i32⟩ : BufTy).Contents (Elt F) → (⟨S128x2048, .i1⟩ : BufTy).Contents (Elt F)) ]

theorem c14_5_ok : Ok (F := F) c14_5 :=
  ⟨⟨nullary_bufs_sub .., rfl⟩, ⟨unary_bufs_sub .., rfl⟩, ⟨binary_bufs_sub .., rfl⟩⟩

abbrev c14_6 : List (HloOp τ sig (Elt F)) :=
  [ nullary main_c_77 (constantI S_ 32 32#32),
    unary main_c_77 main_v219 (broadcastInDim S128x2048 ![] bcast_S_S128x2048 : (⟨S_, .i32⟩ : BufTy).Contents (Elt F) → (⟨S128x2048, .i32⟩ : BufTy).Contents (Elt F)) ]

theorem c14_6_ok : Ok (F := F) c14_6 :=
  ⟨⟨nullary_bufs_sub .., rfl⟩, ⟨unary_bufs_sub .., rfl⟩⟩

def c12 : List (HloOp τ sig (Elt F)) := c12_0 ++ (c12_1 ++ (c12_2 ++ (c12_3 ++ (c12_4 ++ (c12_5 ++ (c12_6))))))

theorem c12_ok : Ok (F := F) c12 := c12_0_ok.append (c12_1_ok.append (c12_2_ok.append (c12_3_ok.append (c12_4_ok.append (c12_5_ok.append (c12_6_ok))))))

def c13 : List (HloOp τ sig (Elt F)) := c13_0 ++ (c13_1 ++ (c13_2 ++ (c13_3 ++ (c13_4 ++ (c13_5 ++ (c13_6))))))

theorem c13_ok : Ok (F := F) c13 := c13_0_ok.append (c13_1_ok.append (c13_2_ok.append (c13_3_ok.append (c13_4_ok.append (c13_5_ok.append (c13_6_ok))))))

def c14 : List (HloOp τ sig (Elt F)) := c14_0 ++ (c14_1 ++ (c14_2 ++ (c14_3 ++ (c14_4 ++ (c14_5 ++ (c14_6))))))

theorem c14_ok : Ok (F := F) c14 := c14_0_ok.append (c14_1_ok.append (c14_2_ok.append (c14_3_ok.append (c14_4_ok.append (c14_5_ok.append (c14_6_ok))))))

def w4 : List (HloOp τ sig (Elt F)) := c12 ++ (c13 ++ (c14))

theorem w4_ok : Ok (F := F) w4 := c12_ok.append (c13_ok.append (c14_ok))

theorem main_part4_chain (d : Dev nD) : main_part4 (F := F) d = (Pipeline.chainK
  [ seq c12_0,
    seq c12_1,
    seq c12_2,
    seq c12_3,
    seq c12_4,
    seq c12_5,
    seq c12_6,
    seq c13_0,
    seq c13_1,
    seq c13_2,
    seq c13_3,
    seq c13_4,
    seq c13_5,
    seq c13_6,
    seq c14_0,
    seq c14_1,
    seq c14_2,
    seq c14_3,
    seq c14_4,
    seq c14_5 ]
  (seq c14_6) : Prog (TpuEff nD τ sig (Elt F) (Pipeline.Sig Λ₀ (Fin 0) fun p => (pcfgs (F := F) p).Adm) .tc) PUnit) := by
  chain_rfl

theorem main_part4_eq (d : Dev nD) : main_part4 (F := F) d = (seq w4 : Prog (TpuEff nD τ sig (Elt F) (Pipeline.Sig Λ₀ (Fin 0) fun p => (pcfgs (F := F) p).Adm) .tc) PUnit) := by
  rw [main_part4_chain d]
  simp only [w4, c12, c13, c14, Pipeline.chainK, seq_append, bind_assoc]

end Cert.ReferenceIdeal.RefRunGen

end
-- ==== Proof.RefRunGen.P5.lean ====
import proofs.«416765_j9792525435349_4_alg».proof.Proof.RefRunGen.Ok
import Idealize.ShloMosaic.Lib.Pipeline.Regions

noncomputable section

namespace Cert.ReferenceIdeal.RefRunGen

open Cert.ReferenceIdeal Cert.ReferenceIdeal.Gen Idealize.ShloMosaic Idealize.ShloMosaic.TcCoe Idealize.SL.Sem Idealize.ShloMosaic.StableHlo

variable {F : FTy → Type} [FloatOps F]

abbrev c15_0 : List (HloOp τ sig (Elt F)) :=
  [ binary main_v211 main_v219 main_v220 (cmpi .slt : (⟨S128x2048, .i32⟩ : BufTy).Contents (Elt F) → (⟨S128x2048, .i32⟩ : BufTy).Contents (Elt F) → (⟨S128x2048, .i1⟩ : BufTy).Contents (Elt F)),
    binary main_v218 main_v220 main_v221 (andi : (⟨S128x2048, .i1⟩ : BufTy).Contents (Elt F) → (⟨S128x2048, .i1⟩ : BufTy).Contents (Elt F) → (⟨S128x2048, .i1⟩ : BufTy).Contents (Elt F)),
    nullary main_c_78 (constantI S_ 32 0#32) ]

theorem c15_0_ok : Ok (F := F) c15_0 :=
  ⟨⟨binary_bufs_sub .., rfl⟩, ⟨binary_bufs_sub .., rfl⟩, ⟨nullary_bufs_sub .., rfl⟩⟩

abbrev c15_1 : List (HloOp τ sig (Elt F)) :=
  [ unary main_c_78 main_v222 (broadcastInDim S128x2048 ![] bcast_S_S128x2048 : (⟨S_, .i32⟩ : BufTy).Contents (Elt F) → (⟨S128x2048, .i32⟩ : BufTy).Contents (Elt F)),
    binary main_v210 main_v222 main_v223 (cmpi .sge : (⟨S128x2048, .i32⟩ : BufTy).Contents (Elt F) → (⟨S128x2048, .i32⟩ : BufTy).Contents (Elt F) → (⟨S128x2048, .i1⟩ : BufTy).Contents (Elt F)),
    binary main_v221 main_v223 main_v224 (andi : (⟨S128x2048, .i1⟩ : BufTy).Contents (Elt F) → (⟨S128x2048, .i1⟩ : BufTy).Contents (Elt F) → (⟨S128x2048, .i1⟩ : BufTy).Contents (Elt F)) ]

theorem c15_1_ok : Ok (F := F) c15_1 :=
  ⟨⟨unary_bufs_sub .., rfl⟩, ⟨binary_bufs_sub .., rfl⟩, ⟨binary_bufs_sub .., rfl⟩⟩

abbrev c15_2 : List (HloOp τ sig (Elt F)) :=
  [ nullary main_c_79 (constantI S_ 32 32#32),
    unary main_c_79 main_v225 (broadcastInDim S128x2048 ![] bcast_S_S128x2048 : (⟨S_, .i32⟩ : BufTy).Contents (Elt F) → (⟨S128x2048, .i32⟩ : BufTy).Contents (Elt F)),
    binary main_v210 main_v225 main_v226 (cmpi .slt : (⟨S128x2048, .i32⟩ : BufTy).Contents (Elt F) → (⟨S128x2048, .i32⟩ : BufTy).Contents (Elt F) → (⟨S128x2048, .i1⟩ : BufTy).Contents (Elt F)) ]

theorem c15_2_ok : Ok (F := F) c15_2 :=
  ⟨⟨nullary_bufs_sub .., rfl⟩, ⟨unary_bufs_sub .., rfl⟩, ⟨binary_bufs_sub .., rfl⟩⟩

abbrev c15_3 : List (HloOp τ sig (Elt F)) :=
  [ binary main_v224 main_v226 main_v227 (andi : (⟨S128x2048, .i1⟩ : BufTy).Contents (Elt F) → (⟨S128x2048, .i1⟩ : BufTy).Contents (Elt F) → (⟨S128x2048, .i1⟩ : BufTy).Contents (Elt F)),
    unary main_v227 main_v228 (uitofp .f32 : (⟨S128x2048, .i1⟩ : BufTy).Contents (Elt F) → (⟨S128x2048, .f32⟩ : BufTy).Contents (Elt F)),
    nullary main_c_80 (constantI S_ 32 0#32) ]

theorem c15_3_ok : Ok (F := F) c15_3 :=
  ⟨⟨binary_bufs_sub .., rfl⟩, ⟨unary_bufs_sub .., rfl⟩, ⟨nullary_bufs_sub .., rfl⟩⟩

abbrev c15_4 : List (HloOp τ sig (Elt F)) :=
  [ nullary main_c_81 (constantI S_ 32 31#32) ]

theorem c15_4_ok : Ok (F := F) c15_4 :=
  ⟨nullary_bufs_sub .., rfl⟩

abbrev c15_5 : List (HloOp τ sig (Elt F)) :=
  [ TRef.unary (TRef.of (T := ⟨S_, .i32⟩) main_c_80) (TRef.of (T := ⟨S_, .i32⟩) main_call9_v0) id,
    TRef.unary (TRef.of (T := ⟨S_, .i32⟩) main_call9_v0) (TRef.of (T := ⟨S128x2048, .i32⟩) main_call9_v1) (broadcastInDim S128x2048 ![] bcast_S_S128x2048),
    TRef.binary (TRef.of (T := ⟨S128x2048, .i32⟩) main_call9_v1) (TRef.of (T := ⟨S128x2048, .i32⟩) main_v211) (TRef.of (T := ⟨S128x2048, .i32⟩) main_call9_v2) maxsi,
    TRef.unary (TRef.of (T := ⟨S_, .i32⟩) main_c_81) (TRef.of (T := ⟨S_, .i32⟩) main_call9_v3) id,
    TRef.unary (TRef.of (T := ⟨S_, .i32⟩) main_call9_v3) (TRef.of (T := ⟨S128x2048, .i32⟩) main_call9_v4) (broadcastInDim S128x2048 ![] bcast_S_S128x2048),
    TRef.binary (TRef.of (T := ⟨S128x2048, .i32⟩) main_call9_v4) (TRef.of (T := ⟨S128x2048, .i32⟩) main_call9_v2) (TRef.of (T := ⟨S128x2048, .i32⟩) main_v229) minsi ]

theorem c15_5_ok : Ok (F := F) c15_5 :=
  ⟨⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩⟩

abbrev c15_6 : List (HloOp τ sig (Elt F)) :=
  [ nullary main_c_82 (constantI S_ 32 0#32),
    nullary main_c_83 (constantI S_ 32 31#32) ]

theorem c15_6_ok : Ok (F := F) c15_6 :=
  ⟨⟨nullary_bufs_sub .., rfl⟩, ⟨nullary_bufs_sub .., rfl⟩⟩

abbrev c16_0 : List (HloOp τ sig (Elt F)) :=
  [ TRef.unary (TRef.of (T := ⟨S_, .i32⟩) main_c_82) (TRef.of (T := ⟨S_, .i32⟩) main_call10_v0) id,
    TRef.unary (TRef.of (T := ⟨S_, .i32⟩) main_call10_v0) (TRef.of (T := ⟨S128x2048, .i32⟩) main_call10_v1) (broadcastInDim S128x2048 ![] bcast_S_S128x2048),
    TRef.binary (TRef.of (T := ⟨S128x2048, .i32⟩) main_call10_v1) (TRef.of (T := ⟨S128x2048, .i32⟩) main_v210) (TRef.of (T := ⟨S128x2048, .i32⟩) main_call10_v2) maxsi,
    TRef.unary (TRef.of (T := ⟨S_, .i32⟩) main_c_83) (TRef.of (T := ⟨S_, .i32⟩) main_call10_v3) id,
    TRef.unary (TRef.of (T := ⟨S_, .i32⟩) main_call10_v3) (TRef.of (T := ⟨S128x2048, .i32⟩) main_call10_v4) (broadcastInDim S128x2048 ![] bcast_S_S128x2048),
    TRef.binary (TRef.of (T := ⟨S128x2048, .i32⟩) main_call10_v4) (TRef.of (T := ⟨S128x2048, .i32⟩) main_call10_v2) (TRef.of (T := ⟨S128x2048, .i32⟩) main_v230) minsi ]

theorem c16_0_ok : Ok (F := F) c16_0 :=
  ⟨⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩⟩

abbrev c16_1 : List (HloOp τ sig (Elt F)) :=
  [ nullary main_c_84 (constantI S_ 32 0#32),
    unary main_c_84 main_v231 (broadcastInDim S128x2048 ![] bcast_S_S128x2048 : (⟨S_, .i32⟩ : BufTy).Contents (Elt F) → (⟨S128x2048, .i32⟩ : BufTy).Contents (Elt F)),
    binary main_v229 main_v231 main_v232 (cmpi .slt : (⟨S128x2048, .i32⟩ : BufTy).Contents (Elt F) → (⟨S128x2048, .i32⟩ : BufTy).Contents (Elt F) → (⟨S128x2048, .i1⟩ : BufTy).Contents (Elt F)) ]

theorem c16_1_ok : Ok (F := F) c16_1 :=
  ⟨⟨nullary_bufs_sub .., rfl⟩, ⟨unary_bufs_sub .., rfl⟩, ⟨binary_bufs_sub .., rfl⟩⟩

abbrev c16_2 : List (HloOp τ sig (Elt F)) :=
  [ nullary main_c_85 (constantI S_ 32 32#32),
    unary main_c_85 main_v233 (broadcastInDim S128x2048 ![] bcast_S_S128x2048 : (⟨S_, .i32⟩ : BufTy).Contents (Elt F) → (⟨S128x2048, .i32⟩ : BufTy).Contents (Elt F)),
    binary main_v229 main_v233 main_v234 (addi : (⟨S128x2048, .i32⟩ : BufTy).Contents (Elt F) → (⟨S128x2048, .i32⟩ : BufTy).Contents (Elt F) → (⟨S128x2048, .i32⟩ : BufTy).Contents (Elt F)) ]

theorem c16_2_ok : Ok (F := F) c16_2 :=
  ⟨⟨nullary_bufs_sub .., rfl⟩, ⟨unary_bufs_sub .., rfl⟩, ⟨binary_bufs_sub .., rfl⟩⟩

abbrev c16_3 : List (HloOp τ sig (Elt F)) :=
  [ ternary main_v232 main_v234 main_v229 main_v235 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F)),
    nullary main_c_86 (constantI S_ 32 0#32),
    unary main_c_86 main_v236 (broadcastInDim S128x2048 ![] bcast_S_S128x2048 : (⟨S_, .i32⟩ : BufTy).Contents (Elt F) → (⟨S128x2048, .i32⟩ : BufTy).Contents (Elt F)) ]

theorem c16_3_ok : Ok (F := F) c16_3 :=
  ⟨⟨ternary_bufs_sub .., rfl⟩, ⟨nullary_bufs_sub .., rfl⟩, ⟨unary_bufs_sub .., rfl⟩⟩

abbrev c16_4 : List (HloOp τ sig (Elt F)) :=
  [ binary main_v230 main_v236 main_v237 (cmpi .slt : (⟨S128x2048, .i32⟩ : BufTy).Contents (Elt F) → (⟨S128x2048, .i32⟩ : BufTy).Contents (Elt F) → (⟨S128x2048, .i1⟩ : BufTy).Contents (Elt F)),
    nullary main_c_87 (constantI S_ 32 32#32),
    unary main_c_87 main_v238 (broadcastInDim S128x2048 ![] bcast_S_S128x2048 : (⟨S_, .i32⟩ : BufTy).Contents (Elt F) → (⟨S128x2048, .i32⟩ : BufTy).Contents (Elt F)) ]

theorem c16_4_ok : Ok (F := F) c16_4 :=
  ⟨⟨binary_bufs_sub .., rfl⟩, ⟨nullary_bufs_sub .., rfl⟩, ⟨unary_bufs_sub .., rfl⟩⟩

abbrev c16_5 : List (HloOp τ sig (Elt F)) :=
  [ binary main_v230 main_v238 main_v239 (addi : (⟨S128x2048, .i32⟩ : BufTy).Contents (Elt F) → (⟨S128x2048, .i32⟩ : BufTy).Contents (Elt F) → (⟨S128x2048, .i32⟩ : BufTy).Contents (Elt F)),
    ternary main_v237 main_v239 main_v230 main_v240 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F)),
    unary main_v235 main_v241 (broadcastInDim S128x2048x1 ![0, 1] bcast_S128x2048_S128x2048x1_0_1 : (⟨S128x2048, .i32⟩ : BufTy).Contents (Elt F) → (⟨S128x2048x1, .i32⟩ : BufTy).Contents (Elt F)) ]

theorem c16_5_ok : Ok (F := F) c16_5 :=
  ⟨⟨binary_bufs_sub .., rfl⟩, ⟨ternary_bufs_sub .., rfl⟩, ⟨unary_bufs_sub .., rfl⟩⟩

abbrev c16_6 : List (HloOp τ sig (Elt F)) :=
  [ unary main_v240 main_v242 (broadcastInDim S128x2048x1 ![0, 1] bcast_S128x2048_S128x2048x1_0_1 : (⟨S128x2048, .i32⟩ : BufTy).Contents (Elt F) → (⟨S128x2048x1, .i32⟩ : BufTy).Contents (Elt F)),
    binary main_v241 main_v242 main_v243 ((fun a b => concatenate S128x2048x2 2 [⟨S128x2048x1, a⟩, ⟨S128x2048x1, b⟩] concatenates_S128x2048x1_S128x2048x1_S128x2048x2_d2) : (⟨S128x2048x1, .i32⟩ : BufTy).Contents (Elt F) → (⟨S128x2048x1, .i32⟩ : BufTy).Contents (Elt F) → (⟨S128x2048x2, .i32⟩ : BufTy).Contents (Elt F)),
    binary main_v185 main_v243 main_v244 ((fun x i => Host.gather gather_S128x64x32x32_S128x2048x2_S128x64x2048_1_23_0_0_23_2_16411 x i) : (⟨S128x64x32x32, .f32⟩ : BufTy).Contents (Elt F) → (⟨S128x2048x2, .i32⟩ : BufTy).Contents (Elt F) → (⟨S128x64x2048, .f32⟩ : BufTy).Contents (Elt F)) ]

theorem c16_6_ok : Ok (F := F) c16_6 :=
  ⟨⟨unary_bufs_sub .., rfl⟩, ⟨binary_bufs_sub .., rfl⟩, ⟨binary_bufs_sub .., rfl⟩⟩

abbrev c16_7 : List (HloOp τ sig (Elt F)) :=
  [ binary main_v216 main_v228 main_v245 (mulf : (⟨S128x2048, .f32⟩ : BufTy).Contents (Elt F) → (⟨S128x2048, .f32⟩ : BufTy).Contents (Elt F) → (⟨S128x2048, .f32⟩ : BufTy).Contents (Elt F)),
    unary main_v245 main_v246 (broadcastInDim S128x1x2048 ![0, 2] bcast_S128x2048_S128x1x2048_0_2 : (⟨S128x2048, .f32⟩ : BufTy).Contents (Elt F) → (⟨S128x1x2048, .f32⟩ : BufTy).Contents (Elt F)) ]

theorem c16_7_ok : Ok (F := F) c16_7 :=
  ⟨⟨binary_bufs_sub .., rfl⟩, ⟨unary_bufs_sub .., rfl⟩⟩

abbrev c17_0 : List (HloOp τ sig (Elt F)) :=
  [ unary main_v246 main_v247 (broadcastInDim S128x64x2048 ![0, 1, 2] bcast_S128x1x2048_S128x64x2048_0_1_2 : (⟨S128x1x2048, .f32⟩ : BufTy).Contents (Elt F) → (⟨S128x64x2048, .f32⟩ : BufTy).Contents (Elt F)),
    binary main_v244 main_v247 main_v248 (mulf : (⟨S128x64x2048, .f32⟩ : BufTy).Contents (Elt F) → (⟨S128x64x2048, .f32⟩ : BufTy).Contents (Elt F) → (⟨S128x64x2048, .f32⟩ : BufTy).Contents (Elt F)),
    nullary main_c_88 (constantI S_ 32 1#32) ]

theorem c17_0_ok : Ok (F := F) c17_0 :=
  ⟨⟨unary_bufs_sub .., rfl⟩, ⟨binary_bufs_sub .., rfl⟩, ⟨nullary_bufs_sub .., rfl⟩⟩

abbrev c17_1 : List (HloOp τ sig (Elt F)) :=
  [ unary main_c_88 main_v249 (broadcastInDim S128x2048 ![] bcast_S_S128x2048 : (⟨S_, .i32⟩ : BufTy).Contents (Elt F) → (⟨S128x2048, .i32⟩ : BufTy).Contents (Elt F)),
    binary main_v210 main_v249 main_v250 (addi : (⟨S128x2048, .i32⟩ : BufTy).Contents (Elt F) → (⟨S128x2048, .i32⟩ : BufTy).Contents (Elt F) → (⟨S128x2048, .i32⟩ : BufTy).Contents (Elt F)),
    nullary main_cst_89 (constant S_ .f32 0x3F800000#32) ]

theorem c17_1_ok : Ok (F := F) c17_1 :=
  ⟨⟨unary_bufs_sub .., rfl⟩, ⟨binary_bufs_sub .., rfl⟩, ⟨nullary_bufs_sub .., rfl⟩⟩

abbrev c17_2 : List (HloOp τ sig (Elt F)) :=
  [ unary main_cst_89 main_v251 (broadcastInDim S128x2048 ![] bcast_S_S128x2048 : (⟨S_, .f32⟩ : BufTy).Contents (Elt F) → (⟨S128x2048, .f32⟩ : BufTy).Contents (Elt F)),
    binary main_v251 main_v209 main_v252 (subf : (⟨S128x2048, .f32⟩ : BufTy).Contents (Elt F) → (⟨S128x2048, .f32⟩ : BufTy).Contents (Elt F) → (⟨S128x2048, .f32⟩ : BufTy).Contents (Elt F)),
    binary main_v252 main_v208 main_v253 (mulf : (⟨S128x2048, .f32⟩ : BufTy).Contents (Elt F) → (⟨S128x2048, .f32⟩ : BufTy).Contents (Elt F) → (⟨S128x2048, .f32⟩ : BufTy).Contents (Elt F)) ]

theorem c17_2_ok : Ok (F := F) c17_2 :=
  ⟨⟨unary_bufs_sub .., rfl⟩, ⟨binary_bufs_sub .., rfl⟩, ⟨binary_bufs_sub .., rfl⟩⟩

abbrev c17_3 : List (HloOp τ sig (Elt F)) :=
  [ nullary main_c_90 (constantI S_ 32 0#32),
    unary main_c_90 main_v254 (broadcastInDim S128x2048 ![] bcast_S_S128x2048 : (⟨S_, .i32⟩ : BufTy).Contents (Elt F) → (⟨S128x2048, .i32⟩ : BufTy).Contents (Elt F)),
    binary main_v211 main_v254 main_v255 (cmpi .sge : (⟨S128x2048, .i32⟩ : BufTy).Contents (Elt F) → (⟨S128x2048, .i32⟩ : BufTy).Contents (Elt F) → (⟨S128x2048, .i1⟩ : BufTy).Contents (Elt F)) ]

theorem c17_3_ok : Ok (F := F) c17_3 :=
  ⟨⟨nullary_bufs_sub .., rfl⟩, ⟨unary_bufs_sub .., rfl⟩, ⟨binary_bufs_sub .., rfl⟩⟩

abbrev c17_4 : List (HloOp τ sig (Elt F)) :=
  [ nullary main_c_91 (constantI S_ 32 32#32),
    unary main_c_91 main_v256 (broadcastInDim S128x2048 ![] bcast_S_S128x2048 : (⟨S_, .i32⟩ : BufTy).Contents (Elt F) → (⟨S128x2048, .i32⟩ : BufTy).Contents (Elt F)),
    binary main_v211 main_v256 main_v257 (cmpi .slt : (⟨S128x2048, .i32⟩ : BufTy).Contents (Elt F) → (⟨S128x2048, .i32⟩ : BufTy).Contents (Elt F) → (⟨S128x2048, .i1⟩ : BufTy).Contents (Elt F)) ]

theorem c17_4_ok : Ok (F := F) c17_4 :=
  ⟨⟨nullary_bufs_sub .., rfl⟩, ⟨unary_bufs_sub .., rfl⟩, ⟨binary_bufs_sub .., rfl⟩⟩

abbrev c17_5 : List (HloOp τ sig (Elt F)) :=
  [ binary main_v255 main_v257 main_v258 (andi : (⟨S128x2048, .i1⟩ : BufTy).Contents (Elt F) → (⟨S128x2048, .i1⟩ : BufTy).Contents (Elt F) → (⟨S128x2048, .i1⟩ : BufTy).Contents (Elt F)),
    nullary main_c_92 (constantI S_ 32 0#32),
    unary main_c_92 main_v259 (broadcastInDim S128x2048 ![] bcast_S_S128x2048 : (⟨S_, .i32⟩ : BufTy).Contents (Elt F) → (⟨S128x2048, .i32⟩ : BufTy).Contents (Elt F)) ]

theorem c17_5_ok : Ok (F := F) c17_5 :=
  ⟨⟨binary_bufs_sub .., rfl⟩, ⟨nullary_bufs_sub .., rfl⟩, ⟨unary_bufs_sub .., rfl⟩⟩

abbrev c17_6 : List (HloOp τ sig (Elt F)) :=
  [ binary main_v250 main_v259 main_v260 (cmpi .sge : (⟨S128x2048, .i32⟩ : BufTy).Contents (Elt F) → (⟨S128x2048, .i32⟩ : BufTy).Contents (Elt F) → (⟨S128x2048, .i1⟩ : BufTy).Contents (Elt F)),
    binary main_v258 main_v260 main_v261 (andi : (⟨S128x2048, .i1⟩ : BufTy).Contents (Elt F) → (⟨S128x2048, .i1⟩ : BufTy).Contents (Elt F) → (⟨S128x2048, .i1⟩ : BufTy).Contents (Elt F)),
    nullary main_c_93 (constantI S_ 32 32#32) ]

theorem c17_6_ok : Ok (F := F) c17_6 :=
  ⟨⟨binary_bufs_sub .., rfl⟩, ⟨binary_bufs_sub .., rfl⟩, ⟨nullary_bufs_sub .., rfl⟩⟩

abbrev c17_7 : List (HloOp τ sig (Elt F)) :=
  [ unary main_c_93 main_v262 (broadcastInDim S128x2048 ![] bcast_S_S128x2048 : (⟨S_, .i32⟩ : BufTy).Contents (Elt F) → (⟨S128x2048, .i32⟩ : BufTy).Contents (Elt F)),
    binary main_v250 main_v262 main_v263 (cmpi .slt : (⟨S128x2048, .i32⟩ : BufTy).Contents (Elt F) → (⟨S128x2048, .i32⟩ : BufTy).Contents (Elt F) → (⟨S128x2048, .i1⟩ : BufTy).Contents (Elt F)) ]

theorem c17_7_ok : Ok (F := F) c17_7 :=
  ⟨⟨unary_bufs_sub .., rfl⟩, ⟨binary_bufs_sub .., rfl⟩⟩

def c15 : List (HloOp τ sig (Elt F)) := c15_0 ++ (c15_1 ++ (c15_2 ++ (c15_3 ++ (c15_4 ++ (c15_5 ++ (c15_6))))))

theorem c15_ok : Ok (F := F) c15 := c15_0_ok.append (c15_1_ok.append (c15_2_ok.append (c15_3_ok.append (c15_4_ok.append (c15_5_ok.append (c15_6_ok))))))

def c16 : List (HloOp τ sig (Elt F)) := c16_0 ++ (c16_1 ++ (c16_2 ++ (c16_3 ++ (c16_4 ++ (c16_5 ++ (c16_6 ++ (c16_7)))))))

theorem c16_ok : Ok (F := F) c16 := c16_0_ok.append (c16_1_ok.append (c16_2_ok.append (c16_3_ok.append (c16_4_ok.append (c16_5_ok.append (c16_6_ok.append (c16_7_ok)))))))

def c17 : List (HloOp τ sig (Elt F)) := c17_0 ++ (c17_1 ++ (c17_2 ++ (c17_3 ++ (c17_4 ++ (c17_5 ++ (c17_6 ++ (c17_7)))))))

theorem c17_ok : Ok (F := F) c17 := c17_0_ok.append (c17_1_ok.append (c17_2_ok.append (c17_3_ok.append (c17_4_ok.append (c17_5_ok.append (c17_6_ok.append (c17_7_ok)))))))

def w5 : List (HloOp τ sig (Elt F)) := c15 ++ (c16 ++ (c17))

theorem w5_ok : Ok (F := F) w5 := c15_ok.append (c16_ok.append (c17_ok))

noncomputable def t5_p22 : Prog (TpuEff nD τ sig (Elt F) (Pipeline.Sig Λ₀ (Fin 0) fun p => (pcfgs (F := F) p).Adm) .tc) PUnit := do
  hlo rfl (StableHlo.unary main_c_93 main_v262 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v250 main_v262 main_v263 (cmpi .slt : (⟨S128x2048, .i32⟩ : BufTy).Contents (Elt F) → (⟨S128x2048, .i32⟩ : BufTy).Contents (Elt F) → (⟨S128x2048, .i1⟩ : BufTy).Contents (Elt F))) (fun _ => .ret ⟨⟩)

noncomputable def t5_p21 : Prog (TpuEff nD τ sig (Elt F) (Pipeline.Sig Λ₀ (Fin 0) fun p => (pcfgs (F := F) p).Adm) .tc) PUnit := do
  hlo rfl (StableHlo.binary main_v250 main_v259 main_v260 (cmpi .sge : (⟨S128x2048, .i32⟩ : BufTy).Contents (Elt F) → (⟨S128x2048, .i32⟩ : BufTy).Contents (Elt F) → (⟨S128x2048, .i1⟩ : BufTy).Contents (Elt F))) (fun _ => .ret ⟨⟩)
  hlo rfl (StableHlo.binary main_v258 main_v260 main_v261 (andi : (⟨S128x2048, .i1⟩ : BufTy).Contents (Elt F) → (⟨S128x2048, .i1⟩ : BufTy).Contents (Elt F) → (⟨S128x2048, .i1⟩ : BufTy).Contents (Elt F))) (fun _ => .ret ⟨⟩)
  hlo rfl (StableHlo.nullary main_c_93 (constantI S_ 32 32#32)) (fun _ => .ret ⟨⟩)
  t5_p22 (F := F)

noncomputable def t5_p20 : Prog (TpuEff nD τ sig (Elt F) (Pipeline.Sig Λ₀ (Fin 0) fun p => (pcfgs (F := F) p).Adm) .tc) PUnit := do
  hlo rfl (StableHlo.binary main_v255 main_v257 main_v258 (andi : (⟨S128x2048, .i1⟩ : BufTy).Contents (Elt F) → (⟨S128x2048, .i1⟩ : BufTy).Contents (Elt F) → (⟨S128x2048, .i1⟩ : BufTy).Contents (Elt F))) (fun _ => .ret ⟨⟩)
  hlo rfl (StableHlo.nullary main_c_92 (constantI S_ 32 0#32)) (fun _ => .ret ⟨⟩)
  hlo rfl (StableHlo.unary main_c_92 main_v259 (broadcastInDim S128x2048 ![] bcast_S_S128x2048 : (⟨S_, .i32⟩ : BufTy).Contents (Elt F) → (⟨S128x2048, .i32⟩ : BufTy).Contents (Elt F))) (fun _ => .ret ⟨⟩)
  t5_p21 (F := F)

noncomputable def t5_p19 : Prog (TpuEff nD τ sig (Elt F) (Pipeline.Sig Λ₀ (Fin 0) fun p => (pcfgs (F := F) p).Adm) .tc) PUnit := do
  hlo rfl (StableHlo.nullary main_c_91 (constantI S_ 32 32#32)) (fun _ => .ret ⟨⟩)
  hlo rfl (StableHlo.unary main_c_91 main_v256 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v211 main_v256 main_v257 (cmpi .slt : (⟨S128x2048, .i32⟩ : BufTy).Contents (Elt F) → (⟨S128x2048, .i32⟩ : BufTy).Contents (Elt F) → (⟨S128x2048, .i1⟩ : BufTy).Contents (Elt F))) (fun _ => .ret ⟨⟩)
  t5_p20 (F := F)

noncomputable def t5_p18 : Prog (TpuEff nD τ sig (Elt F) (Pipeline.Sig Λ₀ (Fin 0) fun p => (pcfgs (F := F) p).Adm) .tc) PUnit := do
  hlo rfl (StableHlo.nullary main_c_90 (constantI S_ 32 0#32)) (fun _ => .ret ⟨⟩)
  hlo rfl (StableHlo.unary main_c_90 main_v254 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v211 main_v254 main_v255 (cmpi .sge : (⟨S128x2048, .i32⟩ : BufTy).Contents (Elt F) → (⟨S128x2048, .i32⟩ : BufTy).Contents (Elt F) → (⟨S128x2048, .i1⟩ : BufTy).Contents (Elt F))) (fun _ => .ret ⟨⟩)
  t5_p19 (F := F)

noncomputable def t5_p17 : Prog (TpuEff nD τ sig (Elt F) (Pipeline.Sig Λ₀ (Fin 0) fun p => (pcfgs (F := F) p).Adm) .tc) PUnit := do
  hlo rfl (StableHlo.unary main_cst_89 main_v251 (broadcastInDim S128x2048 ![] bcast_S_S128x2048 : (⟨S_, .f32⟩ : BufTy).Contents (Elt F) → (⟨S128x2048, .f32⟩ : BufTy).Contents (Elt F))) (fun _ => .ret ⟨⟩)
  hlo rfl (StableHlo.binary main_v251 main_v209 main_v252 (subf : (⟨S128x2048, .f32⟩ : BufTy).Contents (Elt F) → (⟨S128x2048, .f32⟩ : BufTy).Contents (Elt F) → (⟨S128x2048, .f32⟩ : BufTy).Contents (Elt F))) (fun _ => .ret ⟨⟩)
  hlo rfl (StableHlo.binary main_v252 main_v208 main_v253 (mulf : (⟨S128x2048, .f32⟩ : BufTy).Contents (Elt F) → (⟨S128x2048, .f32⟩ : BufTy).Contents (Elt F) → (⟨S128x2048, .f32⟩ : BufTy).Contents (Elt F))) (fun _ => .ret ⟨⟩)
  t5_p18 (F := F)

noncomputable def t5_p16 : Prog (TpuEff nD τ sig (Elt F) (Pipeline.Sig Λ₀ (Fin 0) fun p => (pcfgs (F := F) p).Adm) .tc) PUnit := do
  hlo rfl (StableHlo.unary main_c_88 main_v249 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v210 main_v249 main_v250 (addi : (⟨S128x2048, .i32⟩ : BufTy).Contents (Elt F) → (⟨S128x2048, .i32⟩ : BufTy).Contents (Elt F) → (⟨S128x2048, .i32⟩ : BufTy).Contents (Elt F))) (fun _ => .ret ⟨⟩)
  hlo rfl (StableHlo.nullary main_cst_89 (constant S_ .f32 0x3F800000#32)) (fun _ => .ret ⟨⟩)
  t5_p17 (F := F)

noncomputable def t5_p15 : Prog (TpuEff nD τ sig (Elt F) (Pipeline.Sig Λ₀ (Fin 0) fun p => (pcfgs (F := F) p).Adm) .tc) PUnit := do
  hlo rfl (StableHlo.unary main_v246 main_v247 (broadcastInDim S128x64x2048 ![0, 1, 2] bcast_S128x1x2048_S128x64x2048_0_1_2 : (⟨S128x1x2048, .f32⟩ : BufTy).Contents (Elt F) → (⟨S128x64x2048, .f32⟩ : BufTy).Contents (Elt F))) (fun _ => .ret ⟨⟩)
  hlo rfl (StableHlo.binary main_v244 main_v247 main_v248 (mulf : (⟨S128x64x2048, .f32⟩ : BufTy).Contents (Elt F) → (⟨S128x64x2048, .f32⟩ : BufTy).Contents (Elt F) → (⟨S128x64x2048, .f32⟩ : BufTy).Contents (Elt F))) (fun _ => .ret ⟨⟩)
  hlo rfl (StableHlo.nullary main_c_88 (constantI S_ 32 1#32)) (fun _ => .ret ⟨⟩)
  t5_p16 (F := F)

noncomputable def t5_p14 : Prog (TpuEff nD τ sig (Elt F) (Pipeline.Sig Λ₀ (Fin 0) fun p => (pcfgs (F := F) p).Adm) .tc) PUnit := do
  hlo rfl (StableHlo.binary main_v216 main_v228 main_v245 (mulf : (⟨S128x2048, .f32⟩ : BufTy).Contents (Elt F) → (⟨S128x2048, .f32⟩ : BufTy).Contents (Elt F) → (⟨S128x2048, .f32⟩ : BufTy).Contents (Elt F))) (fun _ => .ret ⟨⟩)
  hlo rfl (StableHlo.unary main_v245 main_v246 (broadcastInDim S128x1x2048 ![0, 2] bcast_S128x2048_S128x1x2048_0_2 : (⟨S128x2048, .f32⟩ : BufTy).Contents (Elt F) → (⟨S128x1x2048, .f32⟩ : BufTy).Contents (Elt F))) (fun _ => .ret ⟨⟩)
  t5_p15 (F := F)

noncomputable def t5_p13 : Prog (TpuEff nD τ sig (Elt F) (Pipeline.Sig Λ₀ (Fin 0) fun p => (pcfgs (F := F) p).Adm) .tc) PUnit := do
  hlo rfl (StableHlo.unary main_v240 main_v242 (broadcastInDim S128x2048x1 ![0, 1] bcast_S128x2048_S128x2048x1_0_1 : (⟨S128x2048, .i32⟩ : BufTy).Contents (Elt F) → (⟨S128x2048x1, .i32⟩ : BufTy).Contents (Elt F))) (fun _ => .ret ⟨⟩)
  hlo rfl (StableHlo.binary main_v241 main_v242 main_v243 ((fun a b => concatenate S128x2048x2 2 [⟨S128x2048x1, a⟩, ⟨S128x2048x1, b⟩] concatenates_S128x2048x1_S128x2048x1_S128x2048x2_d2) : (⟨S128x2048x1, .i32⟩ : BufTy).Contents (Elt F) → (⟨S128x2048x1, .i32⟩ : BufTy).Contents (Elt F) → (⟨S128x2048x2, .i32⟩ : BufTy).Contents (Elt F))) (fun _ => .ret ⟨⟩)
  hlo rfl (StableHlo.binary main_v185 main_v243 main_v244 ((fun x i => Host.gather gather_S128x64x32x32_S128x2048x2_S128x64x2048_1_23_0_0_23_2_16411 x i) : (⟨S128x64x32x32, .f32⟩ : BufTy).Contents (Elt F) → (⟨S128x2048x2, .i32⟩ : BufTy).Contents (Elt F) → (⟨S128x64x2048, .f32⟩ : BufTy).Contents (Elt F))) (fun _ => .ret ⟨⟩)
  t5_p14 (F := F)

noncomputable def t5_p12 : Prog (TpuEff nD τ sig (Elt F) (Pipeline.Sig Λ₀ (Fin 0) fun p => (pcfgs (F := F) p).Adm) .tc) PUnit := do
  hlo rfl (StableHlo.binary main_v230 main_v238 main_v239 (addi : (⟨S128x2048, .i32⟩ : BufTy).Contents (Elt F) → (⟨S128x2048, .i32⟩ : BufTy).Contents (Elt F) → (⟨S128x2048, .i32⟩ : BufTy).Contents (Elt F))) (fun _ => .ret ⟨⟩)
  hlo rfl (StableHlo.ternary main_v237 main_v239 main_v230 main_v240 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F))) (fun _ => .ret ⟨⟩)
  hlo rfl (StableHlo.unary main_v235 main_v241 (broadcastInDim S128x2048x1 ![0, 1] bcast_S128x2048_S128x2048x1_0_1 : (⟨S128x2048, .i32⟩ : BufTy).Contents (Elt F) → (⟨S128x2048x1, .i32⟩ : BufTy).Contents (Elt F))) (fun _ => .ret ⟨⟩)
  t5_p13 (F := F)

noncomputable def t5_p11 : Prog (TpuEff nD τ sig (Elt F) (Pipeline.Sig Λ₀ (Fin 0) fun p => (pcfgs (F := F) p).Adm) .tc) PUnit := do
  hlo rfl (StableHlo.binary main_v230 main_v236 main_v237 (cmpi .slt : (⟨S128x2048, .i32⟩ : BufTy).Contents (Elt F) → (⟨S128x2048, .i32⟩ : BufTy).Contents (Elt F) → (⟨S128x2048, .i1⟩ : BufTy).Contents (Elt F))) (fun _ => .ret ⟨⟩)
  hlo rfl (StableHlo.nullary main_c_87 (constantI S_ 32 32#32)) (fun _ => .ret ⟨⟩)
  hlo rfl (StableHlo.unary main_c_87 main_v238 (broadcastInDim S128x2048 ![] bcast_S_S128x2048 : (⟨S_, .i32⟩ : BufTy).Contents (Elt F) → (⟨S128x2048, .i32⟩ : BufTy).Contents (Elt F))) (fun _ => .ret ⟨⟩)
  t5_p12 (F := F)

noncomputable def t5_p10 : Prog (TpuEff nD τ sig (Elt F) (Pipeline.Sig Λ₀ (Fin 0) fun p => (pcfgs (F := F) p).Adm) .tc) PUnit := do
  hlo rfl (StableHlo.ternary main_v232 main_v234 main_v229 main_v235 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F))) (fun _ => .ret ⟨⟩)
  hlo rfl (StableHlo.nullary main_c_86 (constantI S_ 32 0#32)) (fun _ => .ret ⟨⟩)
  hlo rfl (StableHlo.unary main_c_86 main_v236 (broadcastInDim S128x2048 ![] bcast_S_S128x2048 : (⟨S_, .i32⟩ : BufTy).Contents (Elt F) → (⟨S128x2048, .i32⟩ : BufTy).Contents (Elt F))) (fun _ => .ret ⟨⟩)
  t5_p11 (F := F)

noncomputable def t5_p9 : Prog (TpuEff nD τ sig (Elt F) (Pipeline.Sig Λ₀ (Fin 0) fun p => (pcfgs (F := F) p).Adm) .tc) PUnit := do
  hlo rfl (StableHlo.nullary main_c_85 (constantI S_ 32 32#32)) (fun _ => .ret ⟨⟩)
  hlo rfl (StableHlo.unary main_c_85 main_v233 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v229 main_v233 main_v234 (addi : (⟨S128x2048, .i32⟩ : BufTy).Contents (Elt F) → (⟨S128x2048, .i32⟩ : BufTy).Contents (Elt F) → (⟨S128x2048, .i32⟩ : BufTy).Contents (Elt F))) (fun _ => .ret ⟨⟩)
  t5_p10 (F := F)

noncomputable def t5_p8 : Prog (TpuEff nD τ sig (Elt F) (Pipeline.Sig Λ₀ (Fin 0) fun p => (pcfgs (F := F) p).Adm) .tc) PUnit := do
  hlo rfl (StableHlo.nullary main_c_84 (constantI S_ 32 0#32)) (fun _ => .ret ⟨⟩)
  hlo rfl (StableHlo.unary main_c_84 main_v231 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v229 main_v231 main_v232 (cmpi .slt : (⟨S128x2048, .i32⟩ : BufTy).Contents (Elt F) → (⟨S128x2048, .i32⟩ : BufTy).Contents (Elt F) → (⟨S128x2048, .i1⟩ : BufTy).Contents (Elt F))) (fun _ => .ret ⟨⟩)
  t5_p9 (F := F)

noncomputable def t5_p7 : Prog (TpuEff nD τ sig (Elt F) (Pipeline.Sig Λ₀ (Fin 0) fun p => (pcfgs (F := F) p).Adm) .tc) PUnit := do
  fn_clip_0.body (.of main_v210) (.of main_c_82) (.of main_c_83) main_call10
  t5_p8 (F := F)

noncomputable def t5_p6 : Prog (TpuEff nD τ sig (Elt F) (Pipeline.Sig Λ₀ (Fin 0) fun p => (pcfgs (F := F) p).Adm) .tc) PUnit := do
  hlo rfl (StableHlo.nullary main_c_82 (constantI S_ 32 0#32)) (fun _ => .ret ⟨⟩)
  hlo rfl (StableHlo.nullary main_c_83 (constantI S_ 32 31#32)) (fun _ => .ret ⟨⟩)
  t5_p7 (F := F)

noncomputable def t5_p5 : Prog (TpuEff nD τ sig (Elt F) (Pipeline.Sig Λ₀ (Fin 0) fun p => (pcfgs (F := F) p).Adm) .tc) PUnit := do
  fn_clip_0.body (.of main_v211) (.of main_c_80) (.of main_c_81) main_call9
  t5_p6 (F := F)

noncomputable def t5_p4 : Prog (TpuEff nD τ sig (Elt F) (Pipeline.Sig Λ₀ (Fin 0) fun p => (pcfgs (F := F) p).Adm) .tc) PUnit := do
  hlo rfl (StableHlo.nullary main_c_81 (constantI S_ 32 31#32)) (fun _ => .ret ⟨⟩)
  t5_p5 (F := F)

noncomputable def t5_p3 : Prog (TpuEff nD τ sig (Elt F) (Pipeline.Sig Λ₀ (Fin 0) fun p => (pcfgs (F := F) p).Adm) .tc) PUnit := do
  hlo rfl (StableHlo.binary main_v224 main_v226 main_v227 (andi : (⟨S128x2048, .i1⟩ : BufTy).Contents (Elt F) → (⟨S128x2048, .i1⟩ : BufTy).Contents (Elt F) → (⟨S128x2048, .i1⟩ : BufTy).Contents (Elt F))) (fun _ => .ret ⟨⟩)
  hlo rfl (StableHlo.unary main_v227 main_v228 (uitofp .f32 : (⟨S128x2048, .i1⟩ : BufTy).Contents (Elt F) → (⟨S128x2048, .f32⟩ : BufTy).Contents (Elt F))) (fun _ => .ret ⟨⟩)
  hlo rfl (StableHlo.nullary main_c_80 (constantI S_ 32 0#32)) (fun _ => .ret ⟨⟩)
  t5_p4 (F := F)

noncomputable def t5_p2 : Prog (TpuEff nD τ sig (Elt F) (Pipeline.Sig Λ₀ (Fin 0) fun p => (pcfgs (F := F) p).Adm) .tc) PUnit := do
  hlo rfl (StableHlo.nullary main_c_79 (constantI S_ 32 32#32)) (fun _ => .ret ⟨⟩)
  hlo rfl (StableHlo.unary main_c_79 main_v225 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v210 main_v225 main_v226 (cmpi .slt : (⟨S128x2048, .i32⟩ : BufTy).Contents (Elt F) → (⟨S128x2048, .i32⟩ : BufTy).Contents (Elt F) → (⟨S128x2048, .i1⟩ : BufTy).Contents (Elt F))) (fun _ => .ret ⟨⟩)
  t5_p3 (F := F)

noncomputable def t5_p1 : Prog (TpuEff nD τ sig (Elt F) (Pipeline.Sig Λ₀ (Fin 0) fun p => (pcfgs (F := F) p).Adm) .tc) PUnit := do
  hlo rfl (StableHlo.unary main_c_78 main_v222 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v210 main_v222 main_v223 (cmpi .sge : (⟨S128x2048, .i32⟩ : BufTy).Contents (Elt F) → (⟨S128x2048, .i32⟩ : BufTy).Contents (Elt F) → (⟨S128x2048, .i1⟩ : BufTy).Contents (Elt F))) (fun _ => .ret ⟨⟩)
  hlo rfl (StableHlo.binary main_v221 main_v223 main_v224 (andi : (⟨S128x2048, .i1⟩ : BufTy).Contents (Elt F) → (⟨S128x2048, .i1⟩ : BufTy).Contents (Elt F) → (⟨S128x2048, .i1⟩ : BufTy).Contents (Elt F))) (fun _ => .ret ⟨⟩)
  t5_p2 (F := F)

theorem main_part5_chain (d : Dev nD) : main_part5 (F := F) d = (Pipeline.chainK
  [ seq c15_0 ]
  (t5_p1 (F := F)) : Prog (TpuEff nD τ sig (Elt F) (Pipeline.Sig Λ₀ (Fin 0) fun p => (pcfgs (F := F) p).Adm) .tc) PUnit) := by
  chain_rfl

theorem t5_p1_eq : t5_p1 (F := F) = (Pipeline.chainK
  [ seq c15_1 ]
  (t5_p2 (F := F)) : Prog (TpuEff nD τ sig (Elt F) (Pipeline.Sig Λ₀ (Fin 0) fun p => (pcfgs (F := F) p).Adm) .tc) PUnit) := by
  chain_rfl

theorem t5_p2_eq : t5_p2 (F := F) = (Pipeline.chainK
  [ seq c15_2 ]
  (t5_p3 (F := F)) : Prog (TpuEff nD τ sig (Elt F) (Pipeline.Sig Λ₀ (Fin 0) fun p => (pcfgs (F := F) p).Adm) .tc) PUnit) := by
  chain_rfl

theorem t5_p3_eq : t5_p3 (F := F) = (Pipeline.chainK
  [ seq c15_3 ]
  (t5_p4 (F := F)) : Prog (TpuEff nD τ sig (Elt F) (Pipeline.Sig Λ₀ (Fin 0) fun p => (pcfgs (F := F) p).Adm) .tc) PUnit) := by
  chain_rfl

theorem t5_p4_eq : t5_p4 (F := F) = (Pipeline.chainK
  [ seq c15_4 ]
  (t5_p5 (F := F)) : Prog (TpuEff nD τ sig (Elt F) (Pipeline.Sig Λ₀ (Fin 0) fun p => (pcfgs (F := F) p).Adm) .tc) PUnit) := by
  chain_rfl

theorem t5_p5_eq : t5_p5 (F := F) = (Pipeline.chainK
  [ seq c15_5 ]
  (t5_p6 (F := F)) : Prog (TpuEff nD τ sig (Elt F) (Pipeline.Sig Λ₀ (Fin 0) fun p => (pcfgs (F := F) p).Adm) .tc) PUnit) := by
  chain_rfl

theorem t5_p6_eq : t5_p6 (F := F) = (Pipeline.chainK
  [ seq c15_6 ]
  (t5_p7 (F := F)) : Prog (TpuEff nD τ sig (Elt F) (Pipeline.Sig Λ₀ (Fin 0) fun p => (pcfgs (F := F) p).Adm) .tc) PUnit) := by
  chain_rfl

theorem t5_p7_eq : t5_p7 (F := F) = (Pipeline.chainK
  [ seq c16_0 ]
  (t5_p8 (F := F)) : Prog (TpuEff nD τ sig (Elt F) (Pipeline.Sig Λ₀ (Fin 0) fun p => (pcfgs (F := F) p).Adm) .tc) PUnit) := by
  chain_rfl

theorem t5_p8_eq : t5_p8 (F := F) = (Pipeline.chainK
  [ seq c16_1 ]
  (t5_p9 (F := F)) : Prog (TpuEff nD τ sig (Elt F) (Pipeline.Sig Λ₀ (Fin 0) fun p => (pcfgs (F := F) p).Adm) .tc) PUnit) := by
  chain_rfl

theorem t5_p9_eq : t5_p9 (F := F) = (Pipeline.chainK
  [ seq c16_2 ]
  (t5_p10 (F := F)) : Prog (TpuEff nD τ sig (Elt F) (Pipeline.Sig Λ₀ (Fin 0) fun p => (pcfgs (F := F) p).Adm) .tc) PUnit) := by
  chain_rfl

theorem t5_p10_eq : t5_p10 (F := F) = (Pipeline.chainK
  [ seq c16_3 ]
  (t5_p11 (F := F)) : Prog (TpuEff nD τ sig (Elt F) (Pipeline.Sig Λ₀ (Fin 0) fun p => (pcfgs (F := F) p).Adm) .tc) PUnit) := by
  chain_rfl

theorem t5_p11_eq : t5_p11 (F := F) = (Pipeline.chainK
  [ seq c16_4 ]
  (t5_p12 (F := F)) : Prog (TpuEff nD τ sig (Elt F) (Pipeline.Sig Λ₀ (Fin 0) fun p => (pcfgs (F := F) p).Adm) .tc) PUnit) := by
  chain_rfl

theorem t5_p12_eq : t5_p12 (F := F) = (Pipeline.chainK
  [ seq c16_5 ]
  (t5_p13 (F := F)) : Prog (TpuEff nD τ sig (Elt F) (Pipeline.Sig Λ₀ (Fin 0) fun p => (pcfgs (F := F) p).Adm) .tc) PUnit) := by
  chain_rfl

theorem t5_p13_eq : t5_p13 (F := F) = (Pipeline.chainK
  [ seq c16_6 ]
  (t5_p14 (F := F)) : Prog (TpuEff nD τ sig (Elt F) (Pipeline.Sig Λ₀ (Fin 0) fun p => (pcfgs (F := F) p).Adm) .tc) PUnit) := by
  chain_rfl

theorem t5_p14_eq : t5_p14 (F := F) = (Pipeline.chainK
  [ seq c16_7 ]
  (t5_p15 (F := F)) : Prog (TpuEff nD τ sig (Elt F) (Pipeline.Sig Λ₀ (Fin 0) fun p => (pcfgs (F := F) p).Adm) .tc) PUnit) := by
  chain_rfl

theorem t5_p15_eq : t5_p15 (F := F) = (Pipeline.chainK
  [ seq c17_0 ]
  (t5_p16 (F := F)) : Prog (TpuEff nD τ sig (Elt F) (Pipeline.Sig Λ₀ (Fin 0) fun p => (pcfgs (F := F) p).Adm) .tc) PUnit) := by
  chain_rfl

theorem t5_p16_eq : t5_p16 (F := F) = (Pipeline.chainK
  [ seq c17_1 ]
  (t5_p17 (F := F)) : Prog (TpuEff nD τ sig (Elt F) (Pipeline.Sig Λ₀ (Fin 0) fun p => (pcfgs (F := F) p).Adm) .tc) PUnit) := by
  chain_rfl

theorem t5_p17_eq : t5_p17 (F := F) = (Pipeline.chainK
  [ seq c17_2 ]
  (t5_p18 (F := F)) : Prog (TpuEff nD τ sig (Elt F) (Pipeline.Sig Λ₀ (Fin 0) fun p => (pcfgs (F := F) p).Adm) .tc) PUnit) := by
  chain_rfl

theorem t5_p18_eq : t5_p18 (F := F) = (Pipeline.chainK
  [ seq c17_3 ]
  (t5_p19 (F := F)) : Prog (TpuEff nD τ sig (Elt F) (Pipeline.Sig Λ₀ (Fin 0) fun p => (pcfgs (F := F) p).Adm) .tc) PUnit) := by
  chain_rfl

theorem t5_p19_eq : t5_p19 (F := F) = (Pipeline.chainK
  [ seq c17_4 ]
  (t5_p20 (F := F)) : Prog (TpuEff nD τ sig (Elt F) (Pipeline.Sig Λ₀ (Fin 0) fun p => (pcfgs (F := F) p).Adm) .tc) PUnit) := by
  chain_rfl

theorem t5_p20_eq : t5_p20 (F := F) = (Pipeline.chainK
  [ seq c17_5 ]
  (t5_p21 (F := F)) : Prog (TpuEff nD τ sig (Elt F) (Pipeline.Sig Λ₀ (Fin 0) fun p => (pcfgs (F := F) p).Adm) .tc) PUnit) := by
  chain_rfl

theorem t5_p21_eq : t5_p21 (F := F) = (Pipeline.chainK
  [ seq c17_6 ]
  (t5_p22 (F := F)) : Prog (TpuEff nD τ sig (Elt F) (Pipeline.Sig Λ₀ (Fin 0) fun p => (pcfgs (F := F) p).Adm) .tc) PUnit) := by
  chain_rfl

theorem t5_p22_eq : t5_p22 (F := F) = (Pipeline.chainK
  [  ]
  (seq c17_7) : Prog (TpuEff nD τ sig (Elt F) (Pipeline.Sig Λ₀ (Fin 0) fun p => (pcfgs (F := F) p).Adm) .tc) PUnit) := by
  chain_rfl

theorem main_part5_eq (d : Dev nD) : main_part5 (F := F) d = (seq w5 : Prog (TpuEff nD τ sig (Elt F) (Pipeline.Sig Λ₀ (Fin 0) fun p => (pcfgs (F := F) p).Adm) .tc) PUnit) := by
  rw [main_part5_chain d, t5_p1_eq, t5_p2_eq, t5_p3_eq, t5_p4_eq, t5_p5_eq, t5_p6_eq, t5_p7_eq, t5_p8_eq, t5_p9_eq, t5_p10_eq, t5_p11_eq, t5_p12_eq, t5_p13_eq, t5_p14_eq, t5_p15_eq, t5_p16_eq, t5_p17_eq, t5_p18_eq, t5_p19_eq, t5_p20_eq, t5_p21_eq, t5_p22_eq]
  simp only [w5, c15, c16, c17, Pipeline.chainK, seq_append, bind_assoc]

end Cert.ReferenceIdeal.RefRunGen

end
-- ==== Proof.RefRunGen.P6.lean ====
import proofs.«416765_j9792525435349_4_alg».proof.Proof.RefRunGen.Ok
import Idealize.ShloMosaic.Lib.Pipeline.Regions

noncomputable section

namespace Cert.ReferenceIdeal.RefRunGen

open Cert.ReferenceIdeal Cert.ReferenceIdeal.Gen Idealize.ShloMosaic Idealize.ShloMosaic.TcCoe Idealize.SL.Sem Idealize.ShloMosaic.StableHlo

variable {F : FTy → Type} [FloatOps F]

abbrev c18_0 : List (HloOp τ sig (Elt F)) :=
  [ binary main_v261 main_v263 main_v264 (andi : (⟨S128x2048, .i1⟩ : BufTy).Contents (Elt F) → (⟨S128x2048, .i1⟩ : BufTy).Contents (Elt F) → (⟨S128x2048, .i1⟩ : BufTy).Contents (Elt F)),
    unary main_v264 main_v265 (uitofp .f32 : (⟨S128x2048, .i1⟩ : BufTy).Contents (Elt F) → (⟨S128x2048, .f32⟩ : BufTy).Contents (Elt F)),
    nullary main_c_94 (constantI S_ 32 0#32) ]

theorem c18_0_ok : Ok (F := F) c18_0 :=
  ⟨⟨binary_bufs_sub .., rfl⟩, ⟨unary_bufs_sub .., rfl⟩, ⟨nullary_bufs_sub .., rfl⟩⟩

abbrev c18_1 : List (HloOp τ sig (Elt F)) :=
  [ nullary main_c_95 (constantI S_ 32 31#32) ]

theorem c18_1_ok : Ok (F := F) c18_1 :=
  ⟨nullary_bufs_sub .., rfl⟩

abbrev c18_2 : List (HloOp τ sig (Elt F)) :=
  [ TRef.unary (TRef.of (T := ⟨S_, .i32⟩) main_c_94) (TRef.of (T := ⟨S_, .i32⟩) main_call11_v0) id,
    TRef.unary (TRef.of (T := ⟨S_, .i32⟩) main_call11_v0) (TRef.of (T := ⟨S128x2048, .i32⟩) main_call11_v1) (broadcastInDim S128x2048 ![] bcast_S_S128x2048),
    TRef.binary (TRef.of (T := ⟨S128x2048, .i32⟩) main_call11_v1) (TRef.of (T := ⟨S128x2048, .i32⟩) main_v211) (TRef.of (T := ⟨S128x2048, .i32⟩) main_call11_v2) maxsi,
    TRef.unary (TRef.of (T := ⟨S_, .i32⟩) main_c_95) (TRef.of (T := ⟨S_, .i32⟩) main_call11_v3) id,
    TRef.unary (TRef.of (T := ⟨S_, .i32⟩) main_call11_v3) (TRef.of (T := ⟨S128x2048, .i32⟩) main_call11_v4) (broadcastInDim S128x2048 ![] bcast_S_S128x2048),
    TRef.binary (TRef.of (T := ⟨S128x2048, .i32⟩) main_call11_v4) (TRef.of (T := ⟨S128x2048, .i32⟩) main_call11_v2) (TRef.of (T := ⟨S128x2048, .i32⟩) main_v266) minsi ]

theorem c18_2_ok : Ok (F := F) c18_2 :=
  ⟨⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩⟩

abbrev c18_3 : List (HloOp τ sig (Elt F)) :=
  [ nullary main_c_96 (constantI S_ 32 0#32),
    nullary main_c_97 (constantI S_ 32 31#32) ]

theorem c18_3_ok : Ok (F := F) c18_3 :=
  ⟨⟨nullary_bufs_sub .., rfl⟩, ⟨nullary_bufs_sub .., rfl⟩⟩

abbrev c18_4 : List (HloOp τ sig (Elt F)) :=
  [ TRef.unary (TRef.of (T := ⟨S_, .i32⟩) main_c_96) (TRef.of (T := ⟨S_, .i32⟩) main_call12_v0) id,
    TRef.unary (TRef.of (T := ⟨S_, .i32⟩) main_call12_v0) (TRef.of (T := ⟨S128x2048, .i32⟩) main_call12_v1) (broadcastInDim S128x2048 ![] bcast_S_S128x2048),
    TRef.binary (TRef.of (T := ⟨S128x2048, .i32⟩) main_call12_v1) (TRef.of (T := ⟨S128x2048, .i32⟩) main_v250) (TRef.of (T := ⟨S128x2048, .i32⟩) main_call12_v2) maxsi,
    TRef.unary (TRef.of (T := ⟨S_, .i32⟩) main_c_97) (TRef.of (T := ⟨S_, .i32⟩) main_call12_v3) id,
    TRef.unary (TRef.of (T := ⟨S_, .i32⟩) main_call12_v3) (TRef.of (T := ⟨S128x2048, .i32⟩) main_call12_v4) (broadcastInDim S128x2048 ![] bcast_S_S128x2048),
    TRef.binary (TRef.of (T := ⟨S128x2048, .i32⟩) main_call12_v4) (TRef.of (T := ⟨S128x2048, .i32⟩) main_call12_v2) (TRef.of (T := ⟨S128x2048, .i32⟩) main_v267) minsi ]

theorem c18_4_ok : Ok (F := F) c18_4 :=
  ⟨⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩⟩

abbrev c18_5 : List (HloOp τ sig (Elt F)) :=
  [ nullary main_c_98 (constantI S_ 32 0#32),
    unary main_c_98 main_v268 (broadcastInDim S128x2048 ![] bcast_S_S128x2048 : (⟨S_, .i32⟩ : BufTy).Contents (Elt F) → (⟨S128x2048, .i32⟩ : BufTy).Contents (Elt F)) ]

theorem c18_5_ok : Ok (F := F) c18_5 :=
  ⟨⟨nullary_bufs_sub .., rfl⟩, ⟨unary_bufs_sub .., rfl⟩⟩

abbrev c19_0 : List (HloOp τ sig (Elt F)) :=
  [ binary main_v266 main_v268 main_v269 (cmpi .slt : (⟨S128x2048, .i32⟩ : BufTy).Contents (Elt F) → (⟨S128x2048, .i32⟩ : BufTy).Contents (Elt F) → (⟨S128x2048, .i1⟩ : BufTy).Contents (Elt F)),
    nullary main_c_99 (constantI S_ 32 32#32),
    unary main_c_99 main_v270 (broadcastInDim S128x2048 ![] bcast_S_S128x2048 : (⟨S_, .i32⟩ : BufTy).Contents (Elt F) → (⟨S128x2048, .i32⟩ : BufTy).Contents (Elt F)) ]

theorem c19_0_ok : Ok (F := F) c19_0 :=
  ⟨⟨binary_bufs_sub .., rfl⟩, ⟨nullary_bufs_sub .., rfl⟩, ⟨unary_bufs_sub .., rfl⟩⟩

abbrev c19_1 : List (HloOp τ sig (Elt F)) :=
  [ binary main_v266 main_v270 main_v271 (addi : (⟨S128x2048, .i32⟩ : BufTy).Contents (Elt F) → (⟨S128x2048, .i32⟩ : BufTy).Contents (Elt F) → (⟨S128x2048, .i32⟩ : BufTy).Contents (Elt F)),
    ternary main_v269 main_v271 main_v266 main_v272 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F)),
    nullary main_c_100 (constantI S_ 32 0#32) ]

theorem c19_1_ok : Ok (F := F) c19_1 :=
  ⟨⟨binary_bufs_sub .., rfl⟩, ⟨ternary_bufs_sub .., rfl⟩, ⟨nullary_bufs_sub .., rfl⟩⟩

abbrev c19_2 : List (HloOp τ sig (Elt F)) :=
  [ unary main_c_100 main_v273 (broadcastInDim S128x2048 ![] bcast_S_S128x2048 : (⟨S_, .i32⟩ : BufTy).Contents (Elt F) → (⟨S128x2048, .i32⟩ : BufTy).Contents (Elt F)),
    binary main_v267 main_v273 main_v274 (cmpi .slt : (⟨S128x2048, .i32⟩ : BufTy).Contents (Elt F) → (⟨S128x2048, .i32⟩ : BufTy).Contents (Elt F) → (⟨S128x2048, .i1⟩ : BufTy).Contents (Elt F)),
    nullary main_c_101 (constantI S_ 32 32#32) ]

theorem c19_2_ok : Ok (F := F) c19_2 :=
  ⟨⟨unary_bufs_sub .., rfl⟩, ⟨binary_bufs_sub .., rfl⟩, ⟨nullary_bufs_sub .., rfl⟩⟩

abbrev c19_3 : List (HloOp τ sig (Elt F)) :=
  [ unary main_c_101 main_v275 (broadcastInDim S128x2048 ![] bcast_S_S128x2048 : (⟨S_, .i32⟩ : BufTy).Contents (Elt F) → (⟨S128x2048, .i32⟩ : BufTy).Contents (Elt F)),
    binary main_v267 main_v275 main_v276 (addi : (⟨S128x2048, .i32⟩ : BufTy).Contents (Elt F) → (⟨S128x2048, .i32⟩ : BufTy).Contents (Elt F) → (⟨S128x2048, .i32⟩ : BufTy).Contents (Elt F)),
    ternary main_v274 main_v276 main_v267 main_v277 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F)) ]

theorem c19_3_ok : Ok (F := F) c19_3 :=
  ⟨⟨unary_bufs_sub .., rfl⟩, ⟨binary_bufs_sub .., rfl⟩, ⟨ternary_bufs_sub .., rfl⟩⟩

abbrev c19_4 : List (HloOp τ sig (Elt F)) :=
  [ unary main_v272 main_v278 (broadcastInDim S128x2048x1 ![0, 1] bcast_S128x2048_S128x2048x1_0_1 : (⟨S128x2048, .i32⟩ : BufTy).Contents (Elt F) → (⟨S128x2048x1, .i32⟩ : BufTy).Contents (Elt F)),
    unary main_v277 main_v279 (broadcastInDim S128x2048x1 ![0, 1] bcast_S128x2048_S128x2048x1_0_1 : (⟨S128x2048, .i32⟩ : BufTy).Contents (Elt F) → (⟨S128x2048x1, .i32⟩ : BufTy).Contents (Elt F)),
    binary main_v278 main_v279 main_v280 ((fun a b => concatenate S128x2048x2 2 [⟨S128x2048x1, a⟩, ⟨S128x2048x1, b⟩] concatenates_S128x2048x1_S128x2048x1_S128x2048x2_d2) : (⟨S128x2048x1, .i32⟩ : BufTy).Contents (Elt F) → (⟨S128x2048x1, .i32⟩ : BufTy).Contents (Elt F) → (⟨S128x2048x2, .i32⟩ : BufTy).Contents (Elt F)) ]

theorem c19_4_ok : Ok (F := F) c19_4 :=
  ⟨⟨unary_bufs_sub .., rfl⟩, ⟨unary_bufs_sub .., rfl⟩, ⟨binary_bufs_sub .., rfl⟩⟩

abbrev c19_5 : List (HloOp τ sig (Elt F)) :=
  [ binary main_v185 main_v280 main_v281 ((fun x i => Host.gather gather_S128x64x32x32_S128x2048x2_S128x64x2048_1_23_0_0_23_2_16411 x i) : (⟨S128x64x32x32, .f32⟩ : BufTy).Contents (Elt F) → (⟨S128x2048x2, .i32⟩ : BufTy).Contents (Elt F) → (⟨S128x64x2048, .f32⟩ : BufTy).Contents (Elt F)),
    binary main_v253 main_v265 main_v282 (mulf : (⟨S128x2048, .f32⟩ : BufTy).Contents (Elt F) → (⟨S128x2048, .f32⟩ : BufTy).Contents (Elt F) → (⟨S128x2048, .f32⟩ : BufTy).Contents (Elt F)),
    unary main_v282 main_v283 (broadcastInDim S128x1x2048 ![0, 2] bcast_S128x2048_S128x1x2048_0_2 : (⟨S128x2048, .f32⟩ : BufTy).Contents (Elt F) → (⟨S128x1x2048, .f32⟩ : BufTy).Contents (Elt F)) ]

theorem c19_5_ok : Ok (F := F) c19_5 :=
  ⟨⟨binary_bufs_sub .., rfl⟩, ⟨binary_bufs_sub .., rfl⟩, ⟨unary_bufs_sub .., rfl⟩⟩

abbrev c19_6 : List (HloOp τ sig (Elt F)) :=
  [ unary main_v283 main_v284 (broadcastInDim S128x64x2048 ![0, 1, 2] bcast_S128x1x2048_S128x64x2048_0_1_2 : (⟨S128x1x2048, .f32⟩ : BufTy).Contents (Elt F) → (⟨S128x64x2048, .f32⟩ : BufTy).Contents (Elt F)),
    binary main_v281 main_v284 main_v285 (mulf : (⟨S128x64x2048, .f32⟩ : BufTy).Contents (Elt F) → (⟨S128x64x2048, .f32⟩ : BufTy).Contents (Elt F) → (⟨S128x64x2048, .f32⟩ : BufTy).Contents (Elt F)) ]

theorem c19_6_ok : Ok (F := F) c19_6 :=
  ⟨⟨unary_bufs_sub .., rfl⟩, ⟨binary_bufs_sub .., rfl⟩⟩

abbrev c20_0 : List (HloOp τ sig (Elt F)) :=
  [ binary main_v248 main_v285 main_v286 (addf : (⟨S128x64x2048, .f32⟩ : BufTy).Contents (Elt F) → (⟨S128x64x2048, .f32⟩ : BufTy).Contents (Elt F) → (⟨S128x64x2048, .f32⟩ : BufTy).Contents (Elt F)),
    nullary main_c_102 (constantI S_ 32 1#32),
    unary main_c_102 main_v287 (broadcastInDim S128x2048 ![] bcast_S_S128x2048 : (⟨S_, .i32⟩ : BufTy).Contents (Elt F) → (⟨S128x2048, .i32⟩ : BufTy).Contents (Elt F)) ]

theorem c20_0_ok : Ok (F := F) c20_0 :=
  ⟨⟨binary_bufs_sub .., rfl⟩, ⟨nullary_bufs_sub .., rfl⟩, ⟨unary_bufs_sub .., rfl⟩⟩

abbrev c20_1 : List (HloOp τ sig (Elt F)) :=
  [ binary main_v211 main_v287 main_v288 (addi : (⟨S128x2048, .i32⟩ : BufTy).Contents (Elt F) → (⟨S128x2048, .i32⟩ : BufTy).Contents (Elt F) → (⟨S128x2048, .i32⟩ : BufTy).Contents (Elt F)),
    nullary main_cst_103 (constant S_ .f32 0x3F800000#32),
    unary main_cst_103 main_v289 (broadcastInDim S128x2048 ![] bcast_S_S128x2048 : (⟨S_, .f32⟩ : BufTy).Contents (Elt F) → (⟨S128x2048, .f32⟩ : BufTy).Contents (Elt F)) ]

theorem c20_1_ok : Ok (F := F) c20_1 :=
  ⟨⟨binary_bufs_sub .., rfl⟩, ⟨nullary_bufs_sub .., rfl⟩, ⟨unary_bufs_sub .., rfl⟩⟩

abbrev c20_2 : List (HloOp τ sig (Elt F)) :=
  [ binary main_v289 main_v208 main_v290 (subf : (⟨S128x2048, .f32⟩ : BufTy).Contents (Elt F) → (⟨S128x2048, .f32⟩ : BufTy).Contents (Elt F) → (⟨S128x2048, .f32⟩ : BufTy).Contents (Elt F)),
    binary main_v209 main_v290 main_v291 (mulf : (⟨S128x2048, .f32⟩ : BufTy).Contents (Elt F) → (⟨S128x2048, .f32⟩ : BufTy).Contents (Elt F) → (⟨S128x2048, .f32⟩ : BufTy).Contents (Elt F)),
    nullary main_c_104 (constantI S_ 32 0#32) ]

theorem c20_2_ok : Ok (F := F) c20_2 :=
  ⟨⟨binary_bufs_sub .., rfl⟩, ⟨binary_bufs_sub .., rfl⟩, ⟨nullary_bufs_sub .., rfl⟩⟩

abbrev c20_3 : List (HloOp τ sig (Elt F)) :=
  [ unary main_c_104 main_v292 (broadcastInDim S128x2048 ![] bcast_S_S128x2048 : (⟨S_, .i32⟩ : BufTy).Contents (Elt F) → (⟨S128x2048, .i32⟩ : BufTy).Contents (Elt F)),
    binary main_v288 main_v292 main_v293 (cmpi .sge : (⟨S128x2048, .i32⟩ : BufTy).Contents (Elt F) → (⟨S128x2048, .i32⟩ : BufTy).Contents (Elt F) → (⟨S128x2048, .i1⟩ : BufTy).Contents (Elt F)),
    nullary main_c_105 (constantI S_ 32 32#32) ]

theorem c20_3_ok : Ok (F := F) c20_3 :=
  ⟨⟨unary_bufs_sub .., rfl⟩, ⟨binary_bufs_sub .., rfl⟩, ⟨nullary_bufs_sub .., rfl⟩⟩

abbrev c20_4 : List (HloOp τ sig (Elt F)) :=
  [ unary main_c_105 main_v294 (broadcastInDim S128x2048 ![] bcast_S_S128x2048 : (⟨S_, .i32⟩ : BufTy).Contents (Elt F) → (⟨S128x2048, .i32⟩ : BufTy).Contents (Elt F)),
    binary main_v288 main_v294 main_v295 (cmpi .slt : (⟨S128x2048, .i32⟩ : BufTy).Contents (Elt F) → (⟨S128x2048, .i32⟩ : BufTy).Contents (Elt F) → (⟨S128x2048, .i1⟩ : BufTy).Contents (Elt F)),
    binary main_v293 main_v295 main_v296 (andi : (⟨S128x2048, .i1⟩ : BufTy).Contents (Elt F) → (⟨S128x2048, .i1⟩ : BufTy).Contents (Elt F) → (⟨S128x2048, .i1⟩ : BufTy).Contents (Elt F)) ]

theorem c20_4_ok : Ok (F := F) c20_4 :=
  ⟨⟨unary_bufs_sub .., rfl⟩, ⟨binary_bufs_sub .., rfl⟩, ⟨binary_bufs_sub .., rfl⟩⟩

abbrev c20_5 : List (HloOp τ sig (Elt F)) :=
  [ nullary main_c_106 (constantI S_ 32 0#32),
    unary main_c_106 main_v297 (broadcastInDim S128x2048 ![] bcast_S_S128x2048 : (⟨S_, .i32⟩ : BufTy).Contents (Elt F) → (⟨S128x2048, .i32⟩ : BufTy).Contents (Elt F)),
    binary main_v210 main_v297 main_v298 (cmpi .sge : (⟨S128x2048, .i32⟩ : BufTy).Contents (Elt F) → (⟨S128x2048, .i32⟩ : BufTy).Contents (Elt F) → (⟨S128x2048, .i1⟩ : BufTy).Contents (Elt F)) ]

theorem c20_5_ok : Ok (F := F) c20_5 :=
  ⟨⟨nullary_bufs_sub .., rfl⟩, ⟨unary_bufs_sub .., rfl⟩, ⟨binary_bufs_sub .., rfl⟩⟩

abbrev c20_6 : List (HloOp τ sig (Elt F)) :=
  [ binary main_v296 main_v298 main_v299 (andi : (⟨S128x2048, .i1⟩ : BufTy).Contents (Elt F) → (⟨S128x2048, .i1⟩ : BufTy).Contents (Elt F) → (⟨S128x2048, .i1⟩ : BufTy).Contents (Elt F)),
    nullary main_c_107 (constantI S_ 32 32#32) ]

theorem c20_6_ok : Ok (F := F) c20_6 :=
  ⟨⟨binary_bufs_sub .., rfl⟩, ⟨nullary_bufs_sub .., rfl⟩⟩

abbrev c21_0 : List (HloOp τ sig (Elt F)) :=
  [ unary main_c_107 main_v300 (broadcastInDim S128x2048 ![] bcast_S_S128x2048 : (⟨S_, .i32⟩ : BufTy).Contents (Elt F) → (⟨S128x2048, .i32⟩ : BufTy).Contents (Elt F)),
    binary main_v210 main_v300 main_v301 (cmpi .slt : (⟨S128x2048, .i32⟩ : BufTy).Contents (Elt F) → (⟨S128x2048, .i32⟩ : BufTy).Contents (Elt F) → (⟨S128x2048, .i1⟩ : BufTy).Contents (Elt F)),
    binary main_v299 main_v301 main_v302 (andi : (⟨S128x2048, .i1⟩ : BufTy).Contents (Elt F) → (⟨S128x2048, .i1⟩ : BufTy).Contents (Elt F) → (⟨S128x2048, .i1⟩ : BufTy).Contents (Elt F)) ]

theorem c21_0_ok : Ok (F := F) c21_0 :=
  ⟨⟨unary_bufs_sub .., rfl⟩, ⟨binary_bufs_sub .., rfl⟩, ⟨binary_bufs_sub .., rfl⟩⟩

abbrev c21_1 : List (HloOp τ sig (Elt F)) :=
  [ unary main_v302 main_v303 (uitofp .f32 : (⟨S128x2048, .i1⟩ : BufTy).Contents (Elt F) → (⟨S128x2048, .f32⟩ : BufTy).Contents (Elt F)),
    nullary main_c_108 (constantI S_ 32 0#32),
    nullary main_c_109 (constantI S_ 32 31#32) ]

theorem c21_1_ok : Ok (F := F) c21_1 :=
  ⟨⟨unary_bufs_sub .., rfl⟩, ⟨nullary_bufs_sub .., rfl⟩, ⟨nullary_bufs_sub .., rfl⟩⟩

abbrev c21_2 : List (HloOp τ sig (Elt F)) :=
  [ TRef.unary (TRef.of (T := ⟨S_, .i32⟩) main_c_108) (TRef.of (T := ⟨S_, .i32⟩) main_call13_v0) id,
    TRef.unary (TRef.of (T := ⟨S_, .i32⟩) main_call13_v0) (TRef.of (T := ⟨S128x2048, .i32⟩) main_call13_v1) (broadcastInDim S128x2048 ![] bcast_S_S128x2048),
    TRef.binary (TRef.of (T := ⟨S128x2048, .i32⟩) main_call13_v1) (TRef.of (T := ⟨S128x2048, .i32⟩) main_v288) (TRef.of (T := ⟨S128x2048, .i32⟩) main_call13_v2) maxsi,
    TRef.unary (TRef.of (T := ⟨S_, .i32⟩) main_c_109) (TRef.of (T := ⟨S_, .i32⟩) main_call13_v3) id,
    TRef.unary (TRef.of (T := ⟨S_, .i32⟩) main_call13_v3) (TRef.of (T := ⟨S128x2048, .i32⟩) main_call13_v4) (broadcastInDim S128x2048 ![] bcast_S_S128x2048),
    TRef.binary (TRef.of (T := ⟨S128x2048, .i32⟩) main_call13_v4) (TRef.of (T := ⟨S128x2048, .i32⟩) main_call13_v2) (TRef.of (T := ⟨S128x2048, .i32⟩) main_v304) minsi ]

theorem c21_2_ok : Ok (F := F) c21_2 :=
  ⟨⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩⟩

abbrev c21_3 : List (HloOp τ sig (Elt F)) :=
  [ nullary main_c_110 (constantI S_ 32 0#32),
    nullary main_c_111 (constantI S_ 32 31#32) ]

theorem c21_3_ok : Ok (F := F) c21_3 :=
  ⟨⟨nullary_bufs_sub .., rfl⟩, ⟨nullary_bufs_sub .., rfl⟩⟩

abbrev c21_4 : List (HloOp τ sig (Elt F)) :=
  [ TRef.unary (TRef.of (T := ⟨S_, .i32⟩) main_c_110) (TRef.of (T := ⟨S_, .i32⟩) main_call14_v0) id,
    TRef.unary (TRef.of (T := ⟨S_, .i32⟩) main_call14_v0) (TRef.of (T := ⟨S128x2048, .i32⟩) main_call14_v1) (broadcastInDim S128x2048 ![] bcast_S_S128x2048),
    TRef.binary (TRef.of (T := ⟨S128x2048, .i32⟩) main_call14_v1) (TRef.of (T := ⟨S128x2048, .i32⟩) main_v210) (TRef.of (T := ⟨S128x2048, .i32⟩) main_call14_v2) maxsi,
    TRef.unary (TRef.of (T := ⟨S_, .i32⟩) main_c_111) (TRef.of (T := ⟨S_, .i32⟩) main_call14_v3) id,
    TRef.unary (TRef.of (T := ⟨S_, .i32⟩) main_call14_v3) (TRef.of (T := ⟨S128x2048, .i32⟩) main_call14_v4) (broadcastInDim S128x2048 ![] bcast_S_S128x2048),
    TRef.binary (TRef.of (T := ⟨S128x2048, .i32⟩) main_call14_v4) (TRef.of (T := ⟨S128x2048, .i32⟩) main_call14_v2) (TRef.of (T := ⟨S128x2048, .i32⟩) main_v305) minsi ]

theorem c21_4_ok : Ok (F := F) c21_4 :=
  ⟨⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩⟩

def c18 : List (HloOp τ sig (Elt F)) := c18_0 ++ (c18_1 ++ (c18_2 ++ (c18_3 ++ (c18_4 ++ (c18_5)))))

theorem c18_ok : Ok (F := F) c18 := c18_0_ok.append (c18_1_ok.append (c18_2_ok.append (c18_3_ok.append (c18_4_ok.append (c18_5_ok)))))

def c19 : List (HloOp τ sig (Elt F)) := c19_0 ++ (c19_1 ++ (c19_2 ++ (c19_3 ++ (c19_4 ++ (c19_5 ++ (c19_6))))))

theorem c19_ok : Ok (F := F) c19 := c19_0_ok.append (c19_1_ok.append (c19_2_ok.append (c19_3_ok.append (c19_4_ok.append (c19_5_ok.append (c19_6_ok))))))

def c20 : List (HloOp τ sig (Elt F)) := c20_0 ++ (c20_1 ++ (c20_2 ++ (c20_3 ++ (c20_4 ++ (c20_5 ++ (c20_6))))))

theorem c20_ok : Ok (F := F) c20 := c20_0_ok.append (c20_1_ok.append (c20_2_ok.append (c20_3_ok.append (c20_4_ok.append (c20_5_ok.append (c20_6_ok))))))

def c21 : List (HloOp τ sig (Elt F)) := c21_0 ++ (c21_1 ++ (c21_2 ++ (c21_3 ++ (c21_4))))

theorem c21_ok : Ok (F := F) c21 := c21_0_ok.append (c21_1_ok.append (c21_2_ok.append (c21_3_ok.append (c21_4_ok))))

def w6 : List (HloOp τ sig (Elt F)) := c18 ++ (c19 ++ (c20 ++ (c21)))

theorem w6_ok : Ok (F := F) w6 := c18_ok.append (c19_ok.append (c20_ok.append (c21_ok)))

noncomputable def t6_p24 : Prog (TpuEff nD τ sig (Elt F) (Pipeline.Sig Λ₀ (Fin 0) fun p => (pcfgs (F := F) p).Adm) .tc) PUnit := do
  fn_clip_0.body (.of main_v210) (.of main_c_110) (.of main_c_111) main_call14

noncomputable def t6_p23 : Prog (TpuEff nD τ sig (Elt F) (Pipeline.Sig Λ₀ (Fin 0) fun p => (pcfgs (F := F) p).Adm) .tc) PUnit := do
  hlo rfl (StableHlo.nullary main_c_110 (constantI S_ 32 0#32)) (fun _ => .ret ⟨⟩)
  hlo rfl (StableHlo.nullary main_c_111 (constantI S_ 32 31#32)) (fun _ => .ret ⟨⟩)
  t6_p24 (F := F)

noncomputable def t6_p22 : Prog (TpuEff nD τ sig (Elt F) (Pipeline.Sig Λ₀ (Fin 0) fun p => (pcfgs (F := F) p).Adm) .tc) PUnit := do
  fn_clip_0.body (.of main_v288) (.of main_c_108) (.of main_c_109) main_call13
  t6_p23 (F := F)

noncomputable def t6_p21 : Prog (TpuEff nD τ sig (Elt F) (Pipeline.Sig Λ₀ (Fin 0) fun p => (pcfgs (F := F) p).Adm) .tc) PUnit := do
  hlo rfl (StableHlo.unary main_v302 main_v303 (uitofp .f32 : (⟨S128x2048, .i1⟩ : BufTy).Contents (Elt F) → (⟨S128x2048, .f32⟩ : BufTy).Contents (Elt F))) (fun _ => .ret ⟨⟩)
  hlo rfl (StableHlo.nullary main_c_108 (constantI S_ 32 0#32)) (fun _ => .ret ⟨⟩)
  hlo rfl (StableHlo.nullary main_c_109 (constantI S_ 32 31#32)) (fun _ => .ret ⟨⟩)
  t6_p22 (F := F)

noncomputable def t6_p20 : Prog (TpuEff nD τ sig (Elt F) (Pipeline.Sig Λ₀ (Fin 0) fun p => (pcfgs (F := F) p).Adm) .tc) PUnit := do
  hlo rfl (StableHlo.unary main_c_107 main_v300 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v210 main_v300 main_v301 (cmpi .slt : (⟨S128x2048, .i32⟩ : BufTy).Contents (Elt F) → (⟨S128x2048, .i32⟩ : BufTy).Contents (Elt F) → (⟨S128x2048, .i1⟩ : BufTy).Contents (Elt F))) (fun _ => .ret ⟨⟩)
  hlo rfl (StableHlo.binary main_v299 main_v301 main_v302 (andi : (⟨S128x2048, .i1⟩ : BufTy).Contents (Elt F) → (⟨S128x2048, .i1⟩ : BufTy).Contents (Elt F) → (⟨S128x2048, .i1⟩ : BufTy).Contents (Elt F))) (fun _ => .ret ⟨⟩)
  t6_p21 (F := F)

noncomputable def t6_p19 : Prog (TpuEff nD τ sig (Elt F) (Pipeline.Sig Λ₀ (Fin 0) fun p => (pcfgs (F := F) p).Adm) .tc) PUnit := do
  hlo rfl (StableHlo.binary main_v296 main_v298 main_v299 (andi : (⟨S128x2048, .i1⟩ : BufTy).Contents (Elt F) → (⟨S128x2048, .i1⟩ : BufTy).Contents (Elt F) → (⟨S128x2048, .i1⟩ : BufTy).Contents (Elt F))) (fun _ => .ret ⟨⟩)
  hlo rfl (StableHlo.nullary main_c_107 (constantI S_ 32 32#32)) (fun _ => .ret ⟨⟩)
  t6_p20 (F := F)

noncomputable def t6_p18 : Prog (TpuEff nD τ sig (Elt F) (Pipeline.Sig Λ₀ (Fin 0) fun p => (pcfgs (F := F) p).Adm) .tc) PUnit := do
  hlo rfl (StableHlo.nullary main_c_106 (constantI S_ 32 0#32)) (fun _ => .ret ⟨⟩)
  hlo rfl (StableHlo.unary main_c_106 main_v297 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v210 main_v297 main_v298 (cmpi .sge : (⟨S128x2048, .i32⟩ : BufTy).Contents (Elt F) → (⟨S128x2048, .i32⟩ : BufTy).Contents (Elt F) → (⟨S128x2048, .i1⟩ : BufTy).Contents (Elt F))) (fun _ => .ret ⟨⟩)
  t6_p19 (F := F)

noncomputable def t6_p17 : Prog (TpuEff nD τ sig (Elt F) (Pipeline.Sig Λ₀ (Fin 0) fun p => (pcfgs (F := F) p).Adm) .tc) PUnit := do
  hlo rfl (StableHlo.unary main_c_105 main_v294 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v288 main_v294 main_v295 (cmpi .slt : (⟨S128x2048, .i32⟩ : BufTy).Contents (Elt F) → (⟨S128x2048, .i32⟩ : BufTy).Contents (Elt F) → (⟨S128x2048, .i1⟩ : BufTy).Contents (Elt F))) (fun _ => .ret ⟨⟩)
  hlo rfl (StableHlo.binary main_v293 main_v295 main_v296 (andi : (⟨S128x2048, .i1⟩ : BufTy).Contents (Elt F) → (⟨S128x2048, .i1⟩ : BufTy).Contents (Elt F) → (⟨S128x2048, .i1⟩ : BufTy).Contents (Elt F))) (fun _ => .ret ⟨⟩)
  t6_p18 (F := F)

noncomputable def t6_p16 : Prog (TpuEff nD τ sig (Elt F) (Pipeline.Sig Λ₀ (Fin 0) fun p => (pcfgs (F := F) p).Adm) .tc) PUnit := do
  hlo rfl (StableHlo.unary main_c_104 main_v292 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v288 main_v292 main_v293 (cmpi .sge : (⟨S128x2048, .i32⟩ : BufTy).Contents (Elt F) → (⟨S128x2048, .i32⟩ : BufTy).Contents (Elt F) → (⟨S128x2048, .i1⟩ : BufTy).Contents (Elt F))) (fun _ => .ret ⟨⟩)
  hlo rfl (StableHlo.nullary main_c_105 (constantI S_ 32 32#32)) (fun _ => .ret ⟨⟩)
  t6_p17 (F := F)

noncomputable def t6_p15 : Prog (TpuEff nD τ sig (Elt F) (Pipeline.Sig Λ₀ (Fin 0) fun p => (pcfgs (F := F) p).Adm) .tc) PUnit := do
  hlo rfl (StableHlo.binary main_v289 main_v208 main_v290 (subf : (⟨S128x2048, .f32⟩ : BufTy).Contents (Elt F) → (⟨S128x2048, .f32⟩ : BufTy).Contents (Elt F) → (⟨S128x2048, .f32⟩ : BufTy).Contents (Elt F))) (fun _ => .ret ⟨⟩)
  hlo rfl (StableHlo.binary main_v209 main_v290 main_v291 (mulf : (⟨S128x2048, .f32⟩ : BufTy).Contents (Elt F) → (⟨S128x2048, .f32⟩ : BufTy).Contents (Elt F) → (⟨S128x2048, .f32⟩ : BufTy).Contents (Elt F))) (fun _ => .ret ⟨⟩)
  hlo rfl (StableHlo.nullary main_c_104 (constantI S_ 32 0#32)) (fun _ => .ret ⟨⟩)
  t6_p16 (F := F)

noncomputable def t6_p14 : Prog (TpuEff nD τ sig (Elt F) (Pipeline.Sig Λ₀ (Fin 0) fun p => (pcfgs (F := F) p).Adm) .tc) PUnit := do
  hlo rfl (StableHlo.binary main_v211 main_v287 main_v288 (addi : (⟨S128x2048, .i32⟩ : BufTy).Contents (Elt F) → (⟨S128x2048, .i32⟩ : BufTy).Contents (Elt F) → (⟨S128x2048, .i32⟩ : BufTy).Contents (Elt F))) (fun _ => .ret ⟨⟩)
  hlo rfl (StableHlo.nullary main_cst_103 (constant S_ .f32 0x3F800000#32)) (fun _ => .ret ⟨⟩)
  hlo rfl (StableHlo.unary main_cst_103 main_v289 (broadcastInDim S128x2048 ![] bcast_S_S128x2048 : (⟨S_, .f32⟩ : BufTy).Contents (Elt F) → (⟨S128x2048, .f32⟩ : BufTy).Contents (Elt F))) (fun _ => .ret ⟨⟩)
  t6_p15 (F := F)

noncomputable def t6_p13 : Prog (TpuEff nD τ sig (Elt F) (Pipeline.Sig Λ₀ (Fin 0) fun p => (pcfgs (F := F) p).Adm) .tc) PUnit := do
  hlo rfl (StableHlo.binary main_v248 main_v285 main_v286 (addf : (⟨S128x64x2048, .f32⟩ : BufTy).Contents (Elt F) → (⟨S128x64x2048, .f32⟩ : BufTy).Contents (Elt F) → (⟨S128x64x2048, .f32⟩ : BufTy).Contents (Elt F))) (fun _ => .ret ⟨⟩)
  hlo rfl (StableHlo.nullary main_c_102 (constantI S_ 32 1#32)) (fun _ => .ret ⟨⟩)
  hlo rfl (StableHlo.unary main_c_102 main_v287 (broadcastInDim S128x2048 ![] bcast_S_S128x2048 : (⟨S_, .i32⟩ : BufTy).Contents (Elt F) → (⟨S128x2048, .i32⟩ : BufTy).Contents (Elt F))) (fun _ => .ret ⟨⟩)
  t6_p14 (F := F)

noncomputable def t6_p12 : Prog (TpuEff nD τ sig (Elt F) (Pipeline.Sig Λ₀ (Fin 0) fun p => (pcfgs (F := F) p).Adm) .tc) PUnit := do
  hlo rfl (StableHlo.unary main_v283 main_v284 (broadcastInDim S128x64x2048 ![0, 1, 2] bcast_S128x1x2048_S128x64x2048_0_1_2 : (⟨S128x1x2048, .f32⟩ : BufTy).Contents (Elt F) → (⟨S128x64x2048, .f32⟩ : BufTy).Contents (Elt F))) (fun _ => .ret ⟨⟩)
  hlo rfl (StableHlo.binary main_v281 main_v284 main_v285 (mulf : (⟨S128x64x2048, .f32⟩ : BufTy).Contents (Elt F) → (⟨S128x64x2048, .f32⟩ : BufTy).Contents (Elt F) → (⟨S128x64x2048, .f32⟩ : BufTy).Contents (Elt F))) (fun _ => .ret ⟨⟩)
  t6_p13 (F := F)

noncomputable def t6_p11 : Prog (TpuEff nD τ sig (Elt F) (Pipeline.Sig Λ₀ (Fin 0) fun p => (pcfgs (F := F) p).Adm) .tc) PUnit := do
  hlo rfl (StableHlo.binary main_v185 main_v280 main_v281 ((fun x i => Host.gather gather_S128x64x32x32_S128x2048x2_S128x64x2048_1_23_0_0_23_2_16411 x i) : (⟨S128x64x32x32, .f32⟩ : BufTy).Contents (Elt F) → (⟨S128x2048x2, .i32⟩ : BufTy).Contents (Elt F) → (⟨S128x64x2048, .f32⟩ : BufTy).Contents (Elt F))) (fun _ => .ret ⟨⟩)
  hlo rfl (StableHlo.binary main_v253 main_v265 main_v282 (mulf : (⟨S128x2048, .f32⟩ : BufTy).Contents (Elt F) → (⟨S128x2048, .f32⟩ : BufTy).Contents (Elt F) → (⟨S128x2048, .f32⟩ : BufTy).Contents (Elt F))) (fun _ => .ret ⟨⟩)
  hlo rfl (StableHlo.unary main_v282 main_v283 (broadcastInDim S128x1x2048 ![0, 2] bcast_S128x2048_S128x1x2048_0_2 : (⟨S128x2048, .f32⟩ : BufTy).Contents (Elt F) → (⟨S128x1x2048, .f32⟩ : BufTy).Contents (Elt F))) (fun _ => .ret ⟨⟩)
  t6_p12 (F := F)

noncomputable def t6_p10 : Prog (TpuEff nD τ sig (Elt F) (Pipeline.Sig Λ₀ (Fin 0) fun p => (pcfgs (F := F) p).Adm) .tc) PUnit := do
  hlo rfl (StableHlo.unary main_v272 main_v278 (broadcastInDim S128x2048x1 ![0, 1] bcast_S128x2048_S128x2048x1_0_1 : (⟨S128x2048, .i32⟩ : BufTy).Contents (Elt F) → (⟨S128x2048x1, .i32⟩ : BufTy).Contents (Elt F))) (fun _ => .ret ⟨⟩)
  hlo rfl (StableHlo.unary main_v277 main_v279 (broadcastInDim S128x2048x1 ![0, 1] bcast_S128x2048_S128x2048x1_0_1 : (⟨S128x2048, .i32⟩ : BufTy).Contents (Elt F) → (⟨S128x2048x1, .i32⟩ : BufTy).Contents (Elt F))) (fun _ => .ret ⟨⟩)
  hlo rfl (StableHlo.binary main_v278 main_v279 main_v280 ((fun a b => concatenate S128x2048x2 2 [⟨S128x2048x1, a⟩, ⟨S128x2048x1, b⟩] concatenates_S128x2048x1_S128x2048x1_S128x2048x2_d2) : (⟨S128x2048x1, .i32⟩ : BufTy).Contents (Elt F) → (⟨S128x2048x1, .i32⟩ : BufTy).Contents (Elt F) → (⟨S128x2048x2, .i32⟩ : BufTy).Contents (Elt F))) (fun _ => .ret ⟨⟩)
  t6_p11 (F := F)

noncomputable def t6_p9 : Prog (TpuEff nD τ sig (Elt F) (Pipeline.Sig Λ₀ (Fin 0) fun p => (pcfgs (F := F) p).Adm) .tc) PUnit := do
  hlo rfl (StableHlo.unary main_c_101 main_v275 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v267 main_v275 main_v276 (addi : (⟨S128x2048, .i32⟩ : BufTy).Contents (Elt F) → (⟨S128x2048, .i32⟩ : BufTy).Contents (Elt F) → (⟨S128x2048, .i32⟩ : BufTy).Contents (Elt F))) (fun _ => .ret ⟨⟩)
  hlo rfl (StableHlo.ternary main_v274 main_v276 main_v267 main_v277 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F))) (fun _ => .ret ⟨⟩)
  t6_p10 (F := F)

noncomputable def t6_p8 : Prog (TpuEff nD τ sig (Elt F) (Pipeline.Sig Λ₀ (Fin 0) fun p => (pcfgs (F := F) p).Adm) .tc) PUnit := do
  hlo rfl (StableHlo.unary main_c_100 main_v273 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v267 main_v273 main_v274 (cmpi .slt : (⟨S128x2048, .i32⟩ : BufTy).Contents (Elt F) → (⟨S128x2048, .i32⟩ : BufTy).Contents (Elt F) → (⟨S128x2048, .i1⟩ : BufTy).Contents (Elt F))) (fun _ => .ret ⟨⟩)
  hlo rfl (StableHlo.nullary main_c_101 (constantI S_ 32 32#32)) (fun _ => .ret ⟨⟩)
  t6_p9 (F := F)

noncomputable def t6_p7 : Prog (TpuEff nD τ sig (Elt F) (Pipeline.Sig Λ₀ (Fin 0) fun p => (pcfgs (F := F) p).Adm) .tc) PUnit := do
  hlo rfl (StableHlo.binary main_v266 main_v270 main_v271 (addi : (⟨S128x2048, .i32⟩ : BufTy).Contents (Elt F) → (⟨S128x2048, .i32⟩ : BufTy).Contents (Elt F) → (⟨S128x2048, .i32⟩ : BufTy).Contents (Elt F))) (fun _ => .ret ⟨⟩)
  hlo rfl (StableHlo.ternary main_v269 main_v271 main_v266 main_v272 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F))) (fun _ => .ret ⟨⟩)
  hlo rfl (StableHlo.nullary main_c_100 (constantI S_ 32 0#32)) (fun _ => .ret ⟨⟩)
  t6_p8 (F := F)

noncomputable def t6_p6 : Prog (TpuEff nD τ sig (Elt F) (Pipeline.Sig Λ₀ (Fin 0) fun p => (pcfgs (F := F) p).Adm) .tc) PUnit := do
  hlo rfl (StableHlo.binary main_v266 main_v268 main_v269 (cmpi .slt : (⟨S128x2048, .i32⟩ : BufTy).Contents (Elt F) → (⟨S128x2048, .i32⟩ : BufTy).Contents (Elt F) → (⟨S128x2048, .i1⟩ : BufTy).Contents (Elt F))) (fun _ => .ret ⟨⟩)
  hlo rfl (StableHlo.nullary main_c_99 (constantI S_ 32 32#32)) (fun _ => .ret ⟨⟩)
  hlo rfl (StableHlo.unary main_c_99 main_v270 (broadcastInDim S128x2048 ![] bcast_S_S128x2048 : (⟨S_, .i32⟩ : BufTy).Contents (Elt F) → (⟨S128x2048, .i32⟩ : BufTy).Contents (Elt F))) (fun _ => .ret ⟨⟩)
  t6_p7 (F := F)

noncomputable def t6_p5 : Prog (TpuEff nD τ sig (Elt F) (Pipeline.Sig Λ₀ (Fin 0) fun p => (pcfgs (F := F) p).Adm) .tc) PUnit := do
  hlo rfl (StableHlo.nullary main_c_98 (constantI S_ 32 0#32)) (fun _ => .ret ⟨⟩)
  hlo rfl (StableHlo.unary main_c_98 main_v268 (broadcastInDim S128x2048 ![] bcast_S_S128x2048 : (⟨S_, .i32⟩ : BufTy).Contents (Elt F) → (⟨S128x2048, .i32⟩ : BufTy).Contents (Elt F))) (fun _ => .ret ⟨⟩)
  t6_p6 (F := F)

noncomputable def t6_p4 : Prog (TpuEff nD τ sig (Elt F) (Pipeline.Sig Λ₀ (Fin 0) fun p => (pcfgs (F := F) p).Adm) .tc) PUnit := do
  fn_clip_0.body (.of main_v250) (.of main_c_96) (.of main_c_97) main_call12
  t6_p5 (F := F)

noncomputable def t6_p3 : Prog (TpuEff nD τ sig (Elt F) (Pipeline.Sig Λ₀ (Fin 0) fun p => (pcfgs (F := F) p).Adm) .tc) PUnit := do
  hlo rfl (StableHlo.nullary main_c_96 (constantI S_ 32 0#32)) (fun _ => .ret ⟨⟩)
  hlo rfl (StableHlo.nullary main_c_97 (constantI S_ 32 31#32)) (fun _ => .ret ⟨⟩)
  t6_p4 (F := F)

noncomputable def t6_p2 : Prog (TpuEff nD τ sig (Elt F) (Pipeline.Sig Λ₀ (Fin 0) fun p => (pcfgs (F := F) p).Adm) .tc) PUnit := do
  fn_clip_0.body (.of main_v211) (.of main_c_94) (.of main_c_95) main_call11
  t6_p3 (F := F)

noncomputable def t6_p1 : Prog (TpuEff nD τ sig (Elt F) (Pipeline.Sig Λ₀ (Fin 0) fun p => (pcfgs (F := F) p).Adm) .tc) PUnit := do
  hlo rfl (StableHlo.nullary main_c_95 (constantI S_ 32 31#32)) (fun _ => .ret ⟨⟩)
  t6_p2 (F := F)

theorem main_part6_chain (d : Dev nD) : main_part6 (F := F) d = (Pipeline.chainK
  [ seq c18_0 ]
  (t6_p1 (F := F)) : Prog (TpuEff nD τ sig (Elt F) (Pipeline.Sig Λ₀ (Fin 0) fun p => (pcfgs (F := F) p).Adm) .tc) PUnit) := by
  chain_rfl

theorem t6_p1_eq : t6_p1 (F := F) = (Pipeline.chainK
  [ seq c18_1 ]
  (t6_p2 (F := F)) : Prog (TpuEff nD τ sig (Elt F) (Pipeline.Sig Λ₀ (Fin 0) fun p => (pcfgs (F := F) p).Adm) .tc) PUnit) := by
  chain_rfl

theorem t6_p2_eq : t6_p2 (F := F) = (Pipeline.chainK
  [ seq c18_2 ]
  (t6_p3 (F := F)) : Prog (TpuEff nD τ sig (Elt F) (Pipeline.Sig Λ₀ (Fin 0) fun p => (pcfgs (F := F) p).Adm) .tc) PUnit) := by
  chain_rfl

theorem t6_p3_eq : t6_p3 (F := F) = (Pipeline.chainK
  [ seq c18_3 ]
  (t6_p4 (F := F)) : Prog (TpuEff nD τ sig (Elt F) (Pipeline.Sig Λ₀ (Fin 0) fun p => (pcfgs (F := F) p).Adm) .tc) PUnit) := by
  chain_rfl

theorem t6_p4_eq : t6_p4 (F := F) = (Pipeline.chainK
  [ seq c18_4 ]
  (t6_p5 (F := F)) : Prog (TpuEff nD τ sig (Elt F) (Pipeline.Sig Λ₀ (Fin 0) fun p => (pcfgs (F := F) p).Adm) .tc) PUnit) := by
  chain_rfl

theorem t6_p5_eq : t6_p5 (F := F) = (Pipeline.chainK
  [ seq c18_5 ]
  (t6_p6 (F := F)) : Prog (TpuEff nD τ sig (Elt F) (Pipeline.Sig Λ₀ (Fin 0) fun p => (pcfgs (F := F) p).Adm) .tc) PUnit) := by
  chain_rfl

theorem t6_p6_eq : t6_p6 (F := F) = (Pipeline.chainK
  [ seq c19_0 ]
  (t6_p7 (F := F)) : Prog (TpuEff nD τ sig (Elt F) (Pipeline.Sig Λ₀ (Fin 0) fun p => (pcfgs (F := F) p).Adm) .tc) PUnit) := by
  chain_rfl

theorem t6_p7_eq : t6_p7 (F := F) = (Pipeline.chainK
  [ seq c19_1 ]
  (t6_p8 (F := F)) : Prog (TpuEff nD τ sig (Elt F) (Pipeline.Sig Λ₀ (Fin 0) fun p => (pcfgs (F := F) p).Adm) .tc) PUnit) := by
  chain_rfl

theorem t6_p8_eq : t6_p8 (F := F) = (Pipeline.chainK
  [ seq c19_2 ]
  (t6_p9 (F := F)) : Prog (TpuEff nD τ sig (Elt F) (Pipeline.Sig Λ₀ (Fin 0) fun p => (pcfgs (F := F) p).Adm) .tc) PUnit) := by
  chain_rfl

theorem t6_p9_eq : t6_p9 (F := F) = (Pipeline.chainK
  [ seq c19_3 ]
  (t6_p10 (F := F)) : Prog (TpuEff nD τ sig (Elt F) (Pipeline.Sig Λ₀ (Fin 0) fun p => (pcfgs (F := F) p).Adm) .tc) PUnit) := by
  chain_rfl

theorem t6_p10_eq : t6_p10 (F := F) = (Pipeline.chainK
  [ seq c19_4 ]
  (t6_p11 (F := F)) : Prog (TpuEff nD τ sig (Elt F) (Pipeline.Sig Λ₀ (Fin 0) fun p => (pcfgs (F := F) p).Adm) .tc) PUnit) := by
  chain_rfl

theorem t6_p11_eq : t6_p11 (F := F) = (Pipeline.chainK
  [ seq c19_5 ]
  (t6_p12 (F := F)) : Prog (TpuEff nD τ sig (Elt F) (Pipeline.Sig Λ₀ (Fin 0) fun p => (pcfgs (F := F) p).Adm) .tc) PUnit) := by
  chain_rfl

theorem t6_p12_eq : t6_p12 (F := F) = (Pipeline.chainK
  [ seq c19_6 ]
  (t6_p13 (F := F)) : Prog (TpuEff nD τ sig (Elt F) (Pipeline.Sig Λ₀ (Fin 0) fun p => (pcfgs (F := F) p).Adm) .tc) PUnit) := by
  chain_rfl

theorem t6_p13_eq : t6_p13 (F := F) = (Pipeline.chainK
  [ seq c20_0 ]
  (t6_p14 (F := F)) : Prog (TpuEff nD τ sig (Elt F) (Pipeline.Sig Λ₀ (Fin 0) fun p => (pcfgs (F := F) p).Adm) .tc) PUnit) := by
  chain_rfl

theorem t6_p14_eq : t6_p14 (F := F) = (Pipeline.chainK
  [ seq c20_1 ]
  (t6_p15 (F := F)) : Prog (TpuEff nD τ sig (Elt F) (Pipeline.Sig Λ₀ (Fin 0) fun p => (pcfgs (F := F) p).Adm) .tc) PUnit) := by
  chain_rfl

theorem t6_p15_eq : t6_p15 (F := F) = (Pipeline.chainK
  [ seq c20_2 ]
  (t6_p16 (F := F)) : Prog (TpuEff nD τ sig (Elt F) (Pipeline.Sig Λ₀ (Fin 0) fun p => (pcfgs (F := F) p).Adm) .tc) PUnit) := by
  chain_rfl

theorem t6_p16_eq : t6_p16 (F := F) = (Pipeline.chainK
  [ seq c20_3 ]
  (t6_p17 (F := F)) : Prog (TpuEff nD τ sig (Elt F) (Pipeline.Sig Λ₀ (Fin 0) fun p => (pcfgs (F := F) p).Adm) .tc) PUnit) := by
  chain_rfl

theorem t6_p17_eq : t6_p17 (F := F) = (Pipeline.chainK
  [ seq c20_4 ]
  (t6_p18 (F := F)) : Prog (TpuEff nD τ sig (Elt F) (Pipeline.Sig Λ₀ (Fin 0) fun p => (pcfgs (F := F) p).Adm) .tc) PUnit) := by
  chain_rfl

theorem t6_p18_eq : t6_p18 (F := F) = (Pipeline.chainK
  [ seq c20_5 ]
  (t6_p19 (F := F)) : Prog (TpuEff nD τ sig (Elt F) (Pipeline.Sig Λ₀ (Fin 0) fun p => (pcfgs (F := F) p).Adm) .tc) PUnit) := by
  chain_rfl

theorem t6_p19_eq : t6_p19 (F := F) = (Pipeline.chainK
  [ seq c20_6 ]
  (t6_p20 (F := F)) : Prog (TpuEff nD τ sig (Elt F) (Pipeline.Sig Λ₀ (Fin 0) fun p => (pcfgs (F := F) p).Adm) .tc) PUnit) := by
  chain_rfl

theorem t6_p20_eq : t6_p20 (F := F) = (Pipeline.chainK
  [ seq c21_0 ]
  (t6_p21 (F := F)) : Prog (TpuEff nD τ sig (Elt F) (Pipeline.Sig Λ₀ (Fin 0) fun p => (pcfgs (F := F) p).Adm) .tc) PUnit) := by
  chain_rfl

theorem t6_p21_eq : t6_p21 (F := F) = (Pipeline.chainK
  [ seq c21_1 ]
  (t6_p22 (F := F)) : Prog (TpuEff nD τ sig (Elt F) (Pipeline.Sig Λ₀ (Fin 0) fun p => (pcfgs (F := F) p).Adm) .tc) PUnit) := by
  chain_rfl

theorem t6_p22_eq : t6_p22 (F := F) = (Pipeline.chainK
  [ seq c21_2 ]
  (t6_p23 (F := F)) : Prog (TpuEff nD τ sig (Elt F) (Pipeline.Sig Λ₀ (Fin 0) fun p => (pcfgs (F := F) p).Adm) .tc) PUnit) := by
  chain_rfl

theorem t6_p23_eq : t6_p23 (F := F) = (Pipeline.chainK
  [ seq c21_3 ]
  (t6_p24 (F := F)) : Prog (TpuEff nD τ sig (Elt F) (Pipeline.Sig Λ₀ (Fin 0) fun p => (pcfgs (F := F) p).Adm) .tc) PUnit) := by
  chain_rfl

theorem t6_p24_eq : t6_p24 (F := F) = (Pipeline.chainK
  [  ]
  (seq c21_4) : Prog (TpuEff nD τ sig (Elt F) (Pipeline.Sig Λ₀ (Fin 0) fun p => (pcfgs (F := F) p).Adm) .tc) PUnit) := by
  chain_rfl

theorem main_part6_eq (d : Dev nD) : main_part6 (F := F) d = (seq w6 : Prog (TpuEff nD τ sig (Elt F) (Pipeline.Sig Λ₀ (Fin 0) fun p => (pcfgs (F := F) p).Adm) .tc) PUnit) := by
  rw [main_part6_chain d, t6_p1_eq, t6_p2_eq, t6_p3_eq, t6_p4_eq, t6_p5_eq, t6_p6_eq, t6_p7_eq, t6_p8_eq, t6_p9_eq, t6_p10_eq, t6_p11_eq, t6_p12_eq, t6_p13_eq, t6_p14_eq, t6_p15_eq, t6_p16_eq, t6_p17_eq, t6_p18_eq, t6_p19_eq, t6_p20_eq, t6_p21_eq, t6_p22_eq, t6_p23_eq, t6_p24_eq]
  simp only [w6, c18, c19, c20, c21, Pipeline.chainK, seq_append, bind_assoc]

end Cert.ReferenceIdeal.RefRunGen

end
-- ==== Proof.RefRunGen.P7.lean ====
import proofs.«416765_j9792525435349_4_alg».proof.Proof.RefRunGen.Ok
import Idealize.ShloMosaic.Lib.Pipeline.Regions

noncomputable section

namespace Cert.ReferenceIdeal.RefRunGen

open Cert.ReferenceIdeal Cert.ReferenceIdeal.Gen Idealize.ShloMosaic Idealize.ShloMosaic.TcCoe Idealize.SL.Sem Idealize.ShloMosaic.StableHlo

variable {F : FTy → Type} [FloatOps F]

abbrev c22_0 : List (HloOp τ sig (Elt F)) :=
  [ nullary main_c_112 (constantI S_ 32 0#32),
    unary main_c_112 main_v306 (broadcastInDim S128x2048 ![] bcast_S_S128x2048 : (⟨S_, .i32⟩ : BufTy).Contents (Elt F) → (⟨S128x2048, .i32⟩ : BufTy).Contents (Elt F)),
    binary main_v304 main_v306 main_v307 (cmpi .slt : (⟨S128x2048, .i32⟩ : BufTy).Contents (Elt F) → (⟨S128x2048, .i32⟩ : BufTy).Contents (Elt F) → (⟨S128x2048, .i1⟩ : BufTy).Contents (Elt F)) ]

theorem c22_0_ok : Ok (F := F) c22_0 :=
  ⟨⟨nullary_bufs_sub .., rfl⟩, ⟨unary_bufs_sub .., rfl⟩, ⟨binary_bufs_sub .., rfl⟩⟩

abbrev c22_1 : List (HloOp τ sig (Elt F)) :=
  [ nullary main_c_113 (constantI S_ 32 32#32),
    unary main_c_113 main_v308 (broadcastInDim S128x2048 ![] bcast_S_S128x2048 : (⟨S_, .i32⟩ : BufTy).Contents (Elt F) → (⟨S128x2048, .i32⟩ : BufTy).Contents (Elt F)),
    binary main_v304 main_v308 main_v309 (addi : (⟨S128x2048, .i32⟩ : BufTy).Contents (Elt F) → (⟨S128x2048, .i32⟩ : BufTy).Contents (Elt F) → (⟨S128x2048, .i32⟩ : BufTy).Contents (Elt F)) ]

theorem c22_1_ok : Ok (F := F) c22_1 :=
  ⟨⟨nullary_bufs_sub .., rfl⟩, ⟨unary_bufs_sub .., rfl⟩, ⟨binary_bufs_sub .., rfl⟩⟩

abbrev c22_2 : List (HloOp τ sig (Elt F)) :=
  [ ternary main_v307 main_v309 main_v304 main_v310 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F)),
    nullary main_c_114 (constantI S_ 32 0#32),
    unary main_c_114 main_v311 (broadcastInDim S128x2048 ![] bcast_S_S128x2048 : (⟨S_, .i32⟩ : BufTy).Contents (Elt F) → (⟨S128x2048, .i32⟩ : BufTy).Contents (Elt F)) ]

theorem c22_2_ok : Ok (F := F) c22_2 :=
  ⟨⟨ternary_bufs_sub .., rfl⟩, ⟨nullary_bufs_sub .., rfl⟩, ⟨unary_bufs_sub .., rfl⟩⟩

abbrev c22_3 : List (HloOp τ sig (Elt F)) :=
  [ binary main_v305 main_v311 main_v312 (cmpi .slt : (⟨S128x2048, .i32⟩ : BufTy).Contents (Elt F) → (⟨S128x2048, .i32⟩ : BufTy).Contents (Elt F) → (⟨S128x2048, .i1⟩ : BufTy).Contents (Elt F)),
    nullary main_c_115 (constantI S_ 32 32#32),
    unary main_c_115 main_v313 (broadcastInDim S128x2048 ![] bcast_S_S128x2048 : (⟨S_, .i32⟩ : BufTy).Contents (Elt F) → (⟨S128x2048, .i32⟩ : BufTy).Contents (Elt F)) ]

theorem c22_3_ok : Ok (F := F) c22_3 :=
  ⟨⟨binary_bufs_sub .., rfl⟩, ⟨nullary_bufs_sub .., rfl⟩, ⟨unary_bufs_sub .., rfl⟩⟩

abbrev c22_4 : List (HloOp τ sig (Elt F)) :=
  [ binary main_v305 main_v313 main_v314 (addi : (⟨S128x2048, .i32⟩ : BufTy).Contents (Elt F) → (⟨S128x2048, .i32⟩ : BufTy).Contents (Elt F) → (⟨S128x2048, .i32⟩ : BufTy).Contents (Elt F)),
    ternary main_v312 main_v314 main_v305 main_v315 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F)),
    unary main_v310 main_v316 (broadcastInDim S128x2048x1 ![0, 1] bcast_S128x2048_S128x2048x1_0_1 : (⟨S128x2048, .i32⟩ : BufTy).Contents (Elt F) → (⟨S128x2048x1, .i32⟩ : BufTy).Contents (Elt F)) ]

theorem c22_4_ok : Ok (F := F) c22_4 :=
  ⟨⟨binary_bufs_sub .., rfl⟩, ⟨ternary_bufs_sub .., rfl⟩, ⟨unary_bufs_sub .., rfl⟩⟩

abbrev c22_5 : List (HloOp τ sig (Elt F)) :=
  [ unary main_v315 main_v317 (broadcastInDim S128x2048x1 ![0, 1] bcast_S128x2048_S128x2048x1_0_1 : (⟨S128x2048, .i32⟩ : BufTy).Contents (Elt F) → (⟨S128x2048x1, .i32⟩ : BufTy).Contents (Elt F)),
    binary main_v316 main_v317 main_v318 ((fun a b => concatenate S128x2048x2 2 [⟨S128x2048x1, a⟩, ⟨S128x2048x1, b⟩] concatenates_S128x2048x1_S128x2048x1_S128x2048x2_d2) : (⟨S128x2048x1, .i32⟩ : BufTy).Contents (Elt F) → (⟨S128x2048x1, .i32⟩ : BufTy).Contents (Elt F) → (⟨S128x2048x2, .i32⟩ : BufTy).Contents (Elt F)),
    binary main_v185 main_v318 main_v319 ((fun x i => Host.gather gather_S128x64x32x32_S128x2048x2_S128x64x2048_1_23_0_0_23_2_16411 x i) : (⟨S128x64x32x32, .f32⟩ : BufTy).Contents (Elt F) → (⟨S128x2048x2, .i32⟩ : BufTy).Contents (Elt F) → (⟨S128x64x2048, .f32⟩ : BufTy).Contents (Elt F)) ]

theorem c22_5_ok : Ok (F := F) c22_5 :=
  ⟨⟨unary_bufs_sub .., rfl⟩, ⟨binary_bufs_sub .., rfl⟩, ⟨binary_bufs_sub .., rfl⟩⟩

abbrev c22_6 : List (HloOp τ sig (Elt F)) :=
  [ binary main_v291 main_v303 main_v320 (mulf : (⟨S128x2048, .f32⟩ : BufTy).Contents (Elt F) → (⟨S128x2048, .f32⟩ : BufTy).Contents (Elt F) → (⟨S128x2048, .f32⟩ : BufTy).Contents (Elt F)),
    unary main_v320 main_v321 (broadcastInDim S128x1x2048 ![0, 2] bcast_S128x2048_S128x1x2048_0_2 : (⟨S128x2048, .f32⟩ : BufTy).Contents (Elt F) → (⟨S128x1x2048, .f32⟩ : BufTy).Contents (Elt F)),
    unary main_v321 main_v322 (broadcastInDim S128x64x2048 ![0, 1, 2] bcast_S128x1x2048_S128x64x2048_0_1_2 : (⟨S128x1x2048, .f32⟩ : BufTy).Contents (Elt F) → (⟨S128x64x2048, .f32⟩ : BufTy).Contents (Elt F)) ]

theorem c22_6_ok : Ok (F := F) c22_6 :=
  ⟨⟨binary_bufs_sub .., rfl⟩, ⟨unary_bufs_sub .., rfl⟩, ⟨unary_bufs_sub .., rfl⟩⟩

abbrev c22_7 : List (HloOp τ sig (Elt F)) :=
  [ binary main_v319 main_v322 main_v323 (mulf : (⟨S128x64x2048, .f32⟩ : BufTy).Contents (Elt F) → (⟨S128x64x2048, .f32⟩ : BufTy).Contents (Elt F) → (⟨S128x64x2048, .f32⟩ : BufTy).Contents (Elt F)),
    binary main_v286 main_v323 main_v324 (addf : (⟨S128x64x2048, .f32⟩ : BufTy).Contents (Elt F) → (⟨S128x64x2048, .f32⟩ : BufTy).Contents (Elt F) → (⟨S128x64x2048, .f32⟩ : BufTy).Contents (Elt F)) ]

theorem c22_7_ok : Ok (F := F) c22_7 :=
  ⟨⟨binary_bufs_sub .., rfl⟩, ⟨binary_bufs_sub .., rfl⟩⟩

abbrev c23_0 : List (HloOp τ sig (Elt F)) :=
  [ nullary main_c_116 (constantI S_ 32 1#32),
    unary main_c_116 main_v325 (broadcastInDim S128x2048 ![] bcast_S_S128x2048 : (⟨S_, .i32⟩ : BufTy).Contents (Elt F) → (⟨S128x2048, .i32⟩ : BufTy).Contents (Elt F)),
    binary main_v211 main_v325 main_v326 (addi : (⟨S128x2048, .i32⟩ : BufTy).Contents (Elt F) → (⟨S128x2048, .i32⟩ : BufTy).Contents (Elt F) → (⟨S128x2048, .i32⟩ : BufTy).Contents (Elt F)) ]

theorem c23_0_ok : Ok (F := F) c23_0 :=
  ⟨⟨nullary_bufs_sub .., rfl⟩, ⟨unary_bufs_sub .., rfl⟩, ⟨binary_bufs_sub .., rfl⟩⟩

abbrev c23_1 : List (HloOp τ sig (Elt F)) :=
  [ nullary main_c_117 (constantI S_ 32 1#32),
    unary main_c_117 main_v327 (broadcastInDim S128x2048 ![] bcast_S_S128x2048 : (⟨S_, .i32⟩ : BufTy).Contents (Elt F) → (⟨S128x2048, .i32⟩ : BufTy).Contents (Elt F)),
    binary main_v210 main_v327 main_v328 (addi : (⟨S128x2048, .i32⟩ : BufTy).Contents (Elt F) → (⟨S128x2048, .i32⟩ : BufTy).Contents (Elt F) → (⟨S128x2048, .i32⟩ : BufTy).Contents (Elt F)) ]

theorem c23_1_ok : Ok (F := F) c23_1 :=
  ⟨⟨nullary_bufs_sub .., rfl⟩, ⟨unary_bufs_sub .., rfl⟩, ⟨binary_bufs_sub .., rfl⟩⟩

abbrev c23_2 : List (HloOp τ sig (Elt F)) :=
  [ binary main_v209 main_v208 main_v329 (mulf : (⟨S128x2048, .f32⟩ : BufTy).Contents (Elt F) → (⟨S128x2048, .f32⟩ : BufTy).Contents (Elt F) → (⟨S128x2048, .f32⟩ : BufTy).Contents (Elt F)),
    nullary main_c_118 (constantI S_ 32 0#32),
    unary main_c_118 main_v330 (broadcastInDim S128x2048 ![] bcast_S_S128x2048 : (⟨S_, .i32⟩ : BufTy).Contents (Elt F) → (⟨S128x2048, .i32⟩ : BufTy).Contents (Elt F)) ]

theorem c23_2_ok : Ok (F := F) c23_2 :=
  ⟨⟨binary_bufs_sub .., rfl⟩, ⟨nullary_bufs_sub .., rfl⟩, ⟨unary_bufs_sub .., rfl⟩⟩

abbrev c23_3 : List (HloOp τ sig (Elt F)) :=
  [ binary main_v326 main_v330 main_v331 (cmpi .sge : (⟨S128x2048, .i32⟩ : BufTy).Contents (Elt F) → (⟨S128x2048, .i32⟩ : BufTy).Contents (Elt F) → (⟨S128x2048, .i1⟩ : BufTy).Contents (Elt F)),
    nullary main_c_119 (constantI S_ 32 32#32),
    unary main_c_119 main_v332 (broadcastInDim S128x2048 ![] bcast_S_S128x2048 : (⟨S_, .i32⟩ : BufTy).Contents (Elt F) → (⟨S128x2048, .i32⟩ : BufTy).Contents (Elt F)) ]

theorem c23_3_ok : Ok (F := F) c23_3 :=
  ⟨⟨binary_bufs_sub .., rfl⟩, ⟨nullary_bufs_sub .., rfl⟩, ⟨unary_bufs_sub .., rfl⟩⟩

abbrev c23_4 : List (HloOp τ sig (Elt F)) :=
  [ binary main_v326 main_v332 main_v333 (cmpi .slt : (⟨S128x2048, .i32⟩ : BufTy).Contents (Elt F) → (⟨S128x2048, .i32⟩ : BufTy).Contents (Elt F) → (⟨S128x2048, .i1⟩ : BufTy).Contents (Elt F)),
    binary main_v331 main_v333 main_v334 (andi : (⟨S128x2048, .i1⟩ : BufTy).Contents (Elt F) → (⟨S128x2048, .i1⟩ : BufTy).Contents (Elt F) → (⟨S128x2048, .i1⟩ : BufTy).Contents (Elt F)),
    nullary main_c_120 (constantI S_ 32 0#32) ]

theorem c23_4_ok : Ok (F := F) c23_4 :=
  ⟨⟨binary_bufs_sub .., rfl⟩, ⟨binary_bufs_sub .., rfl⟩, ⟨nullary_bufs_sub .., rfl⟩⟩

abbrev c23_5 : List (HloOp τ sig (Elt F)) :=
  [ unary main_c_120 main_v335 (broadcastInDim S128x2048 ![] bcast_S_S128x2048 : (⟨S_, .i32⟩ : BufTy).Contents (Elt F) → (⟨S128x2048, .i32⟩ : BufTy).Contents (Elt F)),
    binary main_v328 main_v335 main_v336 (cmpi .sge : (⟨S128x2048, .i32⟩ : BufTy).Contents (Elt F) → (⟨S128x2048, .i32⟩ : BufTy).Contents (Elt F) → (⟨S128x2048, .i1⟩ : BufTy).Contents (Elt F)),
    binary main_v334 main_v336 main_v337 (andi : (⟨S128x2048, .i1⟩ : BufTy).Contents (Elt F) → (⟨S128x2048, .i1⟩ : BufTy).Contents (Elt F) → (⟨S128x2048, .i1⟩ : BufTy).Contents (Elt F)) ]

theorem c23_5_ok : Ok (F := F) c23_5 :=
  ⟨⟨unary_bufs_sub .., rfl⟩, ⟨binary_bufs_sub .., rfl⟩, ⟨binary_bufs_sub .., rfl⟩⟩

abbrev c23_6 : List (HloOp τ sig (Elt F)) :=
  [ nullary main_c_121 (constantI S_ 32 32#32),
    unary main_c_121 main_v338 (broadcastInDim S128x2048 ![] bcast_S_S128x2048 : (⟨S_, .i32⟩ : BufTy).Contents (Elt F) → (⟨S128x2048, .i32⟩ : BufTy).Contents (Elt F)),
    binary main_v328 main_v338 main_v339 (cmpi .slt : (⟨S128x2048, .i32⟩ : BufTy).Contents (Elt F) → (⟨S128x2048, .i32⟩ : BufTy).Contents (Elt F) → (⟨S128x2048, .i1⟩ : BufTy).Contents (Elt F)) ]

theorem c23_6_ok : Ok (F := F) c23_6 :=
  ⟨⟨nullary_bufs_sub .., rfl⟩, ⟨unary_bufs_sub .., rfl⟩, ⟨binary_bufs_sub .., rfl⟩⟩

abbrev c23_7 : List (HloOp τ sig (Elt F)) :=
  [ binary main_v337 main_v339 main_v340 (andi : (⟨S128x2048, .i1⟩ : BufTy).Contents (Elt F) → (⟨S128x2048, .i1⟩ : BufTy).Contents (Elt F) → (⟨S128x2048, .i1⟩ : BufTy).Contents (Elt F)),
    unary main_v340 main_v341 (uitofp .f32 : (⟨S128x2048, .i1⟩ : BufTy).Contents (Elt F) → (⟨S128x2048, .f32⟩ : BufTy).Contents (Elt F)),
    nullary main_c_122 (constantI S_ 32 0#32) ]

theorem c23_7_ok : Ok (F := F) c23_7 :=
  ⟨⟨binary_bufs_sub .., rfl⟩, ⟨unary_bufs_sub .., rfl⟩, ⟨nullary_bufs_sub .., rfl⟩⟩

abbrev c24_0 : List (HloOp τ sig (Elt F)) :=
  [ nullary main_c_123 (constantI S_ 32 31#32) ]

theorem c24_0_ok : Ok (F := F) c24_0 :=
  ⟨nullary_bufs_sub .., rfl⟩

abbrev c24_1 : List (HloOp τ sig (Elt F)) :=
  [ TRef.unary (TRef.of (T := ⟨S_, .i32⟩) main_c_122) (TRef.of (T := ⟨S_, .i32⟩) main_call15_v0) id,
    TRef.unary (TRef.of (T := ⟨S_, .i32⟩) main_call15_v0) (TRef.of (T := ⟨S128x2048, .i32⟩) main_call15_v1) (broadcastInDim S128x2048 ![] bcast_S_S128x2048),
    TRef.binary (TRef.of (T := ⟨S128x2048, .i32⟩) main_call15_v1) (TRef.of (T := ⟨S128x2048, .i32⟩) main_v326) (TRef.of (T := ⟨S128x2048, .i32⟩) main_call15_v2) maxsi,
    TRef.unary (TRef.of (T := ⟨S_, .i32⟩) main_c_123) (TRef.of (T := ⟨S_, .i32⟩) main_call15_v3) id,
    TRef.unary (TRef.of (T := ⟨S_, .i32⟩) main_call15_v3) (TRef.of (T := ⟨S128x2048, .i32⟩) main_call15_v4) (broadcastInDim S128x2048 ![] bcast_S_S128x2048),
    TRef.binary (TRef.of (T := ⟨S128x2048, .i32⟩) main_call15_v4) (TRef.of (T := ⟨S128x2048, .i32⟩) main_call15_v2) (TRef.of (T := ⟨S128x2048, .i32⟩) main_v342) minsi ]

theorem c24_1_ok : Ok (F := F) c24_1 :=
  ⟨⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩⟩

abbrev c24_2 : List (HloOp τ sig (Elt F)) :=
  [ nullary main_c_124 (constantI S_ 32 0#32),
    nullary main_c_125 (constantI S_ 32 31#32) ]

theorem c24_2_ok : Ok (F := F) c24_2 :=
  ⟨⟨nullary_bufs_sub .., rfl⟩, ⟨nullary_bufs_sub .., rfl⟩⟩

abbrev c24_3 : List (HloOp τ sig (Elt F)) :=
  [ TRef.unary (TRef.of (T := ⟨S_, .i32⟩) main_c_124) (TRef.of (T := ⟨S_, .i32⟩) main_call16_v0) id,
    TRef.unary (TRef.of (T := ⟨S_, .i32⟩) main_call16_v0) (TRef.of (T := ⟨S128x2048, .i32⟩) main_call16_v1) (broadcastInDim S128x2048 ![] bcast_S_S128x2048),
    TRef.binary (TRef.of (T := ⟨S128x2048, .i32⟩) main_call16_v1) (TRef.of (T := ⟨S128x2048, .i32⟩) main_v328) (TRef.of (T := ⟨S128x2048, .i32⟩) main_call16_v2) maxsi,
    TRef.unary (TRef.of (T := ⟨S_, .i32⟩) main_c_125) (TRef.of (T := ⟨S_, .i32⟩) main_call16_v3) id,
    TRef.unary (TRef.of (T := ⟨S_, .i32⟩) main_call16_v3) (TRef.of (T := ⟨S128x2048, .i32⟩) main_call16_v4) (broadcastInDim S128x2048 ![] bcast_S_S128x2048),
    TRef.binary (TRef.of (T := ⟨S128x2048, .i32⟩) main_call16_v4) (TRef.of (T := ⟨S128x2048, .i32⟩) main_call16_v2) (TRef.of (T := ⟨S128x2048, .i32⟩) main_v343) minsi ]

theorem c24_3_ok : Ok (F := F) c24_3 :=
  ⟨⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩⟩

abbrev c24_4 : List (HloOp τ sig (Elt F)) :=
  [ nullary main_c_126 (constantI S_ 32 0#32),
    unary main_c_126 main_v344 (broadcastInDim S128x2048 ![] bcast_S_S128x2048 : (⟨S_, .i32⟩ : BufTy).Contents (Elt F) → (⟨S128x2048, .i32⟩ : BufTy).Contents (Elt F)),
    binary main_v342 main_v344 main_v345 (cmpi .slt : (⟨S128x2048, .i32⟩ : BufTy).Contents (Elt F) → (⟨S128x2048, .i32⟩ : BufTy).Contents (Elt F) → (⟨S128x2048, .i1⟩ : BufTy).Contents (Elt F)) ]

theorem c24_4_ok : Ok (F := F) c24_4 :=
  ⟨⟨nullary_bufs_sub .., rfl⟩, ⟨unary_bufs_sub .., rfl⟩, ⟨binary_bufs_sub .., rfl⟩⟩

abbrev c24_5 : List (HloOp τ sig (Elt F)) :=
  [ nullary main_c_127 (constantI S_ 32 32#32),
    unary main_c_127 main_v346 (broadcastInDim S128x2048 ![] bcast_S_S128x2048 : (⟨S_, .i32⟩ : BufTy).Contents (Elt F) → (⟨S128x2048, .i32⟩ : BufTy).Contents (Elt F)),
    binary main_v342 main_v346 main_v347 (addi : (⟨S128x2048, .i32⟩ : BufTy).Contents (Elt F) → (⟨S128x2048, .i32⟩ : BufTy).Contents (Elt F) → (⟨S128x2048, .i32⟩ : BufTy).Contents (Elt F)) ]

theorem c24_5_ok : Ok (F := F) c24_5 :=
  ⟨⟨nullary_bufs_sub .., rfl⟩, ⟨unary_bufs_sub .., rfl⟩, ⟨binary_bufs_sub .., rfl⟩⟩

abbrev c24_6 : List (HloOp τ sig (Elt F)) :=
  [ ternary main_v345 main_v347 main_v342 main_v348 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F)),
    nullary main_c_128 (constantI S_ 32 0#32) ]

theorem c24_6_ok : Ok (F := F) c24_6 :=
  ⟨⟨ternary_bufs_sub .., rfl⟩, ⟨nullary_bufs_sub .., rfl⟩⟩

def c22 : List (HloOp τ sig (Elt F)) := c22_0 ++ (c22_1 ++ (c22_2 ++ (c22_3 ++ (c22_4 ++ (c22_5 ++ (c22_6 ++ (c22_7)))))))

theorem c22_ok : Ok (F := F) c22 := c22_0_ok.append (c22_1_ok.append (c22_2_ok.append (c22_3_ok.append (c22_4_ok.append (c22_5_ok.append (c22_6_ok.append (c22_7_ok)))))))

def c23 : List (HloOp τ sig (Elt F)) := c23_0 ++ (c23_1 ++ (c23_2 ++ (c23_3 ++ (c23_4 ++ (c23_5 ++ (c23_6 ++ (c23_7)))))))

theorem c23_ok : Ok (F := F) c23 := c23_0_ok.append (c23_1_ok.append (c23_2_ok.append (c23_3_ok.append (c23_4_ok.append (c23_5_ok.append (c23_6_ok.append (c23_7_ok)))))))

def c24 : List (HloOp τ sig (Elt F)) := c24_0 ++ (c24_1 ++ (c24_2 ++ (c24_3 ++ (c24_4 ++ (c24_5 ++ (c24_6))))))

theorem c24_ok : Ok (F := F) c24 := c24_0_ok.append (c24_1_ok.append (c24_2_ok.append (c24_3_ok.append (c24_4_ok.append (c24_5_ok.append (c24_6_ok))))))

def w7 : List (HloOp τ sig (Elt F)) := c22 ++ (c23 ++ (c24))

theorem w7_ok : Ok (F := F) w7 := c22_ok.append (c23_ok.append (c24_ok))

theorem main_part7_chain (d : Dev nD) : main_part7 (F := F) d = (Pipeline.chainK
  [ seq c22_0,
    seq c22_1,
    seq c22_2,
    seq c22_3,
    seq c22_4,
    seq c22_5,
    seq c22_6,
    seq c22_7,
    seq c23_0,
    seq c23_1,
    seq c23_2,
    seq c23_3,
    seq c23_4,
    seq c23_5,
    seq c23_6,
    seq c23_7,
    seq c24_0,
    seq c24_1,
    seq c24_2,
    seq c24_3,
    seq c24_4,
    seq c24_5 ]
  (seq c24_6) : Prog (TpuEff nD τ sig (Elt F) (Pipeline.Sig Λ₀ (Fin 0) fun p => (pcfgs (F := F) p).Adm) .tc) PUnit) := by
  chain_rfl

theorem main_part7_eq (d : Dev nD) : main_part7 (F := F) d = (seq w7 : Prog (TpuEff nD τ sig (Elt F) (Pipeline.Sig Λ₀ (Fin 0) fun p => (pcfgs (F := F) p).Adm) .tc) PUnit) := by
  rw [main_part7_chain d]
  simp only [w7, c22, c23, c24, Pipeline.chainK, seq_append, bind_assoc]

end Cert.ReferenceIdeal.RefRunGen

end
-- ==== Proof.RefRunGen.P8.lean ====
import proofs.«416765_j9792525435349_4_alg».proof.Proof.RefRunGen.Ok
import Idealize.ShloMosaic.Lib.Pipeline.Regions

noncomputable section

namespace Cert.ReferenceIdeal.RefRunGen

open Cert.ReferenceIdeal Cert.ReferenceIdeal.Gen Idealize.ShloMosaic Idealize.ShloMosaic.TcCoe Idealize.SL.Sem Idealize.ShloMosaic.StableHlo

variable {F : FTy → Type} [FloatOps F]

abbrev c25_0 : List (HloOp τ sig (Elt F)) :=
  [ unary main_c_128 main_v349 (broadcastInDim S128x2048 ![] bcast_S_S128x2048 : (⟨S_, .i32⟩ : BufTy).Contents (Elt F) → (⟨S128x2048, .i32⟩ : BufTy).Contents (Elt F)),
    binary main_v343 main_v349 main_v350 (cmpi .slt : (⟨S128x2048, .i32⟩ : BufTy).Contents (Elt F) → (⟨S128x2048, .i32⟩ : BufTy).Contents (Elt F) → (⟨S128x2048, .i1⟩ : BufTy).Contents (Elt F)),
    nullary main_c_129 (constantI S_ 32 32#32) ]

theorem c25_0_ok : Ok (F := F) c25_0 :=
  ⟨⟨unary_bufs_sub .., rfl⟩, ⟨binary_bufs_sub .., rfl⟩, ⟨nullary_bufs_sub .., rfl⟩⟩

abbrev c25_1 : List (HloOp τ sig (Elt F)) :=
  [ unary main_c_129 main_v351 (broadcastInDim S128x2048 ![] bcast_S_S128x2048 : (⟨S_, .i32⟩ : BufTy).Contents (Elt F) → (⟨S128x2048, .i32⟩ : BufTy).Contents (Elt F)),
    binary main_v343 main_v351 main_v352 (addi : (⟨S128x2048, .i32⟩ : BufTy).Contents (Elt F) → (⟨S128x2048, .i32⟩ : BufTy).Contents (Elt F) → (⟨S128x2048, .i32⟩ : BufTy).Contents (Elt F)),
    ternary main_v350 main_v352 main_v343 main_v353 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F)) ]

theorem c25_1_ok : Ok (F := F) c25_1 :=
  ⟨⟨unary_bufs_sub .., rfl⟩, ⟨binary_bufs_sub .., rfl⟩, ⟨ternary_bufs_sub .., rfl⟩⟩

abbrev c25_2 : List (HloOp τ sig (Elt F)) :=
  [ unary main_v348 main_v354 (broadcastInDim S128x2048x1 ![0, 1] bcast_S128x2048_S128x2048x1_0_1 : (⟨S128x2048, .i32⟩ : BufTy).Contents (Elt F) → (⟨S128x2048x1, .i32⟩ : BufTy).Contents (Elt F)),
    unary main_v353 main_v355 (broadcastInDim S128x2048x1 ![0, 1] bcast_S128x2048_S128x2048x1_0_1 : (⟨S128x2048, .i32⟩ : BufTy).Contents (Elt F) → (⟨S128x2048x1, .i32⟩ : BufTy).Contents (Elt F)),
    binary main_v354 main_v355 main_v356 ((fun a b => concatenate S128x2048x2 2 [⟨S128x2048x1, a⟩, ⟨S128x2048x1, b⟩] concatenates_S128x2048x1_S128x2048x1_S128x2048x2_d2) : (⟨S128x2048x1, .i32⟩ : BufTy).Contents (Elt F) → (⟨S128x2048x1, .i32⟩ : BufTy).Contents (Elt F) → (⟨S128x2048x2, .i32⟩ : BufTy).Contents (Elt F)) ]

theorem c25_2_ok : Ok (F := F) c25_2 :=
  ⟨⟨unary_bufs_sub .., rfl⟩, ⟨unary_bufs_sub .., rfl⟩, ⟨binary_bufs_sub .., rfl⟩⟩

abbrev c25_3 : List (HloOp τ sig (Elt F)) :=
  [ binary main_v185 main_v356 main_v357 ((fun x i => Host.gather gather_S128x64x32x32_S128x2048x2_S128x64x2048_1_23_0_0_23_2_16411 x i) : (⟨S128x64x32x32, .f32⟩ : BufTy).Contents (Elt F) → (⟨S128x2048x2, .i32⟩ : BufTy).Contents (Elt F) → (⟨S128x64x2048, .f32⟩ : BufTy).Contents (Elt F)),
    binary main_v329 main_v341 main_v358 (mulf : (⟨S128x2048, .f32⟩ : BufTy).Contents (Elt F) → (⟨S128x2048, .f32⟩ : BufTy).Contents (Elt F) → (⟨S128x2048, .f32⟩ : BufTy).Contents (Elt F)),
    unary main_v358 main_v359 (broadcastInDim S128x1x2048 ![0, 2] bcast_S128x2048_S128x1x2048_0_2 : (⟨S128x2048, .f32⟩ : BufTy).Contents (Elt F) → (⟨S128x1x2048, .f32⟩ : BufTy).Contents (Elt F)) ]

theorem c25_3_ok : Ok (F := F) c25_3 :=
  ⟨⟨binary_bufs_sub .., rfl⟩, ⟨binary_bufs_sub .., rfl⟩, ⟨unary_bufs_sub .., rfl⟩⟩

abbrev c25_4 : List (HloOp τ sig (Elt F)) :=
  [ unary main_v359 main_v360 (broadcastInDim S128x64x2048 ![0, 1, 2] bcast_S128x1x2048_S128x64x2048_0_1_2 : (⟨S128x1x2048, .f32⟩ : BufTy).Contents (Elt F) → (⟨S128x64x2048, .f32⟩ : BufTy).Contents (Elt F)),
    binary main_v357 main_v360 main_v361 (mulf : (⟨S128x64x2048, .f32⟩ : BufTy).Contents (Elt F) → (⟨S128x64x2048, .f32⟩ : BufTy).Contents (Elt F) → (⟨S128x64x2048, .f32⟩ : BufTy).Contents (Elt F)),
    binary main_v324 main_v361 main_v362 (addf : (⟨S128x64x2048, .f32⟩ : BufTy).Contents (Elt F) → (⟨S128x64x2048, .f32⟩ : BufTy).Contents (Elt F) → (⟨S128x64x2048, .f32⟩ : BufTy).Contents (Elt F)) ]

theorem c25_4_ok : Ok (F := F) c25_4 :=
  ⟨⟨unary_bufs_sub .., rfl⟩, ⟨binary_bufs_sub .., rfl⟩, ⟨binary_bufs_sub .., rfl⟩⟩

abbrev c25_5 : List (HloOp τ sig (Elt F)) :=
  [ reshape main_v185 main_v363 rfl shapeCasts_S128x64x32x32_S128x64x16x2x16x2,
    nullary main_cst_130 (constant S_ .f32 0x00000000#32),
    binary main_v363 main_cst_130 main_v364 ((fun x v => Host.reduceAdd x v reducesTo_S128x64x16x2x16x2_S128x64x16x16_d3_5 h_S_) : (⟨S128x64x16x2x16x2, .f32⟩ : BufTy).Contents (Elt F) → (⟨S_, .f32⟩ : BufTy).Contents (Elt F) → (⟨S128x64x16x16, .f32⟩ : BufTy).Contents (Elt F)) ]

theorem c25_5_ok : Ok (F := F) c25_5 :=
  ⟨⟨reshape_bufs_sub .., rfl⟩, ⟨nullary_bufs_sub .., rfl⟩, ⟨binary_bufs_sub .., rfl⟩⟩

abbrev c25_6 : List (HloOp τ sig (Elt F)) :=
  [ nullary main_cst_131 (constant S_ .f32 0x40800000#32),
    unary main_cst_131 main_v365 (broadcastInDim S128x64x16x16 ![] bcast_S_S128x64x16x16 : (⟨S_, .f32⟩ : BufTy).Contents (Elt F) → (⟨S128x64x16x16, .f32⟩ : BufTy).Contents (Elt F)) ]

theorem c25_6_ok : Ok (F := F) c25_6 :=
  ⟨⟨nullary_bufs_sub .., rfl⟩, ⟨unary_bufs_sub .., rfl⟩⟩

abbrev c26_0 : List (HloOp τ sig (Elt F)) :=
  [ binary main_v364 main_v365 main_v366 (Host.divf : (⟨S128x64x16x16, .f32⟩ : BufTy).Contents (Elt F) → (⟨S128x64x16x16, .f32⟩ : BufTy).Contents (Elt F) → (⟨S128x64x16x16, .f32⟩ : BufTy).Contents (Elt F)),
    unary main_v2 main_v367 ((extractStridedSlice S128x2048x1 ![0, 0, 0] · slices_S128x2048x2_S128x2048x1_0_0_0) : (⟨S128x2048x2, .f32⟩ : BufTy).Contents (Elt F) → (⟨S128x2048x1, .f32⟩ : BufTy).Contents (Elt F)),
    reshape main_v367 main_v368 rfl shapeCasts_S128x2048x1_S128x2048 ]

theorem c26_0_ok : Ok (F := F) c26_0 :=
  ⟨⟨binary_bufs_sub .., rfl⟩, ⟨unary_bufs_sub .., rfl⟩, ⟨reshape_bufs_sub .., rfl⟩⟩

abbrev c26_1 : List (HloOp τ sig (Elt F)) :=
  [ nullary main_cst_132 (constant S_ .f32 0x3F800000#32),
    unary main_cst_132 main_v369 (broadcastInDim S128x2048 ![] bcast_S_S128x2048 : (⟨S_, .f32⟩ : BufTy).Contents (Elt F) → (⟨S128x2048, .f32⟩ : BufTy).Contents (Elt F)),
    binary main_v368 main_v369 main_v370 (addf : (⟨S128x2048, .f32⟩ : BufTy).Contents (Elt F) → (⟨S128x2048, .f32⟩ : BufTy).Contents (Elt F) → (⟨S128x2048, .f32⟩ : BufTy).Contents (Elt F)) ]

theorem c26_1_ok : Ok (F := F) c26_1 :=
  ⟨⟨nullary_bufs_sub .., rfl⟩, ⟨unary_bufs_sub .., rfl⟩, ⟨binary_bufs_sub .., rfl⟩⟩

abbrev c26_2 : List (HloOp τ sig (Elt F)) :=
  [ nullary main_cst_133 (constant S_ .f32 0x41800000#32),
    unary main_cst_133 main_v371 (broadcastInDim S128x2048 ![] bcast_S_S128x2048 : (⟨S_, .f32⟩ : BufTy).Contents (Elt F) → (⟨S128x2048, .f32⟩ : BufTy).Contents (Elt F)),
    binary main_v370 main_v371 main_v372 (mulf : (⟨S128x2048, .f32⟩ : BufTy).Contents (Elt F) → (⟨S128x2048, .f32⟩ : BufTy).Contents (Elt F) → (⟨S128x2048, .f32⟩ : BufTy).Contents (Elt F)) ]

theorem c26_2_ok : Ok (F := F) c26_2 :=
  ⟨⟨nullary_bufs_sub .., rfl⟩, ⟨unary_bufs_sub .., rfl⟩, ⟨binary_bufs_sub .., rfl⟩⟩

abbrev c26_3 : List (HloOp τ sig (Elt F)) :=
  [ nullary main_cst_134 (constant S_ .f32 0x3F800000#32),
    unary main_cst_134 main_v373 (broadcastInDim S128x2048 ![] bcast_S_S128x2048 : (⟨S_, .f32⟩ : BufTy).Contents (Elt F) → (⟨S128x2048, .f32⟩ : BufTy).Contents (Elt F)),
    binary main_v372 main_v373 main_v374 (subf : (⟨S128x2048, .f32⟩ : BufTy).Contents (Elt F) → (⟨S128x2048, .f32⟩ : BufTy).Contents (Elt F) → (⟨S128x2048, .f32⟩ : BufTy).Contents (Elt F)) ]

theorem c26_3_ok : Ok (F := F) c26_3 :=
  ⟨⟨nullary_bufs_sub .., rfl⟩, ⟨unary_bufs_sub .., rfl⟩, ⟨binary_bufs_sub .., rfl⟩⟩

abbrev c26_4 : List (HloOp τ sig (Elt F)) :=
  [ nullary main_cst_135 (constant S_ .f32 0x3F000000#32),
    unary main_cst_135 main_v375 (broadcastInDim S128x2048 ![] bcast_S_S128x2048 : (⟨S_, .f32⟩ : BufTy).Contents (Elt F) → (⟨S128x2048, .f32⟩ : BufTy).Contents (Elt F)),
    binary main_v374 main_v375 main_v376 (mulf : (⟨S128x2048, .f32⟩ : BufTy).Contents (Elt F) → (⟨S128x2048, .f32⟩ : BufTy).Contents (Elt F) → (⟨S128x2048, .f32⟩ : BufTy).Contents (Elt F)) ]

theorem c26_4_ok : Ok (F := F) c26_4 :=
  ⟨⟨nullary_bufs_sub .., rfl⟩, ⟨unary_bufs_sub .., rfl⟩, ⟨binary_bufs_sub .., rfl⟩⟩

abbrev c26_5 : List (HloOp τ sig (Elt F)) :=
  [ unary main_v2 main_v377 ((extractStridedSlice S128x2048x1 ![0, 0, 1] · slices_S128x2048x2_S128x2048x1_0_0_1) : (⟨S128x2048x2, .f32⟩ : BufTy).Contents (Elt F) → (⟨S128x2048x1, .f32⟩ : BufTy).Contents (Elt F)),
    reshape main_v377 main_v378 rfl shapeCasts_S128x2048x1_S128x2048,
    nullary main_cst_136 (constant S_ .f32 0x3F800000#32) ]

theorem c26_5_ok : Ok (F := F) c26_5 :=
  ⟨⟨unary_bufs_sub .., rfl⟩, ⟨reshape_bufs_sub .., rfl⟩, ⟨nullary_bufs_sub .., rfl⟩⟩

abbrev c26_6 : List (HloOp τ sig (Elt F)) :=
  [ unary main_cst_136 main_v379 (broadcastInDim S128x2048 ![] bcast_S_S128x2048 : (⟨S_, .f32⟩ : BufTy).Contents (Elt F) → (⟨S128x2048, .f32⟩ : BufTy).Contents (Elt F)),
    binary main_v378 main_v379 main_v380 (addf : (⟨S128x2048, .f32⟩ : BufTy).Contents (Elt F) → (⟨S128x2048, .f32⟩ : BufTy).Contents (Elt F) → (⟨S128x2048, .f32⟩ : BufTy).Contents (Elt F)) ]

theorem c26_6_ok : Ok (F := F) c26_6 :=
  ⟨⟨unary_bufs_sub .., rfl⟩, ⟨binary_bufs_sub .., rfl⟩⟩

abbrev c27_0 : List (HloOp τ sig (Elt F)) :=
  [ nullary main_cst_137 (constant S_ .f32 0x41800000#32),
    unary main_cst_137 main_v381 (broadcastInDim S128x2048 ![] bcast_S_S128x2048 : (⟨S_, .f32⟩ : BufTy).Contents (Elt F) → (⟨S128x2048, .f32⟩ : BufTy).Contents (Elt F)),
    binary main_v380 main_v381 main_v382 (mulf : (⟨S128x2048, .f32⟩ : BufTy).Contents (Elt F) → (⟨S128x2048, .f32⟩ : BufTy).Contents (Elt F) → (⟨S128x2048, .f32⟩ : BufTy).Contents (Elt F)) ]

theorem c27_0_ok : Ok (F := F) c27_0 :=
  ⟨⟨nullary_bufs_sub .., rfl⟩, ⟨unary_bufs_sub .., rfl⟩, ⟨binary_bufs_sub .., rfl⟩⟩

abbrev c27_1 : List (HloOp τ sig (Elt F)) :=
  [ nullary main_cst_138 (constant S_ .f32 0x3F800000#32),
    unary main_cst_138 main_v383 (broadcastInDim S128x2048 ![] bcast_S_S128x2048 : (⟨S_, .f32⟩ : BufTy).Contents (Elt F) → (⟨S128x2048, .f32⟩ : BufTy).Contents (Elt F)),
    binary main_v382 main_v383 main_v384 (subf : (⟨S128x2048, .f32⟩ : BufTy).Contents (Elt F) → (⟨S128x2048, .f32⟩ : BufTy).Contents (Elt F) → (⟨S128x2048, .f32⟩ : BufTy).Contents (Elt F)) ]

theorem c27_1_ok : Ok (F := F) c27_1 :=
  ⟨⟨nullary_bufs_sub .., rfl⟩, ⟨unary_bufs_sub .., rfl⟩, ⟨binary_bufs_sub .., rfl⟩⟩

abbrev c27_2 : List (HloOp τ sig (Elt F)) :=
  [ nullary main_cst_139 (constant S_ .f32 0x3F000000#32),
    unary main_cst_139 main_v385 (broadcastInDim S128x2048 ![] bcast_S_S128x2048 : (⟨S_, .f32⟩ : BufTy).Contents (Elt F) → (⟨S128x2048, .f32⟩ : BufTy).Contents (Elt F)),
    binary main_v384 main_v385 main_v386 (mulf : (⟨S128x2048, .f32⟩ : BufTy).Contents (Elt F) → (⟨S128x2048, .f32⟩ : BufTy).Contents (Elt F) → (⟨S128x2048, .f32⟩ : BufTy).Contents (Elt F)) ]

theorem c27_2_ok : Ok (F := F) c27_2 :=
  ⟨⟨nullary_bufs_sub .., rfl⟩, ⟨unary_bufs_sub .., rfl⟩, ⟨binary_bufs_sub .., rfl⟩⟩

abbrev c27_3 : List (HloOp τ sig (Elt F)) :=
  [ unary main_v376 main_v387 (Host.floor : (⟨S128x2048, .f32⟩ : BufTy).Contents (Elt F) → (⟨S128x2048, .f32⟩ : BufTy).Contents (Elt F)),
    unary main_v386 main_v388 (Host.floor : (⟨S128x2048, .f32⟩ : BufTy).Contents (Elt F) → (⟨S128x2048, .f32⟩ : BufTy).Contents (Elt F)),
    binary main_v376 main_v387 main_v389 (subf : (⟨S128x2048, .f32⟩ : BufTy).Contents (Elt F) → (⟨S128x2048, .f32⟩ : BufTy).Contents (Elt F) → (⟨S128x2048, .f32⟩ : BufTy).Contents (Elt F)) ]

theorem c27_3_ok : Ok (F := F) c27_3 :=
  ⟨⟨unary_bufs_sub .., rfl⟩, ⟨unary_bufs_sub .., rfl⟩, ⟨binary_bufs_sub .., rfl⟩⟩

abbrev c27_4 : List (HloOp τ sig (Elt F)) :=
  [ binary main_v386 main_v388 main_v390 (subf : (⟨S128x2048, .f32⟩ : BufTy).Contents (Elt F) → (⟨S128x2048, .f32⟩ : BufTy).Contents (Elt F) → (⟨S128x2048, .f32⟩ : BufTy).Contents (Elt F)),
    unary main_v387 main_v391 (fptosi 32 : (⟨S128x2048, .f32⟩ : BufTy).Contents (Elt F) → (⟨S128x2048, .i32⟩ : BufTy).Contents (Elt F)),
    unary main_v388 main_v392 (fptosi 32 : (⟨S128x2048, .f32⟩ : BufTy).Contents (Elt F) → (⟨S128x2048, .i32⟩ : BufTy).Contents (Elt F)) ]

theorem c27_4_ok : Ok (F := F) c27_4 :=
  ⟨⟨binary_bufs_sub .., rfl⟩, ⟨unary_bufs_sub .., rfl⟩, ⟨unary_bufs_sub .., rfl⟩⟩

abbrev c27_5 : List (HloOp τ sig (Elt F)) :=
  [ nullary main_cst_140 (constant S_ .f32 0x3F800000#32),
    unary main_cst_140 main_v393 (broadcastInDim S128x2048 ![] bcast_S_S128x2048 : (⟨S_, .f32⟩ : BufTy).Contents (Elt F) → (⟨S128x2048, .f32⟩ : BufTy).Contents (Elt F)),
    binary main_v393 main_v390 main_v394 (subf : (⟨S128x2048, .f32⟩ : BufTy).Contents (Elt F) → (⟨S128x2048, .f32⟩ : BufTy).Contents (Elt F) → (⟨S128x2048, .f32⟩ : BufTy).Contents (Elt F)) ]

theorem c27_5_ok : Ok (F := F) c27_5 :=
  ⟨⟨nullary_bufs_sub .., rfl⟩, ⟨unary_bufs_sub .., rfl⟩, ⟨binary_bufs_sub .., rfl⟩⟩

abbrev c27_6 : List (HloOp τ sig (Elt F)) :=
  [ nullary main_cst_141 (constant S_ .f32 0x3F800000#32),
    unary main_cst_141 main_v395 (broadcastInDim S128x2048 ![] bcast_S_S128x2048 : (⟨S_, .f32⟩ : BufTy).Contents (Elt F) → (⟨S128x2048, .f32⟩ : BufTy).Contents (Elt F)) ]

theorem c27_6_ok : Ok (F := F) c27_6 :=
  ⟨⟨nullary_bufs_sub .., rfl⟩, ⟨unary_bufs_sub .., rfl⟩⟩

def c25 : List (HloOp τ sig (Elt F)) := c25_0 ++ (c25_1 ++ (c25_2 ++ (c25_3 ++ (c25_4 ++ (c25_5 ++ (c25_6))))))

theorem c25_ok : Ok (F := F) c25 := c25_0_ok.append (c25_1_ok.append (c25_2_ok.append (c25_3_ok.append (c25_4_ok.append (c25_5_ok.append (c25_6_ok))))))

def c26 : List (HloOp τ sig (Elt F)) := c26_0 ++ (c26_1 ++ (c26_2 ++ (c26_3 ++ (c26_4 ++ (c26_5 ++ (c26_6))))))

theorem c26_ok : Ok (F := F) c26 := c26_0_ok.append (c26_1_ok.append (c26_2_ok.append (c26_3_ok.append (c26_4_ok.append (c26_5_ok.append (c26_6_ok))))))

def c27 : List (HloOp τ sig (Elt F)) := c27_0 ++ (c27_1 ++ (c27_2 ++ (c27_3 ++ (c27_4 ++ (c27_5 ++ (c27_6))))))

theorem c27_ok : Ok (F := F) c27 := c27_0_ok.append (c27_1_ok.append (c27_2_ok.append (c27_3_ok.append (c27_4_ok.append (c27_5_ok.append (c27_6_ok))))))

def w8 : List (HloOp τ sig (Elt F)) := c25 ++ (c26 ++ (c27))

theorem w8_ok : Ok (F := F) w8 := c25_ok.append (c26_ok.append (c27_ok))

theorem main_part8_chain (d : Dev nD) : main_part8 (F := F) d = (Pipeline.chainK
  [ seq c25_0,
    seq c25_1,
    seq c25_2,
    seq c25_3,
    seq c25_4,
    seq c25_5,
    seq c25_6,
    seq c26_0,
    seq c26_1,
    seq c26_2,
    seq c26_3,
    seq c26_4,
    seq c26_5,
    seq c26_6,
    seq c27_0,
    seq c27_1,
    seq c27_2,
    seq c27_3,
    seq c27_4,
    seq c27_5 ]
  (seq c27_6) : Prog (TpuEff nD τ sig (Elt F) (Pipeline.Sig Λ₀ (Fin 0) fun p => (pcfgs (F := F) p).Adm) .tc) PUnit) := by
  chain_rfl

theorem main_part8_eq (d : Dev nD) : main_part8 (F := F) d = (seq w8 : Prog (TpuEff nD τ sig (Elt F) (Pipeline.Sig Λ₀ (Fin 0) fun p => (pcfgs (F := F) p).Adm) .tc) PUnit) := by
  rw [main_part8_chain d]
  simp only [w8, c25, c26, c27, Pipeline.chainK, seq_append, bind_assoc]

end Cert.ReferenceIdeal.RefRunGen

end
-- ==== Proof.RefRunGen.P9.lean ====
import proofs.«416765_j9792525435349_4_alg».proof.Proof.RefRunGen.Ok
import Idealize.ShloMosaic.Lib.Pipeline.Regions

noncomputable section

namespace Cert.ReferenceIdeal.RefRunGen

open Cert.ReferenceIdeal Cert.ReferenceIdeal.Gen Idealize.ShloMosaic Idealize.ShloMosaic.TcCoe Idealize.SL.Sem Idealize.ShloMosaic.StableHlo

variable {F : FTy → Type} [FloatOps F]

abbrev c28_0 : List (HloOp τ sig (Elt F)) :=
  [ binary main_v395 main_v389 main_v396 (subf : (⟨S128x2048, .f32⟩ : BufTy).Contents (Elt F) → (⟨S128x2048, .f32⟩ : BufTy).Contents (Elt F) → (⟨S128x2048, .f32⟩ : BufTy).Contents (Elt F)),
    binary main_v394 main_v396 main_v397 (mulf : (⟨S128x2048, .f32⟩ : BufTy).Contents (Elt F) → (⟨S128x2048, .f32⟩ : BufTy).Contents (Elt F) → (⟨S128x2048, .f32⟩ : BufTy).Contents (Elt F)),
    nullary main_c_142 (constantI S_ 32 0#32) ]

theorem c28_0_ok : Ok (F := F) c28_0 :=
  ⟨⟨binary_bufs_sub .., rfl⟩, ⟨binary_bufs_sub .., rfl⟩, ⟨nullary_bufs_sub .., rfl⟩⟩

abbrev c28_1 : List (HloOp τ sig (Elt F)) :=
  [ unary main_c_142 main_v398 (broadcastInDim S128x2048 ![] bcast_S_S128x2048 : (⟨S_, .i32⟩ : BufTy).Contents (Elt F) → (⟨S128x2048, .i32⟩ : BufTy).Contents (Elt F)),
    binary main_v392 main_v398 main_v399 (cmpi .sge : (⟨S128x2048, .i32⟩ : BufTy).Contents (Elt F) → (⟨S128x2048, .i32⟩ : BufTy).Contents (Elt F) → (⟨S128x2048, .i1⟩ : BufTy).Contents (Elt F)),
    nullary main_c_143 (constantI S_ 32 16#32) ]

theorem c28_1_ok : Ok (F := F) c28_1 :=
  ⟨⟨unary_bufs_sub .., rfl⟩, ⟨binary_bufs_sub .., rfl⟩, ⟨nullary_bufs_sub .., rfl⟩⟩

abbrev c28_2 : List (HloOp τ sig (Elt F)) :=
  [ unary main_c_143 main_v400 (broadcastInDim S128x2048 ![] bcast_S_S128x2048 : (⟨S_, .i32⟩ : BufTy).Contents (Elt F) → (⟨S128x2048, .i32⟩ : BufTy).Contents (Elt F)),
    binary main_v392 main_v400 main_v401 (cmpi .slt : (⟨S128x2048, .i32⟩ : BufTy).Contents (Elt F) → (⟨S128x2048, .i32⟩ : BufTy).Contents (Elt F) → (⟨S128x2048, .i1⟩ : BufTy).Contents (Elt F)),
    binary main_v399 main_v401 main_v402 (andi : (⟨S128x2048, .i1⟩ : BufTy).Contents (Elt F) → (⟨S128x2048, .i1⟩ : BufTy).Contents (Elt F) → (⟨S128x2048, .i1⟩ : BufTy).Contents (Elt F)) ]

theorem c28_2_ok : Ok (F := F) c28_2 :=
  ⟨⟨unary_bufs_sub .., rfl⟩, ⟨binary_bufs_sub .., rfl⟩, ⟨binary_bufs_sub .., rfl⟩⟩

abbrev c28_3 : List (HloOp τ sig (Elt F)) :=
  [ nullary main_c_144 (constantI S_ 32 0#32),
    unary main_c_144 main_v403 (broadcastInDim S128x2048 ![] bcast_S_S128x2048 : (⟨S_, .i32⟩ : BufTy).Contents (Elt F) → (⟨S128x2048, .i32⟩ : BufTy).Contents (Elt F)),
    binary main_v391 main_v403 main_v404 (cmpi .sge : (⟨S128x2048, .i32⟩ : BufTy).Contents (Elt F) → (⟨S128x2048, .i32⟩ : BufTy).Contents (Elt F) → (⟨S128x2048, .i1⟩ : BufTy).Contents (Elt F)) ]

theorem c28_3_ok : Ok (F := F) c28_3 :=
  ⟨⟨nullary_bufs_sub .., rfl⟩, ⟨unary_bufs_sub .., rfl⟩, ⟨binary_bufs_sub .., rfl⟩⟩

abbrev c28_4 : List (HloOp τ sig (Elt F)) :=
  [ binary main_v402 main_v404 main_v405 (andi : (⟨S128x2048, .i1⟩ : BufTy).Contents (Elt F) → (⟨S128x2048, .i1⟩ : BufTy).Contents (Elt F) → (⟨S128x2048, .i1⟩ : BufTy).Contents (Elt F)),
    nullary main_c_145 (constantI S_ 32 16#32),
    unary main_c_145 main_v406 (broadcastInDim S128x2048 ![] bcast_S_S128x2048 : (⟨S_, .i32⟩ : BufTy).Contents (Elt F) → (⟨S128x2048, .i32⟩ : BufTy).Contents (Elt F)) ]

theorem c28_4_ok : Ok (F := F) c28_4 :=
  ⟨⟨binary_bufs_sub .., rfl⟩, ⟨nullary_bufs_sub .., rfl⟩, ⟨unary_bufs_sub .., rfl⟩⟩

abbrev c28_5 : List (HloOp τ sig (Elt F)) :=
  [ binary main_v391 main_v406 main_v407 (cmpi .slt : (⟨S128x2048, .i32⟩ : BufTy).Contents (Elt F) → (⟨S128x2048, .i32⟩ : BufTy).Contents (Elt F) → (⟨S128x2048, .i1⟩ : BufTy).Contents (Elt F)),
    binary main_v405 main_v407 main_v408 (andi : (⟨S128x2048, .i1⟩ : BufTy).Contents (Elt F) → (⟨S128x2048, .i1⟩ : BufTy).Contents (Elt F) → (⟨S128x2048, .i1⟩ : BufTy).Contents (Elt F)),
    unary main_v408 main_v409 (uitofp .f32 : (⟨S128x2048, .i1⟩ : BufTy).Contents (Elt F) → (⟨S128x2048, .f32⟩ : BufTy).Contents (Elt F)) ]

theorem c28_5_ok : Ok (F := F) c28_5 :=
  ⟨⟨binary_bufs_sub .., rfl⟩, ⟨binary_bufs_sub .., rfl⟩, ⟨unary_bufs_sub .., rfl⟩⟩

abbrev c28_6 : List (HloOp τ sig (Elt F)) :=
  [ nullary main_c_146 (constantI S_ 32 0#32),
    nullary main_c_147 (constantI S_ 32 15#32) ]

theorem c28_6_ok : Ok (F := F) c28_6 :=
  ⟨⟨nullary_bufs_sub .., rfl⟩, ⟨nullary_bufs_sub .., rfl⟩⟩

abbrev c28_7 : List (HloOp τ sig (Elt F)) :=
  [ TRef.unary (TRef.of (T := ⟨S_, .i32⟩) main_c_146) (TRef.of (T := ⟨S_, .i32⟩) main_call17_v0) id,
    TRef.unary (TRef.of (T := ⟨S_, .i32⟩) main_call17_v0) (TRef.of (T := ⟨S128x2048, .i32⟩) main_call17_v1) (broadcastInDim S128x2048 ![] bcast_S_S128x2048),
    TRef.binary (TRef.of (T := ⟨S128x2048, .i32⟩) main_call17_v1) (TRef.of (T := ⟨S128x2048, .i32⟩) main_v392) (TRef.of (T := ⟨S128x2048, .i32⟩) main_call17_v2) maxsi,
    TRef.unary (TRef.of (T := ⟨S_, .i32⟩) main_c_147) (TRef.of (T := ⟨S_, .i32⟩) main_call17_v3) id,
    TRef.unary (TRef.of (T := ⟨S_, .i32⟩) main_call17_v3) (TRef.of (T := ⟨S128x2048, .i32⟩) main_call17_v4) (broadcastInDim S128x2048 ![] bcast_S_S128x2048),
    TRef.binary (TRef.of (T := ⟨S128x2048, .i32⟩) main_call17_v4) (TRef.of (T := ⟨S128x2048, .i32⟩) main_call17_v2) (TRef.of (T := ⟨S128x2048, .i32⟩) main_v410) minsi ]

theorem c28_7_ok : Ok (F := F) c28_7 :=
  ⟨⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩⟩

abbrev c29_0 : List (HloOp τ sig (Elt F)) :=
  [ nullary main_c_148 (constantI S_ 32 0#32),
    nullary main_c_149 (constantI S_ 32 15#32) ]

theorem c29_0_ok : Ok (F := F) c29_0 :=
  ⟨⟨nullary_bufs_sub .., rfl⟩, ⟨nullary_bufs_sub .., rfl⟩⟩

abbrev c29_1 : List (HloOp τ sig (Elt F)) :=
  [ TRef.unary (TRef.of (T := ⟨S_, .i32⟩) main_c_148) (TRef.of (T := ⟨S_, .i32⟩) main_call18_v0) id,
    TRef.unary (TRef.of (T := ⟨S_, .i32⟩) main_call18_v0) (TRef.of (T := ⟨S128x2048, .i32⟩) main_call18_v1) (broadcastInDim S128x2048 ![] bcast_S_S128x2048),
    TRef.binary (TRef.of (T := ⟨S128x2048, .i32⟩) main_call18_v1) (TRef.of (T := ⟨S128x2048, .i32⟩) main_v391) (TRef.of (T := ⟨S128x2048, .i32⟩) main_call18_v2) maxsi,
    TRef.unary (TRef.of (T := ⟨S_, .i32⟩) main_c_149) (TRef.of (T := ⟨S_, .i32⟩) main_call18_v3) id,
    TRef.unary (TRef.of (T := ⟨S_, .i32⟩) main_call18_v3) (TRef.of (T := ⟨S128x2048, .i32⟩) main_call18_v4) (broadcastInDim S128x2048 ![] bcast_S_S128x2048),
    TRef.binary (TRef.of (T := ⟨S128x2048, .i32⟩) main_call18_v4) (TRef.of (T := ⟨S128x2048, .i32⟩) main_call18_v2) (TRef.of (T := ⟨S128x2048, .i32⟩) main_v411) minsi ]

theorem c29_1_ok : Ok (F := F) c29_1 :=
  ⟨⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩⟩

abbrev c29_2 : List (HloOp τ sig (Elt F)) :=
  [ nullary main_c_150 (constantI S_ 32 0#32),
    unary main_c_150 main_v412 (broadcastInDim S128x2048 ![] bcast_S_S128x2048 : (⟨S_, .i32⟩ : BufTy).Contents (Elt F) → (⟨S128x2048, .i32⟩ : BufTy).Contents (Elt F)),
    binary main_v410 main_v412 main_v413 (cmpi .slt : (⟨S128x2048, .i32⟩ : BufTy).Contents (Elt F) → (⟨S128x2048, .i32⟩ : BufTy).Contents (Elt F) → (⟨S128x2048, .i1⟩ : BufTy).Contents (Elt F)) ]

theorem c29_2_ok : Ok (F := F) c29_2 :=
  ⟨⟨nullary_bufs_sub .., rfl⟩, ⟨unary_bufs_sub .., rfl⟩, ⟨binary_bufs_sub .., rfl⟩⟩

abbrev c29_3 : List (HloOp τ sig (Elt F)) :=
  [ nullary main_c_151 (constantI S_ 32 16#32),
    unary main_c_151 main_v414 (broadcastInDim S128x2048 ![] bcast_S_S128x2048 : (⟨S_, .i32⟩ : BufTy).Contents (Elt F) → (⟨S128x2048, .i32⟩ : BufTy).Contents (Elt F)),
    binary main_v410 main_v414 main_v415 (addi : (⟨S128x2048, .i32⟩ : BufTy).Contents (Elt F) → (⟨S128x2048, .i32⟩ : BufTy).Contents (Elt F) → (⟨S128x2048, .i32⟩ : BufTy).Contents (Elt F)) ]

theorem c29_3_ok : Ok (F := F) c29_3 :=
  ⟨⟨nullary_bufs_sub .., rfl⟩, ⟨unary_bufs_sub .., rfl⟩, ⟨binary_bufs_sub .., rfl⟩⟩

abbrev c29_4 : List (HloOp τ sig (Elt F)) :=
  [ ternary main_v413 main_v415 main_v410 main_v416 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F)),
    nullary main_c_152 (constantI S_ 32 0#32),
    unary main_c_152 main_v417 (broadcastInDim S128x2048 ![] bcast_S_S128x2048 : (⟨S_, .i32⟩ : BufTy).Contents (Elt F) → (⟨S128x2048, .i32⟩ : BufTy).Contents (Elt F)) ]

theorem c29_4_ok : Ok (F := F) c29_4 :=
  ⟨⟨ternary_bufs_sub .., rfl⟩, ⟨nullary_bufs_sub .., rfl⟩, ⟨unary_bufs_sub .., rfl⟩⟩

abbrev c29_5 : List (HloOp τ sig (Elt F)) :=
  [ binary main_v411 main_v417 main_v418 (cmpi .slt : (⟨S128x2048, .i32⟩ : BufTy).Contents (Elt F) → (⟨S128x2048, .i32⟩ : BufTy).Contents (Elt F) → (⟨S128x2048, .i1⟩ : BufTy).Contents (Elt F)),
    nullary main_c_153 (constantI S_ 32 16#32),
    unary main_c_153 main_v419 (broadcastInDim S128x2048 ![] bcast_S_S128x2048 : (⟨S_, .i32⟩ : BufTy).Contents (Elt F) → (⟨S128x2048, .i32⟩ : BufTy).Contents (Elt F)) ]

theorem c29_5_ok : Ok (F := F) c29_5 :=
  ⟨⟨binary_bufs_sub .., rfl⟩, ⟨nullary_bufs_sub .., rfl⟩, ⟨unary_bufs_sub .., rfl⟩⟩

abbrev c29_6 : List (HloOp τ sig (Elt F)) :=
  [ binary main_v411 main_v419 main_v420 (addi : (⟨S128x2048, .i32⟩ : BufTy).Contents (Elt F) → (⟨S128x2048, .i32⟩ : BufTy).Contents (Elt F) → (⟨S128x2048, .i32⟩ : BufTy).Contents (Elt F)) ]

theorem c29_6_ok : Ok (F := F) c29_6 :=
  ⟨binary_bufs_sub .., rfl⟩

abbrev c30_0 : List (HloOp τ sig (Elt F)) :=
  [ ternary main_v418 main_v420 main_v411 main_v421 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F)),
    unary main_v416 main_v422 (broadcastInDim S128x2048x1 ![0, 1] bcast_S128x2048_S128x2048x1_0_1 : (⟨S128x2048, .i32⟩ : BufTy).Contents (Elt F) → (⟨S128x2048x1, .i32⟩ : BufTy).Contents (Elt F)),
    unary main_v421 main_v423 (broadcastInDim S128x2048x1 ![0, 1] bcast_S128x2048_S128x2048x1_0_1 : (⟨S128x2048, .i32⟩ : BufTy).Contents (Elt F) → (⟨S128x2048x1, .i32⟩ : BufTy).Contents (Elt F)) ]

theorem c30_0_ok : Ok (F := F) c30_0 :=
  ⟨⟨ternary_bufs_sub .., rfl⟩, ⟨unary_bufs_sub .., rfl⟩, ⟨unary_bufs_sub .., rfl⟩⟩

abbrev c30_1 : List (HloOp τ sig (Elt F)) :=
  [ binary main_v422 main_v423 main_v424 ((fun a b => concatenate S128x2048x2 2 [⟨S128x2048x1, a⟩, ⟨S128x2048x1, b⟩] concatenates_S128x2048x1_S128x2048x1_S128x2048x2_d2) : (⟨S128x2048x1, .i32⟩ : BufTy).Contents (Elt F) → (⟨S128x2048x1, .i32⟩ : BufTy).Contents (Elt F) → (⟨S128x2048x2, .i32⟩ : BufTy).Contents (Elt F)),
    binary main_v366 main_v424 main_v425 ((fun x i => Host.gather gather_S128x64x16x16_S128x2048x2_S128x64x2048_1_23_0_0_23_2_16411 x i) : (⟨S128x64x16x16, .f32⟩ : BufTy).Contents (Elt F) → (⟨S128x2048x2, .i32⟩ : BufTy).Contents (Elt F) → (⟨S128x64x2048, .f32⟩ : BufTy).Contents (Elt F)),
    binary main_v397 main_v409 main_v426 (mulf : (⟨S128x2048, .f32⟩ : BufTy).Contents (Elt F) → (⟨S128x2048, .f32⟩ : BufTy).Contents (Elt F) → (⟨S128x2048, .f32⟩ : BufTy).Contents (Elt F)) ]

theorem c30_1_ok : Ok (F := F) c30_1 :=
  ⟨⟨binary_bufs_sub .., rfl⟩, ⟨binary_bufs_sub .., rfl⟩, ⟨binary_bufs_sub .., rfl⟩⟩

abbrev c30_2 : List (HloOp τ sig (Elt F)) :=
  [ unary main_v426 main_v427 (broadcastInDim S128x1x2048 ![0, 2] bcast_S128x2048_S128x1x2048_0_2 : (⟨S128x2048, .f32⟩ : BufTy).Contents (Elt F) → (⟨S128x1x2048, .f32⟩ : BufTy).Contents (Elt F)),
    unary main_v427 main_v428 (broadcastInDim S128x64x2048 ![0, 1, 2] bcast_S128x1x2048_S128x64x2048_0_1_2 : (⟨S128x1x2048, .f32⟩ : BufTy).Contents (Elt F) → (⟨S128x64x2048, .f32⟩ : BufTy).Contents (Elt F)),
    binary main_v425 main_v428 main_v429 (mulf : (⟨S128x64x2048, .f32⟩ : BufTy).Contents (Elt F) → (⟨S128x64x2048, .f32⟩ : BufTy).Contents (Elt F) → (⟨S128x64x2048, .f32⟩ : BufTy).Contents (Elt F)) ]

theorem c30_2_ok : Ok (F := F) c30_2 :=
  ⟨⟨unary_bufs_sub .., rfl⟩, ⟨unary_bufs_sub .., rfl⟩, ⟨binary_bufs_sub .., rfl⟩⟩

abbrev c30_3 : List (HloOp τ sig (Elt F)) :=
  [ nullary main_c_154 (constantI S_ 32 1#32),
    unary main_c_154 main_v430 (broadcastInDim S128x2048 ![] bcast_S_S128x2048 : (⟨S_, .i32⟩ : BufTy).Contents (Elt F) → (⟨S128x2048, .i32⟩ : BufTy).Contents (Elt F)),
    binary main_v391 main_v430 main_v431 (addi : (⟨S128x2048, .i32⟩ : BufTy).Contents (Elt F) → (⟨S128x2048, .i32⟩ : BufTy).Contents (Elt F) → (⟨S128x2048, .i32⟩ : BufTy).Contents (Elt F)) ]

theorem c30_3_ok : Ok (F := F) c30_3 :=
  ⟨⟨nullary_bufs_sub .., rfl⟩, ⟨unary_bufs_sub .., rfl⟩, ⟨binary_bufs_sub .., rfl⟩⟩

abbrev c30_4 : List (HloOp τ sig (Elt F)) :=
  [ nullary main_cst_155 (constant S_ .f32 0x3F800000#32),
    unary main_cst_155 main_v432 (broadcastInDim S128x2048 ![] bcast_S_S128x2048 : (⟨S_, .f32⟩ : BufTy).Contents (Elt F) → (⟨S128x2048, .f32⟩ : BufTy).Contents (Elt F)),
    binary main_v432 main_v390 main_v433 (subf : (⟨S128x2048, .f32⟩ : BufTy).Contents (Elt F) → (⟨S128x2048, .f32⟩ : BufTy).Contents (Elt F) → (⟨S128x2048, .f32⟩ : BufTy).Contents (Elt F)) ]

theorem c30_4_ok : Ok (F := F) c30_4 :=
  ⟨⟨nullary_bufs_sub .., rfl⟩, ⟨unary_bufs_sub .., rfl⟩, ⟨binary_bufs_sub .., rfl⟩⟩

abbrev c30_5 : List (HloOp τ sig (Elt F)) :=
  [ binary main_v433 main_v389 main_v434 (mulf : (⟨S128x2048, .f32⟩ : BufTy).Contents (Elt F) → (⟨S128x2048, .f32⟩ : BufTy).Contents (Elt F) → (⟨S128x2048, .f32⟩ : BufTy).Contents (Elt F)),
    nullary main_c_156 (constantI S_ 32 0#32),
    unary main_c_156 main_v435 (broadcastInDim S128x2048 ![] bcast_S_S128x2048 : (⟨S_, .i32⟩ : BufTy).Contents (Elt F) → (⟨S128x2048, .i32⟩ : BufTy).Contents (Elt F)) ]

theorem c30_5_ok : Ok (F := F) c30_5 :=
  ⟨⟨binary_bufs_sub .., rfl⟩, ⟨nullary_bufs_sub .., rfl⟩, ⟨unary_bufs_sub .., rfl⟩⟩

abbrev c30_6 : List (HloOp τ sig (Elt F)) :=
  [ binary main_v392 main_v435 main_v436 (cmpi .sge : (⟨S128x2048, .i32⟩ : BufTy).Contents (Elt F) → (⟨S128x2048, .i32⟩ : BufTy).Contents (Elt F) → (⟨S128x2048, .i1⟩ : BufTy).Contents (Elt F)),
    nullary main_c_157 (constantI S_ 32 16#32),
    unary main_c_157 main_v437 (broadcastInDim S128x2048 ![] bcast_S_S128x2048 : (⟨S_, .i32⟩ : BufTy).Contents (Elt F) → (⟨S128x2048, .i32⟩ : BufTy).Contents (Elt F)) ]

theorem c30_6_ok : Ok (F := F) c30_6 :=
  ⟨⟨binary_bufs_sub .., rfl⟩, ⟨nullary_bufs_sub .., rfl⟩, ⟨unary_bufs_sub .., rfl⟩⟩

abbrev c30_7 : List (HloOp τ sig (Elt F)) :=
  [ binary main_v392 main_v437 main_v438 (cmpi .slt : (⟨S128x2048, .i32⟩ : BufTy).Contents (Elt F) → (⟨S128x2048, .i32⟩ : BufTy).Contents (Elt F) → (⟨S128x2048, .i1⟩ : BufTy).Contents (Elt F)),
    binary main_v436 main_v438 main_v439 (andi : (⟨S128x2048, .i1⟩ : BufTy).Contents (Elt F) → (⟨S128x2048, .i1⟩ : BufTy).Contents (Elt F) → (⟨S128x2048, .i1⟩ : BufTy).Contents (Elt F)) ]

theorem c30_7_ok : Ok (F := F) c30_7 :=
  ⟨⟨binary_bufs_sub .., rfl⟩, ⟨binary_bufs_sub .., rfl⟩⟩

def c28 : List (HloOp τ sig (Elt F)) := c28_0 ++ (c28_1 ++ (c28_2 ++ (c28_3 ++ (c28_4 ++ (c28_5 ++ (c28_6 ++ (c28_7)))))))

theorem c28_ok : Ok (F := F) c28 := c28_0_ok.append (c28_1_ok.append (c28_2_ok.append (c28_3_ok.append (c28_4_ok.append (c28_5_ok.append (c28_6_ok.append (c28_7_ok)))))))

def c29 : List (HloOp τ sig (Elt F)) := c29_0 ++ (c29_1 ++ (c29_2 ++ (c29_3 ++ (c29_4 ++ (c29_5 ++ (c29_6))))))

theorem c29_ok : Ok (F := F) c29 := c29_0_ok.append (c29_1_ok.append (c29_2_ok.append (c29_3_ok.append (c29_4_ok.append (c29_5_ok.append (c29_6_ok))))))

def c30 : List (HloOp τ sig (Elt F)) := c30_0 ++ (c30_1 ++ (c30_2 ++ (c30_3 ++ (c30_4 ++ (c30_5 ++ (c30_6 ++ (c30_7)))))))

theorem c30_ok : Ok (F := F) c30 := c30_0_ok.append (c30_1_ok.append (c30_2_ok.append (c30_3_ok.append (c30_4_ok.append (c30_5_ok.append (c30_6_ok.append (c30_7_ok)))))))

def w9 : List (HloOp τ sig (Elt F)) := c28 ++ (c29 ++ (c30))

theorem w9_ok : Ok (F := F) w9 := c28_ok.append (c29_ok.append (c30_ok))

noncomputable def t9_p22 : Prog (TpuEff nD τ sig (Elt F) (Pipeline.Sig Λ₀ (Fin 0) fun p => (pcfgs (F := F) p).Adm) .tc) PUnit := do
  hlo rfl (StableHlo.binary main_v392 main_v437 main_v438 (cmpi .slt : (⟨S128x2048, .i32⟩ : BufTy).Contents (Elt F) → (⟨S128x2048, .i32⟩ : BufTy).Contents (Elt F) → (⟨S128x2048, .i1⟩ : BufTy).Contents (Elt F))) (fun _ => .ret ⟨⟩)
  hlo rfl (StableHlo.binary main_v436 main_v438 main_v439 (andi : (⟨S128x2048, .i1⟩ : BufTy).Contents (Elt F) → (⟨S128x2048, .i1⟩ : BufTy).Contents (Elt F) → (⟨S128x2048, .i1⟩ : BufTy).Contents (Elt F))) (fun _ => .ret ⟨⟩)

noncomputable def t9_p21 : Prog (TpuEff nD τ sig (Elt F) (Pipeline.Sig Λ₀ (Fin 0) fun p => (pcfgs (F := F) p).Adm) .tc) PUnit := do
  hlo rfl (StableHlo.binary main_v392 main_v435 main_v436 (cmpi .sge : (⟨S128x2048, .i32⟩ : BufTy).Contents (Elt F) → (⟨S128x2048, .i32⟩ : BufTy).Contents (Elt F) → (⟨S128x2048, .i1⟩ : BufTy).Contents (Elt F))) (fun _ => .ret ⟨⟩)
  hlo rfl (StableHlo.nullary main_c_157 (constantI S_ 32 16#32)) (fun _ => .ret ⟨⟩)
  hlo rfl (StableHlo.unary main_c_157 main_v437 (broadcastInDim S128x2048 ![] bcast_S_S128x2048 : (⟨S_, .i32⟩ : BufTy).Contents (Elt F) → (⟨S128x2048, .i32⟩ : BufTy).Contents (Elt F))) (fun _ => .ret ⟨⟩)
  t9_p22 (F := F)

noncomputable def t9_p20 : Prog (TpuEff nD τ sig (Elt F) (Pipeline.Sig Λ₀ (Fin 0) fun p => (pcfgs (F := F) p).Adm) .tc) PUnit := do
  hlo rfl (StableHlo.binary main_v433 main_v389 main_v434 (mulf : (⟨S128x2048, .f32⟩ : BufTy).Contents (Elt F) → (⟨S128x2048, .f32⟩ : BufTy).Contents (Elt F) → (⟨S128x2048, .f32⟩ : BufTy).Contents (Elt F))) (fun _ => .ret ⟨⟩)
  hlo rfl (StableHlo.nullary main_c_156 (constantI S_ 32 0#32)) (fun _ => .ret ⟨⟩)
  hlo rfl (StableHlo.unary main_c_156 main_v435 (broadcastInDim S128x2048 ![] bcast_S_S128x2048 : (⟨S_, .i32⟩ : BufTy).Contents (Elt F) → (⟨S128x2048, .i32⟩ : BufTy).Contents (Elt F))) (fun _ => .ret ⟨⟩)
  t9_p21 (F := F)

noncomputable def t9_p19 : Prog (TpuEff nD τ sig (Elt F) (Pipeline.Sig Λ₀ (Fin 0) fun p => (pcfgs (F := F) p).Adm) .tc) PUnit := do
  hlo rfl (StableHlo.nullary main_cst_155 (constant S_ .f32 0x3F800000#32)) (fun _ => .ret ⟨⟩)
  hlo rfl (StableHlo.unary main_cst_155 main_v432 (broadcastInDim S128x2048 ![] bcast_S_S128x2048 : (⟨S_, .f32⟩ : BufTy).Contents (Elt F) → (⟨S128x2048, .f32⟩ : BufTy).Contents (Elt F))) (fun _ => .ret ⟨⟩)
  hlo rfl (StableHlo.binary main_v432 main_v390 main_v433 (subf : (⟨S128x2048, .f32⟩ : BufTy).Contents (Elt F) → (⟨S128x2048, .f32⟩ : BufTy).Contents (Elt F) → (⟨S128x2048, .f32⟩ : BufTy).Contents (Elt F))) (fun _ => .ret ⟨⟩)
  t9_p20 (F := F)

noncomputable def t9_p18 : Prog (TpuEff nD τ sig (Elt F) (Pipeline.Sig Λ₀ (Fin 0) fun p => (pcfgs (F := F) p).Adm) .tc) PUnit := do
  hlo rfl (StableHlo.nullary main_c_154 (constantI S_ 32 1#32)) (fun _ => .ret ⟨⟩)
  hlo rfl (StableHlo.unary main_c_154 main_v430 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v391 main_v430 main_v431 (addi : (⟨S128x2048, .i32⟩ : BufTy).Contents (Elt F) → (⟨S128x2048, .i32⟩ : BufTy).Contents (Elt F) → (⟨S128x2048, .i32⟩ : BufTy).Contents (Elt F))) (fun _ => .ret ⟨⟩)
  t9_p19 (F := F)

noncomputable def t9_p17 : Prog (TpuEff nD τ sig (Elt F) (Pipeline.Sig Λ₀ (Fin 0) fun p => (pcfgs (F := F) p).Adm) .tc) PUnit := do
  hlo rfl (StableHlo.unary main_v426 main_v427 (broadcastInDim S128x1x2048 ![0, 2] bcast_S128x2048_S128x1x2048_0_2 : (⟨S128x2048, .f32⟩ : BufTy).Contents (Elt F) → (⟨S128x1x2048, .f32⟩ : BufTy).Contents (Elt F))) (fun _ => .ret ⟨⟩)
  hlo rfl (StableHlo.unary main_v427 main_v428 (broadcastInDim S128x64x2048 ![0, 1, 2] bcast_S128x1x2048_S128x64x2048_0_1_2 : (⟨S128x1x2048, .f32⟩ : BufTy).Contents (Elt F) → (⟨S128x64x2048, .f32⟩ : BufTy).Contents (Elt F))) (fun _ => .ret ⟨⟩)
  hlo rfl (StableHlo.binary main_v425 main_v428 main_v429 (mulf : (⟨S128x64x2048, .f32⟩ : BufTy).Contents (Elt F) → (⟨S128x64x2048, .f32⟩ : BufTy).Contents (Elt F) → (⟨S128x64x2048, .f32⟩ : BufTy).Contents (Elt F))) (fun _ => .ret ⟨⟩)
  t9_p18 (F := F)

noncomputable def t9_p16 : Prog (TpuEff nD τ sig (Elt F) (Pipeline.Sig Λ₀ (Fin 0) fun p => (pcfgs (F := F) p).Adm) .tc) PUnit := do
  hlo rfl (StableHlo.binary main_v422 main_v423 main_v424 ((fun a b => concatenate S128x2048x2 2 [⟨S128x2048x1, a⟩, ⟨S128x2048x1, b⟩] concatenates_S128x2048x1_S128x2048x1_S128x2048x2_d2) : (⟨S128x2048x1, .i32⟩ : BufTy).Contents (Elt F) → (⟨S128x2048x1, .i32⟩ : BufTy).Contents (Elt F) → (⟨S128x2048x2, .i32⟩ : BufTy).Contents (Elt F))) (fun _ => .ret ⟨⟩)
  hlo rfl (StableHlo.binary main_v366 main_v424 main_v425 ((fun x i => Host.gather gather_S128x64x16x16_S128x2048x2_S128x64x2048_1_23_0_0_23_2_16411 x i) : (⟨S128x64x16x16, .f32⟩ : BufTy).Contents (Elt F) → (⟨S128x2048x2, .i32⟩ : BufTy).Contents (Elt F) → (⟨S128x64x2048, .f32⟩ : BufTy).Contents (Elt F))) (fun _ => .ret ⟨⟩)
  hlo rfl (StableHlo.binary main_v397 main_v409 main_v426 (mulf : (⟨S128x2048, .f32⟩ : BufTy).Contents (Elt F) → (⟨S128x2048, .f32⟩ : BufTy).Contents (Elt F) → (⟨S128x2048, .f32⟩ : BufTy).Contents (Elt F))) (fun _ => .ret ⟨⟩)
  t9_p17 (F := F)

noncomputable def t9_p15 : Prog (TpuEff nD τ sig (Elt F) (Pipeline.Sig Λ₀ (Fin 0) fun p => (pcfgs (F := F) p).Adm) .tc) PUnit := do
  hlo rfl (StableHlo.ternary main_v418 main_v420 main_v411 main_v421 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F))) (fun _ => .ret ⟨⟩)
  hlo rfl (StableHlo.unary main_v416 main_v422 (broadcastInDim S128x2048x1 ![0, 1] bcast_S128x2048_S128x2048x1_0_1 : (⟨S128x2048, .i32⟩ : BufTy).Contents (Elt F) → (⟨S128x2048x1, .i32⟩ : BufTy).Contents (Elt F))) (fun _ => .ret ⟨⟩)
  hlo rfl (StableHlo.unary main_v421 main_v423 (broadcastInDim S128x2048x1 ![0, 1] bcast_S128x2048_S128x2048x1_0_1 : (⟨S128x2048, .i32⟩ : BufTy).Contents (Elt F) → (⟨S128x2048x1, .i32⟩ : BufTy).Contents (Elt F))) (fun _ => .ret ⟨⟩)
  t9_p16 (F := F)

noncomputable def t9_p14 : Prog (TpuEff nD τ sig (Elt F) (Pipeline.Sig Λ₀ (Fin 0) fun p => (pcfgs (F := F) p).Adm) .tc) PUnit := do
  hlo rfl (StableHlo.binary main_v411 main_v419 main_v420 (addi : (⟨S128x2048, .i32⟩ : BufTy).Contents (Elt F) → (⟨S128x2048, .i32⟩ : BufTy).Contents (Elt F) → (⟨S128x2048, .i32⟩ : BufTy).Contents (Elt F))) (fun _ => .ret ⟨⟩)
  t9_p15 (F := F)

noncomputable def t9_p13 : Prog (TpuEff nD τ sig (Elt F) (Pipeline.Sig Λ₀ (Fin 0) fun p => (pcfgs (F := F) p).Adm) .tc) PUnit := do
  hlo rfl (StableHlo.binary main_v411 main_v417 main_v418 (cmpi .slt : (⟨S128x2048, .i32⟩ : BufTy).Contents (Elt F) → (⟨S128x2048, .i32⟩ : BufTy).Contents (Elt F) → (⟨S128x2048, .i1⟩ : BufTy).Contents (Elt F))) (fun _ => .ret ⟨⟩)
  hlo rfl (StableHlo.nullary main_c_153 (constantI S_ 32 16#32)) (fun _ => .ret ⟨⟩)
  hlo rfl (StableHlo.unary main_c_153 main_v419 (broadcastInDim S128x2048 ![] bcast_S_S128x2048 : (⟨S_, .i32⟩ : BufTy).Contents (Elt F) → (⟨S128x2048, .i32⟩ : BufTy).Contents (Elt F))) (fun _ => .ret ⟨⟩)
  t9_p14 (F := F)

noncomputable def t9_p12 : Prog (TpuEff nD τ sig (Elt F) (Pipeline.Sig Λ₀ (Fin 0) fun p => (pcfgs (F := F) p).Adm) .tc) PUnit := do
  hlo rfl (StableHlo.ternary main_v413 main_v415 main_v410 main_v416 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F))) (fun _ => .ret ⟨⟩)
  hlo rfl (StableHlo.nullary main_c_152 (constantI S_ 32 0#32)) (fun _ => .ret ⟨⟩)
  hlo rfl (StableHlo.unary main_c_152 main_v417 (broadcastInDim S128x2048 ![] bcast_S_S128x2048 : (⟨S_, .i32⟩ : BufTy).Contents (Elt F) → (⟨S128x2048, .i32⟩ : BufTy).Contents (Elt F))) (fun _ => .ret ⟨⟩)
  t9_p13 (F := F)

noncomputable def t9_p11 : Prog (TpuEff nD τ sig (Elt F) (Pipeline.Sig Λ₀ (Fin 0) fun p => (pcfgs (F := F) p).Adm) .tc) PUnit := do
  hlo rfl (StableHlo.nullary main_c_151 (constantI S_ 32 16#32)) (fun _ => .ret ⟨⟩)
  hlo rfl (StableHlo.unary main_c_151 main_v414 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v410 main_v414 main_v415 (addi : (⟨S128x2048, .i32⟩ : BufTy).Contents (Elt F) → (⟨S128x2048, .i32⟩ : BufTy).Contents (Elt F) → (⟨S128x2048, .i32⟩ : BufTy).Contents (Elt F))) (fun _ => .ret ⟨⟩)
  t9_p12 (F := F)

noncomputable def t9_p10 : Prog (TpuEff nD τ sig (Elt F) (Pipeline.Sig Λ₀ (Fin 0) fun p => (pcfgs (F := F) p).Adm) .tc) PUnit := do
  hlo rfl (StableHlo.nullary main_c_150 (constantI S_ 32 0#32)) (fun _ => .ret ⟨⟩)
  hlo rfl (StableHlo.unary main_c_150 main_v412 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v410 main_v412 main_v413 (cmpi .slt : (⟨S128x2048, .i32⟩ : BufTy).Contents (Elt F) → (⟨S128x2048, .i32⟩ : BufTy).Contents (Elt F) → (⟨S128x2048, .i1⟩ : BufTy).Contents (Elt F))) (fun _ => .ret ⟨⟩)
  t9_p11 (F := F)

noncomputable def t9_p9 : Prog (TpuEff nD τ sig (Elt F) (Pipeline.Sig Λ₀ (Fin 0) fun p => (pcfgs (F := F) p).Adm) .tc) PUnit := do
  fn_clip_0.body (.of main_v391) (.of main_c_148) (.of main_c_149) main_call18
  t9_p10 (F := F)

noncomputable def t9_p8 : Prog (TpuEff nD τ sig (Elt F) (Pipeline.Sig Λ₀ (Fin 0) fun p => (pcfgs (F := F) p).Adm) .tc) PUnit := do
  hlo rfl (StableHlo.nullary main_c_148 (constantI S_ 32 0#32)) (fun _ => .ret ⟨⟩)
  hlo rfl (StableHlo.nullary main_c_149 (constantI S_ 32 15#32)) (fun _ => .ret ⟨⟩)
  t9_p9 (F := F)

noncomputable def t9_p7 : Prog (TpuEff nD τ sig (Elt F) (Pipeline.Sig Λ₀ (Fin 0) fun p => (pcfgs (F := F) p).Adm) .tc) PUnit := do
  fn_clip_0.body (.of main_v392) (.of main_c_146) (.of main_c_147) main_call17
  t9_p8 (F := F)

noncomputable def t9_p6 : Prog (TpuEff nD τ sig (Elt F) (Pipeline.Sig Λ₀ (Fin 0) fun p => (pcfgs (F := F) p).Adm) .tc) PUnit := do
  hlo rfl (StableHlo.nullary main_c_146 (constantI S_ 32 0#32)) (fun _ => .ret ⟨⟩)
  hlo rfl (StableHlo.nullary main_c_147 (constantI S_ 32 15#32)) (fun _ => .ret ⟨⟩)
  t9_p7 (F := F)

noncomputable def t9_p5 : Prog (TpuEff nD τ sig (Elt F) (Pipeline.Sig Λ₀ (Fin 0) fun p => (pcfgs (F := F) p).Adm) .tc) PUnit := do
  hlo rfl (StableHlo.binary main_v391 main_v406 main_v407 (cmpi .slt : (⟨S128x2048, .i32⟩ : BufTy).Contents (Elt F) → (⟨S128x2048, .i32⟩ : BufTy).Contents (Elt F) → (⟨S128x2048, .i1⟩ : BufTy).Contents (Elt F))) (fun _ => .ret ⟨⟩)
  hlo rfl (StableHlo.binary main_v405 main_v407 main_v408 (andi : (⟨S128x2048, .i1⟩ : BufTy).Contents (Elt F) → (⟨S128x2048, .i1⟩ : BufTy).Contents (Elt F) → (⟨S128x2048, .i1⟩ : BufTy).Contents (Elt F))) (fun _ => .ret ⟨⟩)
  hlo rfl (StableHlo.unary main_v408 main_v409 (uitofp .f32 : (⟨S128x2048, .i1⟩ : BufTy).Contents (Elt F) → (⟨S128x2048, .f32⟩ : BufTy).Contents (Elt F))) (fun _ => .ret ⟨⟩)
  t9_p6 (F := F)

noncomputable def t9_p4 : Prog (TpuEff nD τ sig (Elt F) (Pipeline.Sig Λ₀ (Fin 0) fun p => (pcfgs (F := F) p).Adm) .tc) PUnit := do
  hlo rfl (StableHlo.binary main_v402 main_v404 main_v405 (andi : (⟨S128x2048, .i1⟩ : BufTy).Contents (Elt F) → (⟨S128x2048, .i1⟩ : BufTy).Contents (Elt F) → (⟨S128x2048, .i1⟩ : BufTy).Contents (Elt F))) (fun _ => .ret ⟨⟩)
  hlo rfl (StableHlo.nullary main_c_145 (constantI S_ 32 16#32)) (fun _ => .ret ⟨⟩)
  hlo rfl (StableHlo.unary main_c_145 main_v406 (broadcastInDim S128x2048 ![] bcast_S_S128x2048 : (⟨S_, .i32⟩ : BufTy).Contents (Elt F) → (⟨S128x2048, .i32⟩ : BufTy).Contents (Elt F))) (fun _ => .ret ⟨⟩)
  t9_p5 (F := F)

noncomputable def t9_p3 : Prog (TpuEff nD τ sig (Elt F) (Pipeline.Sig Λ₀ (Fin 0) fun p => (pcfgs (F := F) p).Adm) .tc) PUnit := do
  hlo rfl (StableHlo.nullary main_c_144 (constantI S_ 32 0#32)) (fun _ => .ret ⟨⟩)
  hlo rfl (StableHlo.unary main_c_144 main_v403 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v391 main_v403 main_v404 (cmpi .sge : (⟨S128x2048, .i32⟩ : BufTy).Contents (Elt F) → (⟨S128x2048, .i32⟩ : BufTy).Contents (Elt F) → (⟨S128x2048, .i1⟩ : BufTy).Contents (Elt F))) (fun _ => .ret ⟨⟩)
  t9_p4 (F := F)

noncomputable def t9_p2 : Prog (TpuEff nD τ sig (Elt F) (Pipeline.Sig Λ₀ (Fin 0) fun p => (pcfgs (F := F) p).Adm) .tc) PUnit := do
  hlo rfl (StableHlo.unary main_c_143 main_v400 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v392 main_v400 main_v401 (cmpi .slt : (⟨S128x2048, .i32⟩ : BufTy).Contents (Elt F) → (⟨S128x2048, .i32⟩ : BufTy).Contents (Elt F) → (⟨S128x2048, .i1⟩ : BufTy).Contents (Elt F))) (fun _ => .ret ⟨⟩)
  hlo rfl (StableHlo.binary main_v399 main_v401 main_v402 (andi : (⟨S128x2048, .i1⟩ : BufTy).Contents (Elt F) → (⟨S128x2048, .i1⟩ : BufTy).Contents (Elt F) → (⟨S128x2048, .i1⟩ : BufTy).Contents (Elt F))) (fun _ => .ret ⟨⟩)
  t9_p3 (F := F)

noncomputable def t9_p1 : Prog (TpuEff nD τ sig (Elt F) (Pipeline.Sig Λ₀ (Fin 0) fun p => (pcfgs (F := F) p).Adm) .tc) PUnit := do
  hlo rfl (StableHlo.unary main_c_142 main_v398 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v392 main_v398 main_v399 (cmpi .sge : (⟨S128x2048, .i32⟩ : BufTy).Contents (Elt F) → (⟨S128x2048, .i32⟩ : BufTy).Contents (Elt F) → (⟨S128x2048, .i1⟩ : BufTy).Contents (Elt F))) (fun _ => .ret ⟨⟩)
  hlo rfl (StableHlo.nullary main_c_143 (constantI S_ 32 16#32)) (fun _ => .ret ⟨⟩)
  t9_p2 (F := F)

theorem main_part9_chain (d : Dev nD) : main_part9 (F := F) d = (Pipeline.chainK
  [ seq c28_0 ]
  (t9_p1 (F := F)) : Prog (TpuEff nD τ sig (Elt F) (Pipeline.Sig Λ₀ (Fin 0) fun p => (pcfgs (F := F) p).Adm) .tc) PUnit) := by
  chain_rfl

theorem t9_p1_eq : t9_p1 (F := F) = (Pipeline.chainK
  [ seq c28_1 ]
  (t9_p2 (F := F)) : Prog (TpuEff nD τ sig (Elt F) (Pipeline.Sig Λ₀ (Fin 0) fun p => (pcfgs (F := F) p).Adm) .tc) PUnit) := by
  chain_rfl

theorem t9_p2_eq : t9_p2 (F := F) = (Pipeline.chainK
  [ seq c28_2 ]
  (t9_p3 (F := F)) : Prog (TpuEff nD τ sig (Elt F) (Pipeline.Sig Λ₀ (Fin 0) fun p => (pcfgs (F := F) p).Adm) .tc) PUnit) := by
  chain_rfl

theorem t9_p3_eq : t9_p3 (F := F) = (Pipeline.chainK
  [ seq c28_3 ]
  (t9_p4 (F := F)) : Prog (TpuEff nD τ sig (Elt F) (Pipeline.Sig Λ₀ (Fin 0) fun p => (pcfgs (F := F) p).Adm) .tc) PUnit) := by
  chain_rfl

theorem t9_p4_eq : t9_p4 (F := F) = (Pipeline.chainK
  [ seq c28_4 ]
  (t9_p5 (F := F)) : Prog (TpuEff nD τ sig (Elt F) (Pipeline.Sig Λ₀ (Fin 0) fun p => (pcfgs (F := F) p).Adm) .tc) PUnit) := by
  chain_rfl

theorem t9_p5_eq : t9_p5 (F := F) = (Pipeline.chainK
  [ seq c28_5 ]
  (t9_p6 (F := F)) : Prog (TpuEff nD τ sig (Elt F) (Pipeline.Sig Λ₀ (Fin 0) fun p => (pcfgs (F := F) p).Adm) .tc) PUnit) := by
  chain_rfl

theorem t9_p6_eq : t9_p6 (F := F) = (Pipeline.chainK
  [ seq c28_6 ]
  (t9_p7 (F := F)) : Prog (TpuEff nD τ sig (Elt F) (Pipeline.Sig Λ₀ (Fin 0) fun p => (pcfgs (F := F) p).Adm) .tc) PUnit) := by
  chain_rfl

theorem t9_p7_eq : t9_p7 (F := F) = (Pipeline.chainK
  [ seq c28_7 ]
  (t9_p8 (F := F)) : Prog (TpuEff nD τ sig (Elt F) (Pipeline.Sig Λ₀ (Fin 0) fun p => (pcfgs (F := F) p).Adm) .tc) PUnit) := by
  chain_rfl

theorem t9_p8_eq : t9_p8 (F := F) = (Pipeline.chainK
  [ seq c29_0 ]
  (t9_p9 (F := F)) : Prog (TpuEff nD τ sig (Elt F) (Pipeline.Sig Λ₀ (Fin 0) fun p => (pcfgs (F := F) p).Adm) .tc) PUnit) := by
  chain_rfl

theorem t9_p9_eq : t9_p9 (F := F) = (Pipeline.chainK
  [ seq c29_1 ]
  (t9_p10 (F := F)) : Prog (TpuEff nD τ sig (Elt F) (Pipeline.Sig Λ₀ (Fin 0) fun p => (pcfgs (F := F) p).Adm) .tc) PUnit) := by
  chain_rfl

theorem t9_p10_eq : t9_p10 (F := F) = (Pipeline.chainK
  [ seq c29_2 ]
  (t9_p11 (F := F)) : Prog (TpuEff nD τ sig (Elt F) (Pipeline.Sig Λ₀ (Fin 0) fun p => (pcfgs (F := F) p).Adm) .tc) PUnit) := by
  chain_rfl

theorem t9_p11_eq : t9_p11 (F := F) = (Pipeline.chainK
  [ seq c29_3 ]
  (t9_p12 (F := F)) : Prog (TpuEff nD τ sig (Elt F) (Pipeline.Sig Λ₀ (Fin 0) fun p => (pcfgs (F := F) p).Adm) .tc) PUnit) := by
  chain_rfl

theorem t9_p12_eq : t9_p12 (F := F) = (Pipeline.chainK
  [ seq c29_4 ]
  (t9_p13 (F := F)) : Prog (TpuEff nD τ sig (Elt F) (Pipeline.Sig Λ₀ (Fin 0) fun p => (pcfgs (F := F) p).Adm) .tc) PUnit) := by
  chain_rfl

theorem t9_p13_eq : t9_p13 (F := F) = (Pipeline.chainK
  [ seq c29_5 ]
  (t9_p14 (F := F)) : Prog (TpuEff nD τ sig (Elt F) (Pipeline.Sig Λ₀ (Fin 0) fun p => (pcfgs (F := F) p).Adm) .tc) PUnit) := by
  chain_rfl

theorem t9_p14_eq : t9_p14 (F := F) = (Pipeline.chainK
  [ seq c29_6 ]
  (t9_p15 (F := F)) : Prog (TpuEff nD τ sig (Elt F) (Pipeline.Sig Λ₀ (Fin 0) fun p => (pcfgs (F := F) p).Adm) .tc) PUnit) := by
  chain_rfl

theorem t9_p15_eq : t9_p15 (F := F) = (Pipeline.chainK
  [ seq c30_0 ]
  (t9_p16 (F := F)) : Prog (TpuEff nD τ sig (Elt F) (Pipeline.Sig Λ₀ (Fin 0) fun p => (pcfgs (F := F) p).Adm) .tc) PUnit) := by
  chain_rfl

theorem t9_p16_eq : t9_p16 (F := F) = (Pipeline.chainK
  [ seq c30_1 ]
  (t9_p17 (F := F)) : Prog (TpuEff nD τ sig (Elt F) (Pipeline.Sig Λ₀ (Fin 0) fun p => (pcfgs (F := F) p).Adm) .tc) PUnit) := by
  chain_rfl

theorem t9_p17_eq : t9_p17 (F := F) = (Pipeline.chainK
  [ seq c30_2 ]
  (t9_p18 (F := F)) : Prog (TpuEff nD τ sig (Elt F) (Pipeline.Sig Λ₀ (Fin 0) fun p => (pcfgs (F := F) p).Adm) .tc) PUnit) := by
  chain_rfl

theorem t9_p18_eq : t9_p18 (F := F) = (Pipeline.chainK
  [ seq c30_3 ]
  (t9_p19 (F := F)) : Prog (TpuEff nD τ sig (Elt F) (Pipeline.Sig Λ₀ (Fin 0) fun p => (pcfgs (F := F) p).Adm) .tc) PUnit) := by
  chain_rfl

theorem t9_p19_eq : t9_p19 (F := F) = (Pipeline.chainK
  [ seq c30_4 ]
  (t9_p20 (F := F)) : Prog (TpuEff nD τ sig (Elt F) (Pipeline.Sig Λ₀ (Fin 0) fun p => (pcfgs (F := F) p).Adm) .tc) PUnit) := by
  chain_rfl

theorem t9_p20_eq : t9_p20 (F := F) = (Pipeline.chainK
  [ seq c30_5 ]
  (t9_p21 (F := F)) : Prog (TpuEff nD τ sig (Elt F) (Pipeline.Sig Λ₀ (Fin 0) fun p => (pcfgs (F := F) p).Adm) .tc) PUnit) := by
  chain_rfl

theorem t9_p21_eq : t9_p21 (F := F) = (Pipeline.chainK
  [ seq c30_6 ]
  (t9_p22 (F := F)) : Prog (TpuEff nD τ sig (Elt F) (Pipeline.Sig Λ₀ (Fin 0) fun p => (pcfgs (F := F) p).Adm) .tc) PUnit) := by
  chain_rfl

theorem t9_p22_eq : t9_p22 (F := F) = (Pipeline.chainK
  [  ]
  (seq c30_7) : Prog (TpuEff nD τ sig (Elt F) (Pipeline.Sig Λ₀ (Fin 0) fun p => (pcfgs (F := F) p).Adm) .tc) PUnit) := by
  chain_rfl

theorem main_part9_eq (d : Dev nD) : main_part9 (F := F) d = (seq w9 : Prog (TpuEff nD τ sig (Elt F) (Pipeline.Sig Λ₀ (Fin 0) fun p => (pcfgs (F := F) p).Adm) .tc) PUnit) := by
  rw [main_part9_chain d, t9_p1_eq, t9_p2_eq, t9_p3_eq, t9_p4_eq, t9_p5_eq, t9_p6_eq, t9_p7_eq, t9_p8_eq, t9_p9_eq, t9_p10_eq, t9_p11_eq, t9_p12_eq, t9_p13_eq, t9_p14_eq, t9_p15_eq, t9_p16_eq, t9_p17_eq, t9_p18_eq, t9_p19_eq, t9_p20_eq, t9_p21_eq, t9_p22_eq]
  simp only [w9, c28, c29, c30, Pipeline.chainK, seq_append, bind_assoc]

end Cert.ReferenceIdeal.RefRunGen

end
-- ==== Proof.RefRunGen.P10.lean ====
import proofs.«416765_j9792525435349_4_alg».proof.Proof.RefRunGen.Ok
import Idealize.ShloMosaic.Lib.Pipeline.Regions

noncomputable section

namespace Cert.ReferenceIdeal.RefRunGen

open Cert.ReferenceIdeal Cert.ReferenceIdeal.Gen Idealize.ShloMosaic Idealize.ShloMosaic.TcCoe Idealize.SL.Sem Idealize.ShloMosaic.StableHlo

variable {F : FTy → Type} [FloatOps F]

abbrev c31_0 : List (HloOp τ sig (Elt F)) :=
  [ nullary main_c_158 (constantI S_ 32 0#32),
    unary main_c_158 main_v440 (broadcastInDim S128x2048 ![] bcast_S_S128x2048 : (⟨S_, .i32⟩ : BufTy).Contents (Elt F) → (⟨S128x2048, .i32⟩ : BufTy).Contents (Elt F)),
    binary main_v431 main_v440 main_v441 (cmpi .sge : (⟨S128x2048, .i32⟩ : BufTy).Contents (Elt F) → (⟨S128x2048, .i32⟩ : BufTy).Contents (Elt F) → (⟨S128x2048, .i1⟩ : BufTy).Contents (Elt F)) ]

theorem c31_0_ok : Ok (F := F) c31_0 :=
  ⟨⟨nullary_bufs_sub .., rfl⟩, ⟨unary_bufs_sub .., rfl⟩, ⟨binary_bufs_sub .., rfl⟩⟩

abbrev c31_1 : List (HloOp τ sig (Elt F)) :=
  [ binary main_v439 main_v441 main_v442 (andi : (⟨S128x2048, .i1⟩ : BufTy).Contents (Elt F) → (⟨S128x2048, .i1⟩ : BufTy).Contents (Elt F) → (⟨S128x2048, .i1⟩ : BufTy).Contents (Elt F)),
    nullary main_c_159 (constantI S_ 32 16#32),
    unary main_c_159 main_v443 (broadcastInDim S128x2048 ![] bcast_S_S128x2048 : (⟨S_, .i32⟩ : BufTy).Contents (Elt F) → (⟨S128x2048, .i32⟩ : BufTy).Contents (Elt F)) ]

theorem c31_1_ok : Ok (F := F) c31_1 :=
  ⟨⟨binary_bufs_sub .., rfl⟩, ⟨nullary_bufs_sub .., rfl⟩, ⟨unary_bufs_sub .., rfl⟩⟩

abbrev c31_2 : List (HloOp τ sig (Elt F)) :=
  [ binary main_v431 main_v443 main_v444 (cmpi .slt : (⟨S128x2048, .i32⟩ : BufTy).Contents (Elt F) → (⟨S128x2048, .i32⟩ : BufTy).Contents (Elt F) → (⟨S128x2048, .i1⟩ : BufTy).Contents (Elt F)),
    binary main_v442 main_v444 main_v445 (andi : (⟨S128x2048, .i1⟩ : BufTy).Contents (Elt F) → (⟨S128x2048, .i1⟩ : BufTy).Contents (Elt F) → (⟨S128x2048, .i1⟩ : BufTy).Contents (Elt F)),
    unary main_v445 main_v446 (uitofp .f32 : (⟨S128x2048, .i1⟩ : BufTy).Contents (Elt F) → (⟨S128x2048, .f32⟩ : BufTy).Contents (Elt F)) ]

theorem c31_2_ok : Ok (F := F) c31_2 :=
  ⟨⟨binary_bufs_sub .., rfl⟩, ⟨binary_bufs_sub .., rfl⟩, ⟨unary_bufs_sub .., rfl⟩⟩

abbrev c31_3 : List (HloOp τ sig (Elt F)) :=
  [ nullary main_c_160 (constantI S_ 32 0#32),
    nullary main_c_161 (constantI S_ 32 15#32) ]

theorem c31_3_ok : Ok (F := F) c31_3 :=
  ⟨⟨nullary_bufs_sub .., rfl⟩, ⟨nullary_bufs_sub .., rfl⟩⟩

abbrev c31_4 : List (HloOp τ sig (Elt F)) :=
  [ TRef.unary (TRef.of (T := ⟨S_, .i32⟩) main_c_160) (TRef.of (T := ⟨S_, .i32⟩) main_call19_v0) id,
    TRef.unary (TRef.of (T := ⟨S_, .i32⟩) main_call19_v0) (TRef.of (T := ⟨S128x2048, .i32⟩) main_call19_v1) (broadcastInDim S128x2048 ![] bcast_S_S128x2048),
    TRef.binary (TRef.of (T := ⟨S128x2048, .i32⟩) main_call19_v1) (TRef.of (T := ⟨S128x2048, .i32⟩) main_v392) (TRef.of (T := ⟨S128x2048, .i32⟩) main_call19_v2) maxsi,
    TRef.unary (TRef.of (T := ⟨S_, .i32⟩) main_c_161) (TRef.of (T := ⟨S_, .i32⟩) main_call19_v3) id,
    TRef.unary (TRef.of (T := ⟨S_, .i32⟩) main_call19_v3) (TRef.of (T := ⟨S128x2048, .i32⟩) main_call19_v4) (broadcastInDim S128x2048 ![] bcast_S_S128x2048),
    TRef.binary (TRef.of (T := ⟨S128x2048, .i32⟩) main_call19_v4) (TRef.of (T := ⟨S128x2048, .i32⟩) main_call19_v2) (TRef.of (T := ⟨S128x2048, .i32⟩) main_v447) minsi ]

theorem c31_4_ok : Ok (F := F) c31_4 :=
  ⟨⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩⟩

abbrev c31_5 : List (HloOp τ sig (Elt F)) :=
  [ nullary main_c_162 (constantI S_ 32 0#32),
    nullary main_c_163 (constantI S_ 32 15#32) ]

theorem c31_5_ok : Ok (F := F) c31_5 :=
  ⟨⟨nullary_bufs_sub .., rfl⟩, ⟨nullary_bufs_sub .., rfl⟩⟩

abbrev c31_6 : List (HloOp τ sig (Elt F)) :=
  [ TRef.unary (TRef.of (T := ⟨S_, .i32⟩) main_c_162) (TRef.of (T := ⟨S_, .i32⟩) main_call20_v0) id,
    TRef.unary (TRef.of (T := ⟨S_, .i32⟩) main_call20_v0) (TRef.of (T := ⟨S128x2048, .i32⟩) main_call20_v1) (broadcastInDim S128x2048 ![] bcast_S_S128x2048),
    TRef.binary (TRef.of (T := ⟨S128x2048, .i32⟩) main_call20_v1) (TRef.of (T := ⟨S128x2048, .i32⟩) main_v431) (TRef.of (T := ⟨S128x2048, .i32⟩) main_call20_v2) maxsi,
    TRef.unary (TRef.of (T := ⟨S_, .i32⟩) main_c_163) (TRef.of (T := ⟨S_, .i32⟩) main_call20_v3) id,
    TRef.unary (TRef.of (T := ⟨S_, .i32⟩) main_call20_v3) (TRef.of (T := ⟨S128x2048, .i32⟩) main_call20_v4) (broadcastInDim S128x2048 ![] bcast_S_S128x2048),
    TRef.binary (TRef.of (T := ⟨S128x2048, .i32⟩) main_call20_v4) (TRef.of (T := ⟨S128x2048, .i32⟩) main_call20_v2) (TRef.of (T := ⟨S128x2048, .i32⟩) main_v448) minsi ]

theorem c31_6_ok : Ok (F := F) c31_6 :=
  ⟨⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩⟩

abbrev c32_0 : List (HloOp τ sig (Elt F)) :=
  [ nullary main_c_164 (constantI S_ 32 0#32),
    unary main_c_164 main_v449 (broadcastInDim S128x2048 ![] bcast_S_S128x2048 : (⟨S_, .i32⟩ : BufTy).Contents (Elt F) → (⟨S128x2048, .i32⟩ : BufTy).Contents (Elt F)),
    binary main_v447 main_v449 main_v450 (cmpi .slt : (⟨S128x2048, .i32⟩ : BufTy).Contents (Elt F) → (⟨S128x2048, .i32⟩ : BufTy).Contents (Elt F) → (⟨S128x2048, .i1⟩ : BufTy).Contents (Elt F)) ]

theorem c32_0_ok : Ok (F := F) c32_0 :=
  ⟨⟨nullary_bufs_sub .., rfl⟩, ⟨unary_bufs_sub .., rfl⟩, ⟨binary_bufs_sub .., rfl⟩⟩

abbrev c32_1 : List (HloOp τ sig (Elt F)) :=
  [ nullary main_c_165 (constantI S_ 32 16#32),
    unary main_c_165 main_v451 (broadcastInDim S128x2048 ![] bcast_S_S128x2048 : (⟨S_, .i32⟩ : BufTy).Contents (Elt F) → (⟨S128x2048, .i32⟩ : BufTy).Contents (Elt F)),
    binary main_v447 main_v451 main_v452 (addi : (⟨S128x2048, .i32⟩ : BufTy).Contents (Elt F) → (⟨S128x2048, .i32⟩ : BufTy).Contents (Elt F) → (⟨S128x2048, .i32⟩ : BufTy).Contents (Elt F)) ]

theorem c32_1_ok : Ok (F := F) c32_1 :=
  ⟨⟨nullary_bufs_sub .., rfl⟩, ⟨unary_bufs_sub .., rfl⟩, ⟨binary_bufs_sub .., rfl⟩⟩

abbrev c32_2 : List (HloOp τ sig (Elt F)) :=
  [ ternary main_v450 main_v452 main_v447 main_v453 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F)),
    nullary main_c_166 (constantI S_ 32 0#32),
    unary main_c_166 main_v454 (broadcastInDim S128x2048 ![] bcast_S_S128x2048 : (⟨S_, .i32⟩ : BufTy).Contents (Elt F) → (⟨S128x2048, .i32⟩ : BufTy).Contents (Elt F)) ]

theorem c32_2_ok : Ok (F := F) c32_2 :=
  ⟨⟨ternary_bufs_sub .., rfl⟩, ⟨nullary_bufs_sub .., rfl⟩, ⟨unary_bufs_sub .., rfl⟩⟩

abbrev c32_3 : List (HloOp τ sig (Elt F)) :=
  [ binary main_v448 main_v454 main_v455 (cmpi .slt : (⟨S128x2048, .i32⟩ : BufTy).Contents (Elt F) → (⟨S128x2048, .i32⟩ : BufTy).Contents (Elt F) → (⟨S128x2048, .i1⟩ : BufTy).Contents (Elt F)),
    nullary main_c_167 (constantI S_ 32 16#32),
    unary main_c_167 main_v456 (broadcastInDim S128x2048 ![] bcast_S_S128x2048 : (⟨S_, .i32⟩ : BufTy).Contents (Elt F) → (⟨S128x2048, .i32⟩ : BufTy).Contents (Elt F)) ]

theorem c32_3_ok : Ok (F := F) c32_3 :=
  ⟨⟨binary_bufs_sub .., rfl⟩, ⟨nullary_bufs_sub .., rfl⟩, ⟨unary_bufs_sub .., rfl⟩⟩

abbrev c32_4 : List (HloOp τ sig (Elt F)) :=
  [ binary main_v448 main_v456 main_v457 (addi : (⟨S128x2048, .i32⟩ : BufTy).Contents (Elt F) → (⟨S128x2048, .i32⟩ : BufTy).Contents (Elt F) → (⟨S128x2048, .i32⟩ : BufTy).Contents (Elt F)),
    ternary main_v455 main_v457 main_v448 main_v458 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F)),
    unary main_v453 main_v459 (broadcastInDim S128x2048x1 ![0, 1] bcast_S128x2048_S128x2048x1_0_1 : (⟨S128x2048, .i32⟩ : BufTy).Contents (Elt F) → (⟨S128x2048x1, .i32⟩ : BufTy).Contents (Elt F)) ]

theorem c32_4_ok : Ok (F := F) c32_4 :=
  ⟨⟨binary_bufs_sub .., rfl⟩, ⟨ternary_bufs_sub .., rfl⟩, ⟨unary_bufs_sub .., rfl⟩⟩

abbrev c32_5 : List (HloOp τ sig (Elt F)) :=
  [ unary main_v458 main_v460 (broadcastInDim S128x2048x1 ![0, 1] bcast_S128x2048_S128x2048x1_0_1 : (⟨S128x2048, .i32⟩ : BufTy).Contents (Elt F) → (⟨S128x2048x1, .i32⟩ : BufTy).Contents (Elt F)),
    binary main_v459 main_v460 main_v461 ((fun a b => concatenate S128x2048x2 2 [⟨S128x2048x1, a⟩, ⟨S128x2048x1, b⟩] concatenates_S128x2048x1_S128x2048x1_S128x2048x2_d2) : (⟨S128x2048x1, .i32⟩ : BufTy).Contents (Elt F) → (⟨S128x2048x1, .i32⟩ : BufTy).Contents (Elt F) → (⟨S128x2048x2, .i32⟩ : BufTy).Contents (Elt F)),
    binary main_v366 main_v461 main_v462 ((fun x i => Host.gather gather_S128x64x16x16_S128x2048x2_S128x64x2048_1_23_0_0_23_2_16411 x i) : (⟨S128x64x16x16, .f32⟩ : BufTy).Contents (Elt F) → (⟨S128x2048x2, .i32⟩ : BufTy).Contents (Elt F) → (⟨S128x64x2048, .f32⟩ : BufTy).Contents (Elt F)) ]

theorem c32_5_ok : Ok (F := F) c32_5 :=
  ⟨⟨unary_bufs_sub .., rfl⟩, ⟨binary_bufs_sub .., rfl⟩, ⟨binary_bufs_sub .., rfl⟩⟩

abbrev c32_6 : List (HloOp τ sig (Elt F)) :=
  [ binary main_v434 main_v446 main_v463 (mulf : (⟨S128x2048, .f32⟩ : BufTy).Contents (Elt F) → (⟨S128x2048, .f32⟩ : BufTy).Contents (Elt F) → (⟨S128x2048, .f32⟩ : BufTy).Contents (Elt F)),
    unary main_v463 main_v464 (broadcastInDim S128x1x2048 ![0, 2] bcast_S128x2048_S128x1x2048_0_2 : (⟨S128x2048, .f32⟩ : BufTy).Contents (Elt F) → (⟨S128x1x2048, .f32⟩ : BufTy).Contents (Elt F)),
    unary main_v464 main_v465 (broadcastInDim S128x64x2048 ![0, 1, 2] bcast_S128x1x2048_S128x64x2048_0_1_2 : (⟨S128x1x2048, .f32⟩ : BufTy).Contents (Elt F) → (⟨S128x64x2048, .f32⟩ : BufTy).Contents (Elt F)) ]

theorem c32_6_ok : Ok (F := F) c32_6 :=
  ⟨⟨binary_bufs_sub .., rfl⟩, ⟨unary_bufs_sub .., rfl⟩, ⟨unary_bufs_sub .., rfl⟩⟩

abbrev c32_7 : List (HloOp τ sig (Elt F)) :=
  [ binary main_v462 main_v465 main_v466 (mulf : (⟨S128x64x2048, .f32⟩ : BufTy).Contents (Elt F) → (⟨S128x64x2048, .f32⟩ : BufTy).Contents (Elt F) → (⟨S128x64x2048, .f32⟩ : BufTy).Contents (Elt F)) ]

theorem c32_7_ok : Ok (F := F) c32_7 :=
  ⟨binary_bufs_sub .., rfl⟩

abbrev c33_0 : List (HloOp τ sig (Elt F)) :=
  [ binary main_v429 main_v466 main_v467 (addf : (⟨S128x64x2048, .f32⟩ : BufTy).Contents (Elt F) → (⟨S128x64x2048, .f32⟩ : BufTy).Contents (Elt F) → (⟨S128x64x2048, .f32⟩ : BufTy).Contents (Elt F)),
    nullary main_c_168 (constantI S_ 32 1#32),
    unary main_c_168 main_v468 (broadcastInDim S128x2048 ![] bcast_S_S128x2048 : (⟨S_, .i32⟩ : BufTy).Contents (Elt F) → (⟨S128x2048, .i32⟩ : BufTy).Contents (Elt F)) ]

theorem c33_0_ok : Ok (F := F) c33_0 :=
  ⟨⟨binary_bufs_sub .., rfl⟩, ⟨nullary_bufs_sub .., rfl⟩, ⟨unary_bufs_sub .., rfl⟩⟩

abbrev c33_1 : List (HloOp τ sig (Elt F)) :=
  [ binary main_v392 main_v468 main_v469 (addi : (⟨S128x2048, .i32⟩ : BufTy).Contents (Elt F) → (⟨S128x2048, .i32⟩ : BufTy).Contents (Elt F) → (⟨S128x2048, .i32⟩ : BufTy).Contents (Elt F)),
    nullary main_cst_169 (constant S_ .f32 0x3F800000#32),
    unary main_cst_169 main_v470 (broadcastInDim S128x2048 ![] bcast_S_S128x2048 : (⟨S_, .f32⟩ : BufTy).Contents (Elt F) → (⟨S128x2048, .f32⟩ : BufTy).Contents (Elt F)) ]

theorem c33_1_ok : Ok (F := F) c33_1 :=
  ⟨⟨binary_bufs_sub .., rfl⟩, ⟨nullary_bufs_sub .., rfl⟩, ⟨unary_bufs_sub .., rfl⟩⟩

abbrev c33_2 : List (HloOp τ sig (Elt F)) :=
  [ binary main_v470 main_v389 main_v471 (subf : (⟨S128x2048, .f32⟩ : BufTy).Contents (Elt F) → (⟨S128x2048, .f32⟩ : BufTy).Contents (Elt F) → (⟨S128x2048, .f32⟩ : BufTy).Contents (Elt F)),
    binary main_v390 main_v471 main_v472 (mulf : (⟨S128x2048, .f32⟩ : BufTy).Contents (Elt F) → (⟨S128x2048, .f32⟩ : BufTy).Contents (Elt F) → (⟨S128x2048, .f32⟩ : BufTy).Contents (Elt F)),
    nullary main_c_170 (constantI S_ 32 0#32) ]

theorem c33_2_ok : Ok (F := F) c33_2 :=
  ⟨⟨binary_bufs_sub .., rfl⟩, ⟨binary_bufs_sub .., rfl⟩, ⟨nullary_bufs_sub .., rfl⟩⟩

abbrev c33_3 : List (HloOp τ sig (Elt F)) :=
  [ unary main_c_170 main_v473 (broadcastInDim S128x2048 ![] bcast_S_S128x2048 : (⟨S_, .i32⟩ : BufTy).Contents (Elt F) → (⟨S128x2048, .i32⟩ : BufTy).Contents (Elt F)),
    binary main_v469 main_v473 main_v474 (cmpi .sge : (⟨S128x2048, .i32⟩ : BufTy).Contents (Elt F) → (⟨S128x2048, .i32⟩ : BufTy).Contents (Elt F) → (⟨S128x2048, .i1⟩ : BufTy).Contents (Elt F)),
    nullary main_c_171 (constantI S_ 32 16#32) ]

theorem c33_3_ok : Ok (F := F) c33_3 :=
  ⟨⟨unary_bufs_sub .., rfl⟩, ⟨binary_bufs_sub .., rfl⟩, ⟨nullary_bufs_sub .., rfl⟩⟩

abbrev c33_4 : List (HloOp τ sig (Elt F)) :=
  [ unary main_c_171 main_v475 (broadcastInDim S128x2048 ![] bcast_S_S128x2048 : (⟨S_, .i32⟩ : BufTy).Contents (Elt F) → (⟨S128x2048, .i32⟩ : BufTy).Contents (Elt F)),
    binary main_v469 main_v475 main_v476 (cmpi .slt : (⟨S128x2048, .i32⟩ : BufTy).Contents (Elt F) → (⟨S128x2048, .i32⟩ : BufTy).Contents (Elt F) → (⟨S128x2048, .i1⟩ : BufTy).Contents (Elt F)),
    binary main_v474 main_v476 main_v477 (andi : (⟨S128x2048, .i1⟩ : BufTy).Contents (Elt F) → (⟨S128x2048, .i1⟩ : BufTy).Contents (Elt F) → (⟨S128x2048, .i1⟩ : BufTy).Contents (Elt F)) ]

theorem c33_4_ok : Ok (F := F) c33_4 :=
  ⟨⟨unary_bufs_sub .., rfl⟩, ⟨binary_bufs_sub .., rfl⟩, ⟨binary_bufs_sub .., rfl⟩⟩

abbrev c33_5 : List (HloOp τ sig (Elt F)) :=
  [ nullary main_c_172 (constantI S_ 32 0#32),
    unary main_c_172 main_v478 (broadcastInDim S128x2048 ![] bcast_S_S128x2048 : (⟨S_, .i32⟩ : BufTy).Contents (Elt F) → (⟨S128x2048, .i32⟩ : BufTy).Contents (Elt F)),
    binary main_v391 main_v478 main_v479 (cmpi .sge : (⟨S128x2048, .i32⟩ : BufTy).Contents (Elt F) → (⟨S128x2048, .i32⟩ : BufTy).Contents (Elt F) → (⟨S128x2048, .i1⟩ : BufTy).Contents (Elt F)) ]

theorem c33_5_ok : Ok (F := F) c33_5 :=
  ⟨⟨nullary_bufs_sub .., rfl⟩, ⟨unary_bufs_sub .., rfl⟩, ⟨binary_bufs_sub .., rfl⟩⟩

abbrev c33_6 : List (HloOp τ sig (Elt F)) :=
  [ binary main_v477 main_v479 main_v480 (andi : (⟨S128x2048, .i1⟩ : BufTy).Contents (Elt F) → (⟨S128x2048, .i1⟩ : BufTy).Contents (Elt F) → (⟨S128x2048, .i1⟩ : BufTy).Contents (Elt F)),
    nullary main_c_173 (constantI S_ 32 16#32),
    unary main_c_173 main_v481 (broadcastInDim S128x2048 ![] bcast_S_S128x2048 : (⟨S_, .i32⟩ : BufTy).Contents (Elt F) → (⟨S128x2048, .i32⟩ : BufTy).Contents (Elt F)) ]

theorem c33_6_ok : Ok (F := F) c33_6 :=
  ⟨⟨binary_bufs_sub .., rfl⟩, ⟨nullary_bufs_sub .., rfl⟩, ⟨unary_bufs_sub .., rfl⟩⟩

abbrev c33_7 : List (HloOp τ sig (Elt F)) :=
  [ binary main_v391 main_v481 main_v482 (cmpi .slt : (⟨S128x2048, .i32⟩ : BufTy).Contents (Elt F) → (⟨S128x2048, .i32⟩ : BufTy).Contents (Elt F) → (⟨S128x2048, .i1⟩ : BufTy).Contents (Elt F)),
    binary main_v480 main_v482 main_v483 (andi : (⟨S128x2048, .i1⟩ : BufTy).Contents (Elt F) → (⟨S128x2048, .i1⟩ : BufTy).Contents (Elt F) → (⟨S128x2048, .i1⟩ : BufTy).Contents (Elt F)) ]

theorem c33_7_ok : Ok (F := F) c33_7 :=
  ⟨⟨binary_bufs_sub .., rfl⟩, ⟨binary_bufs_sub .., rfl⟩⟩

def c31 : List (HloOp τ sig (Elt F)) := c31_0 ++ (c31_1 ++ (c31_2 ++ (c31_3 ++ (c31_4 ++ (c31_5 ++ (c31_6))))))

theorem c31_ok : Ok (F := F) c31 := c31_0_ok.append (c31_1_ok.append (c31_2_ok.append (c31_3_ok.append (c31_4_ok.append (c31_5_ok.append (c31_6_ok))))))

def c32 : List (HloOp τ sig (Elt F)) := c32_0 ++ (c32_1 ++ (c32_2 ++ (c32_3 ++ (c32_4 ++ (c32_5 ++ (c32_6 ++ (c32_7)))))))

theorem c32_ok : Ok (F := F) c32 := c32_0_ok.append (c32_1_ok.append (c32_2_ok.append (c32_3_ok.append (c32_4_ok.append (c32_5_ok.append (c32_6_ok.append (c32_7_ok)))))))

def c33 : List (HloOp τ sig (Elt F)) := c33_0 ++ (c33_1 ++ (c33_2 ++ (c33_3 ++ (c33_4 ++ (c33_5 ++ (c33_6 ++ (c33_7)))))))

theorem c33_ok : Ok (F := F) c33 := c33_0_ok.append (c33_1_ok.append (c33_2_ok.append (c33_3_ok.append (c33_4_ok.append (c33_5_ok.append (c33_6_ok.append (c33_7_ok)))))))

def w10 : List (HloOp τ sig (Elt F)) := c31 ++ (c32 ++ (c33))

theorem w10_ok : Ok (F := F) w10 := c31_ok.append (c32_ok.append (c33_ok))

noncomputable def t10_p22 : Prog (TpuEff nD τ sig (Elt F) (Pipeline.Sig Λ₀ (Fin 0) fun p => (pcfgs (F := F) p).Adm) .tc) PUnit := do
  hlo rfl (StableHlo.binary main_v391 main_v481 main_v482 (cmpi .slt : (⟨S128x2048, .i32⟩ : BufTy).Contents (Elt F) → (⟨S128x2048, .i32⟩ : BufTy).Contents (Elt F) → (⟨S128x2048, .i1⟩ : BufTy).Contents (Elt F))) (fun _ => .ret ⟨⟩)
  hlo rfl (StableHlo.binary main_v480 main_v482 main_v483 (andi : (⟨S128x2048, .i1⟩ : BufTy).Contents (Elt F) → (⟨S128x2048, .i1⟩ : BufTy).Contents (Elt F) → (⟨S128x2048, .i1⟩ : BufTy).Contents (Elt F))) (fun _ => .ret ⟨⟩)

noncomputable def t10_p21 : Prog (TpuEff nD τ sig (Elt F) (Pipeline.Sig Λ₀ (Fin 0) fun p => (pcfgs (F := F) p).Adm) .tc) PUnit := do
  hlo rfl (StableHlo.binary main_v477 main_v479 main_v480 (andi : (⟨S128x2048, .i1⟩ : BufTy).Contents (Elt F) → (⟨S128x2048, .i1⟩ : BufTy).Contents (Elt F) → (⟨S128x2048, .i1⟩ : BufTy).Contents (Elt F))) (fun _ => .ret ⟨⟩)
  hlo rfl (StableHlo.nullary main_c_173 (constantI S_ 32 16#32)) (fun _ => .ret ⟨⟩)
  hlo rfl (StableHlo.unary main_c_173 main_v481 (broadcastInDim S128x2048 ![] bcast_S_S128x2048 : (⟨S_, .i32⟩ : BufTy).Contents (Elt F) → (⟨S128x2048, .i32⟩ : BufTy).Contents (Elt F))) (fun _ => .ret ⟨⟩)
  t10_p22 (F := F)

noncomputable def t10_p20 : Prog (TpuEff nD τ sig (Elt F) (Pipeline.Sig Λ₀ (Fin 0) fun p => (pcfgs (F := F) p).Adm) .tc) PUnit := do
  hlo rfl (StableHlo.nullary main_c_172 (constantI S_ 32 0#32)) (fun _ => .ret ⟨⟩)
  hlo rfl (StableHlo.unary main_c_172 main_v478 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v391 main_v478 main_v479 (cmpi .sge : (⟨S128x2048, .i32⟩ : BufTy).Contents (Elt F) → (⟨S128x2048, .i32⟩ : BufTy).Contents (Elt F) → (⟨S128x2048, .i1⟩ : BufTy).Contents (Elt F))) (fun _ => .ret ⟨⟩)
  t10_p21 (F := F)

noncomputable def t10_p19 : Prog (TpuEff nD τ sig (Elt F) (Pipeline.Sig Λ₀ (Fin 0) fun p => (pcfgs (F := F) p).Adm) .tc) PUnit := do
  hlo rfl (StableHlo.unary main_c_171 main_v475 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v469 main_v475 main_v476 (cmpi .slt : (⟨S128x2048, .i32⟩ : BufTy).Contents (Elt F) → (⟨S128x2048, .i32⟩ : BufTy).Contents (Elt F) → (⟨S128x2048, .i1⟩ : BufTy).Contents (Elt F))) (fun _ => .ret ⟨⟩)
  hlo rfl (StableHlo.binary main_v474 main_v476 main_v477 (andi : (⟨S128x2048, .i1⟩ : BufTy).Contents (Elt F) → (⟨S128x2048, .i1⟩ : BufTy).Contents (Elt F) → (⟨S128x2048, .i1⟩ : BufTy).Contents (Elt F))) (fun _ => .ret ⟨⟩)
  t10_p20 (F := F)

noncomputable def t10_p18 : Prog (TpuEff nD τ sig (Elt F) (Pipeline.Sig Λ₀ (Fin 0) fun p => (pcfgs (F := F) p).Adm) .tc) PUnit := do
  hlo rfl (StableHlo.unary main_c_170 main_v473 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v469 main_v473 main_v474 (cmpi .sge : (⟨S128x2048, .i32⟩ : BufTy).Contents (Elt F) → (⟨S128x2048, .i32⟩ : BufTy).Contents (Elt F) → (⟨S128x2048, .i1⟩ : BufTy).Contents (Elt F))) (fun _ => .ret ⟨⟩)
  hlo rfl (StableHlo.nullary main_c_171 (constantI S_ 32 16#32)) (fun _ => .ret ⟨⟩)
  t10_p19 (F := F)

noncomputable def t10_p17 : Prog (TpuEff nD τ sig (Elt F) (Pipeline.Sig Λ₀ (Fin 0) fun p => (pcfgs (F := F) p).Adm) .tc) PUnit := do
  hlo rfl (StableHlo.binary main_v470 main_v389 main_v471 (subf : (⟨S128x2048, .f32⟩ : BufTy).Contents (Elt F) → (⟨S128x2048, .f32⟩ : BufTy).Contents (Elt F) → (⟨S128x2048, .f32⟩ : BufTy).Contents (Elt F))) (fun _ => .ret ⟨⟩)
  hlo rfl (StableHlo.binary main_v390 main_v471 main_v472 (mulf : (⟨S128x2048, .f32⟩ : BufTy).Contents (Elt F) → (⟨S128x2048, .f32⟩ : BufTy).Contents (Elt F) → (⟨S128x2048, .f32⟩ : BufTy).Contents (Elt F))) (fun _ => .ret ⟨⟩)
  hlo rfl (StableHlo.nullary main_c_170 (constantI S_ 32 0#32)) (fun _ => .ret ⟨⟩)
  t10_p18 (F := F)

noncomputable def t10_p16 : Prog (TpuEff nD τ sig (Elt F) (Pipeline.Sig Λ₀ (Fin 0) fun p => (pcfgs (F := F) p).Adm) .tc) PUnit := do
  hlo rfl (StableHlo.binary main_v392 main_v468 main_v469 (addi : (⟨S128x2048, .i32⟩ : BufTy).Contents (Elt F) → (⟨S128x2048, .i32⟩ : BufTy).Contents (Elt F) → (⟨S128x2048, .i32⟩ : BufTy).Contents (Elt F))) (fun _ => .ret ⟨⟩)
  hlo rfl (StableHlo.nullary main_cst_169 (constant S_ .f32 0x3F800000#32)) (fun _ => .ret ⟨⟩)
  hlo rfl (StableHlo.unary main_cst_169 main_v470 (broadcastInDim S128x2048 ![] bcast_S_S128x2048 : (⟨S_, .f32⟩ : BufTy).Contents (Elt F) → (⟨S128x2048, .f32⟩ : BufTy).Contents (Elt F))) (fun _ => .ret ⟨⟩)
  t10_p17 (F := F)

noncomputable def t10_p15 : Prog (TpuEff nD τ sig (Elt F) (Pipeline.Sig Λ₀ (Fin 0) fun p => (pcfgs (F := F) p).Adm) .tc) PUnit := do
  hlo rfl (StableHlo.binary main_v429 main_v466 main_v467 (addf : (⟨S128x64x2048, .f32⟩ : BufTy).Contents (Elt F) → (⟨S128x64x2048, .f32⟩ : BufTy).Contents (Elt F) → (⟨S128x64x2048, .f32⟩ : BufTy).Contents (Elt F))) (fun _ => .ret ⟨⟩)
  hlo rfl (StableHlo.nullary main_c_168 (constantI S_ 32 1#32)) (fun _ => .ret ⟨⟩)
  hlo rfl (StableHlo.unary main_c_168 main_v468 (broadcastInDim S128x2048 ![] bcast_S_S128x2048 : (⟨S_, .i32⟩ : BufTy).Contents (Elt F) → (⟨S128x2048, .i32⟩ : BufTy).Contents (Elt F))) (fun _ => .ret ⟨⟩)
  t10_p16 (F := F)

noncomputable def t10_p14 : Prog (TpuEff nD τ sig (Elt F) (Pipeline.Sig Λ₀ (Fin 0) fun p => (pcfgs (F := F) p).Adm) .tc) PUnit := do
  hlo rfl (StableHlo.binary main_v462 main_v465 main_v466 (mulf : (⟨S128x64x2048, .f32⟩ : BufTy).Contents (Elt F) → (⟨S128x64x2048, .f32⟩ : BufTy).Contents (Elt F) → (⟨S128x64x2048, .f32⟩ : BufTy).Contents (Elt F))) (fun _ => .ret ⟨⟩)
  t10_p15 (F := F)

noncomputable def t10_p13 : Prog (TpuEff nD τ sig (Elt F) (Pipeline.Sig Λ₀ (Fin 0) fun p => (pcfgs (F := F) p).Adm) .tc) PUnit := do
  hlo rfl (StableHlo.binary main_v434 main_v446 main_v463 (mulf : (⟨S128x2048, .f32⟩ : BufTy).Contents (Elt F) → (⟨S128x2048, .f32⟩ : BufTy).Contents (Elt F) → (⟨S128x2048, .f32⟩ : BufTy).Contents (Elt F))) (fun _ => .ret ⟨⟩)
  hlo rfl (StableHlo.unary main_v463 main_v464 (broadcastInDim S128x1x2048 ![0, 2] bcast_S128x2048_S128x1x2048_0_2 : (⟨S128x2048, .f32⟩ : BufTy).Contents (Elt F) → (⟨S128x1x2048, .f32⟩ : BufTy).Contents (Elt F))) (fun _ => .ret ⟨⟩)
  hlo rfl (StableHlo.unary main_v464 main_v465 (broadcastInDim S128x64x2048 ![0, 1, 2] bcast_S128x1x2048_S128x64x2048_0_1_2 : (⟨S128x1x2048, .f32⟩ : BufTy).Contents (Elt F) → (⟨S128x64x2048, .f32⟩ : BufTy).Contents (Elt F))) (fun _ => .ret ⟨⟩)
  t10_p14 (F := F)

noncomputable def t10_p12 : Prog (TpuEff nD τ sig (Elt F) (Pipeline.Sig Λ₀ (Fin 0) fun p => (pcfgs (F := F) p).Adm) .tc) PUnit := do
  hlo rfl (StableHlo.unary main_v458 main_v460 (broadcastInDim S128x2048x1 ![0, 1] bcast_S128x2048_S128x2048x1_0_1 : (⟨S128x2048, .i32⟩ : BufTy).Contents (Elt F) → (⟨S128x2048x1, .i32⟩ : BufTy).Contents (Elt F))) (fun _ => .ret ⟨⟩)
  hlo rfl (StableHlo.binary main_v459 main_v460 main_v461 ((fun a b => concatenate S128x2048x2 2 [⟨S128x2048x1, a⟩, ⟨S128x2048x1, b⟩] concatenates_S128x2048x1_S128x2048x1_S128x2048x2_d2) : (⟨S128x2048x1, .i32⟩ : BufTy).Contents (Elt F) → (⟨S128x2048x1, .i32⟩ : BufTy).Contents (Elt F) → (⟨S128x2048x2, .i32⟩ : BufTy).Contents (Elt F))) (fun _ => .ret ⟨⟩)
  hlo rfl (StableHlo.binary main_v366 main_v461 main_v462 ((fun x i => Host.gather gather_S128x64x16x16_S128x2048x2_S128x64x2048_1_23_0_0_23_2_16411 x i) : (⟨S128x64x16x16, .f32⟩ : BufTy).Contents (Elt F) → (⟨S128x2048x2, .i32⟩ : BufTy).Contents (Elt F) → (⟨S128x64x2048, .f32⟩ : BufTy).Contents (Elt F))) (fun _ => .ret ⟨⟩)
  t10_p13 (F := F)

noncomputable def t10_p11 : Prog (TpuEff nD τ sig (Elt F) (Pipeline.Sig Λ₀ (Fin 0) fun p => (pcfgs (F := F) p).Adm) .tc) PUnit := do
  hlo rfl (StableHlo.binary main_v448 main_v456 main_v457 (addi : (⟨S128x2048, .i32⟩ : BufTy).Contents (Elt F) → (⟨S128x2048, .i32⟩ : BufTy).Contents (Elt F) → (⟨S128x2048, .i32⟩ : BufTy).Contents (Elt F))) (fun _ => .ret ⟨⟩)
  hlo rfl (StableHlo.ternary main_v455 main_v457 main_v448 main_v458 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F))) (fun _ => .ret ⟨⟩)
  hlo rfl (StableHlo.unary main_v453 main_v459 (broadcastInDim S128x2048x1 ![0, 1] bcast_S128x2048_S128x2048x1_0_1 : (⟨S128x2048, .i32⟩ : BufTy).Contents (Elt F) → (⟨S128x2048x1, .i32⟩ : BufTy).Contents (Elt F))) (fun _ => .ret ⟨⟩)
  t10_p12 (F := F)

noncomputable def t10_p10 : Prog (TpuEff nD τ sig (Elt F) (Pipeline.Sig Λ₀ (Fin 0) fun p => (pcfgs (F := F) p).Adm) .tc) PUnit := do
  hlo rfl (StableHlo.binary main_v448 main_v454 main_v455 (cmpi .slt : (⟨S128x2048, .i32⟩ : BufTy).Contents (Elt F) → (⟨S128x2048, .i32⟩ : BufTy).Contents (Elt F) → (⟨S128x2048, .i1⟩ : BufTy).Contents (Elt F))) (fun _ => .ret ⟨⟩)
  hlo rfl (StableHlo.nullary main_c_167 (constantI S_ 32 16#32)) (fun _ => .ret ⟨⟩)
  hlo rfl (StableHlo.unary main_c_167 main_v456 (broadcastInDim S128x2048 ![] bcast_S_S128x2048 : (⟨S_, .i32⟩ : BufTy).Contents (Elt F) → (⟨S128x2048, .i32⟩ : BufTy).Contents (Elt F))) (fun _ => .ret ⟨⟩)
  t10_p11 (F := F)

noncomputable def t10_p9 : Prog (TpuEff nD τ sig (Elt F) (Pipeline.Sig Λ₀ (Fin 0) fun p => (pcfgs (F := F) p).Adm) .tc) PUnit := do
  hlo rfl (StableHlo.ternary main_v450 main_v452 main_v447 main_v453 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F))) (fun _ => .ret ⟨⟩)
  hlo rfl (StableHlo.nullary main_c_166 (constantI S_ 32 0#32)) (fun _ => .ret ⟨⟩)
  hlo rfl (StableHlo.unary main_c_166 main_v454 (broadcastInDim S128x2048 ![] bcast_S_S128x2048 : (⟨S_, .i32⟩ : BufTy).Contents (Elt F) → (⟨S128x2048, .i32⟩ : BufTy).Contents (Elt F))) (fun _ => .ret ⟨⟩)
  t10_p10 (F := F)

noncomputable def t10_p8 : Prog (TpuEff nD τ sig (Elt F) (Pipeline.Sig Λ₀ (Fin 0) fun p => (pcfgs (F := F) p).Adm) .tc) PUnit := do
  hlo rfl (StableHlo.nullary main_c_165 (constantI S_ 32 16#32)) (fun _ => .ret ⟨⟩)
  hlo rfl (StableHlo.unary main_c_165 main_v451 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v447 main_v451 main_v452 (addi : (⟨S128x2048, .i32⟩ : BufTy).Contents (Elt F) → (⟨S128x2048, .i32⟩ : BufTy).Contents (Elt F) → (⟨S128x2048, .i32⟩ : BufTy).Contents (Elt F))) (fun _ => .ret ⟨⟩)
  t10_p9 (F := F)

noncomputable def t10_p7 : Prog (TpuEff nD τ sig (Elt F) (Pipeline.Sig Λ₀ (Fin 0) fun p => (pcfgs (F := F) p).Adm) .tc) PUnit := do
  hlo rfl (StableHlo.nullary main_c_164 (constantI S_ 32 0#32)) (fun _ => .ret ⟨⟩)
  hlo rfl (StableHlo.unary main_c_164 main_v449 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v447 main_v449 main_v450 (cmpi .slt : (⟨S128x2048, .i32⟩ : BufTy).Contents (Elt F) → (⟨S128x2048, .i32⟩ : BufTy).Contents (Elt F) → (⟨S128x2048, .i1⟩ : BufTy).Contents (Elt F))) (fun _ => .ret ⟨⟩)
  t10_p8 (F := F)

noncomputable def t10_p6 : Prog (TpuEff nD τ sig (Elt F) (Pipeline.Sig Λ₀ (Fin 0) fun p => (pcfgs (F := F) p).Adm) .tc) PUnit := do
  fn_clip_0.body (.of main_v431) (.of main_c_162) (.of main_c_163) main_call20
  t10_p7 (F := F)

noncomputable def t10_p5 : Prog (TpuEff nD τ sig (Elt F) (Pipeline.Sig Λ₀ (Fin 0) fun p => (pcfgs (F := F) p).Adm) .tc) PUnit := do
  hlo rfl (StableHlo.nullary main_c_162 (constantI S_ 32 0#32)) (fun _ => .ret ⟨⟩)
  hlo rfl (StableHlo.nullary main_c_163 (constantI S_ 32 15#32)) (fun _ => .ret ⟨⟩)
  t10_p6 (F := F)

noncomputable def t10_p4 : Prog (TpuEff nD τ sig (Elt F) (Pipeline.Sig Λ₀ (Fin 0) fun p => (pcfgs (F := F) p).Adm) .tc) PUnit := do
  fn_clip_0.body (.of main_v392) (.of main_c_160) (.of main_c_161) main_call19
  t10_p5 (F := F)

noncomputable def t10_p3 : Prog (TpuEff nD τ sig (Elt F) (Pipeline.Sig Λ₀ (Fin 0) fun p => (pcfgs (F := F) p).Adm) .tc) PUnit := do
  hlo rfl (StableHlo.nullary main_c_160 (constantI S_ 32 0#32)) (fun _ => .ret ⟨⟩)
  hlo rfl (StableHlo.nullary main_c_161 (constantI S_ 32 15#32)) (fun _ => .ret ⟨⟩)
  t10_p4 (F := F)

noncomputable def t10_p2 : Prog (TpuEff nD τ sig (Elt F) (Pipeline.Sig Λ₀ (Fin 0) fun p => (pcfgs (F := F) p).Adm) .tc) PUnit := do
  hlo rfl (StableHlo.binary main_v431 main_v443 main_v444 (cmpi .slt : (⟨S128x2048, .i32⟩ : BufTy).Contents (Elt F) → (⟨S128x2048, .i32⟩ : BufTy).Contents (Elt F) → (⟨S128x2048, .i1⟩ : BufTy).Contents (Elt F))) (fun _ => .ret ⟨⟩)
  hlo rfl (StableHlo.binary main_v442 main_v444 main_v445 (andi : (⟨S128x2048, .i1⟩ : BufTy).Contents (Elt F) → (⟨S128x2048, .i1⟩ : BufTy).Contents (Elt F) → (⟨S128x2048, .i1⟩ : BufTy).Contents (Elt F))) (fun _ => .ret ⟨⟩)
  hlo rfl (StableHlo.unary main_v445 main_v446 (uitofp .f32 : (⟨S128x2048, .i1⟩ : BufTy).Contents (Elt F) → (⟨S128x2048, .f32⟩ : BufTy).Contents (Elt F))) (fun _ => .ret ⟨⟩)
  t10_p3 (F := F)

noncomputable def t10_p1 : Prog (TpuEff nD τ sig (Elt F) (Pipeline.Sig Λ₀ (Fin 0) fun p => (pcfgs (F := F) p).Adm) .tc) PUnit := do
  hlo rfl (StableHlo.binary main_v439 main_v441 main_v442 (andi : (⟨S128x2048, .i1⟩ : BufTy).Contents (Elt F) → (⟨S128x2048, .i1⟩ : BufTy).Contents (Elt F) → (⟨S128x2048, .i1⟩ : BufTy).Contents (Elt F))) (fun _ => .ret ⟨⟩)
  hlo rfl (StableHlo.nullary main_c_159 (constantI S_ 32 16#32)) (fun _ => .ret ⟨⟩)
  hlo rfl (StableHlo.unary main_c_159 main_v443 (broadcastInDim S128x2048 ![] bcast_S_S128x2048 : (⟨S_, .i32⟩ : BufTy).Contents (Elt F) → (⟨S128x2048, .i32⟩ : BufTy).Contents (Elt F))) (fun _ => .ret ⟨⟩)
  t10_p2 (F := F)

theorem main_part10_chain (d : Dev nD) : main_part10 (F := F) d = (Pipeline.chainK
  [ seq c31_0 ]
  (t10_p1 (F := F)) : Prog (TpuEff nD τ sig (Elt F) (Pipeline.Sig Λ₀ (Fin 0) fun p => (pcfgs (F := F) p).Adm) .tc) PUnit) := by
  chain_rfl

theorem t10_p1_eq : t10_p1 (F := F) = (Pipeline.chainK
  [ seq c31_1 ]
  (t10_p2 (F := F)) : Prog (TpuEff nD τ sig (Elt F) (Pipeline.Sig Λ₀ (Fin 0) fun p => (pcfgs (F := F) p).Adm) .tc) PUnit) := by
  chain_rfl

theorem t10_p2_eq : t10_p2 (F := F) = (Pipeline.chainK
  [ seq c31_2 ]
  (t10_p3 (F := F)) : Prog (TpuEff nD τ sig (Elt F) (Pipeline.Sig Λ₀ (Fin 0) fun p => (pcfgs (F := F) p).Adm) .tc) PUnit) := by
  chain_rfl

theorem t10_p3_eq : t10_p3 (F := F) = (Pipeline.chainK
  [ seq c31_3 ]
  (t10_p4 (F := F)) : Prog (TpuEff nD τ sig (Elt F) (Pipeline.Sig Λ₀ (Fin 0) fun p => (pcfgs (F := F) p).Adm) .tc) PUnit) := by
  chain_rfl

theorem t10_p4_eq : t10_p4 (F := F) = (Pipeline.chainK
  [ seq c31_4 ]
  (t10_p5 (F := F)) : Prog (TpuEff nD τ sig (Elt F) (Pipeline.Sig Λ₀ (Fin 0) fun p => (pcfgs (F := F) p).Adm) .tc) PUnit) := by
  chain_rfl

theorem t10_p5_eq : t10_p5 (F := F) = (Pipeline.chainK
  [ seq c31_5 ]
  (t10_p6 (F := F)) : Prog (TpuEff nD τ sig (Elt F) (Pipeline.Sig Λ₀ (Fin 0) fun p => (pcfgs (F := F) p).Adm) .tc) PUnit) := by
  chain_rfl

theorem t10_p6_eq : t10_p6 (F := F) = (Pipeline.chainK
  [ seq c31_6 ]
  (t10_p7 (F := F)) : Prog (TpuEff nD τ sig (Elt F) (Pipeline.Sig Λ₀ (Fin 0) fun p => (pcfgs (F := F) p).Adm) .tc) PUnit) := by
  chain_rfl

theorem t10_p7_eq : t10_p7 (F := F) = (Pipeline.chainK
  [ seq c32_0 ]
  (t10_p8 (F := F)) : Prog (TpuEff nD τ sig (Elt F) (Pipeline.Sig Λ₀ (Fin 0) fun p => (pcfgs (F := F) p).Adm) .tc) PUnit) := by
  chain_rfl

theorem t10_p8_eq : t10_p8 (F := F) = (Pipeline.chainK
  [ seq c32_1 ]
  (t10_p9 (F := F)) : Prog (TpuEff nD τ sig (Elt F) (Pipeline.Sig Λ₀ (Fin 0) fun p => (pcfgs (F := F) p).Adm) .tc) PUnit) := by
  chain_rfl

theorem t10_p9_eq : t10_p9 (F := F) = (Pipeline.chainK
  [ seq c32_2 ]
  (t10_p10 (F := F)) : Prog (TpuEff nD τ sig (Elt F) (Pipeline.Sig Λ₀ (Fin 0) fun p => (pcfgs (F := F) p).Adm) .tc) PUnit) := by
  chain_rfl

theorem t10_p10_eq : t10_p10 (F := F) = (Pipeline.chainK
  [ seq c32_3 ]
  (t10_p11 (F := F)) : Prog (TpuEff nD τ sig (Elt F) (Pipeline.Sig Λ₀ (Fin 0) fun p => (pcfgs (F := F) p).Adm) .tc) PUnit) := by
  chain_rfl

theorem t10_p11_eq : t10_p11 (F := F) = (Pipeline.chainK
  [ seq c32_4 ]
  (t10_p12 (F := F)) : Prog (TpuEff nD τ sig (Elt F) (Pipeline.Sig Λ₀ (Fin 0) fun p => (pcfgs (F := F) p).Adm) .tc) PUnit) := by
  chain_rfl

theorem t10_p12_eq : t10_p12 (F := F) = (Pipeline.chainK
  [ seq c32_5 ]
  (t10_p13 (F := F)) : Prog (TpuEff nD τ sig (Elt F) (Pipeline.Sig Λ₀ (Fin 0) fun p => (pcfgs (F := F) p).Adm) .tc) PUnit) := by
  chain_rfl

theorem t10_p13_eq : t10_p13 (F := F) = (Pipeline.chainK
  [ seq c32_6 ]
  (t10_p14 (F := F)) : Prog (TpuEff nD τ sig (Elt F) (Pipeline.Sig Λ₀ (Fin 0) fun p => (pcfgs (F := F) p).Adm) .tc) PUnit) := by
  chain_rfl

theorem t10_p14_eq : t10_p14 (F := F) = (Pipeline.chainK
  [ seq c32_7 ]
  (t10_p15 (F := F)) : Prog (TpuEff nD τ sig (Elt F) (Pipeline.Sig Λ₀ (Fin 0) fun p => (pcfgs (F := F) p).Adm) .tc) PUnit) := by
  chain_rfl

theorem t10_p15_eq : t10_p15 (F := F) = (Pipeline.chainK
  [ seq c33_0 ]
  (t10_p16 (F := F)) : Prog (TpuEff nD τ sig (Elt F) (Pipeline.Sig Λ₀ (Fin 0) fun p => (pcfgs (F := F) p).Adm) .tc) PUnit) := by
  chain_rfl

theorem t10_p16_eq : t10_p16 (F := F) = (Pipeline.chainK
  [ seq c33_1 ]
  (t10_p17 (F := F)) : Prog (TpuEff nD τ sig (Elt F) (Pipeline.Sig Λ₀ (Fin 0) fun p => (pcfgs (F := F) p).Adm) .tc) PUnit) := by
  chain_rfl

theorem t10_p17_eq : t10_p17 (F := F) = (Pipeline.chainK
  [ seq c33_2 ]
  (t10_p18 (F := F)) : Prog (TpuEff nD τ sig (Elt F) (Pipeline.Sig Λ₀ (Fin 0) fun p => (pcfgs (F := F) p).Adm) .tc) PUnit) := by
  chain_rfl

theorem t10_p18_eq : t10_p18 (F := F) = (Pipeline.chainK
  [ seq c33_3 ]
  (t10_p19 (F := F)) : Prog (TpuEff nD τ sig (Elt F) (Pipeline.Sig Λ₀ (Fin 0) fun p => (pcfgs (F := F) p).Adm) .tc) PUnit) := by
  chain_rfl

theorem t10_p19_eq : t10_p19 (F := F) = (Pipeline.chainK
  [ seq c33_4 ]
  (t10_p20 (F := F)) : Prog (TpuEff nD τ sig (Elt F) (Pipeline.Sig Λ₀ (Fin 0) fun p => (pcfgs (F := F) p).Adm) .tc) PUnit) := by
  chain_rfl

theorem t10_p20_eq : t10_p20 (F := F) = (Pipeline.chainK
  [ seq c33_5 ]
  (t10_p21 (F := F)) : Prog (TpuEff nD τ sig (Elt F) (Pipeline.Sig Λ₀ (Fin 0) fun p => (pcfgs (F := F) p).Adm) .tc) PUnit) := by
  chain_rfl

theorem t10_p21_eq : t10_p21 (F := F) = (Pipeline.chainK
  [ seq c33_6 ]
  (t10_p22 (F := F)) : Prog (TpuEff nD τ sig (Elt F) (Pipeline.Sig Λ₀ (Fin 0) fun p => (pcfgs (F := F) p).Adm) .tc) PUnit) := by
  chain_rfl

theorem t10_p22_eq : t10_p22 (F := F) = (Pipeline.chainK
  [  ]
  (seq c33_7) : Prog (TpuEff nD τ sig (Elt F) (Pipeline.Sig Λ₀ (Fin 0) fun p => (pcfgs (F := F) p).Adm) .tc) PUnit) := by
  chain_rfl

theorem main_part10_eq (d : Dev nD) : main_part10 (F := F) d = (seq w10 : Prog (TpuEff nD τ sig (Elt F) (Pipeline.Sig Λ₀ (Fin 0) fun p => (pcfgs (F := F) p).Adm) .tc) PUnit) := by
  rw [main_part10_chain d, t10_p1_eq, t10_p2_eq, t10_p3_eq, t10_p4_eq, t10_p5_eq, t10_p6_eq, t10_p7_eq, t10_p8_eq, t10_p9_eq, t10_p10_eq, t10_p11_eq, t10_p12_eq, t10_p13_eq, t10_p14_eq, t10_p15_eq, t10_p16_eq, t10_p17_eq, t10_p18_eq, t10_p19_eq, t10_p20_eq, t10_p21_eq, t10_p22_eq]
  simp only [w10, c31, c32, c33, Pipeline.chainK, seq_append, bind_assoc]

end Cert.ReferenceIdeal.RefRunGen

end
-- ==== Proof.RefRunGen.P11.lean ====
import proofs.«416765_j9792525435349_4_alg».proof.Proof.RefRunGen.Ok
import Idealize.ShloMosaic.Lib.Pipeline.Regions

noncomputable section

namespace Cert.ReferenceIdeal.RefRunGen

open Cert.ReferenceIdeal Cert.ReferenceIdeal.Gen Idealize.ShloMosaic Idealize.ShloMosaic.TcCoe Idealize.SL.Sem Idealize.ShloMosaic.StableHlo

variable {F : FTy → Type} [FloatOps F]

abbrev c34_0 : List (HloOp τ sig (Elt F)) :=
  [ unary main_v483 main_v484 (uitofp .f32 : (⟨S128x2048, .i1⟩ : BufTy).Contents (Elt F) → (⟨S128x2048, .f32⟩ : BufTy).Contents (Elt F)),
    nullary main_c_174 (constantI S_ 32 0#32),
    nullary main_c_175 (constantI S_ 32 15#32) ]

theorem c34_0_ok : Ok (F := F) c34_0 :=
  ⟨⟨unary_bufs_sub .., rfl⟩, ⟨nullary_bufs_sub .., rfl⟩, ⟨nullary_bufs_sub .., rfl⟩⟩

abbrev c34_1 : List (HloOp τ sig (Elt F)) :=
  [ TRef.unary (TRef.of (T := ⟨S_, .i32⟩) main_c_174) (TRef.of (T := ⟨S_, .i32⟩) main_call21_v0) id,
    TRef.unary (TRef.of (T := ⟨S_, .i32⟩) main_call21_v0) (TRef.of (T := ⟨S128x2048, .i32⟩) main_call21_v1) (broadcastInDim S128x2048 ![] bcast_S_S128x2048),
    TRef.binary (TRef.of (T := ⟨S128x2048, .i32⟩) main_call21_v1) (TRef.of (T := ⟨S128x2048, .i32⟩) main_v469) (TRef.of (T := ⟨S128x2048, .i32⟩) main_call21_v2) maxsi,
    TRef.unary (TRef.of (T := ⟨S_, .i32⟩) main_c_175) (TRef.of (T := ⟨S_, .i32⟩) main_call21_v3) id,
    TRef.unary (TRef.of (T := ⟨S_, .i32⟩) main_call21_v3) (TRef.of (T := ⟨S128x2048, .i32⟩) main_call21_v4) (broadcastInDim S128x2048 ![] bcast_S_S128x2048),
    TRef.binary (TRef.of (T := ⟨S128x2048, .i32⟩) main_call21_v4) (TRef.of (T := ⟨S128x2048, .i32⟩) main_call21_v2) (TRef.of (T := ⟨S128x2048, .i32⟩) main_v485) minsi ]

theorem c34_1_ok : Ok (F := F) c34_1 :=
  ⟨⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩⟩

abbrev c34_2 : List (HloOp τ sig (Elt F)) :=
  [ nullary main_c_176 (constantI S_ 32 0#32),
    nullary main_c_177 (constantI S_ 32 15#32) ]

theorem c34_2_ok : Ok (F := F) c34_2 :=
  ⟨⟨nullary_bufs_sub .., rfl⟩, ⟨nullary_bufs_sub .., rfl⟩⟩

abbrev c34_3 : List (HloOp τ sig (Elt F)) :=
  [ TRef.unary (TRef.of (T := ⟨S_, .i32⟩) main_c_176) (TRef.of (T := ⟨S_, .i32⟩) main_call22_v0) id,
    TRef.unary (TRef.of (T := ⟨S_, .i32⟩) main_call22_v0) (TRef.of (T := ⟨S128x2048, .i32⟩) main_call22_v1) (broadcastInDim S128x2048 ![] bcast_S_S128x2048),
    TRef.binary (TRef.of (T := ⟨S128x2048, .i32⟩) main_call22_v1) (TRef.of (T := ⟨S128x2048, .i32⟩) main_v391) (TRef.of (T := ⟨S128x2048, .i32⟩) main_call22_v2) maxsi,
    TRef.unary (TRef.of (T := ⟨S_, .i32⟩) main_c_177) (TRef.of (T := ⟨S_, .i32⟩) main_call22_v3) id,
    TRef.unary (TRef.of (T := ⟨S_, .i32⟩) main_call22_v3) (TRef.of (T := ⟨S128x2048, .i32⟩) main_call22_v4) (broadcastInDim S128x2048 ![] bcast_S_S128x2048),
    TRef.binary (TRef.of (T := ⟨S128x2048, .i32⟩) main_call22_v4) (TRef.of (T := ⟨S128x2048, .i32⟩) main_call22_v2) (TRef.of (T := ⟨S128x2048, .i32⟩) main_v486) minsi ]

theorem c34_3_ok : Ok (F := F) c34_3 :=
  ⟨⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩⟩

abbrev c34_4 : List (HloOp τ sig (Elt F)) :=
  [ nullary main_c_178 (constantI S_ 32 0#32),
    unary main_c_178 main_v487 (broadcastInDim S128x2048 ![] bcast_S_S128x2048 : (⟨S_, .i32⟩ : BufTy).Contents (Elt F) → (⟨S128x2048, .i32⟩ : BufTy).Contents (Elt F)),
    binary main_v485 main_v487 main_v488 (cmpi .slt : (⟨S128x2048, .i32⟩ : BufTy).Contents (Elt F) → (⟨S128x2048, .i32⟩ : BufTy).Contents (Elt F) → (⟨S128x2048, .i1⟩ : BufTy).Contents (Elt F)) ]

theorem c34_4_ok : Ok (F := F) c34_4 :=
  ⟨⟨nullary_bufs_sub .., rfl⟩, ⟨unary_bufs_sub .., rfl⟩, ⟨binary_bufs_sub .., rfl⟩⟩

abbrev c35_0 : List (HloOp τ sig (Elt F)) :=
  [ nullary main_c_179 (constantI S_ 32 16#32),
    unary main_c_179 main_v489 (broadcastInDim S128x2048 ![] bcast_S_S128x2048 : (⟨S_, .i32⟩ : BufTy).Contents (Elt F) → (⟨S128x2048, .i32⟩ : BufTy).Contents (Elt F)),
    binary main_v485 main_v489 main_v490 (addi : (⟨S128x2048, .i32⟩ : BufTy).Contents (Elt F) → (⟨S128x2048, .i32⟩ : BufTy).Contents (Elt F) → (⟨S128x2048, .i32⟩ : BufTy).Contents (Elt F)) ]

theorem c35_0_ok : Ok (F := F) c35_0 :=
  ⟨⟨nullary_bufs_sub .., rfl⟩, ⟨unary_bufs_sub .., rfl⟩, ⟨binary_bufs_sub .., rfl⟩⟩

abbrev c35_1 : List (HloOp τ sig (Elt F)) :=
  [ ternary main_v488 main_v490 main_v485 main_v491 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F)),
    nullary main_c_180 (constantI S_ 32 0#32),
    unary main_c_180 main_v492 (broadcastInDim S128x2048 ![] bcast_S_S128x2048 : (⟨S_, .i32⟩ : BufTy).Contents (Elt F) → (⟨S128x2048, .i32⟩ : BufTy).Contents (Elt F)) ]

theorem c35_1_ok : Ok (F := F) c35_1 :=
  ⟨⟨ternary_bufs_sub .., rfl⟩, ⟨nullary_bufs_sub .., rfl⟩, ⟨unary_bufs_sub .., rfl⟩⟩

abbrev c35_2 : List (HloOp τ sig (Elt F)) :=
  [ binary main_v486 main_v492 main_v493 (cmpi .slt : (⟨S128x2048, .i32⟩ : BufTy).Contents (Elt F) → (⟨S128x2048, .i32⟩ : BufTy).Contents (Elt F) → (⟨S128x2048, .i1⟩ : BufTy).Contents (Elt F)),
    nullary main_c_181 (constantI S_ 32 16#32),
    unary main_c_181 main_v494 (broadcastInDim S128x2048 ![] bcast_S_S128x2048 : (⟨S_, .i32⟩ : BufTy).Contents (Elt F) → (⟨S128x2048, .i32⟩ : BufTy).Contents (Elt F)) ]

theorem c35_2_ok : Ok (F := F) c35_2 :=
  ⟨⟨binary_bufs_sub .., rfl⟩, ⟨nullary_bufs_sub .., rfl⟩, ⟨unary_bufs_sub .., rfl⟩⟩

abbrev c35_3 : List (HloOp τ sig (Elt F)) :=
  [ binary main_v486 main_v494 main_v495 (addi : (⟨S128x2048, .i32⟩ : BufTy).Contents (Elt F) → (⟨S128x2048, .i32⟩ : BufTy).Contents (Elt F) → (⟨S128x2048, .i32⟩ : BufTy).Contents (Elt F)),
    ternary main_v493 main_v495 main_v486 main_v496 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F)),
    unary main_v491 main_v497 (broadcastInDim S128x2048x1 ![0, 1] bcast_S128x2048_S128x2048x1_0_1 : (⟨S128x2048, .i32⟩ : BufTy).Contents (Elt F) → (⟨S128x2048x1, .i32⟩ : BufTy).Contents (Elt F)) ]

theorem c35_3_ok : Ok (F := F) c35_3 :=
  ⟨⟨binary_bufs_sub .., rfl⟩, ⟨ternary_bufs_sub .., rfl⟩, ⟨unary_bufs_sub .., rfl⟩⟩

abbrev c35_4 : List (HloOp τ sig (Elt F)) :=
  [ unary main_v496 main_v498 (broadcastInDim S128x2048x1 ![0, 1] bcast_S128x2048_S128x2048x1_0_1 : (⟨S128x2048, .i32⟩ : BufTy).Contents (Elt F) → (⟨S128x2048x1, .i32⟩ : BufTy).Contents (Elt F)),
    binary main_v497 main_v498 main_v499 ((fun a b => concatenate S128x2048x2 2 [⟨S128x2048x1, a⟩, ⟨S128x2048x1, b⟩] concatenates_S128x2048x1_S128x2048x1_S128x2048x2_d2) : (⟨S128x2048x1, .i32⟩ : BufTy).Contents (Elt F) → (⟨S128x2048x1, .i32⟩ : BufTy).Contents (Elt F) → (⟨S128x2048x2, .i32⟩ : BufTy).Contents (Elt F)),
    binary main_v366 main_v499 main_v500 ((fun x i => Host.gather gather_S128x64x16x16_S128x2048x2_S128x64x2048_1_23_0_0_23_2_16411 x i) : (⟨S128x64x16x16, .f32⟩ : BufTy).Contents (Elt F) → (⟨S128x2048x2, .i32⟩ : BufTy).Contents (Elt F) → (⟨S128x64x2048, .f32⟩ : BufTy).Contents (Elt F)) ]

theorem c35_4_ok : Ok (F := F) c35_4 :=
  ⟨⟨unary_bufs_sub .., rfl⟩, ⟨binary_bufs_sub .., rfl⟩, ⟨binary_bufs_sub .., rfl⟩⟩

abbrev c35_5 : List (HloOp τ sig (Elt F)) :=
  [ binary main_v472 main_v484 main_v501 (mulf : (⟨S128x2048, .f32⟩ : BufTy).Contents (Elt F) → (⟨S128x2048, .f32⟩ : BufTy).Contents (Elt F) → (⟨S128x2048, .f32⟩ : BufTy).Contents (Elt F)),
    unary main_v501 main_v502 (broadcastInDim S128x1x2048 ![0, 2] bcast_S128x2048_S128x1x2048_0_2 : (⟨S128x2048, .f32⟩ : BufTy).Contents (Elt F) → (⟨S128x1x2048, .f32⟩ : BufTy).Contents (Elt F)),
    unary main_v502 main_v503 (broadcastInDim S128x64x2048 ![0, 1, 2] bcast_S128x1x2048_S128x64x2048_0_1_2 : (⟨S128x1x2048, .f32⟩ : BufTy).Contents (Elt F) → (⟨S128x64x2048, .f32⟩ : BufTy).Contents (Elt F)) ]

theorem c35_5_ok : Ok (F := F) c35_5 :=
  ⟨⟨binary_bufs_sub .., rfl⟩, ⟨unary_bufs_sub .., rfl⟩, ⟨unary_bufs_sub .., rfl⟩⟩

abbrev c35_6 : List (HloOp τ sig (Elt F)) :=
  [ binary main_v500 main_v503 main_v504 (mulf : (⟨S128x64x2048, .f32⟩ : BufTy).Contents (Elt F) → (⟨S128x64x2048, .f32⟩ : BufTy).Contents (Elt F) → (⟨S128x64x2048, .f32⟩ : BufTy).Contents (Elt F)),
    binary main_v467 main_v504 main_v505 (addf : (⟨S128x64x2048, .f32⟩ : BufTy).Contents (Elt F) → (⟨S128x64x2048, .f32⟩ : BufTy).Contents (Elt F) → (⟨S128x64x2048, .f32⟩ : BufTy).Contents (Elt F)) ]

theorem c35_6_ok : Ok (F := F) c35_6 :=
  ⟨⟨binary_bufs_sub .., rfl⟩, ⟨binary_bufs_sub .., rfl⟩⟩

abbrev c36_0 : List (HloOp τ sig (Elt F)) :=
  [ nullary main_c_182 (constantI S_ 32 1#32),
    unary main_c_182 main_v506 (broadcastInDim S128x2048 ![] bcast_S_S128x2048 : (⟨S_, .i32⟩ : BufTy).Contents (Elt F) → (⟨S128x2048, .i32⟩ : BufTy).Contents (Elt F)),
    binary main_v392 main_v506 main_v507 (addi : (⟨S128x2048, .i32⟩ : BufTy).Contents (Elt F) → (⟨S128x2048, .i32⟩ : BufTy).Contents (Elt F) → (⟨S128x2048, .i32⟩ : BufTy).Contents (Elt F)) ]

theorem c36_0_ok : Ok (F := F) c36_0 :=
  ⟨⟨nullary_bufs_sub .., rfl⟩, ⟨unary_bufs_sub .., rfl⟩, ⟨binary_bufs_sub .., rfl⟩⟩

abbrev c36_1 : List (HloOp τ sig (Elt F)) :=
  [ nullary main_c_183 (constantI S_ 32 1#32),
    unary main_c_183 main_v508 (broadcastInDim S128x2048 ![] bcast_S_S128x2048 : (⟨S_, .i32⟩ : BufTy).Contents (Elt F) → (⟨S128x2048, .i32⟩ : BufTy).Contents (Elt F)),
    binary main_v391 main_v508 main_v509 (addi : (⟨S128x2048, .i32⟩ : BufTy).Contents (Elt F) → (⟨S128x2048, .i32⟩ : BufTy).Contents (Elt F) → (⟨S128x2048, .i32⟩ : BufTy).Contents (Elt F)) ]

theorem c36_1_ok : Ok (F := F) c36_1 :=
  ⟨⟨nullary_bufs_sub .., rfl⟩, ⟨unary_bufs_sub .., rfl⟩, ⟨binary_bufs_sub .., rfl⟩⟩

abbrev c36_2 : List (HloOp τ sig (Elt F)) :=
  [ binary main_v390 main_v389 main_v510 (mulf : (⟨S128x2048, .f32⟩ : BufTy).Contents (Elt F) → (⟨S128x2048, .f32⟩ : BufTy).Contents (Elt F) → (⟨S128x2048, .f32⟩ : BufTy).Contents (Elt F)),
    nullary main_c_184 (constantI S_ 32 0#32),
    unary main_c_184 main_v511 (broadcastInDim S128x2048 ![] bcast_S_S128x2048 : (⟨S_, .i32⟩ : BufTy).Contents (Elt F) → (⟨S128x2048, .i32⟩ : BufTy).Contents (Elt F)) ]

theorem c36_2_ok : Ok (F := F) c36_2 :=
  ⟨⟨binary_bufs_sub .., rfl⟩, ⟨nullary_bufs_sub .., rfl⟩, ⟨unary_bufs_sub .., rfl⟩⟩

abbrev c36_3 : List (HloOp τ sig (Elt F)) :=
  [ binary main_v507 main_v511 main_v512 (cmpi .sge : (⟨S128x2048, .i32⟩ : BufTy).Contents (Elt F) → (⟨S128x2048, .i32⟩ : BufTy).Contents (Elt F) → (⟨S128x2048, .i1⟩ : BufTy).Contents (Elt F)),
    nullary main_c_185 (constantI S_ 32 16#32),
    unary main_c_185 main_v513 (broadcastInDim S128x2048 ![] bcast_S_S128x2048 : (⟨S_, .i32⟩ : BufTy).Contents (Elt F) → (⟨S128x2048, .i32⟩ : BufTy).Contents (Elt F)) ]

theorem c36_3_ok : Ok (F := F) c36_3 :=
  ⟨⟨binary_bufs_sub .., rfl⟩, ⟨nullary_bufs_sub .., rfl⟩, ⟨unary_bufs_sub .., rfl⟩⟩

abbrev c36_4 : List (HloOp τ sig (Elt F)) :=
  [ binary main_v507 main_v513 main_v514 (cmpi .slt : (⟨S128x2048, .i32⟩ : BufTy).Contents (Elt F) → (⟨S128x2048, .i32⟩ : BufTy).Contents (Elt F) → (⟨S128x2048, .i1⟩ : BufTy).Contents (Elt F)),
    binary main_v512 main_v514 main_v515 (andi : (⟨S128x2048, .i1⟩ : BufTy).Contents (Elt F) → (⟨S128x2048, .i1⟩ : BufTy).Contents (Elt F) → (⟨S128x2048, .i1⟩ : BufTy).Contents (Elt F)),
    nullary main_c_186 (constantI S_ 32 0#32) ]

theorem c36_4_ok : Ok (F := F) c36_4 :=
  ⟨⟨binary_bufs_sub .., rfl⟩, ⟨binary_bufs_sub .., rfl⟩, ⟨nullary_bufs_sub .., rfl⟩⟩

abbrev c36_5 : List (HloOp τ sig (Elt F)) :=
  [ unary main_c_186 main_v516 (broadcastInDim S128x2048 ![] bcast_S_S128x2048 : (⟨S_, .i32⟩ : BufTy).Contents (Elt F) → (⟨S128x2048, .i32⟩ : BufTy).Contents (Elt F)),
    binary main_v509 main_v516 main_v517 (cmpi .sge : (⟨S128x2048, .i32⟩ : BufTy).Contents (Elt F) → (⟨S128x2048, .i32⟩ : BufTy).Contents (Elt F) → (⟨S128x2048, .i1⟩ : BufTy).Contents (Elt F)),
    binary main_v515 main_v517 main_v518 (andi : (⟨S128x2048, .i1⟩ : BufTy).Contents (Elt F) → (⟨S128x2048, .i1⟩ : BufTy).Contents (Elt F) → (⟨S128x2048, .i1⟩ : BufTy).Contents (Elt F)) ]

theorem c36_5_ok : Ok (F := F) c36_5 :=
  ⟨⟨unary_bufs_sub .., rfl⟩, ⟨binary_bufs_sub .., rfl⟩, ⟨binary_bufs_sub .., rfl⟩⟩

abbrev c36_6 : List (HloOp τ sig (Elt F)) :=
  [ nullary main_c_187 (constantI S_ 32 16#32),
    unary main_c_187 main_v519 (broadcastInDim S128x2048 ![] bcast_S_S128x2048 : (⟨S_, .i32⟩ : BufTy).Contents (Elt F) → (⟨S128x2048, .i32⟩ : BufTy).Contents (Elt F)) ]

theorem c36_6_ok : Ok (F := F) c36_6 :=
  ⟨⟨nullary_bufs_sub .., rfl⟩, ⟨unary_bufs_sub .., rfl⟩⟩

abbrev c37_0 : List (HloOp τ sig (Elt F)) :=
  [ binary main_v509 main_v519 main_v520 (cmpi .slt : (⟨S128x2048, .i32⟩ : BufTy).Contents (Elt F) → (⟨S128x2048, .i32⟩ : BufTy).Contents (Elt F) → (⟨S128x2048, .i1⟩ : BufTy).Contents (Elt F)),
    binary main_v518 main_v520 main_v521 (andi : (⟨S128x2048, .i1⟩ : BufTy).Contents (Elt F) → (⟨S128x2048, .i1⟩ : BufTy).Contents (Elt F) → (⟨S128x2048, .i1⟩ : BufTy).Contents (Elt F)),
    unary main_v521 main_v522 (uitofp .f32 : (⟨S128x2048, .i1⟩ : BufTy).Contents (Elt F) → (⟨S128x2048, .f32⟩ : BufTy).Contents (Elt F)) ]

theorem c37_0_ok : Ok (F := F) c37_0 :=
  ⟨⟨binary_bufs_sub .., rfl⟩, ⟨binary_bufs_sub .., rfl⟩, ⟨unary_bufs_sub .., rfl⟩⟩

abbrev c37_1 : List (HloOp τ sig (Elt F)) :=
  [ nullary main_c_188 (constantI S_ 32 0#32),
    nullary main_c_189 (constantI S_ 32 15#32) ]

theorem c37_1_ok : Ok (F := F) c37_1 :=
  ⟨⟨nullary_bufs_sub .., rfl⟩, ⟨nullary_bufs_sub .., rfl⟩⟩

abbrev c37_2 : List (HloOp τ sig (Elt F)) :=
  [ TRef.unary (TRef.of (T := ⟨S_, .i32⟩) main_c_188) (TRef.of (T := ⟨S_, .i32⟩) main_call23_v0) id,
    TRef.unary (TRef.of (T := ⟨S_, .i32⟩) main_call23_v0) (TRef.of (T := ⟨S128x2048, .i32⟩) main_call23_v1) (broadcastInDim S128x2048 ![] bcast_S_S128x2048),
    TRef.binary (TRef.of (T := ⟨S128x2048, .i32⟩) main_call23_v1) (TRef.of (T := ⟨S128x2048, .i32⟩) main_v507) (TRef.of (T := ⟨S128x2048, .i32⟩) main_call23_v2) maxsi,
    TRef.unary (TRef.of (T := ⟨S_, .i32⟩) main_c_189) (TRef.of (T := ⟨S_, .i32⟩) main_call23_v3) id,
    TRef.unary (TRef.of (T := ⟨S_, .i32⟩) main_call23_v3) (TRef.of (T := ⟨S128x2048, .i32⟩) main_call23_v4) (broadcastInDim S128x2048 ![] bcast_S_S128x2048),
    TRef.binary (TRef.of (T := ⟨S128x2048, .i32⟩) main_call23_v4) (TRef.of (T := ⟨S128x2048, .i32⟩) main_call23_v2) (TRef.of (T := ⟨S128x2048, .i32⟩) main_v523) minsi ]

theorem c37_2_ok : Ok (F := F) c37_2 :=
  ⟨⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩⟩

abbrev c37_3 : List (HloOp τ sig (Elt F)) :=
  [ nullary main_c_190 (constantI S_ 32 0#32),
    nullary main_c_191 (constantI S_ 32 15#32) ]

theorem c37_3_ok : Ok (F := F) c37_3 :=
  ⟨⟨nullary_bufs_sub .., rfl⟩, ⟨nullary_bufs_sub .., rfl⟩⟩

abbrev c37_4 : List (HloOp τ sig (Elt F)) :=
  [ TRef.unary (TRef.of (T := ⟨S_, .i32⟩) main_c_190) (TRef.of (T := ⟨S_, .i32⟩) main_call24_v0) id,
    TRef.unary (TRef.of (T := ⟨S_, .i32⟩) main_call24_v0) (TRef.of (T := ⟨S128x2048, .i32⟩) main_call24_v1) (broadcastInDim S128x2048 ![] bcast_S_S128x2048),
    TRef.binary (TRef.of (T := ⟨S128x2048, .i32⟩) main_call24_v1) (TRef.of (T := ⟨S128x2048, .i32⟩) main_v509) (TRef.of (T := ⟨S128x2048, .i32⟩) main_call24_v2) maxsi,
    TRef.unary (TRef.of (T := ⟨S_, .i32⟩) main_c_191) (TRef.of (T := ⟨S_, .i32⟩) main_call24_v3) id,
    TRef.unary (TRef.of (T := ⟨S_, .i32⟩) main_call24_v3) (TRef.of (T := ⟨S128x2048, .i32⟩) main_call24_v4) (broadcastInDim S128x2048 ![] bcast_S_S128x2048),
    TRef.binary (TRef.of (T := ⟨S128x2048, .i32⟩) main_call24_v4) (TRef.of (T := ⟨S128x2048, .i32⟩) main_call24_v2) (TRef.of (T := ⟨S128x2048, .i32⟩) main_v524) minsi ]

theorem c37_4_ok : Ok (F := F) c37_4 :=
  ⟨⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩⟩

abbrev c37_5 : List (HloOp τ sig (Elt F)) :=
  [ nullary main_c_192 (constantI S_ 32 0#32) ]

theorem c37_5_ok : Ok (F := F) c37_5 :=
  ⟨nullary_bufs_sub .., rfl⟩

def c34 : List (HloOp τ sig (Elt F)) := c34_0 ++ (c34_1 ++ (c34_2 ++ (c34_3 ++ (c34_4))))

theorem c34_ok : Ok (F := F) c34 := c34_0_ok.append (c34_1_ok.append (c34_2_ok.append (c34_3_ok.append (c34_4_ok))))

def c35 : List (HloOp τ sig (Elt F)) := c35_0 ++ (c35_1 ++ (c35_2 ++ (c35_3 ++ (c35_4 ++ (c35_5 ++ (c35_6))))))

theorem c35_ok : Ok (F := F) c35 := c35_0_ok.append (c35_1_ok.append (c35_2_ok.append (c35_3_ok.append (c35_4_ok.append (c35_5_ok.append (c35_6_ok))))))

def c36 : List (HloOp τ sig (Elt F)) := c36_0 ++ (c36_1 ++ (c36_2 ++ (c36_3 ++ (c36_4 ++ (c36_5 ++ (c36_6))))))

theorem c36_ok : Ok (F := F) c36 := c36_0_ok.append (c36_1_ok.append (c36_2_ok.append (c36_3_ok.append (c36_4_ok.append (c36_5_ok.append (c36_6_ok))))))

def c37 : List (HloOp τ sig (Elt F)) := c37_0 ++ (c37_1 ++ (c37_2 ++ (c37_3 ++ (c37_4 ++ (c37_5)))))

theorem c37_ok : Ok (F := F) c37 := c37_0_ok.append (c37_1_ok.append (c37_2_ok.append (c37_3_ok.append (c37_4_ok.append (c37_5_ok)))))

def w11 : List (HloOp τ sig (Elt F)) := c34 ++ (c35 ++ (c36 ++ (c37)))

theorem w11_ok : Ok (F := F) w11 := c34_ok.append (c35_ok.append (c36_ok.append (c37_ok)))

noncomputable def t11_p24 : Prog (TpuEff nD τ sig (Elt F) (Pipeline.Sig Λ₀ (Fin 0) fun p => (pcfgs (F := F) p).Adm) .tc) PUnit := do
  hlo rfl (StableHlo.nullary main_c_192 (constantI S_ 32 0#32)) (fun _ => .ret ⟨⟩)

noncomputable def t11_p23 : Prog (TpuEff nD τ sig (Elt F) (Pipeline.Sig Λ₀ (Fin 0) fun p => (pcfgs (F := F) p).Adm) .tc) PUnit := do
  fn_clip_0.body (.of main_v509) (.of main_c_190) (.of main_c_191) main_call24
  t11_p24 (F := F)

noncomputable def t11_p22 : Prog (TpuEff nD τ sig (Elt F) (Pipeline.Sig Λ₀ (Fin 0) fun p => (pcfgs (F := F) p).Adm) .tc) PUnit := do
  hlo rfl (StableHlo.nullary main_c_190 (constantI S_ 32 0#32)) (fun _ => .ret ⟨⟩)
  hlo rfl (StableHlo.nullary main_c_191 (constantI S_ 32 15#32)) (fun _ => .ret ⟨⟩)
  t11_p23 (F := F)

noncomputable def t11_p21 : Prog (TpuEff nD τ sig (Elt F) (Pipeline.Sig Λ₀ (Fin 0) fun p => (pcfgs (F := F) p).Adm) .tc) PUnit := do
  fn_clip_0.body (.of main_v507) (.of main_c_188) (.of main_c_189) main_call23
  t11_p22 (F := F)

noncomputable def t11_p20 : Prog (TpuEff nD τ sig (Elt F) (Pipeline.Sig Λ₀ (Fin 0) fun p => (pcfgs (F := F) p).Adm) .tc) PUnit := do
  hlo rfl (StableHlo.nullary main_c_188 (constantI S_ 32 0#32)) (fun _ => .ret ⟨⟩)
  hlo rfl (StableHlo.nullary main_c_189 (constantI S_ 32 15#32)) (fun _ => .ret ⟨⟩)
  t11_p21 (F := F)

noncomputable def t11_p19 : Prog (TpuEff nD τ sig (Elt F) (Pipeline.Sig Λ₀ (Fin 0) fun p => (pcfgs (F := F) p).Adm) .tc) PUnit := do
  hlo rfl (StableHlo.binary main_v509 main_v519 main_v520 (cmpi .slt : (⟨S128x2048, .i32⟩ : BufTy).Contents (Elt F) → (⟨S128x2048, .i32⟩ : BufTy).Contents (Elt F) → (⟨S128x2048, .i1⟩ : BufTy).Contents (Elt F))) (fun _ => .ret ⟨⟩)
  hlo rfl (StableHlo.binary main_v518 main_v520 main_v521 (andi : (⟨S128x2048, .i1⟩ : BufTy).Contents (Elt F) → (⟨S128x2048, .i1⟩ : BufTy).Contents (Elt F) → (⟨S128x2048, .i1⟩ : BufTy).Contents (Elt F))) (fun _ => .ret ⟨⟩)
  hlo rfl (StableHlo.unary main_v521 main_v522 (uitofp .f32 : (⟨S128x2048, .i1⟩ : BufTy).Contents (Elt F) → (⟨S128x2048, .f32⟩ : BufTy).Contents (Elt F))) (fun _ => .ret ⟨⟩)
  t11_p20 (F := F)

noncomputable def t11_p18 : Prog (TpuEff nD τ sig (Elt F) (Pipeline.Sig Λ₀ (Fin 0) fun p => (pcfgs (F := F) p).Adm) .tc) PUnit := do
  hlo rfl (StableHlo.nullary main_c_187 (constantI S_ 32 16#32)) (fun _ => .ret ⟨⟩)
  hlo rfl (StableHlo.unary main_c_187 main_v519 (broadcastInDim S128x2048 ![] bcast_S_S128x2048 : (⟨S_, .i32⟩ : BufTy).Contents (Elt F) → (⟨S128x2048, .i32⟩ : BufTy).Contents (Elt F))) (fun _ => .ret ⟨⟩)
  t11_p19 (F := F)

noncomputable def t11_p17 : Prog (TpuEff nD τ sig (Elt F) (Pipeline.Sig Λ₀ (Fin 0) fun p => (pcfgs (F := F) p).Adm) .tc) PUnit := do
  hlo rfl (StableHlo.unary main_c_186 main_v516 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v509 main_v516 main_v517 (cmpi .sge : (⟨S128x2048, .i32⟩ : BufTy).Contents (Elt F) → (⟨S128x2048, .i32⟩ : BufTy).Contents (Elt F) → (⟨S128x2048, .i1⟩ : BufTy).Contents (Elt F))) (fun _ => .ret ⟨⟩)
  hlo rfl (StableHlo.binary main_v515 main_v517 main_v518 (andi : (⟨S128x2048, .i1⟩ : BufTy).Contents (Elt F) → (⟨S128x2048, .i1⟩ : BufTy).Contents (Elt F) → (⟨S128x2048, .i1⟩ : BufTy).Contents (Elt F))) (fun _ => .ret ⟨⟩)
  t11_p18 (F := F)

noncomputable def t11_p16 : Prog (TpuEff nD τ sig (Elt F) (Pipeline.Sig Λ₀ (Fin 0) fun p => (pcfgs (F := F) p).Adm) .tc) PUnit := do
  hlo rfl (StableHlo.binary main_v507 main_v513 main_v514 (cmpi .slt : (⟨S128x2048, .i32⟩ : BufTy).Contents (Elt F) → (⟨S128x2048, .i32⟩ : BufTy).Contents (Elt F) → (⟨S128x2048, .i1⟩ : BufTy).Contents (Elt F))) (fun _ => .ret ⟨⟩)
  hlo rfl (StableHlo.binary main_v512 main_v514 main_v515 (andi : (⟨S128x2048, .i1⟩ : BufTy).Contents (Elt F) → (⟨S128x2048, .i1⟩ : BufTy).Contents (Elt F) → (⟨S128x2048, .i1⟩ : BufTy).Contents (Elt F))) (fun _ => .ret ⟨⟩)
  hlo rfl (StableHlo.nullary main_c_186 (constantI S_ 32 0#32)) (fun _ => .ret ⟨⟩)
  t11_p17 (F := F)

noncomputable def t11_p15 : Prog (TpuEff nD τ sig (Elt F) (Pipeline.Sig Λ₀ (Fin 0) fun p => (pcfgs (F := F) p).Adm) .tc) PUnit := do
  hlo rfl (StableHlo.binary main_v507 main_v511 main_v512 (cmpi .sge : (⟨S128x2048, .i32⟩ : BufTy).Contents (Elt F) → (⟨S128x2048, .i32⟩ : BufTy).Contents (Elt F) → (⟨S128x2048, .i1⟩ : BufTy).Contents (Elt F))) (fun _ => .ret ⟨⟩)
  hlo rfl (StableHlo.nullary main_c_185 (constantI S_ 32 16#32)) (fun _ => .ret ⟨⟩)
  hlo rfl (StableHlo.unary main_c_185 main_v513 (broadcastInDim S128x2048 ![] bcast_S_S128x2048 : (⟨S_, .i32⟩ : BufTy).Contents (Elt F) → (⟨S128x2048, .i32⟩ : BufTy).Contents (Elt F))) (fun _ => .ret ⟨⟩)
  t11_p16 (F := F)

noncomputable def t11_p14 : Prog (TpuEff nD τ sig (Elt F) (Pipeline.Sig Λ₀ (Fin 0) fun p => (pcfgs (F := F) p).Adm) .tc) PUnit := do
  hlo rfl (StableHlo.binary main_v390 main_v389 main_v510 (mulf : (⟨S128x2048, .f32⟩ : BufTy).Contents (Elt F) → (⟨S128x2048, .f32⟩ : BufTy).Contents (Elt F) → (⟨S128x2048, .f32⟩ : BufTy).Contents (Elt F))) (fun _ => .ret ⟨⟩)
  hlo rfl (StableHlo.nullary main_c_184 (constantI S_ 32 0#32)) (fun _ => .ret ⟨⟩)
  hlo rfl (StableHlo.unary main_c_184 main_v511 (broadcastInDim S128x2048 ![] bcast_S_S128x2048 : (⟨S_, .i32⟩ : BufTy).Contents (Elt F) → (⟨S128x2048, .i32⟩ : BufTy).Contents (Elt F))) (fun _ => .ret ⟨⟩)
  t11_p15 (F := F)

noncomputable def t11_p13 : Prog (TpuEff nD τ sig (Elt F) (Pipeline.Sig Λ₀ (Fin 0) fun p => (pcfgs (F := F) p).Adm) .tc) PUnit := do
  hlo rfl (StableHlo.nullary main_c_183 (constantI S_ 32 1#32)) (fun _ => .ret ⟨⟩)
  hlo rfl (StableHlo.unary main_c_183 main_v508 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v391 main_v508 main_v509 (addi : (⟨S128x2048, .i32⟩ : BufTy).Contents (Elt F) → (⟨S128x2048, .i32⟩ : BufTy).Contents (Elt F) → (⟨S128x2048, .i32⟩ : BufTy).Contents (Elt F))) (fun _ => .ret ⟨⟩)
  t11_p14 (F := F)

noncomputable def t11_p12 : Prog (TpuEff nD τ sig (Elt F) (Pipeline.Sig Λ₀ (Fin 0) fun p => (pcfgs (F := F) p).Adm) .tc) PUnit := do
  hlo rfl (StableHlo.nullary main_c_182 (constantI S_ 32 1#32)) (fun _ => .ret ⟨⟩)
  hlo rfl (StableHlo.unary main_c_182 main_v506 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v392 main_v506 main_v507 (addi : (⟨S128x2048, .i32⟩ : BufTy).Contents (Elt F) → (⟨S128x2048, .i32⟩ : BufTy).Contents (Elt F) → (⟨S128x2048, .i32⟩ : BufTy).Contents (Elt F))) (fun _ => .ret ⟨⟩)
  t11_p13 (F := F)

noncomputable def t11_p11 : Prog (TpuEff nD τ sig (Elt F) (Pipeline.Sig Λ₀ (Fin 0) fun p => (pcfgs (F := F) p).Adm) .tc) PUnit := do
  hlo rfl (StableHlo.binary main_v500 main_v503 main_v504 (mulf : (⟨S128x64x2048, .f32⟩ : BufTy).Contents (Elt F) → (⟨S128x64x2048, .f32⟩ : BufTy).Contents (Elt F) → (⟨S128x64x2048, .f32⟩ : BufTy).Contents (Elt F))) (fun _ => .ret ⟨⟩)
  hlo rfl (StableHlo.binary main_v467 main_v504 main_v505 (addf : (⟨S128x64x2048, .f32⟩ : BufTy).Contents (Elt F) → (⟨S128x64x2048, .f32⟩ : BufTy).Contents (Elt F) → (⟨S128x64x2048, .f32⟩ : BufTy).Contents (Elt F))) (fun _ => .ret ⟨⟩)
  t11_p12 (F := F)

noncomputable def t11_p10 : Prog (TpuEff nD τ sig (Elt F) (Pipeline.Sig Λ₀ (Fin 0) fun p => (pcfgs (F := F) p).Adm) .tc) PUnit := do
  hlo rfl (StableHlo.binary main_v472 main_v484 main_v501 (mulf : (⟨S128x2048, .f32⟩ : BufTy).Contents (Elt F) → (⟨S128x2048, .f32⟩ : BufTy).Contents (Elt F) → (⟨S128x2048, .f32⟩ : BufTy).Contents (Elt F))) (fun _ => .ret ⟨⟩)
  hlo rfl (StableHlo.unary main_v501 main_v502 (broadcastInDim S128x1x2048 ![0, 2] bcast_S128x2048_S128x1x2048_0_2 : (⟨S128x2048, .f32⟩ : BufTy).Contents (Elt F) → (⟨S128x1x2048, .f32⟩ : BufTy).Contents (Elt F))) (fun _ => .ret ⟨⟩)
  hlo rfl (StableHlo.unary main_v502 main_v503 (broadcastInDim S128x64x2048 ![0, 1, 2] bcast_S128x1x2048_S128x64x2048_0_1_2 : (⟨S128x1x2048, .f32⟩ : BufTy).Contents (Elt F) → (⟨S128x64x2048, .f32⟩ : BufTy).Contents (Elt F))) (fun _ => .ret ⟨⟩)
  t11_p11 (F := F)

noncomputable def t11_p9 : Prog (TpuEff nD τ sig (Elt F) (Pipeline.Sig Λ₀ (Fin 0) fun p => (pcfgs (F := F) p).Adm) .tc) PUnit := do
  hlo rfl (StableHlo.unary main_v496 main_v498 (broadcastInDim S128x2048x1 ![0, 1] bcast_S128x2048_S128x2048x1_0_1 : (⟨S128x2048, .i32⟩ : BufTy).Contents (Elt F) → (⟨S128x2048x1, .i32⟩ : BufTy).Contents (Elt F))) (fun _ => .ret ⟨⟩)
  hlo rfl (StableHlo.binary main_v497 main_v498 main_v499 ((fun a b => concatenate S128x2048x2 2 [⟨S128x2048x1, a⟩, ⟨S128x2048x1, b⟩] concatenates_S128x2048x1_S128x2048x1_S128x2048x2_d2) : (⟨S128x2048x1, .i32⟩ : BufTy).Contents (Elt F) → (⟨S128x2048x1, .i32⟩ : BufTy).Contents (Elt F) → (⟨S128x2048x2, .i32⟩ : BufTy).Contents (Elt F))) (fun _ => .ret ⟨⟩)
  hlo rfl (StableHlo.binary main_v366 main_v499 main_v500 ((fun x i => Host.gather gather_S128x64x16x16_S128x2048x2_S128x64x2048_1_23_0_0_23_2_16411 x i) : (⟨S128x64x16x16, .f32⟩ : BufTy).Contents (Elt F) → (⟨S128x2048x2, .i32⟩ : BufTy).Contents (Elt F) → (⟨S128x64x2048, .f32⟩ : BufTy).Contents (Elt F))) (fun _ => .ret ⟨⟩)
  t11_p10 (F := F)

noncomputable def t11_p8 : Prog (TpuEff nD τ sig (Elt F) (Pipeline.Sig Λ₀ (Fin 0) fun p => (pcfgs (F := F) p).Adm) .tc) PUnit := do
  hlo rfl (StableHlo.binary main_v486 main_v494 main_v495 (addi : (⟨S128x2048, .i32⟩ : BufTy).Contents (Elt F) → (⟨S128x2048, .i32⟩ : BufTy).Contents (Elt F) → (⟨S128x2048, .i32⟩ : BufTy).Contents (Elt F))) (fun _ => .ret ⟨⟩)
  hlo rfl (StableHlo.ternary main_v493 main_v495 main_v486 main_v496 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F))) (fun _ => .ret ⟨⟩)
  hlo rfl (StableHlo.unary main_v491 main_v497 (broadcastInDim S128x2048x1 ![0, 1] bcast_S128x2048_S128x2048x1_0_1 : (⟨S128x2048, .i32⟩ : BufTy).Contents (Elt F) → (⟨S128x2048x1, .i32⟩ : BufTy).Contents (Elt F))) (fun _ => .ret ⟨⟩)
  t11_p9 (F := F)

noncomputable def t11_p7 : Prog (TpuEff nD τ sig (Elt F) (Pipeline.Sig Λ₀ (Fin 0) fun p => (pcfgs (F := F) p).Adm) .tc) PUnit := do
  hlo rfl (StableHlo.binary main_v486 main_v492 main_v493 (cmpi .slt : (⟨S128x2048, .i32⟩ : BufTy).Contents (Elt F) → (⟨S128x2048, .i32⟩ : BufTy).Contents (Elt F) → (⟨S128x2048, .i1⟩ : BufTy).Contents (Elt F))) (fun _ => .ret ⟨⟩)
  hlo rfl (StableHlo.nullary main_c_181 (constantI S_ 32 16#32)) (fun _ => .ret ⟨⟩)
  hlo rfl (StableHlo.unary main_c_181 main_v494 (broadcastInDim S128x2048 ![] bcast_S_S128x2048 : (⟨S_, .i32⟩ : BufTy).Contents (Elt F) → (⟨S128x2048, .i32⟩ : BufTy).Contents (Elt F))) (fun _ => .ret ⟨⟩)
  t11_p8 (F := F)

noncomputable def t11_p6 : Prog (TpuEff nD τ sig (Elt F) (Pipeline.Sig Λ₀ (Fin 0) fun p => (pcfgs (F := F) p).Adm) .tc) PUnit := do
  hlo rfl (StableHlo.ternary main_v488 main_v490 main_v485 main_v491 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F))) (fun _ => .ret ⟨⟩)
  hlo rfl (StableHlo.nullary main_c_180 (constantI S_ 32 0#32)) (fun _ => .ret ⟨⟩)
  hlo rfl (StableHlo.unary main_c_180 main_v492 (broadcastInDim S128x2048 ![] bcast_S_S128x2048 : (⟨S_, .i32⟩ : BufTy).Contents (Elt F) → (⟨S128x2048, .i32⟩ : BufTy).Contents (Elt F))) (fun _ => .ret ⟨⟩)
  t11_p7 (F := F)

noncomputable def t11_p5 : Prog (TpuEff nD τ sig (Elt F) (Pipeline.Sig Λ₀ (Fin 0) fun p => (pcfgs (F := F) p).Adm) .tc) PUnit := do
  hlo rfl (StableHlo.nullary main_c_179 (constantI S_ 32 16#32)) (fun _ => .ret ⟨⟩)
  hlo rfl (StableHlo.unary main_c_179 main_v489 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v485 main_v489 main_v490 (addi : (⟨S128x2048, .i32⟩ : BufTy).Contents (Elt F) → (⟨S128x2048, .i32⟩ : BufTy).Contents (Elt F) → (⟨S128x2048, .i32⟩ : BufTy).Contents (Elt F))) (fun _ => .ret ⟨⟩)
  t11_p6 (F := F)

noncomputable def t11_p4 : Prog (TpuEff nD τ sig (Elt F) (Pipeline.Sig Λ₀ (Fin 0) fun p => (pcfgs (F := F) p).Adm) .tc) PUnit := do
  hlo rfl (StableHlo.nullary main_c_178 (constantI S_ 32 0#32)) (fun _ => .ret ⟨⟩)
  hlo rfl (StableHlo.unary main_c_178 main_v487 (broadcastInDim S128x2048 ![] bcast_S_S128x2048 : (⟨S_, .i32⟩ : BufTy).Contents (Elt F) → (⟨S128x2048, .i32⟩ : BufTy).Contents (Elt F))) (fun _ => .ret ⟨⟩)
  hlo rfl (StableHlo.binary main_v485 main_v487 main_v488 (cmpi .slt : (⟨S128x2048, .i32⟩ : BufTy).Contents (Elt F) → (⟨S128x2048, .i32⟩ : BufTy).Contents (Elt F) → (⟨S128x2048, .i1⟩ : BufTy).Contents (Elt F))) (fun _ => .ret ⟨⟩)
  t11_p5 (F := F)

noncomputable def t11_p3 : Prog (TpuEff nD τ sig (Elt F) (Pipeline.Sig Λ₀ (Fin 0) fun p => (pcfgs (F := F) p).Adm) .tc) PUnit := do
  fn_clip_0.body (.of main_v391) (.of main_c_176) (.of main_c_177) main_call22
  t11_p4 (F := F)

noncomputable def t11_p2 : Prog (TpuEff nD τ sig (Elt F) (Pipeline.Sig Λ₀ (Fin 0) fun p => (pcfgs (F := F) p).Adm) .tc) PUnit := do
  hlo rfl (StableHlo.nullary main_c_176 (constantI S_ 32 0#32)) (fun _ => .ret ⟨⟩)
  hlo rfl (StableHlo.nullary main_c_177 (constantI S_ 32 15#32)) (fun _ => .ret ⟨⟩)
  t11_p3 (F := F)

noncomputable def t11_p1 : Prog (TpuEff nD τ sig (Elt F) (Pipeline.Sig Λ₀ (Fin 0) fun p => (pcfgs (F := F) p).Adm) .tc) PUnit := do
  fn_clip_0.body (.of main_v469) (.of main_c_174) (.of main_c_175) main_call21
  t11_p2 (F := F)

theorem main_part11_chain (d : Dev nD) : main_part11 (F := F) d = (Pipeline.chainK
  [ seq c34_0 ]
  (t11_p1 (F := F)) : Prog (TpuEff nD τ sig (Elt F) (Pipeline.Sig Λ₀ (Fin 0) fun p => (pcfgs (F := F) p).Adm) .tc) PUnit) := by
  chain_rfl

theorem t11_p1_eq : t11_p1 (F := F) = (Pipeline.chainK
  [ seq c34_1 ]
  (t11_p2 (F := F)) : Prog (TpuEff nD τ sig (Elt F) (Pipeline.Sig Λ₀ (Fin 0) fun p => (pcfgs (F := F) p).Adm) .tc) PUnit) := by
  chain_rfl

theorem t11_p2_eq : t11_p2 (F := F) = (Pipeline.chainK
  [ seq c34_2 ]
  (t11_p3 (F := F)) : Prog (TpuEff nD τ sig (Elt F) (Pipeline.Sig Λ₀ (Fin 0) fun p => (pcfgs (F := F) p).Adm) .tc) PUnit) := by
  chain_rfl

theorem t11_p3_eq : t11_p3 (F := F) = (Pipeline.chainK
  [ seq c34_3 ]
  (t11_p4 (F := F)) : Prog (TpuEff nD τ sig (Elt F) (Pipeline.Sig Λ₀ (Fin 0) fun p => (pcfgs (F := F) p).Adm) .tc) PUnit) := by
  chain_rfl

theorem t11_p4_eq : t11_p4 (F := F) = (Pipeline.chainK
  [ seq c34_4 ]
  (t11_p5 (F := F)) : Prog (TpuEff nD τ sig (Elt F) (Pipeline.Sig Λ₀ (Fin 0) fun p => (pcfgs (F := F) p).Adm) .tc) PUnit) := by
  chain_rfl

theorem t11_p5_eq : t11_p5 (F := F) = (Pipeline.chainK
  [ seq c35_0 ]
  (t11_p6 (F := F)) : Prog (TpuEff nD τ sig (Elt F) (Pipeline.Sig Λ₀ (Fin 0) fun p => (pcfgs (F := F) p).Adm) .tc) PUnit) := by
  chain_rfl

theorem t11_p6_eq : t11_p6 (F := F) = (Pipeline.chainK
  [ seq c35_1 ]
  (t11_p7 (F := F)) : Prog (TpuEff nD τ sig (Elt F) (Pipeline.Sig Λ₀ (Fin 0) fun p => (pcfgs (F := F) p).Adm) .tc) PUnit) := by
  chain_rfl

theorem t11_p7_eq : t11_p7 (F := F) = (Pipeline.chainK
  [ seq c35_2 ]
  (t11_p8 (F := F)) : Prog (TpuEff nD τ sig (Elt F) (Pipeline.Sig Λ₀ (Fin 0) fun p => (pcfgs (F := F) p).Adm) .tc) PUnit) := by
  chain_rfl

theorem t11_p8_eq : t11_p8 (F := F) = (Pipeline.chainK
  [ seq c35_3 ]
  (t11_p9 (F := F)) : Prog (TpuEff nD τ sig (Elt F) (Pipeline.Sig Λ₀ (Fin 0) fun p => (pcfgs (F := F) p).Adm) .tc) PUnit) := by
  chain_rfl

theorem t11_p9_eq : t11_p9 (F := F) = (Pipeline.chainK
  [ seq c35_4 ]
  (t11_p10 (F := F)) : Prog (TpuEff nD τ sig (Elt F) (Pipeline.Sig Λ₀ (Fin 0) fun p => (pcfgs (F := F) p).Adm) .tc) PUnit) := by
  chain_rfl

theorem t11_p10_eq : t11_p10 (F := F) = (Pipeline.chainK
  [ seq c35_5 ]
  (t11_p11 (F := F)) : Prog (TpuEff nD τ sig (Elt F) (Pipeline.Sig Λ₀ (Fin 0) fun p => (pcfgs (F := F) p).Adm) .tc) PUnit) := by
  chain_rfl

theorem t11_p11_eq : t11_p11 (F := F) = (Pipeline.chainK
  [ seq c35_6 ]
  (t11_p12 (F := F)) : Prog (TpuEff nD τ sig (Elt F) (Pipeline.Sig Λ₀ (Fin 0) fun p => (pcfgs (F := F) p).Adm) .tc) PUnit) := by
  chain_rfl

theorem t11_p12_eq : t11_p12 (F := F) = (Pipeline.chainK
  [ seq c36_0 ]
  (t11_p13 (F := F)) : Prog (TpuEff nD τ sig (Elt F) (Pipeline.Sig Λ₀ (Fin 0) fun p => (pcfgs (F := F) p).Adm) .tc) PUnit) := by
  chain_rfl

theorem t11_p13_eq : t11_p13 (F := F) = (Pipeline.chainK
  [ seq c36_1 ]
  (t11_p14 (F := F)) : Prog (TpuEff nD τ sig (Elt F) (Pipeline.Sig Λ₀ (Fin 0) fun p => (pcfgs (F := F) p).Adm) .tc) PUnit) := by
  chain_rfl

theorem t11_p14_eq : t11_p14 (F := F) = (Pipeline.chainK
  [ seq c36_2 ]
  (t11_p15 (F := F)) : Prog (TpuEff nD τ sig (Elt F) (Pipeline.Sig Λ₀ (Fin 0) fun p => (pcfgs (F := F) p).Adm) .tc) PUnit) := by
  chain_rfl

theorem t11_p15_eq : t11_p15 (F := F) = (Pipeline.chainK
  [ seq c36_3 ]
  (t11_p16 (F := F)) : Prog (TpuEff nD τ sig (Elt F) (Pipeline.Sig Λ₀ (Fin 0) fun p => (pcfgs (F := F) p).Adm) .tc) PUnit) := by
  chain_rfl

theorem t11_p16_eq : t11_p16 (F := F) = (Pipeline.chainK
  [ seq c36_4 ]
  (t11_p17 (F := F)) : Prog (TpuEff nD τ sig (Elt F) (Pipeline.Sig Λ₀ (Fin 0) fun p => (pcfgs (F := F) p).Adm) .tc) PUnit) := by
  chain_rfl

theorem t11_p17_eq : t11_p17 (F := F) = (Pipeline.chainK
  [ seq c36_5 ]
  (t11_p18 (F := F)) : Prog (TpuEff nD τ sig (Elt F) (Pipeline.Sig Λ₀ (Fin 0) fun p => (pcfgs (F := F) p).Adm) .tc) PUnit) := by
  chain_rfl

theorem t11_p18_eq : t11_p18 (F := F) = (Pipeline.chainK
  [ seq c36_6 ]
  (t11_p19 (F := F)) : Prog (TpuEff nD τ sig (Elt F) (Pipeline.Sig Λ₀ (Fin 0) fun p => (pcfgs (F := F) p).Adm) .tc) PUnit) := by
  chain_rfl

theorem t11_p19_eq : t11_p19 (F := F) = (Pipeline.chainK
  [ seq c37_0 ]
  (t11_p20 (F := F)) : Prog (TpuEff nD τ sig (Elt F) (Pipeline.Sig Λ₀ (Fin 0) fun p => (pcfgs (F := F) p).Adm) .tc) PUnit) := by
  chain_rfl

theorem t11_p20_eq : t11_p20 (F := F) = (Pipeline.chainK
  [ seq c37_1 ]
  (t11_p21 (F := F)) : Prog (TpuEff nD τ sig (Elt F) (Pipeline.Sig Λ₀ (Fin 0) fun p => (pcfgs (F := F) p).Adm) .tc) PUnit) := by
  chain_rfl

theorem t11_p21_eq : t11_p21 (F := F) = (Pipeline.chainK
  [ seq c37_2 ]
  (t11_p22 (F := F)) : Prog (TpuEff nD τ sig (Elt F) (Pipeline.Sig Λ₀ (Fin 0) fun p => (pcfgs (F := F) p).Adm) .tc) PUnit) := by
  chain_rfl

theorem t11_p22_eq : t11_p22 (F := F) = (Pipeline.chainK
  [ seq c37_3 ]
  (t11_p23 (F := F)) : Prog (TpuEff nD τ sig (Elt F) (Pipeline.Sig Λ₀ (Fin 0) fun p => (pcfgs (F := F) p).Adm) .tc) PUnit) := by
  chain_rfl

theorem t11_p23_eq : t11_p23 (F := F) = (Pipeline.chainK
  [ seq c37_4 ]
  (t11_p24 (F := F)) : Prog (TpuEff nD τ sig (Elt F) (Pipeline.Sig Λ₀ (Fin 0) fun p => (pcfgs (F := F) p).Adm) .tc) PUnit) := by
  chain_rfl

theorem t11_p24_eq : t11_p24 (F := F) = (Pipeline.chainK
  [  ]
  (seq c37_5) : Prog (TpuEff nD τ sig (Elt F) (Pipeline.Sig Λ₀ (Fin 0) fun p => (pcfgs (F := F) p).Adm) .tc) PUnit) := by
  chain_rfl

theorem main_part11_eq (d : Dev nD) : main_part11 (F := F) d = (seq w11 : Prog (TpuEff nD τ sig (Elt F) (Pipeline.Sig Λ₀ (Fin 0) fun p => (pcfgs (F := F) p).Adm) .tc) PUnit) := by
  rw [main_part11_chain d, t11_p1_eq, t11_p2_eq, t11_p3_eq, t11_p4_eq, t11_p5_eq, t11_p6_eq, t11_p7_eq, t11_p8_eq, t11_p9_eq, t11_p10_eq, t11_p11_eq, t11_p12_eq, t11_p13_eq, t11_p14_eq, t11_p15_eq, t11_p16_eq, t11_p17_eq, t11_p18_eq, t11_p19_eq, t11_p20_eq, t11_p21_eq, t11_p22_eq, t11_p23_eq, t11_p24_eq]
  simp only [w11, c34, c35, c36, c37, Pipeline.chainK, seq_append, bind_assoc]

end Cert.ReferenceIdeal.RefRunGen

end
-- ==== Proof.RefRunGen.P12.lean ====
import proofs.«416765_j9792525435349_4_alg».proof.Proof.RefRunGen.Ok
import Idealize.ShloMosaic.Lib.Pipeline.Regions

noncomputable section

namespace Cert.ReferenceIdeal.RefRunGen

open Cert.ReferenceIdeal Cert.ReferenceIdeal.Gen Idealize.ShloMosaic Idealize.ShloMosaic.TcCoe Idealize.SL.Sem Idealize.ShloMosaic.StableHlo

variable {F : FTy → Type} [FloatOps F]

abbrev c38_0 : List (HloOp τ sig (Elt F)) :=
  [ unary main_c_192 main_v525 (broadcastInDim S128x2048 ![] bcast_S_S128x2048 : (⟨S_, .i32⟩ : BufTy).Contents (Elt F) → (⟨S128x2048, .i32⟩ : BufTy).Contents (Elt F)),
    binary main_v523 main_v525 main_v526 (cmpi .slt : (⟨S128x2048, .i32⟩ : BufTy).Contents (Elt F) → (⟨S128x2048, .i32⟩ : BufTy).Contents (Elt F) → (⟨S128x2048, .i1⟩ : BufTy).Contents (Elt F)),
    nullary main_c_193 (constantI S_ 32 16#32) ]

theorem c38_0_ok : Ok (F := F) c38_0 :=
  ⟨⟨unary_bufs_sub .., rfl⟩, ⟨binary_bufs_sub .., rfl⟩, ⟨nullary_bufs_sub .., rfl⟩⟩

abbrev c38_1 : List (HloOp τ sig (Elt F)) :=
  [ unary main_c_193 main_v527 (broadcastInDim S128x2048 ![] bcast_S_S128x2048 : (⟨S_, .i32⟩ : BufTy).Contents (Elt F) → (⟨S128x2048, .i32⟩ : BufTy).Contents (Elt F)),
    binary main_v523 main_v527 main_v528 (addi : (⟨S128x2048, .i32⟩ : BufTy).Contents (Elt F) → (⟨S128x2048, .i32⟩ : BufTy).Contents (Elt F) → (⟨S128x2048, .i32⟩ : BufTy).Contents (Elt F)),
    ternary main_v526 main_v528 main_v523 main_v529 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F)) ]

theorem c38_1_ok : Ok (F := F) c38_1 :=
  ⟨⟨unary_bufs_sub .., rfl⟩, ⟨binary_bufs_sub .., rfl⟩, ⟨ternary_bufs_sub .., rfl⟩⟩

abbrev c38_2 : List (HloOp τ sig (Elt F)) :=
  [ nullary main_c_194 (constantI S_ 32 0#32),
    unary main_c_194 main_v530 (broadcastInDim S128x2048 ![] bcast_S_S128x2048 : (⟨S_, .i32⟩ : BufTy).Contents (Elt F) → (⟨S128x2048, .i32⟩ : BufTy).Contents (Elt F)),
    binary main_v524 main_v530 main_v531 (cmpi .slt : (⟨S128x2048, .i32⟩ : BufTy).Contents (Elt F) → (⟨S128x2048, .i32⟩ : BufTy).Contents (Elt F) → (⟨S128x2048, .i1⟩ : BufTy).Contents (Elt F)) ]

theorem c38_2_ok : Ok (F := F) c38_2 :=
  ⟨⟨nullary_bufs_sub .., rfl⟩, ⟨unary_bufs_sub .., rfl⟩, ⟨binary_bufs_sub .., rfl⟩⟩

abbrev c38_3 : List (HloOp τ sig (Elt F)) :=
  [ nullary main_c_195 (constantI S_ 32 16#32),
    unary main_c_195 main_v532 (broadcastInDim S128x2048 ![] bcast_S_S128x2048 : (⟨S_, .i32⟩ : BufTy).Contents (Elt F) → (⟨S128x2048, .i32⟩ : BufTy).Contents (Elt F)),
    binary main_v524 main_v532 main_v533 (addi : (⟨S128x2048, .i32⟩ : BufTy).Contents (Elt F) → (⟨S128x2048, .i32⟩ : BufTy).Contents (Elt F) → (⟨S128x2048, .i32⟩ : BufTy).Contents (Elt F)) ]

theorem c38_3_ok : Ok (F := F) c38_3 :=
  ⟨⟨nullary_bufs_sub .., rfl⟩, ⟨unary_bufs_sub .., rfl⟩, ⟨binary_bufs_sub .., rfl⟩⟩

abbrev c38_4 : List (HloOp τ sig (Elt F)) :=
  [ ternary main_v531 main_v533 main_v524 main_v534 (select : (⟨S128x2048, .i1⟩ : BufTy).Contents (Elt F) → (⟨S128x2048, .i32⟩ : BufTy).Contents (Elt F) → (⟨S128x2048, .i32⟩ : BufTy).Contents (Elt F) → (⟨S128x2048, .i32⟩ : BufTy).Contents (Elt F)),
    unary main_v529 main_v535 (broadcastInDim S128x2048x1 ![0, 1] bcast_S128x2048_S128x2048x1_0_1 : (⟨S128x2048, .i32⟩ : BufTy).Contents (Elt F) → (⟨S128x2048x1, .i32⟩ : BufTy).Contents (Elt F)),
    unary main_v534 main_v536 (broadcastInDim S128x2048x1 ![0, 1] bcast_S128x2048_S128x2048x1_0_1 : (⟨S128x2048, .i32⟩ : BufTy).Contents (Elt F) → (⟨S128x2048x1, .i32⟩ : BufTy).Contents (Elt F)) ]

theorem c38_4_ok : Ok (F := F) c38_4 :=
  ⟨⟨ternary_bufs_sub .., rfl⟩, ⟨unary_bufs_sub .., rfl⟩, ⟨unary_bufs_sub .., rfl⟩⟩

abbrev c38_5 : List (HloOp τ sig (Elt F)) :=
  [ binary main_v535 main_v536 main_v537 ((fun a b => concatenate S128x2048x2 2 [⟨S128x2048x1, a⟩, ⟨S128x2048x1, b⟩] concatenates_S128x2048x1_S128x2048x1_S128x2048x2_d2) : (⟨S128x2048x1, .i32⟩ : BufTy).Contents (Elt F) → (⟨S128x2048x1, .i32⟩ : BufTy).Contents (Elt F) → (⟨S128x2048x2, .i32⟩ : BufTy).Contents (Elt F)) ]

theorem c38_5_ok : Ok (F := F) c38_5 :=
  ⟨binary_bufs_sub .., rfl⟩

abbrev c39_0 : List (HloOp τ sig (Elt F)) :=
  [ binary main_v366 main_v537 main_v538 ((fun x i => Host.gather gather_S128x64x16x16_S128x2048x2_S128x64x2048_1_23_0_0_23_2_16411 x i) : (⟨S128x64x16x16, .f32⟩ : BufTy).Contents (Elt F) → (⟨S128x2048x2, .i32⟩ : BufTy).Contents (Elt F) → (⟨S128x64x2048, .f32⟩ : BufTy).Contents (Elt F)),
    binary main_v510 main_v522 main_v539 (mulf : (⟨S128x2048, .f32⟩ : BufTy).Contents (Elt F) → (⟨S128x2048, .f32⟩ : BufTy).Contents (Elt F) → (⟨S128x2048, .f32⟩ : BufTy).Contents (Elt F)),
    unary main_v539 main_v540 (broadcastInDim S128x1x2048 ![0, 2] bcast_S128x2048_S128x1x2048_0_2 : (⟨S128x2048, .f32⟩ : BufTy).Contents (Elt F) → (⟨S128x1x2048, .f32⟩ : BufTy).Contents (Elt F)) ]

theorem c39_0_ok : Ok (F := F) c39_0 :=
  ⟨⟨binary_bufs_sub .., rfl⟩, ⟨binary_bufs_sub .., rfl⟩, ⟨unary_bufs_sub .., rfl⟩⟩

abbrev c39_1 : List (HloOp τ sig (Elt F)) :=
  [ unary main_v540 main_v541 (broadcastInDim S128x64x2048 ![0, 1, 2] bcast_S128x1x2048_S128x64x2048_0_1_2 : (⟨S128x1x2048, .f32⟩ : BufTy).Contents (Elt F) → (⟨S128x64x2048, .f32⟩ : BufTy).Contents (Elt F)),
    binary main_v538 main_v541 main_v542 (mulf : (⟨S128x64x2048, .f32⟩ : BufTy).Contents (Elt F) → (⟨S128x64x2048, .f32⟩ : BufTy).Contents (Elt F) → (⟨S128x64x2048, .f32⟩ : BufTy).Contents (Elt F)),
    binary main_v505 main_v542 main_v543 (addf : (⟨S128x64x2048, .f32⟩ : BufTy).Contents (Elt F) → (⟨S128x64x2048, .f32⟩ : BufTy).Contents (Elt F) → (⟨S128x64x2048, .f32⟩ : BufTy).Contents (Elt F)) ]

theorem c39_1_ok : Ok (F := F) c39_1 :=
  ⟨⟨unary_bufs_sub .., rfl⟩, ⟨binary_bufs_sub .., rfl⟩, ⟨binary_bufs_sub .., rfl⟩⟩

abbrev c39_2 : List (HloOp τ sig (Elt F)) :=
  [ nary ![main_v181, main_v362, main_v543] main_v544 (fun u => concatenate S128x192x2048 1 [⟨S128x64x2048, u 0⟩, ⟨S128x64x2048, u 1⟩, ⟨S128x64x2048, u 2⟩] concatenates_S128x64x2048_S128x64x2048_S128x64x2048_S128x192x2048_d1),
    reshape main_arg2 main_v545 rfl shapeCasts_S1x192x1x2048_S1x192x2048,
    unary main_v545 main_v546 (broadcastInDim S128x192x2048 ![0, 1, 2] bcast_S1x192x2048_S128x192x2048_0_1_2 : (⟨S1x192x2048, .f32⟩ : BufTy).Contents (Elt F) → (⟨S128x192x2048, .f32⟩ : BufTy).Contents (Elt F)) ]

theorem c39_2_ok : Ok (F := F) c39_2 :=
  ⟨⟨nary_bufs_sub .., rfl⟩, ⟨reshape_bufs_sub .., rfl⟩, ⟨unary_bufs_sub .., rfl⟩⟩

abbrev c39_3 : List (HloOp τ sig (Elt F)) :=
  [ binary main_v544 main_v546 main_v547 (mulf : (⟨S128x192x2048, .f32⟩ : BufTy).Contents (Elt F) → (⟨S128x192x2048, .f32⟩ : BufTy).Contents (Elt F) → (⟨S128x192x2048, .f32⟩ : BufTy).Contents (Elt F)),
    nullary main_cst_196 (constant S_ .f32 0x00000000#32),
    binary main_v547 main_cst_196 main_v548 ((fun x v => Host.reduceAdd x v reducesTo_S128x192x2048_S128x2048_d1 h_S_) : (⟨S128x192x2048, .f32⟩ : BufTy).Contents (Elt F) → (⟨S_, .f32⟩ : BufTy).Contents (Elt F) → (⟨S128x2048, .f32⟩ : BufTy).Contents (Elt F)) ]

theorem c39_3_ok : Ok (F := F) c39_3 :=
  ⟨⟨binary_bufs_sub .., rfl⟩, ⟨nullary_bufs_sub .., rfl⟩, ⟨binary_bufs_sub .., rfl⟩⟩

abbrev c39_4 : List (HloOp τ sig (Elt F)) :=
  [ reshape main_v548 main_v549 rfl shapeCasts_S128x2048_S8x16x2048,
    unary main_arg3 main_v550 (broadcastInDim S1x1x2048 ![2] bcast_S2048_S1x1x2048_2 : (⟨S2048, .f32⟩ : BufTy).Contents (Elt F) → (⟨S1x1x2048, .f32⟩ : BufTy).Contents (Elt F)),
    unary main_v550 main_v551 (broadcastInDim S8x16x2048 ![0, 1, 2] bcast_S1x1x2048_S8x16x2048_0_1_2 : (⟨S1x1x2048, .f32⟩ : BufTy).Contents (Elt F) → (⟨S8x16x2048, .f32⟩ : BufTy).Contents (Elt F)) ]

theorem c39_4_ok : Ok (F := F) c39_4 :=
  ⟨⟨reshape_bufs_sub .., rfl⟩, ⟨unary_bufs_sub .., rfl⟩, ⟨unary_bufs_sub .., rfl⟩⟩

abbrev c39_5 : List (HloOp τ sig (Elt F)) :=
  [ binary main_v549 main_v551 main_v552 (addf : (⟨S8x16x2048, .f32⟩ : BufTy).Contents (Elt F) → (⟨S8x16x2048, .f32⟩ : BufTy).Contents (Elt F) → (⟨S8x16x2048, .f32⟩ : BufTy).Contents (Elt F)) ]

theorem c39_5_ok : Ok (F := F) c39_5 :=
  ⟨binary_bufs_sub .., rfl⟩

def c38 : List (HloOp τ sig (Elt F)) := c38_0 ++ (c38_1 ++ (c38_2 ++ (c38_3 ++ (c38_4 ++ (c38_5)))))

theorem c38_ok : Ok (F := F) c38 := c38_0_ok.append (c38_1_ok.append (c38_2_ok.append (c38_3_ok.append (c38_4_ok.append (c38_5_ok)))))

def c39 : List (HloOp τ sig (Elt F)) := c39_0 ++ (c39_1 ++ (c39_2 ++ (c39_3 ++ (c39_4 ++ (c39_5)))))

theorem c39_ok : Ok (F := F) c39 := c39_0_ok.append (c39_1_ok.append (c39_2_ok.append (c39_3_ok.append (c39_4_ok.append (c39_5_ok)))))

def w12 : List (HloOp τ sig (Elt F)) := c38 ++ (c39)

theorem w12_ok : Ok (F := F) w12 := c38_ok.append (c39_ok)

theorem main_part12_chain (d : Dev nD) : main_part12 (F := F) d = (Pipeline.chainK
  [ seq c38_0,
    seq c38_1,
    seq c38_2,
    seq c38_3,
    seq c38_4,
    seq c38_5,
    seq c39_0,
    seq c39_1,
    seq c39_2,
    seq c39_3,
    seq c39_4 ]
  (seq c39_5) : Prog (TpuEff nD τ sig (Elt F) (Pipeline.Sig Λ₀ (Fin 0) fun p => (pcfgs (F := F) p).Adm) .tc) PUnit) := by
  chain_rfl

theorem main_part12_eq (d : Dev nD) : main_part12 (F := F) d = (seq w12 : Prog (TpuEff nD τ sig (Elt F) (Pipeline.Sig Λ₀ (Fin 0) fun p => (pcfgs (F := F) p).Adm) .tc) PUnit) := by
  rw [main_part12_chain d]
  simp only [w12, c38, c39, Pipeline.chainK, seq_append, bind_assoc]

end Cert.ReferenceIdeal.RefRunGen

end
-- ==== Proof.RefRun.lean ====
import proofs.«416765_j9792525435349_4_alg».proof.Proof.RefRunGen.P0
import proofs.«416765_j9792525435349_4_alg».proof.Proof.RefRunGen.P1
import proofs.«416765_j9792525435349_4_alg».proof.Proof.RefRunGen.P2
import proofs.«416765_j9792525435349_4_alg».proof.Proof.RefRunGen.P3
import proofs.«416765_j9792525435349_4_alg».proof.Proof.RefRunGen.P4
import proofs.«416765_j9792525435349_4_alg».proof.Proof.RefRunGen.P5
import proofs.«416765_j9792525435349_4_alg».proof.Proof.RefRunGen.P6
import proofs.«416765_j9792525435349_4_alg».proof.Proof.RefRunGen.P7
import proofs.«416765_j9792525435349_4_alg».proof.Proof.RefRunGen.P8
import proofs.«416765_j9792525435349_4_alg».proof.Proof.RefRunGen.P9
import proofs.«416765_j9792525435349_4_alg».proof.Proof.RefRunGen.P10
import proofs.«416765_j9792525435349_4_alg».proof.Proof.RefRunGen.P11
import proofs.«416765_j9792525435349_4_alg».proof.Proof.RefRunGen.P12
import proofs.«416765_j9792525435349_4_alg».proof.Proof.PatchedReferenceIdeal.Read

noncomputable section

namespace Cert.ReferenceIdeal.RefRun

open Cert.ReferenceIdeal Cert.ReferenceIdeal.Gen Cert.ReferenceIdeal.RefRunGen Idealize.ShloMosaic Idealize.ShloMosaic.TcCoe Idealize.SL.Sem Idealize.ShloMosaic.StableHlo

variable {F : FTy → Type} [FloatOps F]

abbrev ops : List (HloOp τ sig (Elt F)) :=
  w0 ++ (w1 ++ (w2 ++ (w3 ++ (w4 ++ (w5 ++ (w6 ++ (w7 ++ (w8 ++ (w9 ++ (w10 ++ (w11 ++ w12)))))))))))

theorem main_eq (d : Dev nD) : main (F := F) d = seq ops := by
  unfold main
  rw [main_part0_eq d, main_part1_eq d, main_part2_eq d, main_part3_eq d, main_part4_eq d, main_part5_eq d, main_part6_eq d,
    main_part7_eq d, main_part8_eq d, main_part9_eq d, main_part10_eq d, main_part11_eq d, main_part12_eq d]
  simp only [ops, seq_append]

theorem scopedRefs_eq : (Finset.univ.filter fun b : Ref sig .tc => b.isScoped) = ∅ := by decide
theorem scopedSems_eq : (Finset.univ.filter fun sm : SemLoc sig => sm.isScoped .tc) = ∅ := by decide

theorem ops_ok : Ok (F := F) ops :=
  w0_ok.append (w1_ok.append (w2_ok.append (w3_ok.append (w4_ok.append (w5_ok.append (w6_ok.append (w7_ok.append
    (w8_ok.append (w9_ok.append (w10_ok.append (w11_ok.append w12_ok)))))))))))

/-- Each stage is defined as its operation's function of its operands' stages, so the line's fold read at the result buffer unfolds to the last stage. -/
theorem value (V : Valuation τ sig (Elt F)) :
    after ops V (Proc.devRef .tc main_v552) = ReadP.val_main_v552 (F := F) (V (Proc.devRef .tc main_arg0))
      (V (Proc.devRef .tc main_arg1)) (V (Proc.devRef .tc main_arg2)) (V (Proc.devRef .tc main_arg3)) := by
  chain_rfl

/-- No operation writes an argument. -/
theorem kept (V : Valuation τ sig (Elt F)) :
    after ops V (Proc.devRef .tc main_arg0) = V (Proc.devRef .tc main_arg0)
      ∧ after ops V (Proc.devRef .tc main_arg1) = V (Proc.devRef .tc main_arg1)
      ∧ after ops V (Proc.devRef .tc main_arg2) = V (Proc.devRef .tc main_arg2)
      ∧ after ops V (Proc.devRef .tc main_arg3) = V (Proc.devRef .tc main_arg3) :=
  ⟨by chain_rfl, by chain_rfl, by chain_rfl, by chain_rfl⟩

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v552) = ReadP.val_main_v552 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      have k := kept (F := F) (launchContents m c)
      ⟨(h c main_v552).trans (value (launchContents m c)), (h c main_arg0).trans k.1, (h c main_arg1).trans k.2.1,
        (h c main_arg2).trans k.2.2.1, (h c main_arg3).trans k.2.2.2⟩)
    (run_seq scopedRefs_eq scopedSems_eq defs main (fun _ => ops) main_eq (fun _ => ops_ok.sub) m ρ (fun _ => ops_ok.fresh))

end Cert.ReferenceIdeal.RefRun

end
-- ==== Proof.RefTop.lean ====
import proofs.«416765_j9792525435349_4_alg».proof.Proof.PatchedReferenceIdeal.Read
import proofs.«416765_j9792525435349_4_alg».proof.Proof.Forms
import Idealize.ShloMosaic.Lib.Pipeline.Value
import Idealize.ShloMosaic.Lib.ValueIdx
import Idealize.ShloMosaic.PureOps.Ideal

noncomputable section

namespace Cert.ReferenceIdeal.RefTop

open Cert.ReferenceIdeal Cert.ReferenceIdeal.Gen Idealize.ShloMosaic Idealize.ShloMosaic.ValueIdx

abbrev X0 := (⟨S8x64x16x64x64, .f32⟩ : BufTy).Contents (Elt Ideal)
abbrev X1 := (⟨S1x2048x1x2, .f32⟩ : BufTy).Contents (Elt Ideal)
abbrev X2 := (⟨S1x192x1x2048, .f32⟩ : BufTy).Contents (Elt Ideal)
abbrev X3 := (⟨S2048, .f32⟩ : BufTy).Contents (Elt Ideal)

theorem v544_apply_lo (x0 : X0) (x1 : X1) (b : Fin 128) (k : Fin 192) (o : Fin 2048) (hk : k.val < 64) :
    ReadP.val_main_v544 (F := Ideal) x0 x1 (ix3 b k o) = ReadP.val_main_v181 (F := Ideal) x0 x1 (ix3 b ⟨k.val, hk⟩ o) := by
  unfold ReadP.val_main_v544
  refine concatenate_apply_piece (t := S128x192x2048) (1 : Fin 3)
    [⟨S128x64x2048, ReadP.val_main_v181 (F := Ideal) x0 x1⟩, ⟨S128x64x2048, ReadP.val_main_v362 (F := Ideal) x0 x1⟩, ⟨S128x64x2048, ReadP.val_main_v543 (F := Ideal) x0 x1⟩]
    concatenates_S128x64x2048_S128x64x2048_S128x64x2048_S128x192x2048_d1 (ix3 b k o) 0 (by simp) S128x64x2048 _ rfl rfl 0 rfl
    (ix3 b ⟨k.val, hk⟩ o) ?_ ?_
  · intro b' hb'
    match b' with
    | ⟨0, _⟩ => rfl
    | ⟨1, _⟩ => exact absurd rfl hb'
    | ⟨2, _⟩ => rfl
  · show 0 + k.val = k.val
    omega

theorem v544_apply_mid (x0 : X0) (x1 : X1) (b : Fin 128) (k : Fin 192) (o : Fin 2048) (hk : 64 ≤ k.val) (hk' : k.val < 128) :
    ReadP.val_main_v544 (F := Ideal) x0 x1 (ix3 b k o) = ReadP.val_main_v362 (F := Ideal) x0 x1 (ix3 b ⟨k.val - 64, by omega⟩ o) := by
  unfold ReadP.val_main_v544
  refine concatenate_apply_piece (t := S128x192x2048) (1 : Fin 3)
    [⟨S128x64x2048, ReadP.val_main_v181 (F := Ideal) x0 x1⟩, ⟨S128x64x2048, ReadP.val_main_v362 (F := Ideal) x0 x1⟩, ⟨S128x64x2048, ReadP.val_main_v543 (F := Ideal) x0 x1⟩]
    concatenates_S128x64x2048_S128x64x2048_S128x64x2048_S128x192x2048_d1 (ix3 b k o) 1 (by simp) S128x64x2048 _ rfl rfl 64 rfl
    (ix3 b ⟨k.val - 64, by omega⟩ o) ?_ ?_
  · intro b' hb'
    match b' with
    | ⟨0, _⟩ => rfl
    | ⟨1, _⟩ => exact absurd rfl hb'
    | ⟨2, _⟩ => rfl
  · show 64 + (k.val - 64) = k.val
    omega

theorem v544_apply_hi (x0 : X0) (x1 : X1) (b : Fin 128) (k : Fin 192) (o : Fin 2048) (hk : 128 ≤ k.val) :
    ReadP.val_main_v544 (F := Ideal) x0 x1 (ix3 b k o) = ReadP.val_main_v543 (F := Ideal) x0 x1 (ix3 b ⟨k.val - 128, by omega⟩ o) := by
  unfold ReadP.val_main_v544
  refine concatenate_apply_piece (t := S128x192x2048) (1 : Fin 3)
    [⟨S128x64x2048, ReadP.val_main_v181 (F := Ideal) x0 x1⟩, ⟨S128x64x2048, ReadP.val_main_v362 (F := Ideal) x0 x1⟩, ⟨S128x64x2048, ReadP.val_main_v543 (F := Ideal) x0 x1⟩]
    concatenates_S128x64x2048_S128x64x2048_S128x64x2048_S128x192x2048_d1 (ix3 b k o) 2 (by simp) S128x64x2048 _ rfl rfl 128 rfl
    (ix3 b ⟨k.val - 128, by omega⟩ o) ?_ ?_
  · intro b' hb'
    match b' with
    | ⟨0, _⟩ => rfl
    | ⟨1, _⟩ => exact absurd rfl hb'
    | ⟨2, _⟩ => rfl
  · show 128 + (k.val - 128) = k.val
    omega

theorem v546_apply (x2 : X2) (b : Fin 128) (k : Fin 192) (o : Fin 2048) :
    ReadP.val_main_v546 (F := Ideal) x2 (ix3 b k o) = x2 (ix4 0 k 0 o) := by
  rw [ReadP.val_main_v546_apply, ReadP.val_main_v545_apply]
  refine congrArg x2 (funext fun a => Fin.ext ?_)
  have hk := k.isLt
  have ho := o.isLt
  match a with
  | ⟨0, _⟩ => rfl
  | ⟨1, _⟩ => show ((0 * 192 + k.val) * 2048 + o.val) / 2048 % 192 = k.val; omega
  | ⟨2, _⟩ => rfl
  | ⟨3, _⟩ => show ((0 * 192 + k.val) * 2048 + o.val) % 2048 = o.val; omega

theorem v551_apply (x3 : X3) (n : Fin 8) (tt : Fin 16) (o : Fin 2048) :
    ReadP.val_main_v551 (F := Ideal) x3 (ix3 n tt o) = x3 (ix1 o) := by
  rw [ReadP.val_main_v551_apply, ReadP.val_main_v550_apply]
  refine congrArg x3 (funext fun a => ?_)
  match a with
  | ⟨0, _⟩ => rfl

theorem v548_apply (x0 : X0) (x1 : X1) (x2 : X2) (b : Fin 128) (o : Fin 2048) :
    ReadP.val_main_v548 (F := Ideal) x0 x1 x2 (ix2 b o)
      = Spec.zero32 + ∑ k : Fin 192, ReadP.val_main_v544 (F := Ideal) x0 x1 (ix3 b k o) * x2 (ix4 0 k 0 o) := by
  rw [ReadP.val_main_v548_apply]
  refine congrArg (Spec.zero32 + ·) (Finset.sum_congr rfl fun k _ => ?_)
  have hi : ReadP.idx_main_v548 (ix2 b o) k = ix3 b k o := by
    funext a
    match a with
    | ⟨0, _⟩ => rfl
    | ⟨1, _⟩ => rfl
    | ⟨2, _⟩ => rfl
  rw [hi, ReadP.val_main_v547_apply, v546_apply]
  rfl

theorem v549_apply (x0 : X0) (x1 : X1) (x2 : X2) (n : Fin 8) (tt : Fin 16) (o : Fin 2048) :
    ReadP.val_main_v549 (F := Ideal) x0 x1 x2 (ix3 n tt o)
      = ReadP.val_main_v548 (F := Ideal) x0 x1 x2 (ix2 ⟨n.val * 16 + tt.val, by omega⟩ o) := by
  rw [ReadP.val_main_v549_apply]
  refine congrArg _ (funext fun a => Fin.ext ?_)
  have hn := n.isLt
  have ht := tt.isLt
  have ho := o.isLt
  match a with
  | ⟨0, _⟩ => show ((n.val * 16 + tt.val) * 2048 + o.val) / 2048 = n.val * 16 + tt.val; omega
  | ⟨1, _⟩ => show ((n.val * 16 + tt.val) * 2048 + o.val) % 2048 = o.val; omega

section Assembly

variable (x0 : X0) (x1 : X1)
  (H4 : ∀ (b : Fin 128) (ch : Fin 64) (w h : Fin 64), ReadP.val_main_v4 (F := Ideal) x0 (ix4 b ch w h)
      = x0 (ix5 ⟨b.val / 16, by omega⟩ ch ⟨b.val % 16, by omega⟩ w h))
  (H185 : ∀ (b : Fin 128) (ch : Fin 64) (a c : Fin 32), ReadP.val_main_v185 (F := Ideal) x0 (ix4 b ch a c)
      = Spec.pool64 (fun w h => ReadP.val_main_v4 (F := Ideal) x0 (ix4 b ch w h)) a c)
  (H366 : ∀ (b : Fin 128) (ch : Fin 64) (a c : Fin 16), ReadP.val_main_v366 (F := Ideal) x0 (ix4 b ch a c)
      = Spec.pool32 (fun w h => ReadP.val_main_v185 (F := Ideal) x0 (ix4 b ch w h)) a c)
  (H181 : ∀ (b : Fin 128) (ch : Fin 64) (o : Fin 2048), ReadP.val_main_v181 (F := Ideal) x0 x1 (ix3 b ch o)
      = Spec.sample (n := 64) (by decide) Spec.szf0 64#32 63#32 (fun w h => ReadP.val_main_v4 (F := Ideal) x0 (ix4 b ch w h)) (Spec.gxOf x1 o) (Spec.gyOf x1 o))
  (H362 : ∀ (b : Fin 128) (ch : Fin 64) (o : Fin 2048), ReadP.val_main_v362 (F := Ideal) x0 x1 (ix3 b ch o)
      = Spec.sample (n := 32) (by decide) Spec.szf1 32#32 31#32 (fun w h => ReadP.val_main_v185 (F := Ideal) x0 (ix4 b ch w h)) (Spec.gxOf x1 o) (Spec.gyOf x1 o))
  (H543 : ∀ (b : Fin 128) (ch : Fin 64) (o : Fin 2048), ReadP.val_main_v543 (F := Ideal) x0 x1 (ix3 b ch o)
      = Spec.sample (n := 16) (by decide) Spec.szf2 16#32 15#32 (fun w h => ReadP.val_main_v366 (F := Ideal) x0 (ix4 b ch w h)) (Spec.gxOf x1 o) (Spec.gyOf x1 o))

include H4 in

theorem img0_eq (n : Fin 8) (tt : Fin 16) (ch : Fin 64) :
    (fun w h => ReadP.val_main_v4 (F := Ideal) x0 (ix4 ⟨n.val * 16 + tt.val, by omega⟩ ch w h)) = Spec.img0 x0 n ch tt := by
  funext w h
  rw [H4]
  refine congrArg x0 (funext fun a => Fin.ext ?_)
  have hn := n.isLt
  have ht := tt.isLt
  match a with
  | ⟨0, _⟩ => show (n.val * 16 + tt.val) / 16 = n.val; omega
  | ⟨1, _⟩ => rfl
  | ⟨2, _⟩ => show (n.val * 16 + tt.val) % 16 = tt.val; omega
  | ⟨3, _⟩ => rfl
  | ⟨4, _⟩ => rfl

include H4 H185 in

theorem img1_eq (n : Fin 8) (tt : Fin 16) (ch : Fin 64) :
    (fun a c => ReadP.val_main_v185 (F := Ideal) x0 (ix4 ⟨n.val * 16 + tt.val, by omega⟩ ch a c)) = Spec.pool64 (Spec.img0 x0 n ch tt) := by
  funext a c
  rw [H185]
  exact congrArg (fun im => Spec.pool64 im a c) (img0_eq x0 H4 n tt ch)

include H4 H185 H366 in

theorem img2_eq (n : Fin 8) (tt : Fin 16) (ch : Fin 64) :
    (fun a c => ReadP.val_main_v366 (F := Ideal) x0 (ix4 ⟨n.val * 16 + tt.val, by omega⟩ ch a c))
      = Spec.pool32 (Spec.pool64 (Spec.img0 x0 n ch tt)) := by
  funext a c
  rw [H366]
  exact congrArg (fun im => Spec.pool32 im a c) (img1_eq x0 H4 H185 n tt ch)

include H4 H185 H366 H181 H362 H543 in

theorem v544_rY (n : Fin 8) (tt : Fin 16) (o : Fin 2048) (k : Fin 192) :
    ReadP.val_main_v544 (F := Ideal) x0 x1 (ix3 ⟨n.val * 16 + tt.val, by omega⟩ k o) = Spec.rY x0 x1 n tt o k := by
  unfold Spec.rY
  have hk := k.isLt
  by_cases h1 : k.val < 64
  · have hch : (⟨k.val % 64, Nat.mod_lt _ (by decide)⟩ : Fin 64) = ⟨k.val, h1⟩ := Fin.ext (Nat.mod_eq_of_lt h1)
    rw [if_pos h1, hch, v544_apply_lo x0 x1 _ k o h1, H181]
    exact congrArg (fun im => Spec.sample (n := 64) (by decide) Spec.szf0 64#32 63#32 im (Spec.gxOf x1 o) (Spec.gyOf x1 o))
      (img0_eq x0 H4 n tt _)
  · rw [if_neg h1]
    by_cases h2 : k.val < 128
    · have hch : (⟨k.val % 64, Nat.mod_lt _ (by decide)⟩ : Fin 64) = ⟨k.val - 64, by omega⟩ := Fin.ext (by show k.val % 64 = k.val - 64; omega)
      rw [if_pos h2, hch, v544_apply_mid x0 x1 _ k o (by omega) h2, H362]
      exact congrArg (fun im => Spec.sample (n := 32) (by decide) Spec.szf1 32#32 31#32 im (Spec.gxOf x1 o) (Spec.gyOf x1 o))
        (img1_eq x0 H4 H185 n tt _)
    · have hch : (⟨k.val % 64, Nat.mod_lt _ (by decide)⟩ : Fin 64) = ⟨k.val - 128, by omega⟩ := Fin.ext (by show k.val % 64 = k.val - 128; omega)
      rw [if_neg h2, hch, v544_apply_hi x0 x1 _ k o (by omega), H543]
      exact congrArg (fun im => Spec.sample (n := 16) (by decide) Spec.szf2 16#32 15#32 im (Spec.gxOf x1 o) (Spec.gyOf x1 o))
        (img2_eq x0 H4 H185 H366 n tt _)

include H4 H185 H366 H181 H362 H543 in

theorem v552_apply_of (x2 : X2) (x3 : X3) (n : Fin 8) (tt : Fin 16) (o : Fin 2048) :
    ReadP.val_main_v552 (F := Ideal) x0 x1 x2 x3 (ix3 n tt o) = Spec.rOut x0 x1 x2 x3 n tt o := by
  rw [ReadP.val_main_v552_apply]
  show ReadP.val_main_v549 (F := Ideal) x0 x1 x2 (ix3 n tt o) + ReadP.val_main_v551 (F := Ideal) x3 (ix3 n tt o) = _
  rw [v551_apply, v549_apply, v548_apply]
  unfold Spec.rOut
  refine congrArg (· + x3 (ix1 o)) (congrArg (Spec.zero32 + ·) (Finset.sum_congr rfl fun k _ => ?_))
  rw [v544_rY x0 x1 H4 H185 H366 H181 H362 H543 n tt o k]

end Assembly

end Cert.ReferenceIdeal.RefTop

end
-- ==== Proof.RefImg.lean ====
import proofs.«416765_j9792525435349_4_alg».proof.Proof.PatchedReferenceIdeal.Read
import proofs.«416765_j9792525435349_4_alg».proof.Proof.Spec
import proofs.«416765_j9792525435349_4_alg».proof.Proof.Algebra
import Idealize.ShloMosaic.Lib.ValueIdx
import Idealize.ShloMosaic.Lib.ValueIdxRank6
import Idealize.ShloMosaic.Lib.Pipeline.Value
import Idealize.ShloMosaic.PureOps.Ideal.Laws
import Mathlib.Tactic.Ring

noncomputable section

namespace Cert.ReferenceIdeal.RefImg

open Cert.ReferenceIdeal Cert.ReferenceIdeal.Gen Idealize.ShloMosaic Idealize.ShloMosaic.ValueIdx
open scoped BigOperators

theorem hostReduceAdd_pairs {n0 n1 n2 n4 : Nat}
    (h : (⟨6, ![n0, n1, n2, 2, n4, 2]⟩ : Shape).ReducesTo [3, 5] ⟨4, ![n0, n1, n2, n4]⟩)
    (x : (⟨6, ![n0, n1, n2, 2, n4, 2]⟩ : Shape).Idx → EReal) (init : EReal)
    (a : Fin n0) (b : Fin n1) (c : Fin n2) (d : Fin n4) :
    Ideal.hostReduceAdd h x init (ix4 a b c d) = init + ∑ pq : Fin 2 × Fin 2, x (ix6 a b c pq.1 d pq.2) := by
  unfold Ideal.hostReduceAdd
  congr 1
  symm
  refine Finset.sum_nbij' (fun pq => ix6 a b c pq.1 d pq.2) (fun i => (i 3, i 5)) ?_ ?_ ?_ ?_ ?_
  · intro pq _
    rw [Finset.mem_filter]
    refine ⟨Finset.mem_univ _, ?_⟩
    funext e
    match e with
    | ⟨0, _⟩ => rfl
    | ⟨1, _⟩ => rfl
    | ⟨2, _⟩ => rfl
    | ⟨3, _⟩ => rfl
  · intro i _; exact Finset.mem_univ _
  · intro pq _; rfl
  · intro i hi
    rw [Finset.mem_filter] at hi
    have h0 : i 0 = a := congrFun hi.2 (0 : Fin 4)
    have h1 : i 1 = b := congrFun hi.2 (1 : Fin 4)
    have h2 : i 2 = c := congrFun hi.2 (2 : Fin 4)
    have h4 : i 4 = d := congrFun hi.2 (3 : Fin 4)
    funext e
    match e with
    | ⟨0, _⟩ => exact h0.symm
    | ⟨1, _⟩ => exact h1.symm
    | ⟨2, _⟩ => exact h2.symm
    | ⟨3, _⟩ => rfl
    | ⟨4, _⟩ => exact h4.symm
    | ⟨5, _⟩ => rfl
  · intro pq _; rfl

theorem shapeCast_split {α : Type} {n0 n1 m m' : Nat}
    (h : (⟨4, ![n0, n1, 2 * m, 2 * m']⟩ : Shape).ShapeCasts ⟨6, ![n0, n1, m, 2, m', 2]⟩)
    (x : (⟨4, ![n0, n1, 2 * m, 2 * m']⟩ : Shape).Idx → α)
    (a : Fin n0) (b : Fin n1) (c : Fin m) (p : Fin 2) (d : Fin m') (q : Fin 2) :
    shapeCast _ x h (ix6 a b c p d q)
      = x (ix4 a b ⟨2 * c.val + p.val, by omega⟩ ⟨2 * d.val + q.val, by omega⟩) := by
  refine shapeCast_apply x h _ _ ?_
  rw [Shape.rowMajor_val_six, Shape.rowMajor_val_four]
  show ((a.val * n1 + b.val) * (2 * m) + (2 * c.val + p.val)) * (2 * m') + (2 * d.val + q.val)
    = ((((a.val * n1 + b.val) * m + c.val) * 2 + p.val) * m' + d.val) * 2 + q.val
  ring

theorem v4_apply (x0 : (⟨S8x64x16x64x64, .f32⟩ : BufTy).Contents (Elt Ideal)) (b : Fin 128) (ch w h : Fin 64) :
    ReadP.val_main_v4 (F := Ideal) x0 (ix4 b ch w h)
      = x0 (ix5 ⟨b.val / 16, by omega⟩ ch ⟨b.val % 16, by omega⟩ w h) := by
  rw [ReadP.val_main_v4_apply, ReadP.val_main_v3_apply]
  refine congrArg x0 (funext fun e => ?_)
  have hb := b.isLt
  have hc := ch.isLt
  have hw := w.isLt
  have hh := h.isLt
  match e with
  | ⟨0, _⟩ =>
    refine Fin.ext ?_
    show (((b.val * 64 + ch.val) * 64 + w.val) * 64 + h.val) / 4194304 = b.val / 16
    omega
  | ⟨1, _⟩ =>
    refine Fin.ext ?_
    show (((b.val * 64 + ch.val) * 64 + w.val) * 64 + h.val) / 4096 % 64 = ch.val
    omega
  | ⟨2, _⟩ =>
    refine Fin.ext ?_
    show (((b.val * 64 + ch.val) * 64 + w.val) * 64 + h.val) / 262144 % 16 = b.val % 16
    omega
  | ⟨3, _⟩ =>
    refine Fin.ext ?_
    show (((b.val * 64 + ch.val) * 64 + w.val) * 64 + h.val) / 64 % 64 = w.val
    omega
  | ⟨4, _⟩ =>
    refine Fin.ext ?_
    show (((b.val * 64 + ch.val) * 64 + w.val) * 64 + h.val) % 64 = h.val
    omega

theorem v183_apply (x0 : (⟨S8x64x16x64x64, .f32⟩ : BufTy).Contents (Elt Ideal)) (b : Fin 128) (ch : Fin 64)
    (a c : Fin 32) :
    ReadP.val_main_v183 (F := Ideal) x0 (ix4 b ch a c)
      = Spec.zero32 + ∑ pq : Fin 2 × Fin 2, ReadP.val_main_v4 (F := Ideal) x0
          (ix4 b ch ⟨2 * a.val + pq.1.val, by omega⟩ ⟨2 * c.val + pq.2.val, by omega⟩) := by
  show Ideal.hostReduceAdd reducesTo_S128x64x32x2x32x2_S128x64x32x32_d3_5 (ReadP.val_main_v182 (F := Ideal) x0)
    Spec.zero32 (ix4 b ch a c) = _
  rw [hostReduceAdd_pairs]
  refine congrArg (fun t => Spec.zero32 + t) (Finset.sum_congr rfl fun pq _ => ?_)
  exact shapeCast_split (m := 32) (m' := 32) shapeCasts_S128x64x64x64_S128x64x32x2x32x2
    (ReadP.val_main_v4 (F := Ideal) x0) b ch a pq.1 c pq.2

theorem v185_apply (x0 : (⟨S8x64x16x64x64, .f32⟩ : BufTy).Contents (Elt Ideal)) (b : Fin 128) (ch : Fin 64)
    (a c : Fin 32) :
    ReadP.val_main_v185 (F := Ideal) x0 (ix4 b ch a c)
      = Spec.pool64 (fun w h => ReadP.val_main_v4 (F := Ideal) x0 (ix4 b ch w h)) a c := by
  show Ideal.div (ReadP.val_main_v183 (F := Ideal) x0 (ix4 b ch a c)) Spec.four32 = _
  rw [v183_apply, Algebra.zero32_eq, zero_add]
  unfold Spec.pool64
  rw [Algebra.mul_quarter_eq_div_four]
  refine congrArg (fun t => Ideal.div t Spec.four32) ?_
  exact (Algebra.sum_pairs_prod (fun p q => ReadP.val_main_v4 (F := Ideal) x0
      (ix4 b ch ⟨2 * a.val + p.val, by omega⟩ ⟨2 * c.val + q.val, by omega⟩))).trans
    (Algebra.sum_pairs (fun p q => ReadP.val_main_v4 (F := Ideal) x0
      (ix4 b ch ⟨2 * a.val + p.val, by omega⟩ ⟨2 * c.val + q.val, by omega⟩))).symm

theorem v364_apply (x0 : (⟨S8x64x16x64x64, .f32⟩ : BufTy).Contents (Elt Ideal)) (b : Fin 128) (ch : Fin 64)
    (a c : Fin 16) :
    ReadP.val_main_v364 (F := Ideal) x0 (ix4 b ch a c)
      = Spec.zero32 + ∑ pq : Fin 2 × Fin 2, ReadP.val_main_v185 (F := Ideal) x0
          (ix4 b ch ⟨2 * a.val + pq.1.val, by omega⟩ ⟨2 * c.val + pq.2.val, by omega⟩) := by
  show Ideal.hostReduceAdd reducesTo_S128x64x16x2x16x2_S128x64x16x16_d3_5 (ReadP.val_main_v363 (F := Ideal) x0)
    Spec.zero32 (ix4 b ch a c) = _
  rw [hostReduceAdd_pairs]
  refine congrArg (fun t => Spec.zero32 + t) (Finset.sum_congr rfl fun pq _ => ?_)
  exact shapeCast_split (m := 16) (m' := 16) shapeCasts_S128x64x32x32_S128x64x16x2x16x2
    (ReadP.val_main_v185 (F := Ideal) x0) b ch a pq.1 c pq.2

theorem v366_apply (x0 : (⟨S8x64x16x64x64, .f32⟩ : BufTy).Contents (Elt Ideal)) (b : Fin 128) (ch : Fin 64)
    (a c : Fin 16) :
    ReadP.val_main_v366 (F := Ideal) x0 (ix4 b ch a c)
      = Spec.pool32 (fun w h => ReadP.val_main_v185 (F := Ideal) x0 (ix4 b ch w h)) a c := by
  show Ideal.div (ReadP.val_main_v364 (F := Ideal) x0 (ix4 b ch a c)) Spec.four32 = _
  rw [v364_apply, Algebra.zero32_eq, zero_add]
  unfold Spec.pool32
  rw [Algebra.mul_quarter_eq_div_four]
  refine congrArg (fun t => Ideal.div t Spec.four32) ?_
  exact (Algebra.sum_pairs_prod (fun p q => ReadP.val_main_v185 (F := Ideal) x0
      (ix4 b ch ⟨2 * a.val + p.val, by omega⟩ ⟨2 * c.val + q.val, by omega⟩))).trans
    (Algebra.sum_pairs (fun p q => ReadP.val_main_v185 (F := Ideal) x0
      (ix4 b ch ⟨2 * a.val + p.val, by omega⟩ ⟨2 * c.val + q.val, by omega⟩))).symm

end Cert.ReferenceIdeal.RefImg
-- ==== Proof.LibBatchGather.lean ====
import Idealize.ShloMosaic.PureOps.Ideal
import Idealize.ShloMosaic.Lib.ValueIdx
import proofs.«416765_j9792525435349_4_alg».proof.Proof.LibRowOps

noncomputable section

namespace Cert.LibBatchGather

open Idealize.ShloMosaic Idealize.ShloMosaic.ValueIdx
open Cert.LibRowOps (clampRow)

/-- A batched gather of single points from an image reads the cell at the index pair, each coordinate clamped into the image. -/
theorem gather_points_apply {α : Type} {B Ch H W O w : Nat} (hH : 0 < H) (hW : 0 < W)
    (d : GatherDims ⟨4, ![B, Ch, H, W]⟩ ⟨3, ![B, O, 2]⟩ ⟨3, ![B, Ch, O]⟩)
    (ho : d.offsetDims = [1]) (hc : d.collapsedSliceDims = [2, 3]) (hb : d.operandBatchingDims = [0])
    (hsb : d.startIndicesBatchingDims = [0]) (hm : d.startIndexMap = [2, 3]) (hv : d.indexVectorDim = 2)
    (hsz : d.sliceSizes = ![1, Ch, 1, 1])
    (x : (⟨4, ![B, Ch, H, W]⟩ : Shape).Idx → α) (idx : IVec ⟨3, ![B, O, 2]⟩ w) (b : Fin B) (c : Fin Ch) (o : Fin O) :
    Host.gather d x idx (ix3 b c o)
      = x (ix4 b c (clampRow H hH (idx (ix3 b o 0)).toInt) (clampRow W hW (idx (ix3 b o 1)).toInt)) := by
  obtain ⟨od, cd, ob, sb, sm, iv, ss, wf⟩ := d
  simp only at ho hc hb hsb hm hv hsz
  subst ho hc hb hsb hm hv hsz
  unfold Host.gather
  congr 1
  funext a
  refine Fin.ext ?_
  show GatherDims.start _ (ix3 b c o) idx a + GatherDims.batchCoord _ (ix3 b c o) a + GatherDims.offCoord _ (ix3 b c o) a = _
  have hsi : ∀ k, GatherDims.siIdx (s := ⟨4, ![B, Ch, H, W]⟩) (si := ⟨3, ![B, O, 2]⟩) (t := ⟨3, ![B, Ch, O]⟩)
      ⟨[1], [2, 3], [0], [0], [2, 3], 2, ![1, Ch, 1, 1], wf⟩ (ix3 b c o) k = ix3 b o ⟨k.val, k.isLt⟩ := by
    intro k
    funext b'; refine Fin.ext ?_
    match b' with
    | ⟨0, _⟩ => rfl
    | ⟨1, _⟩ => rfl
    | ⟨2, _⟩ => rfl
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    unfold GatherDims.batchCoord
    rw [dif_pos (by exact List.mem_singleton.mpr rfl)]
    rfl
  | ⟨1, _⟩ =>
    rw [GatherDims.batchCoord_eq_zero _ _ _ (by simp), Nat.add_zero]
    unfold GatherDims.start
    rw [dif_neg (by simp), Nat.zero_add]
    unfold GatherDims.offCoord
    rw [dif_pos (by simp [Shape.kept, List.finRange])]
    rfl
  | ⟨2, _⟩ =>
    rw [GatherDims.batchCoord_eq_zero _ _ _ (by simp), Nat.add_zero,
      GatherDims.offCoord_eq_zero _ _ _ (fun h => ((GatherDims.mem_sKept _ _).mp h).1 (by simp)), Nat.add_zero]
    unfold GatherDims.start
    rw [dif_pos (by simp)]
    rw [hsi]
    show min (idx (ix3 b o 0)).toInt.toNat (H - 1) = (min (max (idx (ix3 b o 0)).toInt 0) ((H - 1 : Nat) : Int)).toNat
    omega
  | ⟨3, _⟩ =>
    rw [GatherDims.batchCoord_eq_zero _ _ _ (by simp), Nat.add_zero,
      GatherDims.offCoord_eq_zero _ _ _ (fun h => ((GatherDims.mem_sKept _ _).mp h).1 (by simp)), Nat.add_zero]
    unfold GatherDims.start
    rw [dif_pos (by simp)]
    rw [hsi]
    show min (idx (ix3 b o 1)).toInt.toNat (W - 1) = (min (max (idx (ix3 b o 1)).toInt 0) ((W - 1 : Nat) : Int)).toNat
    omega

end Cert.LibBatchGather

end
-- ==== Proof.RefLevel0.lean ====
import proofs.«416765_j9792525435349_4_alg».proof.Proof.PatchedReferenceIdeal.Read
import proofs.«416765_j9792525435349_4_alg».proof.Proof.LibBatchGather
import proofs.«416765_j9792525435349_4_alg».proof.Proof.Spec
import proofs.«416765_j9792525435349_4_alg».proof.Proof.Taps
import proofs.«416765_j9792525435349_4_alg».proof.Proof.Forms
import proofs.«416765_j9792525435349_4_alg».proof.Proof.TapFacts

noncomputable section

namespace Cert.ReferenceIdeal.RefLevel0

open Cert.ReferenceIdeal Cert.ReferenceIdeal.Gen Cert.ReferenceIdeal.ReadP Idealize.ShloMosaic Idealize.ShloMosaic.ValueIdx
open Cert.LibRowOps (clampRow)

theorem pair_fst {α : Type} (r c : S128x2048.Idx → α) (b : Fin 128) (o : Fin 2048) :
    concatenate S128x2048x2 2
        [⟨S128x2048x1, broadcastInDim S128x2048x1 ![0, 1] bcast_S128x2048_S128x2048x1_0_1 r⟩,
         ⟨S128x2048x1, broadcastInDim S128x2048x1 ![0, 1] bcast_S128x2048_S128x2048x1_0_1 c⟩]
        concatenates_S128x2048x1_S128x2048x1_S128x2048x2_d2 (ix3 b o 0) = r (ix2 b o) := by
  rw [concatenate_pair_apply_left (t := S128x2048x2) (s₁ := S128x2048x1) (s₂ := S128x2048x1) (2 : Fin 3) _ _
    concatenates_S128x2048x1_S128x2048x1_S128x2048x2_d2 (ix3 b o 0) rfl (ix3 b o 0)
    (fun a => match a with | ⟨0, _⟩ => rfl | ⟨1, _⟩ => rfl | ⟨2, _⟩ => rfl)]
  exact broadcastInDim_apply _ bcast_S128x2048_S128x2048x1_0_1 r (ix3 b o 0) (ix2 b o) (fun a => match a with
    | ⟨0, _⟩ => by show b.val = if (128 : Nat) = 1 then 0 else b.val; rw [if_neg (by decide)]
    | ⟨1, _⟩ => by show o.val = if (2048 : Nat) = 1 then 0 else o.val; rw [if_neg (by decide)])

theorem pair_snd {α : Type} (r c : S128x2048.Idx → α) (b : Fin 128) (o : Fin 2048) :
    concatenate S128x2048x2 2
        [⟨S128x2048x1, broadcastInDim S128x2048x1 ![0, 1] bcast_S128x2048_S128x2048x1_0_1 r⟩,
         ⟨S128x2048x1, broadcastInDim S128x2048x1 ![0, 1] bcast_S128x2048_S128x2048x1_0_1 c⟩]
        concatenates_S128x2048x1_S128x2048x1_S128x2048x2_d2 (ix3 b o 1) = c (ix2 b o) := by
  rw [concatenate_pair_apply_right (t := S128x2048x2) (s₁ := S128x2048x1) (s₂ := S128x2048x1) (2 : Fin 3) _ _
    concatenates_S128x2048x1_S128x2048x1_S128x2048x2_d2 (ix3 b o 1) rfl rfl (ix3 b o 0)
    (fun a => match a with | ⟨0, _⟩ => fun _ => rfl | ⟨1, _⟩ => fun _ => rfl | ⟨2, _⟩ => fun h => absurd rfl h) rfl]
  exact broadcastInDim_apply _ bcast_S128x2048_S128x2048x1_0_1 c (ix3 b o 0) (ix2 b o) (fun a => match a with
    | ⟨0, _⟩ => by show b.val = if (128 : Nat) = 1 then 0 else b.val; rw [if_neg (by decide)]
    | ⟨1, _⟩ => by show o.val = if (2048 : Nat) = 1 then 0 else o.val; rw [if_neg (by decide)])

theorem spread_apply {α : Type} (w : S128x2048.Idx → α) (b : Fin 128) (ch : Fin 64) (o : Fin 2048) :
    broadcastInDim S128x64x2048 ![0, 1, 2] bcast_S128x1x2048_S128x64x2048_0_1_2
      (broadcastInDim S128x1x2048 ![0, 2] bcast_S128x2048_S128x1x2048_0_2 w) (ix3 b ch o) = w (ix2 b o) := by
  rw [broadcastInDim_apply _ bcast_S128x1x2048_S128x64x2048_0_1_2 _ (ix3 b ch o) (ix3 b 0 o) (fun a => match a with
    | ⟨0, _⟩ => by show b.val = if (128 : Nat) = 1 then 0 else b.val; rw [if_neg (by decide)]
    | ⟨1, _⟩ => by show 0 = if (1 : Nat) = 1 then 0 else ch.val; rw [if_pos rfl]
    | ⟨2, _⟩ => by show o.val = if (2048 : Nat) = 1 then 0 else o.val; rw [if_neg (by decide)])]
  exact broadcastInDim_apply _ bcast_S128x2048_S128x1x2048_0_2 w (ix3 b 0 o) (ix2 b o) (fun a => match a with
    | ⟨0, _⟩ => by show b.val = if (128 : Nat) = 1 then 0 else b.val; rw [if_neg (by decide)]
    | ⟨1, _⟩ => by show o.val = if (2048 : Nat) = 1 then 0 else o.val; rw [if_neg (by decide)])

theorem tapProd_apply (x : FVec Ideal S128x64x64x64 .f32) (r c : IVec S128x2048 32) (w : FVec Ideal S128x2048 .f32)
    (k : Fin 4) (gx gy : Ideal .f32) (b : Fin 128) (ch : Fin 64) (o : Fin 2048)
    (hr : r (ix2 b o) = Spec.rRow Spec.szf0 64#32 63#32 k gy) (hc : c (ix2 b o) = Spec.rCol Spec.szf0 64#32 63#32 k gx)
    (hw : w (ix2 b o) = Spec.rWt Spec.szf0 64#32 k gx gy) :
    mulf (F := Ideal) (s := S128x64x2048) (φ := .f32)
      (Host.gather gather_S128x64x64x64_S128x2048x2_S128x64x2048_1_23_0_0_23_2_16411 x
        (concatenate S128x2048x2 2
          [⟨S128x2048x1, broadcastInDim S128x2048x1 ![0, 1] bcast_S128x2048_S128x2048x1_0_1 r⟩,
           ⟨S128x2048x1, broadcastInDim S128x2048x1 ![0, 1] bcast_S128x2048_S128x2048x1_0_1 c⟩]
          concatenates_S128x2048x1_S128x2048x1_S128x2048x2_d2))
      (broadcastInDim S128x64x2048 ![0, 1, 2] bcast_S128x1x2048_S128x64x2048_0_1_2
        (broadcastInDim S128x1x2048 ![0, 2] bcast_S128x2048_S128x1x2048_0_2 w)) (ix3 b ch o)
      = x (ix4 b ch (Spec.cellFin 64 (by decide) (Spec.tapRow Spec.szf0 63#32 k gy))
            (Spec.cellFin 64 (by decide) (Spec.tapCol Spec.szf0 63#32 k gx))) * Spec.rWt Spec.szf0 64#32 k gx gy := by
  show FloatOps.mulf (F := Ideal) (φ := .f32) (Host.gather _ x _ (ix3 b ch o)) (broadcastInDim _ _ _ _ (ix3 b ch o)) = _
  rw [spread_apply, Cert.LibBatchGather.gather_points_apply (by decide) (by decide) _ rfl rfl rfl rfl rfl rfl rfl x _ b ch o,
    pair_fst, pair_snd, hr, hc, hw,
    Cert.TapFacts.rRow_clampRow (n := 64) (by decide) (by decide) rfl,
    Cert.TapFacts.rCol_clampRow (n := 64) (by decide) (by decide) rfl]
  rfl

theorem v6_at (x1 : (⟨S1x2048x1x2, .f32⟩ : BufTy).Contents (Elt Ideal)) (b : Fin 128) (o : Fin 2048) :
    val_main_v6 (F := Ideal) x1 (ix2 b o) = Spec.clipG (Spec.gxOf x1 o) := by
  rw [val_main_v6_apply, val_main_v5_apply, val_main_v2_apply, val_main_v1_apply]
  have hidx : idx_main_v1 (idx_main_v2 (idx_main_v5 (idx_main_v6 (ix2 b o)))) = ix4 0 o 0 0 := by
    funext a
    match a with
    | ⟨0, _⟩ => rfl
    | ⟨1, _⟩ =>
      refine Fin.ext ?_
      show ((0 * 2048 + ((b.val * 2048 + o.val) / 1 % 2048)) * 2 + 0) / 2 % 2048 = o.val
      have := o.isLt; omega
    | ⟨2, _⟩ => rfl
    | ⟨3, _⟩ =>
      refine Fin.ext ?_
      show ((0 * 2048 + ((b.val * 2048 + o.val) / 1 % 2048)) * 2 + 0) % 2 = 0
      omega
  rw [hidx]
  rfl

theorem v16_at (x1 : (⟨S1x2048x1x2, .f32⟩ : BufTy).Contents (Elt Ideal)) (b : Fin 128) (o : Fin 2048) :
    val_main_v16 (F := Ideal) x1 (ix2 b o) = Spec.clipG (Spec.gyOf x1 o) := by
  rw [val_main_v16_apply, val_main_v15_apply, val_main_v2_apply, val_main_v1_apply]
  have hidx : idx_main_v1 (idx_main_v2 (idx_main_v15 (idx_main_v16 (ix2 b o)))) = ix4 0 o 0 1 := by
    funext a
    match a with
    | ⟨0, _⟩ => rfl
    | ⟨1, _⟩ =>
      refine Fin.ext ?_
      show ((0 * 2048 + ((b.val * 2048 + o.val) / 1 % 2048)) * 2 + (1 + 0)) / 2 % 2048 = o.val
      have := o.isLt; omega
    | ⟨2, _⟩ => rfl
    | ⟨3, _⟩ =>
      refine Fin.ext ?_
      show ((0 * 2048 + ((b.val * 2048 + o.val) / 1 % 2048)) * 2 + (1 + 0)) % 2 = 1
      omega
  rw [hidx]
  rfl

theorem v14_at (x1 : (⟨S1x2048x1x2, .f32⟩ : BufTy).Contents (Elt Ideal)) (b : Fin 128) (o : Fin 2048) :
    val_main_v14 (F := Ideal) x1 (ix2 b o) = Spec.pix Spec.szf0 (Spec.gxOf x1 o) := by
  show FloatOps.mulf (F := Ideal) (φ := .f32) (FloatOps.subf (FloatOps.mulf (FloatOps.addf (val_main_v6 (F := Ideal) x1 (ix2 b o)) _) _) _) _ = _
  rw [v6_at]
  rfl

theorem v24_at (x1 : (⟨S1x2048x1x2, .f32⟩ : BufTy).Contents (Elt Ideal)) (b : Fin 128) (o : Fin 2048) :
    val_main_v24 (F := Ideal) x1 (ix2 b o) = Spec.pix Spec.szf0 (Spec.gyOf x1 o) := by
  show FloatOps.mulf (F := Ideal) (φ := .f32) (FloatOps.subf (FloatOps.mulf (FloatOps.addf (val_main_v16 (F := Ideal) x1 (ix2 b o)) _) _) _) _ = _
  rw [v16_at]
  rfl

theorem v27_at (x1 : (⟨S1x2048x1x2, .f32⟩ : BufTy).Contents (Elt Ideal)) (b : Fin 128) (o : Fin 2048) :
    val_main_v27 (F := Ideal) x1 (ix2 b o) = Spec.frac Spec.szf0 (Spec.gxOf x1 o) := by
  show FloatOps.subf (F := Ideal) (φ := .f32) (val_main_v14 (F := Ideal) x1 (ix2 b o)) (FloatOps.hostUnary .floor (val_main_v14 (F := Ideal) x1 (ix2 b o))) = _
  rw [v14_at]
  rfl

theorem v28_at (x1 : (⟨S1x2048x1x2, .f32⟩ : BufTy).Contents (Elt Ideal)) (b : Fin 128) (o : Fin 2048) :
    val_main_v28 (F := Ideal) x1 (ix2 b o) = Spec.frac Spec.szf0 (Spec.gyOf x1 o) := by
  show FloatOps.subf (F := Ideal) (φ := .f32) (val_main_v24 (F := Ideal) x1 (ix2 b o)) (FloatOps.hostUnary .floor (val_main_v24 (F := Ideal) x1 (ix2 b o))) = _
  rw [v24_at]
  rfl

theorem v29_at (x1 : (⟨S1x2048x1x2, .f32⟩ : BufTy).Contents (Elt Ideal)) (b : Fin 128) (o : Fin 2048) :
    val_main_v29 (F := Ideal) x1 (ix2 b o) = Spec.cell0 Spec.szf0 (Spec.gxOf x1 o) := by
  show FloatOps.fptosi (F := Ideal) (φ := .f32) 32 (FloatOps.hostUnary .floor (val_main_v14 (F := Ideal) x1 (ix2 b o))) = _
  rw [v14_at]
  rfl

theorem v30_at (x1 : (⟨S1x2048x1x2, .f32⟩ : BufTy).Contents (Elt Ideal)) (b : Fin 128) (o : Fin 2048) :
    val_main_v30 (F := Ideal) x1 (ix2 b o) = Spec.cell0 Spec.szf0 (Spec.gyOf x1 o) := by
  show FloatOps.fptosi (F := Ideal) (φ := .f32) 32 (FloatOps.hostUnary .floor (val_main_v24 (F := Ideal) x1 (ix2 b o))) = _
  rw [v24_at]
  rfl

def selClamp (szi szm v : BitVec 32) : BitVec 32 :=
  Scalar.select (IntOp.cmpi .slt (Spec.clampI szm v) 0#32) (IntOp.addi (Spec.clampI szm v) szi) (Spec.clampI szm v)

def wtOf (szi : BitVec 32) (k : Fin 4) (wy wx : Ideal .f32) (ri ci : BitVec 32) : Ideal .f32 :=
  FloatOps.mulf (Spec.tapWgt k wy wx) (FloatOps.uitofp .f32 (Spec.validW szi ri ci))

section Scalars
variable (x1 : (⟨S1x2048x1x2, .f32⟩ : BufTy).Contents (Elt Ideal)) (b : Fin 128) (o : Fin 2048)

theorem r0_at : val_main_v54 (F := Ideal) x1 (ix2 b o) = Spec.rRow Spec.szf0 64#32 63#32 0 (Spec.gyOf x1 o) := by
  have h : val_main_v54 (F := Ideal) x1 (ix2 b o) = selClamp 64#32 63#32 (val_main_v30 (F := Ideal) x1 (ix2 b o)) := rfl
  rw [h, v30_at]; rfl
theorem c0_at : val_main_v59 (F := Ideal) x1 (ix2 b o) = Spec.rCol Spec.szf0 64#32 63#32 0 (Spec.gxOf x1 o) := by
  have h : val_main_v59 (F := Ideal) x1 (ix2 b o) = selClamp 64#32 63#32 (val_main_v29 (F := Ideal) x1 (ix2 b o)) := rfl
  rw [h, v29_at]; rfl
theorem w0_at : val_main_v64 (F := Ideal) x1 (ix2 b o) = Spec.rWt Spec.szf0 64#32 0 (Spec.gxOf x1 o) (Spec.gyOf x1 o) := by
  have h : val_main_v64 (F := Ideal) x1 (ix2 b o) = wtOf 64#32 0 (val_main_v28 (F := Ideal) x1 (ix2 b o)) (val_main_v27 (F := Ideal) x1 (ix2 b o)) (val_main_v30 (F := Ideal) x1 (ix2 b o)) (val_main_v29 (F := Ideal) x1 (ix2 b o)) := rfl
  rw [h, v27_at, v28_at, v29_at, v30_at]; rfl

theorem r1_at : val_main_v91 (F := Ideal) x1 (ix2 b o) = Spec.rRow Spec.szf0 64#32 63#32 1 (Spec.gyOf x1 o) := by
  have h : val_main_v91 (F := Ideal) x1 (ix2 b o) = selClamp 64#32 63#32 (val_main_v30 (F := Ideal) x1 (ix2 b o)) := rfl
  rw [h, v30_at]; rfl
theorem c1_at : val_main_v96 (F := Ideal) x1 (ix2 b o) = Spec.rCol Spec.szf0 64#32 63#32 1 (Spec.gxOf x1 o) := by
  have h : val_main_v96 (F := Ideal) x1 (ix2 b o) = selClamp 64#32 63#32 (Spec.shifted true (val_main_v29 (F := Ideal) x1 (ix2 b o))) := rfl
  rw [h, v29_at]; rfl
theorem w1_at : val_main_v101 (F := Ideal) x1 (ix2 b o) = Spec.rWt Spec.szf0 64#32 1 (Spec.gxOf x1 o) (Spec.gyOf x1 o) := by
  have h : val_main_v101 (F := Ideal) x1 (ix2 b o) = wtOf 64#32 1 (val_main_v28 (F := Ideal) x1 (ix2 b o)) (val_main_v27 (F := Ideal) x1 (ix2 b o)) (val_main_v30 (F := Ideal) x1 (ix2 b o)) (Spec.shifted true (val_main_v29 (F := Ideal) x1 (ix2 b o))) := rfl
  rw [h, v27_at, v28_at, v29_at, v30_at]; rfl

theorem r2_at : val_main_v129 (F := Ideal) x1 (ix2 b o) = Spec.rRow Spec.szf0 64#32 63#32 2 (Spec.gyOf x1 o) := by
  have h : val_main_v129 (F := Ideal) x1 (ix2 b o) = selClamp 64#32 63#32 (Spec.shifted true (val_main_v30 (F := Ideal) x1 (ix2 b o))) := rfl
  rw [h, v30_at]; rfl
theorem c2_at : val_main_v134 (F := Ideal) x1 (ix2 b o) = Spec.rCol Spec.szf0 64#32 63#32 2 (Spec.gxOf x1 o) := by
  have h : val_main_v134 (F := Ideal) x1 (ix2 b o) = selClamp 64#32 63#32 (val_main_v29 (F := Ideal) x1 (ix2 b o)) := rfl
  rw [h, v29_at]; rfl
theorem w2_at : val_main_v139 (F := Ideal) x1 (ix2 b o) = Spec.rWt Spec.szf0 64#32 2 (Spec.gxOf x1 o) (Spec.gyOf x1 o) := by
  have h : val_main_v139 (F := Ideal) x1 (ix2 b o) = wtOf 64#32 2 (val_main_v28 (F := Ideal) x1 (ix2 b o)) (val_main_v27 (F := Ideal) x1 (ix2 b o)) (Spec.shifted true (val_main_v30 (F := Ideal) x1 (ix2 b o))) (val_main_v29 (F := Ideal) x1 (ix2 b o)) := rfl
  rw [h, v27_at, v28_at, v29_at, v30_at]; rfl

theorem r3_at : val_main_v167 (F := Ideal) x1 (ix2 b o) = Spec.rRow Spec.szf0 64#32 63#32 3 (Spec.gyOf x1 o) := by
  have h : val_main_v167 (F := Ideal) x1 (ix2 b o) = selClamp 64#32 63#32 (Spec.shifted true (val_main_v30 (F := Ideal) x1 (ix2 b o))) := rfl
  rw [h, v30_at]; rfl
theorem c3_at : val_main_v172 (F := Ideal) x1 (ix2 b o) = Spec.rCol Spec.szf0 64#32 63#32 3 (Spec.gxOf x1 o) := by
  have h : val_main_v172 (F := Ideal) x1 (ix2 b o) = selClamp 64#32 63#32 (Spec.shifted true (val_main_v29 (F := Ideal) x1 (ix2 b o))) := rfl
  rw [h, v29_at]; rfl
theorem w3_at : val_main_v177 (F := Ideal) x1 (ix2 b o) = Spec.rWt Spec.szf0 64#32 3 (Spec.gxOf x1 o) (Spec.gyOf x1 o) := by
  have h : val_main_v177 (F := Ideal) x1 (ix2 b o) = wtOf 64#32 3 (val_main_v28 (F := Ideal) x1 (ix2 b o)) (val_main_v27 (F := Ideal) x1 (ix2 b o)) (Spec.shifted true (val_main_v30 (F := Ideal) x1 (ix2 b o))) (Spec.shifted true (val_main_v29 (F := Ideal) x1 (ix2 b o))) := rfl
  rw [h, v27_at, v28_at, v29_at, v30_at]; rfl

end Scalars

def tapTerm (x0 : (⟨S8x64x16x64x64, .f32⟩ : BufTy).Contents (Elt Ideal)) (x1 : (⟨S1x2048x1x2, .f32⟩ : BufTy).Contents (Elt Ideal)) (b : Fin 128) (ch : Fin 64) (o : Fin 2048) (k : Fin 4) : EReal :=
  val_main_v4 (F := Ideal) x0 (ix4 b ch (Spec.cellFin 64 (by decide) (Spec.tapRow Spec.szf0 63#32 k (Spec.gyOf x1 o)))
      (Spec.cellFin 64 (by decide) (Spec.tapCol Spec.szf0 63#32 k (Spec.gxOf x1 o)))) * Spec.rWt Spec.szf0 64#32 k (Spec.gxOf x1 o) (Spec.gyOf x1 o)

section Taps
variable (x0 : (⟨S8x64x16x64x64, .f32⟩ : BufTy).Contents (Elt Ideal)) (x1 : (⟨S1x2048x1x2, .f32⟩ : BufTy).Contents (Elt Ideal)) (b : Fin 128) (ch : Fin 64) (o : Fin 2048)

theorem tap0_apply : val_main_v67 (F := Ideal) x0 x1 (ix3 b ch o) = tapTerm x0 x1 b ch o 0 :=
  tapProd_apply (val_main_v4 (F := Ideal) x0) (val_main_v54 (F := Ideal) x1) (val_main_v59 (F := Ideal) x1)
    (val_main_v64 (F := Ideal) x1) 0 _ _ b ch o (r0_at x1 b o) (c0_at x1 b o) (w0_at x1 b o)

theorem tap1_apply : val_main_v104 (F := Ideal) x0 x1 (ix3 b ch o) = tapTerm x0 x1 b ch o 1 :=
  tapProd_apply (val_main_v4 (F := Ideal) x0) (val_main_v91 (F := Ideal) x1) (val_main_v96 (F := Ideal) x1)
    (val_main_v101 (F := Ideal) x1) 1 _ _ b ch o (r1_at x1 b o) (c1_at x1 b o) (w1_at x1 b o)

theorem tap2_apply : val_main_v142 (F := Ideal) x0 x1 (ix3 b ch o) = tapTerm x0 x1 b ch o 2 :=
  tapProd_apply (val_main_v4 (F := Ideal) x0) (val_main_v129 (F := Ideal) x1) (val_main_v134 (F := Ideal) x1)
    (val_main_v139 (F := Ideal) x1) 2 _ _ b ch o (r2_at x1 b o) (c2_at x1 b o) (w2_at x1 b o)

theorem tap3_apply : val_main_v180 (F := Ideal) x0 x1 (ix3 b ch o) = tapTerm x0 x1 b ch o 3 :=
  tapProd_apply (val_main_v4 (F := Ideal) x0) (val_main_v167 (F := Ideal) x1) (val_main_v172 (F := Ideal) x1)
    (val_main_v177 (F := Ideal) x1) 3 _ _ b ch o (r3_at x1 b o) (c3_at x1 b o) (w3_at x1 b o)

theorem v181_apply :
    val_main_v181 (F := Ideal) x0 x1 (ix3 b ch o)
      = Spec.sample (n := 64) (by decide) Spec.szf0 64#32 63#32 (fun w h => val_main_v4 (F := Ideal) x0 (ix4 b ch w h))
          (Spec.gxOf x1 o) (Spec.gyOf x1 o) := by
  have h : val_main_v181 (F := Ideal) x0 x1 (ix3 b ch o)
      = ((val_main_v67 (F := Ideal) x0 x1 (ix3 b ch o) + val_main_v104 (F := Ideal) x0 x1 (ix3 b ch o))
          + val_main_v142 (F := Ideal) x0 x1 (ix3 b ch o)) + val_main_v180 (F := Ideal) x0 x1 (ix3 b ch o) := rfl
  rw [h, tap0_apply, tap1_apply, tap2_apply, tap3_apply]
  rfl

end Taps

end Cert.ReferenceIdeal.RefLevel0

end
-- ==== Proof.RefLevel1.lean ====
import proofs.«416765_j9792525435349_4_alg».proof.Proof.PatchedReferenceIdeal.Read
import proofs.«416765_j9792525435349_4_alg».proof.Proof.LibBatchGather
import proofs.«416765_j9792525435349_4_alg».proof.Proof.Forms
import proofs.«416765_j9792525435349_4_alg».proof.Proof.TapFacts

noncomputable section

namespace Cert.ReferenceIdeal.RefLevel1

open Idealize.ShloMosaic Idealize.ShloMosaic.ValueIdx
open Cert.ReferenceIdeal Cert.ReferenceIdeal.Gen Cert.ReferenceIdeal.ReadP
open Cert

abbrev X0 : Type := (⟨S8x64x16x64x64, .f32⟩ : BufTy).Contents (Elt Ideal)
abbrev X1 : Type := (⟨S1x2048x1x2, .f32⟩ : BufTy).Contents (Elt Ideal)

abbrev IArr : Type := (⟨S128x2048, .i32⟩ : BufTy).Contents (Elt Ideal)
abbrev FArr : Type := (⟨S128x2048, .f32⟩ : BufTy).Contents (Elt Ideal)

theorem clipX (x1 : X1) (b : Fin 128) (o : Fin 2048) :
    val_main_v187 (F := Ideal) x1 (ix2 b o) = Spec.clipG (Spec.gxOf x1 o) := by
  rw [val_main_v187_apply, val_main_v186_apply, val_main_v2_apply, val_main_v1_apply]
  have hi : idx_main_v1 (idx_main_v2 (idx_main_v186 (idx_main_v187 (ix2 b o)))) = ix4 0 o 0 0 := by
    funext a
    refine Fin.ext ?_
    have hb := b.isLt
    have ho := o.isLt
    match a with
    | ⟨0, _⟩ => rfl
    | ⟨1, _⟩ =>
      show ((0 * 2048 + (b.val * 2048 + o.val) / 1 % 2048) * 2 + 0) / 2 % 2048 = o.val
      omega
    | ⟨2, _⟩ => rfl
    | ⟨3, _⟩ =>
      show ((0 * 2048 + (b.val * 2048 + o.val) / 1 % 2048) * 2 + 0) % 2 = 0
      omega
  rw [hi]
  rfl

theorem clipY (x1 : X1) (b : Fin 128) (o : Fin 2048) :
    val_main_v197 (F := Ideal) x1 (ix2 b o) = Spec.clipG (Spec.gyOf x1 o) := by
  rw [val_main_v197_apply, val_main_v196_apply, val_main_v2_apply, val_main_v1_apply]
  have hi : idx_main_v1 (idx_main_v2 (idx_main_v196 (idx_main_v197 (ix2 b o)))) = ix4 0 o 0 1 := by
    funext a
    refine Fin.ext ?_
    have hb := b.isLt
    have ho := o.isLt
    match a with
    | ⟨0, _⟩ => rfl
    | ⟨1, _⟩ =>
      show ((0 * 2048 + (b.val * 2048 + o.val) / 1 % 2048) * 2 + (1 + 0)) / 2 % 2048 = o.val
      omega
    | ⟨2, _⟩ => rfl
    | ⟨3, _⟩ =>
      show ((0 * 2048 + (b.val * 2048 + o.val) / 1 % 2048) * 2 + (1 + 0)) % 2 = 1
      omega
  rw [hi]
  rfl

theorem pixX (x1 : X1) (b : Fin 128) (o : Fin 2048) :
    val_main_v195 (F := Ideal) x1 (ix2 b o) = Spec.pix Spec.szf1 (Spec.gxOf x1 o) := by
  rw [val_main_v195_apply, val_main_v193_apply, val_main_v191_apply, val_main_v189_apply, clipX]
  rfl

theorem pixY (x1 : X1) (b : Fin 128) (o : Fin 2048) :
    val_main_v205 (F := Ideal) x1 (ix2 b o) = Spec.pix Spec.szf1 (Spec.gyOf x1 o) := by
  rw [val_main_v205_apply, val_main_v203_apply, val_main_v201_apply, val_main_v199_apply, clipY]
  rfl

theorem fracX (x1 : X1) (b : Fin 128) (o : Fin 2048) :
    val_main_v208 (F := Ideal) x1 (ix2 b o) = Spec.frac Spec.szf1 (Spec.gxOf x1 o) := by
  rw [val_main_v208_apply, val_main_v206_apply, pixX]
  rfl

theorem fracY (x1 : X1) (b : Fin 128) (o : Fin 2048) :
    val_main_v209 (F := Ideal) x1 (ix2 b o) = Spec.frac Spec.szf1 (Spec.gyOf x1 o) := by
  rw [val_main_v209_apply, val_main_v207_apply, pixY]
  rfl

theorem cellX (x1 : X1) (b : Fin 128) (o : Fin 2048) :
    val_main_v210 (F := Ideal) x1 (ix2 b o) = Spec.cell0 Spec.szf1 (Spec.gxOf x1 o) := by
  rw [val_main_v210_apply, val_main_v206_apply, pixX]
  rfl

theorem cellY (x1 : X1) (b : Fin 128) (o : Fin 2048) :
    val_main_v211 (F := Ideal) x1 (ix2 b o) = Spec.cell0 Spec.szf1 (Spec.gyOf x1 o) := by
  rw [val_main_v211_apply, val_main_v207_apply, pixY]
  rfl

theorem row0 (x1 : X1) (b : Fin 128) (o : Fin 2048) :
    val_main_v235 (F := Ideal) x1 (ix2 b o) = Spec.rRow Spec.szf1 32#32 31#32 0 (Spec.gyOf x1 o) := by
  rw [val_main_v235_apply, val_main_v232_apply, val_main_v234_apply, val_main_v229_apply, val_main_call9_v2_apply, cellY]
  rfl

theorem col0 (x1 : X1) (b : Fin 128) (o : Fin 2048) :
    val_main_v240 (F := Ideal) x1 (ix2 b o) = Spec.rCol Spec.szf1 32#32 31#32 0 (Spec.gxOf x1 o) := by
  rw [val_main_v240_apply, val_main_v237_apply, val_main_v239_apply, val_main_v230_apply, val_main_call10_v2_apply, cellX]
  rfl

theorem wt0 (x1 : X1) (b : Fin 128) (o : Fin 2048) :
    val_main_v245 (F := Ideal) x1 (ix2 b o) = Spec.rWt Spec.szf1 32#32 0 (Spec.gxOf x1 o) (Spec.gyOf x1 o) := by
  rw [val_main_v245_apply, val_main_v216_apply, val_main_v213_apply, val_main_v215_apply, val_main_v228_apply,
    val_main_v227_apply, val_main_v224_apply, val_main_v221_apply, val_main_v218_apply, val_main_v220_apply,
    val_main_v223_apply, val_main_v226_apply, fracX, fracY, cellX, cellY]
  rfl

def pairOf (R C : IArr) : (⟨S128x2048x2, .i32⟩ : BufTy).Contents (Elt Ideal) :=
  concatenate S128x2048x2 2
    [⟨S128x2048x1, broadcastInDim S128x2048x1 ![0, 1] bcast_S128x2048_S128x2048x1_0_1 R⟩,
     ⟨S128x2048x1, broadcastInDim S128x2048x1 ![0, 1] bcast_S128x2048_S128x2048x1_0_1 C⟩]
    concatenates_S128x2048x1_S128x2048x1_S128x2048x2_d2

theorem unit_axis_apply (R : IArr) (b : Fin 128) (o : Fin 2048) :
    broadcastInDim S128x2048x1 ![0, 1] bcast_S128x2048_S128x2048x1_0_1 R (ix3 b o 0) = R (ix2 b o) :=
  broadcastInDim_apply _ bcast_S128x2048_S128x2048x1_0_1 R (ix3 b o 0) (ix2 b o) (fun a => match a with
    | ⟨0, _⟩ => by show b.val = if (128 : Nat) = 1 then 0 else b.val; rw [if_neg (by decide)]
    | ⟨1, _⟩ => by show o.val = if (2048 : Nat) = 1 then 0 else o.val; rw [if_neg (by decide)])

theorem pairOf_row (R C : IArr) (b : Fin 128) (o : Fin 2048) :
    pairOf R C (ix3 b o 0) = R (ix2 b o) := by
  unfold pairOf
  exact (concatenate_pair_apply_left (t := S128x2048x2) (s₁ := S128x2048x1) (s₂ := S128x2048x1) (2 : Fin 3) _ _ _
    (ix3 b o 0) rfl (ix3 b o 0)
    (fun a => match a with
      | ⟨0, _⟩ => rfl
      | ⟨1, _⟩ => rfl
      | ⟨2, _⟩ => rfl)).trans (unit_axis_apply R b o)

theorem pairOf_col (R C : IArr) (b : Fin 128) (o : Fin 2048) :
    pairOf R C (ix3 b o 1) = C (ix2 b o) := by
  unfold pairOf
  exact (concatenate_pair_apply_right (t := S128x2048x2) (s₁ := S128x2048x1) (s₂ := S128x2048x1) (2 : Fin 3) _ _ _
    (ix3 b o 1) rfl rfl (ix3 b o 0)
    (fun a ha => match a, ha with
      | ⟨0, _⟩, _ => rfl
      | ⟨1, _⟩, _ => rfl
      | ⟨2, _⟩, ha => absurd rfl ha)
    rfl).trans (unit_axis_apply C b o)

def spread (W : FArr) : (⟨S128x64x2048, .f32⟩ : BufTy).Contents (Elt Ideal) :=
  broadcastInDim S128x64x2048 ![0, 1, 2] bcast_S128x1x2048_S128x64x2048_0_1_2
    (broadcastInDim S128x1x2048 ![0, 2] bcast_S128x2048_S128x1x2048_0_2 W)

theorem spread_apply (W : FArr) (b : Fin 128) (ch : Fin 64) (o : Fin 2048) :
    spread W (ix3 b ch o) = W (ix2 b o) := by
  unfold spread
  rw [broadcastInDim_apply _ bcast_S128x1x2048_S128x64x2048_0_1_2 _ (ix3 b ch o) (ix3 b 0 o) (fun a => match a with
    | ⟨0, _⟩ => by show b.val = if (128 : Nat) = 1 then 0 else b.val; rw [if_neg (by decide)]
    | ⟨1, _⟩ => by show 0 = if (1 : Nat) = 1 then 0 else ch.val; rw [if_pos rfl]
    | ⟨2, _⟩ => by show o.val = if (2048 : Nat) = 1 then 0 else o.val; rw [if_neg (by decide)])]
  exact broadcastInDim_apply _ bcast_S128x2048_S128x1x2048_0_2 W (ix3 b 0 o) (ix2 b o) (fun a => match a with
    | ⟨0, _⟩ => by show b.val = if (128 : Nat) = 1 then 0 else b.val; rw [if_neg (by decide)]
    | ⟨1, _⟩ => by show o.val = if (2048 : Nat) = 1 then 0 else o.val; rw [if_neg (by decide)])

theorem tap_apply (x0 : X0) (R C : IArr) (W : FArr) (b : Fin 128) (ch : Fin 64) (o : Fin 2048) (k : Fin 4)
    (gx gy : Ideal .f32)
    (hR : R (ix2 b o) = Spec.rRow Spec.szf1 32#32 31#32 k gy)
    (hC : C (ix2 b o) = Spec.rCol Spec.szf1 32#32 31#32 k gx)
    (hW : W (ix2 b o) = Spec.rWt Spec.szf1 32#32 k gx gy) :
    FloatOps.mulf (F := Ideal) (φ := .f32)
        (Host.gather gather_S128x64x32x32_S128x2048x2_S128x64x2048_1_23_0_0_23_2_16411
          (val_main_v185 (F := Ideal) x0) (pairOf R C) (ix3 b ch o))
        (spread W (ix3 b ch o))
      = val_main_v185 (F := Ideal) x0 (ix4 b ch (Spec.cellFin 32 (by decide) (Spec.tapRow Spec.szf1 31#32 k gy))
          (Spec.cellFin 32 (by decide) (Spec.tapCol Spec.szf1 31#32 k gx))) * Spec.rWt Spec.szf1 32#32 k gx gy := by
  rw [LibBatchGather.gather_points_apply (by decide) (by decide) _ rfl rfl rfl rfl rfl rfl rfl
    (val_main_v185 (F := Ideal) x0) (pairOf R C) b ch o]
  rw [pairOf_row, pairOf_col, spread_apply, hR, hC, hW]
  rw [TapFacts.rRow_clampRow (n := 32) (by decide) (by decide) (szi := 32#32) (szm := 31#32) rfl Spec.szf1 gy k,
    TapFacts.rCol_clampRow (n := 32) (by decide) (by decide) (szi := 32#32) (szm := 31#32) rfl Spec.szf1 gx k]
  rfl

theorem tap0 (x0 : X0) (x1 : X1) (b : Fin 128) (ch : Fin 64) (o : Fin 2048) :
    val_main_v248 (F := Ideal) x0 x1 (ix3 b ch o)
      = val_main_v185 (F := Ideal) x0 (ix4 b ch (Spec.cellFin 32 (by decide) (Spec.tapRow Spec.szf1 31#32 0 (Spec.gyOf x1 o)))
          (Spec.cellFin 32 (by decide) (Spec.tapCol Spec.szf1 31#32 0 (Spec.gxOf x1 o))))
        * Spec.rWt Spec.szf1 32#32 0 (Spec.gxOf x1 o) (Spec.gyOf x1 o) :=
  tap_apply x0 (val_main_v235 (F := Ideal) x1) (val_main_v240 (F := Ideal) x1) (val_main_v245 (F := Ideal) x1) b ch o 0
    (Spec.gxOf x1 o) (Spec.gyOf x1 o) (row0 x1 b o) (col0 x1 b o) (wt0 x1 b o)

theorem row1 (x1 : X1) (b : Fin 128) (o : Fin 2048) :
    val_main_v272 (F := Ideal) x1 (ix2 b o) = Spec.rRow Spec.szf1 32#32 31#32 1 (Spec.gyOf x1 o) := by
  rw [val_main_v272_apply, val_main_v269_apply, val_main_v271_apply, val_main_v266_apply, val_main_call11_v2_apply, cellY]
  rfl

theorem col1 (x1 : X1) (b : Fin 128) (o : Fin 2048) :
    val_main_v277 (F := Ideal) x1 (ix2 b o) = Spec.rCol Spec.szf1 32#32 31#32 1 (Spec.gxOf x1 o) := by
  rw [val_main_v277_apply, val_main_v274_apply, val_main_v276_apply, val_main_v267_apply, val_main_call12_v2_apply,
    val_main_v250_apply, cellX]
  rfl

theorem wt1 (x1 : X1) (b : Fin 128) (o : Fin 2048) :
    val_main_v282 (F := Ideal) x1 (ix2 b o) = Spec.rWt Spec.szf1 32#32 1 (Spec.gxOf x1 o) (Spec.gyOf x1 o) := by
  rw [val_main_v282_apply, val_main_v253_apply, val_main_v252_apply, val_main_v265_apply,
    val_main_v264_apply, val_main_v261_apply, val_main_v258_apply, val_main_v255_apply, val_main_v257_apply,
    val_main_v260_apply, val_main_v263_apply, val_main_v250_apply, fracX, fracY, cellX, cellY]
  rfl

theorem tap1 (x0 : X0) (x1 : X1) (b : Fin 128) (ch : Fin 64) (o : Fin 2048) :
    val_main_v285 (F := Ideal) x0 x1 (ix3 b ch o)
      = val_main_v185 (F := Ideal) x0 (ix4 b ch (Spec.cellFin 32 (by decide) (Spec.tapRow Spec.szf1 31#32 1 (Spec.gyOf x1 o)))
          (Spec.cellFin 32 (by decide) (Spec.tapCol Spec.szf1 31#32 1 (Spec.gxOf x1 o))))
        * Spec.rWt Spec.szf1 32#32 1 (Spec.gxOf x1 o) (Spec.gyOf x1 o) :=
  tap_apply x0 (val_main_v272 (F := Ideal) x1) (val_main_v277 (F := Ideal) x1) (val_main_v282 (F := Ideal) x1) b ch o 1
    (Spec.gxOf x1 o) (Spec.gyOf x1 o) (row1 x1 b o) (col1 x1 b o) (wt1 x1 b o)

theorem row2 (x1 : X1) (b : Fin 128) (o : Fin 2048) :
    val_main_v310 (F := Ideal) x1 (ix2 b o) = Spec.rRow Spec.szf1 32#32 31#32 2 (Spec.gyOf x1 o) := by
  rw [val_main_v310_apply, val_main_v307_apply, val_main_v309_apply, val_main_v304_apply, val_main_call13_v2_apply,
    val_main_v288_apply, cellY]
  rfl

theorem col2 (x1 : X1) (b : Fin 128) (o : Fin 2048) :
    val_main_v315 (F := Ideal) x1 (ix2 b o) = Spec.rCol Spec.szf1 32#32 31#32 2 (Spec.gxOf x1 o) := by
  rw [val_main_v315_apply, val_main_v312_apply, val_main_v314_apply, val_main_v305_apply, val_main_call14_v2_apply, cellX]
  rfl

theorem wt2 (x1 : X1) (b : Fin 128) (o : Fin 2048) :
    val_main_v320 (F := Ideal) x1 (ix2 b o) = Spec.rWt Spec.szf1 32#32 2 (Spec.gxOf x1 o) (Spec.gyOf x1 o) := by
  rw [val_main_v320_apply, val_main_v291_apply, val_main_v290_apply, val_main_v303_apply,
    val_main_v302_apply, val_main_v299_apply, val_main_v296_apply, val_main_v293_apply, val_main_v295_apply,
    val_main_v298_apply, val_main_v301_apply, val_main_v288_apply, fracX, fracY, cellX, cellY]
  rfl

theorem tap2 (x0 : X0) (x1 : X1) (b : Fin 128) (ch : Fin 64) (o : Fin 2048) :
    val_main_v323 (F := Ideal) x0 x1 (ix3 b ch o)
      = val_main_v185 (F := Ideal) x0 (ix4 b ch (Spec.cellFin 32 (by decide) (Spec.tapRow Spec.szf1 31#32 2 (Spec.gyOf x1 o)))
          (Spec.cellFin 32 (by decide) (Spec.tapCol Spec.szf1 31#32 2 (Spec.gxOf x1 o))))
        * Spec.rWt Spec.szf1 32#32 2 (Spec.gxOf x1 o) (Spec.gyOf x1 o) :=
  tap_apply x0 (val_main_v310 (F := Ideal) x1) (val_main_v315 (F := Ideal) x1) (val_main_v320 (F := Ideal) x1) b ch o 2
    (Spec.gxOf x1 o) (Spec.gyOf x1 o) (row2 x1 b o) (col2 x1 b o) (wt2 x1 b o)

theorem row3 (x1 : X1) (b : Fin 128) (o : Fin 2048) :
    val_main_v348 (F := Ideal) x1 (ix2 b o) = Spec.rRow Spec.szf1 32#32 31#32 3 (Spec.gyOf x1 o) := by
  rw [val_main_v348_apply, val_main_v345_apply, val_main_v347_apply, val_main_v342_apply, val_main_call15_v2_apply,
    val_main_v326_apply, cellY]
  rfl

theorem col3 (x1 : X1) (b : Fin 128) (o : Fin 2048) :
    val_main_v353 (F := Ideal) x1 (ix2 b o) = Spec.rCol Spec.szf1 32#32 31#32 3 (Spec.gxOf x1 o) := by
  rw [val_main_v353_apply, val_main_v350_apply, val_main_v352_apply, val_main_v343_apply, val_main_call16_v2_apply,
    val_main_v328_apply, cellX]
  rfl

theorem wt3 (x1 : X1) (b : Fin 128) (o : Fin 2048) :
    val_main_v358 (F := Ideal) x1 (ix2 b o) = Spec.rWt Spec.szf1 32#32 3 (Spec.gxOf x1 o) (Spec.gyOf x1 o) := by
  rw [val_main_v358_apply, val_main_v329_apply, val_main_v341_apply,
    val_main_v340_apply, val_main_v337_apply, val_main_v334_apply, val_main_v331_apply, val_main_v333_apply,
    val_main_v336_apply, val_main_v339_apply, val_main_v326_apply, val_main_v328_apply, fracX, fracY, cellX, cellY]
  rfl

theorem tap3 (x0 : X0) (x1 : X1) (b : Fin 128) (ch : Fin 64) (o : Fin 2048) :
    val_main_v361 (F := Ideal) x0 x1 (ix3 b ch o)
      = val_main_v185 (F := Ideal) x0 (ix4 b ch (Spec.cellFin 32 (by decide) (Spec.tapRow Spec.szf1 31#32 3 (Spec.gyOf x1 o)))
          (Spec.cellFin 32 (by decide) (Spec.tapCol Spec.szf1 31#32 3 (Spec.gxOf x1 o))))
        * Spec.rWt Spec.szf1 32#32 3 (Spec.gxOf x1 o) (Spec.gyOf x1 o) :=
  tap_apply x0 (val_main_v348 (F := Ideal) x1) (val_main_v353 (F := Ideal) x1) (val_main_v358 (F := Ideal) x1) b ch o 3
    (Spec.gxOf x1 o) (Spec.gyOf x1 o) (row3 x1 b o) (col3 x1 b o) (wt3 x1 b o)

theorem v362_apply (x0 : X0) (x1 : X1) (b : Fin 128) (ch : Fin 64) (o : Fin 2048) :
    val_main_v362 (F := Ideal) x0 x1 (ix3 b ch o)
      = Spec.sample (n := 32) (by decide) Spec.szf1 32#32 31#32
          (fun w h => val_main_v185 (F := Ideal) x0 (ix4 b ch w h)) (Spec.gxOf x1 o) (Spec.gyOf x1 o) := by
  rw [val_main_v362_apply, val_main_v324_apply, val_main_v286_apply, tap0, tap1, tap2, tap3]
  rfl

end Cert.ReferenceIdeal.RefLevel1

end
-- ==== Proof.RefLevel2.lean ====
import proofs.«416765_j9792525435349_4_alg».proof.Proof.PatchedReferenceIdeal.Read
import proofs.«416765_j9792525435349_4_alg».proof.Proof.Spec
import proofs.«416765_j9792525435349_4_alg».proof.Proof.Taps
import proofs.«416765_j9792525435349_4_alg».proof.Proof.Forms
import proofs.«416765_j9792525435349_4_alg».proof.Proof.LibRowOps
import proofs.«416765_j9792525435349_4_alg».proof.Proof.LibBatchGather
import proofs.«416765_j9792525435349_4_alg».proof.Proof.TapFacts
import Idealize.ShloMosaic.PureOps.Ideal
import Idealize.ShloMosaic.Lib.ValueIdx
import Idealize.ShloMosaic.Lib.Pipeline.Value

noncomputable section

namespace Cert.ReferenceIdeal.RefLevel2

open Idealize.ShloMosaic Idealize.ShloMosaic.ValueIdx
open Cert.ReferenceIdeal Cert.ReferenceIdeal.ReadP
open Cert

theorem idx_grid (b : Fin 128) (o : Fin 2048) (c : Fin 2) :
    idx_main_v1 (idx_main_v2 (ix3 b o c)) = ix4 0 o 0 c := by
  funext a
  refine Fin.ext ?_
  have ho := o.isLt
  have hc := c.isLt
  match a with
  | ⟨0, _⟩ => rfl
  | ⟨1, _⟩ =>
    show ((0 * 2048 + o.val) * 2 + c.val) / 2 % 2048 = o.val
    omega
  | ⟨2, _⟩ => rfl
  | ⟨3, _⟩ =>
    show ((0 * 2048 + o.val) * 2 + c.val) % 2 = c.val
    omega

theorem v2_at (x1 : Spec.SG.Idx → EReal) (b : Fin 128) (o : Fin 2048) (c : Fin 2) :
    val_main_v2 (F := Ideal) x1 (ix3 b o c) = Spec.clipG (x1 (ix4 0 o 0 c)) := by
  rw [val_main_v2_apply, val_main_v1_apply, idx_grid]
  rfl

theorem idx_slice0 (b : Fin 128) (o : Fin 2048) :
    idx_main_v367 (idx_main_v368 (ix2 b o)) = ix3 b o 0 := by
  funext a
  refine Fin.ext ?_
  have hb := b.isLt
  have ho := o.isLt
  match a with
  | ⟨0, _⟩ =>
    show (b.val * 2048 + o.val) / 2048 = b.val
    omega
  | ⟨1, _⟩ =>
    show (b.val * 2048 + o.val) / 1 % 2048 = o.val
    omega
  | ⟨2, _⟩ => rfl

theorem idx_slice1 (b : Fin 128) (o : Fin 2048) :
    idx_main_v377 (idx_main_v378 (ix2 b o)) = ix3 b o 1 := by
  funext a
  refine Fin.ext ?_
  have hb := b.isLt
  have ho := o.isLt
  match a with
  | ⟨0, _⟩ =>
    show (b.val * 2048 + o.val) / 2048 = b.val
    omega
  | ⟨1, _⟩ =>
    show (b.val * 2048 + o.val) / 1 % 2048 = o.val
    omega
  | ⟨2, _⟩ => rfl

variable (x0 : Spec.SX.Idx → EReal) (x1 : Spec.SG.Idx → EReal) (b : Fin 128) (ch : Fin 64) (o : Fin 2048)

theorem v368_at : val_main_v368 (F := Ideal) x1 (ix2 b o) = Spec.clipG (Spec.gxOf x1 o) := by
  rw [val_main_v368_apply, val_main_v367_apply, idx_slice0, v2_at]
  rfl

theorem v378_at : val_main_v378 (F := Ideal) x1 (ix2 b o) = Spec.clipG (Spec.gyOf x1 o) := by
  rw [val_main_v378_apply, val_main_v377_apply, idx_slice1, v2_at]
  rfl

theorem v376_at : val_main_v376 (F := Ideal) x1 (ix2 b o) = Spec.pix Spec.szf2 (Spec.gxOf x1 o) := by
  rw [val_main_v376_apply, val_main_v374_apply, val_main_v372_apply, val_main_v370_apply, v368_at,
    val_main_v369_apply, val_main_v371_apply, val_main_v373_apply, val_main_v375_apply]
  rfl

theorem v386_at : val_main_v386 (F := Ideal) x1 (ix2 b o) = Spec.pix Spec.szf2 (Spec.gyOf x1 o) := by
  rw [val_main_v386_apply, val_main_v384_apply, val_main_v382_apply, val_main_v380_apply, v378_at,
    val_main_v379_apply, val_main_v381_apply, val_main_v383_apply, val_main_v385_apply]
  rfl

theorem v389_at : val_main_v389 (F := Ideal) x1 (ix2 b o) = Spec.frac Spec.szf2 (Spec.gxOf x1 o) := by
  rw [val_main_v389_apply, val_main_v387_apply, v376_at]
  rfl

theorem v390_at : val_main_v390 (F := Ideal) x1 (ix2 b o) = Spec.frac Spec.szf2 (Spec.gyOf x1 o) := by
  rw [val_main_v390_apply, val_main_v388_apply, v386_at]
  rfl

theorem v391_at : val_main_v391 (F := Ideal) x1 (ix2 b o) = Spec.cell0 Spec.szf2 (Spec.gxOf x1 o) := by
  rw [val_main_v391_apply, val_main_v387_apply, v376_at]
  rfl

theorem v392_at : val_main_v392 (F := Ideal) x1 (ix2 b o) = Spec.cell0 Spec.szf2 (Spec.gyOf x1 o) := by
  rw [val_main_v392_apply, val_main_v388_apply, v386_at]
  rfl

theorem row0_at : val_main_v416 (F := Ideal) x1 (ix2 b o) = Spec.rRow Spec.szf2 16#32 15#32 0 (Spec.gyOf x1 o) := by
  simp only [val_main_v416_apply, val_main_v413_apply, val_main_v415_apply, val_main_v410_apply,
    val_main_call17_v2_apply, val_main_call17_v1_apply, val_main_call17_v0_apply, val_main_c_146_apply,
    val_main_call17_v4_apply, val_main_call17_v3_apply, val_main_c_147_apply,
    val_main_v412_apply, val_main_c_150_apply, val_main_v414_apply, val_main_c_151_apply, v392_at]
  rfl

theorem col0_at : val_main_v421 (F := Ideal) x1 (ix2 b o) = Spec.rCol Spec.szf2 16#32 15#32 0 (Spec.gxOf x1 o) := by
  simp only [val_main_v421_apply, val_main_v418_apply, val_main_v420_apply, val_main_v411_apply,
    val_main_call18_v2_apply, val_main_call18_v1_apply, val_main_call18_v0_apply, val_main_c_148_apply,
    val_main_call18_v4_apply, val_main_call18_v3_apply, val_main_c_149_apply,
    val_main_v417_apply, val_main_c_152_apply, val_main_v419_apply, val_main_c_153_apply, v391_at]
  rfl

theorem idx_v422 (c : Fin 1) : idx_main_v422 (ix3 b o c) = ix2 b o := by
  funext a
  match a with
  | ⟨0, _⟩ => rfl
  | ⟨1, _⟩ => rfl

theorem idx_v423 (c : Fin 1) : idx_main_v423 (ix3 b o c) = ix2 b o := by
  funext a
  match a with
  | ⟨0, _⟩ => rfl
  | ⟨1, _⟩ => rfl

theorem pair0_row : val_main_v424 (F := Ideal) x1 (ix3 b o 0) = Spec.rRow Spec.szf2 16#32 15#32 0 (Spec.gyOf x1 o) := by
  unfold val_main_v424
  refine (concatenate_pair_apply_left (t := S128x2048x2) (s₁ := S128x2048x1) (s₂ := S128x2048x1) 2 _ _ _
    (ix3 b o 0) rfl (ix3 b o 0)
    (fun a => match a with | ⟨0, _⟩ => rfl | ⟨1, _⟩ => rfl | ⟨2, _⟩ => rfl)).trans ?_
  rw [val_main_v422_apply, idx_v422]
  exact row0_at x1 b o

theorem pair0_col : val_main_v424 (F := Ideal) x1 (ix3 b o 1) = Spec.rCol Spec.szf2 16#32 15#32 0 (Spec.gxOf x1 o) := by
  unfold val_main_v424
  refine (concatenate_pair_apply_right (t := S128x2048x2) (s₁ := S128x2048x1) (s₂ := S128x2048x1) 2 _ _ _
    (ix3 b o 1) rfl rfl (ix3 b o 0)
    (fun a ha => match a, ha with | ⟨0, _⟩, _ => rfl | ⟨1, _⟩, _ => rfl | ⟨2, _⟩, ha => absurd rfl ha) rfl).trans ?_
  rw [val_main_v423_apply, idx_v423]
  exact col0_at x1 b o

theorem gath0_at : val_main_v425 (F := Ideal) x0 x1 (ix3 b ch o)
    = val_main_v366 (F := Ideal) x0 (ix4 b ch
        (Spec.cellFin 16 (by decide) (Spec.tapRow Spec.szf2 15#32 0 (Spec.gyOf x1 o)))
        (Spec.cellFin 16 (by decide) (Spec.tapCol Spec.szf2 15#32 0 (Spec.gxOf x1 o)))) := by
  unfold val_main_v425
  rw [LibBatchGather.gather_points_apply (by decide) (by decide) _ rfl rfl rfl rfl rfl rfl rfl, pair0_row, pair0_col,
    TapFacts.rRow_clampRow (n := 16) (by decide) (by decide) rfl, TapFacts.rCol_clampRow (n := 16) (by decide) (by decide) rfl]

theorem idx_w0 : idx_main_v427 (idx_main_v428 (ix3 b ch o)) = ix2 b o := by
  funext a
  match a with
  | ⟨0, _⟩ => rfl
  | ⟨1, _⟩ => rfl

theorem wt0_at : val_main_v428 (F := Ideal) x1 (ix3 b ch o)
    = Spec.rWt Spec.szf2 16#32 0 (Spec.gxOf x1 o) (Spec.gyOf x1 o) := by
  rw [val_main_v428_apply, val_main_v427_apply, idx_w0]
  simp only [val_main_v426_apply, val_main_v397_apply, val_main_v394_apply, val_main_v396_apply,
    val_main_v393_apply, val_main_cst_140_apply, val_main_v395_apply, val_main_cst_141_apply,
    val_main_v409_apply, val_main_v408_apply, val_main_v405_apply, val_main_v402_apply, val_main_v399_apply,
    val_main_v401_apply, val_main_v404_apply, val_main_v407_apply,
    val_main_v398_apply, val_main_c_142_apply, val_main_v400_apply, val_main_c_143_apply,
    val_main_v403_apply, val_main_c_144_apply, val_main_v406_apply, val_main_c_145_apply,
    v389_at, v390_at, v391_at, v392_at]
  rfl

theorem tap0_at : val_main_v429 (F := Ideal) x0 x1 (ix3 b ch o)
    = val_main_v366 (F := Ideal) x0 (ix4 b ch
        (Spec.cellFin 16 (by decide) (Spec.tapRow Spec.szf2 15#32 0 (Spec.gyOf x1 o)))
        (Spec.cellFin 16 (by decide) (Spec.tapCol Spec.szf2 15#32 0 (Spec.gxOf x1 o))))
      * Spec.rWt Spec.szf2 16#32 0 (Spec.gxOf x1 o) (Spec.gyOf x1 o) := by
  rw [val_main_v429_apply, gath0_at, wt0_at]
  rfl

theorem row1_at : val_main_v453 (F := Ideal) x1 (ix2 b o) = Spec.rRow Spec.szf2 16#32 15#32 1 (Spec.gyOf x1 o) := by
  simp only [val_main_v453_apply, val_main_v450_apply, val_main_v452_apply, val_main_v447_apply,
    val_main_call19_v2_apply, val_main_call19_v1_apply, val_main_call19_v0_apply, val_main_c_160_apply,
    val_main_call19_v4_apply, val_main_call19_v3_apply, val_main_c_161_apply,
    val_main_v449_apply, val_main_c_164_apply, val_main_v451_apply, val_main_c_165_apply, v392_at]
  rfl

theorem col1_at : val_main_v458 (F := Ideal) x1 (ix2 b o) = Spec.rCol Spec.szf2 16#32 15#32 1 (Spec.gxOf x1 o) := by
  simp only [val_main_v458_apply, val_main_v455_apply, val_main_v457_apply, val_main_v448_apply,
    val_main_call20_v2_apply, val_main_call20_v1_apply, val_main_call20_v0_apply, val_main_c_162_apply,
    val_main_call20_v4_apply, val_main_call20_v3_apply, val_main_c_163_apply,
    val_main_v454_apply, val_main_c_166_apply, val_main_v456_apply, val_main_c_167_apply,
    val_main_v431_apply, val_main_v430_apply, val_main_c_154_apply, v391_at]
  rfl

theorem idx_v459 (c : Fin 1) : idx_main_v459 (ix3 b o c) = ix2 b o := by
  funext a
  match a with
  | ⟨0, _⟩ => rfl
  | ⟨1, _⟩ => rfl

theorem idx_v460 (c : Fin 1) : idx_main_v460 (ix3 b o c) = ix2 b o := by
  funext a
  match a with
  | ⟨0, _⟩ => rfl
  | ⟨1, _⟩ => rfl

theorem pair1_row : val_main_v461 (F := Ideal) x1 (ix3 b o 0) = Spec.rRow Spec.szf2 16#32 15#32 1 (Spec.gyOf x1 o) := by
  unfold val_main_v461
  refine (concatenate_pair_apply_left (t := S128x2048x2) (s₁ := S128x2048x1) (s₂ := S128x2048x1) 2 _ _ _
    (ix3 b o 0) rfl (ix3 b o 0)
    (fun a => match a with | ⟨0, _⟩ => rfl | ⟨1, _⟩ => rfl | ⟨2, _⟩ => rfl)).trans ?_
  rw [val_main_v459_apply, idx_v459]
  exact row1_at x1 b o

theorem pair1_col : val_main_v461 (F := Ideal) x1 (ix3 b o 1) = Spec.rCol Spec.szf2 16#32 15#32 1 (Spec.gxOf x1 o) := by
  unfold val_main_v461
  refine (concatenate_pair_apply_right (t := S128x2048x2) (s₁ := S128x2048x1) (s₂ := S128x2048x1) 2 _ _ _
    (ix3 b o 1) rfl rfl (ix3 b o 0)
    (fun a ha => match a, ha with | ⟨0, _⟩, _ => rfl | ⟨1, _⟩, _ => rfl | ⟨2, _⟩, ha => absurd rfl ha) rfl).trans ?_
  rw [val_main_v460_apply, idx_v460]
  exact col1_at x1 b o

theorem gath1_at : val_main_v462 (F := Ideal) x0 x1 (ix3 b ch o)
    = val_main_v366 (F := Ideal) x0 (ix4 b ch
        (Spec.cellFin 16 (by decide) (Spec.tapRow Spec.szf2 15#32 1 (Spec.gyOf x1 o)))
        (Spec.cellFin 16 (by decide) (Spec.tapCol Spec.szf2 15#32 1 (Spec.gxOf x1 o)))) := by
  unfold val_main_v462
  rw [LibBatchGather.gather_points_apply (by decide) (by decide) _ rfl rfl rfl rfl rfl rfl rfl, pair1_row, pair1_col,
    TapFacts.rRow_clampRow (n := 16) (by decide) (by decide) rfl, TapFacts.rCol_clampRow (n := 16) (by decide) (by decide) rfl]

theorem idx_w1 : idx_main_v464 (idx_main_v465 (ix3 b ch o)) = ix2 b o := by
  funext a
  match a with
  | ⟨0, _⟩ => rfl
  | ⟨1, _⟩ => rfl

theorem wt1_at : val_main_v465 (F := Ideal) x1 (ix3 b ch o)
    = Spec.rWt Spec.szf2 16#32 1 (Spec.gxOf x1 o) (Spec.gyOf x1 o) := by
  rw [val_main_v465_apply, val_main_v464_apply, idx_w1]
  simp only [val_main_v463_apply, val_main_v434_apply, val_main_v433_apply,
    val_main_v432_apply, val_main_cst_155_apply,
    val_main_v446_apply, val_main_v445_apply, val_main_v442_apply, val_main_v439_apply, val_main_v436_apply,
    val_main_v438_apply, val_main_v441_apply, val_main_v444_apply,
    val_main_v435_apply, val_main_c_156_apply, val_main_v437_apply, val_main_c_157_apply,
    val_main_v440_apply, val_main_c_158_apply, val_main_v443_apply, val_main_c_159_apply,
    val_main_v431_apply, val_main_v430_apply, val_main_c_154_apply,
    v389_at, v390_at, v391_at, v392_at]
  rfl

theorem tap1_at : val_main_v466 (F := Ideal) x0 x1 (ix3 b ch o)
    = val_main_v366 (F := Ideal) x0 (ix4 b ch
        (Spec.cellFin 16 (by decide) (Spec.tapRow Spec.szf2 15#32 1 (Spec.gyOf x1 o)))
        (Spec.cellFin 16 (by decide) (Spec.tapCol Spec.szf2 15#32 1 (Spec.gxOf x1 o))))
      * Spec.rWt Spec.szf2 16#32 1 (Spec.gxOf x1 o) (Spec.gyOf x1 o) := by
  rw [val_main_v466_apply, gath1_at, wt1_at]
  rfl

theorem row2_at : val_main_v491 (F := Ideal) x1 (ix2 b o) = Spec.rRow Spec.szf2 16#32 15#32 2 (Spec.gyOf x1 o) := by
  simp only [val_main_v491_apply, val_main_v488_apply, val_main_v490_apply, val_main_v485_apply,
    val_main_call21_v2_apply, val_main_call21_v1_apply, val_main_call21_v0_apply, val_main_c_174_apply,
    val_main_call21_v4_apply, val_main_call21_v3_apply, val_main_c_175_apply,
    val_main_v487_apply, val_main_c_178_apply, val_main_v489_apply, val_main_c_179_apply,
    val_main_v469_apply, val_main_v468_apply, val_main_c_168_apply, v392_at]
  rfl

theorem col2_at : val_main_v496 (F := Ideal) x1 (ix2 b o) = Spec.rCol Spec.szf2 16#32 15#32 2 (Spec.gxOf x1 o) := by
  simp only [val_main_v496_apply, val_main_v493_apply, val_main_v495_apply, val_main_v486_apply,
    val_main_call22_v2_apply, val_main_call22_v1_apply, val_main_call22_v0_apply, val_main_c_176_apply,
    val_main_call22_v4_apply, val_main_call22_v3_apply, val_main_c_177_apply,
    val_main_v492_apply, val_main_c_180_apply, val_main_v494_apply, val_main_c_181_apply, v391_at]
  rfl

theorem idx_v497 (c : Fin 1) : idx_main_v497 (ix3 b o c) = ix2 b o := by
  funext a
  match a with
  | ⟨0, _⟩ => rfl
  | ⟨1, _⟩ => rfl

theorem idx_v498 (c : Fin 1) : idx_main_v498 (ix3 b o c) = ix2 b o := by
  funext a
  match a with
  | ⟨0, _⟩ => rfl
  | ⟨1, _⟩ => rfl

theorem pair2_row : val_main_v499 (F := Ideal) x1 (ix3 b o 0) = Spec.rRow Spec.szf2 16#32 15#32 2 (Spec.gyOf x1 o) := by
  unfold val_main_v499
  refine (concatenate_pair_apply_left (t := S128x2048x2) (s₁ := S128x2048x1) (s₂ := S128x2048x1) 2 _ _ _
    (ix3 b o 0) rfl (ix3 b o 0)
    (fun a => match a with | ⟨0, _⟩ => rfl | ⟨1, _⟩ => rfl | ⟨2, _⟩ => rfl)).trans ?_
  rw [val_main_v497_apply, idx_v497]
  exact row2_at x1 b o

theorem pair2_col : val_main_v499 (F := Ideal) x1 (ix3 b o 1) = Spec.rCol Spec.szf2 16#32 15#32 2 (Spec.gxOf x1 o) := by
  unfold val_main_v499
  refine (concatenate_pair_apply_right (t := S128x2048x2) (s₁ := S128x2048x1) (s₂ := S128x2048x1) 2 _ _ _
    (ix3 b o 1) rfl rfl (ix3 b o 0)
    (fun a ha => match a, ha with | ⟨0, _⟩, _ => rfl | ⟨1, _⟩, _ => rfl | ⟨2, _⟩, ha => absurd rfl ha) rfl).trans ?_
  rw [val_main_v498_apply, idx_v498]
  exact col2_at x1 b o

theorem gath2_at : val_main_v500 (F := Ideal) x0 x1 (ix3 b ch o)
    = val_main_v366 (F := Ideal) x0 (ix4 b ch
        (Spec.cellFin 16 (by decide) (Spec.tapRow Spec.szf2 15#32 2 (Spec.gyOf x1 o)))
        (Spec.cellFin 16 (by decide) (Spec.tapCol Spec.szf2 15#32 2 (Spec.gxOf x1 o)))) := by
  unfold val_main_v500
  rw [LibBatchGather.gather_points_apply (by decide) (by decide) _ rfl rfl rfl rfl rfl rfl rfl, pair2_row, pair2_col,
    TapFacts.rRow_clampRow (n := 16) (by decide) (by decide) rfl, TapFacts.rCol_clampRow (n := 16) (by decide) (by decide) rfl]

theorem idx_w2 : idx_main_v502 (idx_main_v503 (ix3 b ch o)) = ix2 b o := by
  funext a
  match a with
  | ⟨0, _⟩ => rfl
  | ⟨1, _⟩ => rfl

theorem wt2_at : val_main_v503 (F := Ideal) x1 (ix3 b ch o)
    = Spec.rWt Spec.szf2 16#32 2 (Spec.gxOf x1 o) (Spec.gyOf x1 o) := by
  rw [val_main_v503_apply, val_main_v502_apply, idx_w2]
  simp only [val_main_v501_apply, val_main_v472_apply, val_main_v471_apply,
    val_main_v470_apply, val_main_cst_169_apply,
    val_main_v484_apply, val_main_v483_apply, val_main_v480_apply, val_main_v477_apply, val_main_v474_apply,
    val_main_v476_apply, val_main_v479_apply, val_main_v482_apply,
    val_main_v473_apply, val_main_c_170_apply, val_main_v475_apply, val_main_c_171_apply,
    val_main_v478_apply, val_main_c_172_apply, val_main_v481_apply, val_main_c_173_apply,
    val_main_v469_apply, val_main_v468_apply, val_main_c_168_apply,
    v389_at, v390_at, v391_at, v392_at]
  rfl

theorem tap2_at : val_main_v504 (F := Ideal) x0 x1 (ix3 b ch o)
    = val_main_v366 (F := Ideal) x0 (ix4 b ch
        (Spec.cellFin 16 (by decide) (Spec.tapRow Spec.szf2 15#32 2 (Spec.gyOf x1 o)))
        (Spec.cellFin 16 (by decide) (Spec.tapCol Spec.szf2 15#32 2 (Spec.gxOf x1 o))))
      * Spec.rWt Spec.szf2 16#32 2 (Spec.gxOf x1 o) (Spec.gyOf x1 o) := by
  rw [val_main_v504_apply, gath2_at, wt2_at]
  rfl

theorem row3_at : val_main_v529 (F := Ideal) x1 (ix2 b o) = Spec.rRow Spec.szf2 16#32 15#32 3 (Spec.gyOf x1 o) := by
  simp only [val_main_v529_apply, val_main_v526_apply, val_main_v528_apply, val_main_v523_apply,
    val_main_call23_v2_apply, val_main_call23_v1_apply, val_main_call23_v0_apply, val_main_c_188_apply,
    val_main_call23_v4_apply, val_main_call23_v3_apply, val_main_c_189_apply,
    val_main_v525_apply, val_main_c_192_apply, val_main_v527_apply, val_main_c_193_apply,
    val_main_v507_apply, val_main_v506_apply, val_main_c_182_apply, v392_at]
  rfl

theorem col3_at : val_main_v534 (F := Ideal) x1 (ix2 b o) = Spec.rCol Spec.szf2 16#32 15#32 3 (Spec.gxOf x1 o) := by
  simp only [val_main_v534_apply, val_main_v531_apply, val_main_v533_apply, val_main_v524_apply,
    val_main_call24_v2_apply, val_main_call24_v1_apply, val_main_call24_v0_apply, val_main_c_190_apply,
    val_main_call24_v4_apply, val_main_call24_v3_apply, val_main_c_191_apply,
    val_main_v530_apply, val_main_c_194_apply, val_main_v532_apply, val_main_c_195_apply,
    val_main_v509_apply, val_main_v508_apply, val_main_c_183_apply, v391_at]
  rfl

theorem idx_v535 (c : Fin 1) : idx_main_v535 (ix3 b o c) = ix2 b o := by
  funext a
  match a with
  | ⟨0, _⟩ => rfl
  | ⟨1, _⟩ => rfl

theorem idx_v536 (c : Fin 1) : idx_main_v536 (ix3 b o c) = ix2 b o := by
  funext a
  match a with
  | ⟨0, _⟩ => rfl
  | ⟨1, _⟩ => rfl

theorem pair3_row : val_main_v537 (F := Ideal) x1 (ix3 b o 0) = Spec.rRow Spec.szf2 16#32 15#32 3 (Spec.gyOf x1 o) := by
  unfold val_main_v537
  refine (concatenate_pair_apply_left (t := S128x2048x2) (s₁ := S128x2048x1) (s₂ := S128x2048x1) 2 _ _ _
    (ix3 b o 0) rfl (ix3 b o 0)
    (fun a => match a with | ⟨0, _⟩ => rfl | ⟨1, _⟩ => rfl | ⟨2, _⟩ => rfl)).trans ?_
  rw [val_main_v535_apply, idx_v535]
  exact row3_at x1 b o

theorem pair3_col : val_main_v537 (F := Ideal) x1 (ix3 b o 1) = Spec.rCol Spec.szf2 16#32 15#32 3 (Spec.gxOf x1 o) := by
  unfold val_main_v537
  refine (concatenate_pair_apply_right (t := S128x2048x2) (s₁ := S128x2048x1) (s₂ := S128x2048x1) 2 _ _ _
    (ix3 b o 1) rfl rfl (ix3 b o 0)
    (fun a ha => match a, ha with | ⟨0, _⟩, _ => rfl | ⟨1, _⟩, _ => rfl | ⟨2, _⟩, ha => absurd rfl ha) rfl).trans ?_
  rw [val_main_v536_apply, idx_v536]
  exact col3_at x1 b o

theorem gath3_at : val_main_v538 (F := Ideal) x0 x1 (ix3 b ch o)
    = val_main_v366 (F := Ideal) x0 (ix4 b ch
        (Spec.cellFin 16 (by decide) (Spec.tapRow Spec.szf2 15#32 3 (Spec.gyOf x1 o)))
        (Spec.cellFin 16 (by decide) (Spec.tapCol Spec.szf2 15#32 3 (Spec.gxOf x1 o)))) := by
  unfold val_main_v538
  rw [LibBatchGather.gather_points_apply (by decide) (by decide) _ rfl rfl rfl rfl rfl rfl rfl, pair3_row, pair3_col,
    TapFacts.rRow_clampRow (n := 16) (by decide) (by decide) rfl, TapFacts.rCol_clampRow (n := 16) (by decide) (by decide) rfl]

theorem idx_w3 : idx_main_v540 (idx_main_v541 (ix3 b ch o)) = ix2 b o := by
  funext a
  match a with
  | ⟨0, _⟩ => rfl
  | ⟨1, _⟩ => rfl

theorem wt3_at : val_main_v541 (F := Ideal) x1 (ix3 b ch o)
    = Spec.rWt Spec.szf2 16#32 3 (Spec.gxOf x1 o) (Spec.gyOf x1 o) := by
  rw [val_main_v541_apply, val_main_v540_apply, idx_w3]
  simp only [val_main_v539_apply, val_main_v510_apply,
    val_main_v522_apply, val_main_v521_apply, val_main_v518_apply, val_main_v515_apply, val_main_v512_apply,
    val_main_v514_apply, val_main_v517_apply, val_main_v520_apply,
    val_main_v511_apply, val_main_c_184_apply, val_main_v513_apply, val_main_c_185_apply,
    val_main_v516_apply, val_main_c_186_apply, val_main_v519_apply, val_main_c_187_apply,
    val_main_v507_apply, val_main_v506_apply, val_main_c_182_apply,
    val_main_v509_apply, val_main_v508_apply, val_main_c_183_apply,
    v389_at, v390_at, v391_at, v392_at]
  rfl

theorem tap3_at : val_main_v542 (F := Ideal) x0 x1 (ix3 b ch o)
    = val_main_v366 (F := Ideal) x0 (ix4 b ch
        (Spec.cellFin 16 (by decide) (Spec.tapRow Spec.szf2 15#32 3 (Spec.gyOf x1 o)))
        (Spec.cellFin 16 (by decide) (Spec.tapCol Spec.szf2 15#32 3 (Spec.gxOf x1 o))))
      * Spec.rWt Spec.szf2 16#32 3 (Spec.gxOf x1 o) (Spec.gyOf x1 o) := by
  rw [val_main_v542_apply, gath3_at, wt3_at]
  rfl

theorem v543_apply : val_main_v543 (F := Ideal) x0 x1 (ix3 b ch o)
    = Spec.sample (n := 16) (by decide) Spec.szf2 16#32 15#32
        (fun w h => val_main_v366 (F := Ideal) x0 (ix4 b ch w h)) (Spec.gxOf x1 o) (Spec.gyOf x1 o) := by
  rw [val_main_v543_apply, val_main_v505_apply, val_main_v467_apply, tap0_at, tap1_at, tap2_at, tap3_at]
  rfl

end Cert.ReferenceIdeal.RefLevel2

end
-- ==== Proof.Bridge.lean ====
import proofs.«416765_j9792525435349_4_alg».proof.Proof.Forms
import proofs.«416765_j9792525435349_4_alg».proof.Proof.Algebra
import proofs.«416765_j9792525435349_4_alg».proof.Proof.TapFacts

noncomputable section

namespace Cert.Bridge

open Idealize.ShloMosaic Idealize.ShloMosaic.ValueIdx Cert.Spec

theorem level_eq {n N : ℕ} (hn : 0 < n) (hn64 : n ≤ 64) (hN : N = n * n) (hN0 : 0 < N)
    {szi szm nrows : BitVec 32} (szf : BitVec 32) (hszi : szi = BitVec.ofNat 32 n) (hszm : szm = BitVec.ofNat 32 (n - 1))
    (hszf : ∃ s : ℝ, fw szf = (s : EReal))
    (im : Fin n → Fin n → EReal) (him : ∀ a b, ∃ r : ℝ, im a b = (r : EReal))
    {gx gy : EReal} (hgx : ∃ a : ℝ, gx = (a : EReal)) (hgy : ∃ b : ℝ, gy = (b : EReal))
    (hdiv : ∀ r : Fin N, r.val / n < n) (hmod : ∀ r : Fin N, r.val % n < n) :
    (∑ r : Fin N, im ⟨r.val / n, hdiv r⟩ ⟨r.val % n, hmod r⟩ *
        wentry (fun k => cellFin N hN0 (kFlat szf szi szm nrows k gx gy)) (fun k => kWt szf szi k gx gy) r)
      = sample hn szf szi szm im gx gy := by
  have hcell : ∀ k : Fin 4,
      (cellFin N hN0 (kFlat szf szi szm nrows k gx gy)).val
        = (cellFin n hn (tapRow szf szm k gy)).val * n + (cellFin n hn (tapCol szf szm k gx)).val := by
    intro k
    have h := Cert.TapFacts.kFlat_toInt hn hn64 (nrows := nrows) hszi hszm szf gx gy k
    have hlt := Cert.TapFacts.flat_lt hn (tapRow szf szm k gy) (tapCol szf szm k gx)
    have h0 : 0 ≤ (kFlat szf szi szm nrows k gx gy).toInt := by rw [h]; exact Int.natCast_nonneg _
    have h1 := Cert.TapFacts.toNat_of_toInt_nonneg _ h0
    have h2 : (kFlat szf szi szm nrows k gx gy).toNat
        = (cellFin n hn (tapRow szf szm k gy)).val * n + (cellFin n hn (tapCol szf szm k gx)).val := by
      have h3 := h1.trans h
      exact_mod_cast h3
    show (kFlat szf szi szm nrows k gx gy).toNat % N = _
    rw [h2, Nat.mod_eq_of_lt (by rw [hN]; exact hlt)]
  have key : ∀ k : Fin 4,
      im ⟨(cellFin N hN0 (kFlat szf szi szm nrows k gx gy)).val / n, hdiv _⟩
          ⟨(cellFin N hN0 (kFlat szf szi szm nrows k gx gy)).val % n, hmod _⟩
        = im (cellFin n hn (tapRow szf szm k gy)) (cellFin n hn (tapCol szf szm k gx)) := by
    intro k
    refine congrArg₂ im (Fin.ext ?_) (Fin.ext ?_)
    · show _ / n = _
      rw [hcell k, Cert.TapFacts.flat_div (cellFin n hn (tapCol szf szm k gx)).isLt]
    · show _ % n = _
      rw [hcell k, Cert.TapFacts.flat_mod (cellFin n hn (tapCol szf szm k gx)).isLt]
  rw [Cert.Algebra.taps_sum (fun r : Fin N => im ⟨r.val / n, hdiv r⟩ ⟨r.val % n, hmod r⟩) (fun r => him _ _) _ _
    (fun k => Cert.TapFacts.kWt_real szf szi k hszf hgx hgy)]
  unfold sample
  dsimp only
  simp only [key, Cert.TapFacts.rWt_eq_kWt]

theorem rY_lo (x : SX.Idx → EReal) (g : SG.Idx → EReal) (n : Fin 8) (tt : Fin 16) (o : Fin 2048) (k : Fin 192) (ch : Fin 64)
    (hk : k.val = ch.val) :
    rY x g n tt o k = sample (n := 64) (by decide) szf0 64#32 63#32 (img0 x n ch tt) (gxOf g o) (gyOf g o) := by
  have h1 : k.val < 64 := by have := ch.isLt; omega
  have h2 : (⟨k.val % 64, Nat.mod_lt _ (by decide)⟩ : Fin 64) = ch := Fin.ext (by show k.val % 64 = ch.val; omega)
  unfold rY
  rw [if_pos h1, h2]

theorem rY_mid (x : SX.Idx → EReal) (g : SG.Idx → EReal) (n : Fin 8) (tt : Fin 16) (o : Fin 2048) (k : Fin 192) (ch : Fin 64)
    (hk : k.val = 64 + ch.val) :
    rY x g n tt o k = sample (n := 32) (by decide) szf1 32#32 31#32 (pool64 (img0 x n ch tt)) (gxOf g o) (gyOf g o) := by
  have h1 : ¬ k.val < 64 := by omega
  have h1' : k.val < 128 := by have := ch.isLt; omega
  have h2 : (⟨k.val % 64, Nat.mod_lt _ (by decide)⟩ : Fin 64) = ch := Fin.ext (by show k.val % 64 = ch.val; have := ch.isLt; omega)
  unfold rY
  rw [if_neg h1, if_pos h1', h2]

theorem rY_hi (x : SX.Idx → EReal) (g : SG.Idx → EReal) (n : Fin 8) (tt : Fin 16) (o : Fin 2048) (k : Fin 192) (ch : Fin 64)
    (hk : k.val = 128 + ch.val) :
    rY x g n tt o k = sample (n := 16) (by decide) szf2 16#32 15#32 (pool32 (pool64 (img0 x n ch tt))) (gxOf g o) (gyOf g o) := by
  have h1 : ¬ k.val < 64 := by omega
  have h1' : ¬ k.val < 128 := by omega
  have h2 : (⟨k.val % 64, Nat.mod_lt _ (by decide)⟩ : Fin 64) = ch := Fin.ext (by show k.val % 64 = ch.val; have := ch.isLt; omega)
  unfold rY
  rw [if_neg h1, if_neg h1', h2]

theorem kChunk_eq (x : SX.Idx → EReal) (g : SG.Idx → EReal) (f : SFt.Idx → EReal)
    (hx : ∀ i, ∃ r : ℝ, x i = (r : EReal)) (hg : ∀ i, ∃ r : ℝ, g i = (r : EReal))
    (n : Fin 8) (tt : Fin 16) (o : Fin 2048) (cc : Fin 2) :
    kChunk x g f n tt o cc = Cert.Algebra.Y192 (fun k => rY x g n tt o k * f (ix4 0 k 0 o)) cc := by
  rw [Cert.Algebra.Y192_mul (fun k => rY x g n tt o k) (fun k => f (ix4 0 k 0 o)) cc]
  have hx0 : ∀ ch : Fin 64, ∀ a b, ∃ r : ℝ, img0 x n ch tt a b = (r : EReal) := fun ch a b => hx _
  have hx1 : ∀ ch : Fin 64, ∀ a b, ∃ r : ℝ, pool64 (img0 x n ch tt) a b = (r : EReal) :=
    fun ch a b => Cert.Algebra.pool64_real _ (hx0 ch) a b
  have hx2 : ∀ ch : Fin 64, ∀ a b, ∃ r : ℝ, pool32 (pool64 (img0 x n ch tt)) a b = (r : EReal) :=
    fun ch a b => Cert.Algebra.pool32_real _ (hx1 ch) a b
  have e0 : ∀ c : Fin 32,
      (∑ r : Fin 4096, img0 x n ⟨cc.val * 32 + c.val, by omega⟩ tt ⟨r.val / 64, by omega⟩ ⟨r.val % 64, by omega⟩ * w64 g r o)
        = rY x g n tt o ⟨cc.val * 32 + c.val, by omega⟩ := by
    intro c
    rw [rY_lo x g n tt o ⟨cc.val * 32 + c.val, by omega⟩ ⟨cc.val * 32 + c.val, by omega⟩ rfl]
    exact level_eq (n := 64) (N := 4096) (by decide) (by decide) (by norm_num) (by decide) (nrows := 4096#32) szf0 rfl rfl
      Cert.TapFacts.fw_real_64 (img0 x n ⟨cc.val * 32 + c.val, by omega⟩ tt) (hx0 _) (hg _) (hg _)
      (fun r => by have := r.isLt; omega) (fun r => Nat.mod_lt _ (by decide))
  have e1 : ∀ c : Fin 32,
      (∑ r : Fin 1024, pool64 (img0 x n ⟨cc.val * 32 + c.val, by omega⟩ tt) ⟨r.val / 32, by omega⟩ ⟨r.val % 32, by omega⟩ * w32 g r o)
        = rY x g n tt o ⟨64 + cc.val * 32 + c.val, by omega⟩ := by
    intro c
    rw [rY_mid x g n tt o ⟨64 + cc.val * 32 + c.val, by omega⟩ ⟨cc.val * 32 + c.val, by omega⟩ (by show 64 + cc.val * 32 + c.val = 64 + (cc.val * 32 + c.val); omega)]
    exact level_eq (n := 32) (N := 1024) (by decide) (by decide) (by norm_num) (by decide) (nrows := 1024#32) szf1 rfl rfl
      Cert.TapFacts.fw_real_32 (pool64 (img0 x n ⟨cc.val * 32 + c.val, by omega⟩ tt)) (hx1 _) (hg _) (hg _)
      (fun r => by have := r.isLt; omega) (fun r => Nat.mod_lt _ (by decide))
  have e2 : ∀ c : Fin 32,
      (∑ r : Fin 256, pool32 (pool64 (img0 x n ⟨cc.val * 32 + c.val, by omega⟩ tt)) ⟨r.val / 16, by omega⟩ ⟨r.val % 16, by omega⟩ * w16 g r o)
        = rY x g n tt o ⟨128 + cc.val * 32 + c.val, by omega⟩ := by
    intro c
    rw [rY_hi x g n tt o ⟨128 + cc.val * 32 + c.val, by omega⟩ ⟨cc.val * 32 + c.val, by omega⟩ (by show 128 + cc.val * 32 + c.val = 128 + (cc.val * 32 + c.val); omega)]
    exact level_eq (n := 16) (N := 256) (by decide) (by decide) (by norm_num) (by decide) (nrows := 256#32) szf2 rfl rfl
      Cert.TapFacts.fw_real_16 (pool32 (pool64 (img0 x n ⟨cc.val * 32 + c.val, by omega⟩ tt))) (hx2 _) (hg _) (hg _)
      (fun r => by have := r.isLt; omega) (fun r => Nat.mod_lt _ (by decide))
  unfold kChunk
  simp only [e0, e1, e2]

/-- The two forms agree where image and grid are real: a product distributes over the four taps' sum, and the 192 terms regroup into two chunks of three levels. -/
theorem kOut_eq_rOut (x : SX.Idx → EReal) (g : SG.Idx → EReal) (f : SFt.Idx → EReal) (b : SB.Idx → EReal)
    (hx : ∀ i, ∃ r : ℝ, x i = (r : EReal)) (hg : ∀ i, ∃ r : ℝ, g i = (r : EReal))
    (n : Fin 8) (tt : Fin 16) (o : Fin 2048) :
    kOut x g f b n tt o = rOut x g f b n tt o := by
  unfold kOut rOut
  rw [Cert.Algebra.regroup192 (fun k => rY x g n tt o k * f (ix4 0 k 0 o)),
    kChunk_eq x g f hx hg n tt o 0, kChunk_eq x g f hx hg n tt o 1]

end Cert.Bridge

end
-- ==== Proof.FiniteInputs.lean ====
import proofs.«416765_j9792525435349_4_alg».proof.Pre_finite_inputs
import proofs.«416765_j9792525435349_4_alg».proof.Proof.Gen.Pre_finite_inputs
import proofs.«416765_j9792525435349_4_alg».proof.Defs
import Idealize.ShloMosaic.Lib.ReduceAll
import Idealize.ShloMosaic.Lib.ValueIdx
import Idealize.ShloMosaic.PureOps.Ideal

noncomputable section

namespace Cert.Finite

open Idealize.ShloMosaic Idealize.SL.Sem
open Cert.Pre_finite_inputs

local instance subsingleton_scalar_idx : Subsingleton S_.Idx := ⟨fun a b => funext fun d => d.elim0⟩

theorem inf_pattern : Ideal.ofBits .f32 0x7F800000#32 = (⊤ : EReal) := by
  simp [Ideal.ofBits, Ideal.ieee]

theorem lt_of_cmp_olt (a b : EReal) (h : Ideal.cmp .olt a b = 1#1) : a < b := by
  unfold Ideal.cmp at h
  by_contra hn
  simp [hn] at h

theorem real_of_abs_lt_top (a : EReal) (h : max a (-a) < (⊤ : EReal)) : ∃ r : ℝ, a = (r : EReal) := by
  induction a using EReal.rec with
  | bot => simp at h
  | coe r => exact ⟨r, rfl⟩
  | top => simp at h

theorem reals_of_all {s : Shape} {axes : List (Fin s.rank)} (x : FVec Ideal s .f32)
    (hb : S_.BroadcastsInDim s (![] : Fin 0 → Fin s.rank)) (hr : s.ReducesTo axes S_) (hu : 0 < S_.numel)
    (c : IVec S_ 1)
    (e : Host.reduce IntOp.andi
          (cmpf .olt (Host.absf x) (broadcastInDim s ![] hb (constant (F := Ideal) S_ .f32 0x7F800000#32))) c hr hu
          ValueIdx.ix0 = 1#1) :
    ∀ i, ∃ r : ℝ, x i = (r : EReal) := by
  intro i
  have h1 := Host.reduce_andi_all _ c hr hu ValueIdx.ix0 e i
  have h2 : Ideal.cmp .olt (max (x i) (-(x i))) (Ideal.ofBits .f32 0x7F800000#32) = 1#1 := h1
  rw [inf_pattern] at h2
  exact real_of_abs_lt_top (x i) (lt_of_cmp_olt _ _ h2)

theorem reals_of_pre (x : FVec Ideal S8x64x16x64x64 .f32) (g : FVec Ideal S1x2048x1x2 .f32)
    (f : FVec Ideal S1x192x1x2048 .f32) (b : FVec Ideal S2048 .f32)
    (h : Cert.Pre_finite_inputs.fn (F := Ideal) x g f b = (fun _ => 1#1)) :
    (∀ i, ∃ r : ℝ, x i = (r : EReal)) ∧ (∀ i, ∃ r : ℝ, g i = (r : EReal))
      ∧ (∀ i, ∃ r : ℝ, f i = (r : EReal)) ∧ (∀ i, ∃ r : ℝ, b i = (r : EReal)) := by
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨reals_of_all x _ _ _ _ h1, reals_of_all g _ _ _ _ h2, reals_of_all f _ _ _ _ h3, reals_of_all b _ _ _ _ h4⟩

/-- Under the precondition every entry of every argument is a real number. -/
theorem reals_of_Pre_KernelIdeal
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i : S8x64x16x64x64.Idx, ∃ r : ℝ, m ((c.tc : Thread Cert.KernelIdeal.nD Cert.KernelIdeal.τ).loc Cert.KernelIdeal.main_arg0) i = (r : EReal))
      ∧ (∀ i : S1x2048x1x2.Idx, ∃ r : ℝ, m ((c.tc : Thread Cert.KernelIdeal.nD Cert.KernelIdeal.τ).loc Cert.KernelIdeal.main_arg1) i = (r : EReal))
      ∧ (∀ i : S1x192x1x2048.Idx, ∃ r : ℝ, m ((c.tc : Thread Cert.KernelIdeal.nD Cert.KernelIdeal.τ).loc Cert.KernelIdeal.main_arg2) i = (r : EReal))
      ∧ (∀ i : S2048.Idx, ∃ r : ℝ, m ((c.tc : Thread Cert.KernelIdeal.nD Cert.KernelIdeal.τ).loc Cert.KernelIdeal.main_arg3) i = (r : EReal)) :=
  reals_of_pre _ _ _ _ (hpre c)

end Cert.Finite

end
-- ==== Proof.lean ====
import proofs.«416765_j9792525435349_4_alg».proof.Defs
import proofs.«416765_j9792525435349_4_alg».proof.Proof.Gen.Kernel
import proofs.«416765_j9792525435349_4_alg».proof.Proof.Gen.KernelIdeal
import proofs.«416765_j9792525435349_4_alg».proof.Proof.Gen.ReferenceIdeal
import proofs.«416765_j9792525435349_4_alg».proof.Proof.Gen.Pre_finite_inputs
import proofs.«416765_j9792525435349_4_alg».proof.Proof.PatchedKernel.Frame
import proofs.«416765_j9792525435349_4_alg».proof.Proof.PatchedKernelIdeal.Value
import proofs.«416765_j9792525435349_4_alg».proof.Proof.KVal
import proofs.«416765_j9792525435349_4_alg».proof.Proof.RefRun
import proofs.«416765_j9792525435349_4_alg».proof.Proof.RefTop
import proofs.«416765_j9792525435349_4_alg».proof.Proof.RefImg
import proofs.«416765_j9792525435349_4_alg».proof.Proof.RefLevel0
import proofs.«416765_j9792525435349_4_alg».proof.Proof.RefLevel1
import proofs.«416765_j9792525435349_4_alg».proof.Proof.RefLevel2
import proofs.«416765_j9792525435349_4_alg».proof.Proof.Bridge
import proofs.«416765_j9792525435349_4_alg».proof.Proof.FiniteInputs
import Idealize.ShloMosaic.Adequacy
import Idealize.ShloMosaic.Init

noncomputable section

namespace Cert.Proof

open Idealize.ShloMosaic Idealize.ShloMosaic.ValueIdx Idealize.SL.Sem

/-- The reference's last stage, read at a cell, is its form of the cell. -/
theorem ref_value (x0 : Cert.ReferenceIdeal.RefTop.X0) (x1 : Cert.ReferenceIdeal.RefTop.X1) (x2 : Cert.ReferenceIdeal.RefTop.X2)
    (x3 : Cert.ReferenceIdeal.RefTop.X3) (n : Fin 8) (tt : Fin 16) (o : Fin 2048) :
    Cert.ReferenceIdeal.ReadP.val_main_v552 (F := Ideal) x0 x1 x2 x3 (ix3 n tt o) = Cert.Spec.rOut x0 x1 x2 x3 n tt o :=
  Cert.ReferenceIdeal.RefTop.v552_apply_of x0 x1 (Cert.ReferenceIdeal.RefImg.v4_apply x0) (Cert.ReferenceIdeal.RefImg.v185_apply x0)
    (Cert.ReferenceIdeal.RefImg.v366_apply x0) (Cert.ReferenceIdeal.RefLevel0.v181_apply x0 x1) (Cert.ReferenceIdeal.RefLevel1.v362_apply x0 x1)
    (Cert.ReferenceIdeal.RefLevel2.v543_apply x0 x1) x2 x3 n tt o

theorem frame_k : Cert.frame_Kernel (hKernel := Cert.Kernel.Gen.facts) (hPre_finite_inputs := Cert.Pre_finite_inputs.Gen.facts) :=
  fun m ρ _ => Cert.Kernel.GenP.frame m ρ

theorem frame_ki : Cert.frame_KernelIdeal (hKernelIdeal := Cert.KernelIdeal.Gen.facts) (hPre_finite_inputs := Cert.Pre_finite_inputs.Gen.facts) :=
  fun m ρ _ => Cert.KernelIdeal.GenP.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- Both programs end with every cell at the kernel's form; the reference's form equals it for a real image and grid. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun i => Cert.Spec.kOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (i 0) (i 1) (i 2), ?_, ?_⟩
  · exact (θ_run Cert.KernelIdeal.defs _ _).mono
      (fun r h c => ⟨(h c).1.trans (Cert.KernelIdeal.KVal.kernel_final m c), (h c).2⟩)
      (Cert.KernelIdeal.ValueP.run_blocks (F := Ideal) m ρ)
  · refine (θ_run Cert.ReferenceIdeal.defs _ _).mono (fun r h c => ⟨(h c).1.trans ?_, (h c).2⟩)
      (Cert.ReferenceIdeal.RefRun.run (F := Ideal) m' ρ')
    obtain ⟨hx, hg, -, -⟩ := Cert.Finite.reals_of_Pre_KernelIdeal m hpre c
    rw [(hagree c).1, (hagree c).2.1, (hagree c).2.2.1, (hagree c).2.2.2]
    funext i
    obtain ⟨n, tt, o, rfl⟩ : ∃ (n : Fin 8) (tt : Fin 16) (o : Fin 2048), i = ix3 n tt o := ⟨i 0, i 1, i 2, eq_ix3 i⟩
    rw [ref_value]
    exact (Cert.Bridge.kOut_eq_rOut _ _ _ _ hx hg n tt o).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
